-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v202) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024 : Shape := ⟨2, ![8, 1024]⟩
abbrev S8x1024x1024 : Shape := ⟨3, ![8, 1024, 1024]⟩
abbrev S32000x1024 : Shape := ⟨2, ![32000, 1024]⟩
abbrev S6x3072x1024 : Shape := ⟨3, ![6, 3072, 1024]⟩
abbrev S6x1024x1024 : Shape := ⟨3, ![6, 1024, 1024]⟩
abbrev S6x1024 : Shape := ⟨2, ![6, 1024]⟩
abbrev S32000 : Shape := ⟨1, ![32000]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S32000x1024 : S_.BroadcastsInDim S32000x1024 (![] : Fin 0 → Fin S32000x1024.rank)
  reducesTo_S32000x1024_S_d0_1 : S32000x1024.ReducesTo [0, 1] S_
  bcast_S_S6x3072x1024 : S_.BroadcastsInDim S6x3072x1024 (![] : Fin 0 → Fin S6x3072x1024.rank)
  reducesTo_S6x3072x1024_S_d0_1_2 : S6x3072x1024.ReducesTo [0, 1, 2] S_
  bcast_S_S6x1024x1024 : S_.BroadcastsInDim S6x1024x1024 (![] : Fin 0 → Fin S6x1024x1024.rank)
  reducesTo_S6x1024x1024_S_d0_1_2 : S6x1024x1024.ReducesTo [0, 1, 2] S_
  bcast_S_S6x1024 : S_.BroadcastsInDim S6x1024 (![] : Fin 0 → Fin S6x1024.rank)
  reducesTo_S6x1024_S_d0_1 : S6x1024.ReducesTo [0, 1] S_
  bcast_S_S32000 : S_.BroadcastsInDim S32000 (![] : Fin 0 → Fin S32000.rank)
  reducesTo_S32000_S_d0 : S32000.ReducesTo [0] S_
  bcast_S_S8x1024 : S_.BroadcastsInDim S8x1024 (![] : Fin 0 → Fin S8x1024.rank)
  reducesTo_S8x1024_S_d0_1 : S8x1024.ReducesTo [0, 1] S_

variable [Facts]

def fn_part2 {F : FTy → Type} [FloatOps F] (main_arg0 : IVec S8x1024 32) (main_v33 : IVec S_ 1) : IVec S_ 1 :=
  let main_c_12 : IVec S_ 32 := constantI S_ 32 0#32
  let main_v34 : IVec S8x1024 32 := broadcastInDim S8x1024 ![] bcast_S_S8x1024 main_c_12
  let main_v35 : IVec S8x1024 1 := cmpi .sge main_arg0 main_v34
  let main_c_13 : IVec S_ 1 := constantI S_ 1 1#1
  let main_v36 : IVec S_ 1 := (fun x v => Host.reduce IntOp.andi x v reducesTo_S8x1024_S_d0_1 h_S_) main_v35 main_c_13
  let main_v37 : IVec S_ 1 := andi main_v33 main_v36
  let main_c_14 : IVec S_ 32 := constantI S_ 32 32000#32
  let main_v38 : IVec S8x1024 32 := broadcastInDim S8x1024 ![] bcast_S_S8x1024 main_c_14
  let main_v39 : IVec S8x1024 1 := cmpi .slt main_arg0 main_v38
  let main_c_15 : IVec S_ 1 := constantI S_ 1 1#1
  let main_v40 : IVec S_ 1 := (fun x v => Host.reduce IntOp.andi x v reducesTo_S8x1024_S_d0_1 h_S_) main_v39 main_c_15
  let main_v41 : IVec S_ 1 := andi main_v37 main_v40
  main_v41

def fn_part1 {F : FTy → Type} [FloatOps F] (main_arg0 : IVec S8x1024 32) (main_arg5 : FVec F S6x1024 .f32) (main_arg6 : FVec F S32000x1024 .f32) (main_arg7 : FVec F S32000 .f32) (main_v13 : IVec S_ 1) (main_v16 : IVec S6x1024x1024 1) : IVec S_ 1 :=
  let main_c_5 : IVec S_ 1 := constantI S_ 1 1#1
  let main_v17 : IVec S_ 1 := (fun x v => Host.reduce IntOp.andi x v reducesTo_S6x1024x1024_S_d0_1_2 h_S_) main_v16 main_c_5
  let main_v18 : IVec S_ 1 := andi main_v13 main_v17
  let main_v19 : FVec F S6x1024 .f32 := Host.absf main_arg5
  let main_cst_6 : FVec F S_ .f32 := constant S_ .f32 0x7F800000#32
  let main_v20 : FVec F S6x1024 .f32 := broadcastInDim S6x1024 ![] bcast_S_S6x1024 main_cst_6
  let main_v21 : IVec S6x1024 1 := cmpf .olt main_v19 main_v20
  let main_c_7 : IVec S_ 1 := constantI S_ 1 1#1
  let main_v22 : IVec S_ 1 := (fun x v => Host.reduce IntOp.andi x v reducesTo_S6x1024_S_d0_1 h_S_) main_v21 main_c_7
  let main_v23 : IVec S_ 1 := andi main_v18 main_v22
  let main_v24 : FVec F S32000x1024 .f32 := Host.absf main_arg6
  let main_cst_8 : FVec F S_ .f32 := constant S_ .f32 0x7F800000#32
  let main_v25 : FVec F S32000x1024 .f32 := broadcastInDim S32000x1024 ![] bcast_S_S32000x1024 main_cst_8
  let main_v26 : IVec S32000x1024 1 := cmpf .olt main_v24 main_v25
  let main_c_9 : IVec S_ 1 := constantI S_ 1 1#1
  let main_v27 : IVec S_ 1 := (fun x v => Host.reduce IntOp.andi x v reducesTo_S32000x1024_S_d0_1 h_S_) main_v26 main_c_9
  let main_v28 : IVec S_ 1 := andi main_v23 main_v27
  let main_v29 : FVec F S32000 .f32 := Host.absf main_arg7
  let main_cst_10 : FVec F S_ .f32 := constant S_ .f32 0x7F800000#32
  let main_v30 : FVec F S32000 .f32 := broadcastInDim S32000 ![] bcast_S_S32000 main_cst_10
  let main_v31 : IVec S32000 1 := cmpf .olt main_v29 main_v30
  let main_c_11 : IVec S_ 1 := constantI S_ 1 1#1
  let main_v32 : IVec S_ 1 := (fun x v => Host.reduce IntOp.andi x v reducesTo_S32000_S_d0 h_S_) main_v31 main_c_11
  let main_v33 : IVec S_ 1 := andi main_v28 main_v32
  fn_part2 (F := F) main_arg0 main_v33

def fn {F : FTy → Type} [FloatOps F] (main_arg0 : IVec S8x1024 32) (main_arg1 : FVec F S8x1024x1024 .f32) (main_arg2 : FVec F S32000x1024 .f32) (main_arg3 : FVec F S6x3072x1024 .f32) (main_arg4 : FVec F S6x1024x1024 .f32) (main_arg5 : FVec F S6x1024 .f32) (main_arg6 : FVec F S32000x1024 .f32) (main_arg7 : FVec F S32000 .f32) : IVec S_ 1 :=
  let main_v0 : FVec F S8x1024x1024 .f32 := Host.absf main_arg1
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S32000x1024 .f32 := Host.absf main_arg2
  let main_cst_0 : FVec F S_ .f32 := constant S_ .f32 0x7F800000#32
  let main_v5 : FVec F S32000x1024 .f32 := broadcastInDim S32000x1024 ![] bcast_S_S32000x1024 main_cst_0
  let main_v6 : IVec S32000x1024 1 := cmpf .olt main_v4 main_v5
  let main_c_1 : IVec S_ 1 := constantI S_ 1 1#1
  let main_v7 : IVec S_ 1 := (fun x v => Host.reduce IntOp.andi x v reducesTo_S32000x1024_S_d0_1 h_S_) main_v6 main_c_1
  let main_v8 : IVec S_ 1 := andi main_v3 main_v7
  let main_v9 : FVec F S6x3072x1024 .f32 := Host.absf main_arg3
  let main_cst_2 : FVec F S_ .f32 := constant S_ .f32 0x7F800000#32
  let main_v10 : FVec F S6x3072x1024 .f32 := broadcastInDim S6x3072x1024 ![] bcast_S_S6x3072x1024 main_cst_2
  let main_v11 : IVec S6x3072x1024 1 := cmpf .olt main_v9 main_v10
  let main_c_3 : IVec S_ 1 := constantI S_ 1 1#1
  let main_v12 : IVec S_ 1 := (fun x v => Host.reduce IntOp.andi x v reducesTo_S6x3072x1024_S_d0_1_2 h_S_) main_v11 main_c_3
  let main_v13 : IVec S_ 1 := andi main_v8 main_v12
  let main_v14 : FVec F S6x1024x1024 .f32 := Host.absf main_arg4
  let main_cst_4 : FVec F S_ .f32 := constant S_ .f32 0x7F800000#32
  let main_v15 : FVec F S6x1024x1024 .f32 := broadcastInDim S6x1024x1024 ![] bcast_S_S6x1024x1024 main_cst_4
  let main_v16 : IVec S6x1024x1024 1 := cmpf .olt main_v14 main_v15
  fn_part1 (F := F) main_arg0 main_arg5 main_arg6 main_arg7 main_v13 main_v16
-- ==== Kernel.lean ====
abbrev S8x1024 : Shape := ⟨2, ![8, 1024]⟩
abbrev S8x1024x1024 : Shape := ⟨3, ![8, 1024, 1024]⟩
abbrev S32000x1024 : Shape := ⟨2, ![32000, 1024]⟩
abbrev S6x3072x1024 : Shape := ⟨3, ![6, 3072, 1024]⟩
abbrev S6x1024x1024 : Shape := ⟨3, ![6, 1024, 1024]⟩
abbrev S6x1024 : Shape := ⟨2, ![6, 1024]⟩
abbrev S32000 : Shape := ⟨1, ![32000]⟩
abbrev S_ : Shape := ⟨0, ![]⟩
abbrev S8x1024x1 : Shape := ⟨3, ![8, 1024, 1]⟩
abbrev S1 : Shape := ⟨1, ![1]⟩
abbrev S1x1x1 : Shape := ⟨3, ![1, 1, 1]⟩
abbrev S6x1x1024 : Shape := ⟨3, ![6, 1, 1024]⟩
abbrev S1x1024x1024 : Shape := ⟨3, ![1, 1024, 1024]⟩
abbrev S1024x1024 : Shape := ⟨2, ![1024, 1024]⟩
abbrev S1x1x1024 : Shape := ⟨3, ![1, 1, 1024]⟩
abbrev S1x1024 : Shape := ⟨2, ![1, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S8192x1024 : Shape := ⟨2, ![8192, 1024]⟩
abbrev S1x32000 : Shape := ⟨2, ![1, 32000]⟩
abbrev S8192x32000 : Shape := ⟨2, ![8192, 32000]⟩
abbrev S1280x1024 : Shape := ⟨2, ![1280, 1024]⟩
abbrev S1x1280 : Shape := ⟨2, ![1, 1280]⟩
abbrev S1024x1280 : Shape := ⟨2, ![1024, 1280]⟩
abbrev S1280 : Shape := ⟨1, ![1280]⟩
abbrev S8x1024x32000 : Shape := ⟨3, ![8, 1024, 32000]⟩

abbrev nBuf : Space → Nat
  | .hbm => 116
  | .vmem => 86
  | .smem => 0
  | _ => 0

abbrev bufTy : (tb : Table) → Fin (tcTables nBuf tb) → BufTy
  | .hbm, ⟨0, _⟩ => ⟨S8x1024, .i32⟩
  | .hbm, ⟨1, _⟩ => ⟨S8x1024x1024, .f32⟩
  | .hbm, ⟨2, _⟩ => ⟨S32000x1024, .f32⟩
  | .hbm, ⟨3, _⟩ => ⟨S6x3072x1024, .f32⟩
  | .hbm, ⟨4, _⟩ => ⟨S6x1024x1024, .f32⟩
  | .hbm, ⟨5, _⟩ => ⟨S6x1024, .f32⟩
  | .hbm, ⟨6, _⟩ => ⟨S32000x1024, .f32⟩
  | .hbm, ⟨7, _⟩ => ⟨S32000, .f32⟩
  | .hbm, ⟨8, _⟩ => ⟨S_, .i32⟩
  | .hbm, ⟨9, _⟩ => ⟨S8x1024, .i32⟩
  | .hbm, ⟨10, _⟩ => ⟨S8x1024, .i1⟩
  | .hbm, ⟨11, _⟩ => ⟨S_, .i32⟩
  | .hbm, ⟨12, _⟩ => ⟨S8x1024, .i32⟩
  | .hbm, ⟨13, _⟩ => ⟨S8x1024, .i32⟩
  | .hbm, ⟨14, _⟩ => ⟨S8x1024, .i32⟩
  | .hbm, ⟨15, _⟩ => ⟨S8x1024x1, .i32⟩
  | .hbm, ⟨16, _⟩ => ⟨S1, .i32⟩
  | .hbm, ⟨17, _⟩ => ⟨S_, .i32⟩
  | .hbm, ⟨18, _⟩ => ⟨S8x1024x1, .i32⟩
  | .hbm, ⟨19, _⟩ => ⟨S8x1024x1, .i1⟩
  | .hbm, ⟨20, _⟩ => ⟨S1x1x1, .i32⟩
  | .hbm, ⟨21, _⟩ => ⟨S8x1024x1, .i32⟩
  | .hbm, ⟨22, _⟩ => ⟨S8x1024x1, .i1⟩
  | .hbm, ⟨23, _⟩ => ⟨S8x1024x1, .i1⟩
  | .hbm, ⟨24, _⟩ => ⟨S_, .i1⟩
  | .hbm, ⟨25, _⟩ => ⟨S8x1024, .i1⟩
  | .hbm, ⟨26, _⟩ => ⟨S8x1024x1024, .f32⟩
  | .hbm, ⟨27, _⟩ => ⟨S8x1024x1024, .i1⟩
  | .hbm, ⟨28, _⟩ => ⟨S_, .f32⟩
  | .hbm, ⟨29, _⟩ => ⟨S8x1024x1024, .f32⟩
  | .hbm, ⟨30, _⟩ => ⟨S8x1024x1024, .f32⟩
  | .hbm, ⟨31, _⟩ => ⟨S8x1024x1024, .bf16⟩
  | .hbm, ⟨32, _⟩ => ⟨S8x1024x1024, .bf16⟩
  | .hbm, ⟨33, _⟩ => ⟨S6x1024x1024, .f32⟩
  | .hbm, ⟨34, _⟩ => ⟨S6x1024x1024, .f32⟩
  | .hbm, ⟨35, _⟩ => ⟨S6x1024x1024, .bf16⟩
  | .hbm, ⟨36, _⟩ => ⟨S6x1024x1024, .f32⟩
  | .hbm, ⟨37, _⟩ => ⟨S6x1024x1024, .f32⟩
  | .hbm, ⟨38, _⟩ => ⟨S6x1024x1024, .bf16⟩
  | .hbm, ⟨39, _⟩ => ⟨S6x1024x1024, .f32⟩
  | .hbm, ⟨40, _⟩ => ⟨S6x1024x1024, .f32⟩
  | .hbm, ⟨41, _⟩ => ⟨S6x1024x1024, .bf16⟩
  | .hbm, ⟨42, _⟩ => ⟨S6x1024x1024, .f32⟩
  | .hbm, ⟨43, _⟩ => ⟨S6x1024x1024, .bf16⟩
  | .hbm, ⟨44, _⟩ => ⟨S6x1x1024, .f32⟩
  | .hbm, ⟨45, _⟩ => ⟨S1x1024x1024, .bf16⟩
  | .hbm, ⟨46, _⟩ => ⟨S1024x1024, .bf16⟩
  | .hbm, ⟨47, _⟩ => ⟨S1x1024x1024, .bf16⟩
  | .hbm, ⟨48, _⟩ => ⟨S1024x1024, .bf16⟩
  | .hbm, ⟨49, _⟩ => ⟨S1x1024x1024, .bf16⟩
  | .hbm, ⟨50, _⟩ => ⟨S1024x1024, .bf16⟩
  | .hbm, ⟨51, _⟩ => ⟨S1x1024x1024, .bf16⟩
  | .hbm, ⟨52, _⟩ => ⟨S1024x1024, .bf16⟩
  | .hbm, ⟨53, _⟩ => ⟨S1x1x1024, .f32⟩
  | .hbm, ⟨54, _⟩ => ⟨S1x1024, .f32⟩
  | .hbm, ⟨55, _⟩ => ⟨S8x1024x1024, .bf16⟩
  | .hbm, ⟨56, _⟩ => ⟨S1x1024x1024, .bf16⟩
  | .hbm, ⟨57, _⟩ => ⟨S1024x1024, .bf16⟩
  | .hbm, ⟨58, _⟩ => ⟨S1x1024x1024, .bf16⟩
  | .hbm, ⟨59, _⟩ => ⟨S1024x1024, .bf16⟩
  | .hbm, ⟨60, _⟩ => ⟨S1x1024x1024, .bf16⟩
  | .hbm, ⟨61, _⟩ => ⟨S1024x1024, .bf16⟩
  | .hbm, ⟨62, _⟩ => ⟨S1x1024x1024, .bf16⟩
  | .hbm, ⟨63, _⟩ => ⟨S1024x1024, .bf16⟩
  | .hbm, ⟨64, _⟩ => ⟨S1x1x1024, .f32⟩
  | .hbm, ⟨65, _⟩ => ⟨S1x1024, .f32⟩
  | .hbm, ⟨66, _⟩ => ⟨S8x1024x1024, .bf16⟩
  | .hbm, ⟨67, _⟩ => ⟨S1x1024x1024, .bf16⟩
  | .hbm, ⟨68, _⟩ => ⟨S1024x1024, .bf16⟩
  | .hbm, ⟨69, _⟩ => ⟨S1x1024x1024, .bf16⟩
  | .hbm, ⟨70, _⟩ => ⟨S1024x1024, .bf16⟩
  | .hbm, ⟨71, _⟩ => ⟨S1x1024x1024, .bf16⟩
  | .hbm, ⟨72, _⟩ => ⟨S1024x1024, .bf16⟩
  | .hbm, ⟨73, _⟩ => ⟨S1x1024x1024, .bf16⟩
  | .hbm, ⟨74, _⟩ => ⟨S1024x1024, .bf16⟩
  | .hbm, ⟨75, _⟩ => ⟨S1x1x1024, .f32⟩
  | .hbm, ⟨76, _⟩ => ⟨S1x1024, .f32⟩
  | .hbm, ⟨77, _⟩ => ⟨S8x1024x1024, .bf16⟩
  | .hbm, ⟨78, _⟩ => ⟨S1x1024x1024, .bf16⟩
  | .hbm, ⟨79, _⟩ => ⟨S1024x1024, .bf16⟩
  | .hbm, ⟨80, _⟩ => ⟨S1x1024x1024, .bf16⟩
  | .hbm, ⟨81, _⟩ => ⟨S1024x1024, .bf16⟩
  | .hbm, ⟨82, _⟩ => ⟨S1x1024x1024, .bf16⟩
  | .hbm, ⟨83, _⟩ => ⟨S1024x1024, .bf16⟩
  | .hbm, ⟨84, _⟩ => ⟨S1x1024x1024, .bf16⟩
  | .hbm, ⟨85, _⟩ => ⟨S1024x1024, .bf16⟩
  | .hbm, ⟨86, _⟩ => ⟨S1x1x1024, .f32⟩
  | .hbm, ⟨87, _⟩ => ⟨S1x1024, .f32⟩
  | .hbm, ⟨88, _⟩ => ⟨S8x1024x1024, .bf16⟩
  | .hbm, ⟨89, _⟩ => ⟨S1x1024x1024, .bf16⟩
  | .hbm, ⟨90, _⟩ => ⟨S1024x1024, .bf16⟩
  | .hbm, ⟨91, _⟩ => ⟨S1x1024x1024, .bf16⟩
  | .hbm, ⟨92, _⟩ => ⟨S1024x1024, .bf16⟩
  | .hbm, ⟨93, _⟩ => ⟨S1x1024x1024, .bf16⟩
  | .hbm, ⟨94, _⟩ => ⟨S1024x1024, .bf16⟩
  | .hbm, ⟨95, _⟩ => ⟨S1x1024x1024, .bf16⟩
  | .hbm, ⟨96, _⟩ => ⟨S1024x1024, .bf16⟩
  | .hbm, ⟨97, _⟩ => ⟨S1x1x1024, .f32⟩
  | .hbm, ⟨98, _⟩ => ⟨S1x1024, .f32⟩
  | .hbm, ⟨99, _⟩ => ⟨S8x1024x1024, .bf16⟩
  | .hbm, ⟨100, _⟩ => ⟨S1x1024x1024, .bf16⟩
  | .hbm, ⟨101, _⟩ => ⟨S1024x1024, .bf16⟩
  | .hbm, ⟨102, _⟩ => ⟨S1x1024x1024, .bf16⟩
  | .hbm, ⟨103, _⟩ => ⟨S1024x1024, .bf16⟩
  | .hbm, ⟨104, _⟩ => ⟨S1x1024x1024, .bf16⟩
  | .hbm, ⟨105, _⟩ => ⟨S1024x1024, .bf16⟩
  | .hbm, ⟨106, _⟩ => ⟨S1x1024x1024, .bf16⟩
  | .hbm, ⟨107, _⟩ => ⟨S1024x1024, .bf16⟩
  | .hbm, ⟨108, _⟩ => ⟨S1x1x1024, .f32⟩
  | .hbm, ⟨109, _⟩ => ⟨S1x1024, .f32⟩
  | .hbm, ⟨110, _⟩ => ⟨S8x1024x1024, .bf16⟩
  | .hbm, ⟨111, _⟩ => ⟨S8192x1024, .bf16⟩
  | .hbm, ⟨112, _⟩ => ⟨S32000x1024, .bf16⟩
  | .hbm, ⟨113, _⟩ => ⟨S1x32000, .f32⟩
  | .hbm, ⟨114, _⟩ => ⟨S8192x32000, .f32⟩
  | .hbm, ⟨115, _⟩ => ⟨S8x1024x32000, .f32⟩
  | .local _ .vmem, ⟨0, _⟩ => ⟨S1x256x1024, .bf16⟩
  | .local _ .vmem, ⟨1, _⟩ => ⟨S1x256x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x256x1024, .bf16⟩
  | .local _ .vmem, ⟨10, _⟩ => ⟨S1x256x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x1024x1024, .bf16⟩
  | .local _ .vmem, ⟨16, _⟩ => ⟨S1x1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1x1024, .f32⟩
  | .local _ .vmem, ⟨22, _⟩ => ⟨S1x256x1024, .bf16⟩
  | .local _ .vmem, ⟨23, _⟩ => ⟨S1x256x1024, .bf16⟩
  | .local _ .vmem, ⟨24, _⟩ => ⟨S1024x1024, .bf16⟩
  | .local _ .vmem, ⟨25, _⟩ => ⟨S1024x1024, .bf16⟩
  | .local _ .vmem, ⟨26, _⟩ => ⟨S1x256x1024, .bf16⟩
  | .local _ .vmem, ⟨27, _⟩ => ⟨S1x256x1024, .bf16⟩
  | .local _ .vmem, ⟨28, _⟩ => ⟨S1x1024x1024, .bf16⟩
  | .local _ .vmem, ⟨29, _⟩ => ⟨S1x1024x1024, .bf16⟩
  | .local _ .vmem, ⟨30, _⟩ => ⟨S1024x1024, .bf16⟩
  | .local _ .vmem, ⟨31, _⟩ => ⟨S1024x1024, .bf16⟩
  | .local _ .vmem, ⟨32, _⟩ => ⟨S1024x1024, .bf16⟩
  | .local _ .vmem, ⟨33, _⟩ => ⟨S1024x1024, .bf16⟩
  | .local _ .vmem, ⟨34, _⟩ => ⟨S1x1024, .f32⟩
  | .local _ .vmem, ⟨35, _⟩ => ⟨S1x256x1024, .bf16⟩
  | .local _ .vmem, ⟨36, _⟩ => ⟨S1x256x1024, .bf16⟩
  | .local _ .vmem, ⟨37, _⟩ => ⟨S1024x1024, .bf16⟩
  | .local _ .vmem, ⟨38, _⟩ => ⟨S1024x1024, .bf16⟩
  | .local _ .vmem, ⟨39, _⟩ => ⟨S1x256x1024, .bf16⟩
  | .local _ .vmem, ⟨40, _⟩ => ⟨S1x256x1024, .bf16⟩
  | .local _ .vmem, ⟨41, _⟩ => ⟨S1x1024x1024, .bf16⟩
  | .local _ .vmem, ⟨42, _⟩ => ⟨S1x1024x1024, .bf16⟩
  | .local _ .vmem, ⟨43, _⟩ => ⟨S1024x1024, .bf16⟩
  | .local _ .vmem, ⟨44, _⟩ => ⟨S1024x1024, .bf16⟩
  | .local _ .vmem, ⟨45, _⟩ => ⟨S1024x1024, .bf16⟩
  | .local _ .vmem, ⟨46, _⟩ => ⟨S1024x1024, .bf16⟩
  | .local _ .vmem, ⟨47, _⟩ => ⟨S1x1024, .f32⟩
  | .local _ .vmem, ⟨48, _⟩ => ⟨S1x256x1024, .bf16⟩
  | .local _ .vmem, ⟨49, _⟩ => ⟨S1x256x1024, .bf16⟩
  | .local _ .vmem, ⟨50, _⟩ => ⟨S1024x1024, .bf16⟩
  | .local _ .vmem, ⟨51, _⟩ => ⟨S1024x1024, .bf16⟩
  | .local _ .vmem, ⟨52, _⟩ => ⟨S1x256x1024, .bf16⟩
  | .local _ .vmem, ⟨53, _⟩ => ⟨S1x256x1024, .bf16⟩
  | .local _ .vmem, ⟨54, _⟩ => ⟨S1x1024x1024, .bf16⟩
  | .local _ .vmem, ⟨55, _⟩ => ⟨S1x1024x1024, .bf16⟩
  | .local _ .vmem, ⟨56, _⟩ => ⟨S1024x1024, .bf16⟩
  | .local _ .vmem, ⟨57, _⟩ => ⟨S1024x1024, .bf16⟩
  | .local _ .vmem, ⟨58, _⟩ => ⟨S1024x1024, .bf16⟩
  | .local _ .vmem, ⟨59, _⟩ => ⟨S1024x1024, .bf16⟩
  | .local _ .vmem, ⟨60, _⟩ => ⟨S1x1024, .f32⟩
  | .local _ .vmem, ⟨61, _⟩ => ⟨S1x256x1024, .bf16⟩
  | .local _ .vmem, ⟨62, _⟩ => ⟨S1x256x1024, .bf16⟩
  | .local _ .vmem, ⟨63, _⟩ => ⟨S1024x1024, .bf16⟩
  | .local _ .vmem, ⟨64, _⟩ => ⟨S1024x1024, .bf16⟩
  | .local _ .vmem, ⟨65, _⟩ => ⟨S1x256x1024, .bf16⟩
  | .local _ .vmem, ⟨66, _⟩ => ⟨S1x256x1024, .bf16⟩
  | .local _ .vmem, ⟨67, _⟩ => ⟨S1x1024x1024, .bf16⟩
  | .local _ .vmem, ⟨68, _⟩ => ⟨S1x1024x1024, .bf16⟩
  | .local _ .vmem, ⟨69, _⟩ => ⟨S1024x1024, .bf16⟩
  | .local _ .vmem, ⟨70, _⟩ => ⟨S1024x1024, .bf16⟩
  | .local _ .vmem, ⟨71, _⟩ => ⟨S1024x1024, .bf16⟩
  | .local _ .vmem, ⟨72, _⟩ => ⟨S1024x1024, .bf16⟩
  | .local _ .vmem, ⟨73, _⟩ => ⟨S1x1024, .f32⟩
  | .local _ .vmem, ⟨74, _⟩ => ⟨S1x256x1024, .bf16⟩
  | .local _ .vmem, ⟨75, _⟩ => ⟨S1x256x1024, .bf16⟩
  | .local _ .vmem, ⟨76, _⟩ => ⟨S1024x1024, .bf16⟩
  | .local _ .vmem, ⟨77, _⟩ => ⟨S1024x1024, .bf16⟩
  | .local _ .vmem, ⟨78, _⟩ => ⟨S1024x1024, .bf16⟩
  | .local _ .vmem, ⟨79, _⟩ => ⟨S1024x1024, .bf16⟩
  | .local _ .vmem, ⟨80, _⟩ => ⟨S1280x1024, .bf16⟩
  | .local _ .vmem, ⟨81, _⟩ => ⟨S1280x1024, .bf16⟩
  | .local _ .vmem, ⟨82, _⟩ => ⟨S1x1280, .f32⟩
  | .local _ .vmem, ⟨83, _⟩ => ⟨S1x1280, .f32⟩
  | .local _ .vmem, ⟨84, _⟩ => ⟨S1024x1280, .f32⟩
  | .local _ .vmem, ⟨85, _⟩ => ⟨S1024x1280, .f32⟩
  | _, _ => ⟨S8x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc1_scratch0 : Ref sig .tc := ⟨.vmem, 24, rfl⟩
abbrev cc1_scratch1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg7_1 : Ref sig .tc := ⟨.vmem, 36, rfl⟩
abbrev cc2_scratch0 : Ref sig .tc := ⟨.vmem, 37, rfl⟩
abbrev cc2_scratch1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg3_0 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg6_0 : Ref sig .tc := ⟨.vmem, 47, rfl⟩
abbrev cc3_stg7_0 : Ref sig .tc := ⟨.vmem, 48, rfl⟩
abbrev cc3_stg7_1 : Ref sig .tc := ⟨.vmem, 49, rfl⟩
abbrev cc3_scratch0 : Ref sig .tc := ⟨.vmem, 50, rfl⟩
abbrev cc3_scratch1 : Ref sig .tc := ⟨.vmem, 51, rfl⟩
abbrev cc4_stg0_0 : Ref sig .tc := ⟨.vmem, 52, rfl⟩
abbrev cc4_stg0_1 : Ref sig .tc := ⟨.vmem, 53, rfl⟩
abbrev cc4_stg1_0 : Ref sig .tc := ⟨.vmem, 54, rfl⟩
abbrev cc4_stg1_1 : Ref sig .tc := ⟨.vmem, 55, rfl⟩
abbrev cc4_stg2_0 : Ref sig .tc := ⟨.vmem, 56, rfl⟩
abbrev cc4_stg3_0 : Ref sig .tc := ⟨.vmem, 57, rfl⟩
abbrev cc4_stg4_0 : Ref sig .tc := ⟨.vmem, 58, rfl⟩
abbrev cc4_stg5_0 : Ref sig .tc := ⟨.vmem, 59, rfl⟩
abbrev cc4_stg6_0 : Ref sig .tc := ⟨.vmem, 60, rfl⟩
abbrev cc4_stg7_0 : Ref sig .tc := ⟨.vmem, 61, rfl⟩
abbrev cc4_stg7_1 : Ref sig .tc := ⟨.vmem, 62, rfl⟩
abbrev cc4_scratch0 : Ref sig .tc := ⟨.vmem, 63, rfl⟩
abbrev cc4_scratch1 : Ref sig .tc := ⟨.vmem, 64, rfl⟩
abbrev cc5_stg0_0 : Ref sig .tc := ⟨.vmem, 65, rfl⟩
abbrev cc5_stg0_1 : Ref sig .tc := ⟨.vmem, 66, rfl⟩
abbrev cc5_stg1_0 : Ref sig .tc := ⟨.vmem, 67, rfl⟩
abbrev cc5_stg1_1 : Ref sig .tc := ⟨.vmem, 68, rfl⟩
abbrev cc5_stg2_0 : Ref sig .tc := ⟨.vmem, 69, rfl⟩
abbrev cc5_stg3_0 : Ref sig .tc := ⟨.vmem, 70, rfl⟩
abbrev cc5_stg4_0 : Ref sig .tc := ⟨.vmem, 71, rfl⟩
abbrev cc5_stg5_0 : Ref sig .tc := ⟨.vmem, 72, rfl⟩
abbrev cc5_stg6_0 : Ref sig .tc := ⟨.vmem, 73, rfl⟩
abbrev cc5_stg7_0 : Ref sig .tc := ⟨.vmem, 74, rfl⟩
abbrev cc5_stg7_1 : Ref sig .tc := ⟨.vmem, 75, rfl⟩
abbrev cc5_scratch0 : Ref sig .tc := ⟨.vmem, 76, rfl⟩
abbrev cc5_scratch1 : Ref sig .tc := ⟨.vmem, 77, rfl⟩
abbrev cc6_stg0_0 : Ref sig .tc := ⟨.vmem, 78, rfl⟩
abbrev cc6_stg0_1 : Ref sig .tc := ⟨.vmem, 79, rfl⟩
abbrev cc6_stg1_0 : Ref sig .tc := ⟨.vmem, 80, rfl⟩
abbrev cc6_stg1_1 : Ref sig .tc := ⟨.vmem, 81, rfl⟩
abbrev cc6_stg2_0 : Ref sig .tc := ⟨.vmem, 82, rfl⟩
abbrev cc6_stg2_1 : Ref sig .tc := ⟨.vmem, 83, rfl⟩
abbrev cc6_stg3_0 : Ref sig .tc := ⟨.vmem, 84, rfl⟩
abbrev cc6_stg3_1 : Ref sig .tc := ⟨.vmem, 85, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem7_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem6_0 : DmaSem sig := 41
abbrev cc3_sem7_0 : DmaSem sig := 42
abbrev cc3_sem7_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem3_0 : DmaSem sig := 49
abbrev cc4_sem4_0 : DmaSem sig := 50
abbrev cc4_sem5_0 : DmaSem sig := 51
abbrev cc4_sem6_0 : DmaSem sig := 52
abbrev cc4_sem7_0 : DmaSem sig := 53
abbrev cc4_sem7_1 : DmaSem sig := 54
abbrev cc5_sem0_0 : DmaSem sig := 55
abbrev cc5_sem0_1 : DmaSem sig := 56
abbrev cc5_sem1_0 : DmaSem sig := 57
abbrev cc5_sem1_1 : DmaSem sig := 58
abbrev cc5_sem2_0 : DmaSem sig := 59
abbrev cc5_sem3_0 : DmaSem sig := 60
abbrev cc5_sem4_0 : DmaSem sig := 61
abbrev cc5_sem5_0 : DmaSem sig := 62
abbrev cc5_sem6_0 : DmaSem sig := 63
abbrev cc5_sem7_0 : DmaSem sig := 64
abbrev cc5_sem7_1 : DmaSem sig := 65
abbrev cc6_sem0_0 : DmaSem sig := 66
abbrev cc6_sem0_1 : DmaSem sig := 67
abbrev cc6_sem1_0 : DmaSem sig := 68
abbrev cc6_sem1_1 : DmaSem sig := 69
abbrev cc6_sem2_0 : DmaSem sig := 70
abbrev cc6_sem2_1 : DmaSem sig := 71
abbrev cc6_sem3_0 : DmaSem sig := 72
abbrev cc6_sem3_1 : DmaSem sig := 73

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x256x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨2, ![8, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x256x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S1024x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1024x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1024x1024 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1024x1024 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 2 → Memref sig .tc .vmem S1x256x1024 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev grid3 : Pipeline.Grid := ⟨2, ![8, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x256x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 1 → Memref sig .tc .vmem S1024x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1024x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1024x1024 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S1024x1024 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S1x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 2 → Memref sig .tc .vmem S1x256x1024 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev grid4 : Pipeline.Grid := ⟨2, ![8, 4], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S1x256x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x1024x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 1 → Memref sig .tc .vmem S1024x1024 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 1 → Memref sig .tc .vmem S1024x1024 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S1024x1024 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 1 → Memref sig .tc .vmem S1024x1024 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 1 → Memref sig .tc .vmem S1x1024 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false, false]

abbrev stage4_7 : Fin 2 → Memref sig .tc .vmem S1x256x1024 .bf16 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, true]

abbrev grid5 : Pipeline.Grid := ⟨2, ![8, 4], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage5_0 : Fin 2 → Memref sig .tc .vmem S1x256x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x1024x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 1 → Memref sig .tc .vmem S1024x1024 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 1 → Memref sig .tc .vmem S1024x1024 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 1 → Memref sig .tc .vmem S1024x1024 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev stage5_5 : Fin 1 → Memref sig .tc .vmem S1024x1024 .bf16 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false, false]

abbrev stage5_6 : Fin 1 → Memref sig .tc .vmem S1x1024 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false, false]

abbrev stage5_7 : Fin 2 → Memref sig .tc .vmem S1x256x1024 .bf16 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true, true]

abbrev grid6 : Pipeline.Grid := ⟨2, ![25, 8], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage6_0 : Fin 2 → Memref sig .tc .vmem S1024x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 2 → Memref sig .tc .vmem S1280x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev stage6_2 : Fin 2 → Memref sig .tc .vmem S1x1280 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev stage6_3 : Fin 2 → Memref sig .tc .vmem S1024x1280 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

class Facts₀ : Prop where
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  bcast_S_S8x1024x1 : S_.BroadcastsInDim S8x1024x1 (![] : Fin 0 → Fin S8x1024x1.rank)
  bcast_S1_S1x1x1_2 : S1.BroadcastsInDim S1x1x1 (![2] : Fin 1 → Fin S1x1x1.rank)
  bcast_S1x1x1_S8x1024x1_0_1_2 : S1x1x1.BroadcastsInDim S8x1024x1 (![0, 1, 2] : Fin 3 → Fin S8x1024x1.rank)
  reducesTo_S8x1024x1_S8x1024_d2 : S8x1024x1.ReducesTo [2] S8x1024
  h_S_ : 0 < S_.numel
  bcast_S8x1024_S8x1024x1024_0_1 : S8x1024.BroadcastsInDim S8x1024x1024 (![0, 1] : Fin 2 → Fin S8x1024x1024.rank)
  bcast_S_S8x1024x1024 : S_.BroadcastsInDim S8x1024x1024 (![] : Fin 0 → Fin S8x1024x1024.rank)
  bitsLt_bf16_f32 : FTy.bits .bf16 < FTy.bits .f32
  slices_S6x3072x1024_S6x1024x1024_0_0_0 : S6x3072x1024.Slices ![0, 0, 0] S6x1024x1024
  transposes_S6x1024x1024_S6x1024x1024_0_2_1 : S6x1024x1024.Transposes [0, 2, 1] S6x1024x1024
  slices_S6x3072x1024_S6x1024x1024_0_1024_0 : S6x3072x1024.Slices ![0, 1024, 0] S6x1024x1024
  slices_S6x3072x1024_S6x1024x1024_0_2048_0 : S6x3072x1024.Slices ![0, 2048, 0] S6x1024x1024
  shapeCasts_S6x1024_S6x1x1024 : S6x1024.ShapeCasts S6x1x1024
  slices_S6x1024x1024_S1x1024x1024_0_0_0 : S6x1024x1024.Slices ![0, 0, 0] S1x1024x1024
  shapeCasts_S1x1024x1024_S1024x1024 : S1x1024x1024.ShapeCasts S1024x1024
  slices_S6x1x1024_S1x1x1024_0_0_0 : S6x1x1024.Slices ![0, 0, 0] S1x1x1024
  shapeCasts_S1x1x1024_S1x1024 : S1x1x1024.ShapeCasts S1x1024
  inb_S1x1024x1024_S1x1024x1024_0_0_0 : ∀ a, (![0, 0, 0] : Fin 3 → Nat) a + S1x1024x1024.size a ≤ S1x1024x1024.size a
  h_S1x1024x1024 : 0 < S1x1024x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S256x1024_S256 : S256x1024.Reduces [1] S256
  shapeCasts_S256_S256x1 : S256.ShapeCasts S256x1
  broadcasts_S256x1_S256x1024 : S256x1.Broadcasts S256x1024
  inb_S1x1024_S1x1024_0_0 : ∀ a, (![0, 0] : Fin 2 → Nat) a + S1x1024.size a ≤ S1x1024.size a
  h_S1x1024 : 0 < S1x1024.numel
  shapeCasts_S1x1024_S1024 : S1x1024.ShapeCasts S1024
  shapeCasts_S1024_S1x1024 : S1024.ShapeCasts S1x1024
  broadcasts_S1x1024_S256x1024 : S1x1024.Broadcasts S256x1024
  shapeCasts_S256x1024_S1x256x1024 : S256x1024.ShapeCasts S1x256x1024
  packedbf16_S1x256x1024_S1x256x1024_0_0_0 : (Rect.unit (s := S1x256x1024) ![0, 0, 0] S1x256x1024.size inb_S1x256x1024_S1x256x1024_0_0_0).PackedRows (EltTy.packing .bf16)
  slices_S6x1024x1024_S1x1024x1024_1_0_0 : S6x1024x1024.Slices ![1, 0, 0] S1x1024x1024
  slices_S6x1x1024_S1x1x1024_1_0_0 : S6x1x1024.Slices ![1, 0, 0] S1x1x1024
  slices_S6x1024x1024_S1x1024x1024_2_0_0 : S6x1024x1024.Slices ![2, 0, 0] S1x1024x1024
  slices_S6x1x1024_S1x1x1024_2_0_0 : S6x1x1024.Slices ![2, 0, 0] S1x1x1024
  slices_S6x1024x1024_S1x1024x1024_3_0_0 : S6x1024x1024.Slices ![3, 0, 0] S1x1024x1024
  slices_S6x1x1024_S1x1x1024_3_0_0 : S6x1x1024.Slices ![3, 0, 0] S1x1x1024
  slices_S6x1024x1024_S1x1024x1024_4_0_0 : S6x1024x1024.Slices ![4, 0, 0] S1x1024x1024
  slices_S6x1x1024_S1x1x1024_4_0_0 : S6x1x1024.Slices ![4, 0, 0] S1x1x1024
  slices_S6x1024x1024_S1x1024x1024_5_0_0 : S6x1024x1024.Slices ![5, 0, 0] S1x1024x1024
  slices_S6x1x1024_S1x1x1024_5_0_0 : S6x1x1024.Slices ![5, 0, 0] S1x1x1024
  shapeCasts_S8x1024x1024_S8192x1024 : S8x1024x1024.ShapeCasts S8192x1024
  shapeCasts_S32000_S1x32000 : S32000.ShapeCasts S1x32000
  inb_S1280x1024_S1280x1024_0_0 : ∀ a, (![0, 0] : Fin 2 → Nat) a + S1280x1024.size a ≤ S1280x1024.size a
  h_S1280x1024 : 0 < S1280x1024.numel
  shapeCasts_S1280x1024_S1280x1024 : S1280x1024.ShapeCasts S1280x1024
  inb_S1x1280_S1x1280_0_0 : ∀ a, (![0, 0] : Fin 2 → Nat) a + S1x1280.size a ≤ S1x1280.size a
  h_S1x1280 : 0 < S1x1280.numel
  shapeCasts_S1x1280_S1280 : S1x1280.ShapeCasts S1280
  shapeCasts_S1280_S1x1280 : S1280.ShapeCasts S1x1280
  broadcasts_S1x1280_S1024x1280 : S1x1280.Broadcasts S1024x1280
  inb_S1024x1280_S1024x1280_0_0 : ∀ a, (![0, 0] : Fin 2 → Nat) a + S1024x1280.size a ≤ S1024x1280.size a
  h_S1024x1280 : 0 < S1024x1280.numel
  shapeCasts_S8192x32000_S8x1024x32000 : S8192x32000.ShapeCasts S8x1024x32000
  gather_S32000x1024_S8x1024x1_S8x1024x1024_2_0_n_n_0_2_11024_wf : GatherDims.WF S32000x1024 S8x1024x1 S8x1024x1024 [2] [0] [] [0] [] 2 ![1, 1024]
  dot_S1024x1024_S1024x1024_S1024x1024_1_0_0_1_n_n_wf : DotDims.WF S1024x1024 S1024x1024 S1024x1024 [1] [0] [0] [1] [] []
  dot_S256x1024_S1024x1024_S256x1024_1_0_0_1_n_n_wf : DotDims.WF S256x1024 S1024x1024 S256x1024 [1] [0] [0] [1] [] []
  dot_S256x1024_S1024x1024_S256x1024_1_1_0_0_n_n_wf : DotDims.WF S256x1024 S1024x1024 S256x1024 [1] [1] [0] [0] [] []
  dot_S1024x1024_S1280x1024_S1024x1280_1_1_0_0_n_n_wf : DotDims.WF S1024x1024 S1280x1024 S1024x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x1024x1024.size a
  hwx0_0 : ∀ i : grid0.Coords, EltTy.bits .bf16 = 32 ∨ (Rect.block (s := S8x1024x1024) S1x256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x1024x1024.size a
  hwx0_1 : ∀ i : grid0.Coords, EltTy.bits .bf16 = 32 ∨ (Rect.block (s := S8x1024x1024) S1x1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x1024.size a ≤ S8x1024x1024.size a
  hwx0_7 : ∀ i : grid0.Coords, EltTy.bits .bf16 = 32 ∨ (Rect.block (s := S8x1024x1024) S1x256x1024.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S8x1024x1024.size a
  hwx1_0 : ∀ i : grid1.Coords, EltTy.bits .bf16 = 32 ∨ (Rect.block (s := S8x1024x1024) S1x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S8x1024x1024.size a
  hwx1_1 : ∀ i : grid1.Coords, EltTy.bits .bf16 = 32 ∨ (Rect.block (s := S8x1024x1024) S1x1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .bf16 = 32 ∨ (Rect.block (s := S1024x1024) S1024x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x1024.size a
  hwx1_4 : ∀ i : grid1.Coords, EltTy.bits .bf16 = 32 ∨ (Rect.block (s := S1024x1024) S1024x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S1024x1024.size a
  hwx1_5 : ∀ i : grid1.Coords, EltTy.bits .bf16 = 32 ∨ (Rect.block (s := S1024x1024) S1024x1024.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x256x1024.size a ≤ S8x1024x1024.size a
  hwx1_7 : ∀ i : grid1.Coords, EltTy.bits .bf16 = 32 ∨ (Rect.block (s := S8x1024x1024) S1x256x1024.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x256x1024.size a ≤ S8x1024x1024.size a
  hwx2_0 : ∀ i : grid2.Coords, EltTy.bits .bf16 = 32 ∨ (Rect.block (s := S8x1024x1024) S1x256x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x1024.size a ≤ S8x1024x1024.size a
  hwx2_1 : ∀ i : grid2.Coords, EltTy.bits .bf16 = 32 ∨ (Rect.block (s := S8x1024x1024) S1x1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S1024x1024.size a
  hwx2_2 : ∀ i : grid2.Coords, EltTy.bits .bf16 = 32 ∨ (Rect.block (s := S1024x1024) S1024x1024.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S1024x1024.size a
  hwx2_3 : ∀ i : grid2.Coords, EltTy.bits .bf16 = 32 ∨ (Rect.block (s := S1024x1024) S1024x1024.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024x1024.size a ≤ S1024x1024.size a
  hwx2_4 : ∀ i : grid2.Coords, EltTy.bits .bf16 = 32 ∨ (Rect.block (s := S1024x1024) S1024x1024.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1024x1024.size a ≤ S1024x1024.size a
  hwx2_5 : ∀ i : grid2.Coords, EltTy.bits .bf16 = 32 ∨ (Rect.block (s := S1024x1024) S1024x1024.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1024.size a ≤ S1x1024.size a
  hwx2_6 : ∀ i : grid2.Coords, EltTy.bits .f32 = 32 ∨ (Rect.block (s := S1x1024) S1x1024.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x256x1024.size a ≤ S8x1024x1024.size a
  hwx2_7 : ∀ i : grid2.Coords, EltTy.bits .bf16 = 32 ∨ (Rect.block (s := S8x1024x1024) S1x256x1024.size (cc2_transform_7 i) (hinb2_7 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x256x1024.size a ≤ S8x1024x1024.size a
  hwx3_0 : ∀ i : grid3.Coords, EltTy.bits .bf16 = 32 ∨ (Rect.block (s := S8x1024x1024) S1x256x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1024x1024.size a ≤ S8x1024x1024.size a
  hwx3_1 : ∀ i : grid3.Coords, EltTy.bits .bf16 = 32 ∨ (Rect.block (s := S8x1024x1024) S1x1024x1024.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1024x1024.size a ≤ S1024x1024.size a
  hwx3_2 : ∀ i : grid3.Coords, EltTy.bits .bf16 = 32 ∨ (Rect.block (s := S1024x1024) S1024x1024.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S1024x1024.size a
  hwx3_3 : ∀ i : grid3.Coords, EltTy.bits .bf16 = 32 ∨ (Rect.block (s := S1024x1024) S1024x1024.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1024x1024.size a ≤ S1024x1024.size a
  hwx3_4 : ∀ i : grid3.Coords, EltTy.bits .bf16 = 32 ∨ (Rect.block (s := S1024x1024) S1024x1024.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1024x1024.size a ≤ S1024x1024.size a
  hwx3_5 : ∀ i : grid3.Coords, EltTy.bits .bf16 = 32 ∨ (Rect.block (s := S1024x1024) S1024x1024.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1024.size a ≤ S1x1024.size a
  hwx3_6 : ∀ i : grid3.Coords, EltTy.bits .f32 = 32 ∨ (Rect.block (s := S1x1024) S1x1024.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1x256x1024.size a ≤ S8x1024x1024.size a
  hwx3_7 : ∀ i : grid3.Coords, EltTy.bits .bf16 = 32 ∨ (Rect.block (s := S8x1024x1024) S1x256x1024.size (cc3_transform_7 i) (hinb3_7 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x256x1024.size a ≤ S8x1024x1024.size a
  hwx4_0 : ∀ i : grid4.Coords, EltTy.bits .bf16 = 32 ∨ (Rect.block (s := S8x1024x1024) S1x256x1024.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x1024x1024.size a ≤ S8x1024x1024.size a
  hwx4_1 : ∀ i : grid4.Coords, EltTy.bits .bf16 = 32 ∨ (Rect.block (s := S8x1024x1024) S1x1024x1024.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1024x1024.size a ≤ S1024x1024.size a
  hwx4_2 : ∀ i : grid4.Coords, EltTy.bits .bf16 = 32 ∨ (Rect.block (s := S1024x1024) S1024x1024.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1024x1024.size a ≤ S1024x1024.size a
  hwx4_3 : ∀ i : grid4.Coords, EltTy.bits .bf16 = 32 ∨ (Rect.block (s := S1024x1024) S1024x1024.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1024x1024.size a ≤ S1024x1024.size a
  hwx4_4 : ∀ i : grid4.Coords, EltTy.bits .bf16 = 32 ∨ (Rect.block (s := S1024x1024) S1024x1024.size (cc4_transform_4 i) (hinb4_4 i)).WholeWords (EltTy.packing .bf16)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1024x1024.size a ≤ S1024x1024.size a
  hwx4_5 : ∀ i : grid4.Coords, EltTy.bits .bf16 = 32 ∨ (Rect.block (s := S1024x1024) S1024x1024.size (cc4_transform_5 i) (hinb4_5 i)).WholeWords (EltTy.packing .bf16)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x1024.size a ≤ S1x1024.size a
  hwx4_6 : ∀ i : grid4.Coords, EltTy.bits .f32 = 32 ∨ (Rect.block (s := S1x1024) S1x1024.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S1x256x1024.size a ≤ S8x1024x1024.size a
  hwx4_7 : ∀ i : grid4.Coords, EltTy.bits .bf16 = 32 ∨ (Rect.block (s := S8x1024x1024) S1x256x1024.size (cc4_transform_7 i) (hinb4_7 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x256x1024.size a ≤ S8x1024x1024.size a
  hwx5_0 : ∀ i : grid5.Coords, EltTy.bits .bf16 = 32 ∨ (Rect.block (s := S8x1024x1024) S1x256x1024.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x1024x1024.size a ≤ S8x1024x1024.size a
  hwx5_1 : ∀ i : grid5.Coords, EltTy.bits .bf16 = 32 ∨ (Rect.block (s := S8x1024x1024) S1x1024x1024.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1024x1024.size a ≤ S1024x1024.size a
  hwx5_2 : ∀ i : grid5.Coords, EltTy.bits .bf16 = 32 ∨ (Rect.block (s := S1024x1024) S1024x1024.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1024x1024.size a ≤ S1024x1024.size a
  hwx5_3 : ∀ i : grid5.Coords, EltTy.bits .bf16 = 32 ∨ (Rect.block (s := S1024x1024) S1024x1024.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1024x1024.size a ≤ S1024x1024.size a
  hwx5_4 : ∀ i : grid5.Coords, EltTy.bits .bf16 = 32 ∨ (Rect.block (s := S1024x1024) S1024x1024.size (cc5_transform_4 i) (hinb5_4 i)).WholeWords (EltTy.packing .bf16)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1024x1024.size a ≤ S1024x1024.size a
  hwx5_5 : ∀ i : grid5.Coords, EltTy.bits .bf16 = 32 ∨ (Rect.block (s := S1024x1024) S1024x1024.size (cc5_transform_5 i) (hinb5_5 i)).WholeWords (EltTy.packing .bf16)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x1024.size a ≤ S1x1024.size a
  hwx5_6 : ∀ i : grid5.Coords, EltTy.bits .f32 = 32 ∨ (Rect.block (s := S1x1024) S1x1024.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S1x256x1024.size a ≤ S8x1024x1024.size a
  hwx5_7 : ∀ i : grid5.Coords, EltTy.bits .bf16 = 32 ∨ (Rect.block (s := S8x1024x1024) S1x256x1024.size (cc5_transform_7 i) (hinb5_7 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x1024.size a ≤ S8192x1024.size a
  hwx6_0 : ∀ i : grid6.Coords, EltTy.bits .bf16 = 32 ∨ (Rect.block (s := S8192x1024) S1024x1024.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1280x1024.size a ≤ S32000x1024.size a
  hwx6_1 : ∀ i : grid6.Coords, EltTy.bits .bf16 = 32 ∨ (Rect.block (s := S32000x1024) S1280x1024.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1x1280.size a ≤ S1x32000.size a
  hwx6_2 : ∀ i : grid6.Coords, EltTy.bits .f32 = 32 ∨ (Rect.block (s := S1x32000) S1x1280.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1024x1280.size a ≤ S8192x32000.size a
  hwx6_3 : ∀ i : grid6.Coords, EltTy.bits .f32 = 32 ∨ (Rect.block (s := S8192x32000) S1024x1280.size (cc6_transform_3 i) (hinb6_3 i)).WholeWords (EltTy.packing .f32)

variable [Facts₀]

def gather_S32000x1024_S8x1024x1_S8x1024x1024_2_0_n_n_0_2_11024 : GatherDims S32000x1024 S8x1024x1 S8x1024x1024 where
  offsetDims := [2]
  collapsedSliceDims := [0]
  operandBatchingDims := []
  startIndicesBatchingDims := []
  startIndexMap := [0]
  indexVectorDim := 2
  sliceSizes := ![1, 1024]
  wf := gather_S32000x1024_S8x1024x1_S8x1024x1024_2_0_n_n_0_2_11024_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S1024x1024_S1280x1024_S1024x1280_1_1_0_0_n_n : DotDims S1024x1024 S1280x1024 S1024x1280 where
  lhsContracting := [1]
  rhsContracting := [1]
  lhsNonContracting := [0]
  rhsNonContracting := [0]
  lhsBatch := []
  rhsBatch := []
  wf := dot_S1024x1024_S1280x1024_S1024x1280_1_1_0_0_n_n_wf

abbrev win0_0 : Pipeline.Window sig grid0 :=
  Pipeline.Window.ofSpec (Memref.whole main_v1) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S1x256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v25) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S1024x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S1x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36) S1x256x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v36) S1x256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1x1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1024x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1024x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S1024x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v44) S1024x1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v46) S1x1024.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v47) S1x256x1024.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v47) S1x256x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S1x1024x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v49) S1024x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v51) S1024x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v53) S1024x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v55) S1024x1024.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v57) S1x1024.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v58) S1x256x1024.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v58) S1x256x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v2) S1x1024x1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v60) S1024x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v62) S1024x1024.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v64) S1024x1024.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v66) S1024x1024.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v68) S1x1024.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v69) S1x256x1024.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v69) S1x256x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v2) S1x1024x1024.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v71) S1024x1024.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v73) S1024x1024.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v75) S1024x1024.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v77) S1024x1024.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v79) S1x1024.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v80) S1x256x1024.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v81) S1024x1024.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v82) S1280x1024.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v83) S1x1280.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v84) S1024x1280.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S8x1024 : Shape := ⟨2, ![8, 1024]⟩
abbrev S8x1024x1024 : Shape := ⟨3, ![8, 1024, 1024]⟩
abbrev S32000x1024 : Shape := ⟨2, ![32000, 1024]⟩
abbrev S6x3072x1024 : Shape := ⟨3, ![6, 3072, 1024]⟩
abbrev S6x1024x1024 : Shape := ⟨3, ![6, 1024, 1024]⟩
abbrev S6x1024 : Shape := ⟨2, ![6, 1024]⟩
abbrev S32000 : Shape := ⟨1, ![32000]⟩
abbrev S_ : Shape := ⟨0, ![]⟩
abbrev S8x1024x1 : Shape := ⟨3, ![8, 1024, 1]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S1x1x1024 : Shape := ⟨3, ![1, 1, 1024]⟩
abbrev S8x1024x32000 : Shape := ⟨3, ![8, 1024, 32000]⟩
abbrev S1x1x32000 : Shape := ⟨3, ![1, 1, 32000]⟩

abbrev nBuf : Space → Nat
  | .hbm => 237
  | .vmem => 0
  | .smem => 0
  | _ => 0

abbrev hbmTy0_0 (i : Nat) : BufTy := match i % 128 with
  | 0 => ⟨S8x1024, .i32⟩
  | 1 => ⟨S8x1024x1024, .f32⟩
  | 2 => ⟨S32000x1024, .f32⟩
  | 3 => ⟨S6x3072x1024, .f32⟩
  | 4 => ⟨S6x1024x1024, .f32⟩
  | 5 => ⟨S6x1024, .f32⟩
  | 6 => ⟨S32000x1024, .f32⟩
  | 7 => ⟨S32000, .f32⟩
  | 8 => ⟨S_, .i32⟩
  | 9 => ⟨S8x1024, .i32⟩
  | 10 => ⟨S8x1024, .i1⟩
  | 11 => ⟨S_, .i32⟩
  | 12 => ⟨S8x1024, .i32⟩
  | 13 => ⟨S8x1024, .i32⟩
  | 14 => ⟨S8x1024, .i32⟩
  | 15 => ⟨S8x1024x1, .i32⟩
  | 16 => ⟨S8x1024x1024, .f32⟩
  | 17 => ⟨S1x1024x1024, .f32⟩
  | 18 => ⟨S1024x1024, .f32⟩
  | 19 => ⟨S1x1024x1024, .f32⟩
  | 20 => ⟨S1024x1024, .f32⟩
  | 21 => ⟨S1x1024x1024, .f32⟩
  | 22 => ⟨S1024x1024, .f32⟩
  | 23 => ⟨S8x1024x1024, .f32⟩
  | 24 => ⟨S_, .f32⟩
  | 25 => ⟨S8x1024x1024, .f32⟩
  | 26 => ⟨S8x1024x1024, .f32⟩
  | 27 => ⟨S8x1024x1024, .f32⟩
  | 28 => ⟨S8x1024x1024, .f32⟩
  | 29 => ⟨S8x1024x1024, .f32⟩
  | 30 => ⟨S_, .f32⟩
  | 31 => ⟨S8x1024, .f32⟩
  | 32 => ⟨S_, .f32⟩
  | 33 => ⟨S8x1024, .f32⟩
  | 34 => ⟨S8x1024, .f32⟩
  | 35 => ⟨S8x1024x1, .f32⟩
  | 36 => ⟨S8x1024x1024, .f32⟩
  | 37 => ⟨S8x1024x1024, .f32⟩
  | 38 => ⟨S8x1024x1024, .f32⟩
  | 39 => ⟨S_, .f32⟩
  | 40 => ⟨S8x1024, .f32⟩
  | 41 => ⟨S8x1024x1, .f32⟩
  | 42 => ⟨S8x1024x1024, .f32⟩
  | 43 => ⟨S8x1024x1024, .f32⟩
  | 44 => ⟨S8x1024x1024, .f32⟩
  | 45 => ⟨S1x1024x1024, .f32⟩
  | 46 => ⟨S1024x1024, .f32⟩
  | 47 => ⟨S8x1024x1024, .f32⟩
  | 48 => ⟨S1x1024, .f32⟩
  | 49 => ⟨S1024, .f32⟩
  | 50 => ⟨S1x1x1024, .f32⟩
  | 51 => ⟨S8x1024x1024, .f32⟩
  | 52 => ⟨S8x1024x1024, .f32⟩
  | 53 => ⟨S1x1024x1024, .f32⟩
  | 54 => ⟨S1024x1024, .f32⟩
  | 55 => ⟨S1x1024x1024, .f32⟩
  | 56 => ⟨S1024x1024, .f32⟩
  | 57 => ⟨S1x1024x1024, .f32⟩
  | 58 => ⟨S1024x1024, .f32⟩
  | 59 => ⟨S8x1024x1024, .f32⟩
  | 60 => ⟨S_, .f32⟩
  | 61 => ⟨S8x1024x1024, .f32⟩
  | 62 => ⟨S8x1024x1024, .f32⟩
  | 63 => ⟨S8x1024x1024, .f32⟩
  | 64 => ⟨S8x1024x1024, .f32⟩
  | 65 => ⟨S8x1024x1024, .f32⟩
  | 66 => ⟨S_, .f32⟩
  | 67 => ⟨S8x1024, .f32⟩
  | 68 => ⟨S_, .f32⟩
  | 69 => ⟨S8x1024, .f32⟩
  | 70 => ⟨S8x1024, .f32⟩
  | 71 => ⟨S8x1024x1, .f32⟩
  | 72 => ⟨S8x1024x1024, .f32⟩
  | 73 => ⟨S8x1024x1024, .f32⟩
  | 74 => ⟨S8x1024x1024, .f32⟩
  | 75 => ⟨S_, .f32⟩
  | 76 => ⟨S8x1024, .f32⟩
  | 77 => ⟨S8x1024x1, .f32⟩
  | 78 => ⟨S8x1024x1024, .f32⟩
  | 79 => ⟨S8x1024x1024, .f32⟩
  | 80 => ⟨S8x1024x1024, .f32⟩
  | 81 => ⟨S1x1024x1024, .f32⟩
  | 82 => ⟨S1024x1024, .f32⟩
  | 83 => ⟨S8x1024x1024, .f32⟩
  | 84 => ⟨S1x1024, .f32⟩
  | 85 => ⟨S1024, .f32⟩
  | 86 => ⟨S1x1x1024, .f32⟩
  | 87 => ⟨S8x1024x1024, .f32⟩
  | 88 => ⟨S8x1024x1024, .f32⟩
  | 89 => ⟨S1x1024x1024, .f32⟩
  | 90 => ⟨S1024x1024, .f32⟩
  | 91 => ⟨S1x1024x1024, .f32⟩
  | 92 => ⟨S1024x1024, .f32⟩
  | 93 => ⟨S1x1024x1024, .f32⟩
  | 94 => ⟨S1024x1024, .f32⟩
  | 95 => ⟨S8x1024x1024, .f32⟩
  | 96 => ⟨S_, .f32⟩
  | 97 => ⟨S8x1024x1024, .f32⟩
  | 98 => ⟨S8x1024x1024, .f32⟩
  | 99 => ⟨S8x1024x1024, .f32⟩
  | 100 => ⟨S8x1024x1024, .f32⟩
  | 101 => ⟨S8x1024x1024, .f32⟩
  | 102 => ⟨S_, .f32⟩
  | 103 => ⟨S8x1024, .f32⟩
  | 104 => ⟨S_, .f32⟩
  | 105 => ⟨S8x1024, .f32⟩
  | 106 => ⟨S8x1024, .f32⟩
  | 107 => ⟨S8x1024x1, .f32⟩
  | 108 => ⟨S8x1024x1024, .f32⟩
  | 109 => ⟨S8x1024x1024, .f32⟩
  | 110 => ⟨S8x1024x1024, .f32⟩
  | 111 => ⟨S_, .f32⟩
  | 112 => ⟨S8x1024, .f32⟩
  | 113 => ⟨S8x1024x1, .f32⟩
  | 114 => ⟨S8x1024x1024, .f32⟩
  | 115 => ⟨S8x1024x1024, .f32⟩
  | 116 => ⟨S8x1024x1024, .f32⟩
  | 117 => ⟨S1x1024x1024, .f32⟩
  | 118 => ⟨S1024x1024, .f32⟩
  | 119 => ⟨S8x1024x1024, .f32⟩
  | 120 => ⟨S1x1024, .f32⟩
  | 121 => ⟨S1024, .f32⟩
  | 122 => ⟨S1x1x1024, .f32⟩
  | 123 => ⟨S8x1024x1024, .f32⟩
  | 124 => ⟨S8x1024x1024, .f32⟩
  | 125 => ⟨S1x1024x1024, .f32⟩
  | 126 => ⟨S1024x1024, .f32⟩
  | 127 => ⟨S1x1024x1024, .f32⟩
  | _ => ⟨S8x1024, .i32⟩

abbrev hbmTy0_1 (i : Nat) : BufTy := match i % 128 with
  | 0 => ⟨S1024x1024, .f32⟩
  | 1 => ⟨S1x1024x1024, .f32⟩
  | 2 => ⟨S1024x1024, .f32⟩
  | 3 => ⟨S8x1024x1024, .f32⟩
  | 4 => ⟨S_, .f32⟩
  | 5 => ⟨S8x1024x1024, .f32⟩
  | 6 => ⟨S8x1024x1024, .f32⟩
  | 7 => ⟨S8x1024x1024, .f32⟩
  | 8 => ⟨S8x1024x1024, .f32⟩
  | 9 => ⟨S8x1024x1024, .f32⟩
  | 10 => ⟨S_, .f32⟩
  | 11 => ⟨S8x1024, .f32⟩
  | 12 => ⟨S_, .f32⟩
  | 13 => ⟨S8x1024, .f32⟩
  | 14 => ⟨S8x1024, .f32⟩
  | 15 => ⟨S8x1024x1, .f32⟩
  | 16 => ⟨S8x1024x1024, .f32⟩
  | 17 => ⟨S8x1024x1024, .f32⟩
  | 18 => ⟨S8x1024x1024, .f32⟩
  | 19 => ⟨S_, .f32⟩
  | 20 => ⟨S8x1024, .f32⟩
  | 21 => ⟨S8x1024x1, .f32⟩
  | 22 => ⟨S8x1024x1024, .f32⟩
  | 23 => ⟨S8x1024x1024, .f32⟩
  | 24 => ⟨S8x1024x1024, .f32⟩
  | 25 => ⟨S1x1024x1024, .f32⟩
  | 26 => ⟨S1024x1024, .f32⟩
  | 27 => ⟨S8x1024x1024, .f32⟩
  | 28 => ⟨S1x1024, .f32⟩
  | 29 => ⟨S1024, .f32⟩
  | 30 => ⟨S1x1x1024, .f32⟩
  | 31 => ⟨S8x1024x1024, .f32⟩
  | 32 => ⟨S8x1024x1024, .f32⟩
  | 33 => ⟨S1x1024x1024, .f32⟩
  | 34 => ⟨S1024x1024, .f32⟩
  | 35 => ⟨S1x1024x1024, .f32⟩
  | 36 => ⟨S1024x1024, .f32⟩
  | 37 => ⟨S1x1024x1024, .f32⟩
  | 38 => ⟨S1024x1024, .f32⟩
  | 39 => ⟨S8x1024x1024, .f32⟩
  | 40 => ⟨S_, .f32⟩
  | 41 => ⟨S8x1024x1024, .f32⟩
  | 42 => ⟨S8x1024x1024, .f32⟩
  | 43 => ⟨S8x1024x1024, .f32⟩
  | 44 => ⟨S8x1024x1024, .f32⟩
  | 45 => ⟨S8x1024x1024, .f32⟩
  | 46 => ⟨S_, .f32⟩
  | 47 => ⟨S8x1024, .f32⟩
  | 48 => ⟨S_, .f32⟩
  | 49 => ⟨S8x1024, .f32⟩
  | 50 => ⟨S8x1024, .f32⟩
  | 51 => ⟨S8x1024x1, .f32⟩
  | 52 => ⟨S8x1024x1024, .f32⟩
  | 53 => ⟨S8x1024x1024, .f32⟩
  | 54 => ⟨S8x1024x1024, .f32⟩
  | 55 => ⟨S_, .f32⟩
  | 56 => ⟨S8x1024, .f32⟩
  | 57 => ⟨S8x1024x1, .f32⟩
  | 58 => ⟨S8x1024x1024, .f32⟩
  | 59 => ⟨S8x1024x1024, .f32⟩
  | 60 => ⟨S8x1024x1024, .f32⟩
  | 61 => ⟨S1x1024x1024, .f32⟩
  | 62 => ⟨S1024x1024, .f32⟩
  | 63 => ⟨S8x1024x1024, .f32⟩
  | 64 => ⟨S1x1024, .f32⟩
  | 65 => ⟨S1024, .f32⟩
  | 66 => ⟨S1x1x1024, .f32⟩
  | 67 => ⟨S8x1024x1024, .f32⟩
  | 68 => ⟨S8x1024x1024, .f32⟩
  | 69 => ⟨S1x1024x1024, .f32⟩
  | 70 => ⟨S1024x1024, .f32⟩
  | 71 => ⟨S1x1024x1024, .f32⟩
  | 72 => ⟨S1024x1024, .f32⟩
  | 73 => ⟨S1x1024x1024, .f32⟩
  | 74 => ⟨S1024x1024, .f32⟩
  | 75 => ⟨S8x1024x1024, .f32⟩
  | 76 => ⟨S_, .f32⟩
  | 77 => ⟨S8x1024x1024, .f32⟩
  | 78 => ⟨S8x1024x1024, .f32⟩
  | 79 => ⟨S8x1024x1024, .f32⟩
  | 80 => ⟨S8x1024x1024, .f32⟩
  | 81 => ⟨S8x1024x1024, .f32⟩
  | 82 => ⟨S_, .f32⟩
  | 83 => ⟨S8x1024, .f32⟩
  | 84 => ⟨S_, .f32⟩
  | 85 => ⟨S8x1024, .f32⟩
  | 86 => ⟨S8x1024, .f32⟩
  | 87 => ⟨S8x1024x1, .f32⟩
  | 88 => ⟨S8x1024x1024, .f32⟩
  | 89 => ⟨S8x1024x1024, .f32⟩
  | 90 => ⟨S8x1024x1024, .f32⟩
  | 91 => ⟨S_, .f32⟩
  | 92 => ⟨S8x1024, .f32⟩
  | 93 => ⟨S8x1024x1, .f32⟩
  | 94 => ⟨S8x1024x1024, .f32⟩
  | 95 => ⟨S8x1024x1024, .f32⟩
  | 96 => ⟨S8x1024x1024, .f32⟩
  | 97 => ⟨S1x1024x1024, .f32⟩
  | 98 => ⟨S1024x1024, .f32⟩
  | 99 => ⟨S8x1024x1024, .f32⟩
  | 100 => ⟨S1x1024, .f32⟩
  | 101 => ⟨S1024, .f32⟩
  | 102 => ⟨S1x1x1024, .f32⟩
  | 103 => ⟨S8x1024x1024, .f32⟩
  | 104 => ⟨S8x1024x1024, .f32⟩
  | 105 => ⟨S8x1024x32000, .f32⟩
  | 106 => ⟨S1x1x32000, .f32⟩
  | 107 => ⟨S8x1024x32000, .f32⟩
  | 108 => ⟨S8x1024x32000, .f32⟩
  | _ => ⟨S8x1024, .i32⟩

abbrev hbmTy (i : Nat) : BufTy := match i / 128 with
  | 0 => hbmTy0_0 i
  | 1 => hbmTy0_1 i
  | _ => ⟨S8x1024, .i32⟩

abbrev bufTy : (tb : Table) → Fin (tcTables nBuf tb) → BufTy
  | .hbm, ⟨i, _⟩ => hbmTy i
  | _, _ => ⟨S8x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_4 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_5 : Ref sig .tc := ⟨.hbm, 66, rfl⟩
abbrev main_v51 : Ref sig .tc := ⟨.hbm, 67, rfl⟩
abbrev main_cst_6 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_7 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_8 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_cst_9 : Ref sig .tc := ⟨.hbm, 102, rfl⟩
abbrev main_v83 : Ref sig .tc := ⟨.hbm, 103, rfl⟩
abbrev main_cst_10 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_cst_11 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_cst_12 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_cst_13 : Ref sig .tc := ⟨.hbm, 138, rfl⟩
abbrev main_v115 : Ref sig .tc := ⟨.hbm, 139, rfl⟩
abbrev main_cst_14 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_cst_15 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_cst_16 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_cst_17 : Ref sig .tc := ⟨.hbm, 174, rfl⟩
abbrev main_v147 : Ref sig .tc := ⟨.hbm, 175, rfl⟩
abbrev main_cst_18 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_cst_19 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_cst_20 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_cst_21 : Ref sig .tc := ⟨.hbm, 210, rfl⟩
abbrev main_v179 : Ref sig .tc := ⟨.hbm, 211, rfl⟩
abbrev main_cst_22 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_cst_23 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩
abbrev main_v197 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_v201 : Ref sig .tc := ⟨.hbm, 235, rfl⟩
abbrev main_v202 : Ref sig .tc := ⟨.hbm, 236, rfl⟩

abbrev nD : Nat := 1
abbrev τ : Topo := Topo.v7x

variable {F : FTy → Type} [FloatOps F]

class Facts₀ : Prop where
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  slices_S6x3072x1024_S1x1024x1024_0_0_0 : S6x3072x1024.Slices ![0, 0, 0] S1x1024x1024
  shapeCasts_S1x1024x1024_S1024x1024 : S1x1024x1024.ShapeCasts S1024x1024
  slices_S6x3072x1024_S1x1024x1024_0_1024_0 : S6x3072x1024.Slices ![0, 1024, 0] S1x1024x1024
  slices_S6x3072x1024_S1x1024x1024_0_2048_0 : S6x3072x1024.Slices ![0, 2048, 0] S1x1024x1024
  bcast_S_S8x1024x1024 : S_.BroadcastsInDim S8x1024x1024 (![] : Fin 0 → Fin S8x1024x1024.rank)
  reducesTo_S8x1024x1024_S8x1024_d2 : S8x1024x1024.ReducesTo [2] S8x1024
  h_S_ : 0 < S_.numel
  bcast_S8x1024x1_S8x1024x1024_0_1_2 : S8x1024x1.BroadcastsInDim S8x1024x1024 (![0, 1, 2] : Fin 3 → Fin S8x1024x1024.rank)
  slices_S6x1024x1024_S1x1024x1024_0_0_0 : S6x1024x1024.Slices ![0, 0, 0] S1x1024x1024
  slices_S6x1024_S1x1024_0_0 : S6x1024.Slices ![0, 0] S1x1024
  shapeCasts_S1x1024_S1024 : S1x1024.ShapeCasts S1024
  bcast_S1024_S1x1x1024_2 : S1024.BroadcastsInDim S1x1x1024 (![2] : Fin 1 → Fin S1x1x1024.rank)
  bcast_S1x1x1024_S8x1024x1024_0_1_2 : S1x1x1024.BroadcastsInDim S8x1024x1024 (![0, 1, 2] : Fin 3 → Fin S8x1024x1024.rank)
  slices_S6x3072x1024_S1x1024x1024_1_0_0 : S6x3072x1024.Slices ![1, 0, 0] S1x1024x1024
  slices_S6x3072x1024_S1x1024x1024_1_1024_0 : S6x3072x1024.Slices ![1, 1024, 0] S1x1024x1024
  slices_S6x3072x1024_S1x1024x1024_1_2048_0 : S6x3072x1024.Slices ![1, 2048, 0] S1x1024x1024
  slices_S6x1024x1024_S1x1024x1024_1_0_0 : S6x1024x1024.Slices ![1, 0, 0] S1x1024x1024
  slices_S6x1024_S1x1024_1_0 : S6x1024.Slices ![1, 0] S1x1024
  slices_S6x3072x1024_S1x1024x1024_2_0_0 : S6x3072x1024.Slices ![2, 0, 0] S1x1024x1024
  slices_S6x3072x1024_S1x1024x1024_2_1024_0 : S6x3072x1024.Slices ![2, 1024, 0] S1x1024x1024
  slices_S6x3072x1024_S1x1024x1024_2_2048_0 : S6x3072x1024.Slices ![2, 2048, 0] S1x1024x1024
  slices_S6x1024x1024_S1x1024x1024_2_0_0 : S6x1024x1024.Slices ![2, 0, 0] S1x1024x1024
  slices_S6x1024_S1x1024_2_0 : S6x1024.Slices ![2, 0] S1x1024
  slices_S6x3072x1024_S1x1024x1024_3_0_0 : S6x3072x1024.Slices ![3, 0, 0] S1x1024x1024
  slices_S6x3072x1024_S1x1024x1024_3_1024_0 : S6x3072x1024.Slices ![3, 1024, 0] S1x1024x1024
  slices_S6x3072x1024_S1x1024x1024_3_2048_0 : S6x3072x1024.Slices ![3, 2048, 0] S1x1024x1024
  slices_S6x1024x1024_S1x1024x1024_3_0_0 : S6x1024x1024.Slices ![3, 0, 0] S1x1024x1024
  slices_S6x1024_S1x1024_3_0 : S6x1024.Slices ![3, 0] S1x1024
  slices_S6x3072x1024_S1x1024x1024_4_0_0 : S6x3072x1024.Slices ![4, 0, 0] S1x1024x1024
  slices_S6x3072x1024_S1x1024x1024_4_1024_0 : S6x3072x1024.Slices ![4, 1024, 0] S1x1024x1024
  slices_S6x3072x1024_S1x1024x1024_4_2048_0 : S6x3072x1024.Slices ![4, 2048, 0] S1x1024x1024
  slices_S6x1024x1024_S1x1024x1024_4_0_0 : S6x1024x1024.Slices ![4, 0, 0] S1x1024x1024
  slices_S6x1024_S1x1024_4_0 : S6x1024.Slices ![4, 0] S1x1024
  slices_S6x3072x1024_S1x1024x1024_5_0_0 : S6x3072x1024.Slices ![5, 0, 0] S1x1024x1024
  slices_S6x3072x1024_S1x1024x1024_5_1024_0 : S6x3072x1024.Slices ![5, 1024, 0] S1x1024x1024
  slices_S6x3072x1024_S1x1024x1024_5_2048_0 : S6x3072x1024.Slices ![5, 2048, 0] S1x1024x1024
  slices_S6x1024x1024_S1x1024x1024_5_0_0 : S6x1024x1024.Slices ![5, 0, 0] S1x1024x1024
  slices_S6x1024_S1x1024_5_0 : S6x1024.Slices ![5, 0] S1x1024
  bcast_S32000_S1x1x32000_2 : S32000.BroadcastsInDim S1x1x32000 (![2] : Fin 1 → Fin S1x1x32000.rank)
  bcast_S1x1x32000_S8x1024x32000_0_1_2 : S1x1x32000.BroadcastsInDim S8x1024x32000 (![0, 1, 2] : Fin 3 → Fin S8x1024x32000.rank)
  gather_S32000x1024_S8x1024x1_S8x1024x1024_2_0_n_n_0_2_11024_wf : GatherDims.WF S32000x1024 S8x1024x1 S8x1024x1024 [2] [0] [] [0] [] 2 ![1, 1024]
  dot_S8x1024x1024_S1024x1024_S8x1024x1024_2_1_01_0_n_n_wf : DotDims.WF S8x1024x1024 S1024x1024 S8x1024x1024 [2] [1] [0, 1] [0] [] []
  dot_S8x1024x1024_S8x1024x1024_S8x1024x1024_2_2_1_1_0_0_wf : DotDims.WF S8x1024x1024 S8x1024x1024 S8x1024x1024 [2] [2] [1] [1] [0] [0]
  dot_S8x1024x1024_S8x1024x1024_S8x1024x1024_2_1_1_2_0_0_wf : DotDims.WF S8x1024x1024 S8x1024x1024 S8x1024x1024 [2] [1] [1] [2] [0] [0]
  dot_S8x1024x1024_S32000x1024_S8x1024x32000_2_1_01_0_n_n_wf : DotDims.WF S8x1024x1024 S32000x1024 S8x1024x32000 [2] [1] [0, 1] [0] [] []

variable [Facts₀]

def gather_S32000x1024_S8x1024x1_S8x1024x1024_2_0_n_n_0_2_11024 : GatherDims S32000x1024 S8x1024x1 S8x1024x1024 where
  offsetDims := [2]
  collapsedSliceDims := [0]
  operandBatchingDims := []
  startIndicesBatchingDims := []
  startIndexMap := [0]
  indexVectorDim := 2
  sliceSizes := ![1, 1024]
  wf := gather_S32000x1024_S8x1024x1_S8x1024x1024_2_0_n_n_0_2_11024_wf
def dot_S8x1024x1024_S1024x1024_S8x1024x1024_2_1_01_0_n_n : DotDims S8x1024x1024 S1024x1024 S8x1024x1024 where
  lhsContracting := [2]
  rhsContracting := [1]
  lhsNonContracting := [0, 1]
  rhsNonContracting := [0]
  lhsBatch := []
  rhsBatch := []
  wf := dot_S8x1024x1024_S1024x1024_S8x1024x1024_2_1_01_0_n_n_wf
def dot_S8x1024x1024_S8x1024x1024_S8x1024x1024_2_2_1_1_0_0 : DotDims S8x1024x1024 S8x1024x1024 S8x1024x1024 where
  lhsContracting := [2]
  rhsContracting := [2]
  lhsNonContracting := [1]
  rhsNonContracting := [1]
  lhsBatch := [0]
  rhsBatch := [0]
  wf := dot_S8x1024x1024_S8x1024x1024_S8x1024x1024_2_2_1_1_0_0_wf
def dot_S8x1024x1024_S8x1024x1024_S8x1024x1024_2_1_1_2_0_0 : DotDims S8x1024x1024 S8x1024x1024 S8x1024x1024 where
  lhsContracting := [2]
  rhsContracting := [1]
  lhsNonContracting := [1]
  rhsNonContracting := [2]
  lhsBatch := [0]
  rhsBatch := [0]
  wf := dot_S8x1024x1024_S8x1024x1024_S8x1024x1024_2_1_1_2_0_0_wf
def dot_S8x1024x1024_S32000x1024_S8x1024x32000_2_1_01_0_n_n : DotDims S8x1024x1024 S32000x1024 S8x1024x32000 where
  lhsContracting := [2]
  rhsContracting := [1]
  lhsNonContracting := [0, 1]
  rhsNonContracting := [0]
  lhsBatch := []
  rhsBatch := []
  wf := dot_S8x1024x1024_S32000x1024_S8x1024x32000_2_1_01_0_n_n_wf

class Facts : Prop extends Facts₀ where

variable [Facts]
-- ==== Proof.BRuns0.lean ====
import proofs.«427532_j66606352826848_3_alg».proof.Proof.Gen.Kernel.Launch
import proofs.«427532_j66606352826848_3_alg».proof.Proof.Gen.Kernel.Skeleton
import proofs.«427532_j66606352826848_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condR0 (i : grid0.Coords) : Prop := (Scalar.cmpi .ne (Scalar.extui (Scalar.cmpi .eq (BitVec.ofNat 32 (i 1).val) 0#32)) 0#32) = 1#1

theorem hcondR0 : ∀ t : Fin cfg0.N, condR0 (grid0.coords t) ↔ t.val % 4 = 0 :=
  (by decide +kernel : ∀ t : Fin grid0.N, condR0 (grid0.coords t) ↔ t.val % 4 = 0)

abbrev scMR0_0 : Memref sig .tc .vmem S1024x1024 .bf16 := Memref.whole cc0_scratch0
abbrev scMR0_1 : Memref sig .tc .vmem S1024x1024 .bf16 := Memref.whole cc0_scratch1

abbrev msR0_0 (t : Fin cfg0.N) : Memref sig .tc .vmem S1x256x1024 .bf16 := win0_0.stage (cfg0.slots t 0)
abbrev hsR0_0 (t : Fin cfg0.N) : (msR0_0 t).IsWhole := hstage0_0 ((cfg0.slots t 0).cast nbuf0_0)
abbrev msR0_1 (t : Fin cfg0.N) : Memref sig .tc .vmem S1x1024x1024 .bf16 := win0_1.stage (cfg0.slots t 1)
abbrev hsR0_1 (t : Fin cfg0.N) : (msR0_1 t).IsWhole := hstage0_1 ((cfg0.slots t 1).cast nbuf0_1)
abbrev msR0_2 (t : Fin cfg0.N) : Memref sig .tc .vmem S1024x1024 .bf16 := win0_2.stage (cfg0.slots t 2)
abbrev hsR0_2 (t : Fin cfg0.N) : (msR0_2 t).IsWhole := hstage0_2 ((cfg0.slots t 2).cast nbuf0_2)
abbrev msR0_3 (t : Fin cfg0.N) : Memref sig .tc .vmem S1024x1024 .bf16 := win0_3.stage (cfg0.slots t 3)
abbrev hsR0_3 (t : Fin cfg0.N) : (msR0_3 t).IsWhole := hstage0_3 ((cfg0.slots t 3).cast nbuf0_3)
abbrev msR0_4 (t : Fin cfg0.N) : Memref sig .tc .vmem S1024x1024 .bf16 := win0_4.stage (cfg0.slots t 4)
abbrev hsR0_4 (t : Fin cfg0.N) : (msR0_4 t).IsWhole := hstage0_4 ((cfg0.slots t 4).cast nbuf0_4)
abbrev msR0_5 (t : Fin cfg0.N) : Memref sig .tc .vmem S1024x1024 .bf16 := win0_5.stage (cfg0.slots t 5)
abbrev hsR0_5 (t : Fin cfg0.N) : (msR0_5 t).IsWhole := hstage0_5 ((cfg0.slots t 5).cast nbuf0_5)
abbrev msR0_6 (t : Fin cfg0.N) : Memref sig .tc .vmem S1x1024 .f32 := win0_6.stage (cfg0.slots t 6)
abbrev hsR0_6 (t : Fin cfg0.N) : (msR0_6 t).IsWhole := hstage0_6 ((cfg0.slots t 6).cast nbuf0_6)
abbrev msR0_7 (t : Fin cfg0.N) : Memref sig .tc .vmem S1x256x1024 .bf16 := win0_7.stage (cfg0.slots t 7)
abbrev hsR0_7 (t : Fin cfg0.N) : (msR0_7 t).IsWhole := hstage0_7 ((cfg0.slots t 7).cast nbuf0_7)

theorem PhiAR0_eq (c : Dev nD) :
    (Pipeline.ΦA spec0 c : sProp 𝕄)
      = iprop(iprop(iprop((∃ d, owns (c : Thread nD τ) scMR0_0 fullShare d) ∗ (∃ d, owns (c : Thread nD τ) scMR0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scMR0_0, scMR0_1, owns_whole]; try rfl

end Cert.Kernel.Gen

end
-- ==== Proof.BRunA0.lean ====
import proofs.«427532_j66606352826848_3_alg».proof.Proof.BRuns0

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRunR0_A (c : Dev nD) (i : grid0.Coords) (arg2 : Memref sig .tc .vmem S1x256x1024 .bf16) (harg2 : arg2.IsWhole) (arg3 : Memref sig .tc .vmem S1x1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S1024x1024 .bf16) (harg10 : arg10.IsWhole) (arg11 : Memref sig .tc .vmem S1024x1024 .bf16) (harg11 : arg11.IsWhole) (hc0 : condR0 i)
    (x0 : Vec F S1x256x1024 .bf16) (x1 : Vec F S1x1024x1024 .bf16) (x2 : Vec F S1024x1024 .bf16) (x3 : Vec F S1024x1024 .bf16) (x4 : Vec F S1024x1024 .bf16) (x5 : Vec F S1024x1024 .bf16) (x6 : Vec F S1x1024 .f32) :
    Σ' (L7 : List (View.Piece (Elt F) S1x256x1024 .bf16)) (LS0 : List (View.Piece (Elt F) S1024x1024 .bf16)), { LS1 : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)) -∗ K ⟨⟩))
          ⊢ wp frame (wpE (defs₀ (F := F)) Variants.none c none) E (cc0__attn_layer_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__attn_layer_kernel_eq_skeleton]; unfold cc0__attn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]; · iexists _; iexact HS0
    iexists _; iexact HS1

end Cert.Kernel.Gen

end
-- ==== Proof.BRunB0.lean ====
import proofs.«427532_j66606352826848_3_alg».proof.Proof.BRuns0

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRunR0_B (c : Dev nD) (i : grid0.Coords) (arg2 : Memref sig .tc .vmem S1x256x1024 .bf16) (harg2 : arg2.IsWhole) (arg3 : Memref sig .tc .vmem S1x1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S1024x1024 .bf16) (harg10 : arg10.IsWhole) (arg11 : Memref sig .tc .vmem S1024x1024 .bf16) (harg11 : arg11.IsWhole) (hc0 : ¬condR0 i)
    (x0 : Vec F S1x256x1024 .bf16) (x1 : Vec F S1x1024x1024 .bf16) (x2 : Vec F S1024x1024 .bf16) (x3 : Vec F S1024x1024 .bf16) (x4 : Vec F S1024x1024 .bf16) (x5 : Vec F S1024x1024 .bf16) (x6 : Vec F S1x1024 .f32) (xs0 : Vec F S1024x1024 .bf16) (xs1 : Vec F S1024x1024 .bf16) :
    { L7 : List (View.Piece (Elt F) S1x256x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f L7)
                ∗ owns (c : Thread nD τ) arg10 fullShare xs0 ∗ owns (c : Thread nD τ) arg11 fullShare xs1) -∗ K ⟨⟩))
          ⊢ wp frame (wpE (defs₀ (F := F)) Variants.none c none) E (cc0__attn_layer_kernel i arg2 harg2 arg3 harg3 arg4 harg4 arg5 harg5 arg6 harg6 arg7 harg7 arg8 harg8 arg9 harg9 arg10 harg10 arg11 harg11) K } := by
  refine ⟨?_, fun E K => ?run⟩
  case run =>
    simp only [cc0__attn_layer_kernel_eq_skeleton]; unfold cc0__attn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0; obtain rfl := harg11.eq_unread hfs1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]
    · iexists _; isplitr; · ipureintro; exact harg10.read_unread _
      iexact HS0
    iexists _; isplitr; · ipureintro; exact harg11.read_unread _
    iexact HS1

end Cert.Kernel.Gen

end
-- ==== Proof.BAttn.lean ====
import proofs.«427532_j66606352826848_3_alg».proof.Proof.BRunA0
import proofs.«427532_j66606352826848_3_alg».proof.Proof.BRunB0
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The attention kernel's ten operands, each a whole memref: seven inputs, the output, the two scratch buffers. -/
structure Ops where
  m2 : Memref sig .tc .vmem S1x256x1024 .bf16
  h2 : m2.IsWhole
  m3 : Memref sig .tc .vmem S1x1024x1024 .bf16
  h3 : m3.IsWhole
  m4 : Memref sig .tc .vmem S1024x1024 .bf16
  h4 : m4.IsWhole
  m5 : Memref sig .tc .vmem S1024x1024 .bf16
  h5 : m5.IsWhole
  m6 : Memref sig .tc .vmem S1024x1024 .bf16
  h6 : m6.IsWhole
  m7 : Memref sig .tc .vmem S1024x1024 .bf16
  h7 : m7.IsWhole
  m8 : Memref sig .tc .vmem S1x1024 .f32
  h8 : m8.IsWhole
  m9 : Memref sig .tc .vmem S1x256x1024 .bf16
  h9 : m9.IsWhole
  m10 : Memref sig .tc .vmem S1024x1024 .bf16
  h10 : m10.IsWhole
  m11 : Memref sig .tc .vmem S1024x1024 .bf16
  h11 : m11.IsWhole

/-- The seven input blocks: query rows, target rows, the four matrices, the bias row. -/
structure Ins (F : FTy → Type) where
  x0 : Vec F S1x256x1024 .bf16
  x1 : Vec F S1x1024x1024 .bf16
  x2 : Vec F S1024x1024 .bf16
  x3 : Vec F S1024x1024 .bf16
  x4 : Vec F S1024x1024 .bf16
  x5 : Vec F S1024x1024 .bf16
  x6 : Vec F S1x1024 .f32

abbrev Ops.body (a : Ops) (i : grid0.Coords) : Prog (TpuEff nD τ sig (Elt F) Λ₀ .tc) PUnit :=
  cc0__attn_layer_kernel i a.m2 a.h2 a.m3 a.h3 a.m4 a.h4 a.m5 a.h5 a.m6 a.h6 a.m7 a.h7 a.m8 a.h8 a.m9 a.h9 a.m10 a.h10 a.m11 a.h11

abbrev Ins.keys (x : Ins F) : Vec F S1024x1024 .bf16 := k0_pay3 x.x1 x.x3
abbrev Ins.vals (x : Ins F) : Vec F S1024x1024 .bf16 := k0_pay4 x.x1 x.x4
abbrev Ins.out (x : Ins F) (ks vs : Vec F S1024x1024 .bf16) : Vec F S1x256x1024 .bf16 :=
  k0_pay1 (k0_pay5 x.x0 x.x2 ks vs x.x5) (k0_pay6 x.x6)
/-- What a batch's first tile leaves in the output block and the two scratch buffers, and what a later tile does. -/
abbrev Ins.first (x : Ins F) : Vec F S1x256x1024 .bf16 × Vec F S1024x1024 .bf16 × Vec F S1024x1024 .bf16 :=
  (x.out x.keys x.vals, x.keys, x.vals)
abbrev Ins.later (x : Ins F) (ks vs : Vec F S1024x1024 .bf16) : Vec F S1x256x1024 .bf16 × Vec F S1024x1024 .bf16 × Vec F S1024x1024 .bf16 :=
  (x.out ks vs, ks, vs)

section
variable (c : Dev nD) (i : grid0.Coords) (arg2 : Memref sig .tc .vmem S1x256x1024 .bf16) (harg2 : arg2.IsWhole) (arg3 : Memref sig .tc .vmem S1x1024x1024 .bf16) (harg3 : arg3.IsWhole)
  (arg4 : Memref sig .tc .vmem S1024x1024 .bf16) (harg4 : arg4.IsWhole) (arg5 : Memref sig .tc .vmem S1024x1024 .bf16) (harg5 : arg5.IsWhole)
  (arg6 : Memref sig .tc .vmem S1024x1024 .bf16) (harg6 : arg6.IsWhole) (arg7 : Memref sig .tc .vmem S1024x1024 .bf16) (harg7 : arg7.IsWhole)
  (arg8 : Memref sig .tc .vmem S1x1024 .f32) (harg8 : arg8.IsWhole) (arg9 : Memref sig .tc .vmem S1x256x1024 .bf16) (harg9 : arg9.IsWhole)
  (arg10 : Memref sig .tc .vmem S1024x1024 .bf16) (harg10 : arg10.IsWhole) (arg11 : Memref sig .tc .vmem S1024x1024 .bf16) (harg11 : arg11.IsWhole)
  (x0 : Vec F S1x256x1024 .bf16) (x1 : Vec F S1x1024x1024 .bf16) (x2 x3 x4 x5 : Vec F S1024x1024 .bf16) (x6 : Vec F S1x1024 .f32)

/-- The six attention calls run one kernel. -/
theorem cc1_eq : cc1__attn_layer_kernel (F := F) i arg2 harg2 arg3 harg3 arg4 harg4 arg5 harg5 arg6 harg6 arg7 harg7 arg8 harg8 arg9 harg9 arg10 harg10 arg11 harg11 = cc0__attn_layer_kernel i arg2 harg2 arg3 harg3 arg4 harg4 arg5 harg5 arg6 harg6 arg7 harg7 arg8 harg8 arg9 harg9 arg10 harg10 arg11 harg11 := rfl
theorem cc2_eq : cc2__attn_layer_kernel (F := F) i arg2 harg2 arg3 harg3 arg4 harg4 arg5 harg5 arg6 harg6 arg7 harg7 arg8 harg8 arg9 harg9 arg10 harg10 arg11 harg11 = cc0__attn_layer_kernel i arg2 harg2 arg3 harg3 arg4 harg4 arg5 harg5 arg6 harg6 arg7 harg7 arg8 harg8 arg9 harg9 arg10 harg10 arg11 harg11 := rfl
theorem cc3_eq : cc3__attn_layer_kernel (F := F) i arg2 harg2 arg3 harg3 arg4 harg4 arg5 harg5 arg6 harg6 arg7 harg7 arg8 harg8 arg9 harg9 arg10 harg10 arg11 harg11 = cc0__attn_layer_kernel i arg2 harg2 arg3 harg3 arg4 harg4 arg5 harg5 arg6 harg6 arg7 harg7 arg8 harg8 arg9 harg9 arg10 harg10 arg11 harg11 := rfl
theorem cc4_eq : cc4__attn_layer_kernel (F := F) i arg2 harg2 arg3 harg3 arg4 harg4 arg5 harg5 arg6 harg6 arg7 harg7 arg8 harg8 arg9 harg9 arg10 harg10 arg11 harg11 = cc0__attn_layer_kernel i arg2 harg2 arg3 harg3 arg4 harg4 arg5 harg5 arg6 harg6 arg7 harg7 arg8 harg8 arg9 harg9 arg10 harg10 arg11 harg11 := rfl
theorem cc5_eq : cc5__attn_layer_kernel (F := F) i arg2 harg2 arg3 harg3 arg4 harg4 arg5 harg5 arg6 harg6 arg7 harg7 arg8 harg8 arg9 harg9 arg10 harg10 arg11 harg11 = cc0__attn_layer_kernel i arg2 harg2 arg3 harg3 arg4 harg4 arg5 harg5 arg6 harg6 arg7 harg7 arg8 harg8 arg9 harg9 arg10 harg10 arg11 harg11 := rfl

section
variable (hc : condR0 i)

/-- The stores of a first tile tile each buffer, so what is read back is the stored payload. -/
theorem first_keys (e : arg10.view.ty.Contents (Elt F)) :
    arg10.view.read (Elt F) (arg10.view.writes (Elt F) e (kernelRunR0_A c i arg2 harg2 arg3 harg3 arg4 harg4 arg5 harg5 arg6 harg6 arg7 harg7 arg8 harg8 arg9 harg9 arg10 harg10 arg11 harg11 hc x0 x1 x2 x3 x4 x5 x6).2.1) = k0_pay3 x1 x3 := by
  rw [View.read_writes_eq_canon _ _ _ (View.cover_of_tiledL (kernelRunR0_A c i arg2 harg2 arg3 harg3 arg4 harg4 arg5 harg5 arg6 harg6 arg7 harg7 arg8 harg8 arg9 harg9 arg10 harg10 arg11 harg11 hc x0 x1 x2 x3 x4 x5 x6).2.1 S1024x1024.size (by sl_kernel_rfl))]
  unfold kernelRunR0_A
  dsimp only
  sl_unfold_words
  rw [View.canon_unit_zero hz2]
  simp only [View.readAt_eq_ld, harg3.read_unread, harg5.read_unread, View.ld_unit_zero (S := S1x1024x1024) hz3, View.ld_unit_zero (S := S1024x1024) hz2]

theorem first_vals (e : arg11.view.ty.Contents (Elt F)) :
    arg11.view.read (Elt F) (arg11.view.writes (Elt F) e (kernelRunR0_A c i arg2 harg2 arg3 harg3 arg4 harg4 arg5 harg5 arg6 harg6 arg7 harg7 arg8 harg8 arg9 harg9 arg10 harg10 arg11 harg11 hc x0 x1 x2 x3 x4 x5 x6).2.2.1) = k0_pay4 x1 x4 := by
  rw [View.read_writes_eq_canon _ _ _ (View.cover_of_tiledL (kernelRunR0_A c i arg2 harg2 arg3 harg3 arg4 harg4 arg5 harg5 arg6 harg6 arg7 harg7 arg8 harg8 arg9 harg9 arg10 harg10 arg11 harg11 hc x0 x1 x2 x3 x4 x5 x6).2.2.1 S1024x1024.size (by sl_kernel_rfl))]
  unfold kernelRunR0_A
  dsimp only
  sl_unfold_words
  rw [View.canon_unit_zero hz2]
  simp only [View.readAt_eq_ld, harg3.read_unread, harg6.read_unread, View.ld_unit_zero (S := S1x1024x1024) hz3, View.ld_unit_zero (S := S1024x1024) hz2]

theorem first_out (e : arg9.view.ty.Contents (Elt F)) :
    arg9.view.read (Elt F) (arg9.view.writes (Elt F) e (kernelRunR0_A c i arg2 harg2 arg3 harg3 arg4 harg4 arg5 harg5 arg6 harg6 arg7 harg7 arg8 harg8 arg9 harg9 arg10 harg10 arg11 harg11 hc x0 x1 x2 x3 x4 x5 x6).1) = k0_pay1 (k0_pay5 x0 x2 (k0_pay3 x1 x3) (k0_pay4 x1 x4) x5) (k0_pay6 x6) := by
  rw [View.read_writes_eq_canon _ _ _ (View.cover_of_tiledL (kernelRunR0_A c i arg2 harg2 arg3 harg3 arg4 harg4 arg5 harg5 arg6 harg6 arg7 harg7 arg8 harg8 arg9 harg9 arg10 harg10 arg11 harg11 hc x0 x1 x2 x3 x4 x5 x6).1 S1x256x1024.size (by sl_kernel_rfl))]
  unfold kernelRunR0_A
  dsimp only
  sl_unfold_words
  rw [View.canon_unit_zero hz3]
  simp only [View.readAt_eq_ld, harg2.read_unread, harg3.read_unread, harg4.read_unread, harg5.read_unread, harg6.read_unread, harg7.read_unread, harg8.read_unread,
    View.readCov_unit_zero (S := S1024x1024) _ hz2,
    View.ld_unit_zero (S := S1x256x1024) hz3, View.ld_unit_zero (S := S1x1024x1024) hz3, View.ld_unit_zero (S := S1024x1024) hz2, View.ld_unit_zero (S := S1x1024) hz2]

end

theorem later_out (hc : ¬condR0 i) (xs0 xs1 : Vec F S1024x1024 .bf16) (e : arg9.view.ty.Contents (Elt F)) :
    arg9.view.read (Elt F) (arg9.view.writes (Elt F) e (kernelRunR0_B c i arg2 harg2 arg3 harg3 arg4 harg4 arg5 harg5 arg6 harg6 arg7 harg7 arg8 harg8 arg9 harg9 arg10 harg10 arg11 harg11 hc x0 x1 x2 x3 x4 x5 x6 xs0 xs1).1) = k0_pay1 (k0_pay5 x0 x2 xs0 xs1 x5) (k0_pay6 x6) := by
  rw [View.read_writes_eq_canon _ _ _ (View.cover_of_tiledL (kernelRunR0_B c i arg2 harg2 arg3 harg3 arg4 harg4 arg5 harg5 arg6 harg6 arg7 harg7 arg8 harg8 arg9 harg9 arg10 harg10 arg11 harg11 hc x0 x1 x2 x3 x4 x5 x6 xs0 xs1).1 S1x256x1024.size (by sl_kernel_rfl))]
  unfold kernelRunR0_B
  dsimp only
  sl_unfold_words
  rw [View.canon_unit_zero hz3]
  simp only [View.readAt_eq_ld, harg2.read_unread, harg4.read_unread, harg7.read_unread, harg8.read_unread, harg10.read_unread, harg11.read_unread,
    View.ld_unit_zero (S := S1x256x1024) hz3, View.ld_unit_zero (S := S1024x1024) hz2, View.ld_unit_zero (S := S1x1024) hz2]

end

/-- A batch's first query tile: from the inputs at `x` and the output and scratch buffers at anything, the body ends with the inputs as they were, the scratch buffers at the batch's key and value projections, the output at the layer's tile. -/
theorem body_first (c : Dev nD) (i : grid0.Coords) (hc : condR0 i) (a : Ops) (x : Ins F) (E : Set ℕ) (K : PUnit → sProp 𝕄) :
    iprop(owns (c : Thread nD τ) a.m2 fullShare x.x0 ∗ owns (c : Thread nD τ) a.m3 fullShare x.x1 ∗ owns (c : Thread nD τ) a.m4 fullShare x.x2 ∗ owns (c : Thread nD τ) a.m5 fullShare x.x3 ∗ owns (c : Thread nD τ) a.m6 fullShare x.x4 ∗ owns (c : Thread nD τ) a.m7 fullShare x.x5 ∗ owns (c : Thread nD τ) a.m8 fullShare x.x6
        ∗ (∃ d, owns (c : Thread nD τ) a.m9 fullShare d) ∗ (∃ d, owns (c : Thread nD τ) a.m10 fullShare d) ∗ (∃ d, owns (c : Thread nD τ) a.m11 fullShare d)
        ∗ (iprop(owns (c : Thread nD τ) a.m2 fullShare x.x0 ∗ owns (c : Thread nD τ) a.m3 fullShare x.x1 ∗ owns (c : Thread nD τ) a.m4 fullShare x.x2 ∗ owns (c : Thread nD τ) a.m5 fullShare x.x3 ∗ owns (c : Thread nD τ) a.m6 fullShare x.x4 ∗ owns (c : Thread nD τ) a.m7 fullShare x.x5 ∗ owns (c : Thread nD τ) a.m8 fullShare x.x6
            ∗ owns (c : Thread nD τ) a.m9 fullShare (x.out x.keys x.vals) ∗ owns (c : Thread nD τ) a.m10 fullShare x.keys ∗ owns (c : Thread nD τ) a.m11 fullShare x.vals) -∗ K ⟨⟩))
      ⊢ wp frame (wpE (defs₀ (F := F)) Variants.none c none) E (a.body i) K := by
  iintro ⟨H0, H1, H2, H3, H4, H5, H6, H7, HS0, HS1, Hk⟩
  iapply ((kernelRunR0_A c i a.m2 a.h2 a.m3 a.h3 a.m4 a.h4 a.m5 a.h5 a.m6 a.h6 a.m7 a.h7 a.m8 a.h8 a.m9 a.h9 a.m10 a.h10 a.m11 a.h11 hc x.x0 x.x1 x.x2 x.x3 x.x4 x.x5 x.x6).2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, ⟨%e7, H7⟩, ⟨%es0, HS0⟩, ⟨%es1, HS1⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact first_out c i a.m2 a.h2 a.m3 a.h3 a.m4 a.h4 a.m5 a.h5 a.m6 a.h6 a.m7 a.h7 a.m8 a.h8 a.m9 a.h9 a.m10 a.h10 a.m11 a.h11 x.x0 x.x1 x.x2 x.x3 x.x4 x.x5 x.x6 hc e7
  isplitl [HS0]
  · unfold owns; iexists _; isplitr
    swap; · iexact HS0
    ipureintro; exact first_keys c i a.m2 a.h2 a.m3 a.h3 a.m4 a.h4 a.m5 a.h5 a.m6 a.h6 a.m7 a.h7 a.m8 a.h8 a.m9 a.h9 a.m10 a.h10 a.m11 a.h11 x.x0 x.x1 x.x2 x.x3 x.x4 x.x5 x.x6 hc es0
  unfold owns; iexists _; isplitr
  swap; · iexact HS1
  ipureintro; exact first_vals c i a.m2 a.h2 a.m3 a.h3 a.m4 a.h4 a.m5 a.h5 a.m6 a.h6 a.m7 a.h7 a.m8 a.h8 a.m9 a.h9 a.m10 a.h10 a.m11 a.h11 x.x0 x.x1 x.x2 x.x3 x.x4 x.x5 x.x6 hc es1

/-- A later tile of the batch: the scratch buffers are read at `ks`, `vs` and kept; the output is the tile over them. -/
theorem body_later (c : Dev nD) (i : grid0.Coords) (hc : ¬condR0 i) (a : Ops) (x : Ins F) (ks vs : Vec F S1024x1024 .bf16) (E : Set ℕ) (K : PUnit → sProp 𝕄) :
    iprop(owns (c : Thread nD τ) a.m2 fullShare x.x0 ∗ owns (c : Thread nD τ) a.m3 fullShare x.x1 ∗ owns (c : Thread nD τ) a.m4 fullShare x.x2 ∗ owns (c : Thread nD τ) a.m5 fullShare x.x3 ∗ owns (c : Thread nD τ) a.m6 fullShare x.x4 ∗ owns (c : Thread nD τ) a.m7 fullShare x.x5 ∗ owns (c : Thread nD τ) a.m8 fullShare x.x6
        ∗ (∃ d, owns (c : Thread nD τ) a.m9 fullShare d) ∗ owns (c : Thread nD τ) a.m10 fullShare ks ∗ owns (c : Thread nD τ) a.m11 fullShare vs
        ∗ (iprop(owns (c : Thread nD τ) a.m2 fullShare x.x0 ∗ owns (c : Thread nD τ) a.m3 fullShare x.x1 ∗ owns (c : Thread nD τ) a.m4 fullShare x.x2 ∗ owns (c : Thread nD τ) a.m5 fullShare x.x3 ∗ owns (c : Thread nD τ) a.m6 fullShare x.x4 ∗ owns (c : Thread nD τ) a.m7 fullShare x.x5 ∗ owns (c : Thread nD τ) a.m8 fullShare x.x6
            ∗ owns (c : Thread nD τ) a.m9 fullShare (x.out ks vs) ∗ owns (c : Thread nD τ) a.m10 fullShare ks ∗ owns (c : Thread nD τ) a.m11 fullShare vs) -∗ K ⟨⟩))
      ⊢ wp frame (wpE (defs₀ (F := F)) Variants.none c none) E (a.body i) K := by
  iintro ⟨H0, H1, H2, H3, H4, H5, H6, H7, HS0, HS1, Hk⟩
  iapply ((kernelRunR0_B c i a.m2 a.h2 a.m3 a.h3 a.m4 a.h4 a.m5 a.h5 a.m6 a.h6 a.m7 a.h7 a.m8 a.h8 a.m9 a.h9 a.m10 a.h10 a.m11 a.h11 hc x.x0 x.x1 x.x2 x.x3 x.x4 x.x5 x.x6 ks vs).2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, ⟨%e7, H7⟩, HS0, HS1⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact later_out c i a.m2 a.h2 a.m3 a.h3 a.m4 a.h4 a.m5 a.h5 a.m6 a.h6 a.m7 a.h7 a.m8 a.h8 a.m9 a.h9 a.m10 a.h10 a.m11 a.h11 x.x0 x.x1 x.x2 x.x3 x.x4 x.x5 x.x6 hc ks vs e7
  isplitl [HS0]; · iexact HS0
  iexact HS1

end Cert.Kernel.Gen

end
-- ==== Proof.BDat0.lean ====
import proofs.«427532_j66606352826848_3_alg».proof.Proof.BAttn
import proofs.«427532_j66606352826848_3_alg».proof.Proof.BRuns0

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

def iblkR0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem beforeR0_0_of {c : Dev nD} (dat : Dat τ (Elt F) Unit ℕ (UR sig nD τ) ℕ cfg0 c) (hA : dat.A 0 = V c (Pipeline.arrRef spec0 0))
    (hafter : ∀ t, dat.after 0 t = iblkR0 V c 0 t) (t : Fin cfg0.N) (d) : dat.before 0 t d = iblkR0 V c 0 t :=
  (dat.before_in_eq_fetched 0 rfl (fun _ => rfl) (fun _ _ _ => rfl) (fun t => by rw [hafter]; unfold Dat.blockOf iblkR0; rw [hA]; try rfl) t d).trans
    (by unfold Dat.fetched Dat.blockOf iblkR0; rw [hA]; try rfl)
theorem beforeR0_1_of {c : Dev nD} (dat : Dat τ (Elt F) Unit ℕ (UR sig nD τ) ℕ cfg0 c) (hA : dat.A 1 = V c (Pipeline.arrRef spec0 1))
    (hafter : ∀ t, dat.after 1 t = iblkR0 V c 1 t) (t : Fin cfg0.N) (d) : dat.before 1 t d = iblkR0 V c 1 t :=
  (dat.before_in_eq_fetched 1 rfl (fun _ => rfl) (fun _ _ _ => rfl) (fun t => by rw [hafter]; unfold Dat.blockOf iblkR0; rw [hA]; try rfl) t d).trans
    (by unfold Dat.fetched Dat.blockOf iblkR0; rw [hA]; try rfl)
theorem beforeR0_2_of {c : Dev nD} (dat : Dat τ (Elt F) Unit ℕ (UR sig nD τ) ℕ cfg0 c) (hA : dat.A 2 = V c (Pipeline.arrRef spec0 2))
    (hafter : ∀ t, dat.after 2 t = iblkR0 V c 2 t) (t : Fin cfg0.N) (d) : dat.before 2 t d = iblkR0 V c 2 t :=
  (dat.before_in_eq_fetched 2 rfl (fun _ => rfl) (fun _ _ _ => rfl) (fun t => by rw [hafter]; unfold Dat.blockOf iblkR0; rw [hA]; try rfl) t d).trans
    (by unfold Dat.fetched Dat.blockOf iblkR0; rw [hA]; try rfl)
theorem beforeR0_3_of {c : Dev nD} (dat : Dat τ (Elt F) Unit ℕ (UR sig nD τ) ℕ cfg0 c) (hA : dat.A 3 = V c (Pipeline.arrRef spec0 3))
    (hafter : ∀ t, dat.after 3 t = iblkR0 V c 3 t) (t : Fin cfg0.N) (d) : dat.before 3 t d = iblkR0 V c 3 t :=
  (dat.before_in_eq_fetched 3 rfl (fun _ => rfl) (fun _ _ _ => rfl) (fun t => by rw [hafter]; unfold Dat.blockOf iblkR0; rw [hA]; try rfl) t d).trans
    (by unfold Dat.fetched Dat.blockOf iblkR0; rw [hA]; try rfl)
theorem beforeR0_4_of {c : Dev nD} (dat : Dat τ (Elt F) Unit ℕ (UR sig nD τ) ℕ cfg0 c) (hA : dat.A 4 = V c (Pipeline.arrRef spec0 4))
    (hafter : ∀ t, dat.after 4 t = iblkR0 V c 4 t) (t : Fin cfg0.N) (d) : dat.before 4 t d = iblkR0 V c 4 t :=
  (dat.before_in_eq_fetched 4 rfl (fun _ => rfl) (fun _ _ _ => rfl) (fun t => by rw [hafter]; unfold Dat.blockOf iblkR0; rw [hA]; try rfl) t d).trans
    (by unfold Dat.fetched Dat.blockOf iblkR0; rw [hA]; try rfl)
theorem beforeR0_5_of {c : Dev nD} (dat : Dat τ (Elt F) Unit ℕ (UR sig nD τ) ℕ cfg0 c) (hA : dat.A 5 = V c (Pipeline.arrRef spec0 5))
    (hafter : ∀ t, dat.after 5 t = iblkR0 V c 5 t) (t : Fin cfg0.N) (d) : dat.before 5 t d = iblkR0 V c 5 t :=
  (dat.before_in_eq_fetched 5 rfl (fun _ => rfl) (fun _ _ _ => rfl) (fun t => by rw [hafter]; unfold Dat.blockOf iblkR0; rw [hA]; try rfl) t d).trans
    (by unfold Dat.fetched Dat.blockOf iblkR0; rw [hA]; try rfl)
theorem beforeR0_6_of {c : Dev nD} (dat : Dat τ (Elt F) Unit ℕ (UR sig nD τ) ℕ cfg0 c) (hA : dat.A 6 = V c (Pipeline.arrRef spec0 6))
    (hafter : ∀ t, dat.after 6 t = iblkR0 V c 6 t) (t : Fin cfg0.N) (d) : dat.before 6 t d = iblkR0 V c 6 t :=
  (dat.before_in_eq_fetched 6 rfl (fun _ => rfl) (fun _ _ _ => rfl) (fun t => by rw [hafter]; unfold Dat.blockOf iblkR0; rw [hA]; try rfl) t d).trans
    (by unfold Dat.fetched Dat.blockOf iblkR0; rw [hA]; try rfl)

/-- The kernel's operands at point `t`: each window's current staging buffer, then the two scratch buffers. -/
abbrev opsR0 (t : Fin cfg0.N) : Ops :=
  ⟨msR0_0 t, hsR0_0 t, msR0_1 t, hsR0_1 t, msR0_2 t, hsR0_2 t, msR0_3 t, hsR0_3 t, msR0_4 t, hsR0_4 t, msR0_5 t, hsR0_5 t, msR0_6 t, hsR0_6 t, msR0_7 t, hsR0_7 t, scMR0_0, Memref.isWhole_whole _, scMR0_1, Memref.isWhole_whole _⟩

/-- The seven input blocks at point `t`. -/
abbrev insR0 (c : Dev nD) (t : Fin cfg0.N) : Ins F :=
  ⟨iblkR0 V c 0 t, iblkR0 V c 1 t, iblkR0 V c 2 t, iblkR0 V c 3 t, iblkR0 V c 4 t, iblkR0 V c 5 t, iblkR0 V c 6 t⟩

theorem bodyAtR0_eq (t : Fin cfg0.N) : bodyAt0 (F := F) t = (opsR0 t).body (grid0.coords t) := rfl

/-- After the body at position `n`: the output block, then the two scratch buffers. A batch's first tile (`n` a multiple of 4) computes all three from its input blocks; a later tile keeps what the point before left in the scratch buffers. -/
def outsAtR0 (c : Dev nD) : (n : ℕ) → n < cfg0.N → Vec F S1x256x1024 .bf16 × Vec F S1024x1024 .bf16 × Vec F S1024x1024 .bf16
  | 0, hn => (insR0 V c ⟨0, hn⟩).first
  | n + 1, hn =>
    if (n + 1) % 4 = 0 then (insR0 V c ⟨n + 1, hn⟩).first
    else (insR0 V c ⟨n + 1, hn⟩).later (outsAtR0 c n (Nat.lt_of_succ_lt hn)).2.1 (outsAtR0 c n (Nat.lt_of_succ_lt hn)).2.2

theorem outsAtR0_A (c : Dev nD) (t : Fin cfg0.N) (h0 : t.val % 4 = 0) : outsAtR0 V c t.val t.isLt = (insR0 V c t).first := by
  obtain ⟨n, hn⟩ := t
  cases n with
  | zero => exact rfl
  | succ n => exact (if_pos h0).trans rfl

theorem outsAtR0_B (c : Dev nD) (t : Fin cfg0.N) (h0 : ¬t.val % 4 = 0) :
    outsAtR0 V c t.val t.isLt = (insR0 V c t).later (outsAtR0 V c (t.val - 1) (Nat.lt_of_le_of_lt (Nat.sub_le _ _) t.isLt)).2.1
      (outsAtR0 V c (t.val - 1) (Nat.lt_of_le_of_lt (Nat.sub_le _ _) t.isLt)).2.2 := by
  obtain ⟨n, hn⟩ := t
  cases n with
  | zero => exact absurd (Nat.zero_mod _) h0
  | succ n => exact (if_neg h0).trans rfl

def PhiSR0 (c : Dev nD) : (n : ℕ) → n ≤ cfg0.N → sProp 𝕄
  | 0, _ => Pipeline.ΦA spec0 c
  | n + 1, hn => iprop(iprop(iprop(owns (c : Thread nD τ) scMR0_0 fullShare ((outsAtR0 V c n hn).2.1) ∗ owns (c : Thread nD τ) scMR0_1 fullShare ((outsAtR0 V c n hn).2.2))
          ∗ Pipeline.scopedRestBut (Ix := Unit) (Name := ℕ) (U := UR sig nD τ) (Lvl := ℕ) (Val := Elt F) spec0 c [cc0_scratch0, cc0_scratch1]) ∗ (∃ r, prngReg c r))

theorem PhiSR0_succ (c : Dev nD) (n : ℕ) (hn : n < cfg0.N) :
    PhiSR0 V c (n + 1) hn = iprop(iprop(iprop(owns (c : Thread nD τ) scMR0_0 fullShare ((outsAtR0 V c n hn).2.1) ∗ owns (c : Thread nD τ) scMR0_1 fullShare ((outsAtR0 V c n hn).2.2))
          ∗ Pipeline.scopedRestBut (Ix := Unit) (Name := ℕ) (U := UR sig nD τ) (Lvl := ℕ) (Val := Elt F) spec0 c [cc0_scratch0, cc0_scratch1]) ∗ (∃ r, prngReg c r)) := rfl

theorem PhiSR0_pos (c : Dev nD) (n : ℕ) (h : n ≤ cfg0.N) (hz : n ≠ 0) :
    PhiSR0 V c n h = iprop(iprop(iprop(owns (c : Thread nD τ) scMR0_0 fullShare ((outsAtR0 V c (n - 1) (by omega)).2.1) ∗ owns (c : Thread nD τ) scMR0_1 fullShare ((outsAtR0 V c (n - 1) (by omega)).2.2))
          ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

def datR0 (c : Dev nD) : Dat τ (Elt F) Unit ℕ (UR sig nD τ) ℕ cfg0 c where
  A w := V c (Pipeline.arrRef spec0 w)
  after w t := match w with
    | ⟨0, _⟩ => iblkR0 V c 0 t
    | ⟨1, _⟩ => iblkR0 V c 1 t
    | ⟨2, _⟩ => iblkR0 V c 2 t
    | ⟨3, _⟩ => iblkR0 V c 3 t
    | ⟨4, _⟩ => iblkR0 V c 4 t
    | ⟨5, _⟩ => iblkR0 V c 5 t
    | ⟨6, _⟩ => iblkR0 V c 6 t
    | ⟨7, _⟩ => (outsAtR0 V c t.val t.isLt).1
  Φ t := PhiSR0 V c t.val (Nat.le_of_lt_succ t.isLt)
  q _ := fullShare
  owed _ := 0

theorem A_eqR0 (c : Dev nD) (w : Fin cfg0.W) : (datR0 V c).A w = V c (Pipeline.arrRef spec0 w) := by
  dsimp only [datR0]

theorem PhiSR0_castSucc (c : Dev nD) (t : Fin cfg0.N) :
    (datR0 V c).Φ t.castSucc = PhiSR0 V c t.val (Nat.le_of_lt t.isLt) := by
  dsimp only [datR0]; simp only [Fin.coe_castSucc]

theorem afterR0_0 (c : Dev nD) (t : Fin cfg0.N) : (datR0 V c).after 0 t = iblkR0 V c 0 t := by dsimp only [datR0]
theorem afterR0_1 (c : Dev nD) (t : Fin cfg0.N) : (datR0 V c).after 1 t = iblkR0 V c 1 t := by dsimp only [datR0]
theorem afterR0_2 (c : Dev nD) (t : Fin cfg0.N) : (datR0 V c).after 2 t = iblkR0 V c 2 t := by dsimp only [datR0]
theorem afterR0_3 (c : Dev nD) (t : Fin cfg0.N) : (datR0 V c).after 3 t = iblkR0 V c 3 t := by dsimp only [datR0]
theorem afterR0_4 (c : Dev nD) (t : Fin cfg0.N) : (datR0 V c).after 4 t = iblkR0 V c 4 t := by dsimp only [datR0]
theorem afterR0_5 (c : Dev nD) (t : Fin cfg0.N) : (datR0 V c).after 5 t = iblkR0 V c 5 t := by dsimp only [datR0]
theorem afterR0_6 (c : Dev nD) (t : Fin cfg0.N) : (datR0 V c).after 6 t = iblkR0 V c 6 t := by dsimp only [datR0]
theorem afterR0_7 (c : Dev nD) (t : Fin cfg0.N) : (datR0 V c).after 7 t = (outsAtR0 V c t.val t.isLt).1 := by dsimp only [datR0]

theorem beforeR0_0 (c : Dev nD) (t : Fin cfg0.N) (d) : (datR0 V c).before 0 t d = iblkR0 V c 0 t :=
  beforeR0_0_of V (datR0 V c) (A_eqR0 V c 0) (afterR0_0 V c) t d
theorem beforeR0_1 (c : Dev nD) (t : Fin cfg0.N) (d) : (datR0 V c).before 1 t d = iblkR0 V c 1 t :=
  beforeR0_1_of V (datR0 V c) (A_eqR0 V c 1) (afterR0_1 V c) t d
theorem beforeR0_2 (c : Dev nD) (t : Fin cfg0.N) (d) : (datR0 V c).before 2 t d = iblkR0 V c 2 t :=
  beforeR0_2_of V (datR0 V c) (A_eqR0 V c 2) (afterR0_2 V c) t d
theorem beforeR0_3 (c : Dev nD) (t : Fin cfg0.N) (d) : (datR0 V c).before 3 t d = iblkR0 V c 3 t :=
  beforeR0_3_of V (datR0 V c) (A_eqR0 V c 3) (afterR0_3 V c) t d
theorem beforeR0_4 (c : Dev nD) (t : Fin cfg0.N) (d) : (datR0 V c).before 4 t d = iblkR0 V c 4 t :=
  beforeR0_4_of V (datR0 V c) (A_eqR0 V c 4) (afterR0_4 V c) t d
theorem beforeR0_5 (c : Dev nD) (t : Fin cfg0.N) (d) : (datR0 V c).before 5 t d = iblkR0 V c 5 t :=
  beforeR0_5_of V (datR0 V c) (A_eqR0 V c 5) (afterR0_5 V c) t d
theorem beforeR0_6 (c : Dev nD) (t : Fin cfg0.N) (d) : (datR0 V c).before 6 t d = iblkR0 V c 6 t :=
  beforeR0_6_of V (datR0 V c) (A_eqR0 V c 6) (afterR0_6 V c) t d

def bodyPreR0 (c : Dev nD) (t : Fin cfg0.N) : sProp 𝕄 :=
  iprop((datR0 V c).Φ t.castSucc ∗ (datR0 V c).owesAt () t.castSucc
    ∗ (∃ d, owns (c : Thread nD τ) (msR0_0 t) fullShare ((datR0 V c).before 0 t d))
    ∗ (∃ d, owns (c : Thread nD τ) (msR0_1 t) fullShare ((datR0 V c).before 1 t d))
    ∗ (∃ d, owns (c : Thread nD τ) (msR0_2 t) fullShare ((datR0 V c).before 2 t d))
    ∗ (∃ d, owns (c : Thread nD τ) (msR0_3 t) fullShare ((datR0 V c).before 3 t d))
    ∗ (∃ d, owns (c : Thread nD τ) (msR0_4 t) fullShare ((datR0 V c).before 4 t d))
    ∗ (∃ d, owns (c : Thread nD τ) (msR0_5 t) fullShare ((datR0 V c).before 5 t d))
    ∗ (∃ d, owns (c : Thread nD τ) (msR0_6 t) fullShare ((datR0 V c).before 6 t d))
    ∗ (∃ d, owns (c : Thread nD τ) (msR0_7 t) fullShare ((datR0 V c).before 7 t d)))

def bodyPostR0 (c : Dev nD) (t : Fin cfg0.N) : sProp 𝕄 :=
  iprop((datR0 V c).Φ t.succ ∗ (datR0 V c).owesAt () t.succ
    ∗ owns (c : Thread nD τ) (msR0_0 t) fullShare ((datR0 V c).after 0 t)
    ∗ owns (c : Thread nD τ) (msR0_1 t) fullShare ((datR0 V c).after 1 t)
    ∗ owns (c : Thread nD τ) (msR0_2 t) fullShare ((datR0 V c).after 2 t)
    ∗ owns (c : Thread nD τ) (msR0_3 t) fullShare ((datR0 V c).after 3 t)
    ∗ owns (c : Thread nD τ) (msR0_4 t) fullShare ((datR0 V c).after 4 t)
    ∗ owns (c : Thread nD τ) (msR0_5 t) fullShare ((datR0 V c).after 5 t)
    ∗ owns (c : Thread nD τ) (msR0_6 t) fullShare ((datR0 V c).after 6 t)
    ∗ owns (c : Thread nD τ) (msR0_7 t) fullShare ((datR0 V c).after 7 t))

/-- Before any point the invariant gives both scratch buffers at some contents: their named contents are forgotten. -/
theorem PhiSR0_open (c : Dev nD) (n : ℕ) (h : n ≤ cfg0.N) :
    PhiSR0 V c n h ⊢ iprop(iprop(iprop((∃ d, owns (c : Thread nD τ) scMR0_0 fullShare d) ∗ (∃ d, owns (c : Thread nD τ) scMR0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact BIBase.Entails.of_eq (PhiAR0_eq c)
  | succ n =>
    rw [PhiSR0_succ]
    iintro ⟨⟨⟨HS0, HS1⟩, HR⟩, Hg⟩
    isplitl [HS0 HS1 HR]
    · isplitl [HS0 HS1]
      · isplitl [HS0]
        · iexists _; iexact HS0
        iexists _; iexact HS1
      iexact HR
    iexact Hg

set_option maxHeartbeats 4800000 in
/-- The body at any point: a batch's first tile takes both scratch buffers at anything and leaves the batch's projections in them; a later tile takes them at what the point before left and hands them back. -/
theorem sound_bodyR0 (c : Dev nD) (t : Fin cfg0.N) :
    bodyPreR0 V c t ⊢ wp frame (wpE (defs₀ (F := F)) Variants.none c none) Set.univ (bodyAt0 t) (fun _ => bodyPostR0 V c t) := by
  unfold bodyPreR0 bodyPostR0
  rw [bodyAtR0_eq]
  simp only [beforeR0_0, beforeR0_1, beforeR0_2, beforeR0_3, beforeR0_4, beforeR0_5, beforeR0_6]
  rw [show (datR0 V c).owesAt () t.succ = (datR0 V c).owesAt () t.castSucc from rfl]
  rw [show (datR0 V c).Φ t.succ = PhiSR0 V c (t.val + 1) t.isLt from rfl, PhiSR0_succ]
  rw [afterR0_0, afterR0_1, afterR0_2, afterR0_3, afterR0_4, afterR0_5, afterR0_6, afterR0_7]
  rw [PhiSR0_castSucc V c t]
  by_cases h0 : t.val % 4 = 0
  · rw [outsAtR0_A V c t h0]
    refine BIBase.Entails.trans (sep_mono_left (PhiSR0_open V c _ _)) ?_
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_first c (grid0.coords t) ((hcondR0 t).mpr h0) (opsR0 t) (insR0 V c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [outsAtR0_B V c t h0]
    rw [PhiSR0_pos V c _ _ (fun h => h0 (by rw [h]))]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_later c (grid0.coords t) (fun h => h0 ((hcondR0 t).mp h)) (opsR0 t) (insR0 V c t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_obligationR0 (c : Dev nD) : BodyObligation (datR0 (F := F) V c) (defs₀ (F := F)) Variants.none () Set.univ := fun t => by
  rw [bigSep_W0, bigSep_W0]
  exact sound_bodyR0 V c t

/-- What the launch hands the region is the invariant before the first point. -/
theorem hinR0 (c : Dev nD) : Pipeline.ΦA spec0 c ⊢ (datR0 V c).Φ 0 := Entails.refl _

/-- After the last point the invariant gives the class's back. -/
theorem houtR0 (c : Dev nD) : (datR0 V c).Φ (Fin.last cfg0.N) ⊢ Pipeline.ΦA spec0 c := by
  rw [show (datR0 V c).Φ (Fin.last cfg0.N) = PhiSR0 V c (Fin.last cfg0.N).val (Nat.le_of_lt_succ (Fin.last cfg0.N).isLt) from rfl]
  rw [PhiAR0_eq]
  exact PhiSR0_open V c _ _

end

end Cert.Kernel.Gen

end
-- ==== Proof.BRuns1.lean ====
import proofs.«427532_j66606352826848_3_alg».proof.Proof.Gen.Kernel.Launch
import proofs.«427532_j66606352826848_3_alg».proof.Proof.Gen.Kernel.Skeleton
import proofs.«427532_j66606352826848_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condR1 (i : grid1.Coords) : Prop := (Scalar.cmpi .ne (Scalar.extui (Scalar.cmpi .eq (BitVec.ofNat 32 (i 1).val) 0#32)) 0#32) = 1#1

theorem hcondR1 : ∀ t : Fin cfg1.N, condR1 (grid1.coords t) ↔ t.val % 4 = 0 :=
  (by decide +kernel : ∀ t : Fin grid1.N, condR1 (grid1.coords t) ↔ t.val % 4 = 0)

abbrev scMR1_0 : Memref sig .tc .vmem S1024x1024 .bf16 := Memref.whole cc1_scratch0
abbrev scMR1_1 : Memref sig .tc .vmem S1024x1024 .bf16 := Memref.whole cc1_scratch1

abbrev msR1_0 (t : Fin cfg1.N) : Memref sig .tc .vmem S1x256x1024 .bf16 := win1_0.stage (cfg1.slots t 0)
abbrev hsR1_0 (t : Fin cfg1.N) : (msR1_0 t).IsWhole := hstage1_0 ((cfg1.slots t 0).cast nbuf1_0)
abbrev msR1_1 (t : Fin cfg1.N) : Memref sig .tc .vmem S1x1024x1024 .bf16 := win1_1.stage (cfg1.slots t 1)
abbrev hsR1_1 (t : Fin cfg1.N) : (msR1_1 t).IsWhole := hstage1_1 ((cfg1.slots t 1).cast nbuf1_1)
abbrev msR1_2 (t : Fin cfg1.N) : Memref sig .tc .vmem S1024x1024 .bf16 := win1_2.stage (cfg1.slots t 2)
abbrev hsR1_2 (t : Fin cfg1.N) : (msR1_2 t).IsWhole := hstage1_2 ((cfg1.slots t 2).cast nbuf1_2)
abbrev msR1_3 (t : Fin cfg1.N) : Memref sig .tc .vmem S1024x1024 .bf16 := win1_3.stage (cfg1.slots t 3)
abbrev hsR1_3 (t : Fin cfg1.N) : (msR1_3 t).IsWhole := hstage1_3 ((cfg1.slots t 3).cast nbuf1_3)
abbrev msR1_4 (t : Fin cfg1.N) : Memref sig .tc .vmem S1024x1024 .bf16 := win1_4.stage (cfg1.slots t 4)
abbrev hsR1_4 (t : Fin cfg1.N) : (msR1_4 t).IsWhole := hstage1_4 ((cfg1.slots t 4).cast nbuf1_4)
abbrev msR1_5 (t : Fin cfg1.N) : Memref sig .tc .vmem S1024x1024 .bf16 := win1_5.stage (cfg1.slots t 5)
abbrev hsR1_5 (t : Fin cfg1.N) : (msR1_5 t).IsWhole := hstage1_5 ((cfg1.slots t 5).cast nbuf1_5)
abbrev msR1_6 (t : Fin cfg1.N) : Memref sig .tc .vmem S1x1024 .f32 := win1_6.stage (cfg1.slots t 6)
abbrev hsR1_6 (t : Fin cfg1.N) : (msR1_6 t).IsWhole := hstage1_6 ((cfg1.slots t 6).cast nbuf1_6)
abbrev msR1_7 (t : Fin cfg1.N) : Memref sig .tc .vmem S1x256x1024 .bf16 := win1_7.stage (cfg1.slots t 7)
abbrev hsR1_7 (t : Fin cfg1.N) : (msR1_7 t).IsWhole := hstage1_7 ((cfg1.slots t 7).cast nbuf1_7)

theorem PhiAR1_eq (c : Dev nD) :
    (Pipeline.ΦA spec1 c : sProp 𝕄)
      = iprop(iprop(iprop((∃ d, owns (c : Thread nD τ) scMR1_0 fullShare d) ∗ (∃ d, owns (c : Thread nD τ) scMR1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scMR1_0, scMR1_1, owns_whole]; try rfl

end Cert.Kernel.Gen

end
-- ==== Proof.BDat1.lean ====
import proofs.«427532_j66606352826848_3_alg».proof.Proof.BAttn
import proofs.«427532_j66606352826848_3_alg».proof.Proof.BRuns1

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

def iblkR1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem beforeR1_0_of {c : Dev nD} (dat : Dat τ (Elt F) Unit ℕ (UR sig nD τ) ℕ cfg1 c) (hA : dat.A 0 = V c (Pipeline.arrRef spec1 0))
    (hafter : ∀ t, dat.after 0 t = iblkR1 V c 0 t) (t : Fin cfg1.N) (d) : dat.before 0 t d = iblkR1 V c 0 t :=
  (dat.before_in_eq_fetched 0 rfl (fun _ => rfl) (fun _ _ _ => rfl) (fun t => by rw [hafter]; unfold Dat.blockOf iblkR1; rw [hA]; try rfl) t d).trans
    (by unfold Dat.fetched Dat.blockOf iblkR1; rw [hA]; try rfl)
theorem beforeR1_1_of {c : Dev nD} (dat : Dat τ (Elt F) Unit ℕ (UR sig nD τ) ℕ cfg1 c) (hA : dat.A 1 = V c (Pipeline.arrRef spec1 1))
    (hafter : ∀ t, dat.after 1 t = iblkR1 V c 1 t) (t : Fin cfg1.N) (d) : dat.before 1 t d = iblkR1 V c 1 t :=
  (dat.before_in_eq_fetched 1 rfl (fun _ => rfl) (fun _ _ _ => rfl) (fun t => by rw [hafter]; unfold Dat.blockOf iblkR1; rw [hA]; try rfl) t d).trans
    (by unfold Dat.fetched Dat.blockOf iblkR1; rw [hA]; try rfl)
theorem beforeR1_2_of {c : Dev nD} (dat : Dat τ (Elt F) Unit ℕ (UR sig nD τ) ℕ cfg1 c) (hA : dat.A 2 = V c (Pipeline.arrRef spec1 2))
    (hafter : ∀ t, dat.after 2 t = iblkR1 V c 2 t) (t : Fin cfg1.N) (d) : dat.before 2 t d = iblkR1 V c 2 t :=
  (dat.before_in_eq_fetched 2 rfl (fun _ => rfl) (fun _ _ _ => rfl) (fun t => by rw [hafter]; unfold Dat.blockOf iblkR1; rw [hA]; try rfl) t d).trans
    (by unfold Dat.fetched Dat.blockOf iblkR1; rw [hA]; try rfl)
theorem beforeR1_3_of {c : Dev nD} (dat : Dat τ (Elt F) Unit ℕ (UR sig nD τ) ℕ cfg1 c) (hA : dat.A 3 = V c (Pipeline.arrRef spec1 3))
    (hafter : ∀ t, dat.after 3 t = iblkR1 V c 3 t) (t : Fin cfg1.N) (d) : dat.before 3 t d = iblkR1 V c 3 t :=
  (dat.before_in_eq_fetched 3 rfl (fun _ => rfl) (fun _ _ _ => rfl) (fun t => by rw [hafter]; unfold Dat.blockOf iblkR1; rw [hA]; try rfl) t d).trans
    (by unfold Dat.fetched Dat.blockOf iblkR1; rw [hA]; try rfl)
theorem beforeR1_4_of {c : Dev nD} (dat : Dat τ (Elt F) Unit ℕ (UR sig nD τ) ℕ cfg1 c) (hA : dat.A 4 = V c (Pipeline.arrRef spec1 4))
    (hafter : ∀ t, dat.after 4 t = iblkR1 V c 4 t) (t : Fin cfg1.N) (d) : dat.before 4 t d = iblkR1 V c 4 t :=
  (dat.before_in_eq_fetched 4 rfl (fun _ => rfl) (fun _ _ _ => rfl) (fun t => by rw [hafter]; unfold Dat.blockOf iblkR1; rw [hA]; try rfl) t d).trans
    (by unfold Dat.fetched Dat.blockOf iblkR1; rw [hA]; try rfl)
theorem beforeR1_5_of {c : Dev nD} (dat : Dat τ (Elt F) Unit ℕ (UR sig nD τ) ℕ cfg1 c) (hA : dat.A 5 = V c (Pipeline.arrRef spec1 5))
    (hafter : ∀ t, dat.after 5 t = iblkR1 V c 5 t) (t : Fin cfg1.N) (d) : dat.before 5 t d = iblkR1 V c 5 t :=
  (dat.before_in_eq_fetched 5 rfl (fun _ => rfl) (fun _ _ _ => rfl) (fun t => by rw [hafter]; unfold Dat.blockOf iblkR1; rw [hA]; try rfl) t d).trans
    (by unfold Dat.fetched Dat.blockOf iblkR1; rw [hA]; try rfl)
theorem beforeR1_6_of {c : Dev nD} (dat : Dat τ (Elt F) Unit ℕ (UR sig nD τ) ℕ cfg1 c) (hA : dat.A 6 = V c (Pipeline.arrRef spec1 6))
    (hafter : ∀ t, dat.after 6 t = iblkR1 V c 6 t) (t : Fin cfg1.N) (d) : dat.before 6 t d = iblkR1 V c 6 t :=
  (dat.before_in_eq_fetched 6 rfl (fun _ => rfl) (fun _ _ _ => rfl) (fun t => by rw [hafter]; unfold Dat.blockOf iblkR1; rw [hA]; try rfl) t d).trans
    (by unfold Dat.fetched Dat.blockOf iblkR1; rw [hA]; try rfl)

/-- The kernel's operands at point `t`: each window's current staging buffer, then the two scratch buffers. -/
abbrev opsR1 (t : Fin cfg1.N) : Ops :=
  ⟨msR1_0 t, hsR1_0 t, msR1_1 t, hsR1_1 t, msR1_2 t, hsR1_2 t, msR1_3 t, hsR1_3 t, msR1_4 t, hsR1_4 t, msR1_5 t, hsR1_5 t, msR1_6 t, hsR1_6 t, msR1_7 t, hsR1_7 t, scMR1_0, Memref.isWhole_whole _, scMR1_1, Memref.isWhole_whole _⟩

/-- The seven input blocks at point `t`. -/
abbrev insR1 (c : Dev nD) (t : Fin cfg1.N) : Ins F :=
  ⟨iblkR1 V c 0 t, iblkR1 V c 1 t, iblkR1 V c 2 t, iblkR1 V c 3 t, iblkR1 V c 4 t, iblkR1 V c 5 t, iblkR1 V c 6 t⟩

theorem bodyAtR1_eq (t : Fin cfg1.N) : bodyAt1 (F := F) t = (opsR1 t).body (grid1.coords t) := rfl

/-- After the body at position `n`: the output block, then the two scratch buffers. A batch's first tile (`n` a multiple of 4) computes all three from its input blocks; a later tile keeps what the point before left in the scratch buffers. -/
def outsAtR1 (c : Dev nD) : (n : ℕ) → n < cfg1.N → Vec F S1x256x1024 .bf16 × Vec F S1024x1024 .bf16 × Vec F S1024x1024 .bf16
  | 0, hn => (insR1 V c ⟨0, hn⟩).first
  | n + 1, hn =>
    if (n + 1) % 4 = 0 then (insR1 V c ⟨n + 1, hn⟩).first
    else (insR1 V c ⟨n + 1, hn⟩).later (outsAtR1 c n (Nat.lt_of_succ_lt hn)).2.1 (outsAtR1 c n (Nat.lt_of_succ_lt hn)).2.2

theorem outsAtR1_A (c : Dev nD) (t : Fin cfg1.N) (h0 : t.val % 4 = 0) : outsAtR1 V c t.val t.isLt = (insR1 V c t).first := by
  obtain ⟨n, hn⟩ := t
  cases n with
  | zero => exact rfl
  | succ n => exact (if_pos h0).trans rfl

theorem outsAtR1_B (c : Dev nD) (t : Fin cfg1.N) (h0 : ¬t.val % 4 = 0) :
    outsAtR1 V c t.val t.isLt = (insR1 V c t).later (outsAtR1 V c (t.val - 1) (Nat.lt_of_le_of_lt (Nat.sub_le _ _) t.isLt)).2.1
      (outsAtR1 V c (t.val - 1) (Nat.lt_of_le_of_lt (Nat.sub_le _ _) t.isLt)).2.2 := by
  obtain ⟨n, hn⟩ := t
  cases n with
  | zero => exact absurd (Nat.zero_mod _) h0
  | succ n => exact (if_neg h0).trans rfl

def PhiSR1 (c : Dev nD) : (n : ℕ) → n ≤ cfg1.N → sProp 𝕄
  | 0, _ => Pipeline.ΦA spec1 c
  | n + 1, hn => iprop(iprop(iprop(owns (c : Thread nD τ) scMR1_0 fullShare ((outsAtR1 V c n hn).2.1) ∗ owns (c : Thread nD τ) scMR1_1 fullShare ((outsAtR1 V c n hn).2.2))
          ∗ Pipeline.scopedRestBut (Ix := Unit) (Name := ℕ) (U := UR sig nD τ) (Lvl := ℕ) (Val := Elt F) spec1 c [cc1_scratch0, cc1_scratch1]) ∗ (∃ r, prngReg c r))

theorem PhiSR1_succ (c : Dev nD) (n : ℕ) (hn : n < cfg1.N) :
    PhiSR1 V c (n + 1) hn = iprop(iprop(iprop(owns (c : Thread nD τ) scMR1_0 fullShare ((outsAtR1 V c n hn).2.1) ∗ owns (c : Thread nD τ) scMR1_1 fullShare ((outsAtR1 V c n hn).2.2))
          ∗ Pipeline.scopedRestBut (Ix := Unit) (Name := ℕ) (U := UR sig nD τ) (Lvl := ℕ) (Val := Elt F) spec1 c [cc1_scratch0, cc1_scratch1]) ∗ (∃ r, prngReg c r)) := rfl

theorem PhiSR1_pos (c : Dev nD) (n : ℕ) (h : n ≤ cfg1.N) (hz : n ≠ 0) :
    PhiSR1 V c n h = iprop(iprop(iprop(owns (c : Thread nD τ) scMR1_0 fullShare ((outsAtR1 V c (n - 1) (by omega)).2.1) ∗ owns (c : Thread nD τ) scMR1_1 fullShare ((outsAtR1 V c (n - 1) (by omega)).2.2))
          ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

def datR1 (c : Dev nD) : Dat τ (Elt F) Unit ℕ (UR sig nD τ) ℕ cfg1 c where
  A w := V c (Pipeline.arrRef spec1 w)
  after w t := match w with
    | ⟨0, _⟩ => iblkR1 V c 0 t
    | ⟨1, _⟩ => iblkR1 V c 1 t
    | ⟨2, _⟩ => iblkR1 V c 2 t
    | ⟨3, _⟩ => iblkR1 V c 3 t
    | ⟨4, _⟩ => iblkR1 V c 4 t
    | ⟨5, _⟩ => iblkR1 V c 5 t
    | ⟨6, _⟩ => iblkR1 V c 6 t
    | ⟨7, _⟩ => (outsAtR1 V c t.val t.isLt).1
  Φ t := PhiSR1 V c t.val (Nat.le_of_lt_succ t.isLt)
  q _ := fullShare
  owed _ := 0

theorem A_eqR1 (c : Dev nD) (w : Fin cfg1.W) : (datR1 V c).A w = V c (Pipeline.arrRef spec1 w) := by
  dsimp only [datR1]

theorem PhiSR1_castSucc (c : Dev nD) (t : Fin cfg1.N) :
    (datR1 V c).Φ t.castSucc = PhiSR1 V c t.val (Nat.le_of_lt t.isLt) := by
  dsimp only [datR1]; simp only [Fin.coe_castSucc]

theorem afterR1_0 (c : Dev nD) (t : Fin cfg1.N) : (datR1 V c).after 0 t = iblkR1 V c 0 t := by dsimp only [datR1]
theorem afterR1_1 (c : Dev nD) (t : Fin cfg1.N) : (datR1 V c).after 1 t = iblkR1 V c 1 t := by dsimp only [datR1]
theorem afterR1_2 (c : Dev nD) (t : Fin cfg1.N) : (datR1 V c).after 2 t = iblkR1 V c 2 t := by dsimp only [datR1]
theorem afterR1_3 (c : Dev nD) (t : Fin cfg1.N) : (datR1 V c).after 3 t = iblkR1 V c 3 t := by dsimp only [datR1]
theorem afterR1_4 (c : Dev nD) (t : Fin cfg1.N) : (datR1 V c).after 4 t = iblkR1 V c 4 t := by dsimp only [datR1]
theorem afterR1_5 (c : Dev nD) (t : Fin cfg1.N) : (datR1 V c).after 5 t = iblkR1 V c 5 t := by dsimp only [datR1]
theorem afterR1_6 (c : Dev nD) (t : Fin cfg1.N) : (datR1 V c).after 6 t = iblkR1 V c 6 t := by dsimp only [datR1]
theorem afterR1_7 (c : Dev nD) (t : Fin cfg1.N) : (datR1 V c).after 7 t = (outsAtR1 V c t.val t.isLt).1 := by dsimp only [datR1]

theorem beforeR1_0 (c : Dev nD) (t : Fin cfg1.N) (d) : (datR1 V c).before 0 t d = iblkR1 V c 0 t :=
  beforeR1_0_of V (datR1 V c) (A_eqR1 V c 0) (afterR1_0 V c) t d
theorem beforeR1_1 (c : Dev nD) (t : Fin cfg1.N) (d) : (datR1 V c).before 1 t d = iblkR1 V c 1 t :=
  beforeR1_1_of V (datR1 V c) (A_eqR1 V c 1) (afterR1_1 V c) t d
theorem beforeR1_2 (c : Dev nD) (t : Fin cfg1.N) (d) : (datR1 V c).before 2 t d = iblkR1 V c 2 t :=
  beforeR1_2_of V (datR1 V c) (A_eqR1 V c 2) (afterR1_2 V c) t d
theorem beforeR1_3 (c : Dev nD) (t : Fin cfg1.N) (d) : (datR1 V c).before 3 t d = iblkR1 V c 3 t :=
  beforeR1_3_of V (datR1 V c) (A_eqR1 V c 3) (afterR1_3 V c) t d
theorem beforeR1_4 (c : Dev nD) (t : Fin cfg1.N) (d) : (datR1 V c).before 4 t d = iblkR1 V c 4 t :=
  beforeR1_4_of V (datR1 V c) (A_eqR1 V c 4) (afterR1_4 V c) t d
theorem beforeR1_5 (c : Dev nD) (t : Fin cfg1.N) (d) : (datR1 V c).before 5 t d = iblkR1 V c 5 t :=
  beforeR1_5_of V (datR1 V c) (A_eqR1 V c 5) (afterR1_5 V c) t d
theorem beforeR1_6 (c : Dev nD) (t : Fin cfg1.N) (d) : (datR1 V c).before 6 t d = iblkR1 V c 6 t :=
  beforeR1_6_of V (datR1 V c) (A_eqR1 V c 6) (afterR1_6 V c) t d

def bodyPreR1 (c : Dev nD) (t : Fin cfg1.N) : sProp 𝕄 :=
  iprop((datR1 V c).Φ t.castSucc ∗ (datR1 V c).owesAt () t.castSucc
    ∗ (∃ d, owns (c : Thread nD τ) (msR1_0 t) fullShare ((datR1 V c).before 0 t d))
    ∗ (∃ d, owns (c : Thread nD τ) (msR1_1 t) fullShare ((datR1 V c).before 1 t d))
    ∗ (∃ d, owns (c : Thread nD τ) (msR1_2 t) fullShare ((datR1 V c).before 2 t d))
    ∗ (∃ d, owns (c : Thread nD τ) (msR1_3 t) fullShare ((datR1 V c).before 3 t d))
    ∗ (∃ d, owns (c : Thread nD τ) (msR1_4 t) fullShare ((datR1 V c).before 4 t d))
    ∗ (∃ d, owns (c : Thread nD τ) (msR1_5 t) fullShare ((datR1 V c).before 5 t d))
    ∗ (∃ d, owns (c : Thread nD τ) (msR1_6 t) fullShare ((datR1 V c).before 6 t d))
    ∗ (∃ d, owns (c : Thread nD τ) (msR1_7 t) fullShare ((datR1 V c).before 7 t d)))

def bodyPostR1 (c : Dev nD) (t : Fin cfg1.N) : sProp 𝕄 :=
  iprop((datR1 V c).Φ t.succ ∗ (datR1 V c).owesAt () t.succ
    ∗ owns (c : Thread nD τ) (msR1_0 t) fullShare ((datR1 V c).after 0 t)
    ∗ owns (c : Thread nD τ) (msR1_1 t) fullShare ((datR1 V c).after 1 t)
    ∗ owns (c : Thread nD τ) (msR1_2 t) fullShare ((datR1 V c).after 2 t)
    ∗ owns (c : Thread nD τ) (msR1_3 t) fullShare ((datR1 V c).after 3 t)
    ∗ owns (c : Thread nD τ) (msR1_4 t) fullShare ((datR1 V c).after 4 t)
    ∗ owns (c : Thread nD τ) (msR1_5 t) fullShare ((datR1 V c).after 5 t)
    ∗ owns (c : Thread nD τ) (msR1_6 t) fullShare ((datR1 V c).after 6 t)
    ∗ owns (c : Thread nD τ) (msR1_7 t) fullShare ((datR1 V c).after 7 t))

/-- Before any point the invariant gives both scratch buffers at some contents: their named contents are forgotten. -/
theorem PhiSR1_open (c : Dev nD) (n : ℕ) (h : n ≤ cfg1.N) :
    PhiSR1 V c n h ⊢ iprop(iprop(iprop((∃ d, owns (c : Thread nD τ) scMR1_0 fullShare d) ∗ (∃ d, owns (c : Thread nD τ) scMR1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact BIBase.Entails.of_eq (PhiAR1_eq c)
  | succ n =>
    rw [PhiSR1_succ]
    iintro ⟨⟨⟨HS0, HS1⟩, HR⟩, Hg⟩
    isplitl [HS0 HS1 HR]
    · isplitl [HS0 HS1]
      · isplitl [HS0]
        · iexists _; iexact HS0
        iexists _; iexact HS1
      iexact HR
    iexact Hg

set_option maxHeartbeats 4800000 in
/-- The body at any point: a batch's first tile takes both scratch buffers at anything and leaves the batch's projections in them; a later tile takes them at what the point before left and hands them back. -/
theorem sound_bodyR1 (c : Dev nD) (t : Fin cfg1.N) :
    bodyPreR1 V c t ⊢ wp frame (wpE (defs₀ (F := F)) Variants.none c none) Set.univ (bodyAt1 t) (fun _ => bodyPostR1 V c t) := by
  unfold bodyPreR1 bodyPostR1
  rw [bodyAtR1_eq]
  simp only [beforeR1_0, beforeR1_1, beforeR1_2, beforeR1_3, beforeR1_4, beforeR1_5, beforeR1_6]
  rw [show (datR1 V c).owesAt () t.succ = (datR1 V c).owesAt () t.castSucc from rfl]
  rw [show (datR1 V c).Φ t.succ = PhiSR1 V c (t.val + 1) t.isLt from rfl, PhiSR1_succ]
  rw [afterR1_0, afterR1_1, afterR1_2, afterR1_3, afterR1_4, afterR1_5, afterR1_6, afterR1_7]
  rw [PhiSR1_castSucc V c t]
  by_cases h0 : t.val % 4 = 0
  · rw [outsAtR1_A V c t h0]
    refine BIBase.Entails.trans (sep_mono_left (PhiSR1_open V c _ _)) ?_
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_first c (grid1.coords t) ((hcondR1 t).mpr h0) (opsR1 t) (insR1 V c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [outsAtR1_B V c t h0]
    rw [PhiSR1_pos V c _ _ (fun h => h0 (by rw [h]))]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_later c (grid1.coords t) (fun h => h0 ((hcondR1 t).mp h)) (opsR1 t) (insR1 V c t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_obligationR1 (c : Dev nD) : BodyObligation (datR1 (F := F) V c) (defs₀ (F := F)) Variants.none () Set.univ := fun t => by
  rw [bigSep_W1, bigSep_W1]
  exact sound_bodyR1 V c t

/-- What the launch hands the region is the invariant before the first point. -/
theorem hinR1 (c : Dev nD) : Pipeline.ΦA spec1 c ⊢ (datR1 V c).Φ 0 := Entails.refl _

/-- After the last point the invariant gives the class's back. -/
theorem houtR1 (c : Dev nD) : (datR1 V c).Φ (Fin.last cfg1.N) ⊢ Pipeline.ΦA spec1 c := by
  rw [show (datR1 V c).Φ (Fin.last cfg1.N) = PhiSR1 V c (Fin.last cfg1.N).val (Nat.le_of_lt_succ (Fin.last cfg1.N).isLt) from rfl]
  rw [PhiAR1_eq]
  exact PhiSR1_open V c _ _

end

end Cert.Kernel.Gen

end
-- ==== Proof.BRuns2.lean ====
import proofs.«427532_j66606352826848_3_alg».proof.Proof.Gen.Kernel.Launch
import proofs.«427532_j66606352826848_3_alg».proof.Proof.Gen.Kernel.Skeleton
import proofs.«427532_j66606352826848_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condR2 (i : grid2.Coords) : Prop := (Scalar.cmpi .ne (Scalar.extui (Scalar.cmpi .eq (BitVec.ofNat 32 (i 1).val) 0#32)) 0#32) = 1#1

theorem hcondR2 : ∀ t : Fin cfg2.N, condR2 (grid2.coords t) ↔ t.val % 4 = 0 :=
  (by decide +kernel : ∀ t : Fin grid2.N, condR2 (grid2.coords t) ↔ t.val % 4 = 0)

abbrev scMR2_0 : Memref sig .tc .vmem S1024x1024 .bf16 := Memref.whole cc2_scratch0
abbrev scMR2_1 : Memref sig .tc .vmem S1024x1024 .bf16 := Memref.whole cc2_scratch1

abbrev msR2_0 (t : Fin cfg2.N) : Memref sig .tc .vmem S1x256x1024 .bf16 := win2_0.stage (cfg2.slots t 0)
abbrev hsR2_0 (t : Fin cfg2.N) : (msR2_0 t).IsWhole := hstage2_0 ((cfg2.slots t 0).cast nbuf2_0)
abbrev msR2_1 (t : Fin cfg2.N) : Memref sig .tc .vmem S1x1024x1024 .bf16 := win2_1.stage (cfg2.slots t 1)
abbrev hsR2_1 (t : Fin cfg2.N) : (msR2_1 t).IsWhole := hstage2_1 ((cfg2.slots t 1).cast nbuf2_1)
abbrev msR2_2 (t : Fin cfg2.N) : Memref sig .tc .vmem S1024x1024 .bf16 := win2_2.stage (cfg2.slots t 2)
abbrev hsR2_2 (t : Fin cfg2.N) : (msR2_2 t).IsWhole := hstage2_2 ((cfg2.slots t 2).cast nbuf2_2)
abbrev msR2_3 (t : Fin cfg2.N) : Memref sig .tc .vmem S1024x1024 .bf16 := win2_3.stage (cfg2.slots t 3)
abbrev hsR2_3 (t : Fin cfg2.N) : (msR2_3 t).IsWhole := hstage2_3 ((cfg2.slots t 3).cast nbuf2_3)
abbrev msR2_4 (t : Fin cfg2.N) : Memref sig .tc .vmem S1024x1024 .bf16 := win2_4.stage (cfg2.slots t 4)
abbrev hsR2_4 (t : Fin cfg2.N) : (msR2_4 t).IsWhole := hstage2_4 ((cfg2.slots t 4).cast nbuf2_4)
abbrev msR2_5 (t : Fin cfg2.N) : Memref sig .tc .vmem S1024x1024 .bf16 := win2_5.stage (cfg2.slots t 5)
abbrev hsR2_5 (t : Fin cfg2.N) : (msR2_5 t).IsWhole := hstage2_5 ((cfg2.slots t 5).cast nbuf2_5)
abbrev msR2_6 (t : Fin cfg2.N) : Memref sig .tc .vmem S1x1024 .f32 := win2_6.stage (cfg2.slots t 6)
abbrev hsR2_6 (t : Fin cfg2.N) : (msR2_6 t).IsWhole := hstage2_6 ((cfg2.slots t 6).cast nbuf2_6)
abbrev msR2_7 (t : Fin cfg2.N) : Memref sig .tc .vmem S1x256x1024 .bf16 := win2_7.stage (cfg2.slots t 7)
abbrev hsR2_7 (t : Fin cfg2.N) : (msR2_7 t).IsWhole := hstage2_7 ((cfg2.slots t 7).cast nbuf2_7)

theorem PhiAR2_eq (c : Dev nD) :
    (Pipeline.ΦA spec2 c : sProp 𝕄)
      = iprop(iprop(iprop((∃ d, owns (c : Thread nD τ) scMR2_0 fullShare d) ∗ (∃ d, owns (c : Thread nD τ) scMR2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scMR2_0, scMR2_1, owns_whole]; try rfl

end Cert.Kernel.Gen

end
-- ==== Proof.BDat2.lean ====
import proofs.«427532_j66606352826848_3_alg».proof.Proof.BAttn
import proofs.«427532_j66606352826848_3_alg».proof.Proof.BRuns2

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

def iblkR2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem beforeR2_0_of {c : Dev nD} (dat : Dat τ (Elt F) Unit ℕ (UR sig nD τ) ℕ cfg2 c) (hA : dat.A 0 = V c (Pipeline.arrRef spec2 0))
    (hafter : ∀ t, dat.after 0 t = iblkR2 V c 0 t) (t : Fin cfg2.N) (d) : dat.before 0 t d = iblkR2 V c 0 t :=
  (dat.before_in_eq_fetched 0 rfl (fun _ => rfl) (fun _ _ _ => rfl) (fun t => by rw [hafter]; unfold Dat.blockOf iblkR2; rw [hA]; try rfl) t d).trans
    (by unfold Dat.fetched Dat.blockOf iblkR2; rw [hA]; try rfl)
theorem beforeR2_1_of {c : Dev nD} (dat : Dat τ (Elt F) Unit ℕ (UR sig nD τ) ℕ cfg2 c) (hA : dat.A 1 = V c (Pipeline.arrRef spec2 1))
    (hafter : ∀ t, dat.after 1 t = iblkR2 V c 1 t) (t : Fin cfg2.N) (d) : dat.before 1 t d = iblkR2 V c 1 t :=
  (dat.before_in_eq_fetched 1 rfl (fun _ => rfl) (fun _ _ _ => rfl) (fun t => by rw [hafter]; unfold Dat.blockOf iblkR2; rw [hA]; try rfl) t d).trans
    (by unfold Dat.fetched Dat.blockOf iblkR2; rw [hA]; try rfl)
theorem beforeR2_2_of {c : Dev nD} (dat : Dat τ (Elt F) Unit ℕ (UR sig nD τ) ℕ cfg2 c) (hA : dat.A 2 = V c (Pipeline.arrRef spec2 2))
    (hafter : ∀ t, dat.after 2 t = iblkR2 V c 2 t) (t : Fin cfg2.N) (d) : dat.before 2 t d = iblkR2 V c 2 t :=
  (dat.before_in_eq_fetched 2 rfl (fun _ => rfl) (fun _ _ _ => rfl) (fun t => by rw [hafter]; unfold Dat.blockOf iblkR2; rw [hA]; try rfl) t d).trans
    (by unfold Dat.fetched Dat.blockOf iblkR2; rw [hA]; try rfl)
theorem beforeR2_3_of {c : Dev nD} (dat : Dat τ (Elt F) Unit ℕ (UR sig nD τ) ℕ cfg2 c) (hA : dat.A 3 = V c (Pipeline.arrRef spec2 3))
    (hafter : ∀ t, dat.after 3 t = iblkR2 V c 3 t) (t : Fin cfg2.N) (d) : dat.before 3 t d = iblkR2 V c 3 t :=
  (dat.before_in_eq_fetched 3 rfl (fun _ => rfl) (fun _ _ _ => rfl) (fun t => by rw [hafter]; unfold Dat.blockOf iblkR2; rw [hA]; try rfl) t d).trans
    (by unfold Dat.fetched Dat.blockOf iblkR2; rw [hA]; try rfl)
theorem beforeR2_4_of {c : Dev nD} (dat : Dat τ (Elt F) Unit ℕ (UR sig nD τ) ℕ cfg2 c) (hA : dat.A 4 = V c (Pipeline.arrRef spec2 4))
    (hafter : ∀ t, dat.after 4 t = iblkR2 V c 4 t) (t : Fin cfg2.N) (d) : dat.before 4 t d = iblkR2 V c 4 t :=
  (dat.before_in_eq_fetched 4 rfl (fun _ => rfl) (fun _ _ _ => rfl) (fun t => by rw [hafter]; unfold Dat.blockOf iblkR2; rw [hA]; try rfl) t d).trans
    (by unfold Dat.fetched Dat.blockOf iblkR2; rw [hA]; try rfl)
theorem beforeR2_5_of {c : Dev nD} (dat : Dat τ (Elt F) Unit ℕ (UR sig nD τ) ℕ cfg2 c) (hA : dat.A 5 = V c (Pipeline.arrRef spec2 5))
    (hafter : ∀ t, dat.after 5 t = iblkR2 V c 5 t) (t : Fin cfg2.N) (d) : dat.before 5 t d = iblkR2 V c 5 t :=
  (dat.before_in_eq_fetched 5 rfl (fun _ => rfl) (fun _ _ _ => rfl) (fun t => by rw [hafter]; unfold Dat.blockOf iblkR2; rw [hA]; try rfl) t d).trans
    (by unfold Dat.fetched Dat.blockOf iblkR2; rw [hA]; try rfl)
theorem beforeR2_6_of {c : Dev nD} (dat : Dat τ (Elt F) Unit ℕ (UR sig nD τ) ℕ cfg2 c) (hA : dat.A 6 = V c (Pipeline.arrRef spec2 6))
    (hafter : ∀ t, dat.after 6 t = iblkR2 V c 6 t) (t : Fin cfg2.N) (d) : dat.before 6 t d = iblkR2 V c 6 t :=
  (dat.before_in_eq_fetched 6 rfl (fun _ => rfl) (fun _ _ _ => rfl) (fun t => by rw [hafter]; unfold Dat.blockOf iblkR2; rw [hA]; try rfl) t d).trans
    (by unfold Dat.fetched Dat.blockOf iblkR2; rw [hA]; try rfl)

/-- The kernel's operands at point `t`: each window's current staging buffer, then the two scratch buffers. -/
abbrev opsR2 (t : Fin cfg2.N) : Ops :=
  ⟨msR2_0 t, hsR2_0 t, msR2_1 t, hsR2_1 t, msR2_2 t, hsR2_2 t, msR2_3 t, hsR2_3 t, msR2_4 t, hsR2_4 t, msR2_5 t, hsR2_5 t, msR2_6 t, hsR2_6 t, msR2_7 t, hsR2_7 t, scMR2_0, Memref.isWhole_whole _, scMR2_1, Memref.isWhole_whole _⟩

/-- The seven input blocks at point `t`. -/
abbrev insR2 (c : Dev nD) (t : Fin cfg2.N) : Ins F :=
  ⟨iblkR2 V c 0 t, iblkR2 V c 1 t, iblkR2 V c 2 t, iblkR2 V c 3 t, iblkR2 V c 4 t, iblkR2 V c 5 t, iblkR2 V c 6 t⟩

theorem bodyAtR2_eq (t : Fin cfg2.N) : bodyAt2 (F := F) t = (opsR2 t).body (grid2.coords t) := rfl

/-- After the body at position `n`: the output block, then the two scratch buffers. A batch's first tile (`n` a multiple of 4) computes all three from its input blocks; a later tile keeps what the point before left in the scratch buffers. -/
def outsAtR2 (c : Dev nD) : (n : ℕ) → n < cfg2.N → Vec F S1x256x1024 .bf16 × Vec F S1024x1024 .bf16 × Vec F S1024x1024 .bf16
  | 0, hn => (insR2 V c ⟨0, hn⟩).first
  | n + 1, hn =>
    if (n + 1) % 4 = 0 then (insR2 V c ⟨n + 1, hn⟩).first
    else (insR2 V c ⟨n + 1, hn⟩).later (outsAtR2 c n (Nat.lt_of_succ_lt hn)).2.1 (outsAtR2 c n (Nat.lt_of_succ_lt hn)).2.2

theorem outsAtR2_A (c : Dev nD) (t : Fin cfg2.N) (h0 : t.val % 4 = 0) : outsAtR2 V c t.val t.isLt = (insR2 V c t).first := by
  obtain ⟨n, hn⟩ := t
  cases n with
  | zero => exact rfl
  | succ n => exact (if_pos h0).trans rfl

theorem outsAtR2_B (c : Dev nD) (t : Fin cfg2.N) (h0 : ¬t.val % 4 = 0) :
    outsAtR2 V c t.val t.isLt = (insR2 V c t).later (outsAtR2 V c (t.val - 1) (Nat.lt_of_le_of_lt (Nat.sub_le _ _) t.isLt)).2.1
      (outsAtR2 V c (t.val - 1) (Nat.lt_of_le_of_lt (Nat.sub_le _ _) t.isLt)).2.2 := by
  obtain ⟨n, hn⟩ := t
  cases n with
  | zero => exact absurd (Nat.zero_mod _) h0
  | succ n => exact (if_neg h0).trans rfl

def PhiSR2 (c : Dev nD) : (n : ℕ) → n ≤ cfg2.N → sProp 𝕄
  | 0, _ => Pipeline.ΦA spec2 c
  | n + 1, hn => iprop(iprop(iprop(owns (c : Thread nD τ) scMR2_0 fullShare ((outsAtR2 V c n hn).2.1) ∗ owns (c : Thread nD τ) scMR2_1 fullShare ((outsAtR2 V c n hn).2.2))
          ∗ Pipeline.scopedRestBut (Ix := Unit) (Name := ℕ) (U := UR sig nD τ) (Lvl := ℕ) (Val := Elt F) spec2 c [cc2_scratch0, cc2_scratch1]) ∗ (∃ r, prngReg c r))

theorem PhiSR2_succ (c : Dev nD) (n : ℕ) (hn : n < cfg2.N) :
    PhiSR2 V c (n + 1) hn = iprop(iprop(iprop(owns (c : Thread nD τ) scMR2_0 fullShare ((outsAtR2 V c n hn).2.1) ∗ owns (c : Thread nD τ) scMR2_1 fullShare ((outsAtR2 V c n hn).2.2))
          ∗ Pipeline.scopedRestBut (Ix := Unit) (Name := ℕ) (U := UR sig nD τ) (Lvl := ℕ) (Val := Elt F) spec2 c [cc2_scratch0, cc2_scratch1]) ∗ (∃ r, prngReg c r)) := rfl

theorem PhiSR2_pos (c : Dev nD) (n : ℕ) (h : n ≤ cfg2.N) (hz : n ≠ 0) :
    PhiSR2 V c n h = iprop(iprop(iprop(owns (c : Thread nD τ) scMR2_0 fullShare ((outsAtR2 V c (n - 1) (by omega)).2.1) ∗ owns (c : Thread nD τ) scMR2_1 fullShare ((outsAtR2 V c (n - 1) (by omega)).2.2))
          ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

def datR2 (c : Dev nD) : Dat τ (Elt F) Unit ℕ (UR sig nD τ) ℕ cfg2 c where
  A w := V c (Pipeline.arrRef spec2 w)
  after w t := match w with
    | ⟨0, _⟩ => iblkR2 V c 0 t
    | ⟨1, _⟩ => iblkR2 V c 1 t
    | ⟨2, _⟩ => iblkR2 V c 2 t
    | ⟨3, _⟩ => iblkR2 V c 3 t
    | ⟨4, _⟩ => iblkR2 V c 4 t
    | ⟨5, _⟩ => iblkR2 V c 5 t
    | ⟨6, _⟩ => iblkR2 V c 6 t
    | ⟨7, _⟩ => (outsAtR2 V c t.val t.isLt).1
  Φ t := PhiSR2 V c t.val (Nat.le_of_lt_succ t.isLt)
  q _ := fullShare
  owed _ := 0

theorem A_eqR2 (c : Dev nD) (w : Fin cfg2.W) : (datR2 V c).A w = V c (Pipeline.arrRef spec2 w) := by
  dsimp only [datR2]

theorem PhiSR2_castSucc (c : Dev nD) (t : Fin cfg2.N) :
    (datR2 V c).Φ t.castSucc = PhiSR2 V c t.val (Nat.le_of_lt t.isLt) := by
  dsimp only [datR2]; simp only [Fin.coe_castSucc]

theorem afterR2_0 (c : Dev nD) (t : Fin cfg2.N) : (datR2 V c).after 0 t = iblkR2 V c 0 t := by dsimp only [datR2]
theorem afterR2_1 (c : Dev nD) (t : Fin cfg2.N) : (datR2 V c).after 1 t = iblkR2 V c 1 t := by dsimp only [datR2]
theorem afterR2_2 (c : Dev nD) (t : Fin cfg2.N) : (datR2 V c).after 2 t = iblkR2 V c 2 t := by dsimp only [datR2]
theorem afterR2_3 (c : Dev nD) (t : Fin cfg2.N) : (datR2 V c).after 3 t = iblkR2 V c 3 t := by dsimp only [datR2]
theorem afterR2_4 (c : Dev nD) (t : Fin cfg2.N) : (datR2 V c).after 4 t = iblkR2 V c 4 t := by dsimp only [datR2]
theorem afterR2_5 (c : Dev nD) (t : Fin cfg2.N) : (datR2 V c).after 5 t = iblkR2 V c 5 t := by dsimp only [datR2]
theorem afterR2_6 (c : Dev nD) (t : Fin cfg2.N) : (datR2 V c).after 6 t = iblkR2 V c 6 t := by dsimp only [datR2]
theorem afterR2_7 (c : Dev nD) (t : Fin cfg2.N) : (datR2 V c).after 7 t = (outsAtR2 V c t.val t.isLt).1 := by dsimp only [datR2]

theorem beforeR2_0 (c : Dev nD) (t : Fin cfg2.N) (d) : (datR2 V c).before 0 t d = iblkR2 V c 0 t :=
  beforeR2_0_of V (datR2 V c) (A_eqR2 V c 0) (afterR2_0 V c) t d
theorem beforeR2_1 (c : Dev nD) (t : Fin cfg2.N) (d) : (datR2 V c).before 1 t d = iblkR2 V c 1 t :=
  beforeR2_1_of V (datR2 V c) (A_eqR2 V c 1) (afterR2_1 V c) t d
theorem beforeR2_2 (c : Dev nD) (t : Fin cfg2.N) (d) : (datR2 V c).before 2 t d = iblkR2 V c 2 t :=
  beforeR2_2_of V (datR2 V c) (A_eqR2 V c 2) (afterR2_2 V c) t d
theorem beforeR2_3 (c : Dev nD) (t : Fin cfg2.N) (d) : (datR2 V c).before 3 t d = iblkR2 V c 3 t :=
  beforeR2_3_of V (datR2 V c) (A_eqR2 V c 3) (afterR2_3 V c) t d
theorem beforeR2_4 (c : Dev nD) (t : Fin cfg2.N) (d) : (datR2 V c).before 4 t d = iblkR2 V c 4 t :=
  beforeR2_4_of V (datR2 V c) (A_eqR2 V c 4) (afterR2_4 V c) t d
theorem beforeR2_5 (c : Dev nD) (t : Fin cfg2.N) (d) : (datR2 V c).before 5 t d = iblkR2 V c 5 t :=
  beforeR2_5_of V (datR2 V c) (A_eqR2 V c 5) (afterR2_5 V c) t d
theorem beforeR2_6 (c : Dev nD) (t : Fin cfg2.N) (d) : (datR2 V c).before 6 t d = iblkR2 V c 6 t :=
  beforeR2_6_of V (datR2 V c) (A_eqR2 V c 6) (afterR2_6 V c) t d

def bodyPreR2 (c : Dev nD) (t : Fin cfg2.N) : sProp 𝕄 :=
  iprop((datR2 V c).Φ t.castSucc ∗ (datR2 V c).owesAt () t.castSucc
    ∗ (∃ d, owns (c : Thread nD τ) (msR2_0 t) fullShare ((datR2 V c).before 0 t d))
    ∗ (∃ d, owns (c : Thread nD τ) (msR2_1 t) fullShare ((datR2 V c).before 1 t d))
    ∗ (∃ d, owns (c : Thread nD τ) (msR2_2 t) fullShare ((datR2 V c).before 2 t d))
    ∗ (∃ d, owns (c : Thread nD τ) (msR2_3 t) fullShare ((datR2 V c).before 3 t d))
    ∗ (∃ d, owns (c : Thread nD τ) (msR2_4 t) fullShare ((datR2 V c).before 4 t d))
    ∗ (∃ d, owns (c : Thread nD τ) (msR2_5 t) fullShare ((datR2 V c).before 5 t d))
    ∗ (∃ d, owns (c : Thread nD τ) (msR2_6 t) fullShare ((datR2 V c).before 6 t d))
    ∗ (∃ d, owns (c : Thread nD τ) (msR2_7 t) fullShare ((datR2 V c).before 7 t d)))

def bodyPostR2 (c : Dev nD) (t : Fin cfg2.N) : sProp 𝕄 :=
  iprop((datR2 V c).Φ t.succ ∗ (datR2 V c).owesAt () t.succ
    ∗ owns (c : Thread nD τ) (msR2_0 t) fullShare ((datR2 V c).after 0 t)
    ∗ owns (c : Thread nD τ) (msR2_1 t) fullShare ((datR2 V c).after 1 t)
    ∗ owns (c : Thread nD τ) (msR2_2 t) fullShare ((datR2 V c).after 2 t)
    ∗ owns (c : Thread nD τ) (msR2_3 t) fullShare ((datR2 V c).after 3 t)
    ∗ owns (c : Thread nD τ) (msR2_4 t) fullShare ((datR2 V c).after 4 t)
    ∗ owns (c : Thread nD τ) (msR2_5 t) fullShare ((datR2 V c).after 5 t)
    ∗ owns (c : Thread nD τ) (msR2_6 t) fullShare ((datR2 V c).after 6 t)
    ∗ owns (c : Thread nD τ) (msR2_7 t) fullShare ((datR2 V c).after 7 t))

/-- Before any point the invariant gives both scratch buffers at some contents: their named contents are forgotten. -/
theorem PhiSR2_open (c : Dev nD) (n : ℕ) (h : n ≤ cfg2.N) :
    PhiSR2 V c n h ⊢ iprop(iprop(iprop((∃ d, owns (c : Thread nD τ) scMR2_0 fullShare d) ∗ (∃ d, owns (c : Thread nD τ) scMR2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact BIBase.Entails.of_eq (PhiAR2_eq c)
  | succ n =>
    rw [PhiSR2_succ]
    iintro ⟨⟨⟨HS0, HS1⟩, HR⟩, Hg⟩
    isplitl [HS0 HS1 HR]
    · isplitl [HS0 HS1]
      · isplitl [HS0]
        · iexists _; iexact HS0
        iexists _; iexact HS1
      iexact HR
    iexact Hg

set_option maxHeartbeats 4800000 in
/-- The body at any point: a batch's first tile takes both scratch buffers at anything and leaves the batch's projections in them; a later tile takes them at what the point before left and hands them back. -/
theorem sound_bodyR2 (c : Dev nD) (t : Fin cfg2.N) :
    bodyPreR2 V c t ⊢ wp frame (wpE (defs₀ (F := F)) Variants.none c none) Set.univ (bodyAt2 t) (fun _ => bodyPostR2 V c t) := by
  unfold bodyPreR2 bodyPostR2
  rw [bodyAtR2_eq]
  simp only [beforeR2_0, beforeR2_1, beforeR2_2, beforeR2_3, beforeR2_4, beforeR2_5, beforeR2_6]
  rw [show (datR2 V c).owesAt () t.succ = (datR2 V c).owesAt () t.castSucc from rfl]
  rw [show (datR2 V c).Φ t.succ = PhiSR2 V c (t.val + 1) t.isLt from rfl, PhiSR2_succ]
  rw [afterR2_0, afterR2_1, afterR2_2, afterR2_3, afterR2_4, afterR2_5, afterR2_6, afterR2_7]
  rw [PhiSR2_castSucc V c t]
  by_cases h0 : t.val % 4 = 0
  · rw [outsAtR2_A V c t h0]
    refine BIBase.Entails.trans (sep_mono_left (PhiSR2_open V c _ _)) ?_
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_first c (grid2.coords t) ((hcondR2 t).mpr h0) (opsR2 t) (insR2 V c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [outsAtR2_B V c t h0]
    rw [PhiSR2_pos V c _ _ (fun h => h0 (by rw [h]))]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_later c (grid2.coords t) (fun h => h0 ((hcondR2 t).mp h)) (opsR2 t) (insR2 V c t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_obligationR2 (c : Dev nD) : BodyObligation (datR2 (F := F) V c) (defs₀ (F := F)) Variants.none () Set.univ := fun t => by
  rw [bigSep_W2, bigSep_W2]
  exact sound_bodyR2 V c t

/-- What the launch hands the region is the invariant before the first point. -/
theorem hinR2 (c : Dev nD) : Pipeline.ΦA spec2 c ⊢ (datR2 V c).Φ 0 := Entails.refl _

/-- After the last point the invariant gives the class's back. -/
theorem houtR2 (c : Dev nD) : (datR2 V c).Φ (Fin.last cfg2.N) ⊢ Pipeline.ΦA spec2 c := by
  rw [show (datR2 V c).Φ (Fin.last cfg2.N) = PhiSR2 V c (Fin.last cfg2.N).val (Nat.le_of_lt_succ (Fin.last cfg2.N).isLt) from rfl]
  rw [PhiAR2_eq]
  exact PhiSR2_open V c _ _

end

end Cert.Kernel.Gen

end
-- ==== Proof.BRuns3.lean ====
import proofs.«427532_j66606352826848_3_alg».proof.Proof.Gen.Kernel.Launch
import proofs.«427532_j66606352826848_3_alg».proof.Proof.Gen.Kernel.Skeleton
import proofs.«427532_j66606352826848_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condR3 (i : grid3.Coords) : Prop := (Scalar.cmpi .ne (Scalar.extui (Scalar.cmpi .eq (BitVec.ofNat 32 (i 1).val) 0#32)) 0#32) = 1#1

theorem hcondR3 : ∀ t : Fin cfg3.N, condR3 (grid3.coords t) ↔ t.val % 4 = 0 :=
  (by decide +kernel : ∀ t : Fin grid3.N, condR3 (grid3.coords t) ↔ t.val % 4 = 0)

abbrev scMR3_0 : Memref sig .tc .vmem S1024x1024 .bf16 := Memref.whole cc3_scratch0
abbrev scMR3_1 : Memref sig .tc .vmem S1024x1024 .bf16 := Memref.whole cc3_scratch1

abbrev msR3_0 (t : Fin cfg3.N) : Memref sig .tc .vmem S1x256x1024 .bf16 := win3_0.stage (cfg3.slots t 0)
abbrev hsR3_0 (t : Fin cfg3.N) : (msR3_0 t).IsWhole := hstage3_0 ((cfg3.slots t 0).cast nbuf3_0)
abbrev msR3_1 (t : Fin cfg3.N) : Memref sig .tc .vmem S1x1024x1024 .bf16 := win3_1.stage (cfg3.slots t 1)
abbrev hsR3_1 (t : Fin cfg3.N) : (msR3_1 t).IsWhole := hstage3_1 ((cfg3.slots t 1).cast nbuf3_1)
abbrev msR3_2 (t : Fin cfg3.N) : Memref sig .tc .vmem S1024x1024 .bf16 := win3_2.stage (cfg3.slots t 2)
abbrev hsR3_2 (t : Fin cfg3.N) : (msR3_2 t).IsWhole := hstage3_2 ((cfg3.slots t 2).cast nbuf3_2)
abbrev msR3_3 (t : Fin cfg3.N) : Memref sig .tc .vmem S1024x1024 .bf16 := win3_3.stage (cfg3.slots t 3)
abbrev hsR3_3 (t : Fin cfg3.N) : (msR3_3 t).IsWhole := hstage3_3 ((cfg3.slots t 3).cast nbuf3_3)
abbrev msR3_4 (t : Fin cfg3.N) : Memref sig .tc .vmem S1024x1024 .bf16 := win3_4.stage (cfg3.slots t 4)
abbrev hsR3_4 (t : Fin cfg3.N) : (msR3_4 t).IsWhole := hstage3_4 ((cfg3.slots t 4).cast nbuf3_4)
abbrev msR3_5 (t : Fin cfg3.N) : Memref sig .tc .vmem S1024x1024 .bf16 := win3_5.stage (cfg3.slots t 5)
abbrev hsR3_5 (t : Fin cfg3.N) : (msR3_5 t).IsWhole := hstage3_5 ((cfg3.slots t 5).cast nbuf3_5)
abbrev msR3_6 (t : Fin cfg3.N) : Memref sig .tc .vmem S1x1024 .f32 := win3_6.stage (cfg3.slots t 6)
abbrev hsR3_6 (t : Fin cfg3.N) : (msR3_6 t).IsWhole := hstage3_6 ((cfg3.slots t 6).cast nbuf3_6)
abbrev msR3_7 (t : Fin cfg3.N) : Memref sig .tc .vmem S1x256x1024 .bf16 := win3_7.stage (cfg3.slots t 7)
abbrev hsR3_7 (t : Fin cfg3.N) : (msR3_7 t).IsWhole := hstage3_7 ((cfg3.slots t 7).cast nbuf3_7)

theorem PhiAR3_eq (c : Dev nD) :
    (Pipeline.ΦA spec3 c : sProp 𝕄)
      = iprop(iprop(iprop((∃ d, owns (c : Thread nD τ) scMR3_0 fullShare d) ∗ (∃ d, owns (c : Thread nD τ) scMR3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scMR3_0, scMR3_1, owns_whole]; try rfl

end Cert.Kernel.Gen

end
-- ==== Proof.BDat3.lean ====
import proofs.«427532_j66606352826848_3_alg».proof.Proof.BAttn
import proofs.«427532_j66606352826848_3_alg».proof.Proof.BRuns3

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

def iblkR3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem beforeR3_0_of {c : Dev nD} (dat : Dat τ (Elt F) Unit ℕ (UR sig nD τ) ℕ cfg3 c) (hA : dat.A 0 = V c (Pipeline.arrRef spec3 0))
    (hafter : ∀ t, dat.after 0 t = iblkR3 V c 0 t) (t : Fin cfg3.N) (d) : dat.before 0 t d = iblkR3 V c 0 t :=
  (dat.before_in_eq_fetched 0 rfl (fun _ => rfl) (fun _ _ _ => rfl) (fun t => by rw [hafter]; unfold Dat.blockOf iblkR3; rw [hA]; try rfl) t d).trans
    (by unfold Dat.fetched Dat.blockOf iblkR3; rw [hA]; try rfl)
theorem beforeR3_1_of {c : Dev nD} (dat : Dat τ (Elt F) Unit ℕ (UR sig nD τ) ℕ cfg3 c) (hA : dat.A 1 = V c (Pipeline.arrRef spec3 1))
    (hafter : ∀ t, dat.after 1 t = iblkR3 V c 1 t) (t : Fin cfg3.N) (d) : dat.before 1 t d = iblkR3 V c 1 t :=
  (dat.before_in_eq_fetched 1 rfl (fun _ => rfl) (fun _ _ _ => rfl) (fun t => by rw [hafter]; unfold Dat.blockOf iblkR3; rw [hA]; try rfl) t d).trans
    (by unfold Dat.fetched Dat.blockOf iblkR3; rw [hA]; try rfl)
theorem beforeR3_2_of {c : Dev nD} (dat : Dat τ (Elt F) Unit ℕ (UR sig nD τ) ℕ cfg3 c) (hA : dat.A 2 = V c (Pipeline.arrRef spec3 2))
    (hafter : ∀ t, dat.after 2 t = iblkR3 V c 2 t) (t : Fin cfg3.N) (d) : dat.before 2 t d = iblkR3 V c 2 t :=
  (dat.before_in_eq_fetched 2 rfl (fun _ => rfl) (fun _ _ _ => rfl) (fun t => by rw [hafter]; unfold Dat.blockOf iblkR3; rw [hA]; try rfl) t d).trans
    (by unfold Dat.fetched Dat.blockOf iblkR3; rw [hA]; try rfl)
theorem beforeR3_3_of {c : Dev nD} (dat : Dat τ (Elt F) Unit ℕ (UR sig nD τ) ℕ cfg3 c) (hA : dat.A 3 = V c (Pipeline.arrRef spec3 3))
    (hafter : ∀ t, dat.after 3 t = iblkR3 V c 3 t) (t : Fin cfg3.N) (d) : dat.before 3 t d = iblkR3 V c 3 t :=
  (dat.before_in_eq_fetched 3 rfl (fun _ => rfl) (fun _ _ _ => rfl) (fun t => by rw [hafter]; unfold Dat.blockOf iblkR3; rw [hA]; try rfl) t d).trans
    (by unfold Dat.fetched Dat.blockOf iblkR3; rw [hA]; try rfl)
theorem beforeR3_4_of {c : Dev nD} (dat : Dat τ (Elt F) Unit ℕ (UR sig nD τ) ℕ cfg3 c) (hA : dat.A 4 = V c (Pipeline.arrRef spec3 4))
    (hafter : ∀ t, dat.after 4 t = iblkR3 V c 4 t) (t : Fin cfg3.N) (d) : dat.before 4 t d = iblkR3 V c 4 t :=
  (dat.before_in_eq_fetched 4 rfl (fun _ => rfl) (fun _ _ _ => rfl) (fun t => by rw [hafter]; unfold Dat.blockOf iblkR3; rw [hA]; try rfl) t d).trans
    (by unfold Dat.fetched Dat.blockOf iblkR3; rw [hA]; try rfl)
theorem beforeR3_5_of {c : Dev nD} (dat : Dat τ (Elt F) Unit ℕ (UR sig nD τ) ℕ cfg3 c) (hA : dat.A 5 = V c (Pipeline.arrRef spec3 5))
    (hafter : ∀ t, dat.after 5 t = iblkR3 V c 5 t) (t : Fin cfg3.N) (d) : dat.before 5 t d = iblkR3 V c 5 t :=
  (dat.before_in_eq_fetched 5 rfl (fun _ => rfl) (fun _ _ _ => rfl) (fun t => by rw [hafter]; unfold Dat.blockOf iblkR3; rw [hA]; try rfl) t d).trans
    (by unfold Dat.fetched Dat.blockOf iblkR3; rw [hA]; try rfl)
theorem beforeR3_6_of {c : Dev nD} (dat : Dat τ (Elt F) Unit ℕ (UR sig nD τ) ℕ cfg3 c) (hA : dat.A 6 = V c (Pipeline.arrRef spec3 6))
    (hafter : ∀ t, dat.after 6 t = iblkR3 V c 6 t) (t : Fin cfg3.N) (d) : dat.before 6 t d = iblkR3 V c 6 t :=
  (dat.before_in_eq_fetched 6 rfl (fun _ => rfl) (fun _ _ _ => rfl) (fun t => by rw [hafter]; unfold Dat.blockOf iblkR3; rw [hA]; try rfl) t d).trans
    (by unfold Dat.fetched Dat.blockOf iblkR3; rw [hA]; try rfl)

/-- The kernel's operands at point `t`: each window's current staging buffer, then the two scratch buffers. -/
abbrev opsR3 (t : Fin cfg3.N) : Ops :=
  ⟨msR3_0 t, hsR3_0 t, msR3_1 t, hsR3_1 t, msR3_2 t, hsR3_2 t, msR3_3 t, hsR3_3 t, msR3_4 t, hsR3_4 t, msR3_5 t, hsR3_5 t, msR3_6 t, hsR3_6 t, msR3_7 t, hsR3_7 t, scMR3_0, Memref.isWhole_whole _, scMR3_1, Memref.isWhole_whole _⟩

/-- The seven input blocks at point `t`. -/
abbrev insR3 (c : Dev nD) (t : Fin cfg3.N) : Ins F :=
  ⟨iblkR3 V c 0 t, iblkR3 V c 1 t, iblkR3 V c 2 t, iblkR3 V c 3 t, iblkR3 V c 4 t, iblkR3 V c 5 t, iblkR3 V c 6 t⟩

theorem bodyAtR3_eq (t : Fin cfg3.N) : bodyAt3 (F := F) t = (opsR3 t).body (grid3.coords t) := rfl

/-- After the body at position `n`: the output block, then the two scratch buffers. A batch's first tile (`n` a multiple of 4) computes all three from its input blocks; a later tile keeps what the point before left in the scratch buffers. -/
def outsAtR3 (c : Dev nD) : (n : ℕ) → n < cfg3.N → Vec F S1x256x1024 .bf16 × Vec F S1024x1024 .bf16 × Vec F S1024x1024 .bf16
  | 0, hn => (insR3 V c ⟨0, hn⟩).first
  | n + 1, hn =>
    if (n + 1) % 4 = 0 then (insR3 V c ⟨n + 1, hn⟩).first
    else (insR3 V c ⟨n + 1, hn⟩).later (outsAtR3 c n (Nat.lt_of_succ_lt hn)).2.1 (outsAtR3 c n (Nat.lt_of_succ_lt hn)).2.2

theorem outsAtR3_A (c : Dev nD) (t : Fin cfg3.N) (h0 : t.val % 4 = 0) : outsAtR3 V c t.val t.isLt = (insR3 V c t).first := by
  obtain ⟨n, hn⟩ := t
  cases n with
  | zero => exact rfl
  | succ n => exact (if_pos h0).trans rfl

theorem outsAtR3_B (c : Dev nD) (t : Fin cfg3.N) (h0 : ¬t.val % 4 = 0) :
    outsAtR3 V c t.val t.isLt = (insR3 V c t).later (outsAtR3 V c (t.val - 1) (Nat.lt_of_le_of_lt (Nat.sub_le _ _) t.isLt)).2.1
      (outsAtR3 V c (t.val - 1) (Nat.lt_of_le_of_lt (Nat.sub_le _ _) t.isLt)).2.2 := by
  obtain ⟨n, hn⟩ := t
  cases n with
  | zero => exact absurd (Nat.zero_mod _) h0
  | succ n => exact (if_neg h0).trans rfl

def PhiSR3 (c : Dev nD) : (n : ℕ) → n ≤ cfg3.N → sProp 𝕄
  | 0, _ => Pipeline.ΦA spec3 c
  | n + 1, hn => iprop(iprop(iprop(owns (c : Thread nD τ) scMR3_0 fullShare ((outsAtR3 V c n hn).2.1) ∗ owns (c : Thread nD τ) scMR3_1 fullShare ((outsAtR3 V c n hn).2.2))
          ∗ Pipeline.scopedRestBut (Ix := Unit) (Name := ℕ) (U := UR sig nD τ) (Lvl := ℕ) (Val := Elt F) spec3 c [cc3_scratch0, cc3_scratch1]) ∗ (∃ r, prngReg c r))

theorem PhiSR3_succ (c : Dev nD) (n : ℕ) (hn : n < cfg3.N) :
    PhiSR3 V c (n + 1) hn = iprop(iprop(iprop(owns (c : Thread nD τ) scMR3_0 fullShare ((outsAtR3 V c n hn).2.1) ∗ owns (c : Thread nD τ) scMR3_1 fullShare ((outsAtR3 V c n hn).2.2))
          ∗ Pipeline.scopedRestBut (Ix := Unit) (Name := ℕ) (U := UR sig nD τ) (Lvl := ℕ) (Val := Elt F) spec3 c [cc3_scratch0, cc3_scratch1]) ∗ (∃ r, prngReg c r)) := rfl

theorem PhiSR3_pos (c : Dev nD) (n : ℕ) (h : n ≤ cfg3.N) (hz : n ≠ 0) :
    PhiSR3 V c n h = iprop(iprop(iprop(owns (c : Thread nD τ) scMR3_0 fullShare ((outsAtR3 V c (n - 1) (by omega)).2.1) ∗ owns (c : Thread nD τ) scMR3_1 fullShare ((outsAtR3 V c (n - 1) (by omega)).2.2))
          ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact absurd rfl hz
  | succ n => rfl

def datR3 (c : Dev nD) : Dat τ (Elt F) Unit ℕ (UR sig nD τ) ℕ cfg3 c where
  A w := V c (Pipeline.arrRef spec3 w)
  after w t := match w with
    | ⟨0, _⟩ => iblkR3 V c 0 t
    | ⟨1, _⟩ => iblkR3 V c 1 t
    | ⟨2, _⟩ => iblkR3 V c 2 t
    | ⟨3, _⟩ => iblkR3 V c 3 t
    | ⟨4, _⟩ => iblkR3 V c 4 t
    | ⟨5, _⟩ => iblkR3 V c 5 t
    | ⟨6, _⟩ => iblkR3 V c 6 t
    | ⟨7, _⟩ => (outsAtR3 V c t.val t.isLt).1
  Φ t := PhiSR3 V c t.val (Nat.le_of_lt_succ t.isLt)
  q _ := fullShare
  owed _ := 0

theorem A_eqR3 (c : Dev nD) (w : Fin cfg3.W) : (datR3 V c).A w = V c (Pipeline.arrRef spec3 w) := by
  dsimp only [datR3]

theorem PhiSR3_castSucc (c : Dev nD) (t : Fin cfg3.N) :
    (datR3 V c).Φ t.castSucc = PhiSR3 V c t.val (Nat.le_of_lt t.isLt) := by
  dsimp only [datR3]; simp only [Fin.coe_castSucc]

theorem afterR3_0 (c : Dev nD) (t : Fin cfg3.N) : (datR3 V c).after 0 t = iblkR3 V c 0 t := by dsimp only [datR3]
theorem afterR3_1 (c : Dev nD) (t : Fin cfg3.N) : (datR3 V c).after 1 t = iblkR3 V c 1 t := by dsimp only [datR3]
theorem afterR3_2 (c : Dev nD) (t : Fin cfg3.N) : (datR3 V c).after 2 t = iblkR3 V c 2 t := by dsimp only [datR3]
theorem afterR3_3 (c : Dev nD) (t : Fin cfg3.N) : (datR3 V c).after 3 t = iblkR3 V c 3 t := by dsimp only [datR3]
theorem afterR3_4 (c : Dev nD) (t : Fin cfg3.N) : (datR3 V c).after 4 t = iblkR3 V c 4 t := by dsimp only [datR3]
theorem afterR3_5 (c : Dev nD) (t : Fin cfg3.N) : (datR3 V c).after 5 t = iblkR3 V c 5 t := by dsimp only [datR3]
theorem afterR3_6 (c : Dev nD) (t : Fin cfg3.N) : (datR3 V c).after 6 t = iblkR3 V c 6 t := by dsimp only [datR3]
theorem afterR3_7 (c : Dev nD) (t : Fin cfg3.N) : (datR3 V c).after 7 t = (outsAtR3 V c t.val t.isLt).1 := by dsimp only [datR3]

theorem beforeR3_0 (c : Dev nD) (t : Fin cfg3.N) (d) : (datR3 V c).before 0 t d = iblkR3 V c 0 t :=
  beforeR3_0_of V (datR3 V c) (A_eqR3 V c 0) (afterR3_0 V c) t d
theorem beforeR3_1 (c : Dev nD) (t : Fin cfg3.N) (d) : (datR3 V c).before 1 t d = iblkR3 V c 1 t :=
  beforeR3_1_of V (datR3 V c) (A_eqR3 V c 1) (afterR3_1 V c) t d
theorem beforeR3_2 (c : Dev nD) (t : Fin cfg3.N) (d) : (datR3 V c).before 2 t d = iblkR3 V c 2 t :=
  beforeR3_2_of V (datR3 V c) (A_eqR3 V c 2) (afterR3_2 V c) t d
theorem beforeR3_3 (c : Dev nD) (t : Fin cfg3.N) (d) : (datR3 V c).before 3 t d = iblkR3 V c 3 t :=
  beforeR3_3_of V (datR3 V c) (A_eqR3 V c 3) (afterR3_3 V c) t d
theorem beforeR3_4 (c : Dev nD) (t : Fin cfg3.N) (d) : (datR3 V c).before 4 t d = iblkR3 V c 4 t :=
  beforeR3_4_of V (datR3 V c) (A_eqR3 V c 4) (afterR3_4 V c) t d
theorem beforeR3_5 (c : Dev nD) (t : Fin cfg3.N) (d) : (datR3 V c).before 5 t d = iblkR3 V c 5 t :=
  beforeR3_5_of V (datR3 V c) (A_eqR3 V c 5) (afterR3_5 V c) t d
theorem beforeR3_6 (c : Dev nD) (t : Fin cfg3.N) (d) : (datR3 V c).before 6 t d = iblkR3 V c 6 t :=
  beforeR3_6_of V (datR3 V c) (A_eqR3 V c 6) (afterR3_6 V c) t d

def bodyPreR3 (c : Dev nD) (t : Fin cfg3.N) : sProp 𝕄 :=
  iprop((datR3 V c).Φ t.castSucc ∗ (datR3 V c).owesAt () t.castSucc
    ∗ (∃ d, owns (c : Thread nD τ) (msR3_0 t) fullShare ((datR3 V c).before 0 t d))
    ∗ (∃ d, owns (c : Thread nD τ) (msR3_1 t) fullShare ((datR3 V c).before 1 t d))
    ∗ (∃ d, owns (c : Thread nD τ) (msR3_2 t) fullShare ((datR3 V c).before 2 t d))
    ∗ (∃ d, owns (c : Thread nD τ) (msR3_3 t) fullShare ((datR3 V c).before 3 t d))
    ∗ (∃ d, owns (c : Thread nD τ) (msR3_4 t) fullShare ((datR3 V c).before 4 t d))
    ∗ (∃ d, owns (c : Thread nD τ) (msR3_5 t) fullShare ((datR3 V c).before 5 t d))
    ∗ (∃ d, owns (c : Thread nD τ) (msR3_6 t) fullShare ((datR3 V c).before 6 t d))
    ∗ (∃ d, owns (c : Thread nD τ) (msR3_7 t) fullShare ((datR3 V c).before 7 t d)))

def bodyPostR3 (c : Dev nD) (t : Fin cfg3.N) : sProp 𝕄 :=
  iprop((datR3 V c).Φ t.succ ∗ (datR3 V c).owesAt () t.succ
    ∗ owns (c : Thread nD τ) (msR3_0 t) fullShare ((datR3 V c).after 0 t)
    ∗ owns (c : Thread nD τ) (msR3_1 t) fullShare ((datR3 V c).after 1 t)
    ∗ owns (c : Thread nD τ) (msR3_2 t) fullShare ((datR3 V c).after 2 t)
    ∗ owns (c : Thread nD τ) (msR3_3 t) fullShare ((datR3 V c).after 3 t)
    ∗ owns (c : Thread nD τ) (msR3_4 t) fullShare ((datR3 V c).after 4 t)
    ∗ owns (c : Thread nD τ) (msR3_5 t) fullShare ((datR3 V c).after 5 t)
    ∗ owns (c : Thread nD τ) (msR3_6 t) fullShare ((datR3 V c).after 6 t)
    ∗ owns (c : Thread nD τ) (msR3_7 t) fullShare ((datR3 V c).after 7 t))

/-- Before any point the invariant gives both scratch buffers at some contents: their named contents are forgotten. -/
theorem PhiSR3_open (c : Dev nD) (n : ℕ) (h : n ≤ cfg3.N) :
    PhiSR3 V c n h ⊢ iprop(iprop(iprop((∃ d, owns (c : Thread nD τ) scMR3_0 fullShare d) ∗ (∃ d, owns (c : Thread nD τ) scMR3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact BIBase.Entails.of_eq (PhiAR3_eq c)
  | succ n =>
    rw [PhiSR3_succ]
    iintro ⟨⟨⟨HS0, HS1⟩, HR⟩, Hg⟩
    isplitl [HS0 HS1 HR]
    · isplitl [HS0 HS1]
      · isplitl [HS0]
        · iexists _; iexact HS0
        iexists _; iexact HS1
      iexact HR
    iexact Hg

set_option maxHeartbeats 4800000 in
/-- The body at any point: a batch's first tile takes both scratch buffers at anything and leaves the batch's projections in them; a later tile takes them at what the point before left and hands them back. -/
theorem sound_bodyR3 (c : Dev nD) (t : Fin cfg3.N) :
    bodyPreR3 V c t ⊢ wp frame (wpE (defs₀ (F := F)) Variants.none c none) Set.univ (bodyAt3 t) (fun _ => bodyPostR3 V c t) := by
  unfold bodyPreR3 bodyPostR3
  rw [bodyAtR3_eq]
  simp only [beforeR3_0, beforeR3_1, beforeR3_2, beforeR3_3, beforeR3_4, beforeR3_5, beforeR3_6]
  rw [show (datR3 V c).owesAt () t.succ = (datR3 V c).owesAt () t.castSucc from rfl]
  rw [show (datR3 V c).Φ t.succ = PhiSR3 V c (t.val + 1) t.isLt from rfl, PhiSR3_succ]
  rw [afterR3_0, afterR3_1, afterR3_2, afterR3_3, afterR3_4, afterR3_5, afterR3_6, afterR3_7]
  rw [PhiSR3_castSucc V c t]
  by_cases h0 : t.val % 4 = 0
  · rw [outsAtR3_A V c t h0]
    refine BIBase.Entails.trans (sep_mono_left (PhiSR3_open V c _ _)) ?_
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_first c (grid3.coords t) ((hcondR3 t).mpr h0) (opsR3 t) (insR3 V c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [outsAtR3_B V c t h0]
    rw [PhiSR3_pos V c _ _ (fun h => h0 (by rw [h]))]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_later c (grid3.coords t) (fun h => h0 ((hcondR3 t).mp h)) (opsR3 t) (insR3 V c t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_obligationR3 (c : Dev nD) : BodyObligation (datR3 (F := F) V c) (defs₀ (F := F)) Variants.none () Set.univ := fun t => by
  rw [bigSep_W3, bigSep_W3]
  exact sound_bodyR3 V c t

/-- What the launch hands the region is the invariant before the first point. -/
theorem hinR3 (c : Dev nD) : Pipeline.ΦA spec3 c ⊢ (datR3 V c).Φ 0 := Entails.refl _

/-- After the last point the invariant gives the class's back. -/
theorem houtR3 (c : Dev nD) : (datR3 V c).Φ (Fin.last cfg3.N) ⊢ Pipeline.ΦA spec3 c := by
  rw [show (datR3 V c).Φ (Fin.last cfg3.N) = PhiSR3 V c (Fin.last cfg3.N).val (Nat.le_of_lt_succ (Fin.last cfg3.N).isLt) from rfl]
  rw [PhiAR3_eq]
  exact PhiSR3_open V c _ _

end

end Cert.Kernel.Gen

end
-- ==== Proof.BRuns4.lean ====
import proofs.«427532_j66606352826848_3_alg».proof.Proof.Gen.Kernel.Launch
import proofs.«427532_j66606352826848_3_alg».proof.Proof.Gen.Kernel.Skeleton
import proofs.«427532_j66606352826848_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condR4 (i : grid4.Coords) : Prop := (Scalar.cmpi .ne (Scalar.extui (Scalar.cmpi .eq (BitVec.ofNat 32 (i 1).val) 0#32)) 0#32) = 1#1

theorem hcondR4 : ∀ t : Fin cfg4.N, condR4 (grid4.coords t) ↔ t.val % 4 = 0 :=
  (by decide +kernel : ∀ t : Fin grid4.N, condR4 (grid4.coords t) ↔ t.val % 4 = 0)

abbrev scMR4_0 : Memref sig .tc .vmem S1024x1024 .bf16 := Memref.whole cc4_scratch0
abbrev scMR4_1 : Memref sig .tc .vmem S1024x1024 .bf16 := Memref.whole cc4_scratch1

abbrev msR4_0 (t : Fin cfg4.N) : Memref sig .tc .vmem S1x256x1024 .bf16 := win4_0.stage (cfg4.slots t 0)
abbrev hsR4_0 (t : Fin cfg4.N) : (msR4_0 t).IsWhole := hstage4_0 ((cfg4.slots t 0).cast nbuf4_0)
abbrev msR4_1 (t : Fin cfg4.N) : Memref sig .tc .vmem S1x1024x1024 .bf16 := win4_1.stage (cfg4.slots t 1)
abbrev hsR4_1 (t : Fin cfg4.N) : (msR4_1 t).IsWhole := hstage4_1 ((cfg4.slots t 1).cast nbuf4_1)
abbrev msR4_2 (t : Fin cfg4.N) : Memref sig .tc .vmem S1024x1024 .bf16 := win4_2.stage (cfg4.slots t 2)
abbrev hsR4_2 (t : Fin cfg4.N) : (msR4_2 t).IsWhole := hstage4_2 ((cfg4.slots t 2).cast nbuf4_2)
abbrev msR4_3 (t : Fin cfg4.N) : Memref sig .tc .vmem S1024x1024 .bf16 := win4_3.stage (cfg4.slots t 3)
abbrev hsR4_3 (t : Fin cfg4.N) : (msR4_3 t).IsWhole := hstage4_3 ((cfg4.slots t 3).cast nbuf4_3)
abbrev msR4_4 (t : Fin cfg4.N) : Memref sig .tc .vmem S1024x1024 .bf16 := win4_4.stage (cfg4.slots t 4)
abbrev hsR4_4 (t : Fin cfg4.N) : (msR4_4 t).IsWhole := hstage4_4 ((cfg4.slots t 4).cast nbuf4_4)
abbrev msR4_5 (t : Fin cfg4.N) : Memref sig .tc .vmem S1024x1024 .bf16 := win4_5.stage (cfg4.slots t 5)
abbrev hsR4_5 (t : Fin cfg4.N) : (msR4_5 t).IsWhole := hstage4_5 ((cfg4.slots t 5).cast nbuf4_5)
abbrev msR4_6 (t : Fin cfg4.N) : Memref sig .tc .vmem S1x1024 .f32 := win4_6.stage (cfg4.slots t 6)
abbrev hsR4_6 (t : Fin cfg4.N) : (msR4_6 t).IsWhole := hstage4_6 ((cfg4.slots t 6).cast nbuf4_6)
abbrev msR4_7 (t : Fin cfg4.N) : Memref sig .tc .vmem S1x256x1024 .bf16 := win4_7.stage (cfg4.slots t 7)
abbrev hsR4_7 (t : Fin cfg4.N) : (msR4_7 t).IsWhole := hstage4_7 ((cfg4.slots t 7).cast nbuf4_7)

theorem PhiAR4_eq (c : Dev nD) :
    (Pipeline.ΦA spec4 c : sProp 𝕄)
      = iprop(iprop(iprop((∃ d, owns (c : Thread nD τ) scMR4_0 fullShare d) ∗ (∃ d, owns (c : Thread nD τ) scMR4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scMR4_0, scMR4_1, owns_whole]; try rfl

end Cert.Kernel.Gen

end
-- ==== Proof.BDat4.lean ====
import proofs.«427532_j66606352826848_3_alg».proof.Proof.BAttn
import proofs.«427532_j66606352826848_3_alg».proof.Proof.BRuns4

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

def iblkR4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem beforeR4_0_of {c : Dev nD} (dat : Dat τ (Elt F) Unit ℕ (UR sig nD τ) ℕ cfg4 c) (hA : dat.A 0 = V c (Pipeline.arrRef spec4 0))
    (hafter : ∀ t, dat.after 0 t = iblkR4 V c 0 t) (t : Fin cfg4.N) (d) : dat.before 0 t d = iblkR4 V c 0 t :=
  (dat.before_in_eq_fetched 0 rfl (fun _ => rfl) (fun _ _ _ => rfl) (fun t => by rw [hafter]; unfold Dat.blockOf iblkR4; rw [hA]; try rfl) t d).trans
    (by unfold Dat.fetched Dat.blockOf iblkR4; rw [hA]; try rfl)
theorem beforeR4_1_of {c : Dev nD} (dat : Dat τ (Elt F) Unit ℕ (UR sig nD τ) ℕ cfg4 c) (hA : dat.A 1 = V c (Pipeline.arrRef spec4 1))
    (hafter : ∀ t, dat.after 1 t = iblkR4 V c 1 t) (t : Fin cfg4.N) (d) : dat.before 1 t d = iblkR4 V c 1 t :=
  (dat.before_in_eq_fetched 1 rfl (fun _ => rfl) (fun _ _ _ => rfl) (fun t => by rw [hafter]; unfold Dat.blockOf iblkR4; rw [hA]; try rfl) t d).trans
    (by unfold Dat.fetched Dat.blockOf iblkR4; rw [hA]; try rfl)
theorem beforeR4_2_of {c : Dev nD} (dat : Dat τ (Elt F) Unit ℕ (UR sig nD τ) ℕ cfg4 c) (hA : dat.A 2 = V c (Pipeline.arrRef spec4 2))
    (hafter : ∀ t, dat.after 2 t = iblkR4 V c 2 t) (t : Fin cfg4.N) (d) : dat.before 2 t d = iblkR4 V c 2 t :=
  (dat.before_in_eq_fetched 2 rfl (fun _ => rfl) (fun _ _ _ => rfl) (fun t => by rw [hafter]; unfold Dat.blockOf iblkR4; rw [hA]; try rfl) t d).trans
    (by unfold Dat.fetched Dat.blockOf iblkR4; rw [hA]; try rfl)
theorem beforeR4_3_of {c : Dev nD} (dat : Dat τ (Elt F) Unit ℕ (UR sig nD τ) ℕ cfg4 c) (hA : dat.A 3 = V c (Pipeline.arrRef spec4 3))
    (hafter : ∀ t, dat.after 3 t = iblkR4 V c 3 t) (t : Fin cfg4.N) (d) : dat.before 3 t d = iblkR4 V c 3 t :=
  (dat.before_in_eq_fetched 3 rfl (fun _ => rfl) (fun _ _ _ => rfl) (fun t => by rw [hafter]; unfold Dat.blockOf iblkR4; rw [hA]; try rfl) t d).trans
    (by unfold Dat.fetched Dat.blockOf iblkR4; rw [hA]; try rfl)
theorem beforeR4_4_of {c : Dev nD} (dat : Dat τ (Elt F) Unit ℕ (UR sig nD τ) ℕ cfg4 c) (hA : dat.A 4 = V c (Pipeline.arrRef spec4 4))
    (hafter : ∀ t, dat.after 4 t = iblkR4 V c 4 t) (t : Fin cfg4.N) (d) : dat.before 4 t d = iblkR4 V c 4 t :=
  (dat.before_in_eq_fetched 4 rfl (fun _ => rfl) (fun _ _ _ => rfl) (fun t => by rw [hafter]; unfold Dat.blockOf iblkR4; rw [hA]; try rfl) t d).trans
    (by unfold Dat.fetched Dat.blockOf iblkR4; rw [hA]; try rfl)
theorem beforeR4_5_of {c : Dev nD} (dat : Dat τ (Elt F) Unit ℕ (UR sig nD τ) ℕ cfg4 c) (hA : dat.A 5 = V c (Pipeline.arrRef spec4 5))
    (hafter : ∀ t, dat.after 5 t = iblkR4 V c 5 t) (t : Fin cfg4.N) (d) : dat.before 5 t d = iblkR4 V c 5 t :=
  (dat.before_in_eq_fetched 5 rfl (fun _ => rfl) (fun _ _ _ => rfl) (fun t => by rw [hafter]; unfold Dat.blockOf iblkR4; rw [hA]; try rfl) t d).trans
    (by unfold Dat.fetched Dat.blockOf iblkR4; rw [hA]; try rfl)
theorem beforeR4_6_of {c : Dev nD} (dat : Dat τ (Elt F) Unit ℕ (UR sig nD τ) ℕ cfg4 c) (hA : dat.A 6 = V c (Pipeline.arrRef spec4 6))
    (hafter : ∀ t, dat.after 6 t = iblkR4 V c 6 t) (t : Fin cfg4.N) (d) : dat.before 6 t d = iblkR4 V c 6 t :=
  (dat.before_in_eq_fetched 6 rfl (fun _ => rfl) (fun _ _ _ => rfl) (fun t => by rw [hafter]; unfold Dat.blockOf iblkR4; rw [hA]; try rfl) t d).trans
    (by unfold Dat.fetched Dat.blockOf iblkR4; rw [hA]; try rfl)

/-- The kernel's operands at point `t`: each window's current staging buffer, then the two scratch buffers. -/
abbrev opsR4 (t : Fin cfg4.N) : Ops :=
  ⟨msR4_0 t, hsR4_0 t, msR4_1 t, hsR4_1 t, msR4_2 t, hsR4_2 t, msR4_3 t, hsR4_3 t, msR4_4 t, hsR4_4 t, msR4_5 t, hsR4_5 t, msR4_6 t, hsR4_6 t, msR4_7 t, hsR4_7 t, scMR4_0, Memref.isWhole_whole _, scMR4_1, Memref.isWhole_whole _⟩

/-- The seven input blocks at point `t`. -/
abbrev insR4 (c : Dev nD) (t : Fin cfg4.N) : Ins F :=
  ⟨iblkR4 V c 0 t, iblkR4 V c 1 t, iblkR4 V c 2 t, iblkR4 V c 3 t, iblkR4 V c 4 t, iblkR4 V c 5 t, iblkR4 V c 6 t⟩

theorem bodyAtR4_eq (t : Fin cfg4.N) : bodyAt4 (F := F) t = (opsR4 t).body (grid4.coords t) := rfl

/-- After the body at position `n`: the output block, then the two scratch buffers. A batch's first tile (`n` a multiple of 4) computes all three from its input blocks; a later tile keeps what the point before left in the scratch buffers. -/
def outsAtR4 (c : Dev nD) : (n : ℕ) → n < cfg4.N → Vec F S1x256x1024 .bf16 × Vec F S1024x1024 .bf16 × Vec F S1024x1024 .bf16
  | 0, hn => (insR4 V c ⟨0, hn⟩).first
  | n + 1, hn =>
    if (n + 1) % 4 = 0 then (insR4 V c ⟨n + 1, hn⟩).first
    else (insR4 V c ⟨n + 1, hn⟩).later (outsAtR4 c n (Nat.lt_of_succ_lt hn)).2.1 (outsAtR4 c n (Nat.lt_of_succ_lt hn)).2.2

theorem outsAtR4_A (c : Dev nD) (t : Fin cfg4.N) (h0 : t.val % 4 = 0) : outsAtR4 V c t.val t.isLt = (insR4 V c t).first := by
  obtain ⟨n, hn⟩ := t
  cases n with
  | zero => exact rfl
  | succ n => exact (if_pos h0).trans rfl

theorem outsAtR4_B (c : Dev nD) (t : Fin cfg4.N) (h0 : ¬t.val % 4 = 0) :
    outsAtR4 V c t.val t.isLt = (insR4 V c t).later (outsAtR4 V c (t.val - 1) (Nat.lt_of_le_of_lt (Nat.sub_le _ _) t.isLt)).2.1
      (outsAtR4 V c (t.val - 1) (Nat.lt_of_le_of_lt (Nat.sub_le _ _) t.isLt)).2.2 := by
  obtain ⟨n, hn⟩ := t
  cases n with
  | zero => exact absurd (Nat.zero_mod _) h0
  | succ n => exact (if_neg h0).trans rfl

def PhiSR4 (c : Dev nD) : (n : ℕ) → n ≤ cfg4.N → sProp 𝕄
  | 0, _ => Pipeline.ΦA spec4 c
  | n + 1, hn => iprop(iprop(iprop(owns (c : Thread nD τ) scMR4_0 fullShare ((outsAtR4 V c n hn).2.1) ∗ owns (c : Thread nD τ) scMR4_1 fullShare ((outsAtR4 V c n hn).2.2))
          ∗ Pipeline.scopedRestBut (Ix := Unit) (Name := ℕ) (U := UR sig nD τ) (Lvl := ℕ) (Val := Elt F) spec4 c [cc4_scratch0, cc4_scratch1]) ∗ (∃ r, prngReg c r))

theorem PhiSR4_succ (c : Dev nD) (n : ℕ) (hn : n < cfg4.N) :
    PhiSR4 V c (n + 1) hn = iprop(iprop(iprop(owns (c : Thread nD τ) scMR4_0 fullShare ((outsAtR4 V c n hn).2.1) ∗ owns (c : Thread nD τ) scMR4_1 fullShare ((outsAtR4 V c n hn).2.2))
          ∗ Pipeline.scopedRestBut (Ix := Unit) (Name := ℕ) (U := UR sig nD τ) (Lvl := ℕ) (Val := Elt F) spec4 c [cc4_scratch0, cc4_scratch1]) ∗ (∃ r, prngReg c r)) := rfl

theorem PhiSR4_pos (c : Dev nD) (n : ℕ) (h : n ≤ cfg4.N) (hz : n ≠ 0) :
    PhiSR4 V c n h = iprop(iprop(iprop(owns (c : Thread nD τ) scMR4_0 fullShare ((outsAtR4 V c (n - 1) (by omega)).2.1) ∗ owns (c : Thread nD τ) scMR4_1 fullShare ((outsAtR4 V c (n - 1) (by omega)).2.2))
          ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

def datR4 (c : Dev nD) : Dat τ (Elt F) Unit ℕ (UR sig nD τ) ℕ cfg4 c where
  A w := V c (Pipeline.arrRef spec4 w)
  after w t := match w with
    | ⟨0, _⟩ => iblkR4 V c 0 t
    | ⟨1, _⟩ => iblkR4 V c 1 t
    | ⟨2, _⟩ => iblkR4 V c 2 t
    | ⟨3, _⟩ => iblkR4 V c 3 t
    | ⟨4, _⟩ => iblkR4 V c 4 t
    | ⟨5, _⟩ => iblkR4 V c 5 t
    | ⟨6, _⟩ => iblkR4 V c 6 t
    | ⟨7, _⟩ => (outsAtR4 V c t.val t.isLt).1
  Φ t := PhiSR4 V c t.val (Nat.le_of_lt_succ t.isLt)
  q _ := fullShare
  owed _ := 0

theorem A_eqR4 (c : Dev nD) (w : Fin cfg4.W) : (datR4 V c).A w = V c (Pipeline.arrRef spec4 w) := by
  dsimp only [datR4]

theorem PhiSR4_castSucc (c : Dev nD) (t : Fin cfg4.N) :
    (datR4 V c).Φ t.castSucc = PhiSR4 V c t.val (Nat.le_of_lt t.isLt) := by
  dsimp only [datR4]; simp only [Fin.coe_castSucc]

theorem afterR4_0 (c : Dev nD) (t : Fin cfg4.N) : (datR4 V c).after 0 t = iblkR4 V c 0 t := by dsimp only [datR4]
theorem afterR4_1 (c : Dev nD) (t : Fin cfg4.N) : (datR4 V c).after 1 t = iblkR4 V c 1 t := by dsimp only [datR4]
theorem afterR4_2 (c : Dev nD) (t : Fin cfg4.N) : (datR4 V c).after 2 t = iblkR4 V c 2 t := by dsimp only [datR4]
theorem afterR4_3 (c : Dev nD) (t : Fin cfg4.N) : (datR4 V c).after 3 t = iblkR4 V c 3 t := by dsimp only [datR4]
theorem afterR4_4 (c : Dev nD) (t : Fin cfg4.N) : (datR4 V c).after 4 t = iblkR4 V c 4 t := by dsimp only [datR4]
theorem afterR4_5 (c : Dev nD) (t : Fin cfg4.N) : (datR4 V c).after 5 t = iblkR4 V c 5 t := by dsimp only [datR4]
theorem afterR4_6 (c : Dev nD) (t : Fin cfg4.N) : (datR4 V c).after 6 t = iblkR4 V c 6 t := by dsimp only [datR4]
theorem afterR4_7 (c : Dev nD) (t : Fin cfg4.N) : (datR4 V c).after 7 t = (outsAtR4 V c t.val t.isLt).1 := by dsimp only [datR4]

theorem beforeR4_0 (c : Dev nD) (t : Fin cfg4.N) (d) : (datR4 V c).before 0 t d = iblkR4 V c 0 t :=
  beforeR4_0_of V (datR4 V c) (A_eqR4 V c 0) (afterR4_0 V c) t d
theorem beforeR4_1 (c : Dev nD) (t : Fin cfg4.N) (d) : (datR4 V c).before 1 t d = iblkR4 V c 1 t :=
  beforeR4_1_of V (datR4 V c) (A_eqR4 V c 1) (afterR4_1 V c) t d
theorem beforeR4_2 (c : Dev nD) (t : Fin cfg4.N) (d) : (datR4 V c).before 2 t d = iblkR4 V c 2 t :=
  beforeR4_2_of V (datR4 V c) (A_eqR4 V c 2) (afterR4_2 V c) t d
theorem beforeR4_3 (c : Dev nD) (t : Fin cfg4.N) (d) : (datR4 V c).before 3 t d = iblkR4 V c 3 t :=
  beforeR4_3_of V (datR4 V c) (A_eqR4 V c 3) (afterR4_3 V c) t d
theorem beforeR4_4 (c : Dev nD) (t : Fin cfg4.N) (d) : (datR4 V c).before 4 t d = iblkR4 V c 4 t :=
  beforeR4_4_of V (datR4 V c) (A_eqR4 V c 4) (afterR4_4 V c) t d
theorem beforeR4_5 (c : Dev nD) (t : Fin cfg4.N) (d) : (datR4 V c).before 5 t d = iblkR4 V c 5 t :=
  beforeR4_5_of V (datR4 V c) (A_eqR4 V c 5) (afterR4_5 V c) t d
theorem beforeR4_6 (c : Dev nD) (t : Fin cfg4.N) (d) : (datR4 V c).before 6 t d = iblkR4 V c 6 t :=
  beforeR4_6_of V (datR4 V c) (A_eqR4 V c 6) (afterR4_6 V c) t d

def bodyPreR4 (c : Dev nD) (t : Fin cfg4.N) : sProp 𝕄 :=
  iprop((datR4 V c).Φ t.castSucc ∗ (datR4 V c).owesAt () t.castSucc
    ∗ (∃ d, owns (c : Thread nD τ) (msR4_0 t) fullShare ((datR4 V c).before 0 t d))
    ∗ (∃ d, owns (c : Thread nD τ) (msR4_1 t) fullShare ((datR4 V c).before 1 t d))
    ∗ (∃ d, owns (c : Thread nD τ) (msR4_2 t) fullShare ((datR4 V c).before 2 t d))
    ∗ (∃ d, owns (c : Thread nD τ) (msR4_3 t) fullShare ((datR4 V c).before 3 t d))
    ∗ (∃ d, owns (c : Thread nD τ) (msR4_4 t) fullShare ((datR4 V c).before 4 t d))
    ∗ (∃ d, owns (c : Thread nD τ) (msR4_5 t) fullShare ((datR4 V c).before 5 t d))
    ∗ (∃ d, owns (c : Thread nD τ) (msR4_6 t) fullShare ((datR4 V c).before 6 t d))
    ∗ (∃ d, owns (c : Thread nD τ) (msR4_7 t) fullShare ((datR4 V c).before 7 t d)))

def bodyPostR4 (c : Dev nD) (t : Fin cfg4.N) : sProp 𝕄 :=
  iprop((datR4 V c).Φ t.succ ∗ (datR4 V c).owesAt () t.succ
    ∗ owns (c : Thread nD τ) (msR4_0 t) fullShare ((datR4 V c).after 0 t)
    ∗ owns (c : Thread nD τ) (msR4_1 t) fullShare ((datR4 V c).after 1 t)
    ∗ owns (c : Thread nD τ) (msR4_2 t) fullShare ((datR4 V c).after 2 t)
    ∗ owns (c : Thread nD τ) (msR4_3 t) fullShare ((datR4 V c).after 3 t)
    ∗ owns (c : Thread nD τ) (msR4_4 t) fullShare ((datR4 V c).after 4 t)
    ∗ owns (c : Thread nD τ) (msR4_5 t) fullShare ((datR4 V c).after 5 t)
    ∗ owns (c : Thread nD τ) (msR4_6 t) fullShare ((datR4 V c).after 6 t)
    ∗ owns (c : Thread nD τ) (msR4_7 t) fullShare ((datR4 V c).after 7 t))

/-- Before any point the invariant gives both scratch buffers at some contents: their named contents are forgotten. -/
theorem PhiSR4_open (c : Dev nD) (n : ℕ) (h : n ≤ cfg4.N) :
    PhiSR4 V c n h ⊢ iprop(iprop(iprop((∃ d, owns (c : Thread nD τ) scMR4_0 fullShare d) ∗ (∃ d, owns (c : Thread nD τ) scMR4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact BIBase.Entails.of_eq (PhiAR4_eq c)
  | succ n =>
    rw [PhiSR4_succ]
    iintro ⟨⟨⟨HS0, HS1⟩, HR⟩, Hg⟩
    isplitl [HS0 HS1 HR]
    · isplitl [HS0 HS1]
      · isplitl [HS0]
        · iexists _; iexact HS0
        iexists _; iexact HS1
      iexact HR
    iexact Hg

set_option maxHeartbeats 4800000 in
/-- The body at any point: a batch's first tile takes both scratch buffers at anything and leaves the batch's projections in them; a later tile takes them at what the point before left and hands them back. -/
theorem sound_bodyR4 (c : Dev nD) (t : Fin cfg4.N) :
    bodyPreR4 V c t ⊢ wp frame (wpE (defs₀ (F := F)) Variants.none c none) Set.univ (bodyAt4 t) (fun _ => bodyPostR4 V c t) := by
  unfold bodyPreR4 bodyPostR4
  rw [bodyAtR4_eq]
  simp only [beforeR4_0, beforeR4_1, beforeR4_2, beforeR4_3, beforeR4_4, beforeR4_5, beforeR4_6]
  rw [show (datR4 V c).owesAt () t.succ = (datR4 V c).owesAt () t.castSucc from rfl]
  rw [show (datR4 V c).Φ t.succ = PhiSR4 V c (t.val + 1) t.isLt from rfl, PhiSR4_succ]
  rw [afterR4_0, afterR4_1, afterR4_2, afterR4_3, afterR4_4, afterR4_5, afterR4_6, afterR4_7]
  rw [PhiSR4_castSucc V c t]
  by_cases h0 : t.val % 4 = 0
  · rw [outsAtR4_A V c t h0]
    refine BIBase.Entails.trans (sep_mono_left (PhiSR4_open V c _ _)) ?_
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_first c (grid4.coords t) ((hcondR4 t).mpr h0) (opsR4 t) (insR4 V c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [outsAtR4_B V c t h0]
    rw [PhiSR4_pos V c _ _ (fun h => h0 (by rw [h]))]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_later c (grid4.coords t) (fun h => h0 ((hcondR4 t).mp h)) (opsR4 t) (insR4 V c t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_obligationR4 (c : Dev nD) : BodyObligation (datR4 (F := F) V c) (defs₀ (F := F)) Variants.none () Set.univ := fun t => by
  rw [bigSep_W4, bigSep_W4]
  exact sound_bodyR4 V c t

/-- What the launch hands the region is the invariant before the first point. -/
theorem hinR4 (c : Dev nD) : Pipeline.ΦA spec4 c ⊢ (datR4 V c).Φ 0 := Entails.refl _

/-- After the last point the invariant gives the class's back. -/
theorem houtR4 (c : Dev nD) : (datR4 V c).Φ (Fin.last cfg4.N) ⊢ Pipeline.ΦA spec4 c := by
  rw [show (datR4 V c).Φ (Fin.last cfg4.N) = PhiSR4 V c (Fin.last cfg4.N).val (Nat.le_of_lt_succ (Fin.last cfg4.N).isLt) from rfl]
  rw [PhiAR4_eq]
  exact PhiSR4_open V c _ _

end

end Cert.Kernel.Gen

end
-- ==== Proof.BRuns5.lean ====
import proofs.«427532_j66606352826848_3_alg».proof.Proof.Gen.Kernel.Launch
import proofs.«427532_j66606352826848_3_alg».proof.Proof.Gen.Kernel.Skeleton
import proofs.«427532_j66606352826848_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condR5 (i : grid5.Coords) : Prop := (Scalar.cmpi .ne (Scalar.extui (Scalar.cmpi .eq (BitVec.ofNat 32 (i 1).val) 0#32)) 0#32) = 1#1

theorem hcondR5 : ∀ t : Fin cfg5.N, condR5 (grid5.coords t) ↔ t.val % 4 = 0 :=
  (by decide +kernel : ∀ t : Fin grid5.N, condR5 (grid5.coords t) ↔ t.val % 4 = 0)

abbrev scMR5_0 : Memref sig .tc .vmem S1024x1024 .bf16 := Memref.whole cc5_scratch0
abbrev scMR5_1 : Memref sig .tc .vmem S1024x1024 .bf16 := Memref.whole cc5_scratch1

abbrev msR5_0 (t : Fin cfg5.N) : Memref sig .tc .vmem S1x256x1024 .bf16 := win5_0.stage (cfg5.slots t 0)
abbrev hsR5_0 (t : Fin cfg5.N) : (msR5_0 t).IsWhole := hstage5_0 ((cfg5.slots t 0).cast nbuf5_0)
abbrev msR5_1 (t : Fin cfg5.N) : Memref sig .tc .vmem S1x1024x1024 .bf16 := win5_1.stage (cfg5.slots t 1)
abbrev hsR5_1 (t : Fin cfg5.N) : (msR5_1 t).IsWhole := hstage5_1 ((cfg5.slots t 1).cast nbuf5_1)
abbrev msR5_2 (t : Fin cfg5.N) : Memref sig .tc .vmem S1024x1024 .bf16 := win5_2.stage (cfg5.slots t 2)
abbrev hsR5_2 (t : Fin cfg5.N) : (msR5_2 t).IsWhole := hstage5_2 ((cfg5.slots t 2).cast nbuf5_2)
abbrev msR5_3 (t : Fin cfg5.N) : Memref sig .tc .vmem S1024x1024 .bf16 := win5_3.stage (cfg5.slots t 3)
abbrev hsR5_3 (t : Fin cfg5.N) : (msR5_3 t).IsWhole := hstage5_3 ((cfg5.slots t 3).cast nbuf5_3)
abbrev msR5_4 (t : Fin cfg5.N) : Memref sig .tc .vmem S1024x1024 .bf16 := win5_4.stage (cfg5.slots t 4)
abbrev hsR5_4 (t : Fin cfg5.N) : (msR5_4 t).IsWhole := hstage5_4 ((cfg5.slots t 4).cast nbuf5_4)
abbrev msR5_5 (t : Fin cfg5.N) : Memref sig .tc .vmem S1024x1024 .bf16 := win5_5.stage (cfg5.slots t 5)
abbrev hsR5_5 (t : Fin cfg5.N) : (msR5_5 t).IsWhole := hstage5_5 ((cfg5.slots t 5).cast nbuf5_5)
abbrev msR5_6 (t : Fin cfg5.N) : Memref sig .tc .vmem S1x1024 .f32 := win5_6.stage (cfg5.slots t 6)
abbrev hsR5_6 (t : Fin cfg5.N) : (msR5_6 t).IsWhole := hstage5_6 ((cfg5.slots t 6).cast nbuf5_6)
abbrev msR5_7 (t : Fin cfg5.N) : Memref sig .tc .vmem S1x256x1024 .bf16 := win5_7.stage (cfg5.slots t 7)
abbrev hsR5_7 (t : Fin cfg5.N) : (msR5_7 t).IsWhole := hstage5_7 ((cfg5.slots t 7).cast nbuf5_7)

theorem PhiAR5_eq (c : Dev nD) :
    (Pipeline.ΦA spec5 c : sProp 𝕄)
      = iprop(iprop(iprop((∃ d, owns (c : Thread nD τ) scMR5_0 fullShare d) ∗ (∃ d, owns (c : Thread nD τ) scMR5_1 fullShare d))
          ∗ Pipeline.scopedRestBut (Ix := Unit) (Name := ℕ) (U := UR sig nD τ) (Lvl := ℕ) (Val := Elt F) spec5 c [cc5_scratch0, cc5_scratch1]) ∗ (∃ r, prngReg c r)) := by
  unfold Pipeline.ΦA; rw [scopedRest5_split]; simp only [scMR5_0, scMR5_1, owns_whole]; try rfl

end Cert.Kernel.Gen

end
-- ==== Proof.BDat5.lean ====
import proofs.«427532_j66606352826848_3_alg».proof.Proof.BAttn
import proofs.«427532_j66606352826848_3_alg».proof.Proof.BRuns5

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

def iblkR5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem beforeR5_0_of {c : Dev nD} (dat : Dat τ (Elt F) Unit ℕ (UR sig nD τ) ℕ cfg5 c) (hA : dat.A 0 = V c (Pipeline.arrRef spec5 0))
    (hafter : ∀ t, dat.after 0 t = iblkR5 V c 0 t) (t : Fin cfg5.N) (d) : dat.before 0 t d = iblkR5 V c 0 t :=
  (dat.before_in_eq_fetched 0 rfl (fun _ => rfl) (fun _ _ _ => rfl) (fun t => by rw [hafter]; unfold Dat.blockOf iblkR5; rw [hA]; try rfl) t d).trans
    (by unfold Dat.fetched Dat.blockOf iblkR5; rw [hA]; try rfl)
theorem beforeR5_1_of {c : Dev nD} (dat : Dat τ (Elt F) Unit ℕ (UR sig nD τ) ℕ cfg5 c) (hA : dat.A 1 = V c (Pipeline.arrRef spec5 1))
    (hafter : ∀ t, dat.after 1 t = iblkR5 V c 1 t) (t : Fin cfg5.N) (d) : dat.before 1 t d = iblkR5 V c 1 t :=
  (dat.before_in_eq_fetched 1 rfl (fun _ => rfl) (fun _ _ _ => rfl) (fun t => by rw [hafter]; unfold Dat.blockOf iblkR5; rw [hA]; try rfl) t d).trans
    (by unfold Dat.fetched Dat.blockOf iblkR5; rw [hA]; try rfl)
theorem beforeR5_2_of {c : Dev nD} (dat : Dat τ (Elt F) Unit ℕ (UR sig nD τ) ℕ cfg5 c) (hA : dat.A 2 = V c (Pipeline.arrRef spec5 2))
    (hafter : ∀ t, dat.after 2 t = iblkR5 V c 2 t) (t : Fin cfg5.N) (d) : dat.before 2 t d = iblkR5 V c 2 t :=
  (dat.before_in_eq_fetched 2 rfl (fun _ => rfl) (fun _ _ _ => rfl) (fun t => by rw [hafter]; unfold Dat.blockOf iblkR5; rw [hA]; try rfl) t d).trans
    (by unfold Dat.fetched Dat.blockOf iblkR5; rw [hA]; try rfl)
theorem beforeR5_3_of {c : Dev nD} (dat : Dat τ (Elt F) Unit ℕ (UR sig nD τ) ℕ cfg5 c) (hA : dat.A 3 = V c (Pipeline.arrRef spec5 3))
    (hafter : ∀ t, dat.after 3 t = iblkR5 V c 3 t) (t : Fin cfg5.N) (d) : dat.before 3 t d = iblkR5 V c 3 t :=
  (dat.before_in_eq_fetched 3 rfl (fun _ => rfl) (fun _ _ _ => rfl) (fun t => by rw [hafter]; unfold Dat.blockOf iblkR5; rw [hA]; try rfl) t d).trans
    (by unfold Dat.fetched Dat.blockOf iblkR5; rw [hA]; try rfl)
theorem beforeR5_4_of {c : Dev nD} (dat : Dat τ (Elt F) Unit ℕ (UR sig nD τ) ℕ cfg5 c) (hA : dat.A 4 = V c (Pipeline.arrRef spec5 4))
    (hafter : ∀ t, dat.after 4 t = iblkR5 V c 4 t) (t : Fin cfg5.N) (d) : dat.before 4 t d = iblkR5 V c 4 t :=
  (dat.before_in_eq_fetched 4 rfl (fun _ => rfl) (fun _ _ _ => rfl) (fun t => by rw [hafter]; unfold Dat.blockOf iblkR5; rw [hA]; try rfl) t d).trans
    (by unfold Dat.fetched Dat.blockOf iblkR5; rw [hA]; try rfl)
theorem beforeR5_5_of {c : Dev nD} (dat : Dat τ (Elt F) Unit ℕ (UR sig nD τ) ℕ cfg5 c) (hA : dat.A 5 = V c (Pipeline.arrRef spec5 5))
    (hafter : ∀ t, dat.after 5 t = iblkR5 V c 5 t) (t : Fin cfg5.N) (d) : dat.before 5 t d = iblkR5 V c 5 t :=
  (dat.before_in_eq_fetched 5 rfl (fun _ => rfl) (fun _ _ _ => rfl) (fun t => by rw [hafter]; unfold Dat.blockOf iblkR5; rw [hA]; try rfl) t d).trans
    (by unfold Dat.fetched Dat.blockOf iblkR5; rw [hA]; try rfl)
theorem beforeR5_6_of {c : Dev nD} (dat : Dat τ (Elt F) Unit ℕ (UR sig nD τ) ℕ cfg5 c) (hA : dat.A 6 = V c (Pipeline.arrRef spec5 6))
    (hafter : ∀ t, dat.after 6 t = iblkR5 V c 6 t) (t : Fin cfg5.N) (d) : dat.before 6 t d = iblkR5 V c 6 t :=
  (dat.before_in_eq_fetched 6 rfl (fun _ => rfl) (fun _ _ _ => rfl) (fun t => by rw [hafter]; unfold Dat.blockOf iblkR5; rw [hA]; try rfl) t d).trans
    (by unfold Dat.fetched Dat.blockOf iblkR5; rw [hA]; try rfl)

/-- The kernel's operands at point `t`: each window's current staging buffer, then the two scratch buffers. -/
abbrev opsR5 (t : Fin cfg5.N) : Ops :=
  ⟨msR5_0 t, hsR5_0 t, msR5_1 t, hsR5_1 t, msR5_2 t, hsR5_2 t, msR5_3 t, hsR5_3 t, msR5_4 t, hsR5_4 t, msR5_5 t, hsR5_5 t, msR5_6 t, hsR5_6 t, msR5_7 t, hsR5_7 t, scMR5_0, Memref.isWhole_whole _, scMR5_1, Memref.isWhole_whole _⟩

/-- The seven input blocks at point `t`. -/
abbrev insR5 (c : Dev nD) (t : Fin cfg5.N) : Ins F :=
  ⟨iblkR5 V c 0 t, iblkR5 V c 1 t, iblkR5 V c 2 t, iblkR5 V c 3 t, iblkR5 V c 4 t, iblkR5 V c 5 t, iblkR5 V c 6 t⟩

theorem bodyAtR5_eq (t : Fin cfg5.N) : bodyAt5 (F := F) t = (opsR5 t).body (grid5.coords t) := rfl

/-- After the body at position `n`: the output block, then the two scratch buffers. A batch's first tile (`n` a multiple of 4) computes all three from its input blocks; a later tile keeps what the point before left in the scratch buffers. -/
def outsAtR5 (c : Dev nD) : (n : ℕ) → n < cfg5.N → Vec F S1x256x1024 .bf16 × Vec F S1024x1024 .bf16 × Vec F S1024x1024 .bf16
  | 0, hn => (insR5 V c ⟨0, hn⟩).first
  | n + 1, hn =>
    if (n + 1) % 4 = 0 then (insR5 V c ⟨n + 1, hn⟩).first
    else (insR5 V c ⟨n + 1, hn⟩).later (outsAtR5 c n (Nat.lt_of_succ_lt hn)).2.1 (outsAtR5 c n (Nat.lt_of_succ_lt hn)).2.2

theorem outsAtR5_A (c : Dev nD) (t : Fin cfg5.N) (h0 : t.val % 4 = 0) : outsAtR5 V c t.val t.isLt = (insR5 V c t).first := by
  obtain ⟨n, hn⟩ := t
  cases n with
  | zero => exact rfl
  | succ n => exact (if_pos h0).trans rfl

theorem outsAtR5_B (c : Dev nD) (t : Fin cfg5.N) (h0 : ¬t.val % 4 = 0) :
    outsAtR5 V c t.val t.isLt = (insR5 V c t).later (outsAtR5 V c (t.val - 1) (Nat.lt_of_le_of_lt (Nat.sub_le _ _) t.isLt)).2.1
      (outsAtR5 V c (t.val - 1) (Nat.lt_of_le_of_lt (Nat.sub_le _ _) t.isLt)).2.2 := by
  obtain ⟨n, hn⟩ := t
  cases n with
  | zero => exact absurd (Nat.zero_mod _) h0
  | succ n => exact (if_neg h0).trans rfl

def PhiSR5 (c : Dev nD) : (n : ℕ) → n ≤ cfg5.N → sProp 𝕄
  | 0, _ => Pipeline.ΦA spec5 c
  | n + 1, hn => iprop(iprop(iprop(owns (c : Thread nD τ) scMR5_0 fullShare ((outsAtR5 V c n hn).2.1) ∗ owns (c : Thread nD τ) scMR5_1 fullShare ((outsAtR5 V c n hn).2.2))
          ∗ Pipeline.scopedRestBut (Ix := Unit) (Name := ℕ) (U := UR sig nD τ) (Lvl := ℕ) (Val := Elt F) spec5 c [cc5_scratch0, cc5_scratch1]) ∗ (∃ r, prngReg c r))

theorem PhiSR5_succ (c : Dev nD) (n : ℕ) (hn : n < cfg5.N) :
    PhiSR5 V c (n + 1) hn = iprop(iprop(iprop(owns (c : Thread nD τ) scMR5_0 fullShare ((outsAtR5 V c n hn).2.1) ∗ owns (c : Thread nD τ) scMR5_1 fullShare ((outsAtR5 V c n hn).2.2))
          ∗ Pipeline.scopedRestBut (Ix := Unit) (Name := ℕ) (U := UR sig nD τ) (Lvl := ℕ) (Val := Elt F) spec5 c [cc5_scratch0, cc5_scratch1]) ∗ (∃ r, prngReg c r)) := rfl

theorem PhiSR5_pos (c : Dev nD) (n : ℕ) (h : n ≤ cfg5.N) (hz : n ≠ 0) :
    PhiSR5 V c n h = iprop(iprop(iprop(owns (c : Thread nD τ) scMR5_0 fullShare ((outsAtR5 V c (n - 1) (by omega)).2.1) ∗ owns (c : Thread nD τ) scMR5_1 fullShare ((outsAtR5 V c (n - 1) (by omega)).2.2))
          ∗ Pipeline.scopedRestBut (Ix := Unit) (Name := ℕ) (U := UR sig nD τ) (Lvl := ℕ) (Val := Elt F) spec5 c [cc5_scratch0, cc5_scratch1]) ∗ (∃ r, prngReg c r)) := by
  cases n with
  | zero => exact absurd rfl hz
  | succ n => rfl

def datR5 (c : Dev nD) : Dat τ (Elt F) Unit ℕ (UR sig nD τ) ℕ cfg5 c where
  A w := V c (Pipeline.arrRef spec5 w)
  after w t := match w with
    | ⟨0, _⟩ => iblkR5 V c 0 t
    | ⟨1, _⟩ => iblkR5 V c 1 t
    | ⟨2, _⟩ => iblkR5 V c 2 t
    | ⟨3, _⟩ => iblkR5 V c 3 t
    | ⟨4, _⟩ => iblkR5 V c 4 t
    | ⟨5, _⟩ => iblkR5 V c 5 t
    | ⟨6, _⟩ => iblkR5 V c 6 t
    | ⟨7, _⟩ => (outsAtR5 V c t.val t.isLt).1
  Φ t := PhiSR5 V c t.val (Nat.le_of_lt_succ t.isLt)
  q _ := fullShare
  owed _ := 0

theorem A_eqR5 (c : Dev nD) (w : Fin cfg5.W) : (datR5 V c).A w = V c (Pipeline.arrRef spec5 w) := by
  dsimp only [datR5]

theorem PhiSR5_castSucc (c : Dev nD) (t : Fin cfg5.N) :
    (datR5 V c).Φ t.castSucc = PhiSR5 V c t.val (Nat.le_of_lt t.isLt) := by
  dsimp only [datR5]; simp only [Fin.coe_castSucc]

theorem afterR5_0 (c : Dev nD) (t : Fin cfg5.N) : (datR5 V c).after 0 t = iblkR5 V c 0 t := by dsimp only [datR5]
theorem afterR5_1 (c : Dev nD) (t : Fin cfg5.N) : (datR5 V c).after 1 t = iblkR5 V c 1 t := by dsimp only [datR5]
theorem afterR5_2 (c : Dev nD) (t : Fin cfg5.N) : (datR5 V c).after 2 t = iblkR5 V c 2 t := by dsimp only [datR5]
theorem afterR5_3 (c : Dev nD) (t : Fin cfg5.N) : (datR5 V c).after 3 t = iblkR5 V c 3 t := by dsimp only [datR5]
theorem afterR5_4 (c : Dev nD) (t : Fin cfg5.N) : (datR5 V c).after 4 t = iblkR5 V c 4 t := by dsimp only [datR5]
theorem afterR5_5 (c : Dev nD) (t : Fin cfg5.N) : (datR5 V c).after 5 t = iblkR5 V c 5 t := by dsimp only [datR5]
theorem afterR5_6 (c : Dev nD) (t : Fin cfg5.N) : (datR5 V c).after 6 t = iblkR5 V c 6 t := by dsimp only [datR5]
theorem afterR5_7 (c : Dev nD) (t : Fin cfg5.N) : (datR5 V c).after 7 t = (outsAtR5 V c t.val t.isLt).1 := by dsimp only [datR5]

theorem beforeR5_0 (c : Dev nD) (t : Fin cfg5.N) (d) : (datR5 V c).before 0 t d = iblkR5 V c 0 t :=
  beforeR5_0_of V (datR5 V c) (A_eqR5 V c 0) (afterR5_0 V c) t d
theorem beforeR5_1 (c : Dev nD) (t : Fin cfg5.N) (d) : (datR5 V c).before 1 t d = iblkR5 V c 1 t :=
  beforeR5_1_of V (datR5 V c) (A_eqR5 V c 1) (afterR5_1 V c) t d
theorem beforeR5_2 (c : Dev nD) (t : Fin cfg5.N) (d) : (datR5 V c).before 2 t d = iblkR5 V c 2 t :=
  beforeR5_2_of V (datR5 V c) (A_eqR5 V c 2) (afterR5_2 V c) t d
theorem beforeR5_3 (c : Dev nD) (t : Fin cfg5.N) (d) : (datR5 V c).before 3 t d = iblkR5 V c 3 t :=
  beforeR5_3_of V (datR5 V c) (A_eqR5 V c 3) (afterR5_3 V c) t d
theorem beforeR5_4 (c : Dev nD) (t : Fin cfg5.N) (d) : (datR5 V c).before 4 t d = iblkR5 V c 4 t :=
  beforeR5_4_of V (datR5 V c) (A_eqR5 V c 4) (afterR5_4 V c) t d
theorem beforeR5_5 (c : Dev nD) (t : Fin cfg5.N) (d) : (datR5 V c).before 5 t d = iblkR5 V c 5 t :=
  beforeR5_5_of V (datR5 V c) (A_eqR5 V c 5) (afterR5_5 V c) t d
theorem beforeR5_6 (c : Dev nD) (t : Fin cfg5.N) (d) : (datR5 V c).before 6 t d = iblkR5 V c 6 t :=
  beforeR5_6_of V (datR5 V c) (A_eqR5 V c 6) (afterR5_6 V c) t d

def bodyPreR5 (c : Dev nD) (t : Fin cfg5.N) : sProp 𝕄 :=
  iprop((datR5 V c).Φ t.castSucc ∗ (datR5 V c).owesAt () t.castSucc
    ∗ (∃ d, owns (c : Thread nD τ) (msR5_0 t) fullShare ((datR5 V c).before 0 t d))
    ∗ (∃ d, owns (c : Thread nD τ) (msR5_1 t) fullShare ((datR5 V c).before 1 t d))
    ∗ (∃ d, owns (c : Thread nD τ) (msR5_2 t) fullShare ((datR5 V c).before 2 t d))
    ∗ (∃ d, owns (c : Thread nD τ) (msR5_3 t) fullShare ((datR5 V c).before 3 t d))
    ∗ (∃ d, owns (c : Thread nD τ) (msR5_4 t) fullShare ((datR5 V c).before 4 t d))
    ∗ (∃ d, owns (c : Thread nD τ) (msR5_5 t) fullShare ((datR5 V c).before 5 t d))
    ∗ (∃ d, owns (c : Thread nD τ) (msR5_6 t) fullShare ((datR5 V c).before 6 t d))
    ∗ (∃ d, owns (c : Thread nD τ) (msR5_7 t) fullShare ((datR5 V c).before 7 t d)))

def bodyPostR5 (c : Dev nD) (t : Fin cfg5.N) : sProp 𝕄 :=
  iprop((datR5 V c).Φ t.succ ∗ (datR5 V c).owesAt () t.succ
    ∗ owns (c : Thread nD τ) (msR5_0 t) fullShare ((datR5 V c).after 0 t)
    ∗ owns (c : Thread nD τ) (msR5_1 t) fullShare ((datR5 V c).after 1 t)
    ∗ owns (c : Thread nD τ) (msR5_2 t) fullShare ((datR5 V c).after 2 t)
    ∗ owns (c : Thread nD τ) (msR5_3 t) fullShare ((datR5 V c).after 3 t)
    ∗ owns (c : Thread nD τ) (msR5_4 t) fullShare ((datR5 V c).after 4 t)
    ∗ owns (c : Thread nD τ) (msR5_5 t) fullShare ((datR5 V c).after 5 t)
    ∗ owns (c : Thread nD τ) (msR5_6 t) fullShare ((datR5 V c).after 6 t)
    ∗ owns (c : Thread nD τ) (msR5_7 t) fullShare ((datR5 V c).after 7 t))

/-- Before any point the invariant gives both scratch buffers at some contents: their named contents are forgotten. -/
theorem PhiSR5_open (c : Dev nD) (n : ℕ) (h : n ≤ cfg5.N) :
    PhiSR5 V c n h ⊢ iprop(iprop(iprop((∃ d, owns (c : Thread nD τ) scMR5_0 fullShare d) ∗ (∃ d, owns (c : Thread nD τ) scMR5_1 fullShare d))
          ∗ Pipeline.scopedRestBut (Ix := Unit) (Name := ℕ) (U := UR sig nD τ) (Lvl := ℕ) (Val := Elt F) spec5 c [cc5_scratch0, cc5_scratch1]) ∗ (∃ r, prngReg c r)) := by
  cases n with
  | zero => exact BIBase.Entails.of_eq (PhiAR5_eq c)
  | succ n =>
    rw [PhiSR5_succ]
    iintro ⟨⟨⟨HS0, HS1⟩, HR⟩, Hg⟩
    isplitl [HS0 HS1 HR]
    · isplitl [HS0 HS1]
      · isplitl [HS0]
        · iexists _; iexact HS0
        iexists _; iexact HS1
      iexact HR
    iexact Hg

set_option maxHeartbeats 4800000 in
/-- The body at any point: a batch's first tile takes both scratch buffers at anything and leaves the batch's projections in them; a later tile takes them at what the point before left and hands them back. -/
theorem sound_bodyR5 (c : Dev nD) (t : Fin cfg5.N) :
    bodyPreR5 V c t ⊢ wp frame (wpE (defs₀ (F := F)) Variants.none c none) Set.univ (bodyAt5 t) (fun _ => bodyPostR5 V c t) := by
  unfold bodyPreR5 bodyPostR5
  rw [bodyAtR5_eq]
  simp only [beforeR5_0, beforeR5_1, beforeR5_2, beforeR5_3, beforeR5_4, beforeR5_5, beforeR5_6]
  rw [show (datR5 V c).owesAt () t.succ = (datR5 V c).owesAt () t.castSucc from rfl]
  rw [show (datR5 V c).Φ t.succ = PhiSR5 V c (t.val + 1) t.isLt from rfl, PhiSR5_succ]
  rw [afterR5_0, afterR5_1, afterR5_2, afterR5_3, afterR5_4, afterR5_5, afterR5_6, afterR5_7]
  rw [PhiSR5_castSucc V c t]
  by_cases h0 : t.val % 4 = 0
  · rw [outsAtR5_A V c t h0]
    refine BIBase.Entails.trans (sep_mono_left (PhiSR5_open V c _ _)) ?_
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_first c (grid5.coords t) ((hcondR5 t).mpr h0) (opsR5 t) (insR5 V c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [outsAtR5_B V c t h0]
    rw [PhiSR5_pos V c _ _ (fun h => h0 (by rw [h]))]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_later c (grid5.coords t) (fun h => h0 ((hcondR5 t).mp h)) (opsR5 t) (insR5 V c t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_obligationR5 (c : Dev nD) : BodyObligation (datR5 (F := F) V c) (defs₀ (F := F)) Variants.none () Set.univ := fun t => by
  rw [bigSep_W5, bigSep_W5]
  exact sound_bodyR5 V c t

/-- What the launch hands the region is the invariant before the first point. -/
theorem hinR5 (c : Dev nD) : Pipeline.ΦA spec5 c ⊢ (datR5 V c).Φ 0 := Entails.refl _

/-- After the last point the invariant gives the class's back. -/
theorem houtR5 (c : Dev nD) : (datR5 V c).Φ (Fin.last cfg5.N) ⊢ Pipeline.ΦA spec5 c := by
  rw [show (datR5 V c).Φ (Fin.last cfg5.N) = PhiSR5 V c (Fin.last cfg5.N).val (Nat.le_of_lt_succ (Fin.last cfg5.N).isLt) from rfl]
  rw [PhiAR5_eq]
  exact PhiSR5_open V c _ _

end

end Cert.Kernel.Gen

end
-- ==== Proof.BFin6.lean ====
import proofs.«427532_j66606352826848_3_alg».proof.Proof.Gen.Kernel.Launch
import proofs.«427532_j66606352826848_3_alg».proof.Proof.Gen.Kernel.Skeleton
import proofs.«427532_j66606352826848_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

abbrev r6_x : Rect S1024x1024 := Rect.unit (s := S1024x1024) ![0, 0] S1024x1024.size inb_S1024x1024_S1024x1024_0_0
abbrev r6_w : Rect S1280x1024 := Rect.unit (s := S1280x1024) ![0, 0] S1280x1024.size inb_S1280x1024_S1280x1024_0_0
abbrev r6_b : Rect S1x1280 := Rect.unit (s := S1x1280) ![0, 0] S1x1280.size inb_S1x1280_S1x1280_0_0
abbrev r6_0 : Rect S1024x1280 := Rect.unit (s := S1024x1280) ![0, 0] S1024x1280.size inb_S1024x1280_S1024x1280_0_0

def out6_3 (x0 : Vec F S1024x1024 .bf16) (x1 : Vec F S1280x1024 .bf16) (x2 : Vec F S1x1280 .f32) : Vec F S1024x1280 .f32 :=
  View.canon [⟨r6_0, k6_pay1 (View.ld x0 r6_x) (View.ld x1 r6_w) (View.ld x2 r6_b)⟩]

theorem cover6_3 (p0 : Vec F S1024x1280 .f32) (y : S1024x1280.Idx) :
    ∃ pc ∈ ([⟨r6_0, p0⟩] : List (View.Piece (Elt F) S1024x1280 .f32)), y ∈ pc.1.set :=
  View.cover_of_tiled [⟨r6_0, p0⟩] S1024x1280.size (by rfl) y

set_option maxHeartbeats 1000000 in

theorem sound_kernel6 (c : Dev nD) (E : Set ℕ) (i : grid6.Coords)
    (arg2 : Memref sig .tc .vmem S1024x1024 .bf16) (harg2 : arg2.IsWhole) (arg3 : Memref sig .tc .vmem S1280x1024 .bf16) (harg3 : arg3.IsWhole)
    (arg4 : Memref sig .tc .vmem S1x1280 .f32) (harg4 : arg4.IsWhole) (arg5 : Memref sig .tc .vmem S1024x1280 .f32) (harg5 : arg5.IsWhole)
    (x0 : Vec F S1024x1024 .bf16) (x1 : Vec F S1280x1024 .bf16) (x2 : Vec F S1x1280 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out6_3 x0 x1 x2)) -∗ K ⟨⟩))
      ⊢ wp frame (wpE (defs₀ (F := F)) Variants.none c none) E (cc6__final_linear_kernel i arg2 harg2 arg3 harg3 arg4 harg4 arg5 harg5) K := by
  simp only [cc6__final_linear_kernel_eq_skeleton]; unfold cc6__final_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation6 (c : Dev nD) : BodyObligation (dat6 (F := F) V c) (defs₀ (F := F)) Variants.none () Set.univ := fun t => by
  rw [bigSep_W6, bigSep_W6]
  exact sound_body6 V c t

end Cert.Kernel.Gen

end
-- ==== Proof.BChain.lean ====
import proofs.«427532_j66606352826848_3_alg».proof.Proof.Gen.Kernel.Regions
import proofs.«427532_j66606352826848_3_alg».proof.Proof.BDat0
import proofs.«427532_j66606352826848_3_alg».proof.Proof.BDat1
import proofs.«427532_j66606352826848_3_alg».proof.Proof.BDat2
import proofs.«427532_j66606352826848_3_alg».proof.Proof.BDat3
import proofs.«427532_j66606352826848_3_alg».proof.Proof.BDat4
import proofs.«427532_j66606352826848_3_alg».proof.Proof.BDat5
import proofs.«427532_j66606352826848_3_alg».proof.Proof.BFin6
import Idealize.ShloMosaic.Lib.Pipeline.Kit
import Idealize.ShloMosaic.Lib.Pipeline.RegionsLoop

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

theorem update_update_self {α : Type} [DecidableEq α] {β : α → Type} (f : (a : α) → β a) (a : α) (x : β a) :
    Function.update f a (Function.update f a x a) = Function.update f a x := by
  rw [Function.update_self]

abbrev Y2 (c : Dev nD) : Valuation τ sig (Elt F) := V2 m c

def Y3 (c : Dev nD) : Valuation τ sig (Elt F) :=
  Function.update (Y2 m c) main_v25 ((datR0 (atTc (Y2 m)) c).arrAt 7 cfg0.N)

def Y4 (c : Dev nD) : Valuation τ sig (Elt F) := StableHlo.after hostOps1 (Y3 m c)

def Y5 (c : Dev nD) : Valuation τ sig (Elt F) :=
  Function.update (Y4 m c) main_v36 ((datR1 (atTc (Y4 m)) c).arrAt 7 cfg1.N)

def Y6 (c : Dev nD) : Valuation τ sig (Elt F) := StableHlo.after hostOps2 (Y5 m c)

def Y7 (c : Dev nD) : Valuation τ sig (Elt F) :=
  Function.update (Y6 m c) main_v47 ((datR2 (atTc (Y6 m)) c).arrAt 7 cfg2.N)

def Y8 (c : Dev nD) : Valuation τ sig (Elt F) := StableHlo.after hostOps3 (Y7 m c)

def Y9 (c : Dev nD) : Valuation τ sig (Elt F) :=
  Function.update (Y8 m c) main_v58 ((datR3 (atTc (Y8 m)) c).arrAt 7 cfg3.N)

def Y10 (c : Dev nD) : Valuation τ sig (Elt F) := StableHlo.after hostOps4 (Y9 m c)

def Y11 (c : Dev nD) : Valuation τ sig (Elt F) :=
  Function.update (Y10 m c) main_v69 ((datR4 (atTc (Y10 m)) c).arrAt 7 cfg4.N)

def Y12 (c : Dev nD) : Valuation τ sig (Elt F) := StableHlo.after hostOps5 (Y11 m c)

def Y13 (c : Dev nD) : Valuation τ sig (Elt F) :=
  Function.update (Y12 m c) main_v80 ((datR5 (atTc (Y12 m)) c).arrAt 7 cfg5.N)

def Y14 (c : Dev nD) : Valuation τ sig (Elt F) := StableHlo.after hostOps6 (Y13 m c)

def Y15 (c : Dev nD) : Valuation τ sig (Elt F) :=
  Function.update (Y14 m c) main_v84 ((dat6 (atTc (Y14 m)) c).arrAt 3 cfg6.N)

def Y16 (c : Dev nD) : Valuation τ sig (Elt F) := StableHlo.after hostOps7 (Y15 m c)

def outsY : Outs (F := F) := fun J r c =>
  match J with
  | 3 => Y3 m c r
  | 5 => Y5 m c r
  | 7 => Y7 m c r
  | 9 => Y9 m c r
  | 11 => Y11 m c r
  | 13 => Y13 m c r
  | 15 => Y15 m c r
  | _ => Y2 m c r

theorem V3_Y (c : Dev nD) : V3 m (outsY m) c = Y3 m c := by
  show Function.update (V2 m c) main_v25 (Y3 m c main_v25) = Y3 m c
  exact update_update_self _ _ _
theorem V4_Y (c : Dev nD) : V4 m (outsY m) c = Y4 m c := by
  show StableHlo.after hostOps1 (V3 m (outsY m) c) = Y4 m c
  rw [V3_Y m c]; rfl
theorem V5_Y (c : Dev nD) : V5 m (outsY m) c = Y5 m c := by
  show Function.update (V4 m (outsY m) c) main_v36 (Y5 m c main_v36) = Y5 m c
  rw [V4_Y m c]; exact update_update_self _ _ _
theorem V6_Y (c : Dev nD) : V6 m (outsY m) c = Y6 m c := by
  show StableHlo.after hostOps2 (V5 m (outsY m) c) = Y6 m c
  rw [V5_Y m c]; rfl
theorem V7_Y (c : Dev nD) : V7 m (outsY m) c = Y7 m c := by
  show Function.update (V6 m (outsY m) c) main_v47 (Y7 m c main_v47) = Y7 m c
  rw [V6_Y m c]; exact update_update_self _ _ _
theorem V8_Y (c : Dev nD) : V8 m (outsY m) c = Y8 m c := by
  show StableHlo.after hostOps3 (V7 m (outsY m) c) = Y8 m c
  rw [V7_Y m c]; rfl
theorem V9_Y (c : Dev nD) : V9 m (outsY m) c = Y9 m c := by
  show Function.update (V8 m (outsY m) c) main_v58 (Y9 m c main_v58) = Y9 m c
  rw [V8_Y m c]; exact update_update_self _ _ _
theorem V10_Y (c : Dev nD) : V10 m (outsY m) c = Y10 m c := by
  show StableHlo.after hostOps4 (V9 m (outsY m) c) = Y10 m c
  rw [V9_Y m c]; rfl
theorem V11_Y (c : Dev nD) : V11 m (outsY m) c = Y11 m c := by
  show Function.update (V10 m (outsY m) c) main_v69 (Y11 m c main_v69) = Y11 m c
  rw [V10_Y m c]; exact update_update_self _ _ _
theorem V12_Y (c : Dev nD) : V12 m (outsY m) c = Y12 m c := by
  show StableHlo.after hostOps5 (V11 m (outsY m) c) = Y12 m c
  rw [V11_Y m c]; rfl
theorem V13_Y (c : Dev nD) : V13 m (outsY m) c = Y13 m c := by
  show Function.update (V12 m (outsY m) c) main_v80 (Y13 m c main_v80) = Y13 m c
  rw [V12_Y m c]; exact update_update_self _ _ _
theorem V14_Y (c : Dev nD) : V14 m (outsY m) c = Y14 m c := by
  show StableHlo.after hostOps6 (V13 m (outsY m) c) = Y14 m c
  rw [V13_Y m c]; rfl
theorem V15_Y (c : Dev nD) : V15 m (outsY m) c = Y15 m c := by
  show Function.update (V14 m (outsY m) c) main_v84 (Y15 m c main_v84) = Y15 m c
  rw [V14_Y m c]; exact update_update_self _ _ _
theorem V16_Y (c : Dev nD) : V16 m (outsY m) c = Y16 m c := by
  show StableHlo.after hostOps7 (V15 m (outsY m) c) = Y16 m c
  rw [V15_Y m c]; rfl

theorem in_facts0 : ∀ w : Fin cfg0.W, w ≠ 7 → (cfg0.win w).isOut = false ∧ Pipeline.arrRef spec0 w ≠ main_v25 := by decide

theorem hF0 (c : Dev nD) (w : Fin cfg0.W) :
    (datR0 (atTc (Y2 m)) c).arrAt w cfg0.N = atTc (Y3 m) c (Pipeline.arrRef spec0 w) := by
  by_cases hw : w = 7
  · subst hw; exact (Function.update_self (f := Y2 m c) (Proc.devRef (τ := τ) .tc main_v25) _).symm
  · obtain ⟨hin, hne⟩ := in_facts0 w hw
    rw [Dat.arrAt_in _ w hin, A_eqR0]
    exact (Function.update_of_ne (StableHlo.devRef_ne_of_ne (τ := τ) hne) _ _).symm

theorem hrest0 (c : Dev nD) : ∀ b : Ref sig .tc, b ∉ Finset.univ.image (Pipeline.arrRef spec0) → atTc (Y3 m) c b = atTc (Y2 m) c b :=
  fun b hb => Function.update_of_ne (StableHlo.devRef_ne_of_ne (τ := τ) fun e => hb (Finset.mem_image.mpr ⟨7, Finset.mem_univ _, by rw [e]⟩)) _ _

theorem in_facts1 : ∀ w : Fin cfg1.W, w ≠ 7 → (cfg1.win w).isOut = false ∧ Pipeline.arrRef spec1 w ≠ main_v36 := by decide

theorem hF1 (c : Dev nD) (w : Fin cfg1.W) :
    (datR1 (atTc (Y4 m)) c).arrAt w cfg1.N = atTc (Y5 m) c (Pipeline.arrRef spec1 w) := by
  by_cases hw : w = 7
  · subst hw; exact (Function.update_self (f := Y4 m c) (Proc.devRef (τ := τ) .tc main_v36) _).symm
  · obtain ⟨hin, hne⟩ := in_facts1 w hw
    rw [Dat.arrAt_in _ w hin, A_eqR1]
    exact (Function.update_of_ne (StableHlo.devRef_ne_of_ne (τ := τ) hne) _ _).symm

theorem hrest1 (c : Dev nD) : ∀ b : Ref sig .tc, b ∉ Finset.univ.image (Pipeline.arrRef spec1) → atTc (Y5 m) c b = atTc (Y4 m) c b :=
  fun b hb => Function.update_of_ne (StableHlo.devRef_ne_of_ne (τ := τ) fun e => hb (Finset.mem_image.mpr ⟨7, Finset.mem_univ _, by rw [e]⟩)) _ _

theorem in_facts2 : ∀ w : Fin cfg2.W, w ≠ 7 → (cfg2.win w).isOut = false ∧ Pipeline.arrRef spec2 w ≠ main_v47 := by decide

theorem hF2 (c : Dev nD) (w : Fin cfg2.W) :
    (datR2 (atTc (Y6 m)) c).arrAt w cfg2.N = atTc (Y7 m) c (Pipeline.arrRef spec2 w) := by
  by_cases hw : w = 7
  · subst hw; exact (Function.update_self (f := Y6 m c) (Proc.devRef (τ := τ) .tc main_v47) _).symm
  · obtain ⟨hin, hne⟩ := in_facts2 w hw
    rw [Dat.arrAt_in _ w hin, A_eqR2]
    exact (Function.update_of_ne (StableHlo.devRef_ne_of_ne (τ := τ) hne) _ _).symm

theorem hrest2 (c : Dev nD) : ∀ b : Ref sig .tc, b ∉ Finset.univ.image (Pipeline.arrRef spec2) → atTc (Y7 m) c b = atTc (Y6 m) c b :=
  fun b hb => Function.update_of_ne (StableHlo.devRef_ne_of_ne (τ := τ) fun e => hb (Finset.mem_image.mpr ⟨7, Finset.mem_univ _, by rw [e]⟩)) _ _

theorem in_facts3 : ∀ w : Fin cfg3.W, w ≠ 7 → (cfg3.win w).isOut = false ∧ Pipeline.arrRef spec3 w ≠ main_v58 := by decide

theorem hF3 (c : Dev nD) (w : Fin cfg3.W) :
    (datR3 (atTc (Y8 m)) c).arrAt w cfg3.N = atTc (Y9 m) c (Pipeline.arrRef spec3 w) := by
  by_cases hw : w = 7
  · subst hw; exact (Function.update_self (f := Y8 m c) (Proc.devRef (τ := τ) .tc main_v58) _).symm
  · obtain ⟨hin, hne⟩ := in_facts3 w hw
    rw [Dat.arrAt_in _ w hin, A_eqR3]
    exact (Function.update_of_ne (StableHlo.devRef_ne_of_ne (τ := τ) hne) _ _).symm

theorem hrest3 (c : Dev nD) : ∀ b : Ref sig .tc, b ∉ Finset.univ.image (Pipeline.arrRef spec3) → atTc (Y9 m) c b = atTc (Y8 m) c b :=
  fun b hb => Function.update_of_ne (StableHlo.devRef_ne_of_ne (τ := τ) fun e => hb (Finset.mem_image.mpr ⟨7, Finset.mem_univ _, by rw [e]⟩)) _ _

theorem in_facts4 : ∀ w : Fin cfg4.W, w ≠ 7 → (cfg4.win w).isOut = false ∧ Pipeline.arrRef spec4 w ≠ main_v69 := by decide

theorem hF4 (c : Dev nD) (w : Fin cfg4.W) :
    (datR4 (atTc (Y10 m)) c).arrAt w cfg4.N = atTc (Y11 m) c (Pipeline.arrRef spec4 w) := by
  by_cases hw : w = 7
  · subst hw; exact (Function.update_self (f := Y10 m c) (Proc.devRef (τ := τ) .tc main_v69) _).symm
  · obtain ⟨hin, hne⟩ := in_facts4 w hw
    rw [Dat.arrAt_in _ w hin, A_eqR4]
    exact (Function.update_of_ne (StableHlo.devRef_ne_of_ne (τ := τ) hne) _ _).symm

theorem hrest4 (c : Dev nD) : ∀ b : Ref sig .tc, b ∉ Finset.univ.image (Pipeline.arrRef spec4) → atTc (Y11 m) c b = atTc (Y10 m) c b :=
  fun b hb => Function.update_of_ne (StableHlo.devRef_ne_of_ne (τ := τ) fun e => hb (Finset.mem_image.mpr ⟨7, Finset.mem_univ _, by rw [e]⟩)) _ _

theorem in_facts5 : ∀ w : Fin cfg5.W, w ≠ 7 → (cfg5.win w).isOut = false ∧ Pipeline.arrRef spec5 w ≠ main_v80 := by decide

theorem hF5 (c : Dev nD) (w : Fin cfg5.W) :
    (datR5 (atTc (Y12 m)) c).arrAt w cfg5.N = atTc (Y13 m) c (Pipeline.arrRef spec5 w) := by
  by_cases hw : w = 7
  · subst hw; exact (Function.update_self (f := Y12 m c) (Proc.devRef (τ := τ) .tc main_v80) _).symm
  · obtain ⟨hin, hne⟩ := in_facts5 w hw
    rw [Dat.arrAt_in _ w hin, A_eqR5]
    exact (Function.update_of_ne (StableHlo.devRef_ne_of_ne (τ := τ) hne) _ _).symm

theorem hrest5 (c : Dev nD) : ∀ b : Ref sig .tc, b ∉ Finset.univ.image (Pipeline.arrRef spec5) → atTc (Y13 m) c b = atTc (Y12 m) c b :=
  fun b hb => Function.update_of_ne (StableHlo.devRef_ne_of_ne (τ := τ) fun e => hb (Finset.mem_image.mpr ⟨7, Finset.mem_univ _, by rw [e]⟩)) _ _

theorem in_facts6 : ∀ w : Fin cfg6.W, w ≠ 3 → (cfg6.win w).isOut = false ∧ Pipeline.arrRef spec6 w ≠ main_v84 := by decide

theorem hF6 (c : Dev nD) (w : Fin cfg6.W) :
    (dat6 (atTc (Y14 m)) c).arrAt w cfg6.N = atTc (Y15 m) c (Pipeline.arrRef spec6 w) := by
  by_cases hw : w = 3
  · subst hw; exact (Function.update_self (f := Y14 m c) (Proc.devRef (τ := τ) .tc main_v84) _).symm
  · obtain ⟨hin, hne⟩ := in_facts6 w hw
    rw [Dat.arrAt_in _ w hin, A_eq6]
    exact (Function.update_of_ne (StableHlo.devRef_ne_of_ne (τ := τ) hne) _ _).symm

theorem hrest6 (c : Dev nD) : ∀ b : Ref sig .tc, b ∉ Finset.univ.image (Pipeline.arrRef spec6) → atTc (Y15 m) c b = atTc (Y14 m) c b :=
  fun b hb => Function.update_of_ne (StableHlo.devRef_ne_of_ne (τ := τ) fun e => hb (Finset.mem_image.mpr ⟨3, Finset.mem_univ _, by rw [e]⟩)) _ _

def pdatsY : (p : Fin 7) → (c : Dev nD) → Dat τ (Elt F) Unit ℕ (UR sig nD τ) ℕ (cfgs p) c
  | ⟨0, _⟩ => fun c => datR0 (atTc (Y2 m)) c
  | ⟨1, _⟩ => fun c => datR1 (atTc (Y4 m)) c
  | ⟨2, _⟩ => fun c => datR2 (atTc (Y6 m)) c
  | ⟨3, _⟩ => fun c => datR3 (atTc (Y8 m)) c
  | ⟨4, _⟩ => fun c => datR4 (atTc (Y10 m)) c
  | ⟨5, _⟩ => fun c => datR5 (atTc (Y12 m)) c
  | ⟨6, _⟩ => fun c => dat6 (atTc (Y14 m)) c

abbrev noL : GSem nD τ sig → Finset Unit := fun _ => ∅
abbrev noLv : GSem nD τ sig → Unit → ℕ := fun _ _ => 0

abbrev R (c : Dev nD) : sProp 𝕄 := iprop((∃ r, prngReg c r) ∗ ∃ W, owes (c : Thread nD τ) (0 : CellTallies nD τ sig Unit) W)

set_option backward.isDefEq.respectTransparency.types false in

def regY0 : RegionSeg (pcfgs (F := F)) adm (pdatsY m) () defs₀ Variants.none noL noLv 0 where
  win := launch0.win.to₀
  block_pos := launch0.block_pos
  stage_whole := launch0.stage_whole
  K := PEmpty
  osem k := k.elim
  ho := Pipeline.OwnSemFacts.none _
  hbody c := (body_obligationR0 (atTc (Y2 m)) c).loose
  hwaits := Pipeline.hwaits_of_owed_zero _ _ _ _ noL noLv 0 fun _ _ => rfl
  pre c := iprop(StableHlo.held (c : Thread nD τ) (Pipeline.ucRefs τ sig) (Y2 m c) ∗ R c)
  post c := iprop(StableHlo.held (c : Thread nD τ) (Pipeline.ucRefs τ sig) (Y3 m c) ∗ R c)
  X c := iprop(∃ r, prngReg c r)
  Y c := iprop(∃ r, prngReg c r)
  Z c := Pipeline.unscopedRest (Ix := Unit) (Name := ℕ) (U := UR sig nD τ) (Lvl := ℕ) spec0 c (atTc (Y2 m) c)
  hentry c := by
    rw [Pipeline.ownSems0_none]
    have hsplit := Pipeline.arrays_of_unscopedBufs (p := 0) (pcfgs (F := F)) adm (pdatsY m) launch0.win launch0.arr_whole c
      ((pdatsY m 0 c).share_full fun _ => rfl) (atTc (Y2 m) c) (A_eqR0 (atTc (Y2 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hinR0 (atTc (Y2 m)) c)
    unfold Pipeline.ΦA
    iintro ⟨Hp, -, Hr⟩
    isplitl [Hr]; · iexact Hr
    iexact Hp
  hout c := by
    rw [Pipeline.ownSems0_none]
    refine BIBase.Entails.trans (houtR0 (atTc (Y2 m)) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsY m) ((pdatsY m 0 c).share_full fun _ => rfl)
      (atTc (Y2 m) c) (atTc (Y3 m) c) ((pdatsY m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def regY1 : RegionSeg (pcfgs (F := F)) adm (pdatsY m) () defs₀ Variants.none noL noLv 1 where
  win := launch1.win.to₀
  block_pos := launch1.block_pos
  stage_whole := launch1.stage_whole
  K := PEmpty
  osem k := k.elim
  ho := Pipeline.OwnSemFacts.none _
  hbody c := (body_obligationR1 (atTc (Y4 m)) c).loose
  hwaits := Pipeline.hwaits_of_owed_zero _ _ _ _ noL noLv 1 fun _ _ => rfl
  pre c := iprop(StableHlo.held (c : Thread nD τ) (Pipeline.ucRefs τ sig) (Y4 m c) ∗ R c)
  post c := iprop(StableHlo.held (c : Thread nD τ) (Pipeline.ucRefs τ sig) (Y5 m c) ∗ R c)
  X c := iprop(∃ r, prngReg c r)
  Y c := iprop(∃ r, prngReg c r)
  Z c := Pipeline.unscopedRest (Ix := Unit) (Name := ℕ) (U := UR sig nD τ) (Lvl := ℕ) spec1 c (atTc (Y4 m) c)
  hentry c := by
    rw [Pipeline.ownSems0_none]
    have hsplit := Pipeline.arrays_of_unscopedBufs (p := 1) (pcfgs (F := F)) adm (pdatsY m) launch1.win launch1.arr_whole c
      ((pdatsY m 1 c).share_full fun _ => rfl) (atTc (Y4 m) c) (A_eqR1 (atTc (Y4 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hinR1 (atTc (Y4 m)) c)
    unfold Pipeline.ΦA
    iintro ⟨Hp, -, Hr⟩
    isplitl [Hr]; · iexact Hr
    iexact Hp
  hout c := by
    rw [Pipeline.ownSems0_none]
    refine BIBase.Entails.trans (houtR1 (atTc (Y4 m)) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsY m) ((pdatsY m 1 c).share_full fun _ => rfl)
      (atTc (Y4 m) c) (atTc (Y5 m) c) ((pdatsY m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def regY2 : RegionSeg (pcfgs (F := F)) adm (pdatsY m) () defs₀ Variants.none noL noLv 2 where
  win := launch2.win.to₀
  block_pos := launch2.block_pos
  stage_whole := launch2.stage_whole
  K := PEmpty
  osem k := k.elim
  ho := Pipeline.OwnSemFacts.none _
  hbody c := (body_obligationR2 (atTc (Y6 m)) c).loose
  hwaits := Pipeline.hwaits_of_owed_zero _ _ _ _ noL noLv 2 fun _ _ => rfl
  pre c := iprop(StableHlo.held (c : Thread nD τ) (Pipeline.ucRefs τ sig) (Y6 m c) ∗ R c)
  post c := iprop(StableHlo.held (c : Thread nD τ) (Pipeline.ucRefs τ sig) (Y7 m c) ∗ R c)
  X c := iprop(∃ r, prngReg c r)
  Y c := iprop(∃ r, prngReg c r)
  Z c := Pipeline.unscopedRest (Ix := Unit) (Name := ℕ) (U := UR sig nD τ) (Lvl := ℕ) spec2 c (atTc (Y6 m) c)
  hentry c := by
    rw [Pipeline.ownSems0_none]
    have hsplit := Pipeline.arrays_of_unscopedBufs (p := 2) (pcfgs (F := F)) adm (pdatsY m) launch2.win launch2.arr_whole c
      ((pdatsY m 2 c).share_full fun _ => rfl) (atTc (Y6 m) c) (A_eqR2 (atTc (Y6 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hinR2 (atTc (Y6 m)) c)
    unfold Pipeline.ΦA
    iintro ⟨Hp, -, Hr⟩
    isplitl [Hr]; · iexact Hr
    iexact Hp
  hout c := by
    rw [Pipeline.ownSems0_none]
    refine BIBase.Entails.trans (houtR2 (atTc (Y6 m)) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdatsY m) ((pdatsY m 2 c).share_full fun _ => rfl)
      (atTc (Y6 m) c) (atTc (Y7 m) c) ((pdatsY m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def regY3 : RegionSeg (pcfgs (F := F)) adm (pdatsY m) () defs₀ Variants.none noL noLv 3 where
  win := launch3.win.to₀
  block_pos := launch3.block_pos
  stage_whole := launch3.stage_whole
  K := PEmpty
  osem k := k.elim
  ho := Pipeline.OwnSemFacts.none _
  hbody c := (body_obligationR3 (atTc (Y8 m)) c).loose
  hwaits := Pipeline.hwaits_of_owed_zero _ _ _ _ noL noLv 3 fun _ _ => rfl
  pre c := iprop(StableHlo.held (c : Thread nD τ) (Pipeline.ucRefs τ sig) (Y8 m c) ∗ R c)
  post c := iprop(StableHlo.held (c : Thread nD τ) (Pipeline.ucRefs τ sig) (Y9 m c) ∗ R c)
  X c := iprop(∃ r, prngReg c r)
  Y c := iprop(∃ r, prngReg c r)
  Z c := Pipeline.unscopedRest (Ix := Unit) (Name := ℕ) (U := UR sig nD τ) (Lvl := ℕ) spec3 c (atTc (Y8 m) c)
  hentry c := by
    rw [Pipeline.ownSems0_none]
    have hsplit := Pipeline.arrays_of_unscopedBufs (p := 3) (pcfgs (F := F)) adm (pdatsY m) launch3.win launch3.arr_whole c
      ((pdatsY m 3 c).share_full fun _ => rfl) (atTc (Y8 m) c) (A_eqR3 (atTc (Y8 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hinR3 (atTc (Y8 m)) c)
    unfold Pipeline.ΦA
    iintro ⟨Hp, -, Hr⟩
    isplitl [Hr]; · iexact Hr
    iexact Hp
  hout c := by
    rw [Pipeline.ownSems0_none]
    refine BIBase.Entails.trans (houtR3 (atTc (Y8 m)) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdatsY m) ((pdatsY m 3 c).share_full fun _ => rfl)
      (atTc (Y8 m) c) (atTc (Y9 m) c) ((pdatsY m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def regY4 : RegionSeg (pcfgs (F := F)) adm (pdatsY m) () defs₀ Variants.none noL noLv 4 where
  win := launch4.win.to₀
  block_pos := launch4.block_pos
  stage_whole := launch4.stage_whole
  K := PEmpty
  osem k := k.elim
  ho := Pipeline.OwnSemFacts.none _
  hbody c := (body_obligationR4 (atTc (Y10 m)) c).loose
  hwaits := Pipeline.hwaits_of_owed_zero _ _ _ _ noL noLv 4 fun _ _ => rfl
  pre c := iprop(StableHlo.held (c : Thread nD τ) (Pipeline.ucRefs τ sig) (Y10 m c) ∗ R c)
  post c := iprop(StableHlo.held (c : Thread nD τ) (Pipeline.ucRefs τ sig) (Y11 m c) ∗ R c)
  X c := iprop(∃ r, prngReg c r)
  Y c := iprop(∃ r, prngReg c r)
  Z c := Pipeline.unscopedRest (Ix := Unit) (Name := ℕ) (U := UR sig nD τ) (Lvl := ℕ) spec4 c (atTc (Y10 m) c)
  hentry c := by
    rw [Pipeline.ownSems0_none]
    have hsplit := Pipeline.arrays_of_unscopedBufs (p := 4) (pcfgs (F := F)) adm (pdatsY m) launch4.win launch4.arr_whole c
      ((pdatsY m 4 c).share_full fun _ => rfl) (atTc (Y10 m) c) (A_eqR4 (atTc (Y10 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hinR4 (atTc (Y10 m)) c)
    unfold Pipeline.ΦA
    iintro ⟨Hp, -, Hr⟩
    isplitl [Hr]; · iexact Hr
    iexact Hp
  hout c := by
    rw [Pipeline.ownSems0_none]
    refine BIBase.Entails.trans (houtR4 (atTc (Y10 m)) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdatsY m) ((pdatsY m 4 c).share_full fun _ => rfl)
      (atTc (Y10 m) c) (atTc (Y11 m) c) ((pdatsY m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def regY5 : RegionSeg (pcfgs (F := F)) adm (pdatsY m) () defs₀ Variants.none noL noLv 5 where
  win := launch5.win.to₀
  block_pos := launch5.block_pos
  stage_whole := launch5.stage_whole
  K := PEmpty
  osem k := k.elim
  ho := Pipeline.OwnSemFacts.none _
  hbody c := (body_obligationR5 (atTc (Y12 m)) c).loose
  hwaits := Pipeline.hwaits_of_owed_zero _ _ _ _ noL noLv 5 fun _ _ => rfl
  pre c := iprop(StableHlo.held (c : Thread nD τ) (Pipeline.ucRefs τ sig) (Y12 m c) ∗ R c)
  post c := iprop(StableHlo.held (c : Thread nD τ) (Pipeline.ucRefs τ sig) (Y13 m c) ∗ R c)
  X c := iprop(∃ r, prngReg c r)
  Y c := iprop(∃ r, prngReg c r)
  Z c := Pipeline.unscopedRest (Ix := Unit) (Name := ℕ) (U := UR sig nD τ) (Lvl := ℕ) spec5 c (atTc (Y12 m) c)
  hentry c := by
    rw [Pipeline.ownSems0_none]
    have hsplit := Pipeline.arrays_of_unscopedBufs (p := 5) (pcfgs (F := F)) adm (pdatsY m) launch5.win launch5.arr_whole c
      ((pdatsY m 5 c).share_full fun _ => rfl) (atTc (Y12 m) c) (A_eqR5 (atTc (Y12 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hinR5 (atTc (Y12 m)) c)
    unfold Pipeline.ΦA
    iintro ⟨Hp, -, Hr⟩
    isplitl [Hr]; · iexact Hr
    iexact Hp
  hout c := by
    rw [Pipeline.ownSems0_none]
    refine BIBase.Entails.trans (houtR5 (atTc (Y12 m)) c) ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdatsY m) ((pdatsY m 5 c).share_full fun _ => rfl)
      (atTc (Y12 m) c) (atTc (Y13 m) c) ((pdatsY m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def regY6 : RegionSeg (pcfgs (F := F)) adm (pdatsY m) () defs₀ Variants.none noL noLv 6 where
  win := launch6.win.to₀
  block_pos := launch6.block_pos
  stage_whole := launch6.stage_whole
  K := PEmpty
  osem k := k.elim
  ho := Pipeline.OwnSemFacts.none _
  hbody c := (body_obligation6 (atTc (Y14 m)) c).loose
  hwaits := Pipeline.hwaits_of_owed_zero _ _ _ _ noL noLv 6 fun _ _ => rfl
  pre c := iprop(StableHlo.held (c : Thread nD τ) (Pipeline.ucRefs τ sig) (Y14 m c) ∗ R c)
  post c := iprop(StableHlo.held (c : Thread nD τ) (Pipeline.ucRefs τ sig) (Y15 m c) ∗ R c)
  X c := iprop(∃ r, prngReg c r)
  Y c := iprop(∃ r, prngReg c r)
  Z c := Pipeline.unscopedRest (Ix := Unit) (Name := ℕ) (U := UR sig nD τ) (Lvl := ℕ) spec6 c (atTc (Y14 m) c)
  hentry c := by
    rw [Pipeline.ownSems0_none]
    have hsplit := Pipeline.arrays_of_unscopedBufs (p := 6) (pcfgs (F := F)) adm (pdatsY m) launch6.win launch6.arr_whole c
      ((pdatsY m 6 c).share_full fun _ => rfl) (atTc (Y14 m) c) (A_eq6 (atTc (Y14 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsY m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdatsY m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdatsY m) ((pdatsY m 6 c).share_full fun _ => rfl)
      (atTc (Y14 m) c) (atTc (Y15 m) c) ((pdatsY m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_cond m (Ix := Unit) (U := UR sig nD τ) (Lvl := ℕ) emb₁ () Variants.none noL noLv (fun _ _ => rfl) ρ (outsY m) (pdatsY m)
    (O₀ := 0) (G := fun _ => iprop(emp))
    (u₀ := initOf (Pipeline.cells cfgs cellOf_inj) (Pipeline.launchToks cfgs cellOf_inj))
    (hu₀ := by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (E := fun _ c => R c)
    (hE0 := Pipeline.initEach noL noLv fun c => by
      iintro ⟨⟨-, HO, -, Hp, -⟩, -⟩
      imodintro
      isplitl [Hp]; · iexists _; iexact Hp
      iexists ∅; iexact HO)
    (hE7 := fun c => by iintro ⟨-, HO⟩; iexact HO)
    (regY0 m) (fun c => by exact .rfl) (fun c => by rw [V3_Y m c]; exact .rfl)
    (regY1 m) (fun c => by rw [V4_Y m c]; exact .rfl) (fun c => by rw [V5_Y m c]; exact .rfl)
    (regY2 m) (fun c => by rw [V6_Y m c]; exact .rfl) (fun c => by rw [V7_Y m c]; exact .rfl)
    (regY3 m) (fun c => by rw [V8_Y m c]; exact .rfl) (fun c => by rw [V9_Y m c]; exact .rfl)
    (regY4 m) (fun c => by rw [V10_Y m c]; exact .rfl) (fun c => by rw [V11_Y m c]; exact .rfl)
    (regY5 m) (fun c => by rw [V12_Y m c]; exact .rfl) (fun c => by rw [V13_Y m c]; exact .rfl)
    (regY6 m) (fun c => by rw [V14_Y m c]; exact .rfl) (fun c => by rw [V15_Y m c]; exact .rfl)

end Cert.Kernel.Gen

end
-- ==== Proof.Runs0.lean ====
import proofs.«427532_j66606352826848_3_alg».proof.Proof.Gen.KernelIdeal.Launch
import proofs.«427532_j66606352826848_3_alg».proof.Proof.Gen.KernelIdeal.Skeleton
import proofs.«427532_j66606352826848_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condR0 (i : grid0.Coords) : Prop := (Scalar.cmpi .ne (Scalar.extui (Scalar.cmpi .eq (BitVec.ofNat 32 (i 1).val) 0#32)) 0#32) = 1#1

theorem hcondR0 : ∀ t : Fin cfg0.N, condR0 (grid0.coords t) ↔ t.val % 4 = 0 :=
  (by decide +kernel : ∀ t : Fin grid0.N, condR0 (grid0.coords t) ↔ t.val % 4 = 0)

abbrev scMR0_0 : Memref sig .tc .vmem S1024x1024 .bf16 := Memref.whole cc0_scratch0
abbrev scMR0_1 : Memref sig .tc .vmem S1024x1024 .bf16 := Memref.whole cc0_scratch1

abbrev msR0_0 (t : Fin cfg0.N) : Memref sig .tc .vmem S1x256x1024 .bf16 := win0_0.stage (cfg0.slots t 0)
abbrev hsR0_0 (t : Fin cfg0.N) : (msR0_0 t).IsWhole := hstage0_0 ((cfg0.slots t 0).cast nbuf0_0)
abbrev msR0_1 (t : Fin cfg0.N) : Memref sig .tc .vmem S1x1024x1024 .bf16 := win0_1.stage (cfg0.slots t 1)
abbrev hsR0_1 (t : Fin cfg0.N) : (msR0_1 t).IsWhole := hstage0_1 ((cfg0.slots t 1).cast nbuf0_1)
abbrev msR0_2 (t : Fin cfg0.N) : Memref sig .tc .vmem S1024x1024 .bf16 := win0_2.stage (cfg0.slots t 2)
abbrev hsR0_2 (t : Fin cfg0.N) : (msR0_2 t).IsWhole := hstage0_2 ((cfg0.slots t 2).cast nbuf0_2)
abbrev msR0_3 (t : Fin cfg0.N) : Memref sig .tc .vmem S1024x1024 .bf16 := win0_3.stage (cfg0.slots t 3)
abbrev hsR0_3 (t : Fin cfg0.N) : (msR0_3 t).IsWhole := hstage0_3 ((cfg0.slots t 3).cast nbuf0_3)
abbrev msR0_4 (t : Fin cfg0.N) : Memref sig .tc .vmem S1024x1024 .bf16 := win0_4.stage (cfg0.slots t 4)
abbrev hsR0_4 (t : Fin cfg0.N) : (msR0_4 t).IsWhole := hstage0_4 ((cfg0.slots t 4).cast nbuf0_4)
abbrev msR0_5 (t : Fin cfg0.N) : Memref sig .tc .vmem S1024x1024 .bf16 := win0_5.stage (cfg0.slots t 5)
abbrev hsR0_5 (t : Fin cfg0.N) : (msR0_5 t).IsWhole := hstage0_5 ((cfg0.slots t 5).cast nbuf0_5)
abbrev msR0_6 (t : Fin cfg0.N) : Memref sig .tc .vmem S1x1024 .f32 := win0_6.stage (cfg0.slots t 6)
abbrev hsR0_6 (t : Fin cfg0.N) : (msR0_6 t).IsWhole := hstage0_6 ((cfg0.slots t 6).cast nbuf0_6)
abbrev msR0_7 (t : Fin cfg0.N) : Memref sig .tc .vmem S1x256x1024 .bf16 := win0_7.stage (cfg0.slots t 7)
abbrev hsR0_7 (t : Fin cfg0.N) : (msR0_7 t).IsWhole := hstage0_7 ((cfg0.slots t 7).cast nbuf0_7)

theorem PhiAR0_eq (c : Dev nD) :
    (Pipeline.ΦA spec0 c : sProp 𝕄)
      = iprop(iprop(iprop((∃ d, owns (c : Thread nD τ) scMR0_0 fullShare d) ∗ (∃ d, owns (c : Thread nD τ) scMR0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scMR0_0, scMR0_1, owns_whole]; try rfl

end Cert.KernelIdeal.Gen

end
-- ==== Proof.RunA0.lean ====
import proofs.«427532_j66606352826848_3_alg».proof.Proof.Runs0

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRunR0_A (c : Dev nD) (i : grid0.Coords) (arg2 : Memref sig .tc .vmem S1x256x1024 .bf16) (harg2 : arg2.IsWhole) (arg3 : Memref sig .tc .vmem S1x1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S1024x1024 .bf16) (harg10 : arg10.IsWhole) (arg11 : Memref sig .tc .vmem S1024x1024 .bf16) (harg11 : arg11.IsWhole) (hc0 : condR0 i)
    (x0 : Vec F S1x256x1024 .bf16) (x1 : Vec F S1x1024x1024 .bf16) (x2 : Vec F S1024x1024 .bf16) (x3 : Vec F S1024x1024 .bf16) (x4 : Vec F S1024x1024 .bf16) (x5 : Vec F S1024x1024 .bf16) (x6 : Vec F S1x1024 .f32) :
    Σ' (L7 : List (View.Piece (Elt F) S1x256x1024 .bf16)) (LS0 : List (View.Piece (Elt F) S1024x1024 .bf16)), { LS1 : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)) -∗ K ⟨⟩))
          ⊢ wp frame (wpE (defs₀ (F := F)) Variants.none c none) E (cc0__attn_layer_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__attn_layer_kernel_eq_skeleton]; unfold cc0__attn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]; · iexists _; iexact HS0
    iexists _; iexact HS1

end Cert.KernelIdeal.Gen

end
-- ==== Proof.RunB0.lean ====
import proofs.«427532_j66606352826848_3_alg».proof.Proof.Runs0

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRunR0_B (c : Dev nD) (i : grid0.Coords) (arg2 : Memref sig .tc .vmem S1x256x1024 .bf16) (harg2 : arg2.IsWhole) (arg3 : Memref sig .tc .vmem S1x1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S1024x1024 .bf16) (harg10 : arg10.IsWhole) (arg11 : Memref sig .tc .vmem S1024x1024 .bf16) (harg11 : arg11.IsWhole) (hc0 : ¬condR0 i)
    (x0 : Vec F S1x256x1024 .bf16) (x1 : Vec F S1x1024x1024 .bf16) (x2 : Vec F S1024x1024 .bf16) (x3 : Vec F S1024x1024 .bf16) (x4 : Vec F S1024x1024 .bf16) (x5 : Vec F S1024x1024 .bf16) (x6 : Vec F S1x1024 .f32) (xs0 : Vec F S1024x1024 .bf16) (xs1 : Vec F S1024x1024 .bf16) :
    { L7 : List (View.Piece (Elt F) S1x256x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f L7)
                ∗ owns (c : Thread nD τ) arg10 fullShare xs0 ∗ owns (c : Thread nD τ) arg11 fullShare xs1) -∗ K ⟨⟩))
          ⊢ wp frame (wpE (defs₀ (F := F)) Variants.none c none) E (cc0__attn_layer_kernel i arg2 harg2 arg3 harg3 arg4 harg4 arg5 harg5 arg6 harg6 arg7 harg7 arg8 harg8 arg9 harg9 arg10 harg10 arg11 harg11) K } := by
  refine ⟨?_, fun E K => ?run⟩
  case run =>
    simp only [cc0__attn_layer_kernel_eq_skeleton]; unfold cc0__attn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0; obtain rfl := harg11.eq_unread hfs1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]
    · iexists _; isplitr; · ipureintro; exact harg10.read_unread _
      iexact HS0
    iexists _; isplitr; · ipureintro; exact harg11.read_unread _
    iexact HS1

end Cert.KernelIdeal.Gen

end
-- ==== Proof.Attn.lean ====
import proofs.«427532_j66606352826848_3_alg».proof.Proof.RunA0
import proofs.«427532_j66606352826848_3_alg».proof.Proof.RunB0
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The attention kernel's ten operands, each a whole memref: seven inputs, the output, the two scratch buffers. -/
structure Ops where
  m2 : Memref sig .tc .vmem S1x256x1024 .bf16
  h2 : m2.IsWhole
  m3 : Memref sig .tc .vmem S1x1024x1024 .bf16
  h3 : m3.IsWhole
  m4 : Memref sig .tc .vmem S1024x1024 .bf16
  h4 : m4.IsWhole
  m5 : Memref sig .tc .vmem S1024x1024 .bf16
  h5 : m5.IsWhole
  m6 : Memref sig .tc .vmem S1024x1024 .bf16
  h6 : m6.IsWhole
  m7 : Memref sig .tc .vmem S1024x1024 .bf16
  h7 : m7.IsWhole
  m8 : Memref sig .tc .vmem S1x1024 .f32
  h8 : m8.IsWhole
  m9 : Memref sig .tc .vmem S1x256x1024 .bf16
  h9 : m9.IsWhole
  m10 : Memref sig .tc .vmem S1024x1024 .bf16
  h10 : m10.IsWhole
  m11 : Memref sig .tc .vmem S1024x1024 .bf16
  h11 : m11.IsWhole

/-- The seven input blocks: query rows, target rows, the four matrices, the bias row. -/
structure Ins (F : FTy → Type) where
  x0 : Vec F S1x256x1024 .bf16
  x1 : Vec F S1x1024x1024 .bf16
  x2 : Vec F S1024x1024 .bf16
  x3 : Vec F S1024x1024 .bf16
  x4 : Vec F S1024x1024 .bf16
  x5 : Vec F S1024x1024 .bf16
  x6 : Vec F S1x1024 .f32

abbrev Ops.body (a : Ops) (i : grid0.Coords) : Prog (TpuEff nD τ sig (Elt F) Λ₀ .tc) PUnit :=
  cc0__attn_layer_kernel i a.m2 a.h2 a.m3 a.h3 a.m4 a.h4 a.m5 a.h5 a.m6 a.h6 a.m7 a.h7 a.m8 a.h8 a.m9 a.h9 a.m10 a.h10 a.m11 a.h11

abbrev Ins.keys (x : Ins F) : Vec F S1024x1024 .bf16 := k0_pay3 x.x1 x.x3
abbrev Ins.vals (x : Ins F) : Vec F S1024x1024 .bf16 := k0_pay4 x.x1 x.x4
abbrev Ins.out (x : Ins F) (ks vs : Vec F S1024x1024 .bf16) : Vec F S1x256x1024 .bf16 :=
  k0_pay1 (k0_pay5 x.x0 x.x2 ks vs x.x5) (k0_pay6 x.x6)
/-- What a batch's first tile leaves in the output block and the two scratch buffers, and what a later tile does. -/
abbrev Ins.first (x : Ins F) : Vec F S1x256x1024 .bf16 × Vec F S1024x1024 .bf16 × Vec F S1024x1024 .bf16 :=
  (x.out x.keys x.vals, x.keys, x.vals)
abbrev Ins.later (x : Ins F) (ks vs : Vec F S1024x1024 .bf16) : Vec F S1x256x1024 .bf16 × Vec F S1024x1024 .bf16 × Vec F S1024x1024 .bf16 :=
  (x.out ks vs, ks, vs)

section
variable (c : Dev nD) (i : grid0.Coords) (arg2 : Memref sig .tc .vmem S1x256x1024 .bf16) (harg2 : arg2.IsWhole) (arg3 : Memref sig .tc .vmem S1x1024x1024 .bf16) (harg3 : arg3.IsWhole)
  (arg4 : Memref sig .tc .vmem S1024x1024 .bf16) (harg4 : arg4.IsWhole) (arg5 : Memref sig .tc .vmem S1024x1024 .bf16) (harg5 : arg5.IsWhole)
  (arg6 : Memref sig .tc .vmem S1024x1024 .bf16) (harg6 : arg6.IsWhole) (arg7 : Memref sig .tc .vmem S1024x1024 .bf16) (harg7 : arg7.IsWhole)
  (arg8 : Memref sig .tc .vmem S1x1024 .f32) (harg8 : arg8.IsWhole) (arg9 : Memref sig .tc .vmem S1x256x1024 .bf16) (harg9 : arg9.IsWhole)
  (arg10 : Memref sig .tc .vmem S1024x1024 .bf16) (harg10 : arg10.IsWhole) (arg11 : Memref sig .tc .vmem S1024x1024 .bf16) (harg11 : arg11.IsWhole)
  (x0 : Vec F S1x256x1024 .bf16) (x1 : Vec F S1x1024x1024 .bf16) (x2 x3 x4 x5 : Vec F S1024x1024 .bf16) (x6 : Vec F S1x1024 .f32)

/-- The six attention calls run one kernel. -/
theorem cc1_eq : cc1__attn_layer_kernel (F := F) i arg2 harg2 arg3 harg3 arg4 harg4 arg5 harg5 arg6 harg6 arg7 harg7 arg8 harg8 arg9 harg9 arg10 harg10 arg11 harg11 = cc0__attn_layer_kernel i arg2 harg2 arg3 harg3 arg4 harg4 arg5 harg5 arg6 harg6 arg7 harg7 arg8 harg8 arg9 harg9 arg10 harg10 arg11 harg11 := rfl
theorem cc2_eq : cc2__attn_layer_kernel (F := F) i arg2 harg2 arg3 harg3 arg4 harg4 arg5 harg5 arg6 harg6 arg7 harg7 arg8 harg8 arg9 harg9 arg10 harg10 arg11 harg11 = cc0__attn_layer_kernel i arg2 harg2 arg3 harg3 arg4 harg4 arg5 harg5 arg6 harg6 arg7 harg7 arg8 harg8 arg9 harg9 arg10 harg10 arg11 harg11 := rfl
theorem cc3_eq : cc3__attn_layer_kernel (F := F) i arg2 harg2 arg3 harg3 arg4 harg4 arg5 harg5 arg6 harg6 arg7 harg7 arg8 harg8 arg9 harg9 arg10 harg10 arg11 harg11 = cc0__attn_layer_kernel i arg2 harg2 arg3 harg3 arg4 harg4 arg5 harg5 arg6 harg6 arg7 harg7 arg8 harg8 arg9 harg9 arg10 harg10 arg11 harg11 := rfl
theorem cc4_eq : cc4__attn_layer_kernel (F := F) i arg2 harg2 arg3 harg3 arg4 harg4 arg5 harg5 arg6 harg6 arg7 harg7 arg8 harg8 arg9 harg9 arg10 harg10 arg11 harg11 = cc0__attn_layer_kernel i arg2 harg2 arg3 harg3 arg4 harg4 arg5 harg5 arg6 harg6 arg7 harg7 arg8 harg8 arg9 harg9 arg10 harg10 arg11 harg11 := rfl
theorem cc5_eq : cc5__attn_layer_kernel (F := F) i arg2 harg2 arg3 harg3 arg4 harg4 arg5 harg5 arg6 harg6 arg7 harg7 arg8 harg8 arg9 harg9 arg10 harg10 arg11 harg11 = cc0__attn_layer_kernel i arg2 harg2 arg3 harg3 arg4 harg4 arg5 harg5 arg6 harg6 arg7 harg7 arg8 harg8 arg9 harg9 arg10 harg10 arg11 harg11 := rfl

section
variable (hc : condR0 i)

/-- The stores of a first tile tile each buffer, so what is read back is the stored payload. -/
theorem first_keys (e : arg10.view.ty.Contents (Elt F)) :
    arg10.view.read (Elt F) (arg10.view.writes (Elt F) e (kernelRunR0_A c i arg2 harg2 arg3 harg3 arg4 harg4 arg5 harg5 arg6 harg6 arg7 harg7 arg8 harg8 arg9 harg9 arg10 harg10 arg11 harg11 hc x0 x1 x2 x3 x4 x5 x6).2.1) = k0_pay3 x1 x3 := by
  rw [View.read_writes_eq_canon _ _ _ (View.cover_of_tiledL (kernelRunR0_A c i arg2 harg2 arg3 harg3 arg4 harg4 arg5 harg5 arg6 harg6 arg7 harg7 arg8 harg8 arg9 harg9 arg10 harg10 arg11 harg11 hc x0 x1 x2 x3 x4 x5 x6).2.1 S1024x1024.size (by sl_kernel_rfl))]
  unfold kernelRunR0_A
  dsimp only
  sl_unfold_words
  rw [View.canon_unit_zero hz2]
  simp only [View.readAt_eq_ld, harg3.read_unread, harg5.read_unread, View.ld_unit_zero (S := S1x1024x1024) hz3, View.ld_unit_zero (S := S1024x1024) hz2]

theorem first_vals (e : arg11.view.ty.Contents (Elt F)) :
    arg11.view.read (Elt F) (arg11.view.writes (Elt F) e (kernelRunR0_A c i arg2 harg2 arg3 harg3 arg4 harg4 arg5 harg5 arg6 harg6 arg7 harg7 arg8 harg8 arg9 harg9 arg10 harg10 arg11 harg11 hc x0 x1 x2 x3 x4 x5 x6).2.2.1) = k0_pay4 x1 x4 := by
  rw [View.read_writes_eq_canon _ _ _ (View.cover_of_tiledL (kernelRunR0_A c i arg2 harg2 arg3 harg3 arg4 harg4 arg5 harg5 arg6 harg6 arg7 harg7 arg8 harg8 arg9 harg9 arg10 harg10 arg11 harg11 hc x0 x1 x2 x3 x4 x5 x6).2.2.1 S1024x1024.size (by sl_kernel_rfl))]
  unfold kernelRunR0_A
  dsimp only
  sl_unfold_words
  rw [View.canon_unit_zero hz2]
  simp only [View.readAt_eq_ld, harg3.read_unread, harg6.read_unread, View.ld_unit_zero (S := S1x1024x1024) hz3, View.ld_unit_zero (S := S1024x1024) hz2]

theorem first_out (e : arg9.view.ty.Contents (Elt F)) :
    arg9.view.read (Elt F) (arg9.view.writes (Elt F) e (kernelRunR0_A c i arg2 harg2 arg3 harg3 arg4 harg4 arg5 harg5 arg6 harg6 arg7 harg7 arg8 harg8 arg9 harg9 arg10 harg10 arg11 harg11 hc x0 x1 x2 x3 x4 x5 x6).1) = k0_pay1 (k0_pay5 x0 x2 (k0_pay3 x1 x3) (k0_pay4 x1 x4) x5) (k0_pay6 x6) := by
  rw [View.read_writes_eq_canon _ _ _ (View.cover_of_tiledL (kernelRunR0_A c i arg2 harg2 arg3 harg3 arg4 harg4 arg5 harg5 arg6 harg6 arg7 harg7 arg8 harg8 arg9 harg9 arg10 harg10 arg11 harg11 hc x0 x1 x2 x3 x4 x5 x6).1 S1x256x1024.size (by sl_kernel_rfl))]
  unfold kernelRunR0_A
  dsimp only
  sl_unfold_words
  rw [View.canon_unit_zero hz3]
  simp only [View.readAt_eq_ld, harg2.read_unread, harg3.read_unread, harg4.read_unread, harg5.read_unread, harg6.read_unread, harg7.read_unread, harg8.read_unread,
    View.readCov_unit_zero (S := S1024x1024) _ hz2,
    View.ld_unit_zero (S := S1x256x1024) hz3, View.ld_unit_zero (S := S1x1024x1024) hz3, View.ld_unit_zero (S := S1024x1024) hz2, View.ld_unit_zero (S := S1x1024) hz2]

end

theorem later_out (hc : ¬condR0 i) (xs0 xs1 : Vec F S1024x1024 .bf16) (e : arg9.view.ty.Contents (Elt F)) :
    arg9.view.read (Elt F) (arg9.view.writes (Elt F) e (kernelRunR0_B c i arg2 harg2 arg3 harg3 arg4 harg4 arg5 harg5 arg6 harg6 arg7 harg7 arg8 harg8 arg9 harg9 arg10 harg10 arg11 harg11 hc x0 x1 x2 x3 x4 x5 x6 xs0 xs1).1) = k0_pay1 (k0_pay5 x0 x2 xs0 xs1 x5) (k0_pay6 x6) := by
  rw [View.read_writes_eq_canon _ _ _ (View.cover_of_tiledL (kernelRunR0_B c i arg2 harg2 arg3 harg3 arg4 harg4 arg5 harg5 arg6 harg6 arg7 harg7 arg8 harg8 arg9 harg9 arg10 harg10 arg11 harg11 hc x0 x1 x2 x3 x4 x5 x6 xs0 xs1).1 S1x256x1024.size (by sl_kernel_rfl))]
  unfold kernelRunR0_B
  dsimp only
  sl_unfold_words
  rw [View.canon_unit_zero hz3]
  simp only [View.readAt_eq_ld, harg2.read_unread, harg4.read_unread, harg7.read_unread, harg8.read_unread, harg10.read_unread, harg11.read_unread,
    View.ld_unit_zero (S := S1x256x1024) hz3, View.ld_unit_zero (S := S1024x1024) hz2, View.ld_unit_zero (S := S1x1024) hz2]

end

/-- A batch's first query tile: from the inputs at `x` and the output and scratch buffers at anything, the body ends with the inputs as they were, the scratch buffers at the batch's key and value projections, the output at the layer's tile. -/
theorem body_first (c : Dev nD) (i : grid0.Coords) (hc : condR0 i) (a : Ops) (x : Ins F) (E : Set ℕ) (K : PUnit → sProp 𝕄) :
    iprop(owns (c : Thread nD τ) a.m2 fullShare x.x0 ∗ owns (c : Thread nD τ) a.m3 fullShare x.x1 ∗ owns (c : Thread nD τ) a.m4 fullShare x.x2 ∗ owns (c : Thread nD τ) a.m5 fullShare x.x3 ∗ owns (c : Thread nD τ) a.m6 fullShare x.x4 ∗ owns (c : Thread nD τ) a.m7 fullShare x.x5 ∗ owns (c : Thread nD τ) a.m8 fullShare x.x6
        ∗ (∃ d, owns (c : Thread nD τ) a.m9 fullShare d) ∗ (∃ d, owns (c : Thread nD τ) a.m10 fullShare d) ∗ (∃ d, owns (c : Thread nD τ) a.m11 fullShare d)
        ∗ (iprop(owns (c : Thread nD τ) a.m2 fullShare x.x0 ∗ owns (c : Thread nD τ) a.m3 fullShare x.x1 ∗ owns (c : Thread nD τ) a.m4 fullShare x.x2 ∗ owns (c : Thread nD τ) a.m5 fullShare x.x3 ∗ owns (c : Thread nD τ) a.m6 fullShare x.x4 ∗ owns (c : Thread nD τ) a.m7 fullShare x.x5 ∗ owns (c : Thread nD τ) a.m8 fullShare x.x6
            ∗ owns (c : Thread nD τ) a.m9 fullShare (x.out x.keys x.vals) ∗ owns (c : Thread nD τ) a.m10 fullShare x.keys ∗ owns (c : Thread nD τ) a.m11 fullShare x.vals) -∗ K ⟨⟩))
      ⊢ wp frame (wpE (defs₀ (F := F)) Variants.none c none) E (a.body i) K := by
  iintro ⟨H0, H1, H2, H3, H4, H5, H6, H7, HS0, HS1, Hk⟩
  iapply ((kernelRunR0_A c i a.m2 a.h2 a.m3 a.h3 a.m4 a.h4 a.m5 a.h5 a.m6 a.h6 a.m7 a.h7 a.m8 a.h8 a.m9 a.h9 a.m10 a.h10 a.m11 a.h11 hc x.x0 x.x1 x.x2 x.x3 x.x4 x.x5 x.x6).2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, ⟨%e7, H7⟩, ⟨%es0, HS0⟩, ⟨%es1, HS1⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact first_out c i a.m2 a.h2 a.m3 a.h3 a.m4 a.h4 a.m5 a.h5 a.m6 a.h6 a.m7 a.h7 a.m8 a.h8 a.m9 a.h9 a.m10 a.h10 a.m11 a.h11 x.x0 x.x1 x.x2 x.x3 x.x4 x.x5 x.x6 hc e7
  isplitl [HS0]
  · unfold owns; iexists _; isplitr
    swap; · iexact HS0
    ipureintro; exact first_keys c i a.m2 a.h2 a.m3 a.h3 a.m4 a.h4 a.m5 a.h5 a.m6 a.h6 a.m7 a.h7 a.m8 a.h8 a.m9 a.h9 a.m10 a.h10 a.m11 a.h11 x.x0 x.x1 x.x2 x.x3 x.x4 x.x5 x.x6 hc es0
  unfold owns; iexists _; isplitr
  swap; · iexact HS1
  ipureintro; exact first_vals c i a.m2 a.h2 a.m3 a.h3 a.m4 a.h4 a.m5 a.h5 a.m6 a.h6 a.m7 a.h7 a.m8 a.h8 a.m9 a.h9 a.m10 a.h10 a.m11 a.h11 x.x0 x.x1 x.x2 x.x3 x.x4 x.x5 x.x6 hc es1

/-- A later tile of the batch: the scratch buffers are read at `ks`, `vs` and kept; the output is the tile over them. -/
theorem body_later (c : Dev nD) (i : grid0.Coords) (hc : ¬condR0 i) (a : Ops) (x : Ins F) (ks vs : Vec F S1024x1024 .bf16) (E : Set ℕ) (K : PUnit → sProp 𝕄) :
    iprop(owns (c : Thread nD τ) a.m2 fullShare x.x0 ∗ owns (c : Thread nD τ) a.m3 fullShare x.x1 ∗ owns (c : Thread nD τ) a.m4 fullShare x.x2 ∗ owns (c : Thread nD τ) a.m5 fullShare x.x3 ∗ owns (c : Thread nD τ) a.m6 fullShare x.x4 ∗ owns (c : Thread nD τ) a.m7 fullShare x.x5 ∗ owns (c : Thread nD τ) a.m8 fullShare x.x6
        ∗ (∃ d, owns (c : Thread nD τ) a.m9 fullShare d) ∗ owns (c : Thread nD τ) a.m10 fullShare ks ∗ owns (c : Thread nD τ) a.m11 fullShare vs
        ∗ (iprop(owns (c : Thread nD τ) a.m2 fullShare x.x0 ∗ owns (c : Thread nD τ) a.m3 fullShare x.x1 ∗ owns (c : Thread nD τ) a.m4 fullShare x.x2 ∗ owns (c : Thread nD τ) a.m5 fullShare x.x3 ∗ owns (c : Thread nD τ) a.m6 fullShare x.x4 ∗ owns (c : Thread nD τ) a.m7 fullShare x.x5 ∗ owns (c : Thread nD τ) a.m8 fullShare x.x6
            ∗ owns (c : Thread nD τ) a.m9 fullShare (x.out ks vs) ∗ owns (c : Thread nD τ) a.m10 fullShare ks ∗ owns (c : Thread nD τ) a.m11 fullShare vs) -∗ K ⟨⟩))
      ⊢ wp frame (wpE (defs₀ (F := F)) Variants.none c none) E (a.body i) K := by
  iintro ⟨H0, H1, H2, H3, H4, H5, H6, H7, HS0, HS1, Hk⟩
  iapply ((kernelRunR0_B c i a.m2 a.h2 a.m3 a.h3 a.m4 a.h4 a.m5 a.h5 a.m6 a.h6 a.m7 a.h7 a.m8 a.h8 a.m9 a.h9 a.m10 a.h10 a.m11 a.h11 hc x.x0 x.x1 x.x2 x.x3 x.x4 x.x5 x.x6 ks vs).2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, ⟨%e7, H7⟩, HS0, HS1⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact later_out c i a.m2 a.h2 a.m3 a.h3 a.m4 a.h4 a.m5 a.h5 a.m6 a.h6 a.m7 a.h7 a.m8 a.h8 a.m9 a.h9 a.m10 a.h10 a.m11 a.h11 x.x0 x.x1 x.x2 x.x3 x.x4 x.x5 x.x6 hc ks vs e7
  isplitl [HS0]; · iexact HS0
  iexact HS1

end Cert.KernelIdeal.Gen

end
-- ==== Proof.Dat0.lean ====
import proofs.«427532_j66606352826848_3_alg».proof.Proof.Attn
import proofs.«427532_j66606352826848_3_alg».proof.Proof.Runs0

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

def iblkR0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem beforeR0_0_of {c : Dev nD} (dat : Dat τ (Elt F) Unit ℕ (UR sig nD τ) ℕ cfg0 c) (hA : dat.A 0 = V c (Pipeline.arrRef spec0 0))
    (hafter : ∀ t, dat.after 0 t = iblkR0 V c 0 t) (t : Fin cfg0.N) (d) : dat.before 0 t d = iblkR0 V c 0 t :=
  (dat.before_in_eq_fetched 0 rfl (fun _ => rfl) (fun _ _ _ => rfl) (fun t => by rw [hafter]; unfold Dat.blockOf iblkR0; rw [hA]; try rfl) t d).trans
    (by unfold Dat.fetched Dat.blockOf iblkR0; rw [hA]; try rfl)
theorem beforeR0_1_of {c : Dev nD} (dat : Dat τ (Elt F) Unit ℕ (UR sig nD τ) ℕ cfg0 c) (hA : dat.A 1 = V c (Pipeline.arrRef spec0 1))
    (hafter : ∀ t, dat.after 1 t = iblkR0 V c 1 t) (t : Fin cfg0.N) (d) : dat.before 1 t d = iblkR0 V c 1 t :=
  (dat.before_in_eq_fetched 1 rfl (fun _ => rfl) (fun _ _ _ => rfl) (fun t => by rw [hafter]; unfold Dat.blockOf iblkR0; rw [hA]; try rfl) t d).trans
    (by unfold Dat.fetched Dat.blockOf iblkR0; rw [hA]; try rfl)
theorem beforeR0_2_of {c : Dev nD} (dat : Dat τ (Elt F) Unit ℕ (UR sig nD τ) ℕ cfg0 c) (hA : dat.A 2 = V c (Pipeline.arrRef spec0 2))
    (hafter : ∀ t, dat.after 2 t = iblkR0 V c 2 t) (t : Fin cfg0.N) (d) : dat.before 2 t d = iblkR0 V c 2 t :=
  (dat.before_in_eq_fetched 2 rfl (fun _ => rfl) (fun _ _ _ => rfl) (fun t => by rw [hafter]; unfold Dat.blockOf iblkR0; rw [hA]; try rfl) t d).trans
    (by unfold Dat.fetched Dat.blockOf iblkR0; rw [hA]; try rfl)
theorem beforeR0_3_of {c : Dev nD} (dat : Dat τ (Elt F) Unit ℕ (UR sig nD τ) ℕ cfg0 c) (hA : dat.A 3 = V c (Pipeline.arrRef spec0 3))
    (hafter : ∀ t, dat.after 3 t = iblkR0 V c 3 t) (t : Fin cfg0.N) (d) : dat.before 3 t d = iblkR0 V c 3 t :=
  (dat.before_in_eq_fetched 3 rfl (fun _ => rfl) (fun _ _ _ => rfl) (fun t => by rw [hafter]; unfold Dat.blockOf iblkR0; rw [hA]; try rfl) t d).trans
    (by unfold Dat.fetched Dat.blockOf iblkR0; rw [hA]; try rfl)
theorem beforeR0_4_of {c : Dev nD} (dat : Dat τ (Elt F) Unit ℕ (UR sig nD τ) ℕ cfg0 c) (hA : dat.A 4 = V c (Pipeline.arrRef spec0 4))
    (hafter : ∀ t, dat.after 4 t = iblkR0 V c 4 t) (t : Fin cfg0.N) (d) : dat.before 4 t d = iblkR0 V c 4 t :=
  (dat.before_in_eq_fetched 4 rfl (fun _ => rfl) (fun _ _ _ => rfl) (fun t => by rw [hafter]; unfold Dat.blockOf iblkR0; rw [hA]; try rfl) t d).trans
    (by unfold Dat.fetched Dat.blockOf iblkR0; rw [hA]; try rfl)
theorem beforeR0_5_of {c : Dev nD} (dat : Dat τ (Elt F) Unit ℕ (UR sig nD τ) ℕ cfg0 c) (hA : dat.A 5 = V c (Pipeline.arrRef spec0 5))
    (hafter : ∀ t, dat.after 5 t = iblkR0 V c 5 t) (t : Fin cfg0.N) (d) : dat.before 5 t d = iblkR0 V c 5 t :=
  (dat.before_in_eq_fetched 5 rfl (fun _ => rfl) (fun _ _ _ => rfl) (fun t => by rw [hafter]; unfold Dat.blockOf iblkR0; rw [hA]; try rfl) t d).trans
    (by unfold Dat.fetched Dat.blockOf iblkR0; rw [hA]; try rfl)
theorem beforeR0_6_of {c : Dev nD} (dat : Dat τ (Elt F) Unit ℕ (UR sig nD τ) ℕ cfg0 c) (hA : dat.A 6 = V c (Pipeline.arrRef spec0 6))
    (hafter : ∀ t, dat.after 6 t = iblkR0 V c 6 t) (t : Fin cfg0.N) (d) : dat.before 6 t d = iblkR0 V c 6 t :=
  (dat.before_in_eq_fetched 6 rfl (fun _ => rfl) (fun _ _ _ => rfl) (fun t => by rw [hafter]; unfold Dat.blockOf iblkR0; rw [hA]; try rfl) t d).trans
    (by unfold Dat.fetched Dat.blockOf iblkR0; rw [hA]; try rfl)

/-- The kernel's operands at point `t`: each window's current staging buffer, then the two scratch buffers. -/
abbrev opsR0 (t : Fin cfg0.N) : Ops :=
  ⟨msR0_0 t, hsR0_0 t, msR0_1 t, hsR0_1 t, msR0_2 t, hsR0_2 t, msR0_3 t, hsR0_3 t, msR0_4 t, hsR0_4 t, msR0_5 t, hsR0_5 t, msR0_6 t, hsR0_6 t, msR0_7 t, hsR0_7 t, scMR0_0, Memref.isWhole_whole _, scMR0_1, Memref.isWhole_whole _⟩

/-- The seven input blocks at point `t`. -/
abbrev insR0 (c : Dev nD) (t : Fin cfg0.N) : Ins F :=
  ⟨iblkR0 V c 0 t, iblkR0 V c 1 t, iblkR0 V c 2 t, iblkR0 V c 3 t, iblkR0 V c 4 t, iblkR0 V c 5 t, iblkR0 V c 6 t⟩

theorem bodyAtR0_eq (t : Fin cfg0.N) : bodyAt0 (F := F) t = (opsR0 t).body (grid0.coords t) := rfl

/-- After the body at position `n`: the output block, then the two scratch buffers. A batch's first tile (`n` a multiple of 4) computes all three from its input blocks; a later tile keeps what the point before left in the scratch buffers. -/
def outsAtR0 (c : Dev nD) : (n : ℕ) → n < cfg0.N → Vec F S1x256x1024 .bf16 × Vec F S1024x1024 .bf16 × Vec F S1024x1024 .bf16
  | 0, hn => (insR0 V c ⟨0, hn⟩).first
  | n + 1, hn =>
    if (n + 1) % 4 = 0 then (insR0 V c ⟨n + 1, hn⟩).first
    else (insR0 V c ⟨n + 1, hn⟩).later (outsAtR0 c n (Nat.lt_of_succ_lt hn)).2.1 (outsAtR0 c n (Nat.lt_of_succ_lt hn)).2.2

theorem outsAtR0_A (c : Dev nD) (t : Fin cfg0.N) (h0 : t.val % 4 = 0) : outsAtR0 V c t.val t.isLt = (insR0 V c t).first := by
  obtain ⟨n, hn⟩ := t
  cases n with
  | zero => exact rfl
  | succ n => exact (if_pos h0).trans rfl

theorem outsAtR0_B (c : Dev nD) (t : Fin cfg0.N) (h0 : ¬t.val % 4 = 0) :
    outsAtR0 V c t.val t.isLt = (insR0 V c t).later (outsAtR0 V c (t.val - 1) (Nat.lt_of_le_of_lt (Nat.sub_le _ _) t.isLt)).2.1
      (outsAtR0 V c (t.val - 1) (Nat.lt_of_le_of_lt (Nat.sub_le _ _) t.isLt)).2.2 := by
  obtain ⟨n, hn⟩ := t
  cases n with
  | zero => exact absurd (Nat.zero_mod _) h0
  | succ n => exact (if_neg h0).trans rfl

def PhiSR0 (c : Dev nD) : (n : ℕ) → n ≤ cfg0.N → sProp 𝕄
  | 0, _ => Pipeline.ΦA spec0 c
  | n + 1, hn => iprop(iprop(iprop(owns (c : Thread nD τ) scMR0_0 fullShare ((outsAtR0 V c n hn).2.1) ∗ owns (c : Thread nD τ) scMR0_1 fullShare ((outsAtR0 V c n hn).2.2))
          ∗ Pipeline.scopedRestBut (Ix := Unit) (Name := ℕ) (U := UR sig nD τ) (Lvl := ℕ) (Val := Elt F) spec0 c [cc0_scratch0, cc0_scratch1]) ∗ (∃ r, prngReg c r))

theorem PhiSR0_succ (c : Dev nD) (n : ℕ) (hn : n < cfg0.N) :
    PhiSR0 V c (n + 1) hn = iprop(iprop(iprop(owns (c : Thread nD τ) scMR0_0 fullShare ((outsAtR0 V c n hn).2.1) ∗ owns (c : Thread nD τ) scMR0_1 fullShare ((outsAtR0 V c n hn).2.2))
          ∗ Pipeline.scopedRestBut (Ix := Unit) (Name := ℕ) (U := UR sig nD τ) (Lvl := ℕ) (Val := Elt F) spec0 c [cc0_scratch0, cc0_scratch1]) ∗ (∃ r, prngReg c r)) := rfl

theorem PhiSR0_pos (c : Dev nD) (n : ℕ) (h : n ≤ cfg0.N) (hz : n ≠ 0) :
    PhiSR0 V c n h = iprop(iprop(iprop(owns (c : Thread nD τ) scMR0_0 fullShare ((outsAtR0 V c (n - 1) (by omega)).2.1) ∗ owns (c : Thread nD τ) scMR0_1 fullShare ((outsAtR0 V c (n - 1) (by omega)).2.2))
          ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

def datR0 (c : Dev nD) : Dat τ (Elt F) Unit ℕ (UR sig nD τ) ℕ cfg0 c where
  A w := V c (Pipeline.arrRef spec0 w)
  after w t := match w with
    | ⟨0, _⟩ => iblkR0 V c 0 t
    | ⟨1, _⟩ => iblkR0 V c 1 t
    | ⟨2, _⟩ => iblkR0 V c 2 t
    | ⟨3, _⟩ => iblkR0 V c 3 t
    | ⟨4, _⟩ => iblkR0 V c 4 t
    | ⟨5, _⟩ => iblkR0 V c 5 t
    | ⟨6, _⟩ => iblkR0 V c 6 t
    | ⟨7, _⟩ => (outsAtR0 V c t.val t.isLt).1
  Φ t := PhiSR0 V c t.val (Nat.le_of_lt_succ t.isLt)
  q _ := fullShare
  owed _ := 0

theorem A_eqR0 (c : Dev nD) (w : Fin cfg0.W) : (datR0 V c).A w = V c (Pipeline.arrRef spec0 w) := by
  dsimp only [datR0]

theorem PhiSR0_castSucc (c : Dev nD) (t : Fin cfg0.N) :
    (datR0 V c).Φ t.castSucc = PhiSR0 V c t.val (Nat.le_of_lt t.isLt) := by
  dsimp only [datR0]; simp only [Fin.coe_castSucc]

theorem afterR0_0 (c : Dev nD) (t : Fin cfg0.N) : (datR0 V c).after 0 t = iblkR0 V c 0 t := by dsimp only [datR0]
theorem afterR0_1 (c : Dev nD) (t : Fin cfg0.N) : (datR0 V c).after 1 t = iblkR0 V c 1 t := by dsimp only [datR0]
theorem afterR0_2 (c : Dev nD) (t : Fin cfg0.N) : (datR0 V c).after 2 t = iblkR0 V c 2 t := by dsimp only [datR0]
theorem afterR0_3 (c : Dev nD) (t : Fin cfg0.N) : (datR0 V c).after 3 t = iblkR0 V c 3 t := by dsimp only [datR0]
theorem afterR0_4 (c : Dev nD) (t : Fin cfg0.N) : (datR0 V c).after 4 t = iblkR0 V c 4 t := by dsimp only [datR0]
theorem afterR0_5 (c : Dev nD) (t : Fin cfg0.N) : (datR0 V c).after 5 t = iblkR0 V c 5 t := by dsimp only [datR0]
theorem afterR0_6 (c : Dev nD) (t : Fin cfg0.N) : (datR0 V c).after 6 t = iblkR0 V c 6 t := by dsimp only [datR0]
theorem afterR0_7 (c : Dev nD) (t : Fin cfg0.N) : (datR0 V c).after 7 t = (outsAtR0 V c t.val t.isLt).1 := by dsimp only [datR0]

theorem beforeR0_0 (c : Dev nD) (t : Fin cfg0.N) (d) : (datR0 V c).before 0 t d = iblkR0 V c 0 t :=
  beforeR0_0_of V (datR0 V c) (A_eqR0 V c 0) (afterR0_0 V c) t d
theorem beforeR0_1 (c : Dev nD) (t : Fin cfg0.N) (d) : (datR0 V c).before 1 t d = iblkR0 V c 1 t :=
  beforeR0_1_of V (datR0 V c) (A_eqR0 V c 1) (afterR0_1 V c) t d
theorem beforeR0_2 (c : Dev nD) (t : Fin cfg0.N) (d) : (datR0 V c).before 2 t d = iblkR0 V c 2 t :=
  beforeR0_2_of V (datR0 V c) (A_eqR0 V c 2) (afterR0_2 V c) t d
theorem beforeR0_3 (c : Dev nD) (t : Fin cfg0.N) (d) : (datR0 V c).before 3 t d = iblkR0 V c 3 t :=
  beforeR0_3_of V (datR0 V c) (A_eqR0 V c 3) (afterR0_3 V c) t d
theorem beforeR0_4 (c : Dev nD) (t : Fin cfg0.N) (d) : (datR0 V c).before 4 t d = iblkR0 V c 4 t :=
  beforeR0_4_of V (datR0 V c) (A_eqR0 V c 4) (afterR0_4 V c) t d
theorem beforeR0_5 (c : Dev nD) (t : Fin cfg0.N) (d) : (datR0 V c).before 5 t d = iblkR0 V c 5 t :=
  beforeR0_5_of V (datR0 V c) (A_eqR0 V c 5) (afterR0_5 V c) t d
theorem beforeR0_6 (c : Dev nD) (t : Fin cfg0.N) (d) : (datR0 V c).before 6 t d = iblkR0 V c 6 t :=
  beforeR0_6_of V (datR0 V c) (A_eqR0 V c 6) (afterR0_6 V c) t d

def bodyPreR0 (c : Dev nD) (t : Fin cfg0.N) : sProp 𝕄 :=
  iprop((datR0 V c).Φ t.castSucc ∗ (datR0 V c).owesAt () t.castSucc
    ∗ (∃ d, owns (c : Thread nD τ) (msR0_0 t) fullShare ((datR0 V c).before 0 t d))
    ∗ (∃ d, owns (c : Thread nD τ) (msR0_1 t) fullShare ((datR0 V c).before 1 t d))
    ∗ (∃ d, owns (c : Thread nD τ) (msR0_2 t) fullShare ((datR0 V c).before 2 t d))
    ∗ (∃ d, owns (c : Thread nD τ) (msR0_3 t) fullShare ((datR0 V c).before 3 t d))
    ∗ (∃ d, owns (c : Thread nD τ) (msR0_4 t) fullShare ((datR0 V c).before 4 t d))
    ∗ (∃ d, owns (c : Thread nD τ) (msR0_5 t) fullShare ((datR0 V c).before 5 t d))
    ∗ (∃ d, owns (c : Thread nD τ) (msR0_6 t) fullShare ((datR0 V c).before 6 t d))
    ∗ (∃ d, owns (c : Thread nD τ) (msR0_7 t) fullShare ((datR0 V c).before 7 t d)))

def bodyPostR0 (c : Dev nD) (t : Fin cfg0.N) : sProp 𝕄 :=
  iprop((datR0 V c).Φ t.succ ∗ (datR0 V c).owesAt () t.succ
    ∗ owns (c : Thread nD τ) (msR0_0 t) fullShare ((datR0 V c).after 0 t)
    ∗ owns (c : Thread nD τ) (msR0_1 t) fullShare ((datR0 V c).after 1 t)
    ∗ owns (c : Thread nD τ) (msR0_2 t) fullShare ((datR0 V c).after 2 t)
    ∗ owns (c : Thread nD τ) (msR0_3 t) fullShare ((datR0 V c).after 3 t)
    ∗ owns (c : Thread nD τ) (msR0_4 t) fullShare ((datR0 V c).after 4 t)
    ∗ owns (c : Thread nD τ) (msR0_5 t) fullShare ((datR0 V c).after 5 t)
    ∗ owns (c : Thread nD τ) (msR0_6 t) fullShare ((datR0 V c).after 6 t)
    ∗ owns (c : Thread nD τ) (msR0_7 t) fullShare ((datR0 V c).after 7 t))

/-- Before any point the invariant gives both scratch buffers at some contents: their named contents are forgotten. -/
theorem PhiSR0_open (c : Dev nD) (n : ℕ) (h : n ≤ cfg0.N) :
    PhiSR0 V c n h ⊢ iprop(iprop(iprop((∃ d, owns (c : Thread nD τ) scMR0_0 fullShare d) ∗ (∃ d, owns (c : Thread nD τ) scMR0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact BIBase.Entails.of_eq (PhiAR0_eq c)
  | succ n =>
    rw [PhiSR0_succ]
    iintro ⟨⟨⟨HS0, HS1⟩, HR⟩, Hg⟩
    isplitl [HS0 HS1 HR]
    · isplitl [HS0 HS1]
      · isplitl [HS0]
        · iexists _; iexact HS0
        iexists _; iexact HS1
      iexact HR
    iexact Hg

set_option maxHeartbeats 4800000 in
/-- The body at any point: a batch's first tile takes both scratch buffers at anything and leaves the batch's projections in them; a later tile takes them at what the point before left and hands them back. -/
theorem sound_bodyR0 (c : Dev nD) (t : Fin cfg0.N) :
    bodyPreR0 V c t ⊢ wp frame (wpE (defs₀ (F := F)) Variants.none c none) Set.univ (bodyAt0 t) (fun _ => bodyPostR0 V c t) := by
  unfold bodyPreR0 bodyPostR0
  rw [bodyAtR0_eq]
  simp only [beforeR0_0, beforeR0_1, beforeR0_2, beforeR0_3, beforeR0_4, beforeR0_5, beforeR0_6]
  rw [show (datR0 V c).owesAt () t.succ = (datR0 V c).owesAt () t.castSucc from rfl]
  rw [show (datR0 V c).Φ t.succ = PhiSR0 V c (t.val + 1) t.isLt from rfl, PhiSR0_succ]
  rw [afterR0_0, afterR0_1, afterR0_2, afterR0_3, afterR0_4, afterR0_5, afterR0_6, afterR0_7]
  rw [PhiSR0_castSucc V c t]
  by_cases h0 : t.val % 4 = 0
  · rw [outsAtR0_A V c t h0]
    refine BIBase.Entails.trans (sep_mono_left (PhiSR0_open V c _ _)) ?_
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_first c (grid0.coords t) ((hcondR0 t).mpr h0) (opsR0 t) (insR0 V c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [outsAtR0_B V c t h0]
    rw [PhiSR0_pos V c _ _ (fun h => h0 (by rw [h]))]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_later c (grid0.coords t) (fun h => h0 ((hcondR0 t).mp h)) (opsR0 t) (insR0 V c t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_obligationR0 (c : Dev nD) : BodyObligation (datR0 (F := F) V c) (defs₀ (F := F)) Variants.none () Set.univ := fun t => by
  rw [bigSep_W0, bigSep_W0]
  exact sound_bodyR0 V c t

/-- What the launch hands the region is the invariant before the first point. -/
theorem hinR0 (c : Dev nD) : Pipeline.ΦA spec0 c ⊢ (datR0 V c).Φ 0 := Entails.refl _

/-- After the last point the invariant gives the class's back. -/
theorem houtR0 (c : Dev nD) : (datR0 V c).Φ (Fin.last cfg0.N) ⊢ Pipeline.ΦA spec0 c := by
  rw [show (datR0 V c).Φ (Fin.last cfg0.N) = PhiSR0 V c (Fin.last cfg0.N).val (Nat.le_of_lt_succ (Fin.last cfg0.N).isLt) from rfl]
  rw [PhiAR0_eq]
  exact PhiSR0_open V c _ _

end

end Cert.KernelIdeal.Gen

end
-- ==== Proof.Runs1.lean ====
import proofs.«427532_j66606352826848_3_alg».proof.Proof.Gen.KernelIdeal.Launch
import proofs.«427532_j66606352826848_3_alg».proof.Proof.Gen.KernelIdeal.Skeleton
import proofs.«427532_j66606352826848_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condR1 (i : grid1.Coords) : Prop := (Scalar.cmpi .ne (Scalar.extui (Scalar.cmpi .eq (BitVec.ofNat 32 (i 1).val) 0#32)) 0#32) = 1#1

theorem hcondR1 : ∀ t : Fin cfg1.N, condR1 (grid1.coords t) ↔ t.val % 4 = 0 :=
  (by decide +kernel : ∀ t : Fin grid1.N, condR1 (grid1.coords t) ↔ t.val % 4 = 0)

abbrev scMR1_0 : Memref sig .tc .vmem S1024x1024 .bf16 := Memref.whole cc1_scratch0
abbrev scMR1_1 : Memref sig .tc .vmem S1024x1024 .bf16 := Memref.whole cc1_scratch1

abbrev msR1_0 (t : Fin cfg1.N) : Memref sig .tc .vmem S1x256x1024 .bf16 := win1_0.stage (cfg1.slots t 0)
abbrev hsR1_0 (t : Fin cfg1.N) : (msR1_0 t).IsWhole := hstage1_0 ((cfg1.slots t 0).cast nbuf1_0)
abbrev msR1_1 (t : Fin cfg1.N) : Memref sig .tc .vmem S1x1024x1024 .bf16 := win1_1.stage (cfg1.slots t 1)
abbrev hsR1_1 (t : Fin cfg1.N) : (msR1_1 t).IsWhole := hstage1_1 ((cfg1.slots t 1).cast nbuf1_1)
abbrev msR1_2 (t : Fin cfg1.N) : Memref sig .tc .vmem S1024x1024 .bf16 := win1_2.stage (cfg1.slots t 2)
abbrev hsR1_2 (t : Fin cfg1.N) : (msR1_2 t).IsWhole := hstage1_2 ((cfg1.slots t 2).cast nbuf1_2)
abbrev msR1_3 (t : Fin cfg1.N) : Memref sig .tc .vmem S1024x1024 .bf16 := win1_3.stage (cfg1.slots t 3)
abbrev hsR1_3 (t : Fin cfg1.N) : (msR1_3 t).IsWhole := hstage1_3 ((cfg1.slots t 3).cast nbuf1_3)
abbrev msR1_4 (t : Fin cfg1.N) : Memref sig .tc .vmem S1024x1024 .bf16 := win1_4.stage (cfg1.slots t 4)
abbrev hsR1_4 (t : Fin cfg1.N) : (msR1_4 t).IsWhole := hstage1_4 ((cfg1.slots t 4).cast nbuf1_4)
abbrev msR1_5 (t : Fin cfg1.N) : Memref sig .tc .vmem S1024x1024 .bf16 := win1_5.stage (cfg1.slots t 5)
abbrev hsR1_5 (t : Fin cfg1.N) : (msR1_5 t).IsWhole := hstage1_5 ((cfg1.slots t 5).cast nbuf1_5)
abbrev msR1_6 (t : Fin cfg1.N) : Memref sig .tc .vmem S1x1024 .f32 := win1_6.stage (cfg1.slots t 6)
abbrev hsR1_6 (t : Fin cfg1.N) : (msR1_6 t).IsWhole := hstage1_6 ((cfg1.slots t 6).cast nbuf1_6)
abbrev msR1_7 (t : Fin cfg1.N) : Memref sig .tc .vmem S1x256x1024 .bf16 := win1_7.stage (cfg1.slots t 7)
abbrev hsR1_7 (t : Fin cfg1.N) : (msR1_7 t).IsWhole := hstage1_7 ((cfg1.slots t 7).cast nbuf1_7)

theorem PhiAR1_eq (c : Dev nD) :
    (Pipeline.ΦA spec1 c : sProp 𝕄)
      = iprop(iprop(iprop((∃ d, owns (c : Thread nD τ) scMR1_0 fullShare d) ∗ (∃ d, owns (c : Thread nD τ) scMR1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scMR1_0, scMR1_1, owns_whole]; try rfl

end Cert.KernelIdeal.Gen

end
-- ==== Proof.Dat1.lean ====
import proofs.«427532_j66606352826848_3_alg».proof.Proof.Attn
import proofs.«427532_j66606352826848_3_alg».proof.Proof.Runs1

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

def iblkR1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem beforeR1_0_of {c : Dev nD} (dat : Dat τ (Elt F) Unit ℕ (UR sig nD τ) ℕ cfg1 c) (hA : dat.A 0 = V c (Pipeline.arrRef spec1 0))
    (hafter : ∀ t, dat.after 0 t = iblkR1 V c 0 t) (t : Fin cfg1.N) (d) : dat.before 0 t d = iblkR1 V c 0 t :=
  (dat.before_in_eq_fetched 0 rfl (fun _ => rfl) (fun _ _ _ => rfl) (fun t => by rw [hafter]; unfold Dat.blockOf iblkR1; rw [hA]; try rfl) t d).trans
    (by unfold Dat.fetched Dat.blockOf iblkR1; rw [hA]; try rfl)
theorem beforeR1_1_of {c : Dev nD} (dat : Dat τ (Elt F) Unit ℕ (UR sig nD τ) ℕ cfg1 c) (hA : dat.A 1 = V c (Pipeline.arrRef spec1 1))
    (hafter : ∀ t, dat.after 1 t = iblkR1 V c 1 t) (t : Fin cfg1.N) (d) : dat.before 1 t d = iblkR1 V c 1 t :=
  (dat.before_in_eq_fetched 1 rfl (fun _ => rfl) (fun _ _ _ => rfl) (fun t => by rw [hafter]; unfold Dat.blockOf iblkR1; rw [hA]; try rfl) t d).trans
    (by unfold Dat.fetched Dat.blockOf iblkR1; rw [hA]; try rfl)
theorem beforeR1_2_of {c : Dev nD} (dat : Dat τ (Elt F) Unit ℕ (UR sig nD τ) ℕ cfg1 c) (hA : dat.A 2 = V c (Pipeline.arrRef spec1 2))
    (hafter : ∀ t, dat.after 2 t = iblkR1 V c 2 t) (t : Fin cfg1.N) (d) : dat.before 2 t d = iblkR1 V c 2 t :=
  (dat.before_in_eq_fetched 2 rfl (fun _ => rfl) (fun _ _ _ => rfl) (fun t => by rw [hafter]; unfold Dat.blockOf iblkR1; rw [hA]; try rfl) t d).trans
    (by unfold Dat.fetched Dat.blockOf iblkR1; rw [hA]; try rfl)
theorem beforeR1_3_of {c : Dev nD} (dat : Dat τ (Elt F) Unit ℕ (UR sig nD τ) ℕ cfg1 c) (hA : dat.A 3 = V c (Pipeline.arrRef spec1 3))
    (hafter : ∀ t, dat.after 3 t = iblkR1 V c 3 t) (t : Fin cfg1.N) (d) : dat.before 3 t d = iblkR1 V c 3 t :=
  (dat.before_in_eq_fetched 3 rfl (fun _ => rfl) (fun _ _ _ => rfl) (fun t => by rw [hafter]; unfold Dat.blockOf iblkR1; rw [hA]; try rfl) t d).trans
    (by unfold Dat.fetched Dat.blockOf iblkR1; rw [hA]; try rfl)
theorem beforeR1_4_of {c : Dev nD} (dat : Dat τ (Elt F) Unit ℕ (UR sig nD τ) ℕ cfg1 c) (hA : dat.A 4 = V c (Pipeline.arrRef spec1 4))
    (hafter : ∀ t, dat.after 4 t = iblkR1 V c 4 t) (t : Fin cfg1.N) (d) : dat.before 4 t d = iblkR1 V c 4 t :=
  (dat.before_in_eq_fetched 4 rfl (fun _ => rfl) (fun _ _ _ => rfl) (fun t => by rw [hafter]; unfold Dat.blockOf iblkR1; rw [hA]; try rfl) t d).trans
    (by unfold Dat.fetched Dat.blockOf iblkR1; rw [hA]; try rfl)
theorem beforeR1_5_of {c : Dev nD} (dat : Dat τ (Elt F) Unit ℕ (UR sig nD τ) ℕ cfg1 c) (hA : dat.A 5 = V c (Pipeline.arrRef spec1 5))
    (hafter : ∀ t, dat.after 5 t = iblkR1 V c 5 t) (t : Fin cfg1.N) (d) : dat.before 5 t d = iblkR1 V c 5 t :=
  (dat.before_in_eq_fetched 5 rfl (fun _ => rfl) (fun _ _ _ => rfl) (fun t => by rw [hafter]; unfold Dat.blockOf iblkR1; rw [hA]; try rfl) t d).trans
    (by unfold Dat.fetched Dat.blockOf iblkR1; rw [hA]; try rfl)
theorem beforeR1_6_of {c : Dev nD} (dat : Dat τ (Elt F) Unit ℕ (UR sig nD τ) ℕ cfg1 c) (hA : dat.A 6 = V c (Pipeline.arrRef spec1 6))
    (hafter : ∀ t, dat.after 6 t = iblkR1 V c 6 t) (t : Fin cfg1.N) (d) : dat.before 6 t d = iblkR1 V c 6 t :=
  (dat.before_in_eq_fetched 6 rfl (fun _ => rfl) (fun _ _ _ => rfl) (fun t => by rw [hafter]; unfold Dat.blockOf iblkR1; rw [hA]; try rfl) t d).trans
    (by unfold Dat.fetched Dat.blockOf iblkR1; rw [hA]; try rfl)

/-- The kernel's operands at point `t`: each window's current staging buffer, then the two scratch buffers. -/
abbrev opsR1 (t : Fin cfg1.N) : Ops :=
  ⟨msR1_0 t, hsR1_0 t, msR1_1 t, hsR1_1 t, msR1_2 t, hsR1_2 t, msR1_3 t, hsR1_3 t, msR1_4 t, hsR1_4 t, msR1_5 t, hsR1_5 t, msR1_6 t, hsR1_6 t, msR1_7 t, hsR1_7 t, scMR1_0, Memref.isWhole_whole _, scMR1_1, Memref.isWhole_whole _⟩

/-- The seven input blocks at point `t`. -/
abbrev insR1 (c : Dev nD) (t : Fin cfg1.N) : Ins F :=
  ⟨iblkR1 V c 0 t, iblkR1 V c 1 t, iblkR1 V c 2 t, iblkR1 V c 3 t, iblkR1 V c 4 t, iblkR1 V c 5 t, iblkR1 V c 6 t⟩

theorem bodyAtR1_eq (t : Fin cfg1.N) : bodyAt1 (F := F) t = (opsR1 t).body (grid1.coords t) := rfl

/-- After the body at position `n`: the output block, then the two scratch buffers. A batch's first tile (`n` a multiple of 4) computes all three from its input blocks; a later tile keeps what the point before left in the scratch buffers. -/
def outsAtR1 (c : Dev nD) : (n : ℕ) → n < cfg1.N → Vec F S1x256x1024 .bf16 × Vec F S1024x1024 .bf16 × Vec F S1024x1024 .bf16
  | 0, hn => (insR1 V c ⟨0, hn⟩).first
  | n + 1, hn =>
    if (n + 1) % 4 = 0 then (insR1 V c ⟨n + 1, hn⟩).first
    else (insR1 V c ⟨n + 1, hn⟩).later (outsAtR1 c n (Nat.lt_of_succ_lt hn)).2.1 (outsAtR1 c n (Nat.lt_of_succ_lt hn)).2.2

theorem outsAtR1_A (c : Dev nD) (t : Fin cfg1.N) (h0 : t.val % 4 = 0) : outsAtR1 V c t.val t.isLt = (insR1 V c t).first := by
  obtain ⟨n, hn⟩ := t
  cases n with
  | zero => exact rfl
  | succ n => exact (if_pos h0).trans rfl

theorem outsAtR1_B (c : Dev nD) (t : Fin cfg1.N) (h0 : ¬t.val % 4 = 0) :
    outsAtR1 V c t.val t.isLt = (insR1 V c t).later (outsAtR1 V c (t.val - 1) (Nat.lt_of_le_of_lt (Nat.sub_le _ _) t.isLt)).2.1
      (outsAtR1 V c (t.val - 1) (Nat.lt_of_le_of_lt (Nat.sub_le _ _) t.isLt)).2.2 := by
  obtain ⟨n, hn⟩ := t
  cases n with
  | zero => exact absurd (Nat.zero_mod _) h0
  | succ n => exact (if_neg h0).trans rfl

def PhiSR1 (c : Dev nD) : (n : ℕ) → n ≤ cfg1.N → sProp 𝕄
  | 0, _ => Pipeline.ΦA spec1 c
  | n + 1, hn => iprop(iprop(iprop(owns (c : Thread nD τ) scMR1_0 fullShare ((outsAtR1 V c n hn).2.1) ∗ owns (c : Thread nD τ) scMR1_1 fullShare ((outsAtR1 V c n hn).2.2))
          ∗ Pipeline.scopedRestBut (Ix := Unit) (Name := ℕ) (U := UR sig nD τ) (Lvl := ℕ) (Val := Elt F) spec1 c [cc1_scratch0, cc1_scratch1]) ∗ (∃ r, prngReg c r))

theorem PhiSR1_succ (c : Dev nD) (n : ℕ) (hn : n < cfg1.N) :
    PhiSR1 V c (n + 1) hn = iprop(iprop(iprop(owns (c : Thread nD τ) scMR1_0 fullShare ((outsAtR1 V c n hn).2.1) ∗ owns (c : Thread nD τ) scMR1_1 fullShare ((outsAtR1 V c n hn).2.2))
          ∗ Pipeline.scopedRestBut (Ix := Unit) (Name := ℕ) (U := UR sig nD τ) (Lvl := ℕ) (Val := Elt F) spec1 c [cc1_scratch0, cc1_scratch1]) ∗ (∃ r, prngReg c r)) := rfl

theorem PhiSR1_pos (c : Dev nD) (n : ℕ) (h : n ≤ cfg1.N) (hz : n ≠ 0) :
    PhiSR1 V c n h = iprop(iprop(iprop(owns (c : Thread nD τ) scMR1_0 fullShare ((outsAtR1 V c (n - 1) (by omega)).2.1) ∗ owns (c : Thread nD τ) scMR1_1 fullShare ((outsAtR1 V c (n - 1) (by omega)).2.2))
          ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

def datR1 (c : Dev nD) : Dat τ (Elt F) Unit ℕ (UR sig nD τ) ℕ cfg1 c where
  A w := V c (Pipeline.arrRef spec1 w)
  after w t := match w with
    | ⟨0, _⟩ => iblkR1 V c 0 t
    | ⟨1, _⟩ => iblkR1 V c 1 t
    | ⟨2, _⟩ => iblkR1 V c 2 t
    | ⟨3, _⟩ => iblkR1 V c 3 t
    | ⟨4, _⟩ => iblkR1 V c 4 t
    | ⟨5, _⟩ => iblkR1 V c 5 t
    | ⟨6, _⟩ => iblkR1 V c 6 t
    | ⟨7, _⟩ => (outsAtR1 V c t.val t.isLt).1
  Φ t := PhiSR1 V c t.val (Nat.le_of_lt_succ t.isLt)
  q _ := fullShare
  owed _ := 0

theorem A_eqR1 (c : Dev nD) (w : Fin cfg1.W) : (datR1 V c).A w = V c (Pipeline.arrRef spec1 w) := by
  dsimp only [datR1]

theorem PhiSR1_castSucc (c : Dev nD) (t : Fin cfg1.N) :
    (datR1 V c).Φ t.castSucc = PhiSR1 V c t.val (Nat.le_of_lt t.isLt) := by
  dsimp only [datR1]; simp only [Fin.coe_castSucc]

theorem afterR1_0 (c : Dev nD) (t : Fin cfg1.N) : (datR1 V c).after 0 t = iblkR1 V c 0 t := by dsimp only [datR1]
theorem afterR1_1 (c : Dev nD) (t : Fin cfg1.N) : (datR1 V c).after 1 t = iblkR1 V c 1 t := by dsimp only [datR1]
theorem afterR1_2 (c : Dev nD) (t : Fin cfg1.N) : (datR1 V c).after 2 t = iblkR1 V c 2 t := by dsimp only [datR1]
theorem afterR1_3 (c : Dev nD) (t : Fin cfg1.N) : (datR1 V c).after 3 t = iblkR1 V c 3 t := by dsimp only [datR1]
theorem afterR1_4 (c : Dev nD) (t : Fin cfg1.N) : (datR1 V c).after 4 t = iblkR1 V c 4 t := by dsimp only [datR1]
theorem afterR1_5 (c : Dev nD) (t : Fin cfg1.N) : (datR1 V c).after 5 t = iblkR1 V c 5 t := by dsimp only [datR1]
theorem afterR1_6 (c : Dev nD) (t : Fin cfg1.N) : (datR1 V c).after 6 t = iblkR1 V c 6 t := by dsimp only [datR1]
theorem afterR1_7 (c : Dev nD) (t : Fin cfg1.N) : (datR1 V c).after 7 t = (outsAtR1 V c t.val t.isLt).1 := by dsimp only [datR1]

theorem beforeR1_0 (c : Dev nD) (t : Fin cfg1.N) (d) : (datR1 V c).before 0 t d = iblkR1 V c 0 t :=
  beforeR1_0_of V (datR1 V c) (A_eqR1 V c 0) (afterR1_0 V c) t d
theorem beforeR1_1 (c : Dev nD) (t : Fin cfg1.N) (d) : (datR1 V c).before 1 t d = iblkR1 V c 1 t :=
  beforeR1_1_of V (datR1 V c) (A_eqR1 V c 1) (afterR1_1 V c) t d
theorem beforeR1_2 (c : Dev nD) (t : Fin cfg1.N) (d) : (datR1 V c).before 2 t d = iblkR1 V c 2 t :=
  beforeR1_2_of V (datR1 V c) (A_eqR1 V c 2) (afterR1_2 V c) t d
theorem beforeR1_3 (c : Dev nD) (t : Fin cfg1.N) (d) : (datR1 V c).before 3 t d = iblkR1 V c 3 t :=
  beforeR1_3_of V (datR1 V c) (A_eqR1 V c 3) (afterR1_3 V c) t d
theorem beforeR1_4 (c : Dev nD) (t : Fin cfg1.N) (d) : (datR1 V c).before 4 t d = iblkR1 V c 4 t :=
  beforeR1_4_of V (datR1 V c) (A_eqR1 V c 4) (afterR1_4 V c) t d
theorem beforeR1_5 (c : Dev nD) (t : Fin cfg1.N) (d) : (datR1 V c).before 5 t d = iblkR1 V c 5 t :=
  beforeR1_5_of V (datR1 V c) (A_eqR1 V c 5) (afterR1_5 V c) t d
theorem beforeR1_6 (c : Dev nD) (t : Fin cfg1.N) (d) : (datR1 V c).before 6 t d = iblkR1 V c 6 t :=
  beforeR1_6_of V (datR1 V c) (A_eqR1 V c 6) (afterR1_6 V c) t d

def bodyPreR1 (c : Dev nD) (t : Fin cfg1.N) : sProp 𝕄 :=
  iprop((datR1 V c).Φ t.castSucc ∗ (datR1 V c).owesAt () t.castSucc
    ∗ (∃ d, owns (c : Thread nD τ) (msR1_0 t) fullShare ((datR1 V c).before 0 t d))
    ∗ (∃ d, owns (c : Thread nD τ) (msR1_1 t) fullShare ((datR1 V c).before 1 t d))
    ∗ (∃ d, owns (c : Thread nD τ) (msR1_2 t) fullShare ((datR1 V c).before 2 t d))
    ∗ (∃ d, owns (c : Thread nD τ) (msR1_3 t) fullShare ((datR1 V c).before 3 t d))
    ∗ (∃ d, owns (c : Thread nD τ) (msR1_4 t) fullShare ((datR1 V c).before 4 t d))
    ∗ (∃ d, owns (c : Thread nD τ) (msR1_5 t) fullShare ((datR1 V c).before 5 t d))
    ∗ (∃ d, owns (c : Thread nD τ) (msR1_6 t) fullShare ((datR1 V c).before 6 t d))
    ∗ (∃ d, owns (c : Thread nD τ) (msR1_7 t) fullShare ((datR1 V c).before 7 t d)))

def bodyPostR1 (c : Dev nD) (t : Fin cfg1.N) : sProp 𝕄 :=
  iprop((datR1 V c).Φ t.succ ∗ (datR1 V c).owesAt () t.succ
    ∗ owns (c : Thread nD τ) (msR1_0 t) fullShare ((datR1 V c).after 0 t)
    ∗ owns (c : Thread nD τ) (msR1_1 t) fullShare ((datR1 V c).after 1 t)
    ∗ owns (c : Thread nD τ) (msR1_2 t) fullShare ((datR1 V c).after 2 t)
    ∗ owns (c : Thread nD τ) (msR1_3 t) fullShare ((datR1 V c).after 3 t)
    ∗ owns (c : Thread nD τ) (msR1_4 t) fullShare ((datR1 V c).after 4 t)
    ∗ owns (c : Thread nD τ) (msR1_5 t) fullShare ((datR1 V c).after 5 t)
    ∗ owns (c : Thread nD τ) (msR1_6 t) fullShare ((datR1 V c).after 6 t)
    ∗ owns (c : Thread nD τ) (msR1_7 t) fullShare ((datR1 V c).after 7 t))

/-- Before any point the invariant gives both scratch buffers at some contents: their named contents are forgotten. -/
theorem PhiSR1_open (c : Dev nD) (n : ℕ) (h : n ≤ cfg1.N) :
    PhiSR1 V c n h ⊢ iprop(iprop(iprop((∃ d, owns (c : Thread nD τ) scMR1_0 fullShare d) ∗ (∃ d, owns (c : Thread nD τ) scMR1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact BIBase.Entails.of_eq (PhiAR1_eq c)
  | succ n =>
    rw [PhiSR1_succ]
    iintro ⟨⟨⟨HS0, HS1⟩, HR⟩, Hg⟩
    isplitl [HS0 HS1 HR]
    · isplitl [HS0 HS1]
      · isplitl [HS0]
        · iexists _; iexact HS0
        iexists _; iexact HS1
      iexact HR
    iexact Hg

set_option maxHeartbeats 4800000 in
/-- The body at any point: a batch's first tile takes both scratch buffers at anything and leaves the batch's projections in them; a later tile takes them at what the point before left and hands them back. -/
theorem sound_bodyR1 (c : Dev nD) (t : Fin cfg1.N) :
    bodyPreR1 V c t ⊢ wp frame (wpE (defs₀ (F := F)) Variants.none c none) Set.univ (bodyAt1 t) (fun _ => bodyPostR1 V c t) := by
  unfold bodyPreR1 bodyPostR1
  rw [bodyAtR1_eq]
  simp only [beforeR1_0, beforeR1_1, beforeR1_2, beforeR1_3, beforeR1_4, beforeR1_5, beforeR1_6]
  rw [show (datR1 V c).owesAt () t.succ = (datR1 V c).owesAt () t.castSucc from rfl]
  rw [show (datR1 V c).Φ t.succ = PhiSR1 V c (t.val + 1) t.isLt from rfl, PhiSR1_succ]
  rw [afterR1_0, afterR1_1, afterR1_2, afterR1_3, afterR1_4, afterR1_5, afterR1_6, afterR1_7]
  rw [PhiSR1_castSucc V c t]
  by_cases h0 : t.val % 4 = 0
  · rw [outsAtR1_A V c t h0]
    refine BIBase.Entails.trans (sep_mono_left (PhiSR1_open V c _ _)) ?_
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_first c (grid1.coords t) ((hcondR1 t).mpr h0) (opsR1 t) (insR1 V c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [outsAtR1_B V c t h0]
    rw [PhiSR1_pos V c _ _ (fun h => h0 (by rw [h]))]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_later c (grid1.coords t) (fun h => h0 ((hcondR1 t).mp h)) (opsR1 t) (insR1 V c t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_obligationR1 (c : Dev nD) : BodyObligation (datR1 (F := F) V c) (defs₀ (F := F)) Variants.none () Set.univ := fun t => by
  rw [bigSep_W1, bigSep_W1]
  exact sound_bodyR1 V c t

/-- What the launch hands the region is the invariant before the first point. -/
theorem hinR1 (c : Dev nD) : Pipeline.ΦA spec1 c ⊢ (datR1 V c).Φ 0 := Entails.refl _

/-- After the last point the invariant gives the class's back. -/
theorem houtR1 (c : Dev nD) : (datR1 V c).Φ (Fin.last cfg1.N) ⊢ Pipeline.ΦA spec1 c := by
  rw [show (datR1 V c).Φ (Fin.last cfg1.N) = PhiSR1 V c (Fin.last cfg1.N).val (Nat.le_of_lt_succ (Fin.last cfg1.N).isLt) from rfl]
  rw [PhiAR1_eq]
  exact PhiSR1_open V c _ _

end

end Cert.KernelIdeal.Gen

end
-- ==== Proof.Runs2.lean ====
import proofs.«427532_j66606352826848_3_alg».proof.Proof.Gen.KernelIdeal.Launch
import proofs.«427532_j66606352826848_3_alg».proof.Proof.Gen.KernelIdeal.Skeleton
import proofs.«427532_j66606352826848_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condR2 (i : grid2.Coords) : Prop := (Scalar.cmpi .ne (Scalar.extui (Scalar.cmpi .eq (BitVec.ofNat 32 (i 1).val) 0#32)) 0#32) = 1#1

theorem hcondR2 : ∀ t : Fin cfg2.N, condR2 (grid2.coords t) ↔ t.val % 4 = 0 :=
  (by decide +kernel : ∀ t : Fin grid2.N, condR2 (grid2.coords t) ↔ t.val % 4 = 0)

abbrev scMR2_0 : Memref sig .tc .vmem S1024x1024 .bf16 := Memref.whole cc2_scratch0
abbrev scMR2_1 : Memref sig .tc .vmem S1024x1024 .bf16 := Memref.whole cc2_scratch1

abbrev msR2_0 (t : Fin cfg2.N) : Memref sig .tc .vmem S1x256x1024 .bf16 := win2_0.stage (cfg2.slots t 0)
abbrev hsR2_0 (t : Fin cfg2.N) : (msR2_0 t).IsWhole := hstage2_0 ((cfg2.slots t 0).cast nbuf2_0)
abbrev msR2_1 (t : Fin cfg2.N) : Memref sig .tc .vmem S1x1024x1024 .bf16 := win2_1.stage (cfg2.slots t 1)
abbrev hsR2_1 (t : Fin cfg2.N) : (msR2_1 t).IsWhole := hstage2_1 ((cfg2.slots t 1).cast nbuf2_1)
abbrev msR2_2 (t : Fin cfg2.N) : Memref sig .tc .vmem S1024x1024 .bf16 := win2_2.stage (cfg2.slots t 2)
abbrev hsR2_2 (t : Fin cfg2.N) : (msR2_2 t).IsWhole := hstage2_2 ((cfg2.slots t 2).cast nbuf2_2)
abbrev msR2_3 (t : Fin cfg2.N) : Memref sig .tc .vmem S1024x1024 .bf16 := win2_3.stage (cfg2.slots t 3)
abbrev hsR2_3 (t : Fin cfg2.N) : (msR2_3 t).IsWhole := hstage2_3 ((cfg2.slots t 3).cast nbuf2_3)
abbrev msR2_4 (t : Fin cfg2.N) : Memref sig .tc .vmem S1024x1024 .bf16 := win2_4.stage (cfg2.slots t 4)
abbrev hsR2_4 (t : Fin cfg2.N) : (msR2_4 t).IsWhole := hstage2_4 ((cfg2.slots t 4).cast nbuf2_4)
abbrev msR2_5 (t : Fin cfg2.N) : Memref sig .tc .vmem S1024x1024 .bf16 := win2_5.stage (cfg2.slots t 5)
abbrev hsR2_5 (t : Fin cfg2.N) : (msR2_5 t).IsWhole := hstage2_5 ((cfg2.slots t 5).cast nbuf2_5)
abbrev msR2_6 (t : Fin cfg2.N) : Memref sig .tc .vmem S1x1024 .f32 := win2_6.stage (cfg2.slots t 6)
abbrev hsR2_6 (t : Fin cfg2.N) : (msR2_6 t).IsWhole := hstage2_6 ((cfg2.slots t 6).cast nbuf2_6)
abbrev msR2_7 (t : Fin cfg2.N) : Memref sig .tc .vmem S1x256x1024 .bf16 := win2_7.stage (cfg2.slots t 7)
abbrev hsR2_7 (t : Fin cfg2.N) : (msR2_7 t).IsWhole := hstage2_7 ((cfg2.slots t 7).cast nbuf2_7)

theorem PhiAR2_eq (c : Dev nD) :
    (Pipeline.ΦA spec2 c : sProp 𝕄)
      = iprop(iprop(iprop((∃ d, owns (c : Thread nD τ) scMR2_0 fullShare d) ∗ (∃ d, owns (c : Thread nD τ) scMR2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scMR2_0, scMR2_1, owns_whole]; try rfl

end Cert.KernelIdeal.Gen

end
-- ==== Proof.Dat2.lean ====
import proofs.«427532_j66606352826848_3_alg».proof.Proof.Attn
import proofs.«427532_j66606352826848_3_alg».proof.Proof.Runs2

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

def iblkR2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem beforeR2_0_of {c : Dev nD} (dat : Dat τ (Elt F) Unit ℕ (UR sig nD τ) ℕ cfg2 c) (hA : dat.A 0 = V c (Pipeline.arrRef spec2 0))
    (hafter : ∀ t, dat.after 0 t = iblkR2 V c 0 t) (t : Fin cfg2.N) (d) : dat.before 0 t d = iblkR2 V c 0 t :=
  (dat.before_in_eq_fetched 0 rfl (fun _ => rfl) (fun _ _ _ => rfl) (fun t => by rw [hafter]; unfold Dat.blockOf iblkR2; rw [hA]; try rfl) t d).trans
    (by unfold Dat.fetched Dat.blockOf iblkR2; rw [hA]; try rfl)
theorem beforeR2_1_of {c : Dev nD} (dat : Dat τ (Elt F) Unit ℕ (UR sig nD τ) ℕ cfg2 c) (hA : dat.A 1 = V c (Pipeline.arrRef spec2 1))
    (hafter : ∀ t, dat.after 1 t = iblkR2 V c 1 t) (t : Fin cfg2.N) (d) : dat.before 1 t d = iblkR2 V c 1 t :=
  (dat.before_in_eq_fetched 1 rfl (fun _ => rfl) (fun _ _ _ => rfl) (fun t => by rw [hafter]; unfold Dat.blockOf iblkR2; rw [hA]; try rfl) t d).trans
    (by unfold Dat.fetched Dat.blockOf iblkR2; rw [hA]; try rfl)
theorem beforeR2_2_of {c : Dev nD} (dat : Dat τ (Elt F) Unit ℕ (UR sig nD τ) ℕ cfg2 c) (hA : dat.A 2 = V c (Pipeline.arrRef spec2 2))
    (hafter : ∀ t, dat.after 2 t = iblkR2 V c 2 t) (t : Fin cfg2.N) (d) : dat.before 2 t d = iblkR2 V c 2 t :=
  (dat.before_in_eq_fetched 2 rfl (fun _ => rfl) (fun _ _ _ => rfl) (fun t => by rw [hafter]; unfold Dat.blockOf iblkR2; rw [hA]; try rfl) t d).trans
    (by unfold Dat.fetched Dat.blockOf iblkR2; rw [hA]; try rfl)
theorem beforeR2_3_of {c : Dev nD} (dat : Dat τ (Elt F) Unit ℕ (UR sig nD τ) ℕ cfg2 c) (hA : dat.A 3 = V c (Pipeline.arrRef spec2 3))
    (hafter : ∀ t, dat.after 3 t = iblkR2 V c 3 t) (t : Fin cfg2.N) (d) : dat.before 3 t d = iblkR2 V c 3 t :=
  (dat.before_in_eq_fetched 3 rfl (fun _ => rfl) (fun _ _ _ => rfl) (fun t => by rw [hafter]; unfold Dat.blockOf iblkR2; rw [hA]; try rfl) t d).trans
    (by unfold Dat.fetched Dat.blockOf iblkR2; rw [hA]; try rfl)
theorem beforeR2_4_of {c : Dev nD} (dat : Dat τ (Elt F) Unit ℕ (UR sig nD τ) ℕ cfg2 c) (hA : dat.A 4 = V c (Pipeline.arrRef spec2 4))
    (hafter : ∀ t, dat.after 4 t = iblkR2 V c 4 t) (t : Fin cfg2.N) (d) : dat.before 4 t d = iblkR2 V c 4 t :=
  (dat.before_in_eq_fetched 4 rfl (fun _ => rfl) (fun _ _ _ => rfl) (fun t => by rw [hafter]; unfold Dat.blockOf iblkR2; rw [hA]; try rfl) t d).trans
    (by unfold Dat.fetched Dat.blockOf iblkR2; rw [hA]; try rfl)
theorem beforeR2_5_of {c : Dev nD} (dat : Dat τ (Elt F) Unit ℕ (UR sig nD τ) ℕ cfg2 c) (hA : dat.A 5 = V c (Pipeline.arrRef spec2 5))
    (hafter : ∀ t, dat.after 5 t = iblkR2 V c 5 t) (t : Fin cfg2.N) (d) : dat.before 5 t d = iblkR2 V c 5 t :=
  (dat.before_in_eq_fetched 5 rfl (fun _ => rfl) (fun _ _ _ => rfl) (fun t => by rw [hafter]; unfold Dat.blockOf iblkR2; rw [hA]; try rfl) t d).trans
    (by unfold Dat.fetched Dat.blockOf iblkR2; rw [hA]; try rfl)
theorem beforeR2_6_of {c : Dev nD} (dat : Dat τ (Elt F) Unit ℕ (UR sig nD τ) ℕ cfg2 c) (hA : dat.A 6 = V c (Pipeline.arrRef spec2 6))
    (hafter : ∀ t, dat.after 6 t = iblkR2 V c 6 t) (t : Fin cfg2.N) (d) : dat.before 6 t d = iblkR2 V c 6 t :=
  (dat.before_in_eq_fetched 6 rfl (fun _ => rfl) (fun _ _ _ => rfl) (fun t => by rw [hafter]; unfold Dat.blockOf iblkR2; rw [hA]; try rfl) t d).trans
    (by unfold Dat.fetched Dat.blockOf iblkR2; rw [hA]; try rfl)

/-- The kernel's operands at point `t`: each window's current staging buffer, then the two scratch buffers. -/
abbrev opsR2 (t : Fin cfg2.N) : Ops :=
  ⟨msR2_0 t, hsR2_0 t, msR2_1 t, hsR2_1 t, msR2_2 t, hsR2_2 t, msR2_3 t, hsR2_3 t, msR2_4 t, hsR2_4 t, msR2_5 t, hsR2_5 t, msR2_6 t, hsR2_6 t, msR2_7 t, hsR2_7 t, scMR2_0, Memref.isWhole_whole _, scMR2_1, Memref.isWhole_whole _⟩

/-- The seven input blocks at point `t`. -/
abbrev insR2 (c : Dev nD) (t : Fin cfg2.N) : Ins F :=
  ⟨iblkR2 V c 0 t, iblkR2 V c 1 t, iblkR2 V c 2 t, iblkR2 V c 3 t, iblkR2 V c 4 t, iblkR2 V c 5 t, iblkR2 V c 6 t⟩

theorem bodyAtR2_eq (t : Fin cfg2.N) : bodyAt2 (F := F) t = (opsR2 t).body (grid2.coords t) := rfl

/-- After the body at position `n`: the output block, then the two scratch buffers. A batch's first tile (`n` a multiple of 4) computes all three from its input blocks; a later tile keeps what the point before left in the scratch buffers. -/
def outsAtR2 (c : Dev nD) : (n : ℕ) → n < cfg2.N → Vec F S1x256x1024 .bf16 × Vec F S1024x1024 .bf16 × Vec F S1024x1024 .bf16
  | 0, hn => (insR2 V c ⟨0, hn⟩).first
  | n + 1, hn =>
    if (n + 1) % 4 = 0 then (insR2 V c ⟨n + 1, hn⟩).first
    else (insR2 V c ⟨n + 1, hn⟩).later (outsAtR2 c n (Nat.lt_of_succ_lt hn)).2.1 (outsAtR2 c n (Nat.lt_of_succ_lt hn)).2.2

theorem outsAtR2_A (c : Dev nD) (t : Fin cfg2.N) (h0 : t.val % 4 = 0) : outsAtR2 V c t.val t.isLt = (insR2 V c t).first := by
  obtain ⟨n, hn⟩ := t
  cases n with
  | zero => exact rfl
  | succ n => exact (if_pos h0).trans rfl

theorem outsAtR2_B (c : Dev nD) (t : Fin cfg2.N) (h0 : ¬t.val % 4 = 0) :
    outsAtR2 V c t.val t.isLt = (insR2 V c t).later (outsAtR2 V c (t.val - 1) (Nat.lt_of_le_of_lt (Nat.sub_le _ _) t.isLt)).2.1
      (outsAtR2 V c (t.val - 1) (Nat.lt_of_le_of_lt (Nat.sub_le _ _) t.isLt)).2.2 := by
  obtain ⟨n, hn⟩ := t
  cases n with
  | zero => exact absurd (Nat.zero_mod _) h0
  | succ n => exact (if_neg h0).trans rfl

def PhiSR2 (c : Dev nD) : (n : ℕ) → n ≤ cfg2.N → sProp 𝕄
  | 0, _ => Pipeline.ΦA spec2 c
  | n + 1, hn => iprop(iprop(iprop(owns (c : Thread nD τ) scMR2_0 fullShare ((outsAtR2 V c n hn).2.1) ∗ owns (c : Thread nD τ) scMR2_1 fullShare ((outsAtR2 V c n hn).2.2))
          ∗ Pipeline.scopedRestBut (Ix := Unit) (Name := ℕ) (U := UR sig nD τ) (Lvl := ℕ) (Val := Elt F) spec2 c [cc2_scratch0, cc2_scratch1]) ∗ (∃ r, prngReg c r))

theorem PhiSR2_succ (c : Dev nD) (n : ℕ) (hn : n < cfg2.N) :
    PhiSR2 V c (n + 1) hn = iprop(iprop(iprop(owns (c : Thread nD τ) scMR2_0 fullShare ((outsAtR2 V c n hn).2.1) ∗ owns (c : Thread nD τ) scMR2_1 fullShare ((outsAtR2 V c n hn).2.2))
          ∗ Pipeline.scopedRestBut (Ix := Unit) (Name := ℕ) (U := UR sig nD τ) (Lvl := ℕ) (Val := Elt F) spec2 c [cc2_scratch0, cc2_scratch1]) ∗ (∃ r, prngReg c r)) := rfl

theorem PhiSR2_pos (c : Dev nD) (n : ℕ) (h : n ≤ cfg2.N) (hz : n ≠ 0) :
    PhiSR2 V c n h = iprop(iprop(iprop(owns (c : Thread nD τ) scMR2_0 fullShare ((outsAtR2 V c (n - 1) (by omega)).2.1) ∗ owns (c : Thread nD τ) scMR2_1 fullShare ((outsAtR2 V c (n - 1) (by omega)).2.2))
          ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

def datR2 (c : Dev nD) : Dat τ (Elt F) Unit ℕ (UR sig nD τ) ℕ cfg2 c where
  A w := V c (Pipeline.arrRef spec2 w)
  after w t := match w with
    | ⟨0, _⟩ => iblkR2 V c 0 t
    | ⟨1, _⟩ => iblkR2 V c 1 t
    | ⟨2, _⟩ => iblkR2 V c 2 t
    | ⟨3, _⟩ => iblkR2 V c 3 t
    | ⟨4, _⟩ => iblkR2 V c 4 t
    | ⟨5, _⟩ => iblkR2 V c 5 t
    | ⟨6, _⟩ => iblkR2 V c 6 t
    | ⟨7, _⟩ => (outsAtR2 V c t.val t.isLt).1
  Φ t := PhiSR2 V c t.val (Nat.le_of_lt_succ t.isLt)
  q _ := fullShare
  owed _ := 0

theorem A_eqR2 (c : Dev nD) (w : Fin cfg2.W) : (datR2 V c).A w = V c (Pipeline.arrRef spec2 w) := by
  dsimp only [datR2]

theorem PhiSR2_castSucc (c : Dev nD) (t : Fin cfg2.N) :
    (datR2 V c).Φ t.castSucc = PhiSR2 V c t.val (Nat.le_of_lt t.isLt) := by
  dsimp only [datR2]; simp only [Fin.coe_castSucc]

theorem afterR2_0 (c : Dev nD) (t : Fin cfg2.N) : (datR2 V c).after 0 t = iblkR2 V c 0 t := by dsimp only [datR2]
theorem afterR2_1 (c : Dev nD) (t : Fin cfg2.N) : (datR2 V c).after 1 t = iblkR2 V c 1 t := by dsimp only [datR2]
theorem afterR2_2 (c : Dev nD) (t : Fin cfg2.N) : (datR2 V c).after 2 t = iblkR2 V c 2 t := by dsimp only [datR2]
theorem afterR2_3 (c : Dev nD) (t : Fin cfg2.N) : (datR2 V c).after 3 t = iblkR2 V c 3 t := by dsimp only [datR2]
theorem afterR2_4 (c : Dev nD) (t : Fin cfg2.N) : (datR2 V c).after 4 t = iblkR2 V c 4 t := by dsimp only [datR2]
theorem afterR2_5 (c : Dev nD) (t : Fin cfg2.N) : (datR2 V c).after 5 t = iblkR2 V c 5 t := by dsimp only [datR2]
theorem afterR2_6 (c : Dev nD) (t : Fin cfg2.N) : (datR2 V c).after 6 t = iblkR2 V c 6 t := by dsimp only [datR2]
theorem afterR2_7 (c : Dev nD) (t : Fin cfg2.N) : (datR2 V c).after 7 t = (outsAtR2 V c t.val t.isLt).1 := by dsimp only [datR2]

theorem beforeR2_0 (c : Dev nD) (t : Fin cfg2.N) (d) : (datR2 V c).before 0 t d = iblkR2 V c 0 t :=
  beforeR2_0_of V (datR2 V c) (A_eqR2 V c 0) (afterR2_0 V c) t d
theorem beforeR2_1 (c : Dev nD) (t : Fin cfg2.N) (d) : (datR2 V c).before 1 t d = iblkR2 V c 1 t :=
  beforeR2_1_of V (datR2 V c) (A_eqR2 V c 1) (afterR2_1 V c) t d
theorem beforeR2_2 (c : Dev nD) (t : Fin cfg2.N) (d) : (datR2 V c).before 2 t d = iblkR2 V c 2 t :=
  beforeR2_2_of V (datR2 V c) (A_eqR2 V c 2) (afterR2_2 V c) t d
theorem beforeR2_3 (c : Dev nD) (t : Fin cfg2.N) (d) : (datR2 V c).before 3 t d = iblkR2 V c 3 t :=
  beforeR2_3_of V (datR2 V c) (A_eqR2 V c 3) (afterR2_3 V c) t d
theorem beforeR2_4 (c : Dev nD) (t : Fin cfg2.N) (d) : (datR2 V c).before 4 t d = iblkR2 V c 4 t :=
  beforeR2_4_of V (datR2 V c) (A_eqR2 V c 4) (afterR2_4 V c) t d
theorem beforeR2_5 (c : Dev nD) (t : Fin cfg2.N) (d) : (datR2 V c).before 5 t d = iblkR2 V c 5 t :=
  beforeR2_5_of V (datR2 V c) (A_eqR2 V c 5) (afterR2_5 V c) t d
theorem beforeR2_6 (c : Dev nD) (t : Fin cfg2.N) (d) : (datR2 V c).before 6 t d = iblkR2 V c 6 t :=
  beforeR2_6_of V (datR2 V c) (A_eqR2 V c 6) (afterR2_6 V c) t d

def bodyPreR2 (c : Dev nD) (t : Fin cfg2.N) : sProp 𝕄 :=
  iprop((datR2 V c).Φ t.castSucc ∗ (datR2 V c).owesAt () t.castSucc
    ∗ (∃ d, owns (c : Thread nD τ) (msR2_0 t) fullShare ((datR2 V c).before 0 t d))
    ∗ (∃ d, owns (c : Thread nD τ) (msR2_1 t) fullShare ((datR2 V c).before 1 t d))
    ∗ (∃ d, owns (c : Thread nD τ) (msR2_2 t) fullShare ((datR2 V c).before 2 t d))
    ∗ (∃ d, owns (c : Thread nD τ) (msR2_3 t) fullShare ((datR2 V c).before 3 t d))
    ∗ (∃ d, owns (c : Thread nD τ) (msR2_4 t) fullShare ((datR2 V c).before 4 t d))
    ∗ (∃ d, owns (c : Thread nD τ) (msR2_5 t) fullShare ((datR2 V c).before 5 t d))
    ∗ (∃ d, owns (c : Thread nD τ) (msR2_6 t) fullShare ((datR2 V c).before 6 t d))
    ∗ (∃ d, owns (c : Thread nD τ) (msR2_7 t) fullShare ((datR2 V c).before 7 t d)))

def bodyPostR2 (c : Dev nD) (t : Fin cfg2.N) : sProp 𝕄 :=
  iprop((datR2 V c).Φ t.succ ∗ (datR2 V c).owesAt () t.succ
    ∗ owns (c : Thread nD τ) (msR2_0 t) fullShare ((datR2 V c).after 0 t)
    ∗ owns (c : Thread nD τ) (msR2_1 t) fullShare ((datR2 V c).after 1 t)
    ∗ owns (c : Thread nD τ) (msR2_2 t) fullShare ((datR2 V c).after 2 t)
    ∗ owns (c : Thread nD τ) (msR2_3 t) fullShare ((datR2 V c).after 3 t)
    ∗ owns (c : Thread nD τ) (msR2_4 t) fullShare ((datR2 V c).after 4 t)
    ∗ owns (c : Thread nD τ) (msR2_5 t) fullShare ((datR2 V c).after 5 t)
    ∗ owns (c : Thread nD τ) (msR2_6 t) fullShare ((datR2 V c).after 6 t)
    ∗ owns (c : Thread nD τ) (msR2_7 t) fullShare ((datR2 V c).after 7 t))

/-- Before any point the invariant gives both scratch buffers at some contents: their named contents are forgotten. -/
theorem PhiSR2_open (c : Dev nD) (n : ℕ) (h : n ≤ cfg2.N) :
    PhiSR2 V c n h ⊢ iprop(iprop(iprop((∃ d, owns (c : Thread nD τ) scMR2_0 fullShare d) ∗ (∃ d, owns (c : Thread nD τ) scMR2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact BIBase.Entails.of_eq (PhiAR2_eq c)
  | succ n =>
    rw [PhiSR2_succ]
    iintro ⟨⟨⟨HS0, HS1⟩, HR⟩, Hg⟩
    isplitl [HS0 HS1 HR]
    · isplitl [HS0 HS1]
      · isplitl [HS0]
        · iexists _; iexact HS0
        iexists _; iexact HS1
      iexact HR
    iexact Hg

set_option maxHeartbeats 4800000 in
/-- The body at any point: a batch's first tile takes both scratch buffers at anything and leaves the batch's projections in them; a later tile takes them at what the point before left and hands them back. -/
theorem sound_bodyR2 (c : Dev nD) (t : Fin cfg2.N) :
    bodyPreR2 V c t ⊢ wp frame (wpE (defs₀ (F := F)) Variants.none c none) Set.univ (bodyAt2 t) (fun _ => bodyPostR2 V c t) := by
  unfold bodyPreR2 bodyPostR2
  rw [bodyAtR2_eq]
  simp only [beforeR2_0, beforeR2_1, beforeR2_2, beforeR2_3, beforeR2_4, beforeR2_5, beforeR2_6]
  rw [show (datR2 V c).owesAt () t.succ = (datR2 V c).owesAt () t.castSucc from rfl]
  rw [show (datR2 V c).Φ t.succ = PhiSR2 V c (t.val + 1) t.isLt from rfl, PhiSR2_succ]
  rw [afterR2_0, afterR2_1, afterR2_2, afterR2_3, afterR2_4, afterR2_5, afterR2_6, afterR2_7]
  rw [PhiSR2_castSucc V c t]
  by_cases h0 : t.val % 4 = 0
  · rw [outsAtR2_A V c t h0]
    refine BIBase.Entails.trans (sep_mono_left (PhiSR2_open V c _ _)) ?_
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_first c (grid2.coords t) ((hcondR2 t).mpr h0) (opsR2 t) (insR2 V c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [outsAtR2_B V c t h0]
    rw [PhiSR2_pos V c _ _ (fun h => h0 (by rw [h]))]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_later c (grid2.coords t) (fun h => h0 ((hcondR2 t).mp h)) (opsR2 t) (insR2 V c t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_obligationR2 (c : Dev nD) : BodyObligation (datR2 (F := F) V c) (defs₀ (F := F)) Variants.none () Set.univ := fun t => by
  rw [bigSep_W2, bigSep_W2]
  exact sound_bodyR2 V c t

/-- What the launch hands the region is the invariant before the first point. -/
theorem hinR2 (c : Dev nD) : Pipeline.ΦA spec2 c ⊢ (datR2 V c).Φ 0 := Entails.refl _

/-- After the last point the invariant gives the class's back. -/
theorem houtR2 (c : Dev nD) : (datR2 V c).Φ (Fin.last cfg2.N) ⊢ Pipeline.ΦA spec2 c := by
  rw [show (datR2 V c).Φ (Fin.last cfg2.N) = PhiSR2 V c (Fin.last cfg2.N).val (Nat.le_of_lt_succ (Fin.last cfg2.N).isLt) from rfl]
  rw [PhiAR2_eq]
  exact PhiSR2_open V c _ _

end

end Cert.KernelIdeal.Gen

end
-- ==== Proof.Runs3.lean ====
import proofs.«427532_j66606352826848_3_alg».proof.Proof.Gen.KernelIdeal.Launch
import proofs.«427532_j66606352826848_3_alg».proof.Proof.Gen.KernelIdeal.Skeleton
import proofs.«427532_j66606352826848_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condR3 (i : grid3.Coords) : Prop := (Scalar.cmpi .ne (Scalar.extui (Scalar.cmpi .eq (BitVec.ofNat 32 (i 1).val) 0#32)) 0#32) = 1#1

theorem hcondR3 : ∀ t : Fin cfg3.N, condR3 (grid3.coords t) ↔ t.val % 4 = 0 :=
  (by decide +kernel : ∀ t : Fin grid3.N, condR3 (grid3.coords t) ↔ t.val % 4 = 0)

abbrev scMR3_0 : Memref sig .tc .vmem S1024x1024 .bf16 := Memref.whole cc3_scratch0
abbrev scMR3_1 : Memref sig .tc .vmem S1024x1024 .bf16 := Memref.whole cc3_scratch1

abbrev msR3_0 (t : Fin cfg3.N) : Memref sig .tc .vmem S1x256x1024 .bf16 := win3_0.stage (cfg3.slots t 0)
abbrev hsR3_0 (t : Fin cfg3.N) : (msR3_0 t).IsWhole := hstage3_0 ((cfg3.slots t 0).cast nbuf3_0)
abbrev msR3_1 (t : Fin cfg3.N) : Memref sig .tc .vmem S1x1024x1024 .bf16 := win3_1.stage (cfg3.slots t 1)
abbrev hsR3_1 (t : Fin cfg3.N) : (msR3_1 t).IsWhole := hstage3_1 ((cfg3.slots t 1).cast nbuf3_1)
abbrev msR3_2 (t : Fin cfg3.N) : Memref sig .tc .vmem S1024x1024 .bf16 := win3_2.stage (cfg3.slots t 2)
abbrev hsR3_2 (t : Fin cfg3.N) : (msR3_2 t).IsWhole := hstage3_2 ((cfg3.slots t 2).cast nbuf3_2)
abbrev msR3_3 (t : Fin cfg3.N) : Memref sig .tc .vmem S1024x1024 .bf16 := win3_3.stage (cfg3.slots t 3)
abbrev hsR3_3 (t : Fin cfg3.N) : (msR3_3 t).IsWhole := hstage3_3 ((cfg3.slots t 3).cast nbuf3_3)
abbrev msR3_4 (t : Fin cfg3.N) : Memref sig .tc .vmem S1024x1024 .bf16 := win3_4.stage (cfg3.slots t 4)
abbrev hsR3_4 (t : Fin cfg3.N) : (msR3_4 t).IsWhole := hstage3_4 ((cfg3.slots t 4).cast nbuf3_4)
abbrev msR3_5 (t : Fin cfg3.N) : Memref sig .tc .vmem S1024x1024 .bf16 := win3_5.stage (cfg3.slots t 5)
abbrev hsR3_5 (t : Fin cfg3.N) : (msR3_5 t).IsWhole := hstage3_5 ((cfg3.slots t 5).cast nbuf3_5)
abbrev msR3_6 (t : Fin cfg3.N) : Memref sig .tc .vmem S1x1024 .f32 := win3_6.stage (cfg3.slots t 6)
abbrev hsR3_6 (t : Fin cfg3.N) : (msR3_6 t).IsWhole := hstage3_6 ((cfg3.slots t 6).cast nbuf3_6)
abbrev msR3_7 (t : Fin cfg3.N) : Memref sig .tc .vmem S1x256x1024 .bf16 := win3_7.stage (cfg3.slots t 7)
abbrev hsR3_7 (t : Fin cfg3.N) : (msR3_7 t).IsWhole := hstage3_7 ((cfg3.slots t 7).cast nbuf3_7)

theorem PhiAR3_eq (c : Dev nD) :
    (Pipeline.ΦA spec3 c : sProp 𝕄)
      = iprop(iprop(iprop((∃ d, owns (c : Thread nD τ) scMR3_0 fullShare d) ∗ (∃ d, owns (c : Thread nD τ) scMR3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scMR3_0, scMR3_1, owns_whole]; try rfl

end Cert.KernelIdeal.Gen

end
-- ==== Proof.Dat3.lean ====
import proofs.«427532_j66606352826848_3_alg».proof.Proof.Attn
import proofs.«427532_j66606352826848_3_alg».proof.Proof.Runs3

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

def iblkR3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem beforeR3_0_of {c : Dev nD} (dat : Dat τ (Elt F) Unit ℕ (UR sig nD τ) ℕ cfg3 c) (hA : dat.A 0 = V c (Pipeline.arrRef spec3 0))
    (hafter : ∀ t, dat.after 0 t = iblkR3 V c 0 t) (t : Fin cfg3.N) (d) : dat.before 0 t d = iblkR3 V c 0 t :=
  (dat.before_in_eq_fetched 0 rfl (fun _ => rfl) (fun _ _ _ => rfl) (fun t => by rw [hafter]; unfold Dat.blockOf iblkR3; rw [hA]; try rfl) t d).trans
    (by unfold Dat.fetched Dat.blockOf iblkR3; rw [hA]; try rfl)
theorem beforeR3_1_of {c : Dev nD} (dat : Dat τ (Elt F) Unit ℕ (UR sig nD τ) ℕ cfg3 c) (hA : dat.A 1 = V c (Pipeline.arrRef spec3 1))
    (hafter : ∀ t, dat.after 1 t = iblkR3 V c 1 t) (t : Fin cfg3.N) (d) : dat.before 1 t d = iblkR3 V c 1 t :=
  (dat.before_in_eq_fetched 1 rfl (fun _ => rfl) (fun _ _ _ => rfl) (fun t => by rw [hafter]; unfold Dat.blockOf iblkR3; rw [hA]; try rfl) t d).trans
    (by unfold Dat.fetched Dat.blockOf iblkR3; rw [hA]; try rfl)
theorem beforeR3_2_of {c : Dev nD} (dat : Dat τ (Elt F) Unit ℕ (UR sig nD τ) ℕ cfg3 c) (hA : dat.A 2 = V c (Pipeline.arrRef spec3 2))
    (hafter : ∀ t, dat.after 2 t = iblkR3 V c 2 t) (t : Fin cfg3.N) (d) : dat.before 2 t d = iblkR3 V c 2 t :=
  (dat.before_in_eq_fetched 2 rfl (fun _ => rfl) (fun _ _ _ => rfl) (fun t => by rw [hafter]; unfold Dat.blockOf iblkR3; rw [hA]; try rfl) t d).trans
    (by unfold Dat.fetched Dat.blockOf iblkR3; rw [hA]; try rfl)
theorem beforeR3_3_of {c : Dev nD} (dat : Dat τ (Elt F) Unit ℕ (UR sig nD τ) ℕ cfg3 c) (hA : dat.A 3 = V c (Pipeline.arrRef spec3 3))
    (hafter : ∀ t, dat.after 3 t = iblkR3 V c 3 t) (t : Fin cfg3.N) (d) : dat.before 3 t d = iblkR3 V c 3 t :=
  (dat.before_in_eq_fetched 3 rfl (fun _ => rfl) (fun _ _ _ => rfl) (fun t => by rw [hafter]; unfold Dat.blockOf iblkR3; rw [hA]; try rfl) t d).trans
    (by unfold Dat.fetched Dat.blockOf iblkR3; rw [hA]; try rfl)
theorem beforeR3_4_of {c : Dev nD} (dat : Dat τ (Elt F) Unit ℕ (UR sig nD τ) ℕ cfg3 c) (hA : dat.A 4 = V c (Pipeline.arrRef spec3 4))
    (hafter : ∀ t, dat.after 4 t = iblkR3 V c 4 t) (t : Fin cfg3.N) (d) : dat.before 4 t d = iblkR3 V c 4 t :=
  (dat.before_in_eq_fetched 4 rfl (fun _ => rfl) (fun _ _ _ => rfl) (fun t => by rw [hafter]; unfold Dat.blockOf iblkR3; rw [hA]; try rfl) t d).trans
    (by unfold Dat.fetched Dat.blockOf iblkR3; rw [hA]; try rfl)
theorem beforeR3_5_of {c : Dev nD} (dat : Dat τ (Elt F) Unit ℕ (UR sig nD τ) ℕ cfg3 c) (hA : dat.A 5 = V c (Pipeline.arrRef spec3 5))
    (hafter : ∀ t, dat.after 5 t = iblkR3 V c 5 t) (t : Fin cfg3.N) (d) : dat.before 5 t d = iblkR3 V c 5 t :=
  (dat.before_in_eq_fetched 5 rfl (fun _ => rfl) (fun _ _ _ => rfl) (fun t => by rw [hafter]; unfold Dat.blockOf iblkR3; rw [hA]; try rfl) t d).trans
    (by unfold Dat.fetched Dat.blockOf iblkR3; rw [hA]; try rfl)
theorem beforeR3_6_of {c : Dev nD} (dat : Dat τ (Elt F) Unit ℕ (UR sig nD τ) ℕ cfg3 c) (hA : dat.A 6 = V c (Pipeline.arrRef spec3 6))
    (hafter : ∀ t, dat.after 6 t = iblkR3 V c 6 t) (t : Fin cfg3.N) (d) : dat.before 6 t d = iblkR3 V c 6 t :=
  (dat.before_in_eq_fetched 6 rfl (fun _ => rfl) (fun _ _ _ => rfl) (fun t => by rw [hafter]; unfold Dat.blockOf iblkR3; rw [hA]; try rfl) t d).trans
    (by unfold Dat.fetched Dat.blockOf iblkR3; rw [hA]; try rfl)

/-- The kernel's operands at point `t`: each window's current staging buffer, then the two scratch buffers. -/
abbrev opsR3 (t : Fin cfg3.N) : Ops :=
  ⟨msR3_0 t, hsR3_0 t, msR3_1 t, hsR3_1 t, msR3_2 t, hsR3_2 t, msR3_3 t, hsR3_3 t, msR3_4 t, hsR3_4 t, msR3_5 t, hsR3_5 t, msR3_6 t, hsR3_6 t, msR3_7 t, hsR3_7 t, scMR3_0, Memref.isWhole_whole _, scMR3_1, Memref.isWhole_whole _⟩

/-- The seven input blocks at point `t`. -/
abbrev insR3 (c : Dev nD) (t : Fin cfg3.N) : Ins F :=
  ⟨iblkR3 V c 0 t, iblkR3 V c 1 t, iblkR3 V c 2 t, iblkR3 V c 3 t, iblkR3 V c 4 t, iblkR3 V c 5 t, iblkR3 V c 6 t⟩

theorem bodyAtR3_eq (t : Fin cfg3.N) : bodyAt3 (F := F) t = (opsR3 t).body (grid3.coords t) := rfl

/-- After the body at position `n`: the output block, then the two scratch buffers. A batch's first tile (`n` a multiple of 4) computes all three from its input blocks; a later tile keeps what the point before left in the scratch buffers. -/
def outsAtR3 (c : Dev nD) : (n : ℕ) → n < cfg3.N → Vec F S1x256x1024 .bf16 × Vec F S1024x1024 .bf16 × Vec F S1024x1024 .bf16
  | 0, hn => (insR3 V c ⟨0, hn⟩).first
  | n + 1, hn =>
    if (n + 1) % 4 = 0 then (insR3 V c ⟨n + 1, hn⟩).first
    else (insR3 V c ⟨n + 1, hn⟩).later (outsAtR3 c n (Nat.lt_of_succ_lt hn)).2.1 (outsAtR3 c n (Nat.lt_of_succ_lt hn)).2.2

theorem outsAtR3_A (c : Dev nD) (t : Fin cfg3.N) (h0 : t.val % 4 = 0) : outsAtR3 V c t.val t.isLt = (insR3 V c t).first := by
  obtain ⟨n, hn⟩ := t
  cases n with
  | zero => exact rfl
  | succ n => exact (if_pos h0).trans rfl

theorem outsAtR3_B (c : Dev nD) (t : Fin cfg3.N) (h0 : ¬t.val % 4 = 0) :
    outsAtR3 V c t.val t.isLt = (insR3 V c t).later (outsAtR3 V c (t.val - 1) (Nat.lt_of_le_of_lt (Nat.sub_le _ _) t.isLt)).2.1
      (outsAtR3 V c (t.val - 1) (Nat.lt_of_le_of_lt (Nat.sub_le _ _) t.isLt)).2.2 := by
  obtain ⟨n, hn⟩ := t
  cases n with
  | zero => exact absurd (Nat.zero_mod _) h0
  | succ n => exact (if_neg h0).trans rfl

def PhiSR3 (c : Dev nD) : (n : ℕ) → n ≤ cfg3.N → sProp 𝕄
  | 0, _ => Pipeline.ΦA spec3 c
  | n + 1, hn => iprop(iprop(iprop(owns (c : Thread nD τ) scMR3_0 fullShare ((outsAtR3 V c n hn).2.1) ∗ owns (c : Thread nD τ) scMR3_1 fullShare ((outsAtR3 V c n hn).2.2))
          ∗ Pipeline.scopedRestBut (Ix := Unit) (Name := ℕ) (U := UR sig nD τ) (Lvl := ℕ) (Val := Elt F) spec3 c [cc3_scratch0, cc3_scratch1]) ∗ (∃ r, prngReg c r))

theorem PhiSR3_succ (c : Dev nD) (n : ℕ) (hn : n < cfg3.N) :
    PhiSR3 V c (n + 1) hn = iprop(iprop(iprop(owns (c : Thread nD τ) scMR3_0 fullShare ((outsAtR3 V c n hn).2.1) ∗ owns (c : Thread nD τ) scMR3_1 fullShare ((outsAtR3 V c n hn).2.2))
          ∗ Pipeline.scopedRestBut (Ix := Unit) (Name := ℕ) (U := UR sig nD τ) (Lvl := ℕ) (Val := Elt F) spec3 c [cc3_scratch0, cc3_scratch1]) ∗ (∃ r, prngReg c r)) := rfl

theorem PhiSR3_pos (c : Dev nD) (n : ℕ) (h : n ≤ cfg3.N) (hz : n ≠ 0) :
    PhiSR3 V c n h = iprop(iprop(iprop(owns (c : Thread nD τ) scMR3_0 fullShare ((outsAtR3 V c (n - 1) (by omega)).2.1) ∗ owns (c : Thread nD τ) scMR3_1 fullShare ((outsAtR3 V c (n - 1) (by omega)).2.2))
          ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact absurd rfl hz
  | succ n => rfl

def datR3 (c : Dev nD) : Dat τ (Elt F) Unit ℕ (UR sig nD τ) ℕ cfg3 c where
  A w := V c (Pipeline.arrRef spec3 w)
  after w t := match w with
    | ⟨0, _⟩ => iblkR3 V c 0 t
    | ⟨1, _⟩ => iblkR3 V c 1 t
    | ⟨2, _⟩ => iblkR3 V c 2 t
    | ⟨3, _⟩ => iblkR3 V c 3 t
    | ⟨4, _⟩ => iblkR3 V c 4 t
    | ⟨5, _⟩ => iblkR3 V c 5 t
    | ⟨6, _⟩ => iblkR3 V c 6 t
    | ⟨7, _⟩ => (outsAtR3 V c t.val t.isLt).1
  Φ t := PhiSR3 V c t.val (Nat.le_of_lt_succ t.isLt)
  q _ := fullShare
  owed _ := 0

theorem A_eqR3 (c : Dev nD) (w : Fin cfg3.W) : (datR3 V c).A w = V c (Pipeline.arrRef spec3 w) := by
  dsimp only [datR3]

theorem PhiSR3_castSucc (c : Dev nD) (t : Fin cfg3.N) :
    (datR3 V c).Φ t.castSucc = PhiSR3 V c t.val (Nat.le_of_lt t.isLt) := by
  dsimp only [datR3]; simp only [Fin.coe_castSucc]

theorem afterR3_0 (c : Dev nD) (t : Fin cfg3.N) : (datR3 V c).after 0 t = iblkR3 V c 0 t := by dsimp only [datR3]
theorem afterR3_1 (c : Dev nD) (t : Fin cfg3.N) : (datR3 V c).after 1 t = iblkR3 V c 1 t := by dsimp only [datR3]
theorem afterR3_2 (c : Dev nD) (t : Fin cfg3.N) : (datR3 V c).after 2 t = iblkR3 V c 2 t := by dsimp only [datR3]
theorem afterR3_3 (c : Dev nD) (t : Fin cfg3.N) : (datR3 V c).after 3 t = iblkR3 V c 3 t := by dsimp only [datR3]
theorem afterR3_4 (c : Dev nD) (t : Fin cfg3.N) : (datR3 V c).after 4 t = iblkR3 V c 4 t := by dsimp only [datR3]
theorem afterR3_5 (c : Dev nD) (t : Fin cfg3.N) : (datR3 V c).after 5 t = iblkR3 V c 5 t := by dsimp only [datR3]
theorem afterR3_6 (c : Dev nD) (t : Fin cfg3.N) : (datR3 V c).after 6 t = iblkR3 V c 6 t := by dsimp only [datR3]
theorem afterR3_7 (c : Dev nD) (t : Fin cfg3.N) : (datR3 V c).after 7 t = (outsAtR3 V c t.val t.isLt).1 := by dsimp only [datR3]

theorem beforeR3_0 (c : Dev nD) (t : Fin cfg3.N) (d) : (datR3 V c).before 0 t d = iblkR3 V c 0 t :=
  beforeR3_0_of V (datR3 V c) (A_eqR3 V c 0) (afterR3_0 V c) t d
theorem beforeR3_1 (c : Dev nD) (t : Fin cfg3.N) (d) : (datR3 V c).before 1 t d = iblkR3 V c 1 t :=
  beforeR3_1_of V (datR3 V c) (A_eqR3 V c 1) (afterR3_1 V c) t d
theorem beforeR3_2 (c : Dev nD) (t : Fin cfg3.N) (d) : (datR3 V c).before 2 t d = iblkR3 V c 2 t :=
  beforeR3_2_of V (datR3 V c) (A_eqR3 V c 2) (afterR3_2 V c) t d
theorem beforeR3_3 (c : Dev nD) (t : Fin cfg3.N) (d) : (datR3 V c).before 3 t d = iblkR3 V c 3 t :=
  beforeR3_3_of V (datR3 V c) (A_eqR3 V c 3) (afterR3_3 V c) t d
theorem beforeR3_4 (c : Dev nD) (t : Fin cfg3.N) (d) : (datR3 V c).before 4 t d = iblkR3 V c 4 t :=
  beforeR3_4_of V (datR3 V c) (A_eqR3 V c 4) (afterR3_4 V c) t d
theorem beforeR3_5 (c : Dev nD) (t : Fin cfg3.N) (d) : (datR3 V c).before 5 t d = iblkR3 V c 5 t :=
  beforeR3_5_of V (datR3 V c) (A_eqR3 V c 5) (afterR3_5 V c) t d
theorem beforeR3_6 (c : Dev nD) (t : Fin cfg3.N) (d) : (datR3 V c).before 6 t d = iblkR3 V c 6 t :=
  beforeR3_6_of V (datR3 V c) (A_eqR3 V c 6) (afterR3_6 V c) t d

def bodyPreR3 (c : Dev nD) (t : Fin cfg3.N) : sProp 𝕄 :=
  iprop((datR3 V c).Φ t.castSucc ∗ (datR3 V c).owesAt () t.castSucc
    ∗ (∃ d, owns (c : Thread nD τ) (msR3_0 t) fullShare ((datR3 V c).before 0 t d))
    ∗ (∃ d, owns (c : Thread nD τ) (msR3_1 t) fullShare ((datR3 V c).before 1 t d))
    ∗ (∃ d, owns (c : Thread nD τ) (msR3_2 t) fullShare ((datR3 V c).before 2 t d))
    ∗ (∃ d, owns (c : Thread nD τ) (msR3_3 t) fullShare ((datR3 V c).before 3 t d))
    ∗ (∃ d, owns (c : Thread nD τ) (msR3_4 t) fullShare ((datR3 V c).before 4 t d))
    ∗ (∃ d, owns (c : Thread nD τ) (msR3_5 t) fullShare ((datR3 V c).before 5 t d))
    ∗ (∃ d, owns (c : Thread nD τ) (msR3_6 t) fullShare ((datR3 V c).before 6 t d))
    ∗ (∃ d, owns (c : Thread nD τ) (msR3_7 t) fullShare ((datR3 V c).before 7 t d)))

def bodyPostR3 (c : Dev nD) (t : Fin cfg3.N) : sProp 𝕄 :=
  iprop((datR3 V c).Φ t.succ ∗ (datR3 V c).owesAt () t.succ
    ∗ owns (c : Thread nD τ) (msR3_0 t) fullShare ((datR3 V c).after 0 t)
    ∗ owns (c : Thread nD τ) (msR3_1 t) fullShare ((datR3 V c).after 1 t)
    ∗ owns (c : Thread nD τ) (msR3_2 t) fullShare ((datR3 V c).after 2 t)
    ∗ owns (c : Thread nD τ) (msR3_3 t) fullShare ((datR3 V c).after 3 t)
    ∗ owns (c : Thread nD τ) (msR3_4 t) fullShare ((datR3 V c).after 4 t)
    ∗ owns (c : Thread nD τ) (msR3_5 t) fullShare ((datR3 V c).after 5 t)
    ∗ owns (c : Thread nD τ) (msR3_6 t) fullShare ((datR3 V c).after 6 t)
    ∗ owns (c : Thread nD τ) (msR3_7 t) fullShare ((datR3 V c).after 7 t))

/-- Before any point the invariant gives both scratch buffers at some contents: their named contents are forgotten. -/
theorem PhiSR3_open (c : Dev nD) (n : ℕ) (h : n ≤ cfg3.N) :
    PhiSR3 V c n h ⊢ iprop(iprop(iprop((∃ d, owns (c : Thread nD τ) scMR3_0 fullShare d) ∗ (∃ d, owns (c : Thread nD τ) scMR3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact BIBase.Entails.of_eq (PhiAR3_eq c)
  | succ n =>
    rw [PhiSR3_succ]
    iintro ⟨⟨⟨HS0, HS1⟩, HR⟩, Hg⟩
    isplitl [HS0 HS1 HR]
    · isplitl [HS0 HS1]
      · isplitl [HS0]
        · iexists _; iexact HS0
        iexists _; iexact HS1
      iexact HR
    iexact Hg

set_option maxHeartbeats 4800000 in
/-- The body at any point: a batch's first tile takes both scratch buffers at anything and leaves the batch's projections in them; a later tile takes them at what the point before left and hands them back. -/
theorem sound_bodyR3 (c : Dev nD) (t : Fin cfg3.N) :
    bodyPreR3 V c t ⊢ wp frame (wpE (defs₀ (F := F)) Variants.none c none) Set.univ (bodyAt3 t) (fun _ => bodyPostR3 V c t) := by
  unfold bodyPreR3 bodyPostR3
  rw [bodyAtR3_eq]
  simp only [beforeR3_0, beforeR3_1, beforeR3_2, beforeR3_3, beforeR3_4, beforeR3_5, beforeR3_6]
  rw [show (datR3 V c).owesAt () t.succ = (datR3 V c).owesAt () t.castSucc from rfl]
  rw [show (datR3 V c).Φ t.succ = PhiSR3 V c (t.val + 1) t.isLt from rfl, PhiSR3_succ]
  rw [afterR3_0, afterR3_1, afterR3_2, afterR3_3, afterR3_4, afterR3_5, afterR3_6, afterR3_7]
  rw [PhiSR3_castSucc V c t]
  by_cases h0 : t.val % 4 = 0
  · rw [outsAtR3_A V c t h0]
    refine BIBase.Entails.trans (sep_mono_left (PhiSR3_open V c _ _)) ?_
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_first c (grid3.coords t) ((hcondR3 t).mpr h0) (opsR3 t) (insR3 V c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [outsAtR3_B V c t h0]
    rw [PhiSR3_pos V c _ _ (fun h => h0 (by rw [h]))]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_later c (grid3.coords t) (fun h => h0 ((hcondR3 t).mp h)) (opsR3 t) (insR3 V c t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_obligationR3 (c : Dev nD) : BodyObligation (datR3 (F := F) V c) (defs₀ (F := F)) Variants.none () Set.univ := fun t => by
  rw [bigSep_W3, bigSep_W3]
  exact sound_bodyR3 V c t

/-- What the launch hands the region is the invariant before the first point. -/
theorem hinR3 (c : Dev nD) : Pipeline.ΦA spec3 c ⊢ (datR3 V c).Φ 0 := Entails.refl _

/-- After the last point the invariant gives the class's back. -/
theorem houtR3 (c : Dev nD) : (datR3 V c).Φ (Fin.last cfg3.N) ⊢ Pipeline.ΦA spec3 c := by
  rw [show (datR3 V c).Φ (Fin.last cfg3.N) = PhiSR3 V c (Fin.last cfg3.N).val (Nat.le_of_lt_succ (Fin.last cfg3.N).isLt) from rfl]
  rw [PhiAR3_eq]
  exact PhiSR3_open V c _ _

end

end Cert.KernelIdeal.Gen

end
-- ==== Proof.Runs4.lean ====
import proofs.«427532_j66606352826848_3_alg».proof.Proof.Gen.KernelIdeal.Launch
import proofs.«427532_j66606352826848_3_alg».proof.Proof.Gen.KernelIdeal.Skeleton
import proofs.«427532_j66606352826848_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condR4 (i : grid4.Coords) : Prop := (Scalar.cmpi .ne (Scalar.extui (Scalar.cmpi .eq (BitVec.ofNat 32 (i 1).val) 0#32)) 0#32) = 1#1

theorem hcondR4 : ∀ t : Fin cfg4.N, condR4 (grid4.coords t) ↔ t.val % 4 = 0 :=
  (by decide +kernel : ∀ t : Fin grid4.N, condR4 (grid4.coords t) ↔ t.val % 4 = 0)

abbrev scMR4_0 : Memref sig .tc .vmem S1024x1024 .bf16 := Memref.whole cc4_scratch0
abbrev scMR4_1 : Memref sig .tc .vmem S1024x1024 .bf16 := Memref.whole cc4_scratch1

abbrev msR4_0 (t : Fin cfg4.N) : Memref sig .tc .vmem S1x256x1024 .bf16 := win4_0.stage (cfg4.slots t 0)
abbrev hsR4_0 (t : Fin cfg4.N) : (msR4_0 t).IsWhole := hstage4_0 ((cfg4.slots t 0).cast nbuf4_0)
abbrev msR4_1 (t : Fin cfg4.N) : Memref sig .tc .vmem S1x1024x1024 .bf16 := win4_1.stage (cfg4.slots t 1)
abbrev hsR4_1 (t : Fin cfg4.N) : (msR4_1 t).IsWhole := hstage4_1 ((cfg4.slots t 1).cast nbuf4_1)
abbrev msR4_2 (t : Fin cfg4.N) : Memref sig .tc .vmem S1024x1024 .bf16 := win4_2.stage (cfg4.slots t 2)
abbrev hsR4_2 (t : Fin cfg4.N) : (msR4_2 t).IsWhole := hstage4_2 ((cfg4.slots t 2).cast nbuf4_2)
abbrev msR4_3 (t : Fin cfg4.N) : Memref sig .tc .vmem S1024x1024 .bf16 := win4_3.stage (cfg4.slots t 3)
abbrev hsR4_3 (t : Fin cfg4.N) : (msR4_3 t).IsWhole := hstage4_3 ((cfg4.slots t 3).cast nbuf4_3)
abbrev msR4_4 (t : Fin cfg4.N) : Memref sig .tc .vmem S1024x1024 .bf16 := win4_4.stage (cfg4.slots t 4)
abbrev hsR4_4 (t : Fin cfg4.N) : (msR4_4 t).IsWhole := hstage4_4 ((cfg4.slots t 4).cast nbuf4_4)
abbrev msR4_5 (t : Fin cfg4.N) : Memref sig .tc .vmem S1024x1024 .bf16 := win4_5.stage (cfg4.slots t 5)
abbrev hsR4_5 (t : Fin cfg4.N) : (msR4_5 t).IsWhole := hstage4_5 ((cfg4.slots t 5).cast nbuf4_5)
abbrev msR4_6 (t : Fin cfg4.N) : Memref sig .tc .vmem S1x1024 .f32 := win4_6.stage (cfg4.slots t 6)
abbrev hsR4_6 (t : Fin cfg4.N) : (msR4_6 t).IsWhole := hstage4_6 ((cfg4.slots t 6).cast nbuf4_6)
abbrev msR4_7 (t : Fin cfg4.N) : Memref sig .tc .vmem S1x256x1024 .bf16 := win4_7.stage (cfg4.slots t 7)
abbrev hsR4_7 (t : Fin cfg4.N) : (msR4_7 t).IsWhole := hstage4_7 ((cfg4.slots t 7).cast nbuf4_7)

theorem PhiAR4_eq (c : Dev nD) :
    (Pipeline.ΦA spec4 c : sProp 𝕄)
      = iprop(iprop(iprop((∃ d, owns (c : Thread nD τ) scMR4_0 fullShare d) ∗ (∃ d, owns (c : Thread nD τ) scMR4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scMR4_0, scMR4_1, owns_whole]; try rfl

end Cert.KernelIdeal.Gen

end
-- ==== Proof.Dat4.lean ====
import proofs.«427532_j66606352826848_3_alg».proof.Proof.Attn
import proofs.«427532_j66606352826848_3_alg».proof.Proof.Runs4

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

def iblkR4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem beforeR4_0_of {c : Dev nD} (dat : Dat τ (Elt F) Unit ℕ (UR sig nD τ) ℕ cfg4 c) (hA : dat.A 0 = V c (Pipeline.arrRef spec4 0))
    (hafter : ∀ t, dat.after 0 t = iblkR4 V c 0 t) (t : Fin cfg4.N) (d) : dat.before 0 t d = iblkR4 V c 0 t :=
  (dat.before_in_eq_fetched 0 rfl (fun _ => rfl) (fun _ _ _ => rfl) (fun t => by rw [hafter]; unfold Dat.blockOf iblkR4; rw [hA]; try rfl) t d).trans
    (by unfold Dat.fetched Dat.blockOf iblkR4; rw [hA]; try rfl)
theorem beforeR4_1_of {c : Dev nD} (dat : Dat τ (Elt F) Unit ℕ (UR sig nD τ) ℕ cfg4 c) (hA : dat.A 1 = V c (Pipeline.arrRef spec4 1))
    (hafter : ∀ t, dat.after 1 t = iblkR4 V c 1 t) (t : Fin cfg4.N) (d) : dat.before 1 t d = iblkR4 V c 1 t :=
  (dat.before_in_eq_fetched 1 rfl (fun _ => rfl) (fun _ _ _ => rfl) (fun t => by rw [hafter]; unfold Dat.blockOf iblkR4; rw [hA]; try rfl) t d).trans
    (by unfold Dat.fetched Dat.blockOf iblkR4; rw [hA]; try rfl)
theorem beforeR4_2_of {c : Dev nD} (dat : Dat τ (Elt F) Unit ℕ (UR sig nD τ) ℕ cfg4 c) (hA : dat.A 2 = V c (Pipeline.arrRef spec4 2))
    (hafter : ∀ t, dat.after 2 t = iblkR4 V c 2 t) (t : Fin cfg4.N) (d) : dat.before 2 t d = iblkR4 V c 2 t :=
  (dat.before_in_eq_fetched 2 rfl (fun _ => rfl) (fun _ _ _ => rfl) (fun t => by rw [hafter]; unfold Dat.blockOf iblkR4; rw [hA]; try rfl) t d).trans
    (by unfold Dat.fetched Dat.blockOf iblkR4; rw [hA]; try rfl)
theorem beforeR4_3_of {c : Dev nD} (dat : Dat τ (Elt F) Unit ℕ (UR sig nD τ) ℕ cfg4 c) (hA : dat.A 3 = V c (Pipeline.arrRef spec4 3))
    (hafter : ∀ t, dat.after 3 t = iblkR4 V c 3 t) (t : Fin cfg4.N) (d) : dat.before 3 t d = iblkR4 V c 3 t :=
  (dat.before_in_eq_fetched 3 rfl (fun _ => rfl) (fun _ _ _ => rfl) (fun t => by rw [hafter]; unfold Dat.blockOf iblkR4; rw [hA]; try rfl) t d).trans
    (by unfold Dat.fetched Dat.blockOf iblkR4; rw [hA]; try rfl)
theorem beforeR4_4_of {c : Dev nD} (dat : Dat τ (Elt F) Unit ℕ (UR sig nD τ) ℕ cfg4 c) (hA : dat.A 4 = V c (Pipeline.arrRef spec4 4))
    (hafter : ∀ t, dat.after 4 t = iblkR4 V c 4 t) (t : Fin cfg4.N) (d) : dat.before 4 t d = iblkR4 V c 4 t :=
  (dat.before_in_eq_fetched 4 rfl (fun _ => rfl) (fun _ _ _ => rfl) (fun t => by rw [hafter]; unfold Dat.blockOf iblkR4; rw [hA]; try rfl) t d).trans
    (by unfold Dat.fetched Dat.blockOf iblkR4; rw [hA]; try rfl)
theorem beforeR4_5_of {c : Dev nD} (dat : Dat τ (Elt F) Unit ℕ (UR sig nD τ) ℕ cfg4 c) (hA : dat.A 5 = V c (Pipeline.arrRef spec4 5))
    (hafter : ∀ t, dat.after 5 t = iblkR4 V c 5 t) (t : Fin cfg4.N) (d) : dat.before 5 t d = iblkR4 V c 5 t :=
  (dat.before_in_eq_fetched 5 rfl (fun _ => rfl) (fun _ _ _ => rfl) (fun t => by rw [hafter]; unfold Dat.blockOf iblkR4; rw [hA]; try rfl) t d).trans
    (by unfold Dat.fetched Dat.blockOf iblkR4; rw [hA]; try rfl)
theorem beforeR4_6_of {c : Dev nD} (dat : Dat τ (Elt F) Unit ℕ (UR sig nD τ) ℕ cfg4 c) (hA : dat.A 6 = V c (Pipeline.arrRef spec4 6))
    (hafter : ∀ t, dat.after 6 t = iblkR4 V c 6 t) (t : Fin cfg4.N) (d) : dat.before 6 t d = iblkR4 V c 6 t :=
  (dat.before_in_eq_fetched 6 rfl (fun _ => rfl) (fun _ _ _ => rfl) (fun t => by rw [hafter]; unfold Dat.blockOf iblkR4; rw [hA]; try rfl) t d).trans
    (by unfold Dat.fetched Dat.blockOf iblkR4; rw [hA]; try rfl)

/-- The kernel's operands at point `t`: each window's current staging buffer, then the two scratch buffers. -/
abbrev opsR4 (t : Fin cfg4.N) : Ops :=
  ⟨msR4_0 t, hsR4_0 t, msR4_1 t, hsR4_1 t, msR4_2 t, hsR4_2 t, msR4_3 t, hsR4_3 t, msR4_4 t, hsR4_4 t, msR4_5 t, hsR4_5 t, msR4_6 t, hsR4_6 t, msR4_7 t, hsR4_7 t, scMR4_0, Memref.isWhole_whole _, scMR4_1, Memref.isWhole_whole _⟩

/-- The seven input blocks at point `t`. -/
abbrev insR4 (c : Dev nD) (t : Fin cfg4.N) : Ins F :=
  ⟨iblkR4 V c 0 t, iblkR4 V c 1 t, iblkR4 V c 2 t, iblkR4 V c 3 t, iblkR4 V c 4 t, iblkR4 V c 5 t, iblkR4 V c 6 t⟩

theorem bodyAtR4_eq (t : Fin cfg4.N) : bodyAt4 (F := F) t = (opsR4 t).body (grid4.coords t) := rfl

/-- After the body at position `n`: the output block, then the two scratch buffers. A batch's first tile (`n` a multiple of 4) computes all three from its input blocks; a later tile keeps what the point before left in the scratch buffers. -/
def outsAtR4 (c : Dev nD) : (n : ℕ) → n < cfg4.N → Vec F S1x256x1024 .bf16 × Vec F S1024x1024 .bf16 × Vec F S1024x1024 .bf16
  | 0, hn => (insR4 V c ⟨0, hn⟩).first
  | n + 1, hn =>
    if (n + 1) % 4 = 0 then (insR4 V c ⟨n + 1, hn⟩).first
    else (insR4 V c ⟨n + 1, hn⟩).later (outsAtR4 c n (Nat.lt_of_succ_lt hn)).2.1 (outsAtR4 c n (Nat.lt_of_succ_lt hn)).2.2

theorem outsAtR4_A (c : Dev nD) (t : Fin cfg4.N) (h0 : t.val % 4 = 0) : outsAtR4 V c t.val t.isLt = (insR4 V c t).first := by
  obtain ⟨n, hn⟩ := t
  cases n with
  | zero => exact rfl
  | succ n => exact (if_pos h0).trans rfl

theorem outsAtR4_B (c : Dev nD) (t : Fin cfg4.N) (h0 : ¬t.val % 4 = 0) :
    outsAtR4 V c t.val t.isLt = (insR4 V c t).later (outsAtR4 V c (t.val - 1) (Nat.lt_of_le_of_lt (Nat.sub_le _ _) t.isLt)).2.1
      (outsAtR4 V c (t.val - 1) (Nat.lt_of_le_of_lt (Nat.sub_le _ _) t.isLt)).2.2 := by
  obtain ⟨n, hn⟩ := t
  cases n with
  | zero => exact absurd (Nat.zero_mod _) h0
  | succ n => exact (if_neg h0).trans rfl

def PhiSR4 (c : Dev nD) : (n : ℕ) → n ≤ cfg4.N → sProp 𝕄
  | 0, _ => Pipeline.ΦA spec4 c
  | n + 1, hn => iprop(iprop(iprop(owns (c : Thread nD τ) scMR4_0 fullShare ((outsAtR4 V c n hn).2.1) ∗ owns (c : Thread nD τ) scMR4_1 fullShare ((outsAtR4 V c n hn).2.2))
          ∗ Pipeline.scopedRestBut (Ix := Unit) (Name := ℕ) (U := UR sig nD τ) (Lvl := ℕ) (Val := Elt F) spec4 c [cc4_scratch0, cc4_scratch1]) ∗ (∃ r, prngReg c r))

theorem PhiSR4_succ (c : Dev nD) (n : ℕ) (hn : n < cfg4.N) :
    PhiSR4 V c (n + 1) hn = iprop(iprop(iprop(owns (c : Thread nD τ) scMR4_0 fullShare ((outsAtR4 V c n hn).2.1) ∗ owns (c : Thread nD τ) scMR4_1 fullShare ((outsAtR4 V c n hn).2.2))
          ∗ Pipeline.scopedRestBut (Ix := Unit) (Name := ℕ) (U := UR sig nD τ) (Lvl := ℕ) (Val := Elt F) spec4 c [cc4_scratch0, cc4_scratch1]) ∗ (∃ r, prngReg c r)) := rfl

theorem PhiSR4_pos (c : Dev nD) (n : ℕ) (h : n ≤ cfg4.N) (hz : n ≠ 0) :
    PhiSR4 V c n h = iprop(iprop(iprop(owns (c : Thread nD τ) scMR4_0 fullShare ((outsAtR4 V c (n - 1) (by omega)).2.1) ∗ owns (c : Thread nD τ) scMR4_1 fullShare ((outsAtR4 V c (n - 1) (by omega)).2.2))
          ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

def datR4 (c : Dev nD) : Dat τ (Elt F) Unit ℕ (UR sig nD τ) ℕ cfg4 c where
  A w := V c (Pipeline.arrRef spec4 w)
  after w t := match w with
    | ⟨0, _⟩ => iblkR4 V c 0 t
    | ⟨1, _⟩ => iblkR4 V c 1 t
    | ⟨2, _⟩ => iblkR4 V c 2 t
    | ⟨3, _⟩ => iblkR4 V c 3 t
    | ⟨4, _⟩ => iblkR4 V c 4 t
    | ⟨5, _⟩ => iblkR4 V c 5 t
    | ⟨6, _⟩ => iblkR4 V c 6 t
    | ⟨7, _⟩ => (outsAtR4 V c t.val t.isLt).1
  Φ t := PhiSR4 V c t.val (Nat.le_of_lt_succ t.isLt)
  q _ := fullShare
  owed _ := 0

theorem A_eqR4 (c : Dev nD) (w : Fin cfg4.W) : (datR4 V c).A w = V c (Pipeline.arrRef spec4 w) := by
  dsimp only [datR4]

theorem PhiSR4_castSucc (c : Dev nD) (t : Fin cfg4.N) :
    (datR4 V c).Φ t.castSucc = PhiSR4 V c t.val (Nat.le_of_lt t.isLt) := by
  dsimp only [datR4]; simp only [Fin.coe_castSucc]

theorem afterR4_0 (c : Dev nD) (t : Fin cfg4.N) : (datR4 V c).after 0 t = iblkR4 V c 0 t := by dsimp only [datR4]
theorem afterR4_1 (c : Dev nD) (t : Fin cfg4.N) : (datR4 V c).after 1 t = iblkR4 V c 1 t := by dsimp only [datR4]
theorem afterR4_2 (c : Dev nD) (t : Fin cfg4.N) : (datR4 V c).after 2 t = iblkR4 V c 2 t := by dsimp only [datR4]
theorem afterR4_3 (c : Dev nD) (t : Fin cfg4.N) : (datR4 V c).after 3 t = iblkR4 V c 3 t := by dsimp only [datR4]
theorem afterR4_4 (c : Dev nD) (t : Fin cfg4.N) : (datR4 V c).after 4 t = iblkR4 V c 4 t := by dsimp only [datR4]
theorem afterR4_5 (c : Dev nD) (t : Fin cfg4.N) : (datR4 V c).after 5 t = iblkR4 V c 5 t := by dsimp only [datR4]
theorem afterR4_6 (c : Dev nD) (t : Fin cfg4.N) : (datR4 V c).after 6 t = iblkR4 V c 6 t := by dsimp only [datR4]
theorem afterR4_7 (c : Dev nD) (t : Fin cfg4.N) : (datR4 V c).after 7 t = (outsAtR4 V c t.val t.isLt).1 := by dsimp only [datR4]

theorem beforeR4_0 (c : Dev nD) (t : Fin cfg4.N) (d) : (datR4 V c).before 0 t d = iblkR4 V c 0 t :=
  beforeR4_0_of V (datR4 V c) (A_eqR4 V c 0) (afterR4_0 V c) t d
theorem beforeR4_1 (c : Dev nD) (t : Fin cfg4.N) (d) : (datR4 V c).before 1 t d = iblkR4 V c 1 t :=
  beforeR4_1_of V (datR4 V c) (A_eqR4 V c 1) (afterR4_1 V c) t d
theorem beforeR4_2 (c : Dev nD) (t : Fin cfg4.N) (d) : (datR4 V c).before 2 t d = iblkR4 V c 2 t :=
  beforeR4_2_of V (datR4 V c) (A_eqR4 V c 2) (afterR4_2 V c) t d
theorem beforeR4_3 (c : Dev nD) (t : Fin cfg4.N) (d) : (datR4 V c).before 3 t d = iblkR4 V c 3 t :=
  beforeR4_3_of V (datR4 V c) (A_eqR4 V c 3) (afterR4_3 V c) t d
theorem beforeR4_4 (c : Dev nD) (t : Fin cfg4.N) (d) : (datR4 V c).before 4 t d = iblkR4 V c 4 t :=
  beforeR4_4_of V (datR4 V c) (A_eqR4 V c 4) (afterR4_4 V c) t d
theorem beforeR4_5 (c : Dev nD) (t : Fin cfg4.N) (d) : (datR4 V c).before 5 t d = iblkR4 V c 5 t :=
  beforeR4_5_of V (datR4 V c) (A_eqR4 V c 5) (afterR4_5 V c) t d
theorem beforeR4_6 (c : Dev nD) (t : Fin cfg4.N) (d) : (datR4 V c).before 6 t d = iblkR4 V c 6 t :=
  beforeR4_6_of V (datR4 V c) (A_eqR4 V c 6) (afterR4_6 V c) t d

def bodyPreR4 (c : Dev nD) (t : Fin cfg4.N) : sProp 𝕄 :=
  iprop((datR4 V c).Φ t.castSucc ∗ (datR4 V c).owesAt () t.castSucc
    ∗ (∃ d, owns (c : Thread nD τ) (msR4_0 t) fullShare ((datR4 V c).before 0 t d))
    ∗ (∃ d, owns (c : Thread nD τ) (msR4_1 t) fullShare ((datR4 V c).before 1 t d))
    ∗ (∃ d, owns (c : Thread nD τ) (msR4_2 t) fullShare ((datR4 V c).before 2 t d))
    ∗ (∃ d, owns (c : Thread nD τ) (msR4_3 t) fullShare ((datR4 V c).before 3 t d))
    ∗ (∃ d, owns (c : Thread nD τ) (msR4_4 t) fullShare ((datR4 V c).before 4 t d))
    ∗ (∃ d, owns (c : Thread nD τ) (msR4_5 t) fullShare ((datR4 V c).before 5 t d))
    ∗ (∃ d, owns (c : Thread nD τ) (msR4_6 t) fullShare ((datR4 V c).before 6 t d))
    ∗ (∃ d, owns (c : Thread nD τ) (msR4_7 t) fullShare ((datR4 V c).before 7 t d)))

def bodyPostR4 (c : Dev nD) (t : Fin cfg4.N) : sProp 𝕄 :=
  iprop((datR4 V c).Φ t.succ ∗ (datR4 V c).owesAt () t.succ
    ∗ owns (c : Thread nD τ) (msR4_0 t) fullShare ((datR4 V c).after 0 t)
    ∗ owns (c : Thread nD τ) (msR4_1 t) fullShare ((datR4 V c).after 1 t)
    ∗ owns (c : Thread nD τ) (msR4_2 t) fullShare ((datR4 V c).after 2 t)
    ∗ owns (c : Thread nD τ) (msR4_3 t) fullShare ((datR4 V c).after 3 t)
    ∗ owns (c : Thread nD τ) (msR4_4 t) fullShare ((datR4 V c).after 4 t)
    ∗ owns (c : Thread nD τ) (msR4_5 t) fullShare ((datR4 V c).after 5 t)
    ∗ owns (c : Thread nD τ) (msR4_6 t) fullShare ((datR4 V c).after 6 t)
    ∗ owns (c : Thread nD τ) (msR4_7 t) fullShare ((datR4 V c).after 7 t))

/-- Before any point the invariant gives both scratch buffers at some contents: their named contents are forgotten. -/
theorem PhiSR4_open (c : Dev nD) (n : ℕ) (h : n ≤ cfg4.N) :
    PhiSR4 V c n h ⊢ iprop(iprop(iprop((∃ d, owns (c : Thread nD τ) scMR4_0 fullShare d) ∗ (∃ d, owns (c : Thread nD τ) scMR4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact BIBase.Entails.of_eq (PhiAR4_eq c)
  | succ n =>
    rw [PhiSR4_succ]
    iintro ⟨⟨⟨HS0, HS1⟩, HR⟩, Hg⟩
    isplitl [HS0 HS1 HR]
    · isplitl [HS0 HS1]
      · isplitl [HS0]
        · iexists _; iexact HS0
        iexists _; iexact HS1
      iexact HR
    iexact Hg

set_option maxHeartbeats 4800000 in
/-- The body at any point: a batch's first tile takes both scratch buffers at anything and leaves the batch's projections in them; a later tile takes them at what the point before left and hands them back. -/
theorem sound_bodyR4 (c : Dev nD) (t : Fin cfg4.N) :
    bodyPreR4 V c t ⊢ wp frame (wpE (defs₀ (F := F)) Variants.none c none) Set.univ (bodyAt4 t) (fun _ => bodyPostR4 V c t) := by
  unfold bodyPreR4 bodyPostR4
  rw [bodyAtR4_eq]
  simp only [beforeR4_0, beforeR4_1, beforeR4_2, beforeR4_3, beforeR4_4, beforeR4_5, beforeR4_6]
  rw [show (datR4 V c).owesAt () t.succ = (datR4 V c).owesAt () t.castSucc from rfl]
  rw [show (datR4 V c).Φ t.succ = PhiSR4 V c (t.val + 1) t.isLt from rfl, PhiSR4_succ]
  rw [afterR4_0, afterR4_1, afterR4_2, afterR4_3, afterR4_4, afterR4_5, afterR4_6, afterR4_7]
  rw [PhiSR4_castSucc V c t]
  by_cases h0 : t.val % 4 = 0
  · rw [outsAtR4_A V c t h0]
    refine BIBase.Entails.trans (sep_mono_left (PhiSR4_open V c _ _)) ?_
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_first c (grid4.coords t) ((hcondR4 t).mpr h0) (opsR4 t) (insR4 V c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [outsAtR4_B V c t h0]
    rw [PhiSR4_pos V c _ _ (fun h => h0 (by rw [h]))]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_later c (grid4.coords t) (fun h => h0 ((hcondR4 t).mp h)) (opsR4 t) (insR4 V c t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_obligationR4 (c : Dev nD) : BodyObligation (datR4 (F := F) V c) (defs₀ (F := F)) Variants.none () Set.univ := fun t => by
  rw [bigSep_W4, bigSep_W4]
  exact sound_bodyR4 V c t

/-- What the launch hands the region is the invariant before the first point. -/
theorem hinR4 (c : Dev nD) : Pipeline.ΦA spec4 c ⊢ (datR4 V c).Φ 0 := Entails.refl _

/-- After the last point the invariant gives the class's back. -/
theorem houtR4 (c : Dev nD) : (datR4 V c).Φ (Fin.last cfg4.N) ⊢ Pipeline.ΦA spec4 c := by
  rw [show (datR4 V c).Φ (Fin.last cfg4.N) = PhiSR4 V c (Fin.last cfg4.N).val (Nat.le_of_lt_succ (Fin.last cfg4.N).isLt) from rfl]
  rw [PhiAR4_eq]
  exact PhiSR4_open V c _ _

end

end Cert.KernelIdeal.Gen

end
-- ==== Proof.Runs5.lean ====
import proofs.«427532_j66606352826848_3_alg».proof.Proof.Gen.KernelIdeal.Launch
import proofs.«427532_j66606352826848_3_alg».proof.Proof.Gen.KernelIdeal.Skeleton
import proofs.«427532_j66606352826848_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condR5 (i : grid5.Coords) : Prop := (Scalar.cmpi .ne (Scalar.extui (Scalar.cmpi .eq (BitVec.ofNat 32 (i 1).val) 0#32)) 0#32) = 1#1

theorem hcondR5 : ∀ t : Fin cfg5.N, condR5 (grid5.coords t) ↔ t.val % 4 = 0 :=
  (by decide +kernel : ∀ t : Fin grid5.N, condR5 (grid5.coords t) ↔ t.val % 4 = 0)

abbrev scMR5_0 : Memref sig .tc .vmem S1024x1024 .bf16 := Memref.whole cc5_scratch0
abbrev scMR5_1 : Memref sig .tc .vmem S1024x1024 .bf16 := Memref.whole cc5_scratch1

abbrev msR5_0 (t : Fin cfg5.N) : Memref sig .tc .vmem S1x256x1024 .bf16 := win5_0.stage (cfg5.slots t 0)
abbrev hsR5_0 (t : Fin cfg5.N) : (msR5_0 t).IsWhole := hstage5_0 ((cfg5.slots t 0).cast nbuf5_0)
abbrev msR5_1 (t : Fin cfg5.N) : Memref sig .tc .vmem S1x1024x1024 .bf16 := win5_1.stage (cfg5.slots t 1)
abbrev hsR5_1 (t : Fin cfg5.N) : (msR5_1 t).IsWhole := hstage5_1 ((cfg5.slots t 1).cast nbuf5_1)
abbrev msR5_2 (t : Fin cfg5.N) : Memref sig .tc .vmem S1024x1024 .bf16 := win5_2.stage (cfg5.slots t 2)
abbrev hsR5_2 (t : Fin cfg5.N) : (msR5_2 t).IsWhole := hstage5_2 ((cfg5.slots t 2).cast nbuf5_2)
abbrev msR5_3 (t : Fin cfg5.N) : Memref sig .tc .vmem S1024x1024 .bf16 := win5_3.stage (cfg5.slots t 3)
abbrev hsR5_3 (t : Fin cfg5.N) : (msR5_3 t).IsWhole := hstage5_3 ((cfg5.slots t 3).cast nbuf5_3)
abbrev msR5_4 (t : Fin cfg5.N) : Memref sig .tc .vmem S1024x1024 .bf16 := win5_4.stage (cfg5.slots t 4)
abbrev hsR5_4 (t : Fin cfg5.N) : (msR5_4 t).IsWhole := hstage5_4 ((cfg5.slots t 4).cast nbuf5_4)
abbrev msR5_5 (t : Fin cfg5.N) : Memref sig .tc .vmem S1024x1024 .bf16 := win5_5.stage (cfg5.slots t 5)
abbrev hsR5_5 (t : Fin cfg5.N) : (msR5_5 t).IsWhole := hstage5_5 ((cfg5.slots t 5).cast nbuf5_5)
abbrev msR5_6 (t : Fin cfg5.N) : Memref sig .tc .vmem S1x1024 .f32 := win5_6.stage (cfg5.slots t 6)
abbrev hsR5_6 (t : Fin cfg5.N) : (msR5_6 t).IsWhole := hstage5_6 ((cfg5.slots t 6).cast nbuf5_6)
abbrev msR5_7 (t : Fin cfg5.N) : Memref sig .tc .vmem S1x256x1024 .bf16 := win5_7.stage (cfg5.slots t 7)
abbrev hsR5_7 (t : Fin cfg5.N) : (msR5_7 t).IsWhole := hstage5_7 ((cfg5.slots t 7).cast nbuf5_7)

theorem PhiAR5_eq (c : Dev nD) :
    (Pipeline.ΦA spec5 c : sProp 𝕄)
      = iprop(iprop(iprop((∃ d, owns (c : Thread nD τ) scMR5_0 fullShare d) ∗ (∃ d, owns (c : Thread nD τ) scMR5_1 fullShare d))
          ∗ Pipeline.scopedRestBut (Ix := Unit) (Name := ℕ) (U := UR sig nD τ) (Lvl := ℕ) (Val := Elt F) spec5 c [cc5_scratch0, cc5_scratch1]) ∗ (∃ r, prngReg c r)) := by
  unfold Pipeline.ΦA; rw [scopedRest5_split]; simp only [scMR5_0, scMR5_1, owns_whole]; try rfl

end Cert.KernelIdeal.Gen

end
-- ==== Proof.Dat5.lean ====
import proofs.«427532_j66606352826848_3_alg».proof.Proof.Attn
import proofs.«427532_j66606352826848_3_alg».proof.Proof.Runs5

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

def iblkR5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem beforeR5_0_of {c : Dev nD} (dat : Dat τ (Elt F) Unit ℕ (UR sig nD τ) ℕ cfg5 c) (hA : dat.A 0 = V c (Pipeline.arrRef spec5 0))
    (hafter : ∀ t, dat.after 0 t = iblkR5 V c 0 t) (t : Fin cfg5.N) (d) : dat.before 0 t d = iblkR5 V c 0 t :=
  (dat.before_in_eq_fetched 0 rfl (fun _ => rfl) (fun _ _ _ => rfl) (fun t => by rw [hafter]; unfold Dat.blockOf iblkR5; rw [hA]; try rfl) t d).trans
    (by unfold Dat.fetched Dat.blockOf iblkR5; rw [hA]; try rfl)
theorem beforeR5_1_of {c : Dev nD} (dat : Dat τ (Elt F) Unit ℕ (UR sig nD τ) ℕ cfg5 c) (hA : dat.A 1 = V c (Pipeline.arrRef spec5 1))
    (hafter : ∀ t, dat.after 1 t = iblkR5 V c 1 t) (t : Fin cfg5.N) (d) : dat.before 1 t d = iblkR5 V c 1 t :=
  (dat.before_in_eq_fetched 1 rfl (fun _ => rfl) (fun _ _ _ => rfl) (fun t => by rw [hafter]; unfold Dat.blockOf iblkR5; rw [hA]; try rfl) t d).trans
    (by unfold Dat.fetched Dat.blockOf iblkR5; rw [hA]; try rfl)
theorem beforeR5_2_of {c : Dev nD} (dat : Dat τ (Elt F) Unit ℕ (UR sig nD τ) ℕ cfg5 c) (hA : dat.A 2 = V c (Pipeline.arrRef spec5 2))
    (hafter : ∀ t, dat.after 2 t = iblkR5 V c 2 t) (t : Fin cfg5.N) (d) : dat.before 2 t d = iblkR5 V c 2 t :=
  (dat.before_in_eq_fetched 2 rfl (fun _ => rfl) (fun _ _ _ => rfl) (fun t => by rw [hafter]; unfold Dat.blockOf iblkR5; rw [hA]; try rfl) t d).trans
    (by unfold Dat.fetched Dat.blockOf iblkR5; rw [hA]; try rfl)
theorem beforeR5_3_of {c : Dev nD} (dat : Dat τ (Elt F) Unit ℕ (UR sig nD τ) ℕ cfg5 c) (hA : dat.A 3 = V c (Pipeline.arrRef spec5 3))
    (hafter : ∀ t, dat.after 3 t = iblkR5 V c 3 t) (t : Fin cfg5.N) (d) : dat.before 3 t d = iblkR5 V c 3 t :=
  (dat.before_in_eq_fetched 3 rfl (fun _ => rfl) (fun _ _ _ => rfl) (fun t => by rw [hafter]; unfold Dat.blockOf iblkR5; rw [hA]; try rfl) t d).trans
    (by unfold Dat.fetched Dat.blockOf iblkR5; rw [hA]; try rfl)
theorem beforeR5_4_of {c : Dev nD} (dat : Dat τ (Elt F) Unit ℕ (UR sig nD τ) ℕ cfg5 c) (hA : dat.A 4 = V c (Pipeline.arrRef spec5 4))
    (hafter : ∀ t, dat.after 4 t = iblkR5 V c 4 t) (t : Fin cfg5.N) (d) : dat.before 4 t d = iblkR5 V c 4 t :=
  (dat.before_in_eq_fetched 4 rfl (fun _ => rfl) (fun _ _ _ => rfl) (fun t => by rw [hafter]; unfold Dat.blockOf iblkR5; rw [hA]; try rfl) t d).trans
    (by unfold Dat.fetched Dat.blockOf iblkR5; rw [hA]; try rfl)
theorem beforeR5_5_of {c : Dev nD} (dat : Dat τ (Elt F) Unit ℕ (UR sig nD τ) ℕ cfg5 c) (hA : dat.A 5 = V c (Pipeline.arrRef spec5 5))
    (hafter : ∀ t, dat.after 5 t = iblkR5 V c 5 t) (t : Fin cfg5.N) (d) : dat.before 5 t d = iblkR5 V c 5 t :=
  (dat.before_in_eq_fetched 5 rfl (fun _ => rfl) (fun _ _ _ => rfl) (fun t => by rw [hafter]; unfold Dat.blockOf iblkR5; rw [hA]; try rfl) t d).trans
    (by unfold Dat.fetched Dat.blockOf iblkR5; rw [hA]; try rfl)
theorem beforeR5_6_of {c : Dev nD} (dat : Dat τ (Elt F) Unit ℕ (UR sig nD τ) ℕ cfg5 c) (hA : dat.A 6 = V c (Pipeline.arrRef spec5 6))
    (hafter : ∀ t, dat.after 6 t = iblkR5 V c 6 t) (t : Fin cfg5.N) (d) : dat.before 6 t d = iblkR5 V c 6 t :=
  (dat.before_in_eq_fetched 6 rfl (fun _ => rfl) (fun _ _ _ => rfl) (fun t => by rw [hafter]; unfold Dat.blockOf iblkR5; rw [hA]; try rfl) t d).trans
    (by unfold Dat.fetched Dat.blockOf iblkR5; rw [hA]; try rfl)

/-- The kernel's operands at point `t`: each window's current staging buffer, then the two scratch buffers. -/
abbrev opsR5 (t : Fin cfg5.N) : Ops :=
  ⟨msR5_0 t, hsR5_0 t, msR5_1 t, hsR5_1 t, msR5_2 t, hsR5_2 t, msR5_3 t, hsR5_3 t, msR5_4 t, hsR5_4 t, msR5_5 t, hsR5_5 t, msR5_6 t, hsR5_6 t, msR5_7 t, hsR5_7 t, scMR5_0, Memref.isWhole_whole _, scMR5_1, Memref.isWhole_whole _⟩

/-- The seven input blocks at point `t`. -/
abbrev insR5 (c : Dev nD) (t : Fin cfg5.N) : Ins F :=
  ⟨iblkR5 V c 0 t, iblkR5 V c 1 t, iblkR5 V c 2 t, iblkR5 V c 3 t, iblkR5 V c 4 t, iblkR5 V c 5 t, iblkR5 V c 6 t⟩

theorem bodyAtR5_eq (t : Fin cfg5.N) : bodyAt5 (F := F) t = (opsR5 t).body (grid5.coords t) := rfl

/-- After the body at position `n`: the output block, then the two scratch buffers. A batch's first tile (`n` a multiple of 4) computes all three from its input blocks; a later tile keeps what the point before left in the scratch buffers. -/
def outsAtR5 (c : Dev nD) : (n : ℕ) → n < cfg5.N → Vec F S1x256x1024 .bf16 × Vec F S1024x1024 .bf16 × Vec F S1024x1024 .bf16
  | 0, hn => (insR5 V c ⟨0, hn⟩).first
  | n + 1, hn =>
    if (n + 1) % 4 = 0 then (insR5 V c ⟨n + 1, hn⟩).first
    else (insR5 V c ⟨n + 1, hn⟩).later (outsAtR5 c n (Nat.lt_of_succ_lt hn)).2.1 (outsAtR5 c n (Nat.lt_of_succ_lt hn)).2.2

theorem outsAtR5_A (c : Dev nD) (t : Fin cfg5.N) (h0 : t.val % 4 = 0) : outsAtR5 V c t.val t.isLt = (insR5 V c t).first := by
  obtain ⟨n, hn⟩ := t
  cases n with
  | zero => exact rfl
  | succ n => exact (if_pos h0).trans rfl

theorem outsAtR5_B (c : Dev nD) (t : Fin cfg5.N) (h0 : ¬t.val % 4 = 0) :
    outsAtR5 V c t.val t.isLt = (insR5 V c t).later (outsAtR5 V c (t.val - 1) (Nat.lt_of_le_of_lt (Nat.sub_le _ _) t.isLt)).2.1
      (outsAtR5 V c (t.val - 1) (Nat.lt_of_le_of_lt (Nat.sub_le _ _) t.isLt)).2.2 := by
  obtain ⟨n, hn⟩ := t
  cases n with
  | zero => exact absurd (Nat.zero_mod _) h0
  | succ n => exact (if_neg h0).trans rfl

def PhiSR5 (c : Dev nD) : (n : ℕ) → n ≤ cfg5.N → sProp 𝕄
  | 0, _ => Pipeline.ΦA spec5 c
  | n + 1, hn => iprop(iprop(iprop(owns (c : Thread nD τ) scMR5_0 fullShare ((outsAtR5 V c n hn).2.1) ∗ owns (c : Thread nD τ) scMR5_1 fullShare ((outsAtR5 V c n hn).2.2))
          ∗ Pipeline.scopedRestBut (Ix := Unit) (Name := ℕ) (U := UR sig nD τ) (Lvl := ℕ) (Val := Elt F) spec5 c [cc5_scratch0, cc5_scratch1]) ∗ (∃ r, prngReg c r))

theorem PhiSR5_succ (c : Dev nD) (n : ℕ) (hn : n < cfg5.N) :
    PhiSR5 V c (n + 1) hn = iprop(iprop(iprop(owns (c : Thread nD τ) scMR5_0 fullShare ((outsAtR5 V c n hn).2.1) ∗ owns (c : Thread nD τ) scMR5_1 fullShare ((outsAtR5 V c n hn).2.2))
          ∗ Pipeline.scopedRestBut (Ix := Unit) (Name := ℕ) (U := UR sig nD τ) (Lvl := ℕ) (Val := Elt F) spec5 c [cc5_scratch0, cc5_scratch1]) ∗ (∃ r, prngReg c r)) := rfl

theorem PhiSR5_pos (c : Dev nD) (n : ℕ) (h : n ≤ cfg5.N) (hz : n ≠ 0) :
    PhiSR5 V c n h = iprop(iprop(iprop(owns (c : Thread nD τ) scMR5_0 fullShare ((outsAtR5 V c (n - 1) (by omega)).2.1) ∗ owns (c : Thread nD τ) scMR5_1 fullShare ((outsAtR5 V c (n - 1) (by omega)).2.2))
          ∗ Pipeline.scopedRestBut (Ix := Unit) (Name := ℕ) (U := UR sig nD τ) (Lvl := ℕ) (Val := Elt F) spec5 c [cc5_scratch0, cc5_scratch1]) ∗ (∃ r, prngReg c r)) := by
  cases n with
  | zero => exact absurd rfl hz
  | succ n => rfl

def datR5 (c : Dev nD) : Dat τ (Elt F) Unit ℕ (UR sig nD τ) ℕ cfg5 c where
  A w := V c (Pipeline.arrRef spec5 w)
  after w t := match w with
    | ⟨0, _⟩ => iblkR5 V c 0 t
    | ⟨1, _⟩ => iblkR5 V c 1 t
    | ⟨2, _⟩ => iblkR5 V c 2 t
    | ⟨3, _⟩ => iblkR5 V c 3 t
    | ⟨4, _⟩ => iblkR5 V c 4 t
    | ⟨5, _⟩ => iblkR5 V c 5 t
    | ⟨6, _⟩ => iblkR5 V c 6 t
    | ⟨7, _⟩ => (outsAtR5 V c t.val t.isLt).1
  Φ t := PhiSR5 V c t.val (Nat.le_of_lt_succ t.isLt)
  q _ := fullShare
  owed _ := 0

theorem A_eqR5 (c : Dev nD) (w : Fin cfg5.W) : (datR5 V c).A w = V c (Pipeline.arrRef spec5 w) := by
  dsimp only [datR5]

theorem PhiSR5_castSucc (c : Dev nD) (t : Fin cfg5.N) :
    (datR5 V c).Φ t.castSucc = PhiSR5 V c t.val (Nat.le_of_lt t.isLt) := by
  dsimp only [datR5]; simp only [Fin.coe_castSucc]

theorem afterR5_0 (c : Dev nD) (t : Fin cfg5.N) : (datR5 V c).after 0 t = iblkR5 V c 0 t := by dsimp only [datR5]
theorem afterR5_1 (c : Dev nD) (t : Fin cfg5.N) : (datR5 V c).after 1 t = iblkR5 V c 1 t := by dsimp only [datR5]
theorem afterR5_2 (c : Dev nD) (t : Fin cfg5.N) : (datR5 V c).after 2 t = iblkR5 V c 2 t := by dsimp only [datR5]
theorem afterR5_3 (c : Dev nD) (t : Fin cfg5.N) : (datR5 V c).after 3 t = iblkR5 V c 3 t := by dsimp only [datR5]
theorem afterR5_4 (c : Dev nD) (t : Fin cfg5.N) : (datR5 V c).after 4 t = iblkR5 V c 4 t := by dsimp only [datR5]
theorem afterR5_5 (c : Dev nD) (t : Fin cfg5.N) : (datR5 V c).after 5 t = iblkR5 V c 5 t := by dsimp only [datR5]
theorem afterR5_6 (c : Dev nD) (t : Fin cfg5.N) : (datR5 V c).after 6 t = iblkR5 V c 6 t := by dsimp only [datR5]
theorem afterR5_7 (c : Dev nD) (t : Fin cfg5.N) : (datR5 V c).after 7 t = (outsAtR5 V c t.val t.isLt).1 := by dsimp only [datR5]

theorem beforeR5_0 (c : Dev nD) (t : Fin cfg5.N) (d) : (datR5 V c).before 0 t d = iblkR5 V c 0 t :=
  beforeR5_0_of V (datR5 V c) (A_eqR5 V c 0) (afterR5_0 V c) t d
theorem beforeR5_1 (c : Dev nD) (t : Fin cfg5.N) (d) : (datR5 V c).before 1 t d = iblkR5 V c 1 t :=
  beforeR5_1_of V (datR5 V c) (A_eqR5 V c 1) (afterR5_1 V c) t d
theorem beforeR5_2 (c : Dev nD) (t : Fin cfg5.N) (d) : (datR5 V c).before 2 t d = iblkR5 V c 2 t :=
  beforeR5_2_of V (datR5 V c) (A_eqR5 V c 2) (afterR5_2 V c) t d
theorem beforeR5_3 (c : Dev nD) (t : Fin cfg5.N) (d) : (datR5 V c).before 3 t d = iblkR5 V c 3 t :=
  beforeR5_3_of V (datR5 V c) (A_eqR5 V c 3) (afterR5_3 V c) t d
theorem beforeR5_4 (c : Dev nD) (t : Fin cfg5.N) (d) : (datR5 V c).before 4 t d = iblkR5 V c 4 t :=
  beforeR5_4_of V (datR5 V c) (A_eqR5 V c 4) (afterR5_4 V c) t d
theorem beforeR5_5 (c : Dev nD) (t : Fin cfg5.N) (d) : (datR5 V c).before 5 t d = iblkR5 V c 5 t :=
  beforeR5_5_of V (datR5 V c) (A_eqR5 V c 5) (afterR5_5 V c) t d
theorem beforeR5_6 (c : Dev nD) (t : Fin cfg5.N) (d) : (datR5 V c).before 6 t d = iblkR5 V c 6 t :=
  beforeR5_6_of V (datR5 V c) (A_eqR5 V c 6) (afterR5_6 V c) t d

def bodyPreR5 (c : Dev nD) (t : Fin cfg5.N) : sProp 𝕄 :=
  iprop((datR5 V c).Φ t.castSucc ∗ (datR5 V c).owesAt () t.castSucc
    ∗ (∃ d, owns (c : Thread nD τ) (msR5_0 t) fullShare ((datR5 V c).before 0 t d))
    ∗ (∃ d, owns (c : Thread nD τ) (msR5_1 t) fullShare ((datR5 V c).before 1 t d))
    ∗ (∃ d, owns (c : Thread nD τ) (msR5_2 t) fullShare ((datR5 V c).before 2 t d))
    ∗ (∃ d, owns (c : Thread nD τ) (msR5_3 t) fullShare ((datR5 V c).before 3 t d))
    ∗ (∃ d, owns (c : Thread nD τ) (msR5_4 t) fullShare ((datR5 V c).before 4 t d))
    ∗ (∃ d, owns (c : Thread nD τ) (msR5_5 t) fullShare ((datR5 V c).before 5 t d))
    ∗ (∃ d, owns (c : Thread nD τ) (msR5_6 t) fullShare ((datR5 V c).before 6 t d))
    ∗ (∃ d, owns (c : Thread nD τ) (msR5_7 t) fullShare ((datR5 V c).before 7 t d)))

def bodyPostR5 (c : Dev nD) (t : Fin cfg5.N) : sProp 𝕄 :=
  iprop((datR5 V c).Φ t.succ ∗ (datR5 V c).owesAt () t.succ
    ∗ owns (c : Thread nD τ) (msR5_0 t) fullShare ((datR5 V c).after 0 t)
    ∗ owns (c : Thread nD τ) (msR5_1 t) fullShare ((datR5 V c).after 1 t)
    ∗ owns (c : Thread nD τ) (msR5_2 t) fullShare ((datR5 V c).after 2 t)
    ∗ owns (c : Thread nD τ) (msR5_3 t) fullShare ((datR5 V c).after 3 t)
    ∗ owns (c : Thread nD τ) (msR5_4 t) fullShare ((datR5 V c).after 4 t)
    ∗ owns (c : Thread nD τ) (msR5_5 t) fullShare ((datR5 V c).after 5 t)
    ∗ owns (c : Thread nD τ) (msR5_6 t) fullShare ((datR5 V c).after 6 t)
    ∗ owns (c : Thread nD τ) (msR5_7 t) fullShare ((datR5 V c).after 7 t))

/-- Before any point the invariant gives both scratch buffers at some contents: their named contents are forgotten. -/
theorem PhiSR5_open (c : Dev nD) (n : ℕ) (h : n ≤ cfg5.N) :
    PhiSR5 V c n h ⊢ iprop(iprop(iprop((∃ d, owns (c : Thread nD τ) scMR5_0 fullShare d) ∗ (∃ d, owns (c : Thread nD τ) scMR5_1 fullShare d))
          ∗ Pipeline.scopedRestBut (Ix := Unit) (Name := ℕ) (U := UR sig nD τ) (Lvl := ℕ) (Val := Elt F) spec5 c [cc5_scratch0, cc5_scratch1]) ∗ (∃ r, prngReg c r)) := by
  cases n with
  | zero => exact BIBase.Entails.of_eq (PhiAR5_eq c)
  | succ n =>
    rw [PhiSR5_succ]
    iintro ⟨⟨⟨HS0, HS1⟩, HR⟩, Hg⟩
    isplitl [HS0 HS1 HR]
    · isplitl [HS0 HS1]
      · isplitl [HS0]
        · iexists _; iexact HS0
        iexists _; iexact HS1
      iexact HR
    iexact Hg

set_option maxHeartbeats 4800000 in
/-- The body at any point: a batch's first tile takes both scratch buffers at anything and leaves the batch's projections in them; a later tile takes them at what the point before left and hands them back. -/
theorem sound_bodyR5 (c : Dev nD) (t : Fin cfg5.N) :
    bodyPreR5 V c t ⊢ wp frame (wpE (defs₀ (F := F)) Variants.none c none) Set.univ (bodyAt5 t) (fun _ => bodyPostR5 V c t) := by
  unfold bodyPreR5 bodyPostR5
  rw [bodyAtR5_eq]
  simp only [beforeR5_0, beforeR5_1, beforeR5_2, beforeR5_3, beforeR5_4, beforeR5_5, beforeR5_6]
  rw [show (datR5 V c).owesAt () t.succ = (datR5 V c).owesAt () t.castSucc from rfl]
  rw [show (datR5 V c).Φ t.succ = PhiSR5 V c (t.val + 1) t.isLt from rfl, PhiSR5_succ]
  rw [afterR5_0, afterR5_1, afterR5_2, afterR5_3, afterR5_4, afterR5_5, afterR5_6, afterR5_7]
  rw [PhiSR5_castSucc V c t]
  by_cases h0 : t.val % 4 = 0
  · rw [outsAtR5_A V c t h0]
    refine BIBase.Entails.trans (sep_mono_left (PhiSR5_open V c _ _)) ?_
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_first c (grid5.coords t) ((hcondR5 t).mpr h0) (opsR5 t) (insR5 V c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [outsAtR5_B V c t h0]
    rw [PhiSR5_pos V c _ _ (fun h => h0 (by rw [h]))]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_later c (grid5.coords t) (fun h => h0 ((hcondR5 t).mp h)) (opsR5 t) (insR5 V c t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_obligationR5 (c : Dev nD) : BodyObligation (datR5 (F := F) V c) (defs₀ (F := F)) Variants.none () Set.univ := fun t => by
  rw [bigSep_W5, bigSep_W5]
  exact sound_bodyR5 V c t

/-- What the launch hands the region is the invariant before the first point. -/
theorem hinR5 (c : Dev nD) : Pipeline.ΦA spec5 c ⊢ (datR5 V c).Φ 0 := Entails.refl _

/-- After the last point the invariant gives the class's back. -/
theorem houtR5 (c : Dev nD) : (datR5 V c).Φ (Fin.last cfg5.N) ⊢ Pipeline.ΦA spec5 c := by
  rw [show (datR5 V c).Φ (Fin.last cfg5.N) = PhiSR5 V c (Fin.last cfg5.N).val (Nat.le_of_lt_succ (Fin.last cfg5.N).isLt) from rfl]
  rw [PhiAR5_eq]
  exact PhiSR5_open V c _ _

end

end Cert.KernelIdeal.Gen

end
-- ==== Proof.Fin6.lean ====
import proofs.«427532_j66606352826848_3_alg».proof.Proof.Gen.KernelIdeal.Launch
import proofs.«427532_j66606352826848_3_alg».proof.Proof.Gen.KernelIdeal.Skeleton
import proofs.«427532_j66606352826848_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

abbrev r6_x : Rect S1024x1024 := Rect.unit (s := S1024x1024) ![0, 0] S1024x1024.size inb_S1024x1024_S1024x1024_0_0
abbrev r6_w : Rect S1280x1024 := Rect.unit (s := S1280x1024) ![0, 0] S1280x1024.size inb_S1280x1024_S1280x1024_0_0
abbrev r6_b : Rect S1x1280 := Rect.unit (s := S1x1280) ![0, 0] S1x1280.size inb_S1x1280_S1x1280_0_0
abbrev r6_0 : Rect S1024x1280 := Rect.unit (s := S1024x1280) ![0, 0] S1024x1280.size inb_S1024x1280_S1024x1280_0_0

def out6_3 (x0 : Vec F S1024x1024 .bf16) (x1 : Vec F S1280x1024 .bf16) (x2 : Vec F S1x1280 .f32) : Vec F S1024x1280 .f32 :=
  View.canon [⟨r6_0, k6_pay1 (View.ld x0 r6_x) (View.ld x1 r6_w) (View.ld x2 r6_b)⟩]

theorem cover6_3 (p0 : Vec F S1024x1280 .f32) (y : S1024x1280.Idx) :
    ∃ pc ∈ ([⟨r6_0, p0⟩] : List (View.Piece (Elt F) S1024x1280 .f32)), y ∈ pc.1.set :=
  View.cover_of_tiled [⟨r6_0, p0⟩] S1024x1280.size (by rfl) y

set_option maxHeartbeats 1000000 in

theorem sound_kernel6 (c : Dev nD) (E : Set ℕ) (i : grid6.Coords)
    (arg2 : Memref sig .tc .vmem S1024x1024 .bf16) (harg2 : arg2.IsWhole) (arg3 : Memref sig .tc .vmem S1280x1024 .bf16) (harg3 : arg3.IsWhole)
    (arg4 : Memref sig .tc .vmem S1x1280 .f32) (harg4 : arg4.IsWhole) (arg5 : Memref sig .tc .vmem S1024x1280 .f32) (harg5 : arg5.IsWhole)
    (x0 : Vec F S1024x1024 .bf16) (x1 : Vec F S1280x1024 .bf16) (x2 : Vec F S1x1280 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out6_3 x0 x1 x2)) -∗ K ⟨⟩))
      ⊢ wp frame (wpE (defs₀ (F := F)) Variants.none c none) E (cc6__final_linear_kernel i arg2 harg2 arg3 harg3 arg4 harg4 arg5 harg5) K := by
  simp only [cc6__final_linear_kernel_eq_skeleton]; unfold cc6__final_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation6 (c : Dev nD) : BodyObligation (dat6 (F := F) V c) (defs₀ (F := F)) Variants.none () Set.univ := fun t => by
  rw [bigSep_W6, bigSep_W6]
  exact sound_body6 V c t

end Cert.KernelIdeal.Gen

end
-- ==== Proof.Chain.lean ====
import proofs.«427532_j66606352826848_3_alg».proof.Proof.Gen.KernelIdeal.Regions
import proofs.«427532_j66606352826848_3_alg».proof.Proof.Dat0
import proofs.«427532_j66606352826848_3_alg».proof.Proof.Dat1
import proofs.«427532_j66606352826848_3_alg».proof.Proof.Dat2
import proofs.«427532_j66606352826848_3_alg».proof.Proof.Dat3
import proofs.«427532_j66606352826848_3_alg».proof.Proof.Dat4
import proofs.«427532_j66606352826848_3_alg».proof.Proof.Dat5
import proofs.«427532_j66606352826848_3_alg».proof.Proof.Fin6
import Idealize.ShloMosaic.Lib.Pipeline.Kit
import Idealize.ShloMosaic.Lib.Pipeline.RegionsLoop

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

theorem update_update_self {α : Type} [DecidableEq α] {β : α → Type} (f : (a : α) → β a) (a : α) (x : β a) :
    Function.update f a (Function.update f a x a) = Function.update f a x := by
  rw [Function.update_self]

abbrev Y2 (c : Dev nD) : Valuation τ sig (Elt F) := V2 m c

def Y3 (c : Dev nD) : Valuation τ sig (Elt F) :=
  Function.update (Y2 m c) main_v25 ((datR0 (atTc (Y2 m)) c).arrAt 7 cfg0.N)

def Y4 (c : Dev nD) : Valuation τ sig (Elt F) := StableHlo.after hostOps1 (Y3 m c)

def Y5 (c : Dev nD) : Valuation τ sig (Elt F) :=
  Function.update (Y4 m c) main_v36 ((datR1 (atTc (Y4 m)) c).arrAt 7 cfg1.N)

def Y6 (c : Dev nD) : Valuation τ sig (Elt F) := StableHlo.after hostOps2 (Y5 m c)

def Y7 (c : Dev nD) : Valuation τ sig (Elt F) :=
  Function.update (Y6 m c) main_v47 ((datR2 (atTc (Y6 m)) c).arrAt 7 cfg2.N)

def Y8 (c : Dev nD) : Valuation τ sig (Elt F) := StableHlo.after hostOps3 (Y7 m c)

def Y9 (c : Dev nD) : Valuation τ sig (Elt F) :=
  Function.update (Y8 m c) main_v58 ((datR3 (atTc (Y8 m)) c).arrAt 7 cfg3.N)

def Y10 (c : Dev nD) : Valuation τ sig (Elt F) := StableHlo.after hostOps4 (Y9 m c)

def Y11 (c : Dev nD) : Valuation τ sig (Elt F) :=
  Function.update (Y10 m c) main_v69 ((datR4 (atTc (Y10 m)) c).arrAt 7 cfg4.N)

def Y12 (c : Dev nD) : Valuation τ sig (Elt F) := StableHlo.after hostOps5 (Y11 m c)

def Y13 (c : Dev nD) : Valuation τ sig (Elt F) :=
  Function.update (Y12 m c) main_v80 ((datR5 (atTc (Y12 m)) c).arrAt 7 cfg5.N)

def Y14 (c : Dev nD) : Valuation τ sig (Elt F) := StableHlo.after hostOps6 (Y13 m c)

def Y15 (c : Dev nD) : Valuation τ sig (Elt F) :=
  Function.update (Y14 m c) main_v84 ((dat6 (atTc (Y14 m)) c).arrAt 3 cfg6.N)

def Y16 (c : Dev nD) : Valuation τ sig (Elt F) := StableHlo.after hostOps7 (Y15 m c)

def outsY : Outs (F := F) := fun J r c =>
  match J with
  | 3 => Y3 m c r
  | 5 => Y5 m c r
  | 7 => Y7 m c r
  | 9 => Y9 m c r
  | 11 => Y11 m c r
  | 13 => Y13 m c r
  | 15 => Y15 m c r
  | _ => Y2 m c r

theorem V3_Y (c : Dev nD) : V3 m (outsY m) c = Y3 m c := by
  show Function.update (V2 m c) main_v25 (Y3 m c main_v25) = Y3 m c
  exact update_update_self _ _ _
theorem V4_Y (c : Dev nD) : V4 m (outsY m) c = Y4 m c := by
  show StableHlo.after hostOps1 (V3 m (outsY m) c) = Y4 m c
  rw [V3_Y m c]; rfl
theorem V5_Y (c : Dev nD) : V5 m (outsY m) c = Y5 m c := by
  show Function.update (V4 m (outsY m) c) main_v36 (Y5 m c main_v36) = Y5 m c
  rw [V4_Y m c]; exact update_update_self _ _ _
theorem V6_Y (c : Dev nD) : V6 m (outsY m) c = Y6 m c := by
  show StableHlo.after hostOps2 (V5 m (outsY m) c) = Y6 m c
  rw [V5_Y m c]; rfl
theorem V7_Y (c : Dev nD) : V7 m (outsY m) c = Y7 m c := by
  show Function.update (V6 m (outsY m) c) main_v47 (Y7 m c main_v47) = Y7 m c
  rw [V6_Y m c]; exact update_update_self _ _ _
theorem V8_Y (c : Dev nD) : V8 m (outsY m) c = Y8 m c := by
  show StableHlo.after hostOps3 (V7 m (outsY m) c) = Y8 m c
  rw [V7_Y m c]; rfl
theorem V9_Y (c : Dev nD) : V9 m (outsY m) c = Y9 m c := by
  show Function.update (V8 m (outsY m) c) main_v58 (Y9 m c main_v58) = Y9 m c
  rw [V8_Y m c]; exact update_update_self _ _ _
theorem V10_Y (c : Dev nD) : V10 m (outsY m) c = Y10 m c := by
  show StableHlo.after hostOps4 (V9 m (outsY m) c) = Y10 m c
  rw [V9_Y m c]; rfl
theorem V11_Y (c : Dev nD) : V11 m (outsY m) c = Y11 m c := by
  show Function.update (V10 m (outsY m) c) main_v69 (Y11 m c main_v69) = Y11 m c
  rw [V10_Y m c]; exact update_update_self _ _ _
theorem V12_Y (c : Dev nD) : V12 m (outsY m) c = Y12 m c := by
  show StableHlo.after hostOps5 (V11 m (outsY m) c) = Y12 m c
  rw [V11_Y m c]; rfl
theorem V13_Y (c : Dev nD) : V13 m (outsY m) c = Y13 m c := by
  show Function.update (V12 m (outsY m) c) main_v80 (Y13 m c main_v80) = Y13 m c
  rw [V12_Y m c]; exact update_update_self _ _ _
theorem V14_Y (c : Dev nD) : V14 m (outsY m) c = Y14 m c := by
  show StableHlo.after hostOps6 (V13 m (outsY m) c) = Y14 m c
  rw [V13_Y m c]; rfl
theorem V15_Y (c : Dev nD) : V15 m (outsY m) c = Y15 m c := by
  show Function.update (V14 m (outsY m) c) main_v84 (Y15 m c main_v84) = Y15 m c
  rw [V14_Y m c]; exact update_update_self _ _ _
theorem V16_Y (c : Dev nD) : V16 m (outsY m) c = Y16 m c := by
  show StableHlo.after hostOps7 (V15 m (outsY m) c) = Y16 m c
  rw [V15_Y m c]; rfl

theorem in_facts0 : ∀ w : Fin cfg0.W, w ≠ 7 → (cfg0.win w).isOut = false ∧ Pipeline.arrRef spec0 w ≠ main_v25 := by decide

theorem hF0 (c : Dev nD) (w : Fin cfg0.W) :
    (datR0 (atTc (Y2 m)) c).arrAt w cfg0.N = atTc (Y3 m) c (Pipeline.arrRef spec0 w) := by
  by_cases hw : w = 7
  · subst hw; exact (Function.update_self (f := Y2 m c) (Proc.devRef (τ := τ) .tc main_v25) _).symm
  · obtain ⟨hin, hne⟩ := in_facts0 w hw
    rw [Dat.arrAt_in _ w hin, A_eqR0]
    exact (Function.update_of_ne (StableHlo.devRef_ne_of_ne (τ := τ) hne) _ _).symm

theorem hrest0 (c : Dev nD) : ∀ b : Ref sig .tc, b ∉ Finset.univ.image (Pipeline.arrRef spec0) → atTc (Y3 m) c b = atTc (Y2 m) c b :=
  fun b hb => Function.update_of_ne (StableHlo.devRef_ne_of_ne (τ := τ) fun e => hb (Finset.mem_image.mpr ⟨7, Finset.mem_univ _, by rw [e]⟩)) _ _

theorem in_facts1 : ∀ w : Fin cfg1.W, w ≠ 7 → (cfg1.win w).isOut = false ∧ Pipeline.arrRef spec1 w ≠ main_v36 := by decide

theorem hF1 (c : Dev nD) (w : Fin cfg1.W) :
    (datR1 (atTc (Y4 m)) c).arrAt w cfg1.N = atTc (Y5 m) c (Pipeline.arrRef spec1 w) := by
  by_cases hw : w = 7
  · subst hw; exact (Function.update_self (f := Y4 m c) (Proc.devRef (τ := τ) .tc main_v36) _).symm
  · obtain ⟨hin, hne⟩ := in_facts1 w hw
    rw [Dat.arrAt_in _ w hin, A_eqR1]
    exact (Function.update_of_ne (StableHlo.devRef_ne_of_ne (τ := τ) hne) _ _).symm

theorem hrest1 (c : Dev nD) : ∀ b : Ref sig .tc, b ∉ Finset.univ.image (Pipeline.arrRef spec1) → atTc (Y5 m) c b = atTc (Y4 m) c b :=
  fun b hb => Function.update_of_ne (StableHlo.devRef_ne_of_ne (τ := τ) fun e => hb (Finset.mem_image.mpr ⟨7, Finset.mem_univ _, by rw [e]⟩)) _ _

theorem in_facts2 : ∀ w : Fin cfg2.W, w ≠ 7 → (cfg2.win w).isOut = false ∧ Pipeline.arrRef spec2 w ≠ main_v47 := by decide

theorem hF2 (c : Dev nD) (w : Fin cfg2.W) :
    (datR2 (atTc (Y6 m)) c).arrAt w cfg2.N = atTc (Y7 m) c (Pipeline.arrRef spec2 w) := by
  by_cases hw : w = 7
  · subst hw; exact (Function.update_self (f := Y6 m c) (Proc.devRef (τ := τ) .tc main_v47) _).symm
  · obtain ⟨hin, hne⟩ := in_facts2 w hw
    rw [Dat.arrAt_in _ w hin, A_eqR2]
    exact (Function.update_of_ne (StableHlo.devRef_ne_of_ne (τ := τ) hne) _ _).symm

theorem hrest2 (c : Dev nD) : ∀ b : Ref sig .tc, b ∉ Finset.univ.image (Pipeline.arrRef spec2) → atTc (Y7 m) c b = atTc (Y6 m) c b :=
  fun b hb => Function.update_of_ne (StableHlo.devRef_ne_of_ne (τ := τ) fun e => hb (Finset.mem_image.mpr ⟨7, Finset.mem_univ _, by rw [e]⟩)) _ _

theorem in_facts3 : ∀ w : Fin cfg3.W, w ≠ 7 → (cfg3.win w).isOut = false ∧ Pipeline.arrRef spec3 w ≠ main_v58 := by decide

theorem hF3 (c : Dev nD) (w : Fin cfg3.W) :
    (datR3 (atTc (Y8 m)) c).arrAt w cfg3.N = atTc (Y9 m) c (Pipeline.arrRef spec3 w) := by
  by_cases hw : w = 7
  · subst hw; exact (Function.update_self (f := Y8 m c) (Proc.devRef (τ := τ) .tc main_v58) _).symm
  · obtain ⟨hin, hne⟩ := in_facts3 w hw
    rw [Dat.arrAt_in _ w hin, A_eqR3]
    exact (Function.update_of_ne (StableHlo.devRef_ne_of_ne (τ := τ) hne) _ _).symm

theorem hrest3 (c : Dev nD) : ∀ b : Ref sig .tc, b ∉ Finset.univ.image (Pipeline.arrRef spec3) → atTc (Y9 m) c b = atTc (Y8 m) c b :=
  fun b hb => Function.update_of_ne (StableHlo.devRef_ne_of_ne (τ := τ) fun e => hb (Finset.mem_image.mpr ⟨7, Finset.mem_univ _, by rw [e]⟩)) _ _

theorem in_facts4 : ∀ w : Fin cfg4.W, w ≠ 7 → (cfg4.win w).isOut = false ∧ Pipeline.arrRef spec4 w ≠ main_v69 := by decide

theorem hF4 (c : Dev nD) (w : Fin cfg4.W) :
    (datR4 (atTc (Y10 m)) c).arrAt w cfg4.N = atTc (Y11 m) c (Pipeline.arrRef spec4 w) := by
  by_cases hw : w = 7
  · subst hw; exact (Function.update_self (f := Y10 m c) (Proc.devRef (τ := τ) .tc main_v69) _).symm
  · obtain ⟨hin, hne⟩ := in_facts4 w hw
    rw [Dat.arrAt_in _ w hin, A_eqR4]
    exact (Function.update_of_ne (StableHlo.devRef_ne_of_ne (τ := τ) hne) _ _).symm

theorem hrest4 (c : Dev nD) : ∀ b : Ref sig .tc, b ∉ Finset.univ.image (Pipeline.arrRef spec4) → atTc (Y11 m) c b = atTc (Y10 m) c b :=
  fun b hb => Function.update_of_ne (StableHlo.devRef_ne_of_ne (τ := τ) fun e => hb (Finset.mem_image.mpr ⟨7, Finset.mem_univ _, by rw [e]⟩)) _ _

theorem in_facts5 : ∀ w : Fin cfg5.W, w ≠ 7 → (cfg5.win w).isOut = false ∧ Pipeline.arrRef spec5 w ≠ main_v80 := by decide

theorem hF5 (c : Dev nD) (w : Fin cfg5.W) :
    (datR5 (atTc (Y12 m)) c).arrAt w cfg5.N = atTc (Y13 m) c (Pipeline.arrRef spec5 w) := by
  by_cases hw : w = 7
  · subst hw; exact (Function.update_self (f := Y12 m c) (Proc.devRef (τ := τ) .tc main_v80) _).symm
  · obtain ⟨hin, hne⟩ := in_facts5 w hw
    rw [Dat.arrAt_in _ w hin, A_eqR5]
    exact (Function.update_of_ne (StableHlo.devRef_ne_of_ne (τ := τ) hne) _ _).symm

theorem hrest5 (c : Dev nD) : ∀ b : Ref sig .tc, b ∉ Finset.univ.image (Pipeline.arrRef spec5) → atTc (Y13 m) c b = atTc (Y12 m) c b :=
  fun b hb => Function.update_of_ne (StableHlo.devRef_ne_of_ne (τ := τ) fun e => hb (Finset.mem_image.mpr ⟨7, Finset.mem_univ _, by rw [e]⟩)) _ _

theorem in_facts6 : ∀ w : Fin cfg6.W, w ≠ 3 → (cfg6.win w).isOut = false ∧ Pipeline.arrRef spec6 w ≠ main_v84 := by decide

theorem hF6 (c : Dev nD) (w : Fin cfg6.W) :
    (dat6 (atTc (Y14 m)) c).arrAt w cfg6.N = atTc (Y15 m) c (Pipeline.arrRef spec6 w) := by
  by_cases hw : w = 3
  · subst hw; exact (Function.update_self (f := Y14 m c) (Proc.devRef (τ := τ) .tc main_v84) _).symm
  · obtain ⟨hin, hne⟩ := in_facts6 w hw
    rw [Dat.arrAt_in _ w hin, A_eq6]
    exact (Function.update_of_ne (StableHlo.devRef_ne_of_ne (τ := τ) hne) _ _).symm

theorem hrest6 (c : Dev nD) : ∀ b : Ref sig .tc, b ∉ Finset.univ.image (Pipeline.arrRef spec6) → atTc (Y15 m) c b = atTc (Y14 m) c b :=
  fun b hb => Function.update_of_ne (StableHlo.devRef_ne_of_ne (τ := τ) fun e => hb (Finset.mem_image.mpr ⟨3, Finset.mem_univ _, by rw [e]⟩)) _ _

def pdatsY : (p : Fin 7) → (c : Dev nD) → Dat τ (Elt F) Unit ℕ (UR sig nD τ) ℕ (cfgs p) c
  | ⟨0, _⟩ => fun c => datR0 (atTc (Y2 m)) c
  | ⟨1, _⟩ => fun c => datR1 (atTc (Y4 m)) c
  | ⟨2, _⟩ => fun c => datR2 (atTc (Y6 m)) c
  | ⟨3, _⟩ => fun c => datR3 (atTc (Y8 m)) c
  | ⟨4, _⟩ => fun c => datR4 (atTc (Y10 m)) c
  | ⟨5, _⟩ => fun c => datR5 (atTc (Y12 m)) c
  | ⟨6, _⟩ => fun c => dat6 (atTc (Y14 m)) c

abbrev noL : GSem nD τ sig → Finset Unit := fun _ => ∅
abbrev noLv : GSem nD τ sig → Unit → ℕ := fun _ _ => 0

abbrev R (c : Dev nD) : sProp 𝕄 := iprop((∃ r, prngReg c r) ∗ ∃ W, owes (c : Thread nD τ) (0 : CellTallies nD τ sig Unit) W)

set_option backward.isDefEq.respectTransparency.types false in

def regY0 : RegionSeg (pcfgs (F := F)) adm (pdatsY m) () defs₀ Variants.none noL noLv 0 where
  win := launch0.win.to₀
  block_pos := launch0.block_pos
  stage_whole := launch0.stage_whole
  K := PEmpty
  osem k := k.elim
  ho := Pipeline.OwnSemFacts.none _
  hbody c := (body_obligationR0 (atTc (Y2 m)) c).loose
  hwaits := Pipeline.hwaits_of_owed_zero _ _ _ _ noL noLv 0 fun _ _ => rfl
  pre c := iprop(StableHlo.held (c : Thread nD τ) (Pipeline.ucRefs τ sig) (Y2 m c) ∗ R c)
  post c := iprop(StableHlo.held (c : Thread nD τ) (Pipeline.ucRefs τ sig) (Y3 m c) ∗ R c)
  X c := iprop(∃ r, prngReg c r)
  Y c := iprop(∃ r, prngReg c r)
  Z c := Pipeline.unscopedRest (Ix := Unit) (Name := ℕ) (U := UR sig nD τ) (Lvl := ℕ) spec0 c (atTc (Y2 m) c)
  hentry c := by
    rw [Pipeline.ownSems0_none]
    have hsplit := Pipeline.arrays_of_unscopedBufs (p := 0) (pcfgs (F := F)) adm (pdatsY m) launch0.win launch0.arr_whole c
      ((pdatsY m 0 c).share_full fun _ => rfl) (atTc (Y2 m) c) (A_eqR0 (atTc (Y2 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hinR0 (atTc (Y2 m)) c)
    unfold Pipeline.ΦA
    iintro ⟨Hp, -, Hr⟩
    isplitl [Hr]; · iexact Hr
    iexact Hp
  hout c := by
    rw [Pipeline.ownSems0_none]
    refine BIBase.Entails.trans (houtR0 (atTc (Y2 m)) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsY m) ((pdatsY m 0 c).share_full fun _ => rfl)
      (atTc (Y2 m) c) (atTc (Y3 m) c) ((pdatsY m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def regY1 : RegionSeg (pcfgs (F := F)) adm (pdatsY m) () defs₀ Variants.none noL noLv 1 where
  win := launch1.win.to₀
  block_pos := launch1.block_pos
  stage_whole := launch1.stage_whole
  K := PEmpty
  osem k := k.elim
  ho := Pipeline.OwnSemFacts.none _
  hbody c := (body_obligationR1 (atTc (Y4 m)) c).loose
  hwaits := Pipeline.hwaits_of_owed_zero _ _ _ _ noL noLv 1 fun _ _ => rfl
  pre c := iprop(StableHlo.held (c : Thread nD τ) (Pipeline.ucRefs τ sig) (Y4 m c) ∗ R c)
  post c := iprop(StableHlo.held (c : Thread nD τ) (Pipeline.ucRefs τ sig) (Y5 m c) ∗ R c)
  X c := iprop(∃ r, prngReg c r)
  Y c := iprop(∃ r, prngReg c r)
  Z c := Pipeline.unscopedRest (Ix := Unit) (Name := ℕ) (U := UR sig nD τ) (Lvl := ℕ) spec1 c (atTc (Y4 m) c)
  hentry c := by
    rw [Pipeline.ownSems0_none]
    have hsplit := Pipeline.arrays_of_unscopedBufs (p := 1) (pcfgs (F := F)) adm (pdatsY m) launch1.win launch1.arr_whole c
      ((pdatsY m 1 c).share_full fun _ => rfl) (atTc (Y4 m) c) (A_eqR1 (atTc (Y4 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hinR1 (atTc (Y4 m)) c)
    unfold Pipeline.ΦA
    iintro ⟨Hp, -, Hr⟩
    isplitl [Hr]; · iexact Hr
    iexact Hp
  hout c := by
    rw [Pipeline.ownSems0_none]
    refine BIBase.Entails.trans (houtR1 (atTc (Y4 m)) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsY m) ((pdatsY m 1 c).share_full fun _ => rfl)
      (atTc (Y4 m) c) (atTc (Y5 m) c) ((pdatsY m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def regY2 : RegionSeg (pcfgs (F := F)) adm (pdatsY m) () defs₀ Variants.none noL noLv 2 where
  win := launch2.win.to₀
  block_pos := launch2.block_pos
  stage_whole := launch2.stage_whole
  K := PEmpty
  osem k := k.elim
  ho := Pipeline.OwnSemFacts.none _
  hbody c := (body_obligationR2 (atTc (Y6 m)) c).loose
  hwaits := Pipeline.hwaits_of_owed_zero _ _ _ _ noL noLv 2 fun _ _ => rfl
  pre c := iprop(StableHlo.held (c : Thread nD τ) (Pipeline.ucRefs τ sig) (Y6 m c) ∗ R c)
  post c := iprop(StableHlo.held (c : Thread nD τ) (Pipeline.ucRefs τ sig) (Y7 m c) ∗ R c)
  X c := iprop(∃ r, prngReg c r)
  Y c := iprop(∃ r, prngReg c r)
  Z c := Pipeline.unscopedRest (Ix := Unit) (Name := ℕ) (U := UR sig nD τ) (Lvl := ℕ) spec2 c (atTc (Y6 m) c)
  hentry c := by
    rw [Pipeline.ownSems0_none]
    have hsplit := Pipeline.arrays_of_unscopedBufs (p := 2) (pcfgs (F := F)) adm (pdatsY m) launch2.win launch2.arr_whole c
      ((pdatsY m 2 c).share_full fun _ => rfl) (atTc (Y6 m) c) (A_eqR2 (atTc (Y6 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hinR2 (atTc (Y6 m)) c)
    unfold Pipeline.ΦA
    iintro ⟨Hp, -, Hr⟩
    isplitl [Hr]; · iexact Hr
    iexact Hp
  hout c := by
    rw [Pipeline.ownSems0_none]
    refine BIBase.Entails.trans (houtR2 (atTc (Y6 m)) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdatsY m) ((pdatsY m 2 c).share_full fun _ => rfl)
      (atTc (Y6 m) c) (atTc (Y7 m) c) ((pdatsY m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def regY3 : RegionSeg (pcfgs (F := F)) adm (pdatsY m) () defs₀ Variants.none noL noLv 3 where
  win := launch3.win.to₀
  block_pos := launch3.block_pos
  stage_whole := launch3.stage_whole
  K := PEmpty
  osem k := k.elim
  ho := Pipeline.OwnSemFacts.none _
  hbody c := (body_obligationR3 (atTc (Y8 m)) c).loose
  hwaits := Pipeline.hwaits_of_owed_zero _ _ _ _ noL noLv 3 fun _ _ => rfl
  pre c := iprop(StableHlo.held (c : Thread nD τ) (Pipeline.ucRefs τ sig) (Y8 m c) ∗ R c)
  post c := iprop(StableHlo.held (c : Thread nD τ) (Pipeline.ucRefs τ sig) (Y9 m c) ∗ R c)
  X c := iprop(∃ r, prngReg c r)
  Y c := iprop(∃ r, prngReg c r)
  Z c := Pipeline.unscopedRest (Ix := Unit) (Name := ℕ) (U := UR sig nD τ) (Lvl := ℕ) spec3 c (atTc (Y8 m) c)
  hentry c := by
    rw [Pipeline.ownSems0_none]
    have hsplit := Pipeline.arrays_of_unscopedBufs (p := 3) (pcfgs (F := F)) adm (pdatsY m) launch3.win launch3.arr_whole c
      ((pdatsY m 3 c).share_full fun _ => rfl) (atTc (Y8 m) c) (A_eqR3 (atTc (Y8 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hinR3 (atTc (Y8 m)) c)
    unfold Pipeline.ΦA
    iintro ⟨Hp, -, Hr⟩
    isplitl [Hr]; · iexact Hr
    iexact Hp
  hout c := by
    rw [Pipeline.ownSems0_none]
    refine BIBase.Entails.trans (houtR3 (atTc (Y8 m)) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdatsY m) ((pdatsY m 3 c).share_full fun _ => rfl)
      (atTc (Y8 m) c) (atTc (Y9 m) c) ((pdatsY m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def regY4 : RegionSeg (pcfgs (F := F)) adm (pdatsY m) () defs₀ Variants.none noL noLv 4 where
  win := launch4.win.to₀
  block_pos := launch4.block_pos
  stage_whole := launch4.stage_whole
  K := PEmpty
  osem k := k.elim
  ho := Pipeline.OwnSemFacts.none _
  hbody c := (body_obligationR4 (atTc (Y10 m)) c).loose
  hwaits := Pipeline.hwaits_of_owed_zero _ _ _ _ noL noLv 4 fun _ _ => rfl
  pre c := iprop(StableHlo.held (c : Thread nD τ) (Pipeline.ucRefs τ sig) (Y10 m c) ∗ R c)
  post c := iprop(StableHlo.held (c : Thread nD τ) (Pipeline.ucRefs τ sig) (Y11 m c) ∗ R c)
  X c := iprop(∃ r, prngReg c r)
  Y c := iprop(∃ r, prngReg c r)
  Z c := Pipeline.unscopedRest (Ix := Unit) (Name := ℕ) (U := UR sig nD τ) (Lvl := ℕ) spec4 c (atTc (Y10 m) c)
  hentry c := by
    rw [Pipeline.ownSems0_none]
    have hsplit := Pipeline.arrays_of_unscopedBufs (p := 4) (pcfgs (F := F)) adm (pdatsY m) launch4.win launch4.arr_whole c
      ((pdatsY m 4 c).share_full fun _ => rfl) (atTc (Y10 m) c) (A_eqR4 (atTc (Y10 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hinR4 (atTc (Y10 m)) c)
    unfold Pipeline.ΦA
    iintro ⟨Hp, -, Hr⟩
    isplitl [Hr]; · iexact Hr
    iexact Hp
  hout c := by
    rw [Pipeline.ownSems0_none]
    refine BIBase.Entails.trans (houtR4 (atTc (Y10 m)) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdatsY m) ((pdatsY m 4 c).share_full fun _ => rfl)
      (atTc (Y10 m) c) (atTc (Y11 m) c) ((pdatsY m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def regY5 : RegionSeg (pcfgs (F := F)) adm (pdatsY m) () defs₀ Variants.none noL noLv 5 where
  win := launch5.win.to₀
  block_pos := launch5.block_pos
  stage_whole := launch5.stage_whole
  K := PEmpty
  osem k := k.elim
  ho := Pipeline.OwnSemFacts.none _
  hbody c := (body_obligationR5 (atTc (Y12 m)) c).loose
  hwaits := Pipeline.hwaits_of_owed_zero _ _ _ _ noL noLv 5 fun _ _ => rfl
  pre c := iprop(StableHlo.held (c : Thread nD τ) (Pipeline.ucRefs τ sig) (Y12 m c) ∗ R c)
  post c := iprop(StableHlo.held (c : Thread nD τ) (Pipeline.ucRefs τ sig) (Y13 m c) ∗ R c)
  X c := iprop(∃ r, prngReg c r)
  Y c := iprop(∃ r, prngReg c r)
  Z c := Pipeline.unscopedRest (Ix := Unit) (Name := ℕ) (U := UR sig nD τ) (Lvl := ℕ) spec5 c (atTc (Y12 m) c)
  hentry c := by
    rw [Pipeline.ownSems0_none]
    have hsplit := Pipeline.arrays_of_unscopedBufs (p := 5) (pcfgs (F := F)) adm (pdatsY m) launch5.win launch5.arr_whole c
      ((pdatsY m 5 c).share_full fun _ => rfl) (atTc (Y12 m) c) (A_eqR5 (atTc (Y12 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hinR5 (atTc (Y12 m)) c)
    unfold Pipeline.ΦA
    iintro ⟨Hp, -, Hr⟩
    isplitl [Hr]; · iexact Hr
    iexact Hp
  hout c := by
    rw [Pipeline.ownSems0_none]
    refine BIBase.Entails.trans (houtR5 (atTc (Y12 m)) c) ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdatsY m) ((pdatsY m 5 c).share_full fun _ => rfl)
      (atTc (Y12 m) c) (atTc (Y13 m) c) ((pdatsY m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def regY6 : RegionSeg (pcfgs (F := F)) adm (pdatsY m) () defs₀ Variants.none noL noLv 6 where
  win := launch6.win.to₀
  block_pos := launch6.block_pos
  stage_whole := launch6.stage_whole
  K := PEmpty
  osem k := k.elim
  ho := Pipeline.OwnSemFacts.none _
  hbody c := (body_obligation6 (atTc (Y14 m)) c).loose
  hwaits := Pipeline.hwaits_of_owed_zero _ _ _ _ noL noLv 6 fun _ _ => rfl
  pre c := iprop(StableHlo.held (c : Thread nD τ) (Pipeline.ucRefs τ sig) (Y14 m c) ∗ R c)
  post c := iprop(StableHlo.held (c : Thread nD τ) (Pipeline.ucRefs τ sig) (Y15 m c) ∗ R c)
  X c := iprop(∃ r, prngReg c r)
  Y c := iprop(∃ r, prngReg c r)
  Z c := Pipeline.unscopedRest (Ix := Unit) (Name := ℕ) (U := UR sig nD τ) (Lvl := ℕ) spec6 c (atTc (Y14 m) c)
  hentry c := by
    rw [Pipeline.ownSems0_none]
    have hsplit := Pipeline.arrays_of_unscopedBufs (p := 6) (pcfgs (F := F)) adm (pdatsY m) launch6.win launch6.arr_whole c
      ((pdatsY m 6 c).share_full fun _ => rfl) (atTc (Y14 m) c) (A_eq6 (atTc (Y14 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsY m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdatsY m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdatsY m) ((pdatsY m 6 c).share_full fun _ => rfl)
      (atTc (Y14 m) c) (atTc (Y15 m) c) ((pdatsY m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_cond m (Ix := Unit) (U := UR sig nD τ) (Lvl := ℕ) emb₁ () Variants.none noL noLv (fun _ _ => rfl) ρ (outsY m) (pdatsY m)
    (O₀ := 0) (G := fun _ => iprop(emp))
    (u₀ := initOf (Pipeline.cells cfgs cellOf_inj) (Pipeline.launchToks cfgs cellOf_inj))
    (hu₀ := by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (E := fun _ c => R c)
    (hE0 := Pipeline.initEach noL noLv fun c => by
      iintro ⟨⟨-, HO, -, Hp, -⟩, -⟩
      imodintro
      isplitl [Hp]; · iexists _; iexact Hp
      iexists ∅; iexact HO)
    (hE7 := fun c => by iintro ⟨-, HO⟩; iexact HO)
    (regY0 m) (fun c => by exact .rfl) (fun c => by rw [V3_Y m c]; exact .rfl)
    (regY1 m) (fun c => by rw [V4_Y m c]; exact .rfl) (fun c => by rw [V5_Y m c]; exact .rfl)
    (regY2 m) (fun c => by rw [V6_Y m c]; exact .rfl) (fun c => by rw [V7_Y m c]; exact .rfl)
    (regY3 m) (fun c => by rw [V8_Y m c]; exact .rfl) (fun c => by rw [V9_Y m c]; exact .rfl)
    (regY4 m) (fun c => by rw [V10_Y m c]; exact .rfl) (fun c => by rw [V11_Y m c]; exact .rfl)
    (regY5 m) (fun c => by rw [V12_Y m c]; exact .rfl) (fun c => by rw [V13_Y m c]; exact .rfl)
    (regY6 m) (fun c => by rw [V14_Y m c]; exact .rfl) (fun c => by rw [V15_Y m c]; exact .rfl)

end Cert.KernelIdeal.Gen

end
-- ==== Proof.Kept.lean ====
import proofs.«427532_j66606352826848_3_alg».proof.Proof.Chain

set_option maxRecDepth 16384

noncomputable section

namespace Cert.KernelIdeal.KVal

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

theorem Y3_of (c : Dev nD) (r : Ref sig .tc) (h : r ∉ ([main_v25] : List (Ref sig .tc))) :
    Y3 m c (Proc.devRef .tc r) = Y2 m c (Proc.devRef .tc r) := by
  unfold Y3
  exact Function.update_of_ne (StableHlo.devRef_ne_of_ne (List.ne_of_not_mem_cons h)) _ _
theorem Y4_of (c : Dev nD) (r : Ref sig .tc) (h : r ∉ hostOps1_W) :
    Y4 m c (Proc.devRef .tc r) = Y3 m c (Proc.devRef .tc r) := by
  unfold Y4
  exact StableHlo.after_of_writes_sub hostOps1 _ hostOps1_writes h
theorem Y5_of (c : Dev nD) (r : Ref sig .tc) (h : r ∉ ([main_v36] : List (Ref sig .tc))) :
    Y5 m c (Proc.devRef .tc r) = Y4 m c (Proc.devRef .tc r) := by
  unfold Y5
  exact Function.update_of_ne (StableHlo.devRef_ne_of_ne (List.ne_of_not_mem_cons h)) _ _
theorem Y6_of (c : Dev nD) (r : Ref sig .tc) (h : r ∉ hostOps2_W) :
    Y6 m c (Proc.devRef .tc r) = Y5 m c (Proc.devRef .tc r) := by
  unfold Y6
  exact StableHlo.after_of_writes_sub hostOps2 _ hostOps2_writes h
theorem Y7_of (c : Dev nD) (r : Ref sig .tc) (h : r ∉ ([main_v47] : List (Ref sig .tc))) :
    Y7 m c (Proc.devRef .tc r) = Y6 m c (Proc.devRef .tc r) := by
  unfold Y7
  exact Function.update_of_ne (StableHlo.devRef_ne_of_ne (List.ne_of_not_mem_cons h)) _ _
theorem Y8_of (c : Dev nD) (r : Ref sig .tc) (h : r ∉ hostOps3_W) :
    Y8 m c (Proc.devRef .tc r) = Y7 m c (Proc.devRef .tc r) := by
  unfold Y8
  exact StableHlo.after_of_writes_sub hostOps3 _ hostOps3_writes h
theorem Y9_of (c : Dev nD) (r : Ref sig .tc) (h : r ∉ ([main_v58] : List (Ref sig .tc))) :
    Y9 m c (Proc.devRef .tc r) = Y8 m c (Proc.devRef .tc r) := by
  unfold Y9
  exact Function.update_of_ne (StableHlo.devRef_ne_of_ne (List.ne_of_not_mem_cons h)) _ _
theorem Y10_of (c : Dev nD) (r : Ref sig .tc) (h : r ∉ hostOps4_W) :
    Y10 m c (Proc.devRef .tc r) = Y9 m c (Proc.devRef .tc r) := by
  unfold Y10
  exact StableHlo.after_of_writes_sub hostOps4 _ hostOps4_writes h
theorem Y11_of (c : Dev nD) (r : Ref sig .tc) (h : r ∉ ([main_v69] : List (Ref sig .tc))) :
    Y11 m c (Proc.devRef .tc r) = Y10 m c (Proc.devRef .tc r) := by
  unfold Y11
  exact Function.update_of_ne (StableHlo.devRef_ne_of_ne (List.ne_of_not_mem_cons h)) _ _
theorem Y12_of (c : Dev nD) (r : Ref sig .tc) (h : r ∉ hostOps5_W) :
    Y12 m c (Proc.devRef .tc r) = Y11 m c (Proc.devRef .tc r) := by
  unfold Y12
  exact StableHlo.after_of_writes_sub hostOps5 _ hostOps5_writes h
theorem Y13_of (c : Dev nD) (r : Ref sig .tc) (h : r ∉ ([main_v80] : List (Ref sig .tc))) :
    Y13 m c (Proc.devRef .tc r) = Y12 m c (Proc.devRef .tc r) := by
  unfold Y13
  exact Function.update_of_ne (StableHlo.devRef_ne_of_ne (List.ne_of_not_mem_cons h)) _ _
theorem Y14_of (c : Dev nD) (r : Ref sig .tc) (h : r ∉ hostOps6_W) :
    Y14 m c (Proc.devRef .tc r) = Y13 m c (Proc.devRef .tc r) := by
  unfold Y14
  exact StableHlo.after_of_writes_sub hostOps6 _ hostOps6_writes h
theorem Y15_of (c : Dev nD) (r : Ref sig .tc) (h : r ∉ ([main_v84] : List (Ref sig .tc))) :
    Y15 m c (Proc.devRef .tc r) = Y14 m c (Proc.devRef .tc r) := by
  unfold Y15
  exact Function.update_of_ne (StableHlo.devRef_ne_of_ne (List.ne_of_not_mem_cons h)) _ _
theorem Y16_of (c : Dev nD) (r : Ref sig .tc) (h : r ∉ hostOps7_W) :
    Y16 m c (Proc.devRef .tc r) = Y15 m c (Proc.devRef .tc r) := by
  unfold Y16
  exact StableHlo.after_of_writes_sub hostOps7 _ hostOps7_writes h

theorem kept3_v2 (c : Dev nD) : Y3 m c (Proc.devRef .tc main_v2) = Y2 m c (Proc.devRef .tc main_v2) :=
  (Y3_of m c main_v2 (by decide))
theorem kept4_v2 (c : Dev nD) : Y4 m c (Proc.devRef .tc main_v2) = Y2 m c (Proc.devRef .tc main_v2) :=
  (Y4_of m c main_v2 (by decide)).trans (kept3_v2 m c)
theorem kept5_v2 (c : Dev nD) : Y5 m c (Proc.devRef .tc main_v2) = Y2 m c (Proc.devRef .tc main_v2) :=
  (Y5_of m c main_v2 (by decide)).trans (kept4_v2 m c)
theorem kept6_v2 (c : Dev nD) : Y6 m c (Proc.devRef .tc main_v2) = Y2 m c (Proc.devRef .tc main_v2) :=
  (Y6_of m c main_v2 (by decide)).trans (kept5_v2 m c)
theorem kept7_v2 (c : Dev nD) : Y7 m c (Proc.devRef .tc main_v2) = Y2 m c (Proc.devRef .tc main_v2) :=
  (Y7_of m c main_v2 (by decide)).trans (kept6_v2 m c)
theorem kept8_v2 (c : Dev nD) : Y8 m c (Proc.devRef .tc main_v2) = Y2 m c (Proc.devRef .tc main_v2) :=
  (Y8_of m c main_v2 (by decide)).trans (kept7_v2 m c)
theorem kept9_v2 (c : Dev nD) : Y9 m c (Proc.devRef .tc main_v2) = Y2 m c (Proc.devRef .tc main_v2) :=
  (Y9_of m c main_v2 (by decide)).trans (kept8_v2 m c)
theorem kept10_v2 (c : Dev nD) : Y10 m c (Proc.devRef .tc main_v2) = Y2 m c (Proc.devRef .tc main_v2) :=
  (Y10_of m c main_v2 (by decide)).trans (kept9_v2 m c)
theorem kept11_v2 (c : Dev nD) : Y11 m c (Proc.devRef .tc main_v2) = Y2 m c (Proc.devRef .tc main_v2) :=
  (Y11_of m c main_v2 (by decide)).trans (kept10_v2 m c)
theorem kept12_v2 (c : Dev nD) : Y12 m c (Proc.devRef .tc main_v2) = Y2 m c (Proc.devRef .tc main_v2) :=
  (Y12_of m c main_v2 (by decide)).trans (kept11_v2 m c)
theorem kept3_v5 (c : Dev nD) : Y3 m c (Proc.devRef .tc main_v5) = Y2 m c (Proc.devRef .tc main_v5) :=
  (Y3_of m c main_v5 (by decide))
theorem kept4_v5 (c : Dev nD) : Y4 m c (Proc.devRef .tc main_v5) = Y2 m c (Proc.devRef .tc main_v5) :=
  (Y4_of m c main_v5 (by decide)).trans (kept3_v5 m c)
theorem kept5_v5 (c : Dev nD) : Y5 m c (Proc.devRef .tc main_v5) = Y2 m c (Proc.devRef .tc main_v5) :=
  (Y5_of m c main_v5 (by decide)).trans (kept4_v5 m c)
theorem kept6_v5 (c : Dev nD) : Y6 m c (Proc.devRef .tc main_v5) = Y2 m c (Proc.devRef .tc main_v5) :=
  (Y6_of m c main_v5 (by decide)).trans (kept5_v5 m c)
theorem kept7_v5 (c : Dev nD) : Y7 m c (Proc.devRef .tc main_v5) = Y2 m c (Proc.devRef .tc main_v5) :=
  (Y7_of m c main_v5 (by decide)).trans (kept6_v5 m c)
theorem kept8_v5 (c : Dev nD) : Y8 m c (Proc.devRef .tc main_v5) = Y2 m c (Proc.devRef .tc main_v5) :=
  (Y8_of m c main_v5 (by decide)).trans (kept7_v5 m c)
theorem kept9_v5 (c : Dev nD) : Y9 m c (Proc.devRef .tc main_v5) = Y2 m c (Proc.devRef .tc main_v5) :=
  (Y9_of m c main_v5 (by decide)).trans (kept8_v5 m c)
theorem kept10_v5 (c : Dev nD) : Y10 m c (Proc.devRef .tc main_v5) = Y2 m c (Proc.devRef .tc main_v5) :=
  (Y10_of m c main_v5 (by decide)).trans (kept9_v5 m c)
theorem kept11_v5 (c : Dev nD) : Y11 m c (Proc.devRef .tc main_v5) = Y2 m c (Proc.devRef .tc main_v5) :=
  (Y11_of m c main_v5 (by decide)).trans (kept10_v5 m c)
theorem kept12_v5 (c : Dev nD) : Y12 m c (Proc.devRef .tc main_v5) = Y2 m c (Proc.devRef .tc main_v5) :=
  (Y12_of m c main_v5 (by decide)).trans (kept11_v5 m c)
theorem kept3_v8 (c : Dev nD) : Y3 m c (Proc.devRef .tc main_v8) = Y2 m c (Proc.devRef .tc main_v8) :=
  (Y3_of m c main_v8 (by decide))
theorem kept4_v8 (c : Dev nD) : Y4 m c (Proc.devRef .tc main_v8) = Y2 m c (Proc.devRef .tc main_v8) :=
  (Y4_of m c main_v8 (by decide)).trans (kept3_v8 m c)
theorem kept5_v8 (c : Dev nD) : Y5 m c (Proc.devRef .tc main_v8) = Y2 m c (Proc.devRef .tc main_v8) :=
  (Y5_of m c main_v8 (by decide)).trans (kept4_v8 m c)
theorem kept6_v8 (c : Dev nD) : Y6 m c (Proc.devRef .tc main_v8) = Y2 m c (Proc.devRef .tc main_v8) :=
  (Y6_of m c main_v8 (by decide)).trans (kept5_v8 m c)
theorem kept7_v8 (c : Dev nD) : Y7 m c (Proc.devRef .tc main_v8) = Y2 m c (Proc.devRef .tc main_v8) :=
  (Y7_of m c main_v8 (by decide)).trans (kept6_v8 m c)
theorem kept8_v8 (c : Dev nD) : Y8 m c (Proc.devRef .tc main_v8) = Y2 m c (Proc.devRef .tc main_v8) :=
  (Y8_of m c main_v8 (by decide)).trans (kept7_v8 m c)
theorem kept9_v8 (c : Dev nD) : Y9 m c (Proc.devRef .tc main_v8) = Y2 m c (Proc.devRef .tc main_v8) :=
  (Y9_of m c main_v8 (by decide)).trans (kept8_v8 m c)
theorem kept10_v8 (c : Dev nD) : Y10 m c (Proc.devRef .tc main_v8) = Y2 m c (Proc.devRef .tc main_v8) :=
  (Y10_of m c main_v8 (by decide)).trans (kept9_v8 m c)
theorem kept11_v8 (c : Dev nD) : Y11 m c (Proc.devRef .tc main_v8) = Y2 m c (Proc.devRef .tc main_v8) :=
  (Y11_of m c main_v8 (by decide)).trans (kept10_v8 m c)
theorem kept12_v8 (c : Dev nD) : Y12 m c (Proc.devRef .tc main_v8) = Y2 m c (Proc.devRef .tc main_v8) :=
  (Y12_of m c main_v8 (by decide)).trans (kept11_v8 m c)
theorem kept3_v11 (c : Dev nD) : Y3 m c (Proc.devRef .tc main_v11) = Y2 m c (Proc.devRef .tc main_v11) :=
  (Y3_of m c main_v11 (by decide))
theorem kept4_v11 (c : Dev nD) : Y4 m c (Proc.devRef .tc main_v11) = Y2 m c (Proc.devRef .tc main_v11) :=
  (Y4_of m c main_v11 (by decide)).trans (kept3_v11 m c)
theorem kept5_v11 (c : Dev nD) : Y5 m c (Proc.devRef .tc main_v11) = Y2 m c (Proc.devRef .tc main_v11) :=
  (Y5_of m c main_v11 (by decide)).trans (kept4_v11 m c)
theorem kept6_v11 (c : Dev nD) : Y6 m c (Proc.devRef .tc main_v11) = Y2 m c (Proc.devRef .tc main_v11) :=
  (Y6_of m c main_v11 (by decide)).trans (kept5_v11 m c)
theorem kept7_v11 (c : Dev nD) : Y7 m c (Proc.devRef .tc main_v11) = Y2 m c (Proc.devRef .tc main_v11) :=
  (Y7_of m c main_v11 (by decide)).trans (kept6_v11 m c)
theorem kept8_v11 (c : Dev nD) : Y8 m c (Proc.devRef .tc main_v11) = Y2 m c (Proc.devRef .tc main_v11) :=
  (Y8_of m c main_v11 (by decide)).trans (kept7_v11 m c)
theorem kept9_v11 (c : Dev nD) : Y9 m c (Proc.devRef .tc main_v11) = Y2 m c (Proc.devRef .tc main_v11) :=
  (Y9_of m c main_v11 (by decide)).trans (kept8_v11 m c)
theorem kept10_v11 (c : Dev nD) : Y10 m c (Proc.devRef .tc main_v11) = Y2 m c (Proc.devRef .tc main_v11) :=
  (Y10_of m c main_v11 (by decide)).trans (kept9_v11 m c)
theorem kept11_v11 (c : Dev nD) : Y11 m c (Proc.devRef .tc main_v11) = Y2 m c (Proc.devRef .tc main_v11) :=
  (Y11_of m c main_v11 (by decide)).trans (kept10_v11 m c)
theorem kept12_v11 (c : Dev nD) : Y12 m c (Proc.devRef .tc main_v11) = Y2 m c (Proc.devRef .tc main_v11) :=
  (Y12_of m c main_v11 (by decide)).trans (kept11_v11 m c)
theorem kept3_v13 (c : Dev nD) : Y3 m c (Proc.devRef .tc main_v13) = Y2 m c (Proc.devRef .tc main_v13) :=
  (Y3_of m c main_v13 (by decide))
theorem kept4_v13 (c : Dev nD) : Y4 m c (Proc.devRef .tc main_v13) = Y2 m c (Proc.devRef .tc main_v13) :=
  (Y4_of m c main_v13 (by decide)).trans (kept3_v13 m c)
theorem kept5_v13 (c : Dev nD) : Y5 m c (Proc.devRef .tc main_v13) = Y2 m c (Proc.devRef .tc main_v13) :=
  (Y5_of m c main_v13 (by decide)).trans (kept4_v13 m c)
theorem kept6_v13 (c : Dev nD) : Y6 m c (Proc.devRef .tc main_v13) = Y2 m c (Proc.devRef .tc main_v13) :=
  (Y6_of m c main_v13 (by decide)).trans (kept5_v13 m c)
theorem kept7_v13 (c : Dev nD) : Y7 m c (Proc.devRef .tc main_v13) = Y2 m c (Proc.devRef .tc main_v13) :=
  (Y7_of m c main_v13 (by decide)).trans (kept6_v13 m c)
theorem kept8_v13 (c : Dev nD) : Y8 m c (Proc.devRef .tc main_v13) = Y2 m c (Proc.devRef .tc main_v13) :=
  (Y8_of m c main_v13 (by decide)).trans (kept7_v13 m c)
theorem kept9_v13 (c : Dev nD) : Y9 m c (Proc.devRef .tc main_v13) = Y2 m c (Proc.devRef .tc main_v13) :=
  (Y9_of m c main_v13 (by decide)).trans (kept8_v13 m c)
theorem kept10_v13 (c : Dev nD) : Y10 m c (Proc.devRef .tc main_v13) = Y2 m c (Proc.devRef .tc main_v13) :=
  (Y10_of m c main_v13 (by decide)).trans (kept9_v13 m c)
theorem kept11_v13 (c : Dev nD) : Y11 m c (Proc.devRef .tc main_v13) = Y2 m c (Proc.devRef .tc main_v13) :=
  (Y11_of m c main_v13 (by decide)).trans (kept10_v13 m c)
theorem kept12_v13 (c : Dev nD) : Y12 m c (Proc.devRef .tc main_v13) = Y2 m c (Proc.devRef .tc main_v13) :=
  (Y12_of m c main_v13 (by decide)).trans (kept11_v13 m c)
theorem kept3_v14 (c : Dev nD) : Y3 m c (Proc.devRef .tc main_v14) = Y2 m c (Proc.devRef .tc main_v14) :=
  (Y3_of m c main_v14 (by decide))
theorem kept4_v14 (c : Dev nD) : Y4 m c (Proc.devRef .tc main_v14) = Y2 m c (Proc.devRef .tc main_v14) :=
  (Y4_of m c main_v14 (by decide)).trans (kept3_v14 m c)
theorem kept5_v14 (c : Dev nD) : Y5 m c (Proc.devRef .tc main_v14) = Y2 m c (Proc.devRef .tc main_v14) :=
  (Y5_of m c main_v14 (by decide)).trans (kept4_v14 m c)
theorem kept6_v14 (c : Dev nD) : Y6 m c (Proc.devRef .tc main_v14) = Y2 m c (Proc.devRef .tc main_v14) :=
  (Y6_of m c main_v14 (by decide)).trans (kept5_v14 m c)
theorem kept7_v14 (c : Dev nD) : Y7 m c (Proc.devRef .tc main_v14) = Y2 m c (Proc.devRef .tc main_v14) :=
  (Y7_of m c main_v14 (by decide)).trans (kept6_v14 m c)
theorem kept8_v14 (c : Dev nD) : Y8 m c (Proc.devRef .tc main_v14) = Y2 m c (Proc.devRef .tc main_v14) :=
  (Y8_of m c main_v14 (by decide)).trans (kept7_v14 m c)
theorem kept9_v14 (c : Dev nD) : Y9 m c (Proc.devRef .tc main_v14) = Y2 m c (Proc.devRef .tc main_v14) :=
  (Y9_of m c main_v14 (by decide)).trans (kept8_v14 m c)
theorem kept10_v14 (c : Dev nD) : Y10 m c (Proc.devRef .tc main_v14) = Y2 m c (Proc.devRef .tc main_v14) :=
  (Y10_of m c main_v14 (by decide)).trans (kept9_v14 m c)
theorem kept11_v14 (c : Dev nD) : Y11 m c (Proc.devRef .tc main_v14) = Y2 m c (Proc.devRef .tc main_v14) :=
  (Y11_of m c main_v14 (by decide)).trans (kept10_v14 m c)
theorem kept12_v14 (c : Dev nD) : Y12 m c (Proc.devRef .tc main_v14) = Y2 m c (Proc.devRef .tc main_v14) :=
  (Y12_of m c main_v14 (by decide)).trans (kept11_v14 m c)

theorem out4 (c : Dev nD) : Y4 m c (Proc.devRef .tc main_v25) = Y3 m c (Proc.devRef .tc main_v25) :=
  Y4_of m c main_v25 (by decide)
theorem out6 (c : Dev nD) : Y6 m c (Proc.devRef .tc main_v36) = Y5 m c (Proc.devRef .tc main_v36) :=
  Y6_of m c main_v36 (by decide)
theorem out8 (c : Dev nD) : Y8 m c (Proc.devRef .tc main_v47) = Y7 m c (Proc.devRef .tc main_v47) :=
  Y8_of m c main_v47 (by decide)
theorem out10 (c : Dev nD) : Y10 m c (Proc.devRef .tc main_v58) = Y9 m c (Proc.devRef .tc main_v58) :=
  Y10_of m c main_v58 (by decide)
theorem out12 (c : Dev nD) : Y12 m c (Proc.devRef .tc main_v69) = Y11 m c (Proc.devRef .tc main_v69) :=
  Y12_of m c main_v69 (by decide)
theorem out14 (c : Dev nD) : Y14 m c (Proc.devRef .tc main_v80) = Y13 m c (Proc.devRef .tc main_v80) :=
  Y14_of m c main_v80 (by decide)
theorem out16 (c : Dev nD) : Y16 m c (Proc.devRef .tc main_v84) = Y15 m c (Proc.devRef .tc main_v84) :=
  Y16_of m c main_v84 (by decide)

theorem V1_arg0 (c : Dev nD) : V1 m c (Proc.devRef .tc main_arg0) = m ((c : Thread nD τ).loc main_arg0) :=
  V1_of m c main_arg0 (by decide)
theorem Y2_arg0 (c : Dev nD) : Y2 m c (Proc.devRef .tc main_arg0) = m ((c : Thread nD τ).loc main_arg0) :=
  (V2_of m c main_arg0 (by decide)).trans (V1_arg0 m c)
theorem V1_arg1 (c : Dev nD) : V1 m c (Proc.devRef .tc main_arg1) = m ((c : Thread nD τ).loc main_arg1) :=
  V1_of m c main_arg1 (by decide)
theorem Y2_arg1 (c : Dev nD) : Y2 m c (Proc.devRef .tc main_arg1) = m ((c : Thread nD τ).loc main_arg1) :=
  (V2_of m c main_arg1 (by decide)).trans (V1_arg1 m c)
theorem V1_arg2 (c : Dev nD) : V1 m c (Proc.devRef .tc main_arg2) = m ((c : Thread nD τ).loc main_arg2) :=
  V1_of m c main_arg2 (by decide)
theorem Y2_arg2 (c : Dev nD) : Y2 m c (Proc.devRef .tc main_arg2) = m ((c : Thread nD τ).loc main_arg2) :=
  (V2_of m c main_arg2 (by decide)).trans (V1_arg2 m c)
theorem V1_arg3 (c : Dev nD) : V1 m c (Proc.devRef .tc main_arg3) = m ((c : Thread nD τ).loc main_arg3) :=
  V1_of m c main_arg3 (by decide)
theorem Y2_arg3 (c : Dev nD) : Y2 m c (Proc.devRef .tc main_arg3) = m ((c : Thread nD τ).loc main_arg3) :=
  (V2_of m c main_arg3 (by decide)).trans (V1_arg3 m c)
theorem V1_arg4 (c : Dev nD) : V1 m c (Proc.devRef .tc main_arg4) = m ((c : Thread nD τ).loc main_arg4) :=
  V1_of m c main_arg4 (by decide)
theorem Y2_arg4 (c : Dev nD) : Y2 m c (Proc.devRef .tc main_arg4) = m ((c : Thread nD τ).loc main_arg4) :=
  (V2_of m c main_arg4 (by decide)).trans (V1_arg4 m c)
theorem V1_arg5 (c : Dev nD) : V1 m c (Proc.devRef .tc main_arg5) = m ((c : Thread nD τ).loc main_arg5) :=
  V1_of m c main_arg5 (by decide)
theorem Y2_arg5 (c : Dev nD) : Y2 m c (Proc.devRef .tc main_arg5) = m ((c : Thread nD τ).loc main_arg5) :=
  (V2_of m c main_arg5 (by decide)).trans (V1_arg5 m c)
theorem V1_arg6 (c : Dev nD) : V1 m c (Proc.devRef .tc main_arg6) = m ((c : Thread nD τ).loc main_arg6) :=
  V1_of m c main_arg6 (by decide)
theorem Y2_arg6 (c : Dev nD) : Y2 m c (Proc.devRef .tc main_arg6) = m ((c : Thread nD τ).loc main_arg6) :=
  (V2_of m c main_arg6 (by decide)).trans (V1_arg6 m c)
theorem V1_arg7 (c : Dev nD) : V1 m c (Proc.devRef .tc main_arg7) = m ((c : Thread nD τ).loc main_arg7) :=
  V1_of m c main_arg7 (by decide)
theorem Y2_arg7 (c : Dev nD) : Y2 m c (Proc.devRef .tc main_arg7) = m ((c : Thread nD τ).loc main_arg7) :=
  (V2_of m c main_arg7 (by decide)).trans (V1_arg7 m c)
theorem Y3_arg6 (c : Dev nD) : Y3 m c (Proc.devRef .tc main_arg6) = m ((c : Thread nD τ).loc main_arg6) :=
  (Y3_of m c main_arg6 (by decide)).trans (Y2_arg6 m c)
theorem Y4_arg6 (c : Dev nD) : Y4 m c (Proc.devRef .tc main_arg6) = m ((c : Thread nD τ).loc main_arg6) :=
  (Y4_of m c main_arg6 (by decide)).trans (Y3_arg6 m c)
theorem Y5_arg6 (c : Dev nD) : Y5 m c (Proc.devRef .tc main_arg6) = m ((c : Thread nD τ).loc main_arg6) :=
  (Y5_of m c main_arg6 (by decide)).trans (Y4_arg6 m c)
theorem Y6_arg6 (c : Dev nD) : Y6 m c (Proc.devRef .tc main_arg6) = m ((c : Thread nD τ).loc main_arg6) :=
  (Y6_of m c main_arg6 (by decide)).trans (Y5_arg6 m c)
theorem Y7_arg6 (c : Dev nD) : Y7 m c (Proc.devRef .tc main_arg6) = m ((c : Thread nD τ).loc main_arg6) :=
  (Y7_of m c main_arg6 (by decide)).trans (Y6_arg6 m c)
theorem Y8_arg6 (c : Dev nD) : Y8 m c (Proc.devRef .tc main_arg6) = m ((c : Thread nD τ).loc main_arg6) :=
  (Y8_of m c main_arg6 (by decide)).trans (Y7_arg6 m c)
theorem Y9_arg6 (c : Dev nD) : Y9 m c (Proc.devRef .tc main_arg6) = m ((c : Thread nD τ).loc main_arg6) :=
  (Y9_of m c main_arg6 (by decide)).trans (Y8_arg6 m c)
theorem Y10_arg6 (c : Dev nD) : Y10 m c (Proc.devRef .tc main_arg6) = m ((c : Thread nD τ).loc main_arg6) :=
  (Y10_of m c main_arg6 (by decide)).trans (Y9_arg6 m c)
theorem Y11_arg6 (c : Dev nD) : Y11 m c (Proc.devRef .tc main_arg6) = m ((c : Thread nD τ).loc main_arg6) :=
  (Y11_of m c main_arg6 (by decide)).trans (Y10_arg6 m c)
theorem Y12_arg6 (c : Dev nD) : Y12 m c (Proc.devRef .tc main_arg6) = m ((c : Thread nD τ).loc main_arg6) :=
  (Y12_of m c main_arg6 (by decide)).trans (Y11_arg6 m c)
theorem Y13_arg6 (c : Dev nD) : Y13 m c (Proc.devRef .tc main_arg6) = m ((c : Thread nD τ).loc main_arg6) :=
  (Y13_of m c main_arg6 (by decide)).trans (Y12_arg6 m c)
theorem Y14_arg6 (c : Dev nD) : Y14 m c (Proc.devRef .tc main_arg6) = m ((c : Thread nD τ).loc main_arg6) :=
  (Y14_of m c main_arg6 (by decide)).trans (Y13_arg6 m c)
theorem Y3_arg7 (c : Dev nD) : Y3 m c (Proc.devRef .tc main_arg7) = m ((c : Thread nD τ).loc main_arg7) :=
  (Y3_of m c main_arg7 (by decide)).trans (Y2_arg7 m c)
theorem Y4_arg7 (c : Dev nD) : Y4 m c (Proc.devRef .tc main_arg7) = m ((c : Thread nD τ).loc main_arg7) :=
  (Y4_of m c main_arg7 (by decide)).trans (Y3_arg7 m c)
theorem Y5_arg7 (c : Dev nD) : Y5 m c (Proc.devRef .tc main_arg7) = m ((c : Thread nD τ).loc main_arg7) :=
  (Y5_of m c main_arg7 (by decide)).trans (Y4_arg7 m c)
theorem Y6_arg7 (c : Dev nD) : Y6 m c (Proc.devRef .tc main_arg7) = m ((c : Thread nD τ).loc main_arg7) :=
  (Y6_of m c main_arg7 (by decide)).trans (Y5_arg7 m c)
theorem Y7_arg7 (c : Dev nD) : Y7 m c (Proc.devRef .tc main_arg7) = m ((c : Thread nD τ).loc main_arg7) :=
  (Y7_of m c main_arg7 (by decide)).trans (Y6_arg7 m c)
theorem Y8_arg7 (c : Dev nD) : Y8 m c (Proc.devRef .tc main_arg7) = m ((c : Thread nD τ).loc main_arg7) :=
  (Y8_of m c main_arg7 (by decide)).trans (Y7_arg7 m c)
theorem Y9_arg7 (c : Dev nD) : Y9 m c (Proc.devRef .tc main_arg7) = m ((c : Thread nD τ).loc main_arg7) :=
  (Y9_of m c main_arg7 (by decide)).trans (Y8_arg7 m c)
theorem Y10_arg7 (c : Dev nD) : Y10 m c (Proc.devRef .tc main_arg7) = m ((c : Thread nD τ).loc main_arg7) :=
  (Y10_of m c main_arg7 (by decide)).trans (Y9_arg7 m c)
theorem Y11_arg7 (c : Dev nD) : Y11 m c (Proc.devRef .tc main_arg7) = m ((c : Thread nD τ).loc main_arg7) :=
  (Y11_of m c main_arg7 (by decide)).trans (Y10_arg7 m c)
theorem Y12_arg7 (c : Dev nD) : Y12 m c (Proc.devRef .tc main_arg7) = m ((c : Thread nD τ).loc main_arg7) :=
  (Y12_of m c main_arg7 (by decide)).trans (Y11_arg7 m c)
theorem Y13_arg7 (c : Dev nD) : Y13 m c (Proc.devRef .tc main_arg7) = m ((c : Thread nD τ).loc main_arg7) :=
  (Y13_of m c main_arg7 (by decide)).trans (Y12_arg7 m c)
theorem Y14_arg7 (c : Dev nD) : Y14 m c (Proc.devRef .tc main_arg7) = m ((c : Thread nD τ).loc main_arg7) :=
  (Y14_of m c main_arg7 (by decide)).trans (Y13_arg7 m c)

theorem out3 (c : Dev nD) : Y3 m c (Proc.devRef .tc main_v25) = (datR0 (atTc (Y2 m)) c).arrAt 7 cfg0.N := by
  unfold Y3
  exact Function.update_self _ _ _
theorem out5 (c : Dev nD) : Y5 m c (Proc.devRef .tc main_v36) = (datR1 (atTc (Y4 m)) c).arrAt 7 cfg1.N := by
  unfold Y5
  exact Function.update_self _ _ _
theorem out7 (c : Dev nD) : Y7 m c (Proc.devRef .tc main_v47) = (datR2 (atTc (Y6 m)) c).arrAt 7 cfg2.N := by
  unfold Y7
  exact Function.update_self _ _ _
theorem out9 (c : Dev nD) : Y9 m c (Proc.devRef .tc main_v58) = (datR3 (atTc (Y8 m)) c).arrAt 7 cfg3.N := by
  unfold Y9
  exact Function.update_self _ _ _
theorem out11 (c : Dev nD) : Y11 m c (Proc.devRef .tc main_v69) = (datR4 (atTc (Y10 m)) c).arrAt 7 cfg4.N := by
  unfold Y11
  exact Function.update_self _ _ _
theorem out13 (c : Dev nD) : Y13 m c (Proc.devRef .tc main_v80) = (datR5 (atTc (Y12 m)) c).arrAt 7 cfg5.N := by
  unfold Y13
  exact Function.update_self _ _ _
theorem out15 (c : Dev nD) : Y15 m c (Proc.devRef .tc main_v84) = (dat6 (atTc (Y14 m)) c).arrAt 3 cfg6.N := by
  unfold Y15
  exact Function.update_self _ _ _

end Cert.KernelIdeal.KVal

end
-- ==== Proof.LibKeepAll.lean ====
import Idealize.ShloMosaic.Lib.StableHlo.Run

namespace Cert.LibKeepAll

open Idealize.ShloMosaic

macro "kept_all" ops:ident : tactic => `(tactic|
  exact StableHlo.after_of_forall_not_mem _ _ (List.forall_iff_forall_mem.mp (by
    simp only [$ops:ident, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, StableHlo.nary_writes,
      StableHlo.unaryIndexed_writes, Finset.mem_singleton]
    repeat' apply And.intro
    all_goals exact StableHlo.devRef_ne_of_ne (by decide))))

end Cert.LibKeepAll
-- ==== Proof.Glue.lean ====
import proofs.«427532_j66606352826848_3_alg».proof.Proof.Gen.KernelIdeal.Launch
import proofs.«427532_j66606352826848_3_alg».proof.Proof.LibKeepAll
import Idealize.ShloMosaic.Lib.StableHlo.Run
import Idealize.ShloMosaic.Lib.ValueIdx
import Idealize.ShloMosaic.Lib.Pipeline.Value
import Idealize.ShloMosaic.Lib.ValueLayout

set_option maxRecDepth 4096

noncomputable section

namespace Cert.KernelIdeal.Glue

open Cert.KernelIdeal Cert.KernelIdeal.Gen Idealize.ShloMosaic Idealize.ShloMosaic.ValueIdx

local notation "R" => Proc.devRef Proc.tc

section Layout

variable {α : Type}

theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (a : Fin n1) (e : Fin n2) (k : Fin n0) (hk : k.val = o + j.val) :
    extractStridedSlice ⟨3, ![m, n1, n2]⟩ ![o, 0, 0] X h (ix3 j a e) = X (ix3 k a e) :=
  extractStridedSlice_apply _ _ _ _ _ (fun ax => by
    match ax with
    | ⟨0, _⟩ => exact hk
    | ⟨1, _⟩ => exact (Nat.zero_add _).symm
    | ⟨2, _⟩ => exact (Nat.zero_add _).symm)

end Layout

section Layout

variable {α : Type}

theorem block_apply {n a b : ℕ} (o : ℕ) (Y : (⟨3, ![n, a, b]⟩ : Shape).Idx → α)
    (hs : (⟨3, ![n, a, b]⟩ : Shape).Slices ![o, 0, 0] ⟨3, ![1, a, b]⟩)
    (hc : (⟨3, ![1, a, b]⟩ : Shape).ShapeCasts ⟨2, ![a, b]⟩) (i : Fin a) (j : Fin b) (k : Fin n) (hk : k.val = o) :
    shapeCast ⟨2, ![a, b]⟩ (extractStridedSlice ⟨3, ![1, a, b]⟩ ![o, 0, 0] Y hs) hc (ix2 i j) = Y (ix3 k i j) := by
  rw [shapeCast_1ab_ab_apply]
  exact slice3_axis0_apply o Y hs 0 i j k (by rw [hk]; rfl)

theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Layout

def wcut (o : ℕ) (hs : S6x3072x1024.Slices ![0, o, 0] S6x1024x1024) (Y : FVec Ideal S6x3072x1024 .f32) : FVec Ideal S6x1024x1024 .bf16 :=
  truncf .bf16 (transpose S6x1024x1024 [0, 2, 1] (extractStridedSlice S6x1024x1024 ![0, o, 0] Y hs)
    transposes_S6x1024x1024_S6x1024x1024_0_2_1) bitsLt_bf16_f32

theorem wcut_apply (o : ℕ) (hs : S6x3072x1024.Slices ![0, o, 0] S6x1024x1024) (Y : FVec Ideal S6x3072x1024 .f32)
    (l : Fin 6) (e f : Fin 1024) (k : Fin 3072) (hk : k.val = o + f.val) : wcut o hs Y (ix3 l e f) = Y (ix3 l k e) := by
  unfold wcut
  rw [truncf_apply, transpose_ix3_021_apply]
  exact slice3_axis1_apply o Y hs l f e k hk

def wout (Y : FVec Ideal S6x1024x1024 .f32) : FVec Ideal S6x1024x1024 .bf16 :=
  truncf .bf16 (transpose S6x1024x1024 [0, 2, 1] Y transposes_S6x1024x1024_S6x1024x1024_0_2_1) bitsLt_bf16_f32

theorem wout_apply (Y : FVec Ideal S6x1024x1024 .f32) (l : Fin 6) (f g : Fin 1024) : wout Y (ix3 l f g) = Y (ix3 l g f) := by
  unfold wout
  rw [truncf_apply, transpose_ix3_021_apply]

def bcol (Y : FVec Ideal S6x1024 .f32) : FVec Ideal S6x1x1024 .f32 := shapeCast S6x1x1024 Y shapeCasts_S6x1024_S6x1x1024

theorem bcol_apply (Y : FVec Ideal S6x1024 .f32) (l : Fin 6) (u : Fin 1) (g : Fin 1024) : bcol Y (ix3 l u g) = Y (ix2 l g) := by
  unfold bcol
  rw [shapeCast_ab_a1b_apply]

def blk (o : ℕ) (hs : S6x1024x1024.Slices ![o, 0, 0] S1x1024x1024) (Y : FVec Ideal S6x1024x1024 .bf16) : FVec Ideal S1024x1024 .bf16 :=
  shapeCast S1024x1024 (extractStridedSlice S1x1024x1024 ![o, 0, 0] Y hs) shapeCasts_S1x1024x1024_S1024x1024

theorem blk_apply (o : ℕ) (hs : S6x1024x1024.Slices ![o, 0, 0] S1x1024x1024) (Y : FVec Ideal S6x1024x1024 .bf16)
    (i j : Fin 1024) (k : Fin 6) (hk : k.val = o) : blk o hs Y (ix2 i j) = Y (ix3 k i j) := by
  unfold blk
  exact block_apply o Y hs _ i j k hk

def bblk (o : ℕ) (hs : S6x1x1024.Slices ![o, 0, 0] S1x1x1024) (Y : FVec Ideal S6x1x1024 .f32) : FVec Ideal S1x1024 .f32 :=
  shapeCast S1x1024 (extractStridedSlice S1x1x1024 ![o, 0, 0] Y hs) shapeCasts_S1x1x1024_S1x1024

theorem bblk_apply (o : ℕ) (hs : S6x1x1024.Slices ![o, 0, 0] S1x1x1024) (Y : FVec Ideal S6x1x1024 .f32)
    (u : Fin 1) (g : Fin 1024) (k : Fin 6) (hk : k.val = o) : bblk o hs Y (ix2 u g) = Y (ix3 k u g) := by
  unfold bblk
  exact block_apply o Y hs _ u g k hk

theorem v1_eq (X : Valuation τ sig (Elt Ideal)) :
    (StableHlo.after (hostOps0_1 (F := Ideal)) X (R main_v1) : S8x1024x1024.Idx → EReal) = X (R main_v0) := by
  after_results
  rfl

theorem v2_eq (X : Valuation τ sig (Elt Ideal)) :
    (StableHlo.after (hostOps0_1 (F := Ideal)) X (R main_v2) : S8x1024x1024.Idx → EReal) = X (R main_arg1) := by
  after_results
  rfl

theorem v5_eq (X : Valuation τ sig (Elt Ideal)) :
    (StableHlo.after (hostOps0_1 (F := Ideal)) X (R main_v5) : FVec Ideal S6x1024x1024 .bf16) = wcut 0 slices_S6x3072x1024_S6x1024x1024_0_0_0 (X (R main_arg3)) := by
  after_results
  rfl

theorem v5_apply (X : Valuation τ sig (Elt Ideal)) (l : Fin 6) (e f : Fin 1024) :
    (StableHlo.after (hostOps0_1 (F := Ideal)) X (R main_v5) : FVec Ideal S6x1024x1024 .bf16) (ix3 l e f)
      = (X (R main_arg3) : FVec Ideal S6x3072x1024 .f32) (ix3 l ⟨f.val, by omega⟩ e) := by
  rw [v5_eq]
  exact wcut_apply 0 _ _ l e f _ (Nat.zero_add _).symm

theorem v8_eq (X : Valuation τ sig (Elt Ideal)) :
    (StableHlo.after (hostOps0_1 (F := Ideal)) X (R main_v8) : FVec Ideal S6x1024x1024 .bf16) = wcut 1024 slices_S6x3072x1024_S6x1024x1024_0_1024_0 (X (R main_arg3)) := by
  after_results
  rfl

theorem v8_apply (X : Valuation τ sig (Elt Ideal)) (l : Fin 6) (e f : Fin 1024) :
    (StableHlo.after (hostOps0_1 (F := Ideal)) X (R main_v8) : FVec Ideal S6x1024x1024 .bf16) (ix3 l e f)
      = (X (R main_arg3) : FVec Ideal S6x3072x1024 .f32) (ix3 l ⟨1024 + f.val, by omega⟩ e) := by
  rw [v8_eq]
  exact wcut_apply 1024 _ _ l e f _ rfl

theorem v11_eq (X : Valuation τ sig (Elt Ideal)) :
    (StableHlo.after (hostOps0_1 (F := Ideal)) X (R main_v11) : FVec Ideal S6x1024x1024 .bf16) = wcut 2048 slices_S6x3072x1024_S6x1024x1024_0_2048_0 (X (R main_arg3)) := by
  after_results
  rfl

theorem v11_apply (X : Valuation τ sig (Elt Ideal)) (l : Fin 6) (e f : Fin 1024) :
    (StableHlo.after (hostOps0_1 (F := Ideal)) X (R main_v11) : FVec Ideal S6x1024x1024 .bf16) (ix3 l e f)
      = (X (R main_arg3) : FVec Ideal S6x3072x1024 .f32) (ix3 l ⟨2048 + f.val, by omega⟩ e) := by
  rw [v11_eq]
  exact wcut_apply 2048 _ _ l e f _ rfl

theorem v13_eq (X : Valuation τ sig (Elt Ideal)) :
    (StableHlo.after (hostOps0_1 (F := Ideal)) X (R main_v13) : FVec Ideal S6x1024x1024 .bf16) = wout (X (R main_arg4)) := by
  after_results
  rfl

theorem v13_apply (X : Valuation τ sig (Elt Ideal)) (l : Fin 6) (f g : Fin 1024) :
    (StableHlo.after (hostOps0_1 (F := Ideal)) X (R main_v13) : FVec Ideal S6x1024x1024 .bf16) (ix3 l f g)
      = (X (R main_arg4) : FVec Ideal S6x1024x1024 .f32) (ix3 l g f) := by
  rw [v13_eq]
  exact wout_apply _ l f g

theorem v14_eq (X : Valuation τ sig (Elt Ideal)) :
    (StableHlo.after (hostOps0_1 (F := Ideal)) X (R main_v14) : FVec Ideal S6x1x1024 .f32) = bcol (X (R main_arg5)) := by
  after_results
  rfl

theorem v14_apply (X : Valuation τ sig (Elt Ideal)) (l : Fin 6) (u : Fin 1) (g : Fin 1024) :
    (StableHlo.after (hostOps0_1 (F := Ideal)) X (R main_v14) : FVec Ideal S6x1x1024 .f32) (ix3 l u g)
      = (X (R main_arg5) : FVec Ideal S6x1024 .f32) (ix2 l g) := by
  rw [v14_eq]
  exact bcol_apply _ l u g

theorem v16_eq (X : Valuation τ sig (Elt Ideal)) :
    (StableHlo.after (hostOps0_1 (F := Ideal)) X (R main_v16) : FVec Ideal S1024x1024 .bf16)
      = blk 0 slices_S6x1024x1024_S1x1024x1024_0_0_0 (wcut 0 slices_S6x3072x1024_S6x1024x1024_0_0_0 (X (R main_arg3))) := by
  after_results
  rfl

theorem v16_apply (X : Valuation τ sig (Elt Ideal)) (e f : Fin 1024) :
    (StableHlo.after (hostOps0_1 (F := Ideal)) X (R main_v16) : FVec Ideal S1024x1024 .bf16) (ix2 e f)
      = (X (R main_arg3) : FVec Ideal S6x3072x1024 .f32) (ix3 0 ⟨f.val, by omega⟩ e) := by
  rw [v16_eq, blk_apply 0 _ _ e f 0 rfl]
  exact wcut_apply 0 _ _ 0 e f _ (Nat.zero_add _).symm

theorem v18_eq (X : Valuation τ sig (Elt Ideal)) :
    (StableHlo.after (hostOps0_1 (F := Ideal)) X (R main_v18) : FVec Ideal S1024x1024 .bf16)
      = blk 0 slices_S6x1024x1024_S1x1024x1024_0_0_0 (wcut 1024 slices_S6x3072x1024_S6x1024x1024_0_1024_0 (X (R main_arg3))) := by
  after_results
  rfl

theorem v18_apply (X : Valuation τ sig (Elt Ideal)) (e f : Fin 1024) :
    (StableHlo.after (hostOps0_1 (F := Ideal)) X (R main_v18) : FVec Ideal S1024x1024 .bf16) (ix2 e f)
      = (X (R main_arg3) : FVec Ideal S6x3072x1024 .f32) (ix3 0 ⟨1024 + f.val, by omega⟩ e) := by
  rw [v18_eq, blk_apply 0 _ _ e f 0 rfl]
  exact wcut_apply 1024 _ _ 0 e f _ rfl

theorem v20_eq (X : Valuation τ sig (Elt Ideal)) :
    (StableHlo.after (hostOps0_1 (F := Ideal)) X (R main_v20) : FVec Ideal S1024x1024 .bf16)
      = blk 0 slices_S6x1024x1024_S1x1024x1024_0_0_0 (wcut 2048 slices_S6x3072x1024_S6x1024x1024_0_2048_0 (X (R main_arg3))) := by
  after_results
  rfl

theorem v20_apply (X : Valuation τ sig (Elt Ideal)) (e f : Fin 1024) :
    (StableHlo.after (hostOps0_1 (F := Ideal)) X (R main_v20) : FVec Ideal S1024x1024 .bf16) (ix2 e f)
      = (X (R main_arg3) : FVec Ideal S6x3072x1024 .f32) (ix3 0 ⟨2048 + f.val, by omega⟩ e) := by
  rw [v20_eq, blk_apply 0 _ _ e f 0 rfl]
  exact wcut_apply 2048 _ _ 0 e f _ rfl

theorem v22_eq (X : Valuation τ sig (Elt Ideal)) :
    (StableHlo.after (hostOps0_1 (F := Ideal)) X (R main_v22) : FVec Ideal S1024x1024 .bf16)
      = blk 0 slices_S6x1024x1024_S1x1024x1024_0_0_0 (wout (X (R main_arg4))) := by
  after_results
  rfl

theorem v22_apply (X : Valuation τ sig (Elt Ideal)) (f g : Fin 1024) :
    (StableHlo.after (hostOps0_1 (F := Ideal)) X (R main_v22) : FVec Ideal S1024x1024 .bf16) (ix2 f g)
      = (X (R main_arg4) : FVec Ideal S6x1024x1024 .f32) (ix3 0 g f) := by
  rw [v22_eq, blk_apply 0 _ _ f g 0 rfl]
  exact wout_apply _ 0 f g

theorem v24_eq (X : Valuation τ sig (Elt Ideal)) :
    (StableHlo.after (hostOps0_1 (F := Ideal)) X (R main_v24) : FVec Ideal S1x1024 .f32)
      = bblk 0 slices_S6x1x1024_S1x1x1024_0_0_0 (bcol (X (R main_arg5))) := by
  after_results
  rfl

theorem v24_apply (X : Valuation τ sig (Elt Ideal)) (u : Fin 1) (g : Fin 1024) :
    (StableHlo.after (hostOps0_1 (F := Ideal)) X (R main_v24) : FVec Ideal S1x1024 .f32) (ix2 u g)
      = (X (R main_arg5) : FVec Ideal S6x1024 .f32) (ix2 0 g) := by
  rw [v24_eq, bblk_apply 0 _ _ u g 0 rfl]
  exact bcol_apply _ 0 u g

end Cert.KernelIdeal.Glue

end
-- ==== Proof.Glue2.lean ====
import proofs.«427532_j66606352826848_3_alg».proof.Proof.Glue

set_option maxRecDepth 4096

noncomputable section

namespace Cert.KernelIdeal.Glue

open Cert.KernelIdeal Cert.KernelIdeal.Gen Idealize.ShloMosaic Idealize.ShloMosaic.ValueIdx

local notation "R" => Proc.devRef Proc.tc

theorem v27_eq (X : Valuation τ sig (Elt Ideal)) :
    (StableHlo.after (hostOps1 (F := Ideal)) X (R main_v27) : FVec Ideal S1024x1024 .bf16) = blk 1 slices_S6x1024x1024_S1x1024x1024_1_0_0 (X (R main_v5)) := by
  after_results
  rfl

theorem v27_apply (X : Valuation τ sig (Elt Ideal)) (e f : Fin 1024) :
    (StableHlo.after (hostOps1 (F := Ideal)) X (R main_v27) : FVec Ideal S1024x1024 .bf16) (ix2 e f)
      = (X (R main_v5) : FVec Ideal S6x1024x1024 .bf16) (ix3 1 e f) := by
  rw [v27_eq]
  exact blk_apply 1 _ _ _ _ 1 rfl

theorem v29_eq (X : Valuation τ sig (Elt Ideal)) :
    (StableHlo.after (hostOps1 (F := Ideal)) X (R main_v29) : FVec Ideal S1024x1024 .bf16) = blk 1 slices_S6x1024x1024_S1x1024x1024_1_0_0 (X (R main_v8)) := by
  after_results
  rfl

theorem v29_apply (X : Valuation τ sig (Elt Ideal)) (e f : Fin 1024) :
    (StableHlo.after (hostOps1 (F := Ideal)) X (R main_v29) : FVec Ideal S1024x1024 .bf16) (ix2 e f)
      = (X (R main_v8) : FVec Ideal S6x1024x1024 .bf16) (ix3 1 e f) := by
  rw [v29_eq]
  exact blk_apply 1 _ _ _ _ 1 rfl

theorem v31_eq (X : Valuation τ sig (Elt Ideal)) :
    (StableHlo.after (hostOps1 (F := Ideal)) X (R main_v31) : FVec Ideal S1024x1024 .bf16) = blk 1 slices_S6x1024x1024_S1x1024x1024_1_0_0 (X (R main_v11)) := by
  after_results
  rfl

theorem v31_apply (X : Valuation τ sig (Elt Ideal)) (e f : Fin 1024) :
    (StableHlo.after (hostOps1 (F := Ideal)) X (R main_v31) : FVec Ideal S1024x1024 .bf16) (ix2 e f)
      = (X (R main_v11) : FVec Ideal S6x1024x1024 .bf16) (ix3 1 e f) := by
  rw [v31_eq]
  exact blk_apply 1 _ _ _ _ 1 rfl

theorem v33_eq (X : Valuation τ sig (Elt Ideal)) :
    (StableHlo.after (hostOps1 (F := Ideal)) X (R main_v33) : FVec Ideal S1024x1024 .bf16) = blk 1 slices_S6x1024x1024_S1x1024x1024_1_0_0 (X (R main_v13)) := by
  after_results
  rfl

theorem v33_apply (X : Valuation τ sig (Elt Ideal)) (f g : Fin 1024) :
    (StableHlo.after (hostOps1 (F := Ideal)) X (R main_v33) : FVec Ideal S1024x1024 .bf16) (ix2 f g)
      = (X (R main_v13) : FVec Ideal S6x1024x1024 .bf16) (ix3 1 f g) := by
  rw [v33_eq]
  exact blk_apply 1 _ _ _ _ 1 rfl

theorem v35_eq (X : Valuation τ sig (Elt Ideal)) :
    (StableHlo.after (hostOps1 (F := Ideal)) X (R main_v35) : FVec Ideal S1x1024 .f32) = bblk 1 slices_S6x1x1024_S1x1x1024_1_0_0 (X (R main_v14)) := by
  after_results
  rfl

theorem v35_apply (X : Valuation τ sig (Elt Ideal)) (u : Fin 1) (g : Fin 1024) :
    (StableHlo.after (hostOps1 (F := Ideal)) X (R main_v35) : FVec Ideal S1x1024 .f32) (ix2 u g)
      = (X (R main_v14) : FVec Ideal S6x1x1024 .f32) (ix3 1 u g) := by
  rw [v35_eq]
  exact bblk_apply 1 _ _ u g 1 rfl

theorem v38_eq (X : Valuation τ sig (Elt Ideal)) :
    (StableHlo.after (hostOps2 (F := Ideal)) X (R main_v38) : FVec Ideal S1024x1024 .bf16) = blk 2 slices_S6x1024x1024_S1x1024x1024_2_0_0 (X (R main_v5)) := by
  after_results
  rfl

theorem v38_apply (X : Valuation τ sig (Elt Ideal)) (e f : Fin 1024) :
    (StableHlo.after (hostOps2 (F := Ideal)) X (R main_v38) : FVec Ideal S1024x1024 .bf16) (ix2 e f)
      = (X (R main_v5) : FVec Ideal S6x1024x1024 .bf16) (ix3 2 e f) := by
  rw [v38_eq]
  exact blk_apply 2 _ _ _ _ 2 rfl

theorem v40_eq (X : Valuation τ sig (Elt Ideal)) :
    (StableHlo.after (hostOps2 (F := Ideal)) X (R main_v40) : FVec Ideal S1024x1024 .bf16) = blk 2 slices_S6x1024x1024_S1x1024x1024_2_0_0 (X (R main_v8)) := by
  after_results
  rfl

theorem v40_apply (X : Valuation τ sig (Elt Ideal)) (e f : Fin 1024) :
    (StableHlo.after (hostOps2 (F := Ideal)) X (R main_v40) : FVec Ideal S1024x1024 .bf16) (ix2 e f)
      = (X (R main_v8) : FVec Ideal S6x1024x1024 .bf16) (ix3 2 e f) := by
  rw [v40_eq]
  exact blk_apply 2 _ _ _ _ 2 rfl

theorem v42_eq (X : Valuation τ sig (Elt Ideal)) :
    (StableHlo.after (hostOps2 (F := Ideal)) X (R main_v42) : FVec Ideal S1024x1024 .bf16) = blk 2 slices_S6x1024x1024_S1x1024x1024_2_0_0 (X (R main_v11)) := by
  after_results
  rfl

theorem v42_apply (X : Valuation τ sig (Elt Ideal)) (e f : Fin 1024) :
    (StableHlo.after (hostOps2 (F := Ideal)) X (R main_v42) : FVec Ideal S1024x1024 .bf16) (ix2 e f)
      = (X (R main_v11) : FVec Ideal S6x1024x1024 .bf16) (ix3 2 e f) := by
  rw [v42_eq]
  exact blk_apply 2 _ _ _ _ 2 rfl

theorem v44_eq (X : Valuation τ sig (Elt Ideal)) :
    (StableHlo.after (hostOps2 (F := Ideal)) X (R main_v44) : FVec Ideal S1024x1024 .bf16) = blk 2 slices_S6x1024x1024_S1x1024x1024_2_0_0 (X (R main_v13)) := by
  after_results
  rfl

theorem v44_apply (X : Valuation τ sig (Elt Ideal)) (f g : Fin 1024) :
    (StableHlo.after (hostOps2 (F := Ideal)) X (R main_v44) : FVec Ideal S1024x1024 .bf16) (ix2 f g)
      = (X (R main_v13) : FVec Ideal S6x1024x1024 .bf16) (ix3 2 f g) := by
  rw [v44_eq]
  exact blk_apply 2 _ _ _ _ 2 rfl

theorem v46_eq (X : Valuation τ sig (Elt Ideal)) :
    (StableHlo.after (hostOps2 (F := Ideal)) X (R main_v46) : FVec Ideal S1x1024 .f32) = bblk 2 slices_S6x1x1024_S1x1x1024_2_0_0 (X (R main_v14)) := by
  after_results
  rfl

theorem v46_apply (X : Valuation τ sig (Elt Ideal)) (u : Fin 1) (g : Fin 1024) :
    (StableHlo.after (hostOps2 (F := Ideal)) X (R main_v46) : FVec Ideal S1x1024 .f32) (ix2 u g)
      = (X (R main_v14) : FVec Ideal S6x1x1024 .f32) (ix3 2 u g) := by
  rw [v46_eq]
  exact bblk_apply 2 _ _ u g 2 rfl

theorem v49_eq (X : Valuation τ sig (Elt Ideal)) :
    (StableHlo.after (hostOps3 (F := Ideal)) X (R main_v49) : FVec Ideal S1024x1024 .bf16) = blk 3 slices_S6x1024x1024_S1x1024x1024_3_0_0 (X (R main_v5)) := by
  after_results
  rfl

theorem v49_apply (X : Valuation τ sig (Elt Ideal)) (e f : Fin 1024) :
    (StableHlo.after (hostOps3 (F := Ideal)) X (R main_v49) : FVec Ideal S1024x1024 .bf16) (ix2 e f)
      = (X (R main_v5) : FVec Ideal S6x1024x1024 .bf16) (ix3 3 e f) := by
  rw [v49_eq]
  exact blk_apply 3 _ _ _ _ 3 rfl

theorem v51_eq (X : Valuation τ sig (Elt Ideal)) :
    (StableHlo.after (hostOps3 (F := Ideal)) X (R main_v51) : FVec Ideal S1024x1024 .bf16) = blk 3 slices_S6x1024x1024_S1x1024x1024_3_0_0 (X (R main_v8)) := by
  after_results
  rfl

theorem v51_apply (X : Valuation τ sig (Elt Ideal)) (e f : Fin 1024) :
    (StableHlo.after (hostOps3 (F := Ideal)) X (R main_v51) : FVec Ideal S1024x1024 .bf16) (ix2 e f)
      = (X (R main_v8) : FVec Ideal S6x1024x1024 .bf16) (ix3 3 e f) := by
  rw [v51_eq]
  exact blk_apply 3 _ _ _ _ 3 rfl

theorem v53_eq (X : Valuation τ sig (Elt Ideal)) :
    (StableHlo.after (hostOps3 (F := Ideal)) X (R main_v53) : FVec Ideal S1024x1024 .bf16) = blk 3 slices_S6x1024x1024_S1x1024x1024_3_0_0 (X (R main_v11)) := by
  after_results
  rfl

theorem v53_apply (X : Valuation τ sig (Elt Ideal)) (e f : Fin 1024) :
    (StableHlo.after (hostOps3 (F := Ideal)) X (R main_v53) : FVec Ideal S1024x1024 .bf16) (ix2 e f)
      = (X (R main_v11) : FVec Ideal S6x1024x1024 .bf16) (ix3 3 e f) := by
  rw [v53_eq]
  exact blk_apply 3 _ _ _ _ 3 rfl

theorem v55_eq (X : Valuation τ sig (Elt Ideal)) :
    (StableHlo.after (hostOps3 (F := Ideal)) X (R main_v55) : FVec Ideal S1024x1024 .bf16) = blk 3 slices_S6x1024x1024_S1x1024x1024_3_0_0 (X (R main_v13)) := by
  after_results
  rfl

theorem v55_apply (X : Valuation τ sig (Elt Ideal)) (f g : Fin 1024) :
    (StableHlo.after (hostOps3 (F := Ideal)) X (R main_v55) : FVec Ideal S1024x1024 .bf16) (ix2 f g)
      = (X (R main_v13) : FVec Ideal S6x1024x1024 .bf16) (ix3 3 f g) := by
  rw [v55_eq]
  exact blk_apply 3 _ _ _ _ 3 rfl

theorem v57_eq (X : Valuation τ sig (Elt Ideal)) :
    (StableHlo.after (hostOps3 (F := Ideal)) X (R main_v57) : FVec Ideal S1x1024 .f32) = bblk 3 slices_S6x1x1024_S1x1x1024_3_0_0 (X (R main_v14)) := by
  after_results
  rfl

theorem v57_apply (X : Valuation τ sig (Elt Ideal)) (u : Fin 1) (g : Fin 1024) :
    (StableHlo.after (hostOps3 (F := Ideal)) X (R main_v57) : FVec Ideal S1x1024 .f32) (ix2 u g)
      = (X (R main_v14) : FVec Ideal S6x1x1024 .f32) (ix3 3 u g) := by
  rw [v57_eq]
  exact bblk_apply 3 _ _ u g 3 rfl

theorem v60_eq (X : Valuation τ sig (Elt Ideal)) :
    (StableHlo.after (hostOps4 (F := Ideal)) X (R main_v60) : FVec Ideal S1024x1024 .bf16) = blk 4 slices_S6x1024x1024_S1x1024x1024_4_0_0 (X (R main_v5)) := by
  after_results
  rfl

theorem v60_apply (X : Valuation τ sig (Elt Ideal)) (e f : Fin 1024) :
    (StableHlo.after (hostOps4 (F := Ideal)) X (R main_v60) : FVec Ideal S1024x1024 .bf16) (ix2 e f)
      = (X (R main_v5) : FVec Ideal S6x1024x1024 .bf16) (ix3 4 e f) := by
  rw [v60_eq]
  exact blk_apply 4 _ _ _ _ 4 rfl

theorem v62_eq (X : Valuation τ sig (Elt Ideal)) :
    (StableHlo.after (hostOps4 (F := Ideal)) X (R main_v62) : FVec Ideal S1024x1024 .bf16) = blk 4 slices_S6x1024x1024_S1x1024x1024_4_0_0 (X (R main_v8)) := by
  after_results
  rfl

theorem v62_apply (X : Valuation τ sig (Elt Ideal)) (e f : Fin 1024) :
    (StableHlo.after (hostOps4 (F := Ideal)) X (R main_v62) : FVec Ideal S1024x1024 .bf16) (ix2 e f)
      = (X (R main_v8) : FVec Ideal S6x1024x1024 .bf16) (ix3 4 e f) := by
  rw [v62_eq]
  exact blk_apply 4 _ _ _ _ 4 rfl

theorem v64_eq (X : Valuation τ sig (Elt Ideal)) :
    (StableHlo.after (hostOps4 (F := Ideal)) X (R main_v64) : FVec Ideal S1024x1024 .bf16) = blk 4 slices_S6x1024x1024_S1x1024x1024_4_0_0 (X (R main_v11)) := by
  after_results
  rfl

theorem v64_apply (X : Valuation τ sig (Elt Ideal)) (e f : Fin 1024) :
    (StableHlo.after (hostOps4 (F := Ideal)) X (R main_v64) : FVec Ideal S1024x1024 .bf16) (ix2 e f)
      = (X (R main_v11) : FVec Ideal S6x1024x1024 .bf16) (ix3 4 e f) := by
  rw [v64_eq]
  exact blk_apply 4 _ _ _ _ 4 rfl

theorem v66_eq (X : Valuation τ sig (Elt Ideal)) :
    (StableHlo.after (hostOps4 (F := Ideal)) X (R main_v66) : FVec Ideal S1024x1024 .bf16) = blk 4 slices_S6x1024x1024_S1x1024x1024_4_0_0 (X (R main_v13)) := by
  after_results
  rfl

theorem v66_apply (X : Valuation τ sig (Elt Ideal)) (f g : Fin 1024) :
    (StableHlo.after (hostOps4 (F := Ideal)) X (R main_v66) : FVec Ideal S1024x1024 .bf16) (ix2 f g)
      = (X (R main_v13) : FVec Ideal S6x1024x1024 .bf16) (ix3 4 f g) := by
  rw [v66_eq]
  exact blk_apply 4 _ _ _ _ 4 rfl

theorem v68_eq (X : Valuation τ sig (Elt Ideal)) :
    (StableHlo.after (hostOps4 (F := Ideal)) X (R main_v68) : FVec Ideal S1x1024 .f32) = bblk 4 slices_S6x1x1024_S1x1x1024_4_0_0 (X (R main_v14)) := by
  after_results
  rfl

theorem v68_apply (X : Valuation τ sig (Elt Ideal)) (u : Fin 1) (g : Fin 1024) :
    (StableHlo.after (hostOps4 (F := Ideal)) X (R main_v68) : FVec Ideal S1x1024 .f32) (ix2 u g)
      = (X (R main_v14) : FVec Ideal S6x1x1024 .f32) (ix3 4 u g) := by
  rw [v68_eq]
  exact bblk_apply 4 _ _ u g 4 rfl

theorem v71_eq (X : Valuation τ sig (Elt Ideal)) :
    (StableHlo.after (hostOps5 (F := Ideal)) X (R main_v71) : FVec Ideal S1024x1024 .bf16) = blk 5 slices_S6x1024x1024_S1x1024x1024_5_0_0 (X (R main_v5)) := by
  after_results
  rfl

theorem v71_apply (X : Valuation τ sig (Elt Ideal)) (e f : Fin 1024) :
    (StableHlo.after (hostOps5 (F := Ideal)) X (R main_v71) : FVec Ideal S1024x1024 .bf16) (ix2 e f)
      = (X (R main_v5) : FVec Ideal S6x1024x1024 .bf16) (ix3 5 e f) := by
  rw [v71_eq]
  exact blk_apply 5 _ _ _ _ 5 rfl

theorem v73_eq (X : Valuation τ sig (Elt Ideal)) :
    (StableHlo.after (hostOps5 (F := Ideal)) X (R main_v73) : FVec Ideal S1024x1024 .bf16) = blk 5 slices_S6x1024x1024_S1x1024x1024_5_0_0 (X (R main_v8)) := by
  after_results
  rfl

theorem v73_apply (X : Valuation τ sig (Elt Ideal)) (e f : Fin 1024) :
    (StableHlo.after (hostOps5 (F := Ideal)) X (R main_v73) : FVec Ideal S1024x1024 .bf16) (ix2 e f)
      = (X (R main_v8) : FVec Ideal S6x1024x1024 .bf16) (ix3 5 e f) := by
  rw [v73_eq]
  exact blk_apply 5 _ _ _ _ 5 rfl

theorem v75_eq (X : Valuation τ sig (Elt Ideal)) :
    (StableHlo.after (hostOps5 (F := Ideal)) X (R main_v75) : FVec Ideal S1024x1024 .bf16) = blk 5 slices_S6x1024x1024_S1x1024x1024_5_0_0 (X (R main_v11)) := by
  after_results
  rfl

theorem v75_apply (X : Valuation τ sig (Elt Ideal)) (e f : Fin 1024) :
    (StableHlo.after (hostOps5 (F := Ideal)) X (R main_v75) : FVec Ideal S1024x1024 .bf16) (ix2 e f)
      = (X (R main_v11) : FVec Ideal S6x1024x1024 .bf16) (ix3 5 e f) := by
  rw [v75_eq]
  exact blk_apply 5 _ _ _ _ 5 rfl

theorem v77_eq (X : Valuation τ sig (Elt Ideal)) :
    (StableHlo.after (hostOps5 (F := Ideal)) X (R main_v77) : FVec Ideal S1024x1024 .bf16) = blk 5 slices_S6x1024x1024_S1x1024x1024_5_0_0 (X (R main_v13)) := by
  after_results
  rfl

theorem v77_apply (X : Valuation τ sig (Elt Ideal)) (f g : Fin 1024) :
    (StableHlo.after (hostOps5 (F := Ideal)) X (R main_v77) : FVec Ideal S1024x1024 .bf16) (ix2 f g)
      = (X (R main_v13) : FVec Ideal S6x1024x1024 .bf16) (ix3 5 f g) := by
  rw [v77_eq]
  exact blk_apply 5 _ _ _ _ 5 rfl

theorem v79_eq (X : Valuation τ sig (Elt Ideal)) :
    (StableHlo.after (hostOps5 (F := Ideal)) X (R main_v79) : FVec Ideal S1x1024 .f32) = bblk 5 slices_S6x1x1024_S1x1x1024_5_0_0 (X (R main_v14)) := by
  after_results
  rfl

theorem v79_apply (X : Valuation τ sig (Elt Ideal)) (u : Fin 1) (g : Fin 1024) :
    (StableHlo.after (hostOps5 (F := Ideal)) X (R main_v79) : FVec Ideal S1x1024 .f32) (ix2 u g)
      = (X (R main_v14) : FVec Ideal S6x1x1024 .f32) (ix3 5 u g) := by
  rw [v79_eq]
  exact bblk_apply 5 _ _ u g 5 rfl

theorem v81_apply (X : Valuation τ sig (Elt Ideal)) (b : Fin 8) (s e : Fin 1024) :
    (StableHlo.after (hostOps6 (F := Ideal)) X (R main_v81) : FVec Ideal S8192x1024 .bf16) (ix2 ⟨1024 * b.val + s.val, by omega⟩ e)
      = (X (R main_v80) : FVec Ideal S8x1024x1024 .bf16) (ix3 b s e) := by
  have h : (StableHlo.after (hostOps6 (F := Ideal)) X (R main_v81) : FVec Ideal S8192x1024 .bf16)
      = shapeCast S8192x1024 (X (R main_v80) : FVec Ideal S8x1024x1024 .bf16) shapeCasts_S8x1024x1024_S8192x1024 := by
    after_results
    rfl
  rw [h]
  exact shapeCast_apply _ _ _ _ (by
    show (S8x1024x1024.rowMajor (ix3 b s e)).val = (S8192x1024.rowMajor (ix2 ⟨1024 * b.val + s.val, by omega⟩ e)).val
    rw [Shape.rowMajor_val_three, Shape.rowMajor_val_two]
    show (b.val * 1024 + s.val) * 1024 + e.val = (1024 * b.val + s.val) * 1024 + e.val
    omega)

theorem v82_eq (X : Valuation τ sig (Elt Ideal)) :
    (StableHlo.after (hostOps6 (F := Ideal)) X (R main_v82) : S32000x1024.Idx → EReal) = X (R main_arg6) := by
  after_results
  rfl

theorem v83_apply (X : Valuation τ sig (Elt Ideal)) (u : Fin 1) (v : Fin 32000) :
    (StableHlo.after (hostOps6 (F := Ideal)) X (R main_v83) : FVec Ideal S1x32000 .f32) (ix2 u v)
      = (X (R main_arg7) : FVec Ideal S32000 .f32) (ix1 v) := by
  have h : (StableHlo.after (hostOps6 (F := Ideal)) X (R main_v83) : FVec Ideal S1x32000 .f32)
      = shapeCast S1x32000 (X (R main_arg7) : FVec Ideal S32000 .f32) shapeCasts_S32000_S1x32000 := by
    after_results
    rfl
  rw [h, shapeCast_a_1a_apply]

theorem v85_apply (X : Valuation τ sig (Elt Ideal)) (b : Fin 8) (s : Fin 1024) (v : Fin 32000) :
    (StableHlo.after (hostOps7 (F := Ideal)) X (R main_v85) : FVec Ideal S8x1024x32000 .f32) (ix3 b s v)
      = (X (R main_v84) : FVec Ideal S8192x32000 .f32) (ix2 ⟨1024 * b.val + s.val, by omega⟩ v) := by
  have h : (StableHlo.after (hostOps7 (F := Ideal)) X (R main_v85) : FVec Ideal S8x1024x32000 .f32)
      = shapeCast S8x1024x32000 (X (R main_v84) : FVec Ideal S8192x32000 .f32) shapeCasts_S8192x32000_S8x1024x32000 := by
    after_results
    rfl
  rw [h]
  exact shapeCast_apply _ _ _ _ (by
    show (S8192x32000.rowMajor (ix2 ⟨1024 * b.val + s.val, by omega⟩ v)).val = (S8x1024x32000.rowMajor (ix3 b s v)).val
    rw [Shape.rowMajor_val_two, Shape.rowMajor_val_three]
    show (1024 * b.val + s.val) * 32000 + v.val = (b.val * 1024 + s.val) * 32000 + v.val
    omega)

end Cert.KernelIdeal.Glue

end
-- ==== Proof.Spec.lean ====
import Idealize.ShloMosaic.PureOps.Ideal
import Idealize.ShloMosaic.PureOps.Ideal.Laws
import Idealize.ShloMosaic.Lib.ValueIdx

noncomputable section

namespace Cert.Spec

open Idealize.ShloMosaic

abbrev NI : EReal := Ideal.ofBits .f32 0xFF800000#32

abbrev CS : EReal := Ideal.ofBits .f32 0x3E000000#32

def proj (x : Fin 1024 → EReal) (P : Fin 1024 → Fin 1024 → EReal) (f : Fin 1024) : EReal := ∑ e : Fin 1024, x e * P e f

def scores (x : Fin 1024 → EReal) (kk : Fin 1024 → Fin 1024 → EReal) (PQ : Fin 1024 → Fin 1024 → EReal) (j : Fin 1024) : EReal :=
  ∑ f : Fin 1024, (proj x PQ f * CS) * kk j f

def rowMax (s : Fin 1024 → EReal) : EReal := max NI ((Finset.univ : Finset (Fin 1024)).fold max NI s)

def weights (s : Fin 1024 → EReal) (j : Fin 1024) : EReal :=
  Ideal.div (Ideal.exp (s j - rowMax s)) (∑ k : Fin 1024, Ideal.exp (s k - rowMax s))

def attnRowKV (x : Fin 1024 → EReal) (kk vv : Fin 1024 → Fin 1024 → EReal) (PQ PO : Fin 1024 → Fin 1024 → EReal)
    (bo : Fin 1024 → EReal) (g : Fin 1024) : EReal :=
  (∑ f : Fin 1024, (∑ j : Fin 1024, weights (scores x kk PQ) j * vv j f) * PO f g) + bo g

def attnRow (x : Fin 1024 → EReal) (T : Fin 1024 → Fin 1024 → EReal) (PQ PK PV PO : Fin 1024 → Fin 1024 → EReal)
    (bo : Fin 1024 → EReal) (g : Fin 1024) : EReal :=
  attnRowKV x (fun j => proj (T j) PK) (fun j => proj (T j) PV) PQ PO bo g

def logitRow (x : Fin 1024 → EReal) (LW : Fin 32000 → Fin 1024 → EReal) (lb : Fin 32000 → EReal) (v : Fin 32000) : EReal :=
  (∑ e : Fin 1024, x e * LW v e) + lb v

abbrev Act : Type := Fin 8 → Fin 1024 → Fin 1024 → EReal

def layer (T : Act) (W3 : Fin 6 → Fin 3072 → Fin 1024 → EReal) (W4 : Fin 6 → Fin 1024 → Fin 1024 → EReal)
    (B5 : Fin 6 → Fin 1024 → EReal) (l : Fin 6) (X : Act) : Act := fun b s g =>
  attnRow (X b s) (T b)
    (fun e f => W3 l ⟨f.val, by omega⟩ e) (fun e f => W3 l ⟨1024 + f.val, by omega⟩ e) (fun e f => W3 l ⟨2048 + f.val, by omega⟩ e)
    (fun f g' => W4 l g' f) (B5 l) g

def net (X0 T : Act) (W3 : Fin 6 → Fin 3072 → Fin 1024 → EReal) (W4 : Fin 6 → Fin 1024 → Fin 1024 → EReal)
    (B5 : Fin 6 → Fin 1024 → EReal) (LW : Fin 32000 → Fin 1024 → EReal) (lb : Fin 32000 → EReal) :
    Fin 8 → Fin 1024 → Fin 32000 → EReal := fun b s v =>
  logitRow (layer T W3 W4 B5 5 (layer T W3 W4 B5 4 (layer T W3 W4 B5 3 (layer T W3 W4 B5 2 (layer T W3 W4 B5 1 (layer T W3 W4 B5 0 X0))))) b s) LW lb v

end Cert.Spec

end
-- ==== Proof.SpecEmbed.lean ====
import proofs.«427532_j66606352826848_3_alg».proof.Proof.Spec

noncomputable section

namespace Cert.Spec

open Idealize.ShloMosaic Idealize.ShloMosaic.ValueIdx

def rowOf (w : BitVec 32) : Fin 32000 := ⟨w.toNat % 32000, Nat.mod_lt _ (by decide)⟩

def embX0 (idx : (⟨2, ![8, 1024]⟩ : Shape).Idx → BitVec 32) (em : (⟨2, ![32000, 1024]⟩ : Shape).Idx → EReal) : Act :=
  fun b s e => em (ix2 (rowOf (idx (ix2 b s))) e)

end Cert.Spec

end
-- ==== Proof.Embed.lean ====
import Idealize.ShloMosaic.Lib.ReduceAll
import Idealize.ShloMosaic.Lib.ValueIdx
import Idealize.ShloMosaic.PureOps
import proofs.«427532_j66606352826848_3_alg».proof.Pre_finite_inputs
import proofs.«427532_j66606352826848_3_alg».proof.Proof.SpecEmbed

noncomputable section

namespace Cert.Embed

open Idealize.ShloMosaic Idealize.ShloMosaic.ValueIdx

def InRange (idx : IVec ⟨2, ![8, 1024]⟩ 32) : Prop :=
  ∀ (b : Fin 8) (s : Fin 1024), 0 ≤ (idx (ix2 b s)).toInt ∧ (idx (ix2 b s)).toInt < 32000

theorem gather_rows {α : Type} {w : Nat}
    (d : GatherDims ⟨2, ![32000, 1024]⟩ ⟨3, ![8, 1024, 1]⟩ ⟨3, ![8, 1024, 1024]⟩)
    (hod : d.offsetDims = [2]) (hcoll : d.collapsedSliceDims = [0]) (hob : d.operandBatchingDims = [])
    (hsim : d.startIndexMap = [0]) (hivd : d.indexVectorDim = 2)
    (x : (⟨2, ![32000, 1024]⟩ : Shape).Idx → α) (idx : IVec ⟨3, ![8, 1024, 1]⟩ w) (b : Fin 8) (s e : Fin 1024) :
    Host.gather d x idx (ix3 b s e)
      = x (ix2 ⟨min (idx (ix3 b s (0 : Fin 1))).toInt.toNat 31999, by omega⟩ e) := by
  have hsl : d.sliceSizes 0 = 1 := d.slice_collapsed 0 (by rw [hcoll]; exact List.mem_singleton.mpr rfl)
  obtain ⟨od, cd, ob, sb, sim, ivd, ss, wf⟩ := d
  simp only at hod hcoll hob hsim hivd hsl
  subst hod hcoll hob hsim hivd
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[2], [0], [], sb, [0], 2, ss, wf⟩ :
        GatherDims ⟨2, ![32000, 1024]⟩ ⟨3, ![8, 1024, 1]⟩ ⟨3, ![8, 1024, 1024]⟩) (ix3 b s e)
        ⟨List.idxOf (0 : Fin 2) [0], List.idxOf_lt_length_iff.2 (List.mem_singleton.mpr rfl)⟩ = ix3 b s (0 : Fin 1) := by
      funext b'; refine Fin.ext ?_
      match b' with
      | ⟨0, _⟩ => rfl
      | ⟨1, _⟩ => rfl
      | ⟨2, _⟩ => rfl
    rw [hsi]
    show min _ (32000 - ss 0) = _
    rw [hsl]
  | ⟨1, _⟩ =>
    show GatherDims.start _ _ idx 1 + GatherDims.batchCoord _ _ 1 + GatherDims.offCoord _ _ 1 = _
    rw [GatherDims.batchCoord_eq_zero _ _ _ List.not_mem_nil]
    unfold GatherDims.start
    rw [dif_neg (by simp)]
    unfold GatherDims.offCoord
    rw [dif_pos ((GatherDims.mem_sKept _ _).mpr ⟨by simp, List.not_mem_nil⟩)]
    simp only [Nat.zero_add]
    rfl

theorem gather_rows_at {α : Type} {w : Nat}
    (d : GatherDims ⟨2, ![32000, 1024]⟩ ⟨3, ![8, 1024, 1]⟩ ⟨3, ![8, 1024, 1024]⟩)
    (hod : d.offsetDims = [2]) (hcoll : d.collapsedSliceDims = [0]) (hob : d.operandBatchingDims = [])
    (hsim : d.startIndexMap = [0]) (hivd : d.indexVectorDim = 2)
    (x : (⟨2, ![32000, 1024]⟩ : Shape).Idx → α) (idx : IVec ⟨3, ![8, 1024, 1]⟩ w) (b : Fin 8) (s e : Fin 1024)
    (r : Fin 32000) (hr : r.val = min (idx (ix3 b s (0 : Fin 1))).toInt.toNat 31999) :
    Host.gather d x idx (ix3 b s e) = x (ix2 r e) := by
  rw [gather_rows d hod hcoll hob hsim hivd]
  have hk : (⟨min (idx (ix3 b s (0 : Fin 1))).toInt.toNat 31999, by omega⟩ : Fin 32000) = r := Fin.ext hr.symm
  rw [hk]

theorem toNat_of_range (v : BitVec 32) (h0 : 0 ≤ v.toInt) (h1 : v.toInt < 32000) :
    v.toInt = (v.toNat : Int) ∧ v.toNat < 32000 := by
  have hv := v.isLt
  rw [BitVec.toInt_eq_toNat_cond] at h0 h1 ⊢
  split_ifs at h0 h1 ⊢ <;> omega

theorem clamp_eq_rowOf (v : BitVec 32) (h0 : 0 ≤ v.toInt) (h1 : v.toInt < 32000) :
    min v.toInt.toNat 31999 = (Cert.Spec.rowOf v).val := by
  obtain ⟨e, hlt⟩ := toNat_of_range v h0 h1
  show min v.toInt.toNat 31999 = v.toNat % 32000
  rw [e, Int.toNat_natCast, Nat.mod_eq_of_lt hlt]
  omega

section Word
variable (h0 : (⟨0, ![]⟩ : Shape).BroadcastsInDim ⟨2, ![8, 1024]⟩ (![] : Fin 0 → Fin 2))

abbrev word (idx : IVec ⟨2, ![8, 1024]⟩ 32) : IVec ⟨2, ![8, 1024]⟩ 32 :=
  select (cmpi .slt idx (broadcastInDim ⟨2, ![8, 1024]⟩ ![] h0 (constantI ⟨0, ![]⟩ 32 0#32)))
    (addi idx (broadcastInDim ⟨2, ![8, 1024]⟩ ![] h0 (constantI ⟨0, ![]⟩ 32 32000#32))) idx

theorem word_eq (idx : IVec ⟨2, ![8, 1024]⟩ 32) (hin : InRange idx) : word h0 idx = idx := by
  funext i
  rw [eq_ix2 i]
  obtain ⟨hl, -⟩ := hin (i 0) (i 1)
  show Scalar.select (IntOp.cmpi .slt (idx (ix2 (i 0) (i 1))) 0#32) _ (idx (ix2 (i 0) (i 1))) = _
  have hne : ¬ IntOp.cmpi .slt (idx (ix2 (i 0) (i 1))) 0#32 = 1#1 := by
    rw [IntOp.cmpi_slt, show (0#32 : BitVec 32).toInt = 0 from by decide]; omega
  exact if_neg hne

end Word

theorem bcast_col {α : Type} (h1 : (⟨2, ![8, 1024]⟩ : Shape).BroadcastsInDim ⟨3, ![8, 1024, 1]⟩ (![0, 1] : Fin 2 → Fin 3))
    (v : (⟨2, ![8, 1024]⟩ : Shape).Idx → α) (b : Fin 8) (s : Fin 1024) (z : Fin 1) :
    broadcastInDim ⟨3, ![8, 1024, 1]⟩ ![0, 1] h1 v (ix3 b s z) = v (ix2 b s) := by
  simp only [broadcastInDim]
  congr 1
  funext a
  match a with
  | ⟨0, _⟩ => rfl
  | ⟨1, _⟩ => rfl

theorem bcast_feat {α : Type} (hB : (⟨2, ![8, 1024]⟩ : Shape).BroadcastsInDim ⟨3, ![8, 1024, 1024]⟩ (![0, 1] : Fin 2 → Fin 3))
    (v : (⟨2, ![8, 1024]⟩ : Shape).Idx → α) (b : Fin 8) (s e : Fin 1024) :
    broadcastInDim ⟨3, ![8, 1024, 1024]⟩ ![0, 1] hB v (ix3 b s e) = v (ix2 b s) := by
  simp only [broadcastInDim]
  congr 1
  funext a
  match a with
  | ⟨0, _⟩ => rfl
  | ⟨1, _⟩ => rfl

section Take
variable (h0 : (⟨0, ![]⟩ : Shape).BroadcastsInDim ⟨2, ![8, 1024]⟩ (![] : Fin 0 → Fin 2))
  (h1 : (⟨2, ![8, 1024]⟩ : Shape).BroadcastsInDim ⟨3, ![8, 1024, 1]⟩ (![0, 1] : Fin 2 → Fin 3))
  (d : GatherDims ⟨2, ![32000, 1024]⟩ ⟨3, ![8, 1024, 1]⟩ ⟨3, ![8, 1024, 1024]⟩)
  (hod : d.offsetDims = [2]) (hcoll : d.collapsedSliceDims = [0]) (hob : d.operandBatchingDims = [])
  (hsim : d.startIndexMap = [0]) (hivd : d.indexVectorDim = 2)

include hod hcoll hob hsim hivd in

theorem take_gather {α : Type} (idx : IVec ⟨2, ![8, 1024]⟩ 32) (hin : InRange idx)
    (em : (⟨2, ![32000, 1024]⟩ : Shape).Idx → α) (b : Fin 8) (s e : Fin 1024) :
    Host.gather d em (broadcastInDim ⟨3, ![8, 1024, 1]⟩ ![0, 1] h1 (word h0 idx)) (ix3 b s e)
      = em (ix2 (Cert.Spec.rowOf (idx (ix2 b s))) e) := by
  refine gather_rows_at d hod hcoll hob hsim hivd em _ b s e _ ?_
  rw [bcast_col h1, word_eq h0 idx hin]
  exact (clamp_eq_rowOf _ (hin b s).1 (hin b s).2).symm

end Take

theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  unfold Host.reduce
  rw [hi]
  exact foldl_andi_ones (fun n => x (s.rowMajor.symm n)) (fun n => hx _) _

section Masked
variable (h0 : (⟨0, ![]⟩ : Shape).BroadcastsInDim ⟨2, ![8, 1024]⟩ (![] : Fin 0 → Fin 2))
  (h1 : (⟨2, ![8, 1024]⟩ : Shape).BroadcastsInDim ⟨3, ![8, 1024, 1]⟩ (![0, 1] : Fin 2 → Fin 3))
  (h2 : (⟨0, ![]⟩ : Shape).BroadcastsInDim ⟨3, ![8, 1024, 1]⟩ (![] : Fin 0 → Fin 3))
  (h3 : (⟨1, ![1]⟩ : Shape).BroadcastsInDim ⟨3, ![1, 1, 1]⟩ (![2] : Fin 1 → Fin 3))
  (h4 : (⟨3, ![1, 1, 1]⟩ : Shape).BroadcastsInDim ⟨3, ![8, 1024, 1]⟩ (![0, 1, 2] : Fin 3 → Fin 3))
  (hB : (⟨2, ![8, 1024]⟩ : Shape).BroadcastsInDim ⟨3, ![8, 1024, 1024]⟩ (![0, 1] : Fin 2 → Fin 3))
  (hR : (⟨3, ![8, 1024, 1]⟩ : Shape).ReducesTo [2] ⟨2, ![8, 1024]⟩) (hS : 0 < (⟨0, ![]⟩ : Shape).numel)
  (d : GatherDims ⟨2, ![32000, 1024]⟩ ⟨3, ![8, 1024, 1]⟩ ⟨3, ![8, 1024, 1024]⟩)
  (hod : d.offsetDims = [2]) (hcoll : d.collapsedSliceDims = [0]) (hob : d.operandBatchingDims = [])
  (hsim : d.startIndexMap = [0]) (hivd : d.indexVectorDim = 2)

abbrev mask (idx : IVec ⟨2, ![8, 1024]⟩ 32) : IVec ⟨2, ![8, 1024]⟩ 1 :=
  Host.reduce IntOp.andi
    (andi
      (cmpi .sge (broadcastInDim ⟨3, ![8, 1024, 1]⟩ ![0, 1] h1 (word h0 idx))
        (broadcastInDim ⟨3, ![8, 1024, 1]⟩ ![] h2 (constantI ⟨0, ![]⟩ 32 0#32)))
      (cmpi .sle (broadcastInDim ⟨3, ![8, 1024, 1]⟩ ![0, 1] h1 (word h0 idx))
        (broadcastInDim ⟨3, ![8, 1024, 1]⟩ ![0, 1, 2] h4
          (broadcastInDim ⟨3, ![1, 1, 1]⟩ ![2] h3 (constantI ⟨1, ![1]⟩ 32 31999#32)))))
    (constantI ⟨0, ![]⟩ 1 1#1) hR hS

theorem mask_eq (idx : IVec ⟨2, ![8, 1024]⟩ 32) (hin : InRange idx) :
    mask h0 h1 h2 h3 h4 hR hS idx = fun _ => 1#1 := by
  funext j
  refine reduce_andi_ones _ _ hR hS (fun i => ?_) (fun _ => rfl) j
  obtain ⟨b, s, z, rfl⟩ : ∃ (b : Fin 8) (s : Fin 1024) (z : Fin 1), i = ix3 b s z := ⟨i 0, i 1, i 2, eq_ix3 i⟩
  show IntOp.andi
    (IntOp.cmpi .sge (broadcastInDim ⟨3, ![8, 1024, 1]⟩ ![0, 1] h1 (word h0 idx) (ix3 b s z)) 0#32)
    (IntOp.cmpi .sle (broadcastInDim ⟨3, ![8, 1024, 1]⟩ ![0, 1] h1 (word h0 idx) (ix3 b s z)) 31999#32) = 1#1
  rw [bcast_col h1, word_eq h0 idx hin, IntOp.andi_eq_one, IntOp.cmpi_sge, IntOp.cmpi_sle,
    show (0#32 : BitVec 32).toInt = 0 from by decide, show (31999#32 : BitVec 32).toInt = 31999 from by decide]
  obtain ⟨hl, hu⟩ := hin b s
  exact ⟨hl, by omega⟩

include hod hcoll hob hsim hivd in

theorem take_masked {α : Type} (idx : IVec ⟨2, ![8, 1024]⟩ 32) (hin : InRange idx)
    (em : (⟨2, ![32000, 1024]⟩ : Shape).Idx → α) (other : (⟨3, ![8, 1024, 1024]⟩ : Shape).Idx → α)
    (b : Fin 8) (s e : Fin 1024) :
    select (broadcastInDim ⟨3, ![8, 1024, 1024]⟩ ![0, 1] hB (mask h0 h1 h2 h3 h4 hR hS idx))
        (Host.gather d em (broadcastInDim ⟨3, ![8, 1024, 1]⟩ ![0, 1] h1 (word h0 idx))) other (ix3 b s e)
      = em (ix2 (Cert.Spec.rowOf (idx (ix2 b s))) e) := by
  rw [select_apply, bcast_feat hB, mask_eq h0 h1 h2 h3 h4 hR hS idx hin]
  exact (if_pos rfl).trans (take_gather h0 h1 d hod hcoll hob hsim hivd idx hin em b s e)

end Masked

instance : Subsingleton (⟨0, ![]⟩ : Shape).Idx := ⟨fun _ _ => funext fun d => d.elim0⟩

open Cert.Pre_finite_inputs in

theorem pre_idx [Cert.Pre_finite_inputs.Facts] (a0 : IVec S8x1024 32) (a1 : FVec Ideal S8x1024x1024 .f32)
    (a2 : FVec Ideal S32000x1024 .f32) (a3 : FVec Ideal S6x3072x1024 .f32) (a4 : FVec Ideal S6x1024x1024 .f32)
    (a5 : FVec Ideal S6x1024 .f32) (a6 : FVec Ideal S32000x1024 .f32) (a7 : FVec Ideal S32000 .f32)
    (h : Cert.Pre_finite_inputs.fn (F := Ideal) a0 a1 a2 a3 a4 a5 a6 a7 = fun _ => 1#1) : InRange a0 := by
  have e := congrFun h ix0
  dsimp only [Cert.Pre_finite_inputs.fn, Cert.Pre_finite_inputs.fn_part1, Cert.Pre_finite_inputs.fn_part2] at e
  obtain ⟨e12, e2⟩ := IntOp.andi_eq_one.1 (e : IntOp.andi _ _ = 1#1)
  obtain ⟨-, e1⟩ := IntOp.andi_eq_one.1 (e12 : IntOp.andi _ _ = 1#1)
  intro b s
  have g1 := Host.reduce_andi_all _ _ _ _ _ e1 (ix2 b s)
  have g2 := Host.reduce_andi_all _ _ _ _ _ e2 (ix2 b s)
  have g1' : (0#32 : BitVec 32).toInt ≤ (a0 (ix2 b s)).toInt := IntOp.cmpi_sge.1 g1
  have g2' : (a0 (ix2 b s)).toInt < (32000#32 : BitVec 32).toInt := IntOp.cmpi_slt.1 g2
  rw [show (0#32 : BitVec 32).toInt = 0 from by decide] at g1'
  rw [show (32000#32 : BitVec 32).toInt = 32000 from by decide] at g2'
  exact ⟨g1', g2'⟩

end Cert.Embed

end
-- ==== Proof.LibTypedRef.lean ====
import Idealize.ShloMosaic.Lib.StableHlo

noncomputable section

namespace Cert.LibTypedRef

open Idealize.ShloMosaic

theorem ofBuf_toBuf {sig : RefSig} {Val : EltTy → Type} {T : BufTy} (x : StableHlo.TRef sig T) (v : T.Contents Val) :
    x.ofBuf (x.toBuf v) = v := by
  obtain ⟨r, h, _, _⟩ := x
  subst h
  rfl

end Cert.LibTypedRef

end
-- ==== Proof.EmbedK.lean ====
import proofs.«427532_j66606352826848_3_alg».proof.Proof.Gen.KernelIdeal.Launch
import proofs.«427532_j66606352826848_3_alg».proof.Proof.Embed
import proofs.«427532_j66606352826848_3_alg».proof.Proof.LibTypedRef

set_option maxRecDepth 16384

noncomputable section

namespace Cert.KernelIdeal.Gen

open Idealize.ShloMosaic Idealize.ShloMosaic.TcCoe Idealize.SL.Sem Idealize.ShloMosaic.StableHlo Idealize.ShloMosaic.ValueIdx

theorem take_term (X : Valuation τ sig (Elt Ideal)) :
    StableHlo.after hostOps0 X (Proc.devRef .tc main_v0) =
      select
        (broadcastInDim S8x1024x1024 ![0, 1] bcast_S8x1024_S8x1024x1024_0_1
          (Cert.Embed.mask bcast_S_S8x1024 bcast_S8x1024_S8x1024x1_0_1 bcast_S_S8x1024x1 bcast_S1_S1x1x1_2
            bcast_S1x1x1_S8x1024x1_0_1_2 reducesTo_S8x1024x1_S8x1024_d2 h_S_ (X (Proc.devRef .tc main_arg0))))
        (Host.gather gather_S32000x1024_S8x1024x1_S8x1024x1024_2_0_n_n_0_2_11024 (X (Proc.devRef .tc main_arg2))
          (broadcastInDim S8x1024x1 ![0, 1] bcast_S8x1024_S8x1024x1_0_1
            (Cert.Embed.word bcast_S_S8x1024 (X (Proc.devRef .tc main_arg0)))))
        (broadcastInDim S8x1024x1024 ![] bcast_S_S8x1024x1024 (constant (F := Ideal) S_ .f32 0x7FC00000#32)) := by
  show StableHlo.after hostOps0 X (Proc.devRef .tc main_v0) = _
  after_results_simp
  simp only [Cert.LibTypedRef.ofBuf_toBuf]
  rfl

theorem take_apply (X : Valuation τ sig (Elt Ideal)) (hin : Cert.Embed.InRange (X (Proc.devRef .tc main_arg0)))
    (b : Fin 8) (s e : Fin 1024) :
    StableHlo.after hostOps0 X (Proc.devRef .tc main_v0) (ix3 b s e)
      = Cert.Spec.embX0 (X (Proc.devRef .tc main_arg0)) (X (Proc.devRef .tc main_arg2)) b s e := by
  rw [take_term X]
  exact Cert.Embed.take_masked bcast_S_S8x1024 bcast_S8x1024_S8x1024x1_0_1 bcast_S_S8x1024x1 bcast_S1_S1x1x1_2
    bcast_S1x1x1_S8x1024x1_0_1_2 bcast_S8x1024_S8x1024x1024_0_1 reducesTo_S8x1024x1_S8x1024_d2 h_S_
    gather_S32000x1024_S8x1024x1_S8x1024x1024_2_0_n_n_0_2_11024 rfl rfl rfl rfl rfl
    (X (Proc.devRef .tc main_arg0)) hin (X (Proc.devRef .tc main_arg2)) _ b s e

end Cert.KernelIdeal.Gen

end
-- ==== Proof.KStep.lean ====
import proofs.«427532_j66606352826848_3_alg».proof.Proof.Spec
import Idealize.ShloMosaic.Lib.ValueIdx

noncomputable section

namespace Cert.KStep

open Idealize.ShloMosaic Idealize.ShloMosaic.ValueIdx Cert.Spec

theorem layer_step (T : Act) (W3 : Fin 6 → Fin 3072 → Fin 1024 → EReal) (W4 : Fin 6 → Fin 1024 → Fin 1024 → EReal)
    (B5 : Fin 6 → Fin 1024 → EReal) (l : Fin 6) (Xin : Act)
    (x t : (⟨3, ![8, 1024, 1024]⟩ : Shape).Idx → EReal) (q k v o : (⟨2, ![1024, 1024]⟩ : Shape).Idx → EReal)
    (bb : (⟨2, ![1, 1024]⟩ : Shape).Idx → EReal)
    (hx : ∀ b s e, x (ix3 b s e) = Xin b s e) (ht : ∀ b j e, t (ix3 b j e) = T b j e)
    (hq : ∀ e f : Fin 1024, q (ix2 e f) = W3 l ⟨f.val, by omega⟩ e)
    (hk : ∀ e f : Fin 1024, k (ix2 e f) = W3 l ⟨1024 + f.val, by omega⟩ e)
    (hv : ∀ e f : Fin 1024, v (ix2 e f) = W3 l ⟨2048 + f.val, by omega⟩ e)
    (ho : ∀ f g : Fin 1024, o (ix2 f g) = W4 l g f) (hb : ∀ g : Fin 1024, bb (ix2 (0 : Fin 1) g) = B5 l g)
    (b : Fin 8) (s g : Fin 1024) :
    attnRow (fun e => x (ix3 b s e)) (fun j e => t (ix3 b j e)) (fun e f => q (ix2 e f)) (fun e f => k (ix2 e f))
        (fun e f => v (ix2 e f)) (fun f g' => o (ix2 f g')) (fun g' => bb (ix2 (0 : Fin 1) g')) g
      = layer T W3 W4 B5 l Xin b s g := by
  unfold layer
  have e1 : (fun e => x (ix3 b s e)) = Xin b s := funext (hx b s)
  have e2 : (fun j e => t (ix3 b j e)) = T b := funext fun j => funext (ht b j)
  have e3 : (fun e f => q (ix2 e f)) = fun e f => W3 l ⟨f.val, by omega⟩ e := funext fun e => funext (hq e)
  have e4 : (fun e f => k (ix2 e f)) = fun e f => W3 l ⟨1024 + f.val, by omega⟩ e := funext fun e => funext (hk e)
  have e5 : (fun e f => v (ix2 e f)) = fun e f => W3 l ⟨2048 + f.val, by omega⟩ e := funext fun e => funext (hv e)
  have e6 : (fun f g' => o (ix2 f g')) = fun f g' => W4 l g' f := funext fun f => funext (ho f)
  have e7 : (fun g' => bb (ix2 (0 : Fin 1) g')) = B5 l := funext hb
  rw [e1, e2, e3, e4, e5, e6, e7]

theorem logit_step (X6 : Act) (LW : Fin 32000 → Fin 1024 → EReal) (lb : Fin 32000 → EReal)
    (x : (⟨2, ![8192, 1024]⟩ : Shape).Idx → EReal) (w : (⟨2, ![32000, 1024]⟩ : Shape).Idx → EReal)
    (bb : (⟨2, ![1, 32000]⟩ : Shape).Idx → EReal) (r : Fin 8192) (b : Fin 8) (s : Fin 1024)
    (hx : ∀ e, x (ix2 r e) = X6 b s e) (hw : ∀ v e, w (ix2 v e) = LW v e) (hb : ∀ v, bb (ix2 (0 : Fin 1) v) = lb v)
    (v : Fin 32000) :
    logitRow (fun e => x (ix2 r e)) (fun v' e => w (ix2 v' e)) (fun v' => bb (ix2 (0 : Fin 1) v')) v
      = logitRow (X6 b s) LW lb v := by
  have e1 : (fun e => x (ix2 r e)) = X6 b s := funext hx
  have e2 : (fun v' e => w (ix2 v' e)) = LW := funext fun v' => funext (hw v')
  have e3 : (fun v' => bb (ix2 (0 : Fin 1) v')) = lb := funext hb
  rw [e1, e2, e3]

end Cert.KStep

end
-- ==== Proof.LibDot.lean ====
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

section Axes

variable {R K C : Nat} (d : DotDims ⟨2, ![R, K]⟩ ⟨2, ![K, C]⟩ ⟨2, ![R, C]⟩)

theorem rank_contr_one (hl : d.lhsContracting = [1]) : d.contr.rank = 1 := by
  rw [d.rank_contr, hl]; rfl

theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.PayLib.lean ====
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayMath

open Idealize.ShloMosaic Idealize.ShloMosaic.ValueIdx

section Layout

variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem reduces_lift_ab_a {a b : ℕ} (h : (⟨2, ![a, b]⟩ : Shape).Reduces [1] ⟨1, ![a]⟩) (r : Fin a) (k : Fin b) :
    h.lift (ix1 r) k = ix2 r k := by
  funext ax
  match ax with
  | ⟨0, _⟩ => exact Fin.ext rfl
  | ⟨1, _⟩ => exact Fin.ext rfl

end Layout

section AxesT

variable {R K C : Nat} (d : DotDims ⟨2, ![R, K]⟩ ⟨2, ![C, K]⟩ ⟨2, ![R, C]⟩)

theorem rank_contr_oneT (hl : d.lhsContracting = [1]) : d.contr.rank = 1 := by
  rw [d.rank_contr, hl]; rfl

theorem size_contr_zeroT (hl : d.lhsContracting = [1]) :
    d.contr.size ⟨0, by rw [rank_contr_oneT d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

theorem lhsT_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

theorem lhsT_axis1 (hl : d.lhsContracting = [1]) (j : (⟨2, ![R, C]⟩ : Shape).Idx) (k : d.contr.Idx) :
    (d.lhsIdx j k 1 : ℕ) = (k ⟨0, by rw [rank_contr_oneT d hl]; exact Nat.one_pos⟩ : ℕ) :=
  d.lhsIdx_val_of_single hl j k

theorem rhsT_axis0 (hln : d.lhsNonContracting = [0]) (hrn : d.rhsNonContracting = [0]) (hlb : d.lhsBatch = [])
    (hrb : d.rhsBatch = []) (j : (⟨2, ![R, C]⟩ : Shape).Idx) (k : d.contr.Idx) : (d.rhsIdx j k 0 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

theorem rhsT_axis1 (hl : d.lhsContracting = [1]) (hr : d.rhsContracting = [1]) (j : (⟨2, ![R, C]⟩ : Shape).Idx)
    (k : d.contr.Idx) : (d.rhsIdx j k 1 : ℕ) = (k ⟨0, by rw [rank_contr_oneT d hl]; exact Nat.one_pos⟩ : ℕ) :=
  d.rhsIdx_val_of_single hr j k

end AxesT

theorem matmulT_zero_at {R K C : Nat} {φ₁ φ₂ : FTy} (d : DotDims ⟨2, ![R, K]⟩ ⟨2, ![C, K]⟩ ⟨2, ![R, C]⟩)
    (hl : d.lhsContracting = [1]) (hr : d.rhsContracting = [1]) (hln : d.lhsNonContracting = [0])
    (hrn : d.rhsNonContracting = [0]) (hlb : d.lhsBatch = []) (hrb : d.rhsBatch = [])
    (prec : Option ContractPrecision) (x : FVec Ideal ⟨2, ![R, K]⟩ φ₁) (w : FVec Ideal ⟨2, ![C, K]⟩ φ₂) (r : Fin R) (c : Fin C) :
    FloatOps.matmul d prec x w (constant ⟨2, ![R, C]⟩ .f32 0x00000000#32) (ix2 r c) = ∑ k : Fin K, x (ix2 r k) * w (ix2 c k) := by
  rw [Ideal.matmul_constant_zero_apply]
  rw [← Equiv.sum_comp (contrEquiv1 d K (rank_contr_oneT d hl) (size_contr_zeroT d hl)).symm]
  refine Finset.sum_congr rfl fun k _ => ?_
  have hk := contrEquiv1_symm_val d K (rank_contr_oneT d hl) (size_contr_zeroT d hl) k
  have hx : d.lhsIdx (ix2 r c) ((contrEquiv1 d K (rank_contr_oneT d hl) (size_contr_zeroT d hl)).symm k) = ix2 r k := by
    funext a
    match a with
    | ⟨0, _⟩ => exact Fin.ext (lhsT_axis0 d hln hlb _ _)
    | ⟨1, _⟩ => exact Fin.ext ((lhsT_axis1 d hl _ _).trans hk)
  have hw : d.rhsIdx (ix2 r c) ((contrEquiv1 d K (rank_contr_oneT d hl) (size_contr_zeroT d hl)).symm k) = ix2 c k := by
    funext a
    match a with
    | ⟨0, _⟩ => exact Fin.ext (rhsT_axis0 d hln hrn hlb hrb _ _)
    | ⟨1, _⟩ => exact Fin.ext ((rhsT_axis1 d hl hr _ _).trans hk)
  rw [hx, hw]

theorem rowSum_at {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (reduces_lift_ab_a h r k)

theorem rowMax_at {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (fun f => (Finset.univ : Finset (Fin b)).fold max (Ideal.ofBits φ acc) f)
    (funext fun k => congrArg src (reduces_lift_ab_a h r k))

end Cert.KernelIdeal.PayMath

end
-- ==== Proof.PayMath.lean ====
import proofs.«427532_j66606352826848_3_alg».proof.Proof.Gen.KernelIdeal.Skeleton
import proofs.«427532_j66606352826848_3_alg».proof.Proof.Spec
import proofs.«427532_j66606352826848_3_alg».proof.Proof.LibDot
import proofs.«427532_j66606352826848_3_alg».proof.Proof.PayLib

noncomputable section

open scoped BigOperators

namespace Cert.KernelIdeal.PayMath

open Cert.KernelIdeal Cert.KernelIdeal.Gen Idealize.ShloMosaic Idealize.ShloMosaic.ValueIdx

theorem projBlock_apply (tg : Vec Ideal S1x1024x1024 .bf16) (w : Vec Ideal S1024x1024 .bf16) (j f : Fin 1024) :
    FloatOps.matmul dot_S1024x1024_S1024x1024_S1024x1024_1_0_0_1_n_n none
        (shapeCast S1024x1024 tg shapeCasts_S1x1024x1024_S1024x1024 : FVec Ideal S1024x1024 .bf16)
        (shapeCast S1024x1024 w shapeCasts_S1024x1024_S1024x1024 : FVec Ideal S1024x1024 .bf16)
        (constant (F := Ideal) S1024x1024 .f32 0x00000000#32) (ix2 j f)
      = Cert.Spec.proj (fun e => tg (ix3 0 j e)) (fun e f' => w (ix2 e f')) f := by
  rw [Cert.LibDot.matmul_zero_at dot_S1024x1024_S1024x1024_S1024x1024_1_0_0_1_n_n rfl rfl rfl rfl rfl rfl]
  unfold Cert.Spec.proj
  refine Finset.sum_congr rfl fun e _ => ?_
  rw [shapeCast_1ab_ab_apply, shapeCast_self]

theorem pay3_apply (tg : Vec Ideal S1x1024x1024 .bf16) (wk : Vec Ideal S1024x1024 .bf16) (j f : Fin 1024) :
    k0_pay3 (F := Ideal) tg wk (ix2 j f) = Cert.Spec.proj (fun e => tg (ix3 0 j e)) (fun e f' => wk (ix2 e f')) f := by
  show shapeCast S1024x1024 (truncf .bf16 (FloatOps.matmul dot_S1024x1024_S1024x1024_S1024x1024_1_0_0_1_n_n none
        (shapeCast S1024x1024 tg shapeCasts_S1x1024x1024_S1024x1024 : FVec Ideal S1024x1024 .bf16)
        (shapeCast S1024x1024 wk shapeCasts_S1024x1024_S1024x1024 : FVec Ideal S1024x1024 .bf16)
        (constant (F := Ideal) S1024x1024 .f32 0x00000000#32)) bitsLt_bf16_f32) shapeCasts_S1024x1024_S1024x1024 (ix2 j f) = _
  rw [shapeCast_self, truncf_apply]
  exact projBlock_apply tg wk j f

theorem pay4_apply (tg : Vec Ideal S1x1024x1024 .bf16) (wv : Vec Ideal S1024x1024 .bf16) (j f : Fin 1024) :
    k0_pay4 (F := Ideal) tg wv (ix2 j f) = Cert.Spec.proj (fun e => tg (ix3 0 j e)) (fun e f' => wv (ix2 e f')) f := by
  show shapeCast S1024x1024 (truncf .bf16 (FloatOps.matmul dot_S1024x1024_S1024x1024_S1024x1024_1_0_0_1_n_n none
        (shapeCast S1024x1024 tg shapeCasts_S1x1024x1024_S1024x1024 : FVec Ideal S1024x1024 .bf16)
        (shapeCast S1024x1024 wv shapeCasts_S1024x1024_S1024x1024 : FVec Ideal S1024x1024 .bf16)
        (constant (F := Ideal) S1024x1024 .f32 0x00000000#32)) bitsLt_bf16_f32) shapeCasts_S1024x1024_S1024x1024 (ix2 j f) = _
  rw [shapeCast_self, truncf_apply]
  exact projBlock_apply tg wv j f

def qv (x : Vec Ideal S1x256x1024 .bf16) (wq : Vec Ideal S1024x1024 .bf16) : FVec Ideal S256x1024 .bf16 :=
  truncf .bf16 (mulf (FloatOps.matmul dot_S256x1024_S1024x1024_S256x1024_1_0_0_1_n_n none
      (shapeCast S256x1024 x shapeCasts_S1x256x1024_S256x1024 : FVec Ideal S256x1024 .bf16)
      (shapeCast S1024x1024 wq shapeCasts_S1024x1024_S1024x1024 : FVec Ideal S1024x1024 .bf16)
      (constant (F := Ideal) S256x1024 .f32 0x00000000#32))
    (broadcast S256x1024 (Scalar.ofBits .f32 0x3E000000#32 : Ideal .f32))) bitsLt_bf16_f32

def sc (q : FVec Ideal S256x1024 .bf16) (ks : FVec Ideal S1024x1024 .bf16) : FVec Ideal S256x1024 .f32 :=
  FloatOps.matmul dot_S256x1024_S1024x1024_S256x1024_1_1_0_0_n_n none q ks
    (constant (F := Ideal) S256x1024 .f32 0x00000000#32)

def mx (s : FVec Ideal S256x1024 .f32) : FVec Ideal S256x1024 .f32 :=
  broadcastTo S256x1024
    (shapeCast S256x1
      (maximumf (broadcast S256 (Scalar.ofBits .f32 0xFF800000#32 : Ideal .f32))
        (multiReduction (F := Ideal) .maximumf [1] S256 s 0xFF800000#32 reduces_S256x1024_S256 (.inl rfl) rfl))
      shapeCasts_S256_S256x1)
    broadcasts_S256x1_S256x1024

def ex (s : FVec Ideal S256x1024 .f32) : FVec Ideal S256x1024 .f32 := exp (subf s (mx s))

def wt (e : FVec Ideal S256x1024 .f32) : FVec Ideal S256x1024 .bf16 :=
  truncf .bf16 (divf e
    (broadcastTo S256x1024
      (shapeCast S256x1 (multiReduction (F := Ideal) .add [1] S256 e 0x00000000#32 reduces_S256x1024_S256 (.inl rfl) rfl)
        shapeCasts_S256_S256x1)
      broadcasts_S256x1_S256x1024)) bitsLt_bf16_f32

def av (w : FVec Ideal S256x1024 .bf16) (vs : FVec Ideal S1024x1024 .bf16) : FVec Ideal S256x1024 .bf16 :=
  truncf .bf16 (FloatOps.matmul dot_S256x1024_S1024x1024_S256x1024_1_0_0_1_n_n none w vs
    (constant (F := Ideal) S256x1024 .f32 0x00000000#32)) bitsLt_bf16_f32

def ov (a : FVec Ideal S256x1024 .bf16) (wo : Vec Ideal S1024x1024 .bf16) : FVec Ideal S256x1024 .f32 :=
  FloatOps.matmul dot_S256x1024_S1024x1024_S256x1024_1_0_0_1_n_n none a
    (shapeCast S1024x1024 wo shapeCasts_S1024x1024_S1024x1024 : FVec Ideal S1024x1024 .bf16)
    (constant (F := Ideal) S256x1024 .f32 0x00000000#32)

theorem pay5_eq (x : Vec Ideal S1x256x1024 .bf16) (wq ks vs wo : Vec Ideal S1024x1024 .bf16) :
    k0_pay5 (F := Ideal) x wq ks vs wo = ov (av (wt (ex (sc (qv x wq) ks))) vs) wo := rfl

theorem qv_apply (x : Vec Ideal S1x256x1024 .bf16) (wq : Vec Ideal S1024x1024 .bf16) (r : Fin 256) (f : Fin 1024) :
    qv x wq (ix2 r f) = Cert.Spec.proj (fun e => x (ix3 0 r e)) (fun e f' => wq (ix2 e f')) f * Cert.Spec.CS := by
  unfold qv
  rw [truncf_apply, mulf_apply, broadcast_apply,
    Cert.LibDot.matmul_zero_at dot_S256x1024_S1024x1024_S256x1024_1_0_0_1_n_n rfl rfl rfl rfl rfl rfl]
  unfold Cert.Spec.proj
  refine congrArg (· * Cert.Spec.CS) ?_
  refine Finset.sum_congr rfl fun e _ => ?_
  rw [shapeCast_1ab_ab_apply, shapeCast_self]

theorem sc_apply (q : FVec Ideal S256x1024 .bf16) (ks : FVec Ideal S1024x1024 .bf16) (r : Fin 256) (j : Fin 1024) :
    sc q ks (ix2 r j) = ∑ f : Fin 1024, q (ix2 r f) * ks (ix2 j f) := by
  unfold sc
  exact matmulT_zero_at dot_S256x1024_S1024x1024_S256x1024_1_1_0_0_n_n rfl rfl rfl rfl rfl rfl none q ks r j

theorem mx_apply (s : FVec Ideal S256x1024 .f32) (r : Fin 256) (j : Fin 1024) :
    mx s (ix2 r j) = Cert.Spec.rowMax (fun k => s (ix2 r k)) := by
  unfold mx
  rw [broadcastTo_a1_ab_apply, shapeCast_a_a1_apply, maximumf_apply, broadcast_apply]
  exact congrArg (max _) (rowMax_at s 0xFF800000#32 reduces_S256x1024_S256 (.inl rfl) rfl r)

theorem ex_apply (s : FVec Ideal S256x1024 .f32) (r : Fin 256) (j : Fin 1024) :
    ex s (ix2 r j) = Ideal.exp (s (ix2 r j) - Cert.Spec.rowMax (fun k => s (ix2 r k))) := by
  unfold ex
  show Ideal.exp (subf s (mx s) (ix2 r j)) = _
  rw [subf_apply, mx_apply]

theorem wt_apply (e : FVec Ideal S256x1024 .f32) (r : Fin 256) (j : Fin 1024) :
    wt e (ix2 r j) = Ideal.div (e (ix2 r j)) (∑ k : Fin 1024, e (ix2 r k)) := by
  unfold wt
  rw [truncf_apply, divf_apply, broadcastTo_a1_ab_apply, shapeCast_a_a1_apply]
  exact congrArg (Ideal.div _) (rowSum_at e 0x00000000#32 reduces_S256x1024_S256 (.inl rfl) rfl r)

theorem av_apply (w : FVec Ideal S256x1024 .bf16) (vs : FVec Ideal S1024x1024 .bf16) (r : Fin 256) (f : Fin 1024) :
    av w vs (ix2 r f) = ∑ j : Fin 1024, w (ix2 r j) * vs (ix2 j f) := by
  unfold av
  rw [truncf_apply]
  exact Cert.LibDot.matmul_zero_at dot_S256x1024_S1024x1024_S256x1024_1_0_0_1_n_n rfl rfl rfl rfl rfl rfl none w vs r f

theorem ov_apply (a : FVec Ideal S256x1024 .bf16) (wo : Vec Ideal S1024x1024 .bf16) (r : Fin 256) (g : Fin 1024) :
    ov a wo (ix2 r g) = ∑ f : Fin 1024, a (ix2 r f) * wo (ix2 f g) := by
  unfold ov
  rw [shapeCast_self]
  exact Cert.LibDot.matmul_zero_at dot_S256x1024_S1024x1024_S256x1024_1_0_0_1_n_n rfl rfl rfl rfl rfl rfl none a wo r g

theorem scores_apply (x : Vec Ideal S1x256x1024 .bf16) (wq ks : Vec Ideal S1024x1024 .bf16) (r : Fin 256) (j : Fin 1024) :
    sc (qv x wq) ks (ix2 r j)
      = Cert.Spec.scores (fun e => x (ix3 0 r e)) (fun j f => ks (ix2 j f)) (fun e f => wq (ix2 e f)) j := by
  rw [sc_apply]
  unfold Cert.Spec.scores
  exact Finset.sum_congr rfl fun f _ => by rw [qv_apply]

theorem weights_apply (x : Vec Ideal S1x256x1024 .bf16) (wq ks : Vec Ideal S1024x1024 .bf16) (r : Fin 256) (j : Fin 1024) :
    wt (ex (sc (qv x wq) ks)) (ix2 r j)
      = Cert.Spec.weights (Cert.Spec.scores (fun e => x (ix3 0 r e)) (fun j f => ks (ix2 j f)) (fun e f => wq (ix2 e f))) j := by
  have hs : (fun k => sc (qv x wq) ks (ix2 r k))
      = Cert.Spec.scores (fun e => x (ix3 0 r e)) (fun j f => ks (ix2 j f)) (fun e f => wq (ix2 e f)) :=
    funext fun k => scores_apply x wq ks r k
  have he : ∀ k, ex (sc (qv x wq) ks) (ix2 r k)
      = Ideal.exp (Cert.Spec.scores (fun e => x (ix3 0 r e)) (fun j f => ks (ix2 j f)) (fun e f => wq (ix2 e f)) k
          - Cert.Spec.rowMax (Cert.Spec.scores (fun e => x (ix3 0 r e)) (fun j f => ks (ix2 j f)) (fun e f => wq (ix2 e f)))) := by
    intro k
    rw [ex_apply, hs, scores_apply]
  rw [wt_apply, he j]
  unfold Cert.Spec.weights
  exact congrArg (Ideal.div _) (Finset.sum_congr rfl fun k _ => he k)

theorem pay1_apply (v30 : FVec Ideal S256x1024 .f32) (v33 : FVec Ideal S1x1024 .f32) (r : Fin 256) (g : Fin 1024) :
    k0_pay1 (F := Ideal) v30 v33 (ix3 0 r g) = v30 (ix2 r g) + v33 (ix2 0 g) := by
  show shapeCast S1x256x1024 (truncf .bf16 (addf v30 (broadcastTo S256x1024 v33 broadcasts_S1x1024_S256x1024)) bitsLt_bf16_f32)
      shapeCasts_S256x1024_S1x256x1024 (ix3 0 r g) = _
  rw [shapeCast_ab_1ab_apply, truncf_apply, addf_apply, broadcastTo_1b_ab_apply]

theorem pay6_apply (bi : Vec Ideal S1x1024 .f32) (g : Fin 1024) : k0_pay6 (F := Ideal) bi (ix2 0 g) = bi (ix2 0 g) := by
  show shapeCast S1x1024 (shapeCast S1024 bi shapeCasts_S1x1024_S1024) shapeCasts_S1024_S1x1024 (ix2 0 g) = _
  rw [shapeCast_a_1a_apply, shapeCast_1a_a_apply]

theorem out_apply (x : Vec Ideal S1x256x1024 .bf16) (wq ks vs wo : Vec Ideal S1024x1024 .bf16) (bi : Vec Ideal S1x1024 .f32)
    (r : Fin 256) (g : Fin 1024) :
    k0_pay1 (F := Ideal) (k0_pay5 x wq ks vs wo) (k0_pay6 bi) (ix3 0 r g)
      = Cert.Spec.attnRowKV (fun e => x (ix3 0 r e)) (fun j f => ks (ix2 j f)) (fun j f => vs (ix2 j f))
          (fun e f => wq (ix2 e f)) (fun f g' => wo (ix2 f g')) (fun g' => bi (ix2 0 g')) g := by
  rw [pay1_apply, pay6_apply, pay5_eq, ov_apply]
  unfold Cert.Spec.attnRowKV
  refine congrArg (· + bi (ix2 0 g)) ?_
  refine Finset.sum_congr rfl fun f _ => ?_
  refine congrArg (· * wo (ix2 f g)) ?_
  rw [av_apply]
  exact Finset.sum_congr rfl fun j _ => by rw [weights_apply]

theorem k1_pay1_eq : @k1_pay1 = @k0_pay1 := rfl
theorem k1_pay3_eq : @k1_pay3 = @k0_pay3 := rfl
theorem k1_pay4_eq : @k1_pay4 = @k0_pay4 := rfl
theorem k1_pay5_eq : @k1_pay5 = @k0_pay5 := rfl
theorem k1_pay6_eq : @k1_pay6 = @k0_pay6 := rfl
theorem k2_pay1_eq : @k2_pay1 = @k0_pay1 := rfl
theorem k2_pay3_eq : @k2_pay3 = @k0_pay3 := rfl
theorem k2_pay4_eq : @k2_pay4 = @k0_pay4 := rfl
theorem k2_pay5_eq : @k2_pay5 = @k0_pay5 := rfl
theorem k2_pay6_eq : @k2_pay6 = @k0_pay6 := rfl
theorem k3_pay1_eq : @k3_pay1 = @k0_pay1 := rfl
theorem k3_pay3_eq : @k3_pay3 = @k0_pay3 := rfl
theorem k3_pay4_eq : @k3_pay4 = @k0_pay4 := rfl
theorem k3_pay5_eq : @k3_pay5 = @k0_pay5 := rfl
theorem k3_pay6_eq : @k3_pay6 = @k0_pay6 := rfl
theorem k4_pay1_eq : @k4_pay1 = @k0_pay1 := rfl
theorem k4_pay3_eq : @k4_pay3 = @k0_pay3 := rfl
theorem k4_pay4_eq : @k4_pay4 = @k0_pay4 := rfl
theorem k4_pay5_eq : @k4_pay5 = @k0_pay5 := rfl
theorem k4_pay6_eq : @k4_pay6 = @k0_pay6 := rfl
theorem k5_pay1_eq : @k5_pay1 = @k0_pay1 := rfl
theorem k5_pay3_eq : @k5_pay3 = @k0_pay3 := rfl
theorem k5_pay4_eq : @k5_pay4 = @k0_pay4 := rfl
theorem k5_pay5_eq : @k5_pay5 = @k0_pay5 := rfl
theorem k5_pay6_eq : @k5_pay6 = @k0_pay6 := rfl

end Cert.KernelIdeal.PayMath

end
-- ==== Proof.Val0a.lean ====
import proofs.«427532_j66606352826848_3_alg».proof.Proof.Dat0
import proofs.«427532_j66606352826848_3_alg».proof.Proof.PayMath
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Val0

open Cert.KernelIdeal Cert.KernelIdeal.Gen Idealize.ShloMosaic Idealize.ShloMosaic.TcCoe Idealize.ShloMosaic.ValueIdx Idealize.SL.Sem
open Idealize.ShloMosaic.Pipeline (Dat)

variable {F : FTy → Type} [FloatOps F]

open Idealize.ShloMosaic.Tactic

theorem idxR0 : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = t.val / 4 ∧ win0_7.index t (1 : Fin 3) = t.val % 4 ∧ win0_7.index t (2 : Fin 3) = 0 :=
  (by decide +kernel : ∀ t : Fin grid0.N, _)

theorem b_ltR0 (t : Fin cfg0.N) : t.val / 4 < 8 := by have := t.isLt; have hN : cfg0.N = 32 := N_0; omega

section
variable (V : (c : Dev nD) → (b : Ref sig .tc) → Buf (Elt F) ((c : Thread nD τ).loc b))

abbrev a0R0 (c : Dev nD) : Vec F S8x1024x1024 .bf16 := V c (Pipeline.arrRef spec0 0)

abbrev a1R0 (c : Dev nD) : Vec F S8x1024x1024 .bf16 := V c (Pipeline.arrRef spec0 1)

abbrev a2R0 (c : Dev nD) : Vec F S1024x1024 .bf16 := V c (Pipeline.arrRef spec0 2)
abbrev a3R0 (c : Dev nD) : Vec F S1024x1024 .bf16 := V c (Pipeline.arrRef spec0 3)
abbrev a4R0 (c : Dev nD) : Vec F S1024x1024 .bf16 := V c (Pipeline.arrRef spec0 4)
abbrev a5R0 (c : Dev nD) : Vec F S1024x1024 .bf16 := V c (Pipeline.arrRef spec0 5)

abbrev a6R0 (c : Dev nD) : Vec F S1x1024 .f32 := V c (Pipeline.arrRef spec0 6)

def tblkR0 (c : Dev nD) (b : Fin 8) : Vec F S1x1024x1024 .bf16 := fun j => a1R0 V c (ix3 b (j 1) (j 2))

theorem iblk1R0_eq (c : Dev nD) (t : Fin cfg0.N) : (iblkR0 V c 1 t : Vec F S1x1024x1024 .bf16) = tblkR0 V c ⟨t.val / 4, b_ltR0 t⟩ := by
  obtain ⟨-, -, -, e0, e1, e2, -⟩ := idxR0 t
  funext j
  show V c (Pipeline.arrRef spec0 1) (((cfg0.win 1).blk t).view.emb j) = V c (Pipeline.arrRef spec0 1) (ix3 ⟨t.val / 4, b_ltR0 t⟩ (j 1) (j 2))
  congr 1
  funext a; apply Fin.ext
  match a with
  | ⟨0, _⟩ => show win0_1.index t (0 : Fin 3) * 1 + 1 * (j 0).val = t.val / 4; rw [e0]; have hj : (j 0).val < 1 := (j 0).isLt; omega
  | ⟨1, _⟩ => show win0_1.index t (1 : Fin 3) * 1024 + 1 * (j 1).val = (j 1).val; rw [e1]; omega
  | ⟨2, _⟩ => show win0_1.index t (2 : Fin 3) * 1024 + 1 * (j 2).val = (j 2).val; rw [e2]; omega

theorem iblk2R0_eq (c : Dev nD) (t : Fin cfg0.N) : (iblkR0 V c 2 t : Vec F S1024x1024 .bf16) = a2R0 V c := by
  have e0 : win0_2.index t (0 : Fin 2) = 0 := (idxR0 t).2.2.2.2.2.2.1
  have e1 : win0_2.index t (1 : Fin 2) = 0 := (idxR0 t).2.2.2.2.2.2.2.1
  funext j
  show V c (Pipeline.arrRef spec0 2) (((cfg0.win 2).blk t).view.emb j) = V c (Pipeline.arrRef spec0 2) j
  congr 1
  funext a; apply Fin.ext
  match a with
  | ⟨0, _⟩ => show win0_2.index t (0 : Fin 2) * 1024 + 1 * (j 0).val = (j 0).val; rw [e0]; omega
  | ⟨1, _⟩ => show win0_2.index t (1 : Fin 2) * 1024 + 1 * (j 1).val = (j 1).val; rw [e1]; omega

theorem iblk3R0_eq (c : Dev nD) (t : Fin cfg0.N) : (iblkR0 V c 3 t : Vec F S1024x1024 .bf16) = a3R0 V c := by
  have e0 : win0_3.index t (0 : Fin 2) = 0 := (idxR0 t).2.2.2.2.2.2.2.2.1
  have e1 : win0_3.index t (1 : Fin 2) = 0 := (idxR0 t).2.2.2.2.2.2.2.2.2.1
  funext j
  show V c (Pipeline.arrRef spec0 3) (((cfg0.win 3).blk t).view.emb j) = V c (Pipeline.arrRef spec0 3) j
  congr 1
  funext a; apply Fin.ext
  match a with
  | ⟨0, _⟩ => show win0_3.index t (0 : Fin 2) * 1024 + 1 * (j 0).val = (j 0).val; rw [e0]; omega
  | ⟨1, _⟩ => show win0_3.index t (1 : Fin 2) * 1024 + 1 * (j 1).val = (j 1).val; rw [e1]; omega

theorem iblk4R0_eq (c : Dev nD) (t : Fin cfg0.N) : (iblkR0 V c 4 t : Vec F S1024x1024 .bf16) = a4R0 V c := by
  have e0 : win0_4.index t (0 : Fin 2) = 0 := (idxR0 t).2.2.2.2.2.2.2.2.2.2.1
  have e1 : win0_4.index t (1 : Fin 2) = 0 := (idxR0 t).2.2.2.2.2.2.2.2.2.2.2.1
  funext j
  show V c (Pipeline.arrRef spec0 4) (((cfg0.win 4).blk t).view.emb j) = V c (Pipeline.arrRef spec0 4) j
  congr 1
  funext a; apply Fin.ext
  match a with
  | ⟨0, _⟩ => show win0_4.index t (0 : Fin 2) * 1024 + 1 * (j 0).val = (j 0).val; rw [e0]; omega
  | ⟨1, _⟩ => show win0_4.index t (1 : Fin 2) * 1024 + 1 * (j 1).val = (j 1).val; rw [e1]; omega

theorem iblk5R0_eq (c : Dev nD) (t : Fin cfg0.N) : (iblkR0 V c 5 t : Vec F S1024x1024 .bf16) = a5R0 V c := by
  have e0 : win0_5.index t (0 : Fin 2) = 0 := (idxR0 t).2.2.2.2.2.2.2.2.2.2.2.2.1
  have e1 : win0_5.index t (1 : Fin 2) = 0 := (idxR0 t).2.2.2.2.2.2.2.2.2.2.2.2.2.1
  funext j
  show V c (Pipeline.arrRef spec0 5) (((cfg0.win 5).blk t).view.emb j) = V c (Pipeline.arrRef spec0 5) j
  congr 1
  funext a; apply Fin.ext
  match a with
  | ⟨0, _⟩ => show win0_5.index t (0 : Fin 2) * 1024 + 1 * (j 0).val = (j 0).val; rw [e0]; omega
  | ⟨1, _⟩ => show win0_5.index t (1 : Fin 2) * 1024 + 1 * (j 1).val = (j 1).val; rw [e1]; omega

theorem iblk6R0_eq (c : Dev nD) (t : Fin cfg0.N) : (iblkR0 V c 6 t : Vec F S1x1024 .f32) = a6R0 V c := by
  have e0 : win0_6.index t (0 : Fin 2) = 0 := (idxR0 t).2.2.2.2.2.2.2.2.2.2.2.2.2.2.1
  have e1 : win0_6.index t (1 : Fin 2) = 0 := (idxR0 t).2.2.2.2.2.2.2.2.2.2.2.2.2.2.2.1
  funext j
  show V c (Pipeline.arrRef spec0 6) (((cfg0.win 6).blk t).view.emb j) = V c (Pipeline.arrRef spec0 6) j
  congr 1
  funext a; apply Fin.ext
  match a with
  | ⟨0, _⟩ => show win0_6.index t (0 : Fin 2) * 1 + 1 * (j 0).val = (j 0).val; rw [e0]; omega
  | ⟨1, _⟩ => show win0_6.index t (1 : Fin 2) * 1024 + 1 * (j 1).val = (j 1).val; rw [e1]; omega

theorem scratchR0_A (c : Dev nD) (t : Fin cfg0.N) (h0 : t.val % 4 = 0) :
    (outsAtR0 V c t.val t.isLt).2.1 = k0_pay3 (tblkR0 V c ⟨t.val / 4, b_ltR0 t⟩) (a3R0 V c)
    ∧ (outsAtR0 V c t.val t.isLt).2.2 = k0_pay4 (tblkR0 V c ⟨t.val / 4, b_ltR0 t⟩) (a4R0 V c) := by
  rw [outsAtR0_A V c t h0]
  dsimp only [Ins.first, Ins.keys, Ins.vals, insR0]
  rw [iblk1R0_eq V c t, iblk3R0_eq V c t, iblk4R0_eq V c t]
  exact ⟨rfl, rfl⟩

theorem scratchR0 (c : Dev nD) : ∀ (n : ℕ) (hn : n < cfg0.N),
    (outsAtR0 V c n hn).2.1 = k0_pay3 (tblkR0 V c ⟨n / 4, b_ltR0 ⟨n, hn⟩⟩) (a3R0 V c)
    ∧ (outsAtR0 V c n hn).2.2 = k0_pay4 (tblkR0 V c ⟨n / 4, b_ltR0 ⟨n, hn⟩⟩) (a4R0 V c)
  | 0, hn => scratchR0_A V c ⟨0, hn⟩ rfl
  | n + 1, hn => by
    by_cases h0 : (n + 1) % 4 = 0
    · exact scratchR0_A V c ⟨n + 1, hn⟩ h0
    · have ih := scratchR0 c n (Nat.lt_of_succ_lt hn)
      have hb : (⟨(n + 1) / 4, b_ltR0 ⟨n + 1, hn⟩⟩ : Fin 8) = ⟨n / 4, b_ltR0 ⟨n, Nat.lt_of_succ_lt hn⟩⟩ := Fin.ext (by show (n + 1) / 4 = n / 4; omega)
      rw [outsAtR0_B V c ⟨n + 1, hn⟩ h0, hb]
      exact ih

theorem outR0_eq (c : Dev nD) (t : Fin cfg0.N) :
    (outsAtR0 V c t.val t.isLt).1
      = k0_pay1 (k0_pay5 (iblkR0 V c 0 t) (a2R0 V c) (k0_pay3 (tblkR0 V c ⟨t.val / 4, b_ltR0 t⟩) (a3R0 V c)) (k0_pay4 (tblkR0 V c ⟨t.val / 4, b_ltR0 t⟩) (a4R0 V c)) (a5R0 V c)) (k0_pay6 (a6R0 V c)) := by
  by_cases h0 : t.val % 4 = 0
  · rw [outsAtR0_A V c t h0]
    dsimp only [Ins.first, Ins.keys, Ins.vals, Ins.out, insR0]
    rw [iblk1R0_eq V c t, iblk2R0_eq V c t, iblk3R0_eq V c t, iblk4R0_eq V c t, iblk5R0_eq V c t, iblk6R0_eq V c t]
  · have hN : cfg0.N = 32 := N_0
    have hlt : t.val - 1 < cfg0.N := Nat.lt_of_le_of_lt (Nat.sub_le _ _) t.isLt
    have hb : (⟨(t.val - 1) / 4, b_ltR0 ⟨t.val - 1, hlt⟩⟩ : Fin 8) = ⟨t.val / 4, b_ltR0 t⟩ := Fin.ext (by show (t.val - 1) / 4 = t.val / 4; omega)
    obtain ⟨s0, s1⟩ := scratchR0 V c (t.val - 1) hlt
    rw [hb] at s0 s1
    rw [outsAtR0_B V c t h0]
    dsimp only [Ins.later, Ins.out, insR0]
    rw [s0, s1, iblk2R0_eq V c t, iblk5R0_eq V c t, iblk6R0_eq V c t]

end

theorem pay3_applyR0 (tg : Vec Ideal S1x1024x1024 .bf16) (wk : Vec Ideal S1024x1024 .bf16) (j f : Fin 1024) :
    k0_pay3 (F := Ideal) tg wk (ix2 j f) = Cert.Spec.proj (fun e => tg (ix3 0 j e)) (fun e f' => wk (ix2 e f')) f :=
  PayMath.pay3_apply tg wk j f

theorem pay4_applyR0 (tg : Vec Ideal S1x1024x1024 .bf16) (wv : Vec Ideal S1024x1024 .bf16) (j f : Fin 1024) :
    k0_pay4 (F := Ideal) tg wv (ix2 j f) = Cert.Spec.proj (fun e => tg (ix3 0 j e)) (fun e f' => wv (ix2 e f')) f :=
  PayMath.pay4_apply tg wv j f

theorem out_applyR0 (x : Vec Ideal S1x256x1024 .bf16) (wq ks vs wo : Vec Ideal S1024x1024 .bf16) (bi : Vec Ideal S1x1024 .f32) (r : Fin 256) (g : Fin 1024) :
    k0_pay1 (F := Ideal) (k0_pay5 x wq ks vs wo) (k0_pay6 bi) (ix3 0 r g)
      = Cert.Spec.attnRowKV (fun e => x (ix3 0 r e)) (fun j f => ks (ix2 j f)) (fun j f => vs (ix2 j f)) (fun e f => wq (ix2 e f)) (fun f g' => wo (ix2 f g')) (fun g' => bi (ix2 0 g')) g :=
  PayMath.out_apply x wq ks vs wo bi r g

end Cert.KernelIdeal.Val0

end
-- ==== Proof.Val0.lean ====
import proofs.«427532_j66606352826848_3_alg».proof.Proof.Val0a
import Idealize.ShloMosaic.Lib.Pipeline.Value
import Idealize.ShloMosaic.Lib.ValueIdx

set_option maxRecDepth 16384

noncomputable section

namespace Cert.KernelIdeal.Val0

open Cert.KernelIdeal Cert.KernelIdeal.Gen Idealize.ShloMosaic Idealize.ShloMosaic.TcCoe Idealize.ShloMosaic.ValueIdx Idealize.SL.Sem
open Idealize.ShloMosaic.Pipeline (Dat)

theorem mem_blkR0_7 (t : Fin cfg0.N) (i : S8x1024x1024.Idx) :
    i ∈ ((cfg0.win 7).blk t).view.set ↔ ∀ a : Fin 3, win0_7.index t a * S1x256x1024.size a ≤ (i a).val ∧ (i a).val < win0_7.index t a * S1x256x1024.size a + S1x256x1024.size a := by
  show i ∈ ((View.whole (Pipeline.arrRef spec0 7)).slice (win0_7.rect t)).set ↔ _
  rw [View.set_slice_whole, Rect.mem_set_unit]
  exact Iff.rfl

theorem coverR0_7 (i : S8x1024x1024.Idx) : ∃ t : Fin cfg0.N, (cfg0.win 7).flush t = true ∧ i ∈ ((cfg0.win 7).blk t).view.set := by
  have hN : cfg0.N = 32 := N_0
  have h0 : (i 0).val < 8 := (i 0).isLt
  have h1 : (i 1).val < 1024 := (i 1).isLt
  have h2 : (i 2).val < 1024 := (i 2).isLt
  refine ⟨⟨4 * (i 0).val + (i 1).val / 256, by omega⟩, flush0_7 _, ?_⟩
  rw [mem_blkR0_7]
  obtain ⟨-, -, -, -, -, -, -, -, -, -, -, -, -, -, -, -, e0, e1, e2⟩ := idxR0 ⟨4 * (i 0).val + (i 1).val / 256, by omega⟩
  intro a
  match a with
  | ⟨0, _⟩ => show win0_7.index _ (0 : Fin 3) * 1 ≤ (i 0).val ∧ (i 0).val < win0_7.index _ (0 : Fin 3) * 1 + 1; rw [e0]; dsimp only; omega
  | ⟨1, _⟩ => show win0_7.index _ (1 : Fin 3) * 256 ≤ (i 1).val ∧ (i 1).val < win0_7.index _ (1 : Fin 3) * 256 + 256; rw [e1]; dsimp only; omega
  | ⟨2, _⟩ => show win0_7.index _ (2 : Fin 3) * 1024 ≤ (i 2).val ∧ (i 2).val < win0_7.index _ (2 : Fin 3) * 1024 + 1024; rw [e2]; omega

section
variable (V : (c : Dev nD) → (b : Ref sig .tc) → Buf (Elt Ideal) ((c : Thread nD τ).loc b))

abbrev GR0 (c : Dev nD) : Vec Ideal S8x1024x1024 .bf16 := fun i =>
  Cert.Spec.attnRow (fun e => a0R0 V c (ix3 (i 0) (i 1) e)) (fun j e => a1R0 V c (ix3 (i 0) j e))
    (fun e f => a2R0 V c (ix2 e f)) (fun e f => a3R0 V c (ix2 e f)) (fun e f => a4R0 V c (ix2 e f))
    (fun f g => a5R0 V c (ix2 f g)) (fun g => a6R0 V c (ix2 0 g)) (i 2)

theorem flushedR0_eq (c : Dev nD) (t : Fin cfg0.N) :
    (datR0 V c).flushed 7 t = ((cfg0.win 7).blk t).view.read (Elt Ideal) (GR0 V c) := by
  show (cfg0.win 7).cut (grid0.coords t) ((datR0 V c).after 7 t) = _
  rw [afterR0_7, outR0_eq]
  obtain ⟨e00, e01, e02, -, -, -, -, -, -, -, -, -, -, -, -, -, e70, e71, e72⟩ := idxR0 t
  refine funext fun (j : S1x256x1024.Idx) => ?_
  show k0_pay1 (k0_pay5 (iblkR0 V c 0 t) (a2R0 V c) (k0_pay3 (tblkR0 V c ⟨t.val / 4, b_ltR0 t⟩) (a3R0 V c)) (k0_pay4 (tblkR0 V c ⟨t.val / 4, b_ltR0 t⟩) (a4R0 V c)) (a5R0 V c)) (k0_pay6 (a6R0 V c)) j
      = GR0 V c (((cfg0.win 7).blk t).view.emb j)
  have hN : cfg0.N = 32 := N_0
  have ht : t.val < 32 := hN ▸ t.isLt
  obtain ⟨r, g, rfl⟩ : ∃ (r : Fin 256) (g : Fin 1024), j = ix3 (0 : Fin 1) r g :=
    ⟨j 1, j 2, by
      funext a
      match a with
      | ⟨0, _⟩ => exact Fin.ext (by have h : (j 0).val < 1 := (j 0).isLt; show (j 0).val = 0; omega)
      | ⟨1, _⟩ => rfl
      | ⟨2, _⟩ => rfl⟩
  have hr : r.val < 256 := r.isLt
  have hi : ((cfg0.win 7).blk t).view.emb (ix3 (0 : Fin 1) r g)
      = ix3 (⟨t.val / 4, b_ltR0 t⟩ : Fin 8) (⟨t.val % 4 * 256 + r.val, by omega⟩ : Fin 1024) g := by
    funext a; apply Fin.ext
    match a with
    | ⟨0, _⟩ => show win0_7.index t (0 : Fin 3) * 1 + 1 * 0 = t.val / 4; rw [e70]; omega
    | ⟨1, _⟩ => show win0_7.index t (1 : Fin 3) * 256 + 1 * r.val = t.val % 4 * 256 + r.val; rw [e71]; omega
    | ⟨2, _⟩ => show win0_7.index t (2 : Fin 3) * 1024 + 1 * g.val = g.val; rw [e72]; omega
  have hx : (fun e : Fin 1024 => (iblkR0 V c 0 t : Vec Ideal S1x256x1024 .bf16) (ix3 (0 : Fin 1) r e))
      = fun e => a0R0 V c (ix3 (⟨t.val / 4, b_ltR0 t⟩ : Fin 8) (⟨t.val % 4 * 256 + r.val, by omega⟩ : Fin 1024) e) := by
    funext e
    show V c (Pipeline.arrRef spec0 0) (((cfg0.win 0).blk t).view.emb (ix3 (0 : Fin 1) r e)) = V c (Pipeline.arrRef spec0 0) (ix3 _ _ e)
    congr 1
    funext a; apply Fin.ext
    match a with
    | ⟨0, _⟩ => show win0_0.index t (0 : Fin 3) * 1 + 1 * 0 = t.val / 4; rw [e00]; omega
    | ⟨1, _⟩ => show win0_0.index t (1 : Fin 3) * 256 + 1 * r.val = t.val % 4 * 256 + r.val; rw [e01]; omega
    | ⟨2, _⟩ => show win0_0.index t (2 : Fin 3) * 1024 + 1 * e.val = e.val; rw [e02]; omega
  rw [hi, out_applyR0]
  simp only [pay3_applyR0, pay4_applyR0]
  rw [hx]
  rfl

theorem finalR0 (c : Dev nD) : (datR0 (F := Ideal) V c).arrAt 7 cfg0.N = GR0 V c :=
  (datR0 V c).arrAt_eq_of_cover 7 (GR0 V c) (fun t _ => flushedR0_eq V c t) coverR0_7

end

end Cert.KernelIdeal.Val0

end
-- ==== Proof.Val1a.lean ====
import proofs.«427532_j66606352826848_3_alg».proof.Proof.Dat1
import proofs.«427532_j66606352826848_3_alg».proof.Proof.PayMath
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Val1

open Cert.KernelIdeal Cert.KernelIdeal.Gen Idealize.ShloMosaic Idealize.ShloMosaic.TcCoe Idealize.ShloMosaic.ValueIdx Idealize.SL.Sem
open Idealize.ShloMosaic.Pipeline (Dat)

variable {F : FTy → Type} [FloatOps F]

open Idealize.ShloMosaic.Tactic

theorem idxR1 : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 3) = t.val / 4 ∧ win1_7.index t (1 : Fin 3) = t.val % 4 ∧ win1_7.index t (2 : Fin 3) = 0 :=
  (by decide +kernel : ∀ t : Fin grid1.N, _)

theorem b_ltR1 (t : Fin cfg1.N) : t.val / 4 < 8 := by have := t.isLt; have hN : cfg1.N = 32 := N_1; omega

section
variable (V : (c : Dev nD) → (b : Ref sig .tc) → Buf (Elt F) ((c : Thread nD τ).loc b))

abbrev a0R1 (c : Dev nD) : Vec F S8x1024x1024 .bf16 := V c (Pipeline.arrRef spec1 0)

abbrev a1R1 (c : Dev nD) : Vec F S8x1024x1024 .bf16 := V c (Pipeline.arrRef spec1 1)

abbrev a2R1 (c : Dev nD) : Vec F S1024x1024 .bf16 := V c (Pipeline.arrRef spec1 2)
abbrev a3R1 (c : Dev nD) : Vec F S1024x1024 .bf16 := V c (Pipeline.arrRef spec1 3)
abbrev a4R1 (c : Dev nD) : Vec F S1024x1024 .bf16 := V c (Pipeline.arrRef spec1 4)
abbrev a5R1 (c : Dev nD) : Vec F S1024x1024 .bf16 := V c (Pipeline.arrRef spec1 5)

abbrev a6R1 (c : Dev nD) : Vec F S1x1024 .f32 := V c (Pipeline.arrRef spec1 6)

def tblkR1 (c : Dev nD) (b : Fin 8) : Vec F S1x1024x1024 .bf16 := fun j => a1R1 V c (ix3 b (j 1) (j 2))

theorem iblk1R1_eq (c : Dev nD) (t : Fin cfg1.N) : (iblkR1 V c 1 t : Vec F S1x1024x1024 .bf16) = tblkR1 V c ⟨t.val / 4, b_ltR1 t⟩ := by
  obtain ⟨-, -, -, e0, e1, e2, -⟩ := idxR1 t
  funext j
  show V c (Pipeline.arrRef spec1 1) (((cfg1.win 1).blk t).view.emb j) = V c (Pipeline.arrRef spec1 1) (ix3 ⟨t.val / 4, b_ltR1 t⟩ (j 1) (j 2))
  congr 1
  funext a; apply Fin.ext
  match a with
  | ⟨0, _⟩ => show win1_1.index t (0 : Fin 3) * 1 + 1 * (j 0).val = t.val / 4; rw [e0]; have hj : (j 0).val < 1 := (j 0).isLt; omega
  | ⟨1, _⟩ => show win1_1.index t (1 : Fin 3) * 1024 + 1 * (j 1).val = (j 1).val; rw [e1]; omega
  | ⟨2, _⟩ => show win1_1.index t (2 : Fin 3) * 1024 + 1 * (j 2).val = (j 2).val; rw [e2]; omega

theorem iblk2R1_eq (c : Dev nD) (t : Fin cfg1.N) : (iblkR1 V c 2 t : Vec F S1024x1024 .bf16) = a2R1 V c := by
  have e0 : win1_2.index t (0 : Fin 2) = 0 := (idxR1 t).2.2.2.2.2.2.1
  have e1 : win1_2.index t (1 : Fin 2) = 0 := (idxR1 t).2.2.2.2.2.2.2.1
  funext j
  show V c (Pipeline.arrRef spec1 2) (((cfg1.win 2).blk t).view.emb j) = V c (Pipeline.arrRef spec1 2) j
  congr 1
  funext a; apply Fin.ext
  match a with
  | ⟨0, _⟩ => show win1_2.index t (0 : Fin 2) * 1024 + 1 * (j 0).val = (j 0).val; rw [e0]; omega
  | ⟨1, _⟩ => show win1_2.index t (1 : Fin 2) * 1024 + 1 * (j 1).val = (j 1).val; rw [e1]; omega

theorem iblk3R1_eq (c : Dev nD) (t : Fin cfg1.N) : (iblkR1 V c 3 t : Vec F S1024x1024 .bf16) = a3R1 V c := by
  have e0 : win1_3.index t (0 : Fin 2) = 0 := (idxR1 t).2.2.2.2.2.2.2.2.1
  have e1 : win1_3.index t (1 : Fin 2) = 0 := (idxR1 t).2.2.2.2.2.2.2.2.2.1
  funext j
  show V c (Pipeline.arrRef spec1 3) (((cfg1.win 3).blk t).view.emb j) = V c (Pipeline.arrRef spec1 3) j
  congr 1
  funext a; apply Fin.ext
  match a with
  | ⟨0, _⟩ => show win1_3.index t (0 : Fin 2) * 1024 + 1 * (j 0).val = (j 0).val; rw [e0]; omega
  | ⟨1, _⟩ => show win1_3.index t (1 : Fin 2) * 1024 + 1 * (j 1).val = (j 1).val; rw [e1]; omega

theorem iblk4R1_eq (c : Dev nD) (t : Fin cfg1.N) : (iblkR1 V c 4 t : Vec F S1024x1024 .bf16) = a4R1 V c := by
  have e0 : win1_4.index t (0 : Fin 2) = 0 := (idxR1 t).2.2.2.2.2.2.2.2.2.2.1
  have e1 : win1_4.index t (1 : Fin 2) = 0 := (idxR1 t).2.2.2.2.2.2.2.2.2.2.2.1
  funext j
  show V c (Pipeline.arrRef spec1 4) (((cfg1.win 4).blk t).view.emb j) = V c (Pipeline.arrRef spec1 4) j
  congr 1
  funext a; apply Fin.ext
  match a with
  | ⟨0, _⟩ => show win1_4.index t (0 : Fin 2) * 1024 + 1 * (j 0).val = (j 0).val; rw [e0]; omega
  | ⟨1, _⟩ => show win1_4.index t (1 : Fin 2) * 1024 + 1 * (j 1).val = (j 1).val; rw [e1]; omega

theorem iblk5R1_eq (c : Dev nD) (t : Fin cfg1.N) : (iblkR1 V c 5 t : Vec F S1024x1024 .bf16) = a5R1 V c := by
  have e0 : win1_5.index t (0 : Fin 2) = 0 := (idxR1 t).2.2.2.2.2.2.2.2.2.2.2.2.1
  have e1 : win1_5.index t (1 : Fin 2) = 0 := (idxR1 t).2.2.2.2.2.2.2.2.2.2.2.2.2.1
  funext j
  show V c (Pipeline.arrRef spec1 5) (((cfg1.win 5).blk t).view.emb j) = V c (Pipeline.arrRef spec1 5) j
  congr 1
  funext a; apply Fin.ext
  match a with
  | ⟨0, _⟩ => show win1_5.index t (0 : Fin 2) * 1024 + 1 * (j 0).val = (j 0).val; rw [e0]; omega
  | ⟨1, _⟩ => show win1_5.index t (1 : Fin 2) * 1024 + 1 * (j 1).val = (j 1).val; rw [e1]; omega

theorem iblk6R1_eq (c : Dev nD) (t : Fin cfg1.N) : (iblkR1 V c 6 t : Vec F S1x1024 .f32) = a6R1 V c := by
  have e0 : win1_6.index t (0 : Fin 2) = 0 := (idxR1 t).2.2.2.2.2.2.2.2.2.2.2.2.2.2.1
  have e1 : win1_6.index t (1 : Fin 2) = 0 := (idxR1 t).2.2.2.2.2.2.2.2.2.2.2.2.2.2.2.1
  funext j
  show V c (Pipeline.arrRef spec1 6) (((cfg1.win 6).blk t).view.emb j) = V c (Pipeline.arrRef spec1 6) j
  congr 1
  funext a; apply Fin.ext
  match a with
  | ⟨0, _⟩ => show win1_6.index t (0 : Fin 2) * 1 + 1 * (j 0).val = (j 0).val; rw [e0]; omega
  | ⟨1, _⟩ => show win1_6.index t (1 : Fin 2) * 1024 + 1 * (j 1).val = (j 1).val; rw [e1]; omega

theorem scratchR1_A (c : Dev nD) (t : Fin cfg1.N) (h0 : t.val % 4 = 0) :
    (outsAtR1 V c t.val t.isLt).2.1 = k0_pay3 (tblkR1 V c ⟨t.val / 4, b_ltR1 t⟩) (a3R1 V c)
    ∧ (outsAtR1 V c t.val t.isLt).2.2 = k0_pay4 (tblkR1 V c ⟨t.val / 4, b_ltR1 t⟩) (a4R1 V c) := by
  rw [outsAtR1_A V c t h0]
  dsimp only [Ins.first, Ins.keys, Ins.vals, insR1]
  rw [iblk1R1_eq V c t, iblk3R1_eq V c t, iblk4R1_eq V c t]
  exact ⟨rfl, rfl⟩

theorem scratchR1 (c : Dev nD) : ∀ (n : ℕ) (hn : n < cfg1.N),
    (outsAtR1 V c n hn).2.1 = k0_pay3 (tblkR1 V c ⟨n / 4, b_ltR1 ⟨n, hn⟩⟩) (a3R1 V c)
    ∧ (outsAtR1 V c n hn).2.2 = k0_pay4 (tblkR1 V c ⟨n / 4, b_ltR1 ⟨n, hn⟩⟩) (a4R1 V c)
  | 0, hn => scratchR1_A V c ⟨0, hn⟩ rfl
  | n + 1, hn => by
    by_cases h0 : (n + 1) % 4 = 0
    · exact scratchR1_A V c ⟨n + 1, hn⟩ h0
    · have ih := scratchR1 c n (Nat.lt_of_succ_lt hn)
      have hb : (⟨(n + 1) / 4, b_ltR1 ⟨n + 1, hn⟩⟩ : Fin 8) = ⟨n / 4, b_ltR1 ⟨n, Nat.lt_of_succ_lt hn⟩⟩ := Fin.ext (by show (n + 1) / 4 = n / 4; omega)
      rw [outsAtR1_B V c ⟨n + 1, hn⟩ h0, hb]
      exact ih

theorem outR1_eq (c : Dev nD) (t : Fin cfg1.N) :
    (outsAtR1 V c t.val t.isLt).1
      = k0_pay1 (k0_pay5 (iblkR1 V c 0 t) (a2R1 V c) (k0_pay3 (tblkR1 V c ⟨t.val / 4, b_ltR1 t⟩) (a3R1 V c)) (k0_pay4 (tblkR1 V c ⟨t.val / 4, b_ltR1 t⟩) (a4R1 V c)) (a5R1 V c)) (k0_pay6 (a6R1 V c)) := by
  by_cases h0 : t.val % 4 = 0
  · rw [outsAtR1_A V c t h0]
    dsimp only [Ins.first, Ins.keys, Ins.vals, Ins.out, insR1]
    rw [iblk1R1_eq V c t, iblk2R1_eq V c t, iblk3R1_eq V c t, iblk4R1_eq V c t, iblk5R1_eq V c t, iblk6R1_eq V c t]
  · have hN : cfg1.N = 32 := N_1
    have hlt : t.val - 1 < cfg1.N := Nat.lt_of_le_of_lt (Nat.sub_le _ _) t.isLt
    have hb : (⟨(t.val - 1) / 4, b_ltR1 ⟨t.val - 1, hlt⟩⟩ : Fin 8) = ⟨t.val / 4, b_ltR1 t⟩ := Fin.ext (by show (t.val - 1) / 4 = t.val / 4; omega)
    obtain ⟨s0, s1⟩ := scratchR1 V c (t.val - 1) hlt
    rw [hb] at s0 s1
    rw [outsAtR1_B V c t h0]
    dsimp only [Ins.later, Ins.out, insR1]
    rw [s0, s1, iblk2R1_eq V c t, iblk5R1_eq V c t, iblk6R1_eq V c t]

end

theorem pay3_applyR1 (tg : Vec Ideal S1x1024x1024 .bf16) (wk : Vec Ideal S1024x1024 .bf16) (j f : Fin 1024) :
    k0_pay3 (F := Ideal) tg wk (ix2 j f) = Cert.Spec.proj (fun e => tg (ix3 0 j e)) (fun e f' => wk (ix2 e f')) f :=
  PayMath.pay3_apply tg wk j f

theorem pay4_applyR1 (tg : Vec Ideal S1x1024x1024 .bf16) (wv : Vec Ideal S1024x1024 .bf16) (j f : Fin 1024) :
    k0_pay4 (F := Ideal) tg wv (ix2 j f) = Cert.Spec.proj (fun e => tg (ix3 0 j e)) (fun e f' => wv (ix2 e f')) f :=
  PayMath.pay4_apply tg wv j f

theorem out_applyR1 (x : Vec Ideal S1x256x1024 .bf16) (wq ks vs wo : Vec Ideal S1024x1024 .bf16) (bi : Vec Ideal S1x1024 .f32) (r : Fin 256) (g : Fin 1024) :
    k0_pay1 (F := Ideal) (k0_pay5 x wq ks vs wo) (k0_pay6 bi) (ix3 0 r g)
      = Cert.Spec.attnRowKV (fun e => x (ix3 0 r e)) (fun j f => ks (ix2 j f)) (fun j f => vs (ix2 j f)) (fun e f => wq (ix2 e f)) (fun f g' => wo (ix2 f g')) (fun g' => bi (ix2 0 g')) g :=
  PayMath.out_apply x wq ks vs wo bi r g

end Cert.KernelIdeal.Val1

end
-- ==== Proof.Val1.lean ====
import proofs.«427532_j66606352826848_3_alg».proof.Proof.Val1a
import Idealize.ShloMosaic.Lib.Pipeline.Value
import Idealize.ShloMosaic.Lib.ValueIdx

set_option maxRecDepth 16384

noncomputable section

namespace Cert.KernelIdeal.Val1

open Cert.KernelIdeal Cert.KernelIdeal.Gen Idealize.ShloMosaic Idealize.ShloMosaic.TcCoe Idealize.ShloMosaic.ValueIdx Idealize.SL.Sem
open Idealize.ShloMosaic.Pipeline (Dat)

theorem mem_blkR1_7 (t : Fin cfg1.N) (i : S8x1024x1024.Idx) :
    i ∈ ((cfg1.win 7).blk t).view.set ↔ ∀ a : Fin 3, win1_7.index t a * S1x256x1024.size a ≤ (i a).val ∧ (i a).val < win1_7.index t a * S1x256x1024.size a + S1x256x1024.size a := by
  show i ∈ ((View.whole (Pipeline.arrRef spec1 7)).slice (win1_7.rect t)).set ↔ _
  rw [View.set_slice_whole, Rect.mem_set_unit]
  exact Iff.rfl

theorem coverR1_7 (i : S8x1024x1024.Idx) : ∃ t : Fin cfg1.N, (cfg1.win 7).flush t = true ∧ i ∈ ((cfg1.win 7).blk t).view.set := by
  have hN : cfg1.N = 32 := N_1
  have h0 : (i 0).val < 8 := (i 0).isLt
  have h1 : (i 1).val < 1024 := (i 1).isLt
  have h2 : (i 2).val < 1024 := (i 2).isLt
  refine ⟨⟨4 * (i 0).val + (i 1).val / 256, by omega⟩, flush1_7 _, ?_⟩
  rw [mem_blkR1_7]
  obtain ⟨-, -, -, -, -, -, -, -, -, -, -, -, -, -, -, -, e0, e1, e2⟩ := idxR1 ⟨4 * (i 0).val + (i 1).val / 256, by omega⟩
  intro a
  match a with
  | ⟨0, _⟩ => show win1_7.index _ (0 : Fin 3) * 1 ≤ (i 0).val ∧ (i 0).val < win1_7.index _ (0 : Fin 3) * 1 + 1; rw [e0]; dsimp only; omega
  | ⟨1, _⟩ => show win1_7.index _ (1 : Fin 3) * 256 ≤ (i 1).val ∧ (i 1).val < win1_7.index _ (1 : Fin 3) * 256 + 256; rw [e1]; dsimp only; omega
  | ⟨2, _⟩ => show win1_7.index _ (2 : Fin 3) * 1024 ≤ (i 2).val ∧ (i 2).val < win1_7.index _ (2 : Fin 3) * 1024 + 1024; rw [e2]; omega

section
variable (V : (c : Dev nD) → (b : Ref sig .tc) → Buf (Elt Ideal) ((c : Thread nD τ).loc b))

abbrev GR1 (c : Dev nD) : Vec Ideal S8x1024x1024 .bf16 := fun i =>
  Cert.Spec.attnRow (fun e => a0R1 V c (ix3 (i 0) (i 1) e)) (fun j e => a1R1 V c (ix3 (i 0) j e))
    (fun e f => a2R1 V c (ix2 e f)) (fun e f => a3R1 V c (ix2 e f)) (fun e f => a4R1 V c (ix2 e f))
    (fun f g => a5R1 V c (ix2 f g)) (fun g => a6R1 V c (ix2 0 g)) (i 2)

theorem flushedR1_eq (c : Dev nD) (t : Fin cfg1.N) :
    (datR1 V c).flushed 7 t = ((cfg1.win 7).blk t).view.read (Elt Ideal) (GR1 V c) := by
  show (cfg1.win 7).cut (grid1.coords t) ((datR1 V c).after 7 t) = _
  rw [afterR1_7, outR1_eq]
  obtain ⟨e00, e01, e02, -, -, -, -, -, -, -, -, -, -, -, -, -, e70, e71, e72⟩ := idxR1 t
  refine funext fun (j : S1x256x1024.Idx) => ?_
  show k0_pay1 (k0_pay5 (iblkR1 V c 0 t) (a2R1 V c) (k0_pay3 (tblkR1 V c ⟨t.val / 4, b_ltR1 t⟩) (a3R1 V c)) (k0_pay4 (tblkR1 V c ⟨t.val / 4, b_ltR1 t⟩) (a4R1 V c)) (a5R1 V c)) (k0_pay6 (a6R1 V c)) j
      = GR1 V c (((cfg1.win 7).blk t).view.emb j)
  have hN : cfg1.N = 32 := N_1
  have ht : t.val < 32 := hN ▸ t.isLt
  obtain ⟨r, g, rfl⟩ : ∃ (r : Fin 256) (g : Fin 1024), j = ix3 (0 : Fin 1) r g :=
    ⟨j 1, j 2, by
      funext a
      match a with
      | ⟨0, _⟩ => exact Fin.ext (by have h : (j 0).val < 1 := (j 0).isLt; show (j 0).val = 0; omega)
      | ⟨1, _⟩ => rfl
      | ⟨2, _⟩ => rfl⟩
  have hr : r.val < 256 := r.isLt
  have hi : ((cfg1.win 7).blk t).view.emb (ix3 (0 : Fin 1) r g)
      = ix3 (⟨t.val / 4, b_ltR1 t⟩ : Fin 8) (⟨t.val % 4 * 256 + r.val, by omega⟩ : Fin 1024) g := by
    funext a; apply Fin.ext
    match a with
    | ⟨0, _⟩ => show win1_7.index t (0 : Fin 3) * 1 + 1 * 0 = t.val / 4; rw [e70]; omega
    | ⟨1, _⟩ => show win1_7.index t (1 : Fin 3) * 256 + 1 * r.val = t.val % 4 * 256 + r.val; rw [e71]; omega
    | ⟨2, _⟩ => show win1_7.index t (2 : Fin 3) * 1024 + 1 * g.val = g.val; rw [e72]; omega
  have hx : (fun e : Fin 1024 => (iblkR1 V c 0 t : Vec Ideal S1x256x1024 .bf16) (ix3 (0 : Fin 1) r e))
      = fun e => a0R1 V c (ix3 (⟨t.val / 4, b_ltR1 t⟩ : Fin 8) (⟨t.val % 4 * 256 + r.val, by omega⟩ : Fin 1024) e) := by
    funext e
    show V c (Pipeline.arrRef spec1 0) (((cfg1.win 0).blk t).view.emb (ix3 (0 : Fin 1) r e)) = V c (Pipeline.arrRef spec1 0) (ix3 _ _ e)
    congr 1
    funext a; apply Fin.ext
    match a with
    | ⟨0, _⟩ => show win1_0.index t (0 : Fin 3) * 1 + 1 * 0 = t.val / 4; rw [e00]; omega
    | ⟨1, _⟩ => show win1_0.index t (1 : Fin 3) * 256 + 1 * r.val = t.val % 4 * 256 + r.val; rw [e01]; omega
    | ⟨2, _⟩ => show win1_0.index t (2 : Fin 3) * 1024 + 1 * e.val = e.val; rw [e02]; omega
  rw [hi, out_applyR1]
  simp only [pay3_applyR1, pay4_applyR1]
  rw [hx]
  rfl

theorem finalR1 (c : Dev nD) : (datR1 (F := Ideal) V c).arrAt 7 cfg1.N = GR1 V c :=
  (datR1 V c).arrAt_eq_of_cover 7 (GR1 V c) (fun t _ => flushedR1_eq V c t) coverR1_7

end

end Cert.KernelIdeal.Val1

end
-- ==== Proof.Val2a.lean ====
import proofs.«427532_j66606352826848_3_alg».proof.Proof.Dat2
import proofs.«427532_j66606352826848_3_alg».proof.Proof.PayMath
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Val2

open Cert.KernelIdeal Cert.KernelIdeal.Gen Idealize.ShloMosaic Idealize.ShloMosaic.TcCoe Idealize.ShloMosaic.ValueIdx Idealize.SL.Sem
open Idealize.ShloMosaic.Pipeline (Dat)

variable {F : FTy → Type} [FloatOps F]

open Idealize.ShloMosaic.Tactic

theorem idxR2 : ∀ t : Fin cfg2.N,
    win2_0.index t (0 : Fin 3) = t.val / 4 ∧ win2_0.index t (1 : Fin 3) = t.val % 4 ∧ win2_0.index t (2 : Fin 3) = 0
    ∧ win2_1.index t (0 : Fin 3) = t.val / 4 ∧ win2_1.index t (1 : Fin 3) = 0 ∧ win2_1.index t (2 : Fin 3) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 3) = t.val / 4 ∧ win2_7.index t (1 : Fin 3) = t.val % 4 ∧ win2_7.index t (2 : Fin 3) = 0 :=
  (by decide +kernel : ∀ t : Fin grid2.N, _)

theorem b_ltR2 (t : Fin cfg2.N) : t.val / 4 < 8 := by have := t.isLt; have hN : cfg2.N = 32 := N_2; omega

section
variable (V : (c : Dev nD) → (b : Ref sig .tc) → Buf (Elt F) ((c : Thread nD τ).loc b))

abbrev a0R2 (c : Dev nD) : Vec F S8x1024x1024 .bf16 := V c (Pipeline.arrRef spec2 0)

abbrev a1R2 (c : Dev nD) : Vec F S8x1024x1024 .bf16 := V c (Pipeline.arrRef spec2 1)

abbrev a2R2 (c : Dev nD) : Vec F S1024x1024 .bf16 := V c (Pipeline.arrRef spec2 2)
abbrev a3R2 (c : Dev nD) : Vec F S1024x1024 .bf16 := V c (Pipeline.arrRef spec2 3)
abbrev a4R2 (c : Dev nD) : Vec F S1024x1024 .bf16 := V c (Pipeline.arrRef spec2 4)
abbrev a5R2 (c : Dev nD) : Vec F S1024x1024 .bf16 := V c (Pipeline.arrRef spec2 5)

abbrev a6R2 (c : Dev nD) : Vec F S1x1024 .f32 := V c (Pipeline.arrRef spec2 6)

def tblkR2 (c : Dev nD) (b : Fin 8) : Vec F S1x1024x1024 .bf16 := fun j => a1R2 V c (ix3 b (j 1) (j 2))

theorem iblk1R2_eq (c : Dev nD) (t : Fin cfg2.N) : (iblkR2 V c 1 t : Vec F S1x1024x1024 .bf16) = tblkR2 V c ⟨t.val / 4, b_ltR2 t⟩ := by
  obtain ⟨-, -, -, e0, e1, e2, -⟩ := idxR2 t
  funext j
  show V c (Pipeline.arrRef spec2 1) (((cfg2.win 1).blk t).view.emb j) = V c (Pipeline.arrRef spec2 1) (ix3 ⟨t.val / 4, b_ltR2 t⟩ (j 1) (j 2))
  congr 1
  funext a; apply Fin.ext
  match a with
  | ⟨0, _⟩ => show win2_1.index t (0 : Fin 3) * 1 + 1 * (j 0).val = t.val / 4; rw [e0]; have hj : (j 0).val < 1 := (j 0).isLt; omega
  | ⟨1, _⟩ => show win2_1.index t (1 : Fin 3) * 1024 + 1 * (j 1).val = (j 1).val; rw [e1]; omega
  | ⟨2, _⟩ => show win2_1.index t (2 : Fin 3) * 1024 + 1 * (j 2).val = (j 2).val; rw [e2]; omega

theorem iblk2R2_eq (c : Dev nD) (t : Fin cfg2.N) : (iblkR2 V c 2 t : Vec F S1024x1024 .bf16) = a2R2 V c := by
  have e0 : win2_2.index t (0 : Fin 2) = 0 := (idxR2 t).2.2.2.2.2.2.1
  have e1 : win2_2.index t (1 : Fin 2) = 0 := (idxR2 t).2.2.2.2.2.2.2.1
  funext j
  show V c (Pipeline.arrRef spec2 2) (((cfg2.win 2).blk t).view.emb j) = V c (Pipeline.arrRef spec2 2) j
  congr 1
  funext a; apply Fin.ext
  match a with
  | ⟨0, _⟩ => show win2_2.index t (0 : Fin 2) * 1024 + 1 * (j 0).val = (j 0).val; rw [e0]; omega
  | ⟨1, _⟩ => show win2_2.index t (1 : Fin 2) * 1024 + 1 * (j 1).val = (j 1).val; rw [e1]; omega

theorem iblk3R2_eq (c : Dev nD) (t : Fin cfg2.N) : (iblkR2 V c 3 t : Vec F S1024x1024 .bf16) = a3R2 V c := by
  have e0 : win2_3.index t (0 : Fin 2) = 0 := (idxR2 t).2.2.2.2.2.2.2.2.1
  have e1 : win2_3.index t (1 : Fin 2) = 0 := (idxR2 t).2.2.2.2.2.2.2.2.2.1
  funext j
  show V c (Pipeline.arrRef spec2 3) (((cfg2.win 3).blk t).view.emb j) = V c (Pipeline.arrRef spec2 3) j
  congr 1
  funext a; apply Fin.ext
  match a with
  | ⟨0, _⟩ => show win2_3.index t (0 : Fin 2) * 1024 + 1 * (j 0).val = (j 0).val; rw [e0]; omega
  | ⟨1, _⟩ => show win2_3.index t (1 : Fin 2) * 1024 + 1 * (j 1).val = (j 1).val; rw [e1]; omega

theorem iblk4R2_eq (c : Dev nD) (t : Fin cfg2.N) : (iblkR2 V c 4 t : Vec F S1024x1024 .bf16) = a4R2 V c := by
  have e0 : win2_4.index t (0 : Fin 2) = 0 := (idxR2 t).2.2.2.2.2.2.2.2.2.2.1
  have e1 : win2_4.index t (1 : Fin 2) = 0 := (idxR2 t).2.2.2.2.2.2.2.2.2.2.2.1
  funext j
  show V c (Pipeline.arrRef spec2 4) (((cfg2.win 4).blk t).view.emb j) = V c (Pipeline.arrRef spec2 4) j
  congr 1
  funext a; apply Fin.ext
  match a with
  | ⟨0, _⟩ => show win2_4.index t (0 : Fin 2) * 1024 + 1 * (j 0).val = (j 0).val; rw [e0]; omega
  | ⟨1, _⟩ => show win2_4.index t (1 : Fin 2) * 1024 + 1 * (j 1).val = (j 1).val; rw [e1]; omega

theorem iblk5R2_eq (c : Dev nD) (t : Fin cfg2.N) : (iblkR2 V c 5 t : Vec F S1024x1024 .bf16) = a5R2 V c := by
  have e0 : win2_5.index t (0 : Fin 2) = 0 := (idxR2 t).2.2.2.2.2.2.2.2.2.2.2.2.1
  have e1 : win2_5.index t (1 : Fin 2) = 0 := (idxR2 t).2.2.2.2.2.2.2.2.2.2.2.2.2.1
  funext j
  show V c (Pipeline.arrRef spec2 5) (((cfg2.win 5).blk t).view.emb j) = V c (Pipeline.arrRef spec2 5) j
  congr 1
  funext a; apply Fin.ext
  match a with
  | ⟨0, _⟩ => show win2_5.index t (0 : Fin 2) * 1024 + 1 * (j 0).val = (j 0).val; rw [e0]; omega
  | ⟨1, _⟩ => show win2_5.index t (1 : Fin 2) * 1024 + 1 * (j 1).val = (j 1).val; rw [e1]; omega

theorem iblk6R2_eq (c : Dev nD) (t : Fin cfg2.N) : (iblkR2 V c 6 t : Vec F S1x1024 .f32) = a6R2 V c := by
  have e0 : win2_6.index t (0 : Fin 2) = 0 := (idxR2 t).2.2.2.2.2.2.2.2.2.2.2.2.2.2.1
  have e1 : win2_6.index t (1 : Fin 2) = 0 := (idxR2 t).2.2.2.2.2.2.2.2.2.2.2.2.2.2.2.1
  funext j
  show V c (Pipeline.arrRef spec2 6) (((cfg2.win 6).blk t).view.emb j) = V c (Pipeline.arrRef spec2 6) j
  congr 1
  funext a; apply Fin.ext
  match a with
  | ⟨0, _⟩ => show win2_6.index t (0 : Fin 2) * 1 + 1 * (j 0).val = (j 0).val; rw [e0]; omega
  | ⟨1, _⟩ => show win2_6.index t (1 : Fin 2) * 1024 + 1 * (j 1).val = (j 1).val; rw [e1]; omega

theorem scratchR2_A (c : Dev nD) (t : Fin cfg2.N) (h0 : t.val % 4 = 0) :
    (outsAtR2 V c t.val t.isLt).2.1 = k0_pay3 (tblkR2 V c ⟨t.val / 4, b_ltR2 t⟩) (a3R2 V c)
    ∧ (outsAtR2 V c t.val t.isLt).2.2 = k0_pay4 (tblkR2 V c ⟨t.val / 4, b_ltR2 t⟩) (a4R2 V c) := by
  rw [outsAtR2_A V c t h0]
  dsimp only [Ins.first, Ins.keys, Ins.vals, insR2]
  rw [iblk1R2_eq V c t, iblk3R2_eq V c t, iblk4R2_eq V c t]
  exact ⟨rfl, rfl⟩

theorem scratchR2 (c : Dev nD) : ∀ (n : ℕ) (hn : n < cfg2.N),
    (outsAtR2 V c n hn).2.1 = k0_pay3 (tblkR2 V c ⟨n / 4, b_ltR2 ⟨n, hn⟩⟩) (a3R2 V c)
    ∧ (outsAtR2 V c n hn).2.2 = k0_pay4 (tblkR2 V c ⟨n / 4, b_ltR2 ⟨n, hn⟩⟩) (a4R2 V c)
  | 0, hn => scratchR2_A V c ⟨0, hn⟩ rfl
  | n + 1, hn => by
    by_cases h0 : (n + 1) % 4 = 0
    · exact scratchR2_A V c ⟨n + 1, hn⟩ h0
    · have ih := scratchR2 c n (Nat.lt_of_succ_lt hn)
      have hb : (⟨(n + 1) / 4, b_ltR2 ⟨n + 1, hn⟩⟩ : Fin 8) = ⟨n / 4, b_ltR2 ⟨n, Nat.lt_of_succ_lt hn⟩⟩ := Fin.ext (by show (n + 1) / 4 = n / 4; omega)
      rw [outsAtR2_B V c ⟨n + 1, hn⟩ h0, hb]
      exact ih

theorem outR2_eq (c : Dev nD) (t : Fin cfg2.N) :
    (outsAtR2 V c t.val t.isLt).1
      = k0_pay1 (k0_pay5 (iblkR2 V c 0 t) (a2R2 V c) (k0_pay3 (tblkR2 V c ⟨t.val / 4, b_ltR2 t⟩) (a3R2 V c)) (k0_pay4 (tblkR2 V c ⟨t.val / 4, b_ltR2 t⟩) (a4R2 V c)) (a5R2 V c)) (k0_pay6 (a6R2 V c)) := by
  by_cases h0 : t.val % 4 = 0
  · rw [outsAtR2_A V c t h0]
    dsimp only [Ins.first, Ins.keys, Ins.vals, Ins.out, insR2]
    rw [iblk1R2_eq V c t, iblk2R2_eq V c t, iblk3R2_eq V c t, iblk4R2_eq V c t, iblk5R2_eq V c t, iblk6R2_eq V c t]
  · have hN : cfg2.N = 32 := N_2
    have hlt : t.val - 1 < cfg2.N := Nat.lt_of_le_of_lt (Nat.sub_le _ _) t.isLt
    have hb : (⟨(t.val - 1) / 4, b_ltR2 ⟨t.val - 1, hlt⟩⟩ : Fin 8) = ⟨t.val / 4, b_ltR2 t⟩ := Fin.ext (by show (t.val - 1) / 4 = t.val / 4; omega)
    obtain ⟨s0, s1⟩ := scratchR2 V c (t.val - 1) hlt
    rw [hb] at s0 s1
    rw [outsAtR2_B V c t h0]
    dsimp only [Ins.later, Ins.out, insR2]
    rw [s0, s1, iblk2R2_eq V c t, iblk5R2_eq V c t, iblk6R2_eq V c t]

end

theorem pay3_applyR2 (tg : Vec Ideal S1x1024x1024 .bf16) (wk : Vec Ideal S1024x1024 .bf16) (j f : Fin 1024) :
    k0_pay3 (F := Ideal) tg wk (ix2 j f) = Cert.Spec.proj (fun e => tg (ix3 0 j e)) (fun e f' => wk (ix2 e f')) f :=
  PayMath.pay3_apply tg wk j f

theorem pay4_applyR2 (tg : Vec Ideal S1x1024x1024 .bf16) (wv : Vec Ideal S1024x1024 .bf16) (j f : Fin 1024) :
    k0_pay4 (F := Ideal) tg wv (ix2 j f) = Cert.Spec.proj (fun e => tg (ix3 0 j e)) (fun e f' => wv (ix2 e f')) f :=
  PayMath.pay4_apply tg wv j f

theorem out_applyR2 (x : Vec Ideal S1x256x1024 .bf16) (wq ks vs wo : Vec Ideal S1024x1024 .bf16) (bi : Vec Ideal S1x1024 .f32) (r : Fin 256) (g : Fin 1024) :
    k0_pay1 (F := Ideal) (k0_pay5 x wq ks vs wo) (k0_pay6 bi) (ix3 0 r g)
      = Cert.Spec.attnRowKV (fun e => x (ix3 0 r e)) (fun j f => ks (ix2 j f)) (fun j f => vs (ix2 j f)) (fun e f => wq (ix2 e f)) (fun f g' => wo (ix2 f g')) (fun g' => bi (ix2 0 g')) g :=
  PayMath.out_apply x wq ks vs wo bi r g

end Cert.KernelIdeal.Val2

end
-- ==== Proof.Val2.lean ====
import proofs.«427532_j66606352826848_3_alg».proof.Proof.Val2a
import Idealize.ShloMosaic.Lib.Pipeline.Value
import Idealize.ShloMosaic.Lib.ValueIdx

set_option maxRecDepth 16384

noncomputable section

namespace Cert.KernelIdeal.Val2

open Cert.KernelIdeal Cert.KernelIdeal.Gen Idealize.ShloMosaic Idealize.ShloMosaic.TcCoe Idealize.ShloMosaic.ValueIdx Idealize.SL.Sem
open Idealize.ShloMosaic.Pipeline (Dat)

theorem mem_blkR2_7 (t : Fin cfg2.N) (i : S8x1024x1024.Idx) :
    i ∈ ((cfg2.win 7).blk t).view.set ↔ ∀ a : Fin 3, win2_7.index t a * S1x256x1024.size a ≤ (i a).val ∧ (i a).val < win2_7.index t a * S1x256x1024.size a + S1x256x1024.size a := by
  show i ∈ ((View.whole (Pipeline.arrRef spec2 7)).slice (win2_7.rect t)).set ↔ _
  rw [View.set_slice_whole, Rect.mem_set_unit]
  exact Iff.rfl

theorem coverR2_7 (i : S8x1024x1024.Idx) : ∃ t : Fin cfg2.N, (cfg2.win 7).flush t = true ∧ i ∈ ((cfg2.win 7).blk t).view.set := by
  have hN : cfg2.N = 32 := N_2
  have h0 : (i 0).val < 8 := (i 0).isLt
  have h1 : (i 1).val < 1024 := (i 1).isLt
  have h2 : (i 2).val < 1024 := (i 2).isLt
  refine ⟨⟨4 * (i 0).val + (i 1).val / 256, by omega⟩, flush2_7 _, ?_⟩
  rw [mem_blkR2_7]
  obtain ⟨-, -, -, -, -, -, -, -, -, -, -, -, -, -, -, -, e0, e1, e2⟩ := idxR2 ⟨4 * (i 0).val + (i 1).val / 256, by omega⟩
  intro a
  match a with
  | ⟨0, _⟩ => show win2_7.index _ (0 : Fin 3) * 1 ≤ (i 0).val ∧ (i 0).val < win2_7.index _ (0 : Fin 3) * 1 + 1; rw [e0]; dsimp only; omega
  | ⟨1, _⟩ => show win2_7.index _ (1 : Fin 3) * 256 ≤ (i 1).val ∧ (i 1).val < win2_7.index _ (1 : Fin 3) * 256 + 256; rw [e1]; dsimp only; omega
  | ⟨2, _⟩ => show win2_7.index _ (2 : Fin 3) * 1024 ≤ (i 2).val ∧ (i 2).val < win2_7.index _ (2 : Fin 3) * 1024 + 1024; rw [e2]; omega

section
variable (V : (c : Dev nD) → (b : Ref sig .tc) → Buf (Elt Ideal) ((c : Thread nD τ).loc b))

abbrev GR2 (c : Dev nD) : Vec Ideal S8x1024x1024 .bf16 := fun i =>
  Cert.Spec.attnRow (fun e => a0R2 V c (ix3 (i 0) (i 1) e)) (fun j e => a1R2 V c (ix3 (i 0) j e))
    (fun e f => a2R2 V c (ix2 e f)) (fun e f => a3R2 V c (ix2 e f)) (fun e f => a4R2 V c (ix2 e f))
    (fun f g => a5R2 V c (ix2 f g)) (fun g => a6R2 V c (ix2 0 g)) (i 2)

theorem flushedR2_eq (c : Dev nD) (t : Fin cfg2.N) :
    (datR2 V c).flushed 7 t = ((cfg2.win 7).blk t).view.read (Elt Ideal) (GR2 V c) := by
  show (cfg2.win 7).cut (grid2.coords t) ((datR2 V c).after 7 t) = _
  rw [afterR2_7, outR2_eq]
  obtain ⟨e00, e01, e02, -, -, -, -, -, -, -, -, -, -, -, -, -, e70, e71, e72⟩ := idxR2 t
  refine funext fun (j : S1x256x1024.Idx) => ?_
  show k0_pay1 (k0_pay5 (iblkR2 V c 0 t) (a2R2 V c) (k0_pay3 (tblkR2 V c ⟨t.val / 4, b_ltR2 t⟩) (a3R2 V c)) (k0_pay4 (tblkR2 V c ⟨t.val / 4, b_ltR2 t⟩) (a4R2 V c)) (a5R2 V c)) (k0_pay6 (a6R2 V c)) j
      = GR2 V c (((cfg2.win 7).blk t).view.emb j)
  have hN : cfg2.N = 32 := N_2
  have ht : t.val < 32 := hN ▸ t.isLt
  obtain ⟨r, g, rfl⟩ : ∃ (r : Fin 256) (g : Fin 1024), j = ix3 (0 : Fin 1) r g :=
    ⟨j 1, j 2, by
      funext a
      match a with
      | ⟨0, _⟩ => exact Fin.ext (by have h : (j 0).val < 1 := (j 0).isLt; show (j 0).val = 0; omega)
      | ⟨1, _⟩ => rfl
      | ⟨2, _⟩ => rfl⟩
  have hr : r.val < 256 := r.isLt
  have hi : ((cfg2.win 7).blk t).view.emb (ix3 (0 : Fin 1) r g)
      = ix3 (⟨t.val / 4, b_ltR2 t⟩ : Fin 8) (⟨t.val % 4 * 256 + r.val, by omega⟩ : Fin 1024) g := by
    funext a; apply Fin.ext
    match a with
    | ⟨0, _⟩ => show win2_7.index t (0 : Fin 3) * 1 + 1 * 0 = t.val / 4; rw [e70]; omega
    | ⟨1, _⟩ => show win2_7.index t (1 : Fin 3) * 256 + 1 * r.val = t.val % 4 * 256 + r.val; rw [e71]; omega
    | ⟨2, _⟩ => show win2_7.index t (2 : Fin 3) * 1024 + 1 * g.val = g.val; rw [e72]; omega
  have hx : (fun e : Fin 1024 => (iblkR2 V c 0 t : Vec Ideal S1x256x1024 .bf16) (ix3 (0 : Fin 1) r e))
      = fun e => a0R2 V c (ix3 (⟨t.val / 4, b_ltR2 t⟩ : Fin 8) (⟨t.val % 4 * 256 + r.val, by omega⟩ : Fin 1024) e) := by
    funext e
    show V c (Pipeline.arrRef spec2 0) (((cfg2.win 0).blk t).view.emb (ix3 (0 : Fin 1) r e)) = V c (Pipeline.arrRef spec2 0) (ix3 _ _ e)
    congr 1
    funext a; apply Fin.ext
    match a with
    | ⟨0, _⟩ => show win2_0.index t (0 : Fin 3) * 1 + 1 * 0 = t.val / 4; rw [e00]; omega
    | ⟨1, _⟩ => show win2_0.index t (1 : Fin 3) * 256 + 1 * r.val = t.val % 4 * 256 + r.val; rw [e01]; omega
    | ⟨2, _⟩ => show win2_0.index t (2 : Fin 3) * 1024 + 1 * e.val = e.val; rw [e02]; omega
  rw [hi, out_applyR2]
  simp only [pay3_applyR2, pay4_applyR2]
  rw [hx]
  rfl

theorem finalR2 (c : Dev nD) : (datR2 (F := Ideal) V c).arrAt 7 cfg2.N = GR2 V c :=
  (datR2 V c).arrAt_eq_of_cover 7 (GR2 V c) (fun t _ => flushedR2_eq V c t) coverR2_7

end

end Cert.KernelIdeal.Val2

end
-- ==== Proof.Val3a.lean ====
import proofs.«427532_j66606352826848_3_alg».proof.Proof.Dat3
import proofs.«427532_j66606352826848_3_alg».proof.Proof.PayMath
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Val3

open Cert.KernelIdeal Cert.KernelIdeal.Gen Idealize.ShloMosaic Idealize.ShloMosaic.TcCoe Idealize.ShloMosaic.ValueIdx Idealize.SL.Sem
open Idealize.ShloMosaic.Pipeline (Dat)

variable {F : FTy → Type} [FloatOps F]

open Idealize.ShloMosaic.Tactic

theorem idxR3 : ∀ t : Fin cfg3.N,
    win3_0.index t (0 : Fin 3) = t.val / 4 ∧ win3_0.index t (1 : Fin 3) = t.val % 4 ∧ win3_0.index t (2 : Fin 3) = 0
    ∧ win3_1.index t (0 : Fin 3) = t.val / 4 ∧ win3_1.index t (1 : Fin 3) = 0 ∧ win3_1.index t (2 : Fin 3) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 3) = t.val / 4 ∧ win3_7.index t (1 : Fin 3) = t.val % 4 ∧ win3_7.index t (2 : Fin 3) = 0 :=
  (by decide +kernel : ∀ t : Fin grid3.N, _)

theorem b_ltR3 (t : Fin cfg3.N) : t.val / 4 < 8 := by have := t.isLt; have hN : cfg3.N = 32 := N_3; omega

section
variable (V : (c : Dev nD) → (b : Ref sig .tc) → Buf (Elt F) ((c : Thread nD τ).loc b))

abbrev a0R3 (c : Dev nD) : Vec F S8x1024x1024 .bf16 := V c (Pipeline.arrRef spec3 0)

abbrev a1R3 (c : Dev nD) : Vec F S8x1024x1024 .bf16 := V c (Pipeline.arrRef spec3 1)

abbrev a2R3 (c : Dev nD) : Vec F S1024x1024 .bf16 := V c (Pipeline.arrRef spec3 2)
abbrev a3R3 (c : Dev nD) : Vec F S1024x1024 .bf16 := V c (Pipeline.arrRef spec3 3)
abbrev a4R3 (c : Dev nD) : Vec F S1024x1024 .bf16 := V c (Pipeline.arrRef spec3 4)
abbrev a5R3 (c : Dev nD) : Vec F S1024x1024 .bf16 := V c (Pipeline.arrRef spec3 5)

abbrev a6R3 (c : Dev nD) : Vec F S1x1024 .f32 := V c (Pipeline.arrRef spec3 6)

def tblkR3 (c : Dev nD) (b : Fin 8) : Vec F S1x1024x1024 .bf16 := fun j => a1R3 V c (ix3 b (j 1) (j 2))

theorem iblk1R3_eq (c : Dev nD) (t : Fin cfg3.N) : (iblkR3 V c 1 t : Vec F S1x1024x1024 .bf16) = tblkR3 V c ⟨t.val / 4, b_ltR3 t⟩ := by
  obtain ⟨-, -, -, e0, e1, e2, -⟩ := idxR3 t
  funext j
  show V c (Pipeline.arrRef spec3 1) (((cfg3.win 1).blk t).view.emb j) = V c (Pipeline.arrRef spec3 1) (ix3 ⟨t.val / 4, b_ltR3 t⟩ (j 1) (j 2))
  congr 1
  funext a; apply Fin.ext
  match a with
  | ⟨0, _⟩ => show win3_1.index t (0 : Fin 3) * 1 + 1 * (j 0).val = t.val / 4; rw [e0]; have hj : (j 0).val < 1 := (j 0).isLt; omega
  | ⟨1, _⟩ => show win3_1.index t (1 : Fin 3) * 1024 + 1 * (j 1).val = (j 1).val; rw [e1]; omega
  | ⟨2, _⟩ => show win3_1.index t (2 : Fin 3) * 1024 + 1 * (j 2).val = (j 2).val; rw [e2]; omega

theorem iblk2R3_eq (c : Dev nD) (t : Fin cfg3.N) : (iblkR3 V c 2 t : Vec F S1024x1024 .bf16) = a2R3 V c := by
  have e0 : win3_2.index t (0 : Fin 2) = 0 := (idxR3 t).2.2.2.2.2.2.1
  have e1 : win3_2.index t (1 : Fin 2) = 0 := (idxR3 t).2.2.2.2.2.2.2.1
  funext j
  show V c (Pipeline.arrRef spec3 2) (((cfg3.win 2).blk t).view.emb j) = V c (Pipeline.arrRef spec3 2) j
  congr 1
  funext a; apply Fin.ext
  match a with
  | ⟨0, _⟩ => show win3_2.index t (0 : Fin 2) * 1024 + 1 * (j 0).val = (j 0).val; rw [e0]; omega
  | ⟨1, _⟩ => show win3_2.index t (1 : Fin 2) * 1024 + 1 * (j 1).val = (j 1).val; rw [e1]; omega

theorem iblk3R3_eq (c : Dev nD) (t : Fin cfg3.N) : (iblkR3 V c 3 t : Vec F S1024x1024 .bf16) = a3R3 V c := by
  have e0 : win3_3.index t (0 : Fin 2) = 0 := (idxR3 t).2.2.2.2.2.2.2.2.1
  have e1 : win3_3.index t (1 : Fin 2) = 0 := (idxR3 t).2.2.2.2.2.2.2.2.2.1
  funext j
  show V c (Pipeline.arrRef spec3 3) (((cfg3.win 3).blk t).view.emb j) = V c (Pipeline.arrRef spec3 3) j
  congr 1
  funext a; apply Fin.ext
  match a with
  | ⟨0, _⟩ => show win3_3.index t (0 : Fin 2) * 1024 + 1 * (j 0).val = (j 0).val; rw [e0]; omega
  | ⟨1, _⟩ => show win3_3.index t (1 : Fin 2) * 1024 + 1 * (j 1).val = (j 1).val; rw [e1]; omega

theorem iblk4R3_eq (c : Dev nD) (t : Fin cfg3.N) : (iblkR3 V c 4 t : Vec F S1024x1024 .bf16) = a4R3 V c := by
  have e0 : win3_4.index t (0 : Fin 2) = 0 := (idxR3 t).2.2.2.2.2.2.2.2.2.2.1
  have e1 : win3_4.index t (1 : Fin 2) = 0 := (idxR3 t).2.2.2.2.2.2.2.2.2.2.2.1
  funext j
  show V c (Pipeline.arrRef spec3 4) (((cfg3.win 4).blk t).view.emb j) = V c (Pipeline.arrRef spec3 4) j
  congr 1
  funext a; apply Fin.ext
  match a with
  | ⟨0, _⟩ => show win3_4.index t (0 : Fin 2) * 1024 + 1 * (j 0).val = (j 0).val; rw [e0]; omega
  | ⟨1, _⟩ => show win3_4.index t (1 : Fin 2) * 1024 + 1 * (j 1).val = (j 1).val; rw [e1]; omega

theorem iblk5R3_eq (c : Dev nD) (t : Fin cfg3.N) : (iblkR3 V c 5 t : Vec F S1024x1024 .bf16) = a5R3 V c := by
  have e0 : win3_5.index t (0 : Fin 2) = 0 := (idxR3 t).2.2.2.2.2.2.2.2.2.2.2.2.1
  have e1 : win3_5.index t (1 : Fin 2) = 0 := (idxR3 t).2.2.2.2.2.2.2.2.2.2.2.2.2.1
  funext j
  show V c (Pipeline.arrRef spec3 5) (((cfg3.win 5).blk t).view.emb j) = V c (Pipeline.arrRef spec3 5) j
  congr 1
  funext a; apply Fin.ext
  match a with
  | ⟨0, _⟩ => show win3_5.index t (0 : Fin 2) * 1024 + 1 * (j 0).val = (j 0).val; rw [e0]; omega
  | ⟨1, _⟩ => show win3_5.index t (1 : Fin 2) * 1024 + 1 * (j 1).val = (j 1).val; rw [e1]; omega

theorem iblk6R3_eq (c : Dev nD) (t : Fin cfg3.N) : (iblkR3 V c 6 t : Vec F S1x1024 .f32) = a6R3 V c := by
  have e0 : win3_6.index t (0 : Fin 2) = 0 := (idxR3 t).2.2.2.2.2.2.2.2.2.2.2.2.2.2.1
  have e1 : win3_6.index t (1 : Fin 2) = 0 := (idxR3 t).2.2.2.2.2.2.2.2.2.2.2.2.2.2.2.1
  funext j
  show V c (Pipeline.arrRef spec3 6) (((cfg3.win 6).blk t).view.emb j) = V c (Pipeline.arrRef spec3 6) j
  congr 1
  funext a; apply Fin.ext
  match a with
  | ⟨0, _⟩ => show win3_6.index t (0 : Fin 2) * 1 + 1 * (j 0).val = (j 0).val; rw [e0]; omega
  | ⟨1, _⟩ => show win3_6.index t (1 : Fin 2) * 1024 + 1 * (j 1).val = (j 1).val; rw [e1]; omega

theorem scratchR3_A (c : Dev nD) (t : Fin cfg3.N) (h0 : t.val % 4 = 0) :
    (outsAtR3 V c t.val t.isLt).2.1 = k0_pay3 (tblkR3 V c ⟨t.val / 4, b_ltR3 t⟩) (a3R3 V c)
    ∧ (outsAtR3 V c t.val t.isLt).2.2 = k0_pay4 (tblkR3 V c ⟨t.val / 4, b_ltR3 t⟩) (a4R3 V c) := by
  rw [outsAtR3_A V c t h0]
  dsimp only [Ins.first, Ins.keys, Ins.vals, insR3]
  rw [iblk1R3_eq V c t, iblk3R3_eq V c t, iblk4R3_eq V c t]
  exact ⟨rfl, rfl⟩

theorem scratchR3 (c : Dev nD) : ∀ (n : ℕ) (hn : n < cfg3.N),
    (outsAtR3 V c n hn).2.1 = k0_pay3 (tblkR3 V c ⟨n / 4, b_ltR3 ⟨n, hn⟩⟩) (a3R3 V c)
    ∧ (outsAtR3 V c n hn).2.2 = k0_pay4 (tblkR3 V c ⟨n / 4, b_ltR3 ⟨n, hn⟩⟩) (a4R3 V c)
  | 0, hn => scratchR3_A V c ⟨0, hn⟩ rfl
  | n + 1, hn => by
    by_cases h0 : (n + 1) % 4 = 0
    · exact scratchR3_A V c ⟨n + 1, hn⟩ h0
    · have ih := scratchR3 c n (Nat.lt_of_succ_lt hn)
      have hb : (⟨(n + 1) / 4, b_ltR3 ⟨n + 1, hn⟩⟩ : Fin 8) = ⟨n / 4, b_ltR3 ⟨n, Nat.lt_of_succ_lt hn⟩⟩ := Fin.ext (by show (n + 1) / 4 = n / 4; omega)
      rw [outsAtR3_B V c ⟨n + 1, hn⟩ h0, hb]
      exact ih

theorem outR3_eq (c : Dev nD) (t : Fin cfg3.N) :
    (outsAtR3 V c t.val t.isLt).1
      = k0_pay1 (k0_pay5 (iblkR3 V c 0 t) (a2R3 V c) (k0_pay3 (tblkR3 V c ⟨t.val / 4, b_ltR3 t⟩) (a3R3 V c)) (k0_pay4 (tblkR3 V c ⟨t.val / 4, b_ltR3 t⟩) (a4R3 V c)) (a5R3 V c)) (k0_pay6 (a6R3 V c)) := by
  by_cases h0 : t.val % 4 = 0
  · rw [outsAtR3_A V c t h0]
    dsimp only [Ins.first, Ins.keys, Ins.vals, Ins.out, insR3]
    rw [iblk1R3_eq V c t, iblk2R3_eq V c t, iblk3R3_eq V c t, iblk4R3_eq V c t, iblk5R3_eq V c t, iblk6R3_eq V c t]
  · have hN : cfg3.N = 32 := N_3
    have hlt : t.val - 1 < cfg3.N := Nat.lt_of_le_of_lt (Nat.sub_le _ _) t.isLt
    have hb : (⟨(t.val - 1) / 4, b_ltR3 ⟨t.val - 1, hlt⟩⟩ : Fin 8) = ⟨t.val / 4, b_ltR3 t⟩ := Fin.ext (by show (t.val - 1) / 4 = t.val / 4; omega)
    obtain ⟨s0, s1⟩ := scratchR3 V c (t.val - 1) hlt
    rw [hb] at s0 s1
    rw [outsAtR3_B V c t h0]
    dsimp only [Ins.later, Ins.out, insR3]
    rw [s0, s1, iblk2R3_eq V c t, iblk5R3_eq V c t, iblk6R3_eq V c t]

end

theorem pay3_applyR3 (tg : Vec Ideal S1x1024x1024 .bf16) (wk : Vec Ideal S1024x1024 .bf16) (j f : Fin 1024) :
    k0_pay3 (F := Ideal) tg wk (ix2 j f) = Cert.Spec.proj (fun e => tg (ix3 0 j e)) (fun e f' => wk (ix2 e f')) f :=
  PayMath.pay3_apply tg wk j f

theorem pay4_applyR3 (tg : Vec Ideal S1x1024x1024 .bf16) (wv : Vec Ideal S1024x1024 .bf16) (j f : Fin 1024) :
    k0_pay4 (F := Ideal) tg wv (ix2 j f) = Cert.Spec.proj (fun e => tg (ix3 0 j e)) (fun e f' => wv (ix2 e f')) f :=
  PayMath.pay4_apply tg wv j f

theorem out_applyR3 (x : Vec Ideal S1x256x1024 .bf16) (wq ks vs wo : Vec Ideal S1024x1024 .bf16) (bi : Vec Ideal S1x1024 .f32) (r : Fin 256) (g : Fin 1024) :
    k0_pay1 (F := Ideal) (k0_pay5 x wq ks vs wo) (k0_pay6 bi) (ix3 0 r g)
      = Cert.Spec.attnRowKV (fun e => x (ix3 0 r e)) (fun j f => ks (ix2 j f)) (fun j f => vs (ix2 j f)) (fun e f => wq (ix2 e f)) (fun f g' => wo (ix2 f g')) (fun g' => bi (ix2 0 g')) g :=
  PayMath.out_apply x wq ks vs wo bi r g

end Cert.KernelIdeal.Val3

end
-- ==== Proof.Val3.lean ====
import proofs.«427532_j66606352826848_3_alg».proof.Proof.Val3a
import Idealize.ShloMosaic.Lib.Pipeline.Value
import Idealize.ShloMosaic.Lib.ValueIdx

set_option maxRecDepth 16384

noncomputable section

namespace Cert.KernelIdeal.Val3

open Cert.KernelIdeal Cert.KernelIdeal.Gen Idealize.ShloMosaic Idealize.ShloMosaic.TcCoe Idealize.ShloMosaic.ValueIdx Idealize.SL.Sem
open Idealize.ShloMosaic.Pipeline (Dat)

theorem mem_blkR3_7 (t : Fin cfg3.N) (i : S8x1024x1024.Idx) :
    i ∈ ((cfg3.win 7).blk t).view.set ↔ ∀ a : Fin 3, win3_7.index t a * S1x256x1024.size a ≤ (i a).val ∧ (i a).val < win3_7.index t a * S1x256x1024.size a + S1x256x1024.size a := by
  show i ∈ ((View.whole (Pipeline.arrRef spec3 7)).slice (win3_7.rect t)).set ↔ _
  rw [View.set_slice_whole, Rect.mem_set_unit]
  exact Iff.rfl

theorem coverR3_7 (i : S8x1024x1024.Idx) : ∃ t : Fin cfg3.N, (cfg3.win 7).flush t = true ∧ i ∈ ((cfg3.win 7).blk t).view.set := by
  have hN : cfg3.N = 32 := N_3
  have h0 : (i 0).val < 8 := (i 0).isLt
  have h1 : (i 1).val < 1024 := (i 1).isLt
  have h2 : (i 2).val < 1024 := (i 2).isLt
  refine ⟨⟨4 * (i 0).val + (i 1).val / 256, by omega⟩, flush3_7 _, ?_⟩
  rw [mem_blkR3_7]
  obtain ⟨-, -, -, -, -, -, -, -, -, -, -, -, -, -, -, -, e0, e1, e2⟩ := idxR3 ⟨4 * (i 0).val + (i 1).val / 256, by omega⟩
  intro a
  match a with
  | ⟨0, _⟩ => show win3_7.index _ (0 : Fin 3) * 1 ≤ (i 0).val ∧ (i 0).val < win3_7.index _ (0 : Fin 3) * 1 + 1; rw [e0]; dsimp only; omega
  | ⟨1, _⟩ => show win3_7.index _ (1 : Fin 3) * 256 ≤ (i 1).val ∧ (i 1).val < win3_7.index _ (1 : Fin 3) * 256 + 256; rw [e1]; dsimp only; omega
  | ⟨2, _⟩ => show win3_7.index _ (2 : Fin 3) * 1024 ≤ (i 2).val ∧ (i 2).val < win3_7.index _ (2 : Fin 3) * 1024 + 1024; rw [e2]; omega

section
variable (V : (c : Dev nD) → (b : Ref sig .tc) → Buf (Elt Ideal) ((c : Thread nD τ).loc b))

abbrev GR3 (c : Dev nD) : Vec Ideal S8x1024x1024 .bf16 := fun i =>
  Cert.Spec.attnRow (fun e => a0R3 V c (ix3 (i 0) (i 1) e)) (fun j e => a1R3 V c (ix3 (i 0) j e))
    (fun e f => a2R3 V c (ix2 e f)) (fun e f => a3R3 V c (ix2 e f)) (fun e f => a4R3 V c (ix2 e f))
    (fun f g => a5R3 V c (ix2 f g)) (fun g => a6R3 V c (ix2 0 g)) (i 2)

theorem flushedR3_eq (c : Dev nD) (t : Fin cfg3.N) :
    (datR3 V c).flushed 7 t = ((cfg3.win 7).blk t).view.read (Elt Ideal) (GR3 V c) := by
  show (cfg3.win 7).cut (grid3.coords t) ((datR3 V c).after 7 t) = _
  rw [afterR3_7, outR3_eq]
  obtain ⟨e00, e01, e02, -, -, -, -, -, -, -, -, -, -, -, -, -, e70, e71, e72⟩ := idxR3 t
  refine funext fun (j : S1x256x1024.Idx) => ?_
  show k0_pay1 (k0_pay5 (iblkR3 V c 0 t) (a2R3 V c) (k0_pay3 (tblkR3 V c ⟨t.val / 4, b_ltR3 t⟩) (a3R3 V c)) (k0_pay4 (tblkR3 V c ⟨t.val / 4, b_ltR3 t⟩) (a4R3 V c)) (a5R3 V c)) (k0_pay6 (a6R3 V c)) j
      = GR3 V c (((cfg3.win 7).blk t).view.emb j)
  have hN : cfg3.N = 32 := N_3
  have ht : t.val < 32 := hN ▸ t.isLt
  obtain ⟨r, g, rfl⟩ : ∃ (r : Fin 256) (g : Fin 1024), j = ix3 (0 : Fin 1) r g :=
    ⟨j 1, j 2, by
      funext a
      match a with
      | ⟨0, _⟩ => exact Fin.ext (by have h : (j 0).val < 1 := (j 0).isLt; show (j 0).val = 0; omega)
      | ⟨1, _⟩ => rfl
      | ⟨2, _⟩ => rfl⟩
  have hr : r.val < 256 := r.isLt
  have hi : ((cfg3.win 7).blk t).view.emb (ix3 (0 : Fin 1) r g)
      = ix3 (⟨t.val / 4, b_ltR3 t⟩ : Fin 8) (⟨t.val % 4 * 256 + r.val, by omega⟩ : Fin 1024) g := by
    funext a; apply Fin.ext
    match a with
    | ⟨0, _⟩ => show win3_7.index t (0 : Fin 3) * 1 + 1 * 0 = t.val / 4; rw [e70]; omega
    | ⟨1, _⟩ => show win3_7.index t (1 : Fin 3) * 256 + 1 * r.val = t.val % 4 * 256 + r.val; rw [e71]; omega
    | ⟨2, _⟩ => show win3_7.index t (2 : Fin 3) * 1024 + 1 * g.val = g.val; rw [e72]; omega
  have hx : (fun e : Fin 1024 => (iblkR3 V c 0 t : Vec Ideal S1x256x1024 .bf16) (ix3 (0 : Fin 1) r e))
      = fun e => a0R3 V c (ix3 (⟨t.val / 4, b_ltR3 t⟩ : Fin 8) (⟨t.val % 4 * 256 + r.val, by omega⟩ : Fin 1024) e) := by
    funext e
    show V c (Pipeline.arrRef spec3 0) (((cfg3.win 0).blk t).view.emb (ix3 (0 : Fin 1) r e)) = V c (Pipeline.arrRef spec3 0) (ix3 _ _ e)
    congr 1
    funext a; apply Fin.ext
    match a with
    | ⟨0, _⟩ => show win3_0.index t (0 : Fin 3) * 1 + 1 * 0 = t.val / 4; rw [e00]; omega
    | ⟨1, _⟩ => show win3_0.index t (1 : Fin 3) * 256 + 1 * r.val = t.val % 4 * 256 + r.val; rw [e01]; omega
    | ⟨2, _⟩ => show win3_0.index t (2 : Fin 3) * 1024 + 1 * e.val = e.val; rw [e02]; omega
  rw [hi, out_applyR3]
  simp only [pay3_applyR3, pay4_applyR3]
  rw [hx]
  rfl

theorem finalR3 (c : Dev nD) : (datR3 (F := Ideal) V c).arrAt 7 cfg3.N = GR3 V c :=
  (datR3 V c).arrAt_eq_of_cover 7 (GR3 V c) (fun t _ => flushedR3_eq V c t) coverR3_7

end

end Cert.KernelIdeal.Val3

end
-- ==== Proof.Val4a.lean ====
import proofs.«427532_j66606352826848_3_alg».proof.Proof.Dat4
import proofs.«427532_j66606352826848_3_alg».proof.Proof.PayMath
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Val4

open Cert.KernelIdeal Cert.KernelIdeal.Gen Idealize.ShloMosaic Idealize.ShloMosaic.TcCoe Idealize.ShloMosaic.ValueIdx Idealize.SL.Sem
open Idealize.ShloMosaic.Pipeline (Dat)

variable {F : FTy → Type} [FloatOps F]

open Idealize.ShloMosaic.Tactic

theorem idxR4 : ∀ t : Fin cfg4.N,
    win4_0.index t (0 : Fin 3) = t.val / 4 ∧ win4_0.index t (1 : Fin 3) = t.val % 4 ∧ win4_0.index t (2 : Fin 3) = 0
    ∧ win4_1.index t (0 : Fin 3) = t.val / 4 ∧ win4_1.index t (1 : Fin 3) = 0 ∧ win4_1.index t (2 : Fin 3) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 3) = t.val / 4 ∧ win4_7.index t (1 : Fin 3) = t.val % 4 ∧ win4_7.index t (2 : Fin 3) = 0 :=
  (by decide +kernel : ∀ t : Fin grid4.N, _)

theorem b_ltR4 (t : Fin cfg4.N) : t.val / 4 < 8 := by have := t.isLt; have hN : cfg4.N = 32 := N_4; omega

section
variable (V : (c : Dev nD) → (b : Ref sig .tc) → Buf (Elt F) ((c : Thread nD τ).loc b))

abbrev a0R4 (c : Dev nD) : Vec F S8x1024x1024 .bf16 := V c (Pipeline.arrRef spec4 0)

abbrev a1R4 (c : Dev nD) : Vec F S8x1024x1024 .bf16 := V c (Pipeline.arrRef spec4 1)

abbrev a2R4 (c : Dev nD) : Vec F S1024x1024 .bf16 := V c (Pipeline.arrRef spec4 2)
abbrev a3R4 (c : Dev nD) : Vec F S1024x1024 .bf16 := V c (Pipeline.arrRef spec4 3)
abbrev a4R4 (c : Dev nD) : Vec F S1024x1024 .bf16 := V c (Pipeline.arrRef spec4 4)
abbrev a5R4 (c : Dev nD) : Vec F S1024x1024 .bf16 := V c (Pipeline.arrRef spec4 5)

abbrev a6R4 (c : Dev nD) : Vec F S1x1024 .f32 := V c (Pipeline.arrRef spec4 6)

def tblkR4 (c : Dev nD) (b : Fin 8) : Vec F S1x1024x1024 .bf16 := fun j => a1R4 V c (ix3 b (j 1) (j 2))

theorem iblk1R4_eq (c : Dev nD) (t : Fin cfg4.N) : (iblkR4 V c 1 t : Vec F S1x1024x1024 .bf16) = tblkR4 V c ⟨t.val / 4, b_ltR4 t⟩ := by
  obtain ⟨-, -, -, e0, e1, e2, -⟩ := idxR4 t
  funext j
  show V c (Pipeline.arrRef spec4 1) (((cfg4.win 1).blk t).view.emb j) = V c (Pipeline.arrRef spec4 1) (ix3 ⟨t.val / 4, b_ltR4 t⟩ (j 1) (j 2))
  congr 1
  funext a; apply Fin.ext
  match a with
  | ⟨0, _⟩ => show win4_1.index t (0 : Fin 3) * 1 + 1 * (j 0).val = t.val / 4; rw [e0]; have hj : (j 0).val < 1 := (j 0).isLt; omega
  | ⟨1, _⟩ => show win4_1.index t (1 : Fin 3) * 1024 + 1 * (j 1).val = (j 1).val; rw [e1]; omega
  | ⟨2, _⟩ => show win4_1.index t (2 : Fin 3) * 1024 + 1 * (j 2).val = (j 2).val; rw [e2]; omega

theorem iblk2R4_eq (c : Dev nD) (t : Fin cfg4.N) : (iblkR4 V c 2 t : Vec F S1024x1024 .bf16) = a2R4 V c := by
  have e0 : win4_2.index t (0 : Fin 2) = 0 := (idxR4 t).2.2.2.2.2.2.1
  have e1 : win4_2.index t (1 : Fin 2) = 0 := (idxR4 t).2.2.2.2.2.2.2.1
  funext j
  show V c (Pipeline.arrRef spec4 2) (((cfg4.win 2).blk t).view.emb j) = V c (Pipeline.arrRef spec4 2) j
  congr 1
  funext a; apply Fin.ext
  match a with
  | ⟨0, _⟩ => show win4_2.index t (0 : Fin 2) * 1024 + 1 * (j 0).val = (j 0).val; rw [e0]; omega
  | ⟨1, _⟩ => show win4_2.index t (1 : Fin 2) * 1024 + 1 * (j 1).val = (j 1).val; rw [e1]; omega

theorem iblk3R4_eq (c : Dev nD) (t : Fin cfg4.N) : (iblkR4 V c 3 t : Vec F S1024x1024 .bf16) = a3R4 V c := by
  have e0 : win4_3.index t (0 : Fin 2) = 0 := (idxR4 t).2.2.2.2.2.2.2.2.1
  have e1 : win4_3.index t (1 : Fin 2) = 0 := (idxR4 t).2.2.2.2.2.2.2.2.2.1
  funext j
  show V c (Pipeline.arrRef spec4 3) (((cfg4.win 3).blk t).view.emb j) = V c (Pipeline.arrRef spec4 3) j
  congr 1
  funext a; apply Fin.ext
  match a with
  | ⟨0, _⟩ => show win4_3.index t (0 : Fin 2) * 1024 + 1 * (j 0).val = (j 0).val; rw [e0]; omega
  | ⟨1, _⟩ => show win4_3.index t (1 : Fin 2) * 1024 + 1 * (j 1).val = (j 1).val; rw [e1]; omega

theorem iblk4R4_eq (c : Dev nD) (t : Fin cfg4.N) : (iblkR4 V c 4 t : Vec F S1024x1024 .bf16) = a4R4 V c := by
  have e0 : win4_4.index t (0 : Fin 2) = 0 := (idxR4 t).2.2.2.2.2.2.2.2.2.2.1
  have e1 : win4_4.index t (1 : Fin 2) = 0 := (idxR4 t).2.2.2.2.2.2.2.2.2.2.2.1
  funext j
  show V c (Pipeline.arrRef spec4 4) (((cfg4.win 4).blk t).view.emb j) = V c (Pipeline.arrRef spec4 4) j
  congr 1
  funext a; apply Fin.ext
  match a with
  | ⟨0, _⟩ => show win4_4.index t (0 : Fin 2) * 1024 + 1 * (j 0).val = (j 0).val; rw [e0]; omega
  | ⟨1, _⟩ => show win4_4.index t (1 : Fin 2) * 1024 + 1 * (j 1).val = (j 1).val; rw [e1]; omega

theorem iblk5R4_eq (c : Dev nD) (t : Fin cfg4.N) : (iblkR4 V c 5 t : Vec F S1024x1024 .bf16) = a5R4 V c := by
  have e0 : win4_5.index t (0 : Fin 2) = 0 := (idxR4 t).2.2.2.2.2.2.2.2.2.2.2.2.1
  have e1 : win4_5.index t (1 : Fin 2) = 0 := (idxR4 t).2.2.2.2.2.2.2.2.2.2.2.2.2.1
  funext j
  show V c (Pipeline.arrRef spec4 5) (((cfg4.win 5).blk t).view.emb j) = V c (Pipeline.arrRef spec4 5) j
  congr 1
  funext a; apply Fin.ext
  match a with
  | ⟨0, _⟩ => show win4_5.index t (0 : Fin 2) * 1024 + 1 * (j 0).val = (j 0).val; rw [e0]; omega
  | ⟨1, _⟩ => show win4_5.index t (1 : Fin 2) * 1024 + 1 * (j 1).val = (j 1).val; rw [e1]; omega

theorem iblk6R4_eq (c : Dev nD) (t : Fin cfg4.N) : (iblkR4 V c 6 t : Vec F S1x1024 .f32) = a6R4 V c := by
  have e0 : win4_6.index t (0 : Fin 2) = 0 := (idxR4 t).2.2.2.2.2.2.2.2.2.2.2.2.2.2.1
  have e1 : win4_6.index t (1 : Fin 2) = 0 := (idxR4 t).2.2.2.2.2.2.2.2.2.2.2.2.2.2.2.1
  funext j
  show V c (Pipeline.arrRef spec4 6) (((cfg4.win 6).blk t).view.emb j) = V c (Pipeline.arrRef spec4 6) j
  congr 1
  funext a; apply Fin.ext
  match a with
  | ⟨0, _⟩ => show win4_6.index t (0 : Fin 2) * 1 + 1 * (j 0).val = (j 0).val; rw [e0]; omega
  | ⟨1, _⟩ => show win4_6.index t (1 : Fin 2) * 1024 + 1 * (j 1).val = (j 1).val; rw [e1]; omega

theorem scratchR4_A (c : Dev nD) (t : Fin cfg4.N) (h0 : t.val % 4 = 0) :
    (outsAtR4 V c t.val t.isLt).2.1 = k0_pay3 (tblkR4 V c ⟨t.val / 4, b_ltR4 t⟩) (a3R4 V c)
    ∧ (outsAtR4 V c t.val t.isLt).2.2 = k0_pay4 (tblkR4 V c ⟨t.val / 4, b_ltR4 t⟩) (a4R4 V c) := by
  rw [outsAtR4_A V c t h0]
  dsimp only [Ins.first, Ins.keys, Ins.vals, insR4]
  rw [iblk1R4_eq V c t, iblk3R4_eq V c t, iblk4R4_eq V c t]
  exact ⟨rfl, rfl⟩

theorem scratchR4 (c : Dev nD) : ∀ (n : ℕ) (hn : n < cfg4.N),
    (outsAtR4 V c n hn).2.1 = k0_pay3 (tblkR4 V c ⟨n / 4, b_ltR4 ⟨n, hn⟩⟩) (a3R4 V c)
    ∧ (outsAtR4 V c n hn).2.2 = k0_pay4 (tblkR4 V c ⟨n / 4, b_ltR4 ⟨n, hn⟩⟩) (a4R4 V c)
  | 0, hn => scratchR4_A V c ⟨0, hn⟩ rfl
  | n + 1, hn => by
    by_cases h0 : (n + 1) % 4 = 0
    · exact scratchR4_A V c ⟨n + 1, hn⟩ h0
    · have ih := scratchR4 c n (Nat.lt_of_succ_lt hn)
      have hb : (⟨(n + 1) / 4, b_ltR4 ⟨n + 1, hn⟩⟩ : Fin 8) = ⟨n / 4, b_ltR4 ⟨n, Nat.lt_of_succ_lt hn⟩⟩ := Fin.ext (by show (n + 1) / 4 = n / 4; omega)
      rw [outsAtR4_B V c ⟨n + 1, hn⟩ h0, hb]
      exact ih

theorem outR4_eq (c : Dev nD) (t : Fin cfg4.N) :
    (outsAtR4 V c t.val t.isLt).1
      = k0_pay1 (k0_pay5 (iblkR4 V c 0 t) (a2R4 V c) (k0_pay3 (tblkR4 V c ⟨t.val / 4, b_ltR4 t⟩) (a3R4 V c)) (k0_pay4 (tblkR4 V c ⟨t.val / 4, b_ltR4 t⟩) (a4R4 V c)) (a5R4 V c)) (k0_pay6 (a6R4 V c)) := by
  by_cases h0 : t.val % 4 = 0
  · rw [outsAtR4_A V c t h0]
    dsimp only [Ins.first, Ins.keys, Ins.vals, Ins.out, insR4]
    rw [iblk1R4_eq V c t, iblk2R4_eq V c t, iblk3R4_eq V c t, iblk4R4_eq V c t, iblk5R4_eq V c t, iblk6R4_eq V c t]
  · have hN : cfg4.N = 32 := N_4
    have hlt : t.val - 1 < cfg4.N := Nat.lt_of_le_of_lt (Nat.sub_le _ _) t.isLt
    have hb : (⟨(t.val - 1) / 4, b_ltR4 ⟨t.val - 1, hlt⟩⟩ : Fin 8) = ⟨t.val / 4, b_ltR4 t⟩ := Fin.ext (by show (t.val - 1) / 4 = t.val / 4; omega)
    obtain ⟨s0, s1⟩ := scratchR4 V c (t.val - 1) hlt
    rw [hb] at s0 s1
    rw [outsAtR4_B V c t h0]
    dsimp only [Ins.later, Ins.out, insR4]
    rw [s0, s1, iblk2R4_eq V c t, iblk5R4_eq V c t, iblk6R4_eq V c t]

end

theorem pay3_applyR4 (tg : Vec Ideal S1x1024x1024 .bf16) (wk : Vec Ideal S1024x1024 .bf16) (j f : Fin 1024) :
    k0_pay3 (F := Ideal) tg wk (ix2 j f) = Cert.Spec.proj (fun e => tg (ix3 0 j e)) (fun e f' => wk (ix2 e f')) f :=
  PayMath.pay3_apply tg wk j f

theorem pay4_applyR4 (tg : Vec Ideal S1x1024x1024 .bf16) (wv : Vec Ideal S1024x1024 .bf16) (j f : Fin 1024) :
    k0_pay4 (F := Ideal) tg wv (ix2 j f) = Cert.Spec.proj (fun e => tg (ix3 0 j e)) (fun e f' => wv (ix2 e f')) f :=
  PayMath.pay4_apply tg wv j f

theorem out_applyR4 (x : Vec Ideal S1x256x1024 .bf16) (wq ks vs wo : Vec Ideal S1024x1024 .bf16) (bi : Vec Ideal S1x1024 .f32) (r : Fin 256) (g : Fin 1024) :
    k0_pay1 (F := Ideal) (k0_pay5 x wq ks vs wo) (k0_pay6 bi) (ix3 0 r g)
      = Cert.Spec.attnRowKV (fun e => x (ix3 0 r e)) (fun j f => ks (ix2 j f)) (fun j f => vs (ix2 j f)) (fun e f => wq (ix2 e f)) (fun f g' => wo (ix2 f g')) (fun g' => bi (ix2 0 g')) g :=
  PayMath.out_apply x wq ks vs wo bi r g

end Cert.KernelIdeal.Val4

end
-- ==== Proof.Val4.lean ====
import proofs.«427532_j66606352826848_3_alg».proof.Proof.Val4a
import Idealize.ShloMosaic.Lib.Pipeline.Value
import Idealize.ShloMosaic.Lib.ValueIdx

set_option maxRecDepth 16384

noncomputable section

namespace Cert.KernelIdeal.Val4

open Cert.KernelIdeal Cert.KernelIdeal.Gen Idealize.ShloMosaic Idealize.ShloMosaic.TcCoe Idealize.ShloMosaic.ValueIdx Idealize.SL.Sem
open Idealize.ShloMosaic.Pipeline (Dat)

theorem mem_blkR4_7 (t : Fin cfg4.N) (i : S8x1024x1024.Idx) :
    i ∈ ((cfg4.win 7).blk t).view.set ↔ ∀ a : Fin 3, win4_7.index t a * S1x256x1024.size a ≤ (i a).val ∧ (i a).val < win4_7.index t a * S1x256x1024.size a + S1x256x1024.size a := by
  show i ∈ ((View.whole (Pipeline.arrRef spec4 7)).slice (win4_7.rect t)).set ↔ _
  rw [View.set_slice_whole, Rect.mem_set_unit]
  exact Iff.rfl

theorem coverR4_7 (i : S8x1024x1024.Idx) : ∃ t : Fin cfg4.N, (cfg4.win 7).flush t = true ∧ i ∈ ((cfg4.win 7).blk t).view.set := by
  have hN : cfg4.N = 32 := N_4
  have h0 : (i 0).val < 8 := (i 0).isLt
  have h1 : (i 1).val < 1024 := (i 1).isLt
  have h2 : (i 2).val < 1024 := (i 2).isLt
  refine ⟨⟨4 * (i 0).val + (i 1).val / 256, by omega⟩, flush4_7 _, ?_⟩
  rw [mem_blkR4_7]
  obtain ⟨-, -, -, -, -, -, -, -, -, -, -, -, -, -, -, -, e0, e1, e2⟩ := idxR4 ⟨4 * (i 0).val + (i 1).val / 256, by omega⟩
  intro a
  match a with
  | ⟨0, _⟩ => show win4_7.index _ (0 : Fin 3) * 1 ≤ (i 0).val ∧ (i 0).val < win4_7.index _ (0 : Fin 3) * 1 + 1; rw [e0]; dsimp only; omega
  | ⟨1, _⟩ => show win4_7.index _ (1 : Fin 3) * 256 ≤ (i 1).val ∧ (i 1).val < win4_7.index _ (1 : Fin 3) * 256 + 256; rw [e1]; dsimp only; omega
  | ⟨2, _⟩ => show win4_7.index _ (2 : Fin 3) * 1024 ≤ (i 2).val ∧ (i 2).val < win4_7.index _ (2 : Fin 3) * 1024 + 1024; rw [e2]; omega

section
variable (V : (c : Dev nD) → (b : Ref sig .tc) → Buf (Elt Ideal) ((c : Thread nD τ).loc b))

abbrev GR4 (c : Dev nD) : Vec Ideal S8x1024x1024 .bf16 := fun i =>
  Cert.Spec.attnRow (fun e => a0R4 V c (ix3 (i 0) (i 1) e)) (fun j e => a1R4 V c (ix3 (i 0) j e))
    (fun e f => a2R4 V c (ix2 e f)) (fun e f => a3R4 V c (ix2 e f)) (fun e f => a4R4 V c (ix2 e f))
    (fun f g => a5R4 V c (ix2 f g)) (fun g => a6R4 V c (ix2 0 g)) (i 2)

theorem flushedR4_eq (c : Dev nD) (t : Fin cfg4.N) :
    (datR4 V c).flushed 7 t = ((cfg4.win 7).blk t).view.read (Elt Ideal) (GR4 V c) := by
  show (cfg4.win 7).cut (grid4.coords t) ((datR4 V c).after 7 t) = _
  rw [afterR4_7, outR4_eq]
  obtain ⟨e00, e01, e02, -, -, -, -, -, -, -, -, -, -, -, -, -, e70, e71, e72⟩ := idxR4 t
  refine funext fun (j : S1x256x1024.Idx) => ?_
  show k0_pay1 (k0_pay5 (iblkR4 V c 0 t) (a2R4 V c) (k0_pay3 (tblkR4 V c ⟨t.val / 4, b_ltR4 t⟩) (a3R4 V c)) (k0_pay4 (tblkR4 V c ⟨t.val / 4, b_ltR4 t⟩) (a4R4 V c)) (a5R4 V c)) (k0_pay6 (a6R4 V c)) j
      = GR4 V c (((cfg4.win 7).blk t).view.emb j)
  have hN : cfg4.N = 32 := N_4
  have ht : t.val < 32 := hN ▸ t.isLt
  obtain ⟨r, g, rfl⟩ : ∃ (r : Fin 256) (g : Fin 1024), j = ix3 (0 : Fin 1) r g :=
    ⟨j 1, j 2, by
      funext a
      match a with
      | ⟨0, _⟩ => exact Fin.ext (by have h : (j 0).val < 1 := (j 0).isLt; show (j 0).val = 0; omega)
      | ⟨1, _⟩ => rfl
      | ⟨2, _⟩ => rfl⟩
  have hr : r.val < 256 := r.isLt
  have hi : ((cfg4.win 7).blk t).view.emb (ix3 (0 : Fin 1) r g)
      = ix3 (⟨t.val / 4, b_ltR4 t⟩ : Fin 8) (⟨t.val % 4 * 256 + r.val, by omega⟩ : Fin 1024) g := by
    funext a; apply Fin.ext
    match a with
    | ⟨0, _⟩ => show win4_7.index t (0 : Fin 3) * 1 + 1 * 0 = t.val / 4; rw [e70]; omega
    | ⟨1, _⟩ => show win4_7.index t (1 : Fin 3) * 256 + 1 * r.val = t.val % 4 * 256 + r.val; rw [e71]; omega
    | ⟨2, _⟩ => show win4_7.index t (2 : Fin 3) * 1024 + 1 * g.val = g.val; rw [e72]; omega
  have hx : (fun e : Fin 1024 => (iblkR4 V c 0 t : Vec Ideal S1x256x1024 .bf16) (ix3 (0 : Fin 1) r e))
      = fun e => a0R4 V c (ix3 (⟨t.val / 4, b_ltR4 t⟩ : Fin 8) (⟨t.val % 4 * 256 + r.val, by omega⟩ : Fin 1024) e) := by
    funext e
    show V c (Pipeline.arrRef spec4 0) (((cfg4.win 0).blk t).view.emb (ix3 (0 : Fin 1) r e)) = V c (Pipeline.arrRef spec4 0) (ix3 _ _ e)
    congr 1
    funext a; apply Fin.ext
    match a with
    | ⟨0, _⟩ => show win4_0.index t (0 : Fin 3) * 1 + 1 * 0 = t.val / 4; rw [e00]; omega
    | ⟨1, _⟩ => show win4_0.index t (1 : Fin 3) * 256 + 1 * r.val = t.val % 4 * 256 + r.val; rw [e01]; omega
    | ⟨2, _⟩ => show win4_0.index t (2 : Fin 3) * 1024 + 1 * e.val = e.val; rw [e02]; omega
  rw [hi, out_applyR4]
  simp only [pay3_applyR4, pay4_applyR4]
  rw [hx]
  rfl

theorem finalR4 (c : Dev nD) : (datR4 (F := Ideal) V c).arrAt 7 cfg4.N = GR4 V c :=
  (datR4 V c).arrAt_eq_of_cover 7 (GR4 V c) (fun t _ => flushedR4_eq V c t) coverR4_7

end

end Cert.KernelIdeal.Val4

end
-- ==== Proof.Val5a.lean ====
import proofs.«427532_j66606352826848_3_alg».proof.Proof.Dat5
import proofs.«427532_j66606352826848_3_alg».proof.Proof.PayMath
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Val5

open Cert.KernelIdeal Cert.KernelIdeal.Gen Idealize.ShloMosaic Idealize.ShloMosaic.TcCoe Idealize.ShloMosaic.ValueIdx Idealize.SL.Sem
open Idealize.ShloMosaic.Pipeline (Dat)

variable {F : FTy → Type} [FloatOps F]

open Idealize.ShloMosaic.Tactic

theorem idxR5 : ∀ t : Fin cfg5.N,
    win5_0.index t (0 : Fin 3) = t.val / 4 ∧ win5_0.index t (1 : Fin 3) = t.val % 4 ∧ win5_0.index t (2 : Fin 3) = 0
    ∧ win5_1.index t (0 : Fin 3) = t.val / 4 ∧ win5_1.index t (1 : Fin 3) = 0 ∧ win5_1.index t (2 : Fin 3) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 3) = t.val / 4 ∧ win5_7.index t (1 : Fin 3) = t.val % 4 ∧ win5_7.index t (2 : Fin 3) = 0 :=
  (by decide +kernel : ∀ t : Fin grid5.N, _)

theorem b_ltR5 (t : Fin cfg5.N) : t.val / 4 < 8 := by have := t.isLt; have hN : cfg5.N = 32 := N_5; omega

section
variable (V : (c : Dev nD) → (b : Ref sig .tc) → Buf (Elt F) ((c : Thread nD τ).loc b))

abbrev a0R5 (c : Dev nD) : Vec F S8x1024x1024 .bf16 := V c (Pipeline.arrRef spec5 0)

abbrev a1R5 (c : Dev nD) : Vec F S8x1024x1024 .bf16 := V c (Pipeline.arrRef spec5 1)

abbrev a2R5 (c : Dev nD) : Vec F S1024x1024 .bf16 := V c (Pipeline.arrRef spec5 2)
abbrev a3R5 (c : Dev nD) : Vec F S1024x1024 .bf16 := V c (Pipeline.arrRef spec5 3)
abbrev a4R5 (c : Dev nD) : Vec F S1024x1024 .bf16 := V c (Pipeline.arrRef spec5 4)
abbrev a5R5 (c : Dev nD) : Vec F S1024x1024 .bf16 := V c (Pipeline.arrRef spec5 5)

abbrev a6R5 (c : Dev nD) : Vec F S1x1024 .f32 := V c (Pipeline.arrRef spec5 6)

def tblkR5 (c : Dev nD) (b : Fin 8) : Vec F S1x1024x1024 .bf16 := fun j => a1R5 V c (ix3 b (j 1) (j 2))

theorem iblk1R5_eq (c : Dev nD) (t : Fin cfg5.N) : (iblkR5 V c 1 t : Vec F S1x1024x1024 .bf16) = tblkR5 V c ⟨t.val / 4, b_ltR5 t⟩ := by
  obtain ⟨-, -, -, e0, e1, e2, -⟩ := idxR5 t
  funext j
  show V c (Pipeline.arrRef spec5 1) (((cfg5.win 1).blk t).view.emb j) = V c (Pipeline.arrRef spec5 1) (ix3 ⟨t.val / 4, b_ltR5 t⟩ (j 1) (j 2))
  congr 1
  funext a; apply Fin.ext
  match a with
  | ⟨0, _⟩ => show win5_1.index t (0 : Fin 3) * 1 + 1 * (j 0).val = t.val / 4; rw [e0]; have hj : (j 0).val < 1 := (j 0).isLt; omega
  | ⟨1, _⟩ => show win5_1.index t (1 : Fin 3) * 1024 + 1 * (j 1).val = (j 1).val; rw [e1]; omega
  | ⟨2, _⟩ => show win5_1.index t (2 : Fin 3) * 1024 + 1 * (j 2).val = (j 2).val; rw [e2]; omega

theorem iblk2R5_eq (c : Dev nD) (t : Fin cfg5.N) : (iblkR5 V c 2 t : Vec F S1024x1024 .bf16) = a2R5 V c := by
  have e0 : win5_2.index t (0 : Fin 2) = 0 := (idxR5 t).2.2.2.2.2.2.1
  have e1 : win5_2.index t (1 : Fin 2) = 0 := (idxR5 t).2.2.2.2.2.2.2.1
  funext j
  show V c (Pipeline.arrRef spec5 2) (((cfg5.win 2).blk t).view.emb j) = V c (Pipeline.arrRef spec5 2) j
  congr 1
  funext a; apply Fin.ext
  match a with
  | ⟨0, _⟩ => show win5_2.index t (0 : Fin 2) * 1024 + 1 * (j 0).val = (j 0).val; rw [e0]; omega
  | ⟨1, _⟩ => show win5_2.index t (1 : Fin 2) * 1024 + 1 * (j 1).val = (j 1).val; rw [e1]; omega

theorem iblk3R5_eq (c : Dev nD) (t : Fin cfg5.N) : (iblkR5 V c 3 t : Vec F S1024x1024 .bf16) = a3R5 V c := by
  have e0 : win5_3.index t (0 : Fin 2) = 0 := (idxR5 t).2.2.2.2.2.2.2.2.1
  have e1 : win5_3.index t (1 : Fin 2) = 0 := (idxR5 t).2.2.2.2.2.2.2.2.2.1
  funext j
  show V c (Pipeline.arrRef spec5 3) (((cfg5.win 3).blk t).view.emb j) = V c (Pipeline.arrRef spec5 3) j
  congr 1
  funext a; apply Fin.ext
  match a with
  | ⟨0, _⟩ => show win5_3.index t (0 : Fin 2) * 1024 + 1 * (j 0).val = (j 0).val; rw [e0]; omega
  | ⟨1, _⟩ => show win5_3.index t (1 : Fin 2) * 1024 + 1 * (j 1).val = (j 1).val; rw [e1]; omega

theorem iblk4R5_eq (c : Dev nD) (t : Fin cfg5.N) : (iblkR5 V c 4 t : Vec F S1024x1024 .bf16) = a4R5 V c := by
  have e0 : win5_4.index t (0 : Fin 2) = 0 := (idxR5 t).2.2.2.2.2.2.2.2.2.2.1
  have e1 : win5_4.index t (1 : Fin 2) = 0 := (idxR5 t).2.2.2.2.2.2.2.2.2.2.2.1
  funext j
  show V c (Pipeline.arrRef spec5 4) (((cfg5.win 4).blk t).view.emb j) = V c (Pipeline.arrRef spec5 4) j
  congr 1
  funext a; apply Fin.ext
  match a with
  | ⟨0, _⟩ => show win5_4.index t (0 : Fin 2) * 1024 + 1 * (j 0).val = (j 0).val; rw [e0]; omega
  | ⟨1, _⟩ => show win5_4.index t (1 : Fin 2) * 1024 + 1 * (j 1).val = (j 1).val; rw [e1]; omega

theorem iblk5R5_eq (c : Dev nD) (t : Fin cfg5.N) : (iblkR5 V c 5 t : Vec F S1024x1024 .bf16) = a5R5 V c := by
  have e0 : win5_5.index t (0 : Fin 2) = 0 := (idxR5 t).2.2.2.2.2.2.2.2.2.2.2.2.1
  have e1 : win5_5.index t (1 : Fin 2) = 0 := (idxR5 t).2.2.2.2.2.2.2.2.2.2.2.2.2.1
  funext j
  show V c (Pipeline.arrRef spec5 5) (((cfg5.win 5).blk t).view.emb j) = V c (Pipeline.arrRef spec5 5) j
  congr 1
  funext a; apply Fin.ext
  match a with
  | ⟨0, _⟩ => show win5_5.index t (0 : Fin 2) * 1024 + 1 * (j 0).val = (j 0).val; rw [e0]; omega
  | ⟨1, _⟩ => show win5_5.index t (1 : Fin 2) * 1024 + 1 * (j 1).val = (j 1).val; rw [e1]; omega

theorem iblk6R5_eq (c : Dev nD) (t : Fin cfg5.N) : (iblkR5 V c 6 t : Vec F S1x1024 .f32) = a6R5 V c := by
  have e0 : win5_6.index t (0 : Fin 2) = 0 := (idxR5 t).2.2.2.2.2.2.2.2.2.2.2.2.2.2.1
  have e1 : win5_6.index t (1 : Fin 2) = 0 := (idxR5 t).2.2.2.2.2.2.2.2.2.2.2.2.2.2.2.1
  funext j
  show V c (Pipeline.arrRef spec5 6) (((cfg5.win 6).blk t).view.emb j) = V c (Pipeline.arrRef spec5 6) j
  congr 1
  funext a; apply Fin.ext
  match a with
  | ⟨0, _⟩ => show win5_6.index t (0 : Fin 2) * 1 + 1 * (j 0).val = (j 0).val; rw [e0]; omega
  | ⟨1, _⟩ => show win5_6.index t (1 : Fin 2) * 1024 + 1 * (j 1).val = (j 1).val; rw [e1]; omega

theorem scratchR5_A (c : Dev nD) (t : Fin cfg5.N) (h0 : t.val % 4 = 0) :
    (outsAtR5 V c t.val t.isLt).2.1 = k0_pay3 (tblkR5 V c ⟨t.val / 4, b_ltR5 t⟩) (a3R5 V c)
    ∧ (outsAtR5 V c t.val t.isLt).2.2 = k0_pay4 (tblkR5 V c ⟨t.val / 4, b_ltR5 t⟩) (a4R5 V c) := by
  rw [outsAtR5_A V c t h0]
  dsimp only [Ins.first, Ins.keys, Ins.vals, insR5]
  rw [iblk1R5_eq V c t, iblk3R5_eq V c t, iblk4R5_eq V c t]
  exact ⟨rfl, rfl⟩

theorem scratchR5 (c : Dev nD) : ∀ (n : ℕ) (hn : n < cfg5.N),
    (outsAtR5 V c n hn).2.1 = k0_pay3 (tblkR5 V c ⟨n / 4, b_ltR5 ⟨n, hn⟩⟩) (a3R5 V c)
    ∧ (outsAtR5 V c n hn).2.2 = k0_pay4 (tblkR5 V c ⟨n / 4, b_ltR5 ⟨n, hn⟩⟩) (a4R5 V c)
  | 0, hn => scratchR5_A V c ⟨0, hn⟩ rfl
  | n + 1, hn => by
    by_cases h0 : (n + 1) % 4 = 0
    · exact scratchR5_A V c ⟨n + 1, hn⟩ h0
    · have ih := scratchR5 c n (Nat.lt_of_succ_lt hn)
      have hb : (⟨(n + 1) / 4, b_ltR5 ⟨n + 1, hn⟩⟩ : Fin 8) = ⟨n / 4, b_ltR5 ⟨n, Nat.lt_of_succ_lt hn⟩⟩ := Fin.ext (by show (n + 1) / 4 = n / 4; omega)
      rw [outsAtR5_B V c ⟨n + 1, hn⟩ h0, hb]
      exact ih

theorem outR5_eq (c : Dev nD) (t : Fin cfg5.N) :
    (outsAtR5 V c t.val t.isLt).1
      = k0_pay1 (k0_pay5 (iblkR5 V c 0 t) (a2R5 V c) (k0_pay3 (tblkR5 V c ⟨t.val / 4, b_ltR5 t⟩) (a3R5 V c)) (k0_pay4 (tblkR5 V c ⟨t.val / 4, b_ltR5 t⟩) (a4R5 V c)) (a5R5 V c)) (k0_pay6 (a6R5 V c)) := by
  by_cases h0 : t.val % 4 = 0
  · rw [outsAtR5_A V c t h0]
    dsimp only [Ins.first, Ins.keys, Ins.vals, Ins.out, insR5]
    rw [iblk1R5_eq V c t, iblk2R5_eq V c t, iblk3R5_eq V c t, iblk4R5_eq V c t, iblk5R5_eq V c t, iblk6R5_eq V c t]
  · have hN : cfg5.N = 32 := N_5
    have hlt : t.val - 1 < cfg5.N := Nat.lt_of_le_of_lt (Nat.sub_le _ _) t.isLt
    have hb : (⟨(t.val - 1) / 4, b_ltR5 ⟨t.val - 1, hlt⟩⟩ : Fin 8) = ⟨t.val / 4, b_ltR5 t⟩ := Fin.ext (by show (t.val - 1) / 4 = t.val / 4; omega)
    obtain ⟨s0, s1⟩ := scratchR5 V c (t.val - 1) hlt
    rw [hb] at s0 s1
    rw [outsAtR5_B V c t h0]
    dsimp only [Ins.later, Ins.out, insR5]
    rw [s0, s1, iblk2R5_eq V c t, iblk5R5_eq V c t, iblk6R5_eq V c t]

end

theorem pay3_applyR5 (tg : Vec Ideal S1x1024x1024 .bf16) (wk : Vec Ideal S1024x1024 .bf16) (j f : Fin 1024) :
    k0_pay3 (F := Ideal) tg wk (ix2 j f) = Cert.Spec.proj (fun e => tg (ix3 0 j e)) (fun e f' => wk (ix2 e f')) f :=
  PayMath.pay3_apply tg wk j f

theorem pay4_applyR5 (tg : Vec Ideal S1x1024x1024 .bf16) (wv : Vec Ideal S1024x1024 .bf16) (j f : Fin 1024) :
    k0_pay4 (F := Ideal) tg wv (ix2 j f) = Cert.Spec.proj (fun e => tg (ix3 0 j e)) (fun e f' => wv (ix2 e f')) f :=
  PayMath.pay4_apply tg wv j f

theorem out_applyR5 (x : Vec Ideal S1x256x1024 .bf16) (wq ks vs wo : Vec Ideal S1024x1024 .bf16) (bi : Vec Ideal S1x1024 .f32) (r : Fin 256) (g : Fin 1024) :
    k0_pay1 (F := Ideal) (k0_pay5 x wq ks vs wo) (k0_pay6 bi) (ix3 0 r g)
      = Cert.Spec.attnRowKV (fun e => x (ix3 0 r e)) (fun j f => ks (ix2 j f)) (fun j f => vs (ix2 j f)) (fun e f => wq (ix2 e f)) (fun f g' => wo (ix2 f g')) (fun g' => bi (ix2 0 g')) g :=
  PayMath.out_apply x wq ks vs wo bi r g

end Cert.KernelIdeal.Val5

end
-- ==== Proof.Val5.lean ====
import proofs.«427532_j66606352826848_3_alg».proof.Proof.Val5a
import Idealize.ShloMosaic.Lib.Pipeline.Value
import Idealize.ShloMosaic.Lib.ValueIdx

set_option maxRecDepth 16384

noncomputable section

namespace Cert.KernelIdeal.Val5

open Cert.KernelIdeal Cert.KernelIdeal.Gen Idealize.ShloMosaic Idealize.ShloMosaic.TcCoe Idealize.ShloMosaic.ValueIdx Idealize.SL.Sem
open Idealize.ShloMosaic.Pipeline (Dat)

theorem mem_blkR5_7 (t : Fin cfg5.N) (i : S8x1024x1024.Idx) :
    i ∈ ((cfg5.win 7).blk t).view.set ↔ ∀ a : Fin 3, win5_7.index t a * S1x256x1024.size a ≤ (i a).val ∧ (i a).val < win5_7.index t a * S1x256x1024.size a + S1x256x1024.size a := by
  show i ∈ ((View.whole (Pipeline.arrRef spec5 7)).slice (win5_7.rect t)).set ↔ _
  rw [View.set_slice_whole, Rect.mem_set_unit]
  exact Iff.rfl

theorem coverR5_7 (i : S8x1024x1024.Idx) : ∃ t : Fin cfg5.N, (cfg5.win 7).flush t = true ∧ i ∈ ((cfg5.win 7).blk t).view.set := by
  have hN : cfg5.N = 32 := N_5
  have h0 : (i 0).val < 8 := (i 0).isLt
  have h1 : (i 1).val < 1024 := (i 1).isLt
  have h2 : (i 2).val < 1024 := (i 2).isLt
  refine ⟨⟨4 * (i 0).val + (i 1).val / 256, by omega⟩, flush5_7 _, ?_⟩
  rw [mem_blkR5_7]
  obtain ⟨-, -, -, -, -, -, -, -, -, -, -, -, -, -, -, -, e0, e1, e2⟩ := idxR5 ⟨4 * (i 0).val + (i 1).val / 256, by omega⟩
  intro a
  match a with
  | ⟨0, _⟩ => show win5_7.index _ (0 : Fin 3) * 1 ≤ (i 0).val ∧ (i 0).val < win5_7.index _ (0 : Fin 3) * 1 + 1; rw [e0]; dsimp only; omega
  | ⟨1, _⟩ => show win5_7.index _ (1 : Fin 3) * 256 ≤ (i 1).val ∧ (i 1).val < win5_7.index _ (1 : Fin 3) * 256 + 256; rw [e1]; dsimp only; omega
  | ⟨2, _⟩ => show win5_7.index _ (2 : Fin 3) * 1024 ≤ (i 2).val ∧ (i 2).val < win5_7.index _ (2 : Fin 3) * 1024 + 1024; rw [e2]; omega

section
variable (V : (c : Dev nD) → (b : Ref sig .tc) → Buf (Elt Ideal) ((c : Thread nD τ).loc b))

abbrev GR5 (c : Dev nD) : Vec Ideal S8x1024x1024 .bf16 := fun i =>
  Cert.Spec.attnRow (fun e => a0R5 V c (ix3 (i 0) (i 1) e)) (fun j e => a1R5 V c (ix3 (i 0) j e))
    (fun e f => a2R5 V c (ix2 e f)) (fun e f => a3R5 V c (ix2 e f)) (fun e f => a4R5 V c (ix2 e f))
    (fun f g => a5R5 V c (ix2 f g)) (fun g => a6R5 V c (ix2 0 g)) (i 2)

theorem flushedR5_eq (c : Dev nD) (t : Fin cfg5.N) :
    (datR5 V c).flushed 7 t = ((cfg5.win 7).blk t).view.read (Elt Ideal) (GR5 V c) := by
  show (cfg5.win 7).cut (grid5.coords t) ((datR5 V c).after 7 t) = _
  rw [afterR5_7, outR5_eq]
  obtain ⟨e00, e01, e02, -, -, -, -, -, -, -, -, -, -, -, -, -, e70, e71, e72⟩ := idxR5 t
  refine funext fun (j : S1x256x1024.Idx) => ?_
  show k0_pay1 (k0_pay5 (iblkR5 V c 0 t) (a2R5 V c) (k0_pay3 (tblkR5 V c ⟨t.val / 4, b_ltR5 t⟩) (a3R5 V c)) (k0_pay4 (tblkR5 V c ⟨t.val / 4, b_ltR5 t⟩) (a4R5 V c)) (a5R5 V c)) (k0_pay6 (a6R5 V c)) j
      = GR5 V c (((cfg5.win 7).blk t).view.emb j)
  have hN : cfg5.N = 32 := N_5
  have ht : t.val < 32 := hN ▸ t.isLt
  obtain ⟨r, g, rfl⟩ : ∃ (r : Fin 256) (g : Fin 1024), j = ix3 (0 : Fin 1) r g :=
    ⟨j 1, j 2, by
      funext a
      match a with
      | ⟨0, _⟩ => exact Fin.ext (by have h : (j 0).val < 1 := (j 0).isLt; show (j 0).val = 0; omega)
      | ⟨1, _⟩ => rfl
      | ⟨2, _⟩ => rfl⟩
  have hr : r.val < 256 := r.isLt
  have hi : ((cfg5.win 7).blk t).view.emb (ix3 (0 : Fin 1) r g)
      = ix3 (⟨t.val / 4, b_ltR5 t⟩ : Fin 8) (⟨t.val % 4 * 256 + r.val, by omega⟩ : Fin 1024) g := by
    funext a; apply Fin.ext
    match a with
    | ⟨0, _⟩ => show win5_7.index t (0 : Fin 3) * 1 + 1 * 0 = t.val / 4; rw [e70]; omega
    | ⟨1, _⟩ => show win5_7.index t (1 : Fin 3) * 256 + 1 * r.val = t.val % 4 * 256 + r.val; rw [e71]; omega
    | ⟨2, _⟩ => show win5_7.index t (2 : Fin 3) * 1024 + 1 * g.val = g.val; rw [e72]; omega
  have hx : (fun e : Fin 1024 => (iblkR5 V c 0 t : Vec Ideal S1x256x1024 .bf16) (ix3 (0 : Fin 1) r e))
      = fun e => a0R5 V c (ix3 (⟨t.val / 4, b_ltR5 t⟩ : Fin 8) (⟨t.val % 4 * 256 + r.val, by omega⟩ : Fin 1024) e) := by
    funext e
    show V c (Pipeline.arrRef spec5 0) (((cfg5.win 0).blk t).view.emb (ix3 (0 : Fin 1) r e)) = V c (Pipeline.arrRef spec5 0) (ix3 _ _ e)
    congr 1
    funext a; apply Fin.ext
    match a with
    | ⟨0, _⟩ => show win5_0.index t (0 : Fin 3) * 1 + 1 * 0 = t.val / 4; rw [e00]; omega
    | ⟨1, _⟩ => show win5_0.index t (1 : Fin 3) * 256 + 1 * r.val = t.val % 4 * 256 + r.val; rw [e01]; omega
    | ⟨2, _⟩ => show win5_0.index t (2 : Fin 3) * 1024 + 1 * e.val = e.val; rw [e02]; omega
  rw [hi, out_applyR5]
  simp only [pay3_applyR5, pay4_applyR5]
  rw [hx]
  rfl

theorem finalR5 (c : Dev nD) : (datR5 (F := Ideal) V c).arrAt 7 cfg5.N = GR5 V c :=
  (datR5 V c).arrAt_eq_of_cover 7 (GR5 V c) (fun t _ => flushedR5_eq V c t) coverR5_7

end

end Cert.KernelIdeal.Val5

end
-- ==== Proof.PayFin.lean ====
import proofs.«427532_j66606352826848_3_alg».proof.Proof.Gen.KernelIdeal.Skeleton
import proofs.«427532_j66606352826848_3_alg».proof.Proof.Spec
import proofs.«427532_j66606352826848_3_alg».proof.Proof.PayLib

noncomputable section

open scoped BigOperators

namespace Cert.KernelIdeal.PayMath

open Cert.KernelIdeal Cert.KernelIdeal.Gen Idealize.ShloMosaic Idealize.ShloMosaic.ValueIdx

theorem fin_apply (v0 : Vec Ideal S1024x1024 .bf16) (v2 : Vec Ideal S1280x1024 .bf16) (v5 : Vec Ideal S1x1280 .f32)
    (r : Fin 1024) (vv : Fin 1280) :
    k6_pay1 (F := Ideal) v0 v2 v5 (ix2 r vv) = (∑ e : Fin 1024, v0 (ix2 r e) * v2 (ix2 vv e)) + v5 (ix2 0 vv) := by
  show addf (FloatOps.matmul dot_S1024x1024_S1280x1024_S1024x1280_1_1_0_0_n_n none
        (shapeCast S1024x1024 v0 shapeCasts_S1024x1024_S1024x1024 : FVec Ideal S1024x1024 .bf16)
        (shapeCast S1280x1024 v2 shapeCasts_S1280x1024_S1280x1024 : FVec Ideal S1280x1024 .bf16)
        (constant (F := Ideal) S1024x1280 .f32 0x00000000#32))
      (broadcastTo S1024x1280 (shapeCast S1x1280 (shapeCast S1280 v5 shapeCasts_S1x1280_S1280) shapeCasts_S1280_S1x1280)
        broadcasts_S1x1280_S1024x1280) (ix2 r vv) = _
  rw [addf_apply, broadcastTo_1b_ab_apply, shapeCast_a_1a_apply, shapeCast_1a_a_apply, shapeCast_self, shapeCast_self,
    matmulT_zero_at dot_S1024x1024_S1280x1024_S1024x1280_1_1_0_0_n_n rfl rfl rfl rfl rfl rfl]

theorem fin_apply_logit (v0 : Vec Ideal S1024x1024 .bf16) (v2 : Vec Ideal S1280x1024 .bf16) (v5 : Vec Ideal S1x1280 .f32)
    (LW : Fin 32000 → Fin 1024 → EReal) (lb : Fin 32000 → EReal) (V : Fin 1280 → Fin 32000)
    (hw : ∀ v e, v2 (ix2 v e) = LW (V v) e) (hb : ∀ v, v5 (ix2 0 v) = lb (V v)) (r : Fin 1024) (vv : Fin 1280) :
    k6_pay1 (F := Ideal) v0 v2 v5 (ix2 r vv) = Cert.Spec.logitRow (fun e => v0 (ix2 r e)) LW lb (V vv) := by
  rw [fin_apply, hb]
  unfold Cert.Spec.logitRow
  exact congrArg (· + lb (V vv)) (Finset.sum_congr rfl fun e _ => by rw [hw])

end Cert.KernelIdeal.PayMath

end
-- ==== Proof.Fin6Val.lean ====
import proofs.«427532_j66606352826848_3_alg».proof.Proof.Fin6
import proofs.«427532_j66606352826848_3_alg».proof.Proof.Spec
import proofs.«427532_j66606352826848_3_alg».proof.Proof.PayFin
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Fin6Val

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

abbrev xarr (c : Dev nD) : S8192x1024.Idx → EReal := V c (Pipeline.arrRef spec6 0)
abbrev warr (c : Dev nD) : S32000x1024.Idx → EReal := V c (Pipeline.arrRef spec6 1)
abbrev barr (c : Dev nD) : S1x32000.Idx → EReal := V c (Pipeline.arrRef spec6 2)

def G6 (c : Dev nD) : S8192x32000.Idx → EReal := fun i =>
  Cert.Spec.logitRow (fun e => xarr V c (ix2 (i 0) e)) (fun v e => warr V c (ix2 v e)) (fun v => barr V c (ix2 0 v)) (i 1)

theorem idx_facts6 : ∀ t : Fin cfg6.N,
    win6_0.index t (0 : Fin 2) = t.val % 8 ∧ win6_0.index t (1 : Fin 2) = 0
    ∧ win6_1.index t (0 : Fin 2) = t.val / 8 ∧ win6_1.index t (1 : Fin 2) = 0
    ∧ win6_2.index t (0 : Fin 2) = 0 ∧ win6_2.index t (1 : Fin 2) = t.val / 8
    ∧ win6_3.index t (0 : Fin 2) = t.val % 8 ∧ win6_3.index t (1 : Fin 2) = t.val / 8 :=
  (by decide +kernel : ∀ t : Fin grid6.N, _)

theorem iblk6_0_apply (c : Dev nD) (t : Fin cfg6.N) (r : Fin 1024) (e : Fin 1024) (k : Fin 8192)
    (hk : k.val = t.val % 8 * 1024 + r.val) :
    (iblk6 V c 0 t : S1024x1024.Idx → EReal) (ix2 r e) = xarr V c (ix2 k e) := by
  obtain ⟨e0, e1, -⟩ := idx_facts6 t
  unfold iblk6
  rw [View.read_apply]
  show V c (Pipeline.arrRef spec6 0) _ = V c (Pipeline.arrRef spec6 0) _
  congr 1
  funext a
  apply Fin.ext
  match a with
  | ⟨0, _⟩ => show win6_0.index t (0 : Fin 2) * 1024 + 1 * r.val = k.val; rw [e0, hk]; omega
  | ⟨1, _⟩ => show win6_0.index t (1 : Fin 2) * 1024 + 1 * e.val = e.val; rw [e1]; omega

theorem iblk6_1_apply (c : Dev nD) (t : Fin cfg6.N) (v : Fin 1280) (e : Fin 1024) (k : Fin 32000)
    (hk : k.val = t.val / 8 * 1280 + v.val) :
    (iblk6 V c 1 t : S1280x1024.Idx → EReal) (ix2 v e) = warr V c (ix2 k e) := by
  obtain ⟨-, -, e2, e3, -⟩ := idx_facts6 t
  unfold iblk6
  rw [View.read_apply]
  show V c (Pipeline.arrRef spec6 1) _ = V c (Pipeline.arrRef spec6 1) _
  congr 1
  funext a
  apply Fin.ext
  match a with
  | ⟨0, _⟩ => show win6_1.index t (0 : Fin 2) * 1280 + 1 * v.val = k.val; rw [e2, hk]; omega
  | ⟨1, _⟩ => show win6_1.index t (1 : Fin 2) * 1024 + 1 * e.val = e.val; rw [e3]; omega

theorem iblk6_2_apply (c : Dev nD) (t : Fin cfg6.N) (v : Fin 1280) (k : Fin 32000)
    (hk : k.val = t.val / 8 * 1280 + v.val) :
    (iblk6 V c 2 t : S1x1280.Idx → EReal) (ix2 0 v) = barr V c (ix2 0 k) := by
  obtain ⟨-, -, -, -, e4, e5, -⟩ := idx_facts6 t
  unfold iblk6
  rw [View.read_apply]
  show V c (Pipeline.arrRef spec6 2) _ = V c (Pipeline.arrRef spec6 2) _
  congr 1
  funext a
  apply Fin.ext
  match a with
  | ⟨0, _⟩ => show win6_2.index t (0 : Fin 2) * 1 + 1 * 0 = 0; rw [e4]
  | ⟨1, _⟩ => show win6_2.index t (1 : Fin 2) * 1280 + 1 * v.val = k.val; rw [e5, hk]; omega

theorem flushed6_eq (c : Dev nD) (t : Fin cfg6.N) :
    (dat6 V c).flushed 3 t = ((cfg6.win 3).blk t).view.read (Elt Ideal) (G6 V c) := by
  show (cfg6.win 3).cut (grid6.coords t) ((dat6 V c).after 3 t) = _
  rw [after6_3]
  unfold out6_3
  rw [View.canon_unit_zero hz]
  simp only [View.ld_unit_zero (S := S1024x1024) hz, View.ld_unit_zero (S := S1280x1024) hz, View.ld_unit_zero (S := S1x1280) hz]
  obtain ⟨-, -, -, -, -, -, e6, e7⟩ := idx_facts6 t
  funext j
  obtain ⟨r, vv, rfl⟩ : ∃ (r : Fin 1024) (vv : Fin 1280), j = ix2 r vv := ⟨j 0, j 1, eq_ix2 j⟩
  have hr : ((((cfg6.win 3).blk t).view.emb (ix2 r vv)) 0).val = t.val % 8 * 1024 + r.val := by
    show win6_3.index t (0 : Fin 2) * 1024 + 1 * r.val = _
    rw [e6]; omega
  have hv : ((((cfg6.win 3).blk t).view.emb (ix2 r vv)) 1).val = t.val / 8 * 1280 + vv.val := by
    show win6_3.index t (1 : Fin 2) * 1280 + 1 * vv.val = _
    rw [e7]; omega
  refine (PayMath.fin_apply (iblk6 V c 0 t) (iblk6 V c 1 t) (iblk6 V c 2 t) r vv).trans ?_
  show _ = G6 V c (((cfg6.win 3).blk t).view.emb (ix2 r vv))
  unfold G6 Cert.Spec.logitRow
  congr 1
  · refine Finset.sum_congr rfl fun e _ => ?_
    rw [iblk6_0_apply V c t r e _ hr, iblk6_1_apply V c t vv e _ hv]
  · exact iblk6_2_apply V c t vv _ hv

theorem mem_blk6 (t : Fin cfg6.N) (i : S8192x32000.Idx) :
    i ∈ ((cfg6.win 3).blk t).view.set ↔ ∀ a : Fin 2, win6_3.index t a * S1024x1280.size a ≤ (i a).val ∧ (i a).val < win6_3.index t a * S1024x1280.size a + S1024x1280.size a := by
  show i ∈ ((View.whole main_v84).slice (win6_3.rect t)).set ↔ _
  rw [View.set_slice_whole, Rect.mem_set_unit]
  exact Iff.rfl

theorem cover6 (i : S8192x32000.Idx) :
    ∃ t : Fin cfg6.N, (cfg6.win 3).flush t = true ∧ i ∈ ((cfg6.win 3).blk t).view.set := by
  have hi0 : (i 0).val < 8192 := (i 0).isLt
  have hi1 : (i 1).val < 32000 := (i 1).isLt
  have hN : cfg6.N = 200 := N_6
  have hlt : 8 * ((i 1).val / 1280) + (i 0).val / 1024 < cfg6.N := by rw [hN]; omega
  obtain ⟨-, -, -, -, -, -, e6, e7⟩ := idx_facts6 ⟨_, hlt⟩
  refine ⟨⟨_, hlt⟩, flush6_3 _, ?_⟩
  rw [mem_blk6]
  intro a
  match a with
  | ⟨0, _⟩ =>
    show win6_3.index ⟨_, hlt⟩ (0 : Fin 2) * 1024 ≤ (i 0).val ∧ (i 0).val < win6_3.index ⟨_, hlt⟩ (0 : Fin 2) * 1024 + 1024
    rw [e6]; dsimp only; omega
  | ⟨1, _⟩ =>
    show win6_3.index ⟨_, hlt⟩ (1 : Fin 2) * 1280 ≤ (i 1).val ∧ (i 1).val < win6_3.index ⟨_, hlt⟩ (1 : Fin 2) * 1280 + 1280
    rw [e7]; dsimp only; omega

theorem final6_G (c : Dev nD) : (dat6 (F := Ideal) V c).arrAt 3 cfg6.N = G6 V c :=
  (dat6 V c).arrAt_eq_of_cover 3 (G6 V c) (fun t _ => flushed6_eq V c t) (cover6)

theorem final6 (c : Dev nD) : (dat6 (F := Ideal) V c).arrAt 3 cfg6.N = fun i =>
    Cert.Spec.logitRow (fun e => xarr V c (ix2 (i 0) e)) (fun v e => warr V c (ix2 v e)) (fun v => barr V c (ix2 0 v)) (i 1) :=
  final6_G V c

end Cert.KernelIdeal.Fin6Val

end
-- ==== Proof.KVal.lean ====
/-
  The kernel program's result as the network function of its arguments: each attention region leaves the
  specification's layer of what it read, what each region reads is the previous region's result and the layer's
  matrices cut out of the stacked weights, and the last region projects the last activations onto the vocabulary.
-/
import proofs.«427532_j66606352826848_3_alg».proof.Proof.Chain
import proofs.«427532_j66606352826848_3_alg».proof.Proof.Kept
import proofs.«427532_j66606352826848_3_alg».proof.Proof.Glue2
import proofs.«427532_j66606352826848_3_alg».proof.Proof.EmbedK
import proofs.«427532_j66606352826848_3_alg».proof.Proof.Embed
import proofs.«427532_j66606352826848_3_alg».proof.Proof.KStep
import proofs.«427532_j66606352826848_3_alg».proof.Proof.SpecEmbed
import proofs.«427532_j66606352826848_3_alg».proof.Proof.Val0
import proofs.«427532_j66606352826848_3_alg».proof.Proof.Val1
import proofs.«427532_j66606352826848_3_alg».proof.Proof.Val2
import proofs.«427532_j66606352826848_3_alg».proof.Proof.Val3
import proofs.«427532_j66606352826848_3_alg».proof.Proof.Val4
import proofs.«427532_j66606352826848_3_alg».proof.Proof.Val5
import proofs.«427532_j66606352826848_3_alg».proof.Proof.Fin6Val
import proofs.«427532_j66606352826848_3_alg».proof.Defs
import proofs.«427532_j66606352826848_3_alg».proof.Proof.Gen.Pre_finite_inputs

noncomputable section

namespace Cert.KernelIdeal.KVal

open Cert.KernelIdeal Cert.KernelIdeal.Gen Idealize.ShloMosaic Idealize.ShloMosaic.ValueIdx Idealize.ShloMosaic.TcCoe Idealize.SL.Sem

local notation "R" => Proc.devRef Proc.tc

variable (m : (ℓ : Loc nD τ sig) → Buf (Elt Ideal) ℓ) (c : Dev nD)

/-! ## What each region leaves, over what it reads -/

/-- Region 0 leaves, at every entry, the row-level attention of the arrays it reads. -/
theorem reg0 :
    Y3 m c (R main_v25) = fun i : S8x1024x1024.Idx =>
      Cert.Spec.attnRow (fun e => Y2 m c (R main_v1) (ix3 (i 0) (i 1) e)) (fun j e => Y2 m c (R main_v2) (ix3 (i 0) j e))
        (fun e f => Y2 m c (R main_v16) (ix2 e f)) (fun e f => Y2 m c (R main_v18) (ix2 e f))
        (fun e f => Y2 m c (R main_v20) (ix2 e f)) (fun f g => Y2 m c (R main_v22) (ix2 f g))
        (fun g => Y2 m c (R main_v24) (ix2 (0 : Fin 1) g)) (i 2) :=
  (out3 m c).trans (Val0.finalR0 (atTc (Y2 m)) c)

/-- Region 1 leaves, at every entry, the row-level attention of the arrays it reads. -/
theorem reg1 :
    Y5 m c (R main_v36) = fun i : S8x1024x1024.Idx =>
      Cert.Spec.attnRow (fun e => Y4 m c (R main_v25) (ix3 (i 0) (i 1) e)) (fun j e => Y4 m c (R main_v2) (ix3 (i 0) j e))
        (fun e f => Y4 m c (R main_v27) (ix2 e f)) (fun e f => Y4 m c (R main_v29) (ix2 e f))
        (fun e f => Y4 m c (R main_v31) (ix2 e f)) (fun f g => Y4 m c (R main_v33) (ix2 f g))
        (fun g => Y4 m c (R main_v35) (ix2 (0 : Fin 1) g)) (i 2) :=
  (out5 m c).trans (Val1.finalR1 (atTc (Y4 m)) c)

/-- Region 2 leaves, at every entry, the row-level attention of the arrays it reads. -/
theorem reg2 :
    Y7 m c (R main_v47) = fun i : S8x1024x1024.Idx =>
      Cert.Spec.attnRow (fun e => Y6 m c (R main_v36) (ix3 (i 0) (i 1) e)) (fun j e => Y6 m c (R main_v2) (ix3 (i 0) j e))
        (fun e f => Y6 m c (R main_v38) (ix2 e f)) (fun e f => Y6 m c (R main_v40) (ix2 e f))
        (fun e f => Y6 m c (R main_v42) (ix2 e f)) (fun f g => Y6 m c (R main_v44) (ix2 f g))
        (fun g => Y6 m c (R main_v46) (ix2 (0 : Fin 1) g)) (i 2) :=
  (out7 m c).trans (Val2.finalR2 (atTc (Y6 m)) c)

/-- Region 3 leaves, at every entry, the row-level attention of the arrays it reads. -/
theorem reg3 :
    Y9 m c (R main_v58) = fun i : S8x1024x1024.Idx =>
      Cert.Spec.attnRow (fun e => Y8 m c (R main_v47) (ix3 (i 0) (i 1) e)) (fun j e => Y8 m c (R main_v2) (ix3 (i 0) j e))
        (fun e f => Y8 m c (R main_v49) (ix2 e f)) (fun e f => Y8 m c (R main_v51) (ix2 e f))
        (fun e f => Y8 m c (R main_v53) (ix2 e f)) (fun f g => Y8 m c (R main_v55) (ix2 f g))
        (fun g => Y8 m c (R main_v57) (ix2 (0 : Fin 1) g)) (i 2) :=
  (out9 m c).trans (Val3.finalR3 (atTc (Y8 m)) c)

/-- Region 4 leaves, at every entry, the row-level attention of the arrays it reads. -/
theorem reg4 :
    Y11 m c (R main_v69) = fun i : S8x1024x1024.Idx =>
      Cert.Spec.attnRow (fun e => Y10 m c (R main_v58) (ix3 (i 0) (i 1) e)) (fun j e => Y10 m c (R main_v2) (ix3 (i 0) j e))
        (fun e f => Y10 m c (R main_v60) (ix2 e f)) (fun e f => Y10 m c (R main_v62) (ix2 e f))
        (fun e f => Y10 m c (R main_v64) (ix2 e f)) (fun f g => Y10 m c (R main_v66) (ix2 f g))
        (fun g => Y10 m c (R main_v68) (ix2 (0 : Fin 1) g)) (i 2) :=
  (out11 m c).trans (Val4.finalR4 (atTc (Y10 m)) c)

/-- Region 5 leaves, at every entry, the row-level attention of the arrays it reads. -/
theorem reg5 :
    Y13 m c (R main_v80) = fun i : S8x1024x1024.Idx =>
      Cert.Spec.attnRow (fun e => Y12 m c (R main_v69) (ix3 (i 0) (i 1) e)) (fun j e => Y12 m c (R main_v2) (ix3 (i 0) j e))
        (fun e f => Y12 m c (R main_v71) (ix2 e f)) (fun e f => Y12 m c (R main_v73) (ix2 e f))
        (fun e f => Y12 m c (R main_v75) (ix2 e f)) (fun f g => Y12 m c (R main_v77) (ix2 f g))
        (fun g => Y12 m c (R main_v79) (ix2 (0 : Fin 1) g)) (i 2) :=
  (out13 m c).trans (Val5.finalR5 (atTc (Y12 m)) c)

/-- The last region leaves, at every entry, the final projection of the arrays it reads. -/
theorem reg6 :
    Y15 m c (R main_v84) = fun i : S8192x32000.Idx =>
      Cert.Spec.logitRow (fun e => Y14 m c (R main_v81) (ix2 (i 0) e)) (fun v e => Y14 m c (R main_v82) (ix2 v e))
        (fun v => Y14 m c (R main_v83) (ix2 (0 : Fin 1) v)) (i 1) :=
  (out15 m c).trans (Fin6Val.final6 (atTc (Y14 m)) c)

/-! ## The arguments as the specification reads them -/

/-- The embedded rows. -/
abbrev kX0 : Cert.Spec.Act :=
  Cert.Spec.embX0 (m ((c.tc : Thread nD τ).loc main_arg0)) (m ((c.tc : Thread nD τ).loc main_arg2))
/-- The target rows. -/
abbrev kT : Cert.Spec.Act := fun b j e => m ((c.tc : Thread nD τ).loc main_arg1) (ix3 b j e)
/-- The stacked query, key and value matrices. -/
abbrev kW3 : Fin 6 → Fin 3072 → Fin 1024 → EReal := fun l r e => m ((c.tc : Thread nD τ).loc main_arg3) (ix3 l r e)
/-- The output matrices. -/
abbrev kW4 : Fin 6 → Fin 1024 → Fin 1024 → EReal := fun l g f => m ((c.tc : Thread nD τ).loc main_arg4) (ix3 l g f)
/-- The output biases. -/
abbrev kB5 : Fin 6 → Fin 1024 → EReal := fun l g => m ((c.tc : Thread nD τ).loc main_arg5) (ix2 l g)
/-- The vocabulary matrix. -/
abbrev kLW : Fin 32000 → Fin 1024 → EReal := fun v e => m ((c.tc : Thread nD τ).loc main_arg6) (ix2 v e)
/-- The vocabulary bias. -/
abbrev kLB : Fin 32000 → EReal := fun v => m ((c.tc : Thread nD τ).loc main_arg7) (ix1 v)

/-- The activations entering layer 0. -/
abbrev kA0 : Cert.Spec.Act := kX0 m c
/-- The activations leaving layer 0. -/
abbrev kA1 : Cert.Spec.Act := Cert.Spec.layer (kT m c) (kW3 m c) (kW4 m c) (kB5 m c) 0 (kA0 m c)
/-- The activations leaving layer 1. -/
abbrev kA2 : Cert.Spec.Act := Cert.Spec.layer (kT m c) (kW3 m c) (kW4 m c) (kB5 m c) 1 (kA1 m c)
/-- The activations leaving layer 2. -/
abbrev kA3 : Cert.Spec.Act := Cert.Spec.layer (kT m c) (kW3 m c) (kW4 m c) (kB5 m c) 2 (kA2 m c)
/-- The activations leaving layer 3. -/
abbrev kA4 : Cert.Spec.Act := Cert.Spec.layer (kT m c) (kW3 m c) (kW4 m c) (kB5 m c) 3 (kA3 m c)
/-- The activations leaving layer 4. -/
abbrev kA5 : Cert.Spec.Act := Cert.Spec.layer (kT m c) (kW3 m c) (kW4 m c) (kB5 m c) 4 (kA4 m c)
/-- The activations leaving layer 5. -/
abbrev kA6 : Cert.Spec.Act := Cert.Spec.layer (kT m c) (kW3 m c) (kW4 m c) (kB5 m c) 5 (kA5 m c)

/-! ## The stacked matrices before the first region, entry by entry -/

theorem base_t (b : Fin 8) (j e : Fin 1024) : Y2 m c (R main_v2) (ix3 b j e) = kT m c b j e :=
  congrFun ((Glue.v2_eq (V1 m c)).trans (V1_arg1 m c)) (ix3 b j e)
theorem base_v5 (l : Fin 6) (e f : Fin 1024) : Y2 m c (R main_v5) (ix3 l e f) = kW3 m c l ⟨f.val, by omega⟩ e :=
  (Glue.v5_apply (V1 m c) l e f).trans (congrFun (V1_arg3 m c) _)
theorem base_v8 (l : Fin 6) (e f : Fin 1024) : Y2 m c (R main_v8) (ix3 l e f) = kW3 m c l ⟨1024 + f.val, by omega⟩ e :=
  (Glue.v8_apply (V1 m c) l e f).trans (congrFun (V1_arg3 m c) _)
theorem base_v11 (l : Fin 6) (e f : Fin 1024) : Y2 m c (R main_v11) (ix3 l e f) = kW3 m c l ⟨2048 + f.val, by omega⟩ e :=
  (Glue.v11_apply (V1 m c) l e f).trans (congrFun (V1_arg3 m c) _)
theorem base_v13 (l : Fin 6) (f g : Fin 1024) : Y2 m c (R main_v13) (ix3 l f g) = kW4 m c l g f :=
  (Glue.v13_apply (V1 m c) l f g).trans (congrFun (V1_arg4 m c) _)
theorem base_v14 (l : Fin 6) (u : Fin 1) (g : Fin 1024) : Y2 m c (R main_v14) (ix3 l u g) = kB5 m c l g :=
  (Glue.v14_apply (V1 m c) l u g).trans (congrFun (V1_arg5 m c) _)

/-! ## What each region reads -/

theorem rd0_x (hin : Cert.Embed.InRange (m ((c.tc : Thread nD τ).loc main_arg0))) (b : Fin 8) (s e : Fin 1024) :
    Y2 m c (R main_v1) (ix3 b s e) = kA0 m c b s e :=
  (congrFun (Glue.v1_eq (V1 m c)) (ix3 b s e)).trans (take_apply (V0 m c) hin b s e)
theorem rd0_t (b : Fin 8) (j e : Fin 1024) : Y2 m c (R main_v2) (ix3 b j e) = kT m c b j e := base_t m c b j e
theorem rd0_q (e f : Fin 1024) : Y2 m c (R main_v16) (ix2 e f) = kW3 m c 0 ⟨f.val, by omega⟩ e :=
  (Glue.v16_apply (V1 m c) e f).trans (congrFun (V1_arg3 m c) _)
theorem rd0_k (e f : Fin 1024) : Y2 m c (R main_v18) (ix2 e f) = kW3 m c 0 ⟨1024 + f.val, by omega⟩ e :=
  (Glue.v18_apply (V1 m c) e f).trans (congrFun (V1_arg3 m c) _)
theorem rd0_v (e f : Fin 1024) : Y2 m c (R main_v20) (ix2 e f) = kW3 m c 0 ⟨2048 + f.val, by omega⟩ e :=
  (Glue.v20_apply (V1 m c) e f).trans (congrFun (V1_arg3 m c) _)
theorem rd0_o (f g : Fin 1024) : Y2 m c (R main_v22) (ix2 f g) = kW4 m c 0 g f :=
  (Glue.v22_apply (V1 m c) f g).trans (congrFun (V1_arg4 m c) _)
theorem rd0_b (g : Fin 1024) : Y2 m c (R main_v24) (ix2 (0 : Fin 1) g) = kB5 m c 0 g :=
  (Glue.v24_apply (V1 m c) 0 g).trans (congrFun (V1_arg5 m c) _)

theorem rd1_t (b : Fin 8) (j e : Fin 1024) : Y4 m c (R main_v2) (ix3 b j e) = kT m c b j e :=
  (congrFun (kept4_v2 m c) _).trans (base_t m c b j e)
theorem rd1_q (e f : Fin 1024) : Y4 m c (R main_v27) (ix2 e f) = kW3 m c 1 ⟨f.val, by omega⟩ e :=
  (Glue.v27_apply (Y3 m c) e f).trans ((congrFun (kept3_v5 m c) _).trans (base_v5 m c 1 e f))
theorem rd1_k (e f : Fin 1024) : Y4 m c (R main_v29) (ix2 e f) = kW3 m c 1 ⟨1024 + f.val, by omega⟩ e :=
  (Glue.v29_apply (Y3 m c) e f).trans ((congrFun (kept3_v8 m c) _).trans (base_v8 m c 1 e f))
theorem rd1_v (e f : Fin 1024) : Y4 m c (R main_v31) (ix2 e f) = kW3 m c 1 ⟨2048 + f.val, by omega⟩ e :=
  (Glue.v31_apply (Y3 m c) e f).trans ((congrFun (kept3_v11 m c) _).trans (base_v11 m c 1 e f))
theorem rd1_o (f g : Fin 1024) : Y4 m c (R main_v33) (ix2 f g) = kW4 m c 1 g f :=
  (Glue.v33_apply (Y3 m c) f g).trans ((congrFun (kept3_v13 m c) _).trans (base_v13 m c 1 f g))
theorem rd1_b (g : Fin 1024) : Y4 m c (R main_v35) (ix2 (0 : Fin 1) g) = kB5 m c 1 g :=
  (Glue.v35_apply (Y3 m c) 0 g).trans ((congrFun (kept3_v14 m c) _).trans (base_v14 m c 1 0 g))

theorem rd2_t (b : Fin 8) (j e : Fin 1024) : Y6 m c (R main_v2) (ix3 b j e) = kT m c b j e :=
  (congrFun (kept6_v2 m c) _).trans (base_t m c b j e)
theorem rd2_q (e f : Fin 1024) : Y6 m c (R main_v38) (ix2 e f) = kW3 m c 2 ⟨f.val, by omega⟩ e :=
  (Glue.v38_apply (Y5 m c) e f).trans ((congrFun (kept5_v5 m c) _).trans (base_v5 m c 2 e f))
theorem rd2_k (e f : Fin 1024) : Y6 m c (R main_v40) (ix2 e f) = kW3 m c 2 ⟨1024 + f.val, by omega⟩ e :=
  (Glue.v40_apply (Y5 m c) e f).trans ((congrFun (kept5_v8 m c) _).trans (base_v8 m c 2 e f))
theorem rd2_v (e f : Fin 1024) : Y6 m c (R main_v42) (ix2 e f) = kW3 m c 2 ⟨2048 + f.val, by omega⟩ e :=
  (Glue.v42_apply (Y5 m c) e f).trans ((congrFun (kept5_v11 m c) _).trans (base_v11 m c 2 e f))
theorem rd2_o (f g : Fin 1024) : Y6 m c (R main_v44) (ix2 f g) = kW4 m c 2 g f :=
  (Glue.v44_apply (Y5 m c) f g).trans ((congrFun (kept5_v13 m c) _).trans (base_v13 m c 2 f g))
theorem rd2_b (g : Fin 1024) : Y6 m c (R main_v46) (ix2 (0 : Fin 1) g) = kB5 m c 2 g :=
  (Glue.v46_apply (Y5 m c) 0 g).trans ((congrFun (kept5_v14 m c) _).trans (base_v14 m c 2 0 g))

theorem rd3_t (b : Fin 8) (j e : Fin 1024) : Y8 m c (R main_v2) (ix3 b j e) = kT m c b j e :=
  (congrFun (kept8_v2 m c) _).trans (base_t m c b j e)
theorem rd3_q (e f : Fin 1024) : Y8 m c (R main_v49) (ix2 e f) = kW3 m c 3 ⟨f.val, by omega⟩ e :=
  (Glue.v49_apply (Y7 m c) e f).trans ((congrFun (kept7_v5 m c) _).trans (base_v5 m c 3 e f))
theorem rd3_k (e f : Fin 1024) : Y8 m c (R main_v51) (ix2 e f) = kW3 m c 3 ⟨1024 + f.val, by omega⟩ e :=
  (Glue.v51_apply (Y7 m c) e f).trans ((congrFun (kept7_v8 m c) _).trans (base_v8 m c 3 e f))
theorem rd3_v (e f : Fin 1024) : Y8 m c (R main_v53) (ix2 e f) = kW3 m c 3 ⟨2048 + f.val, by omega⟩ e :=
  (Glue.v53_apply (Y7 m c) e f).trans ((congrFun (kept7_v11 m c) _).trans (base_v11 m c 3 e f))
theorem rd3_o (f g : Fin 1024) : Y8 m c (R main_v55) (ix2 f g) = kW4 m c 3 g f :=
  (Glue.v55_apply (Y7 m c) f g).trans ((congrFun (kept7_v13 m c) _).trans (base_v13 m c 3 f g))
theorem rd3_b (g : Fin 1024) : Y8 m c (R main_v57) (ix2 (0 : Fin 1) g) = kB5 m c 3 g :=
  (Glue.v57_apply (Y7 m c) 0 g).trans ((congrFun (kept7_v14 m c) _).trans (base_v14 m c 3 0 g))

theorem rd4_t (b : Fin 8) (j e : Fin 1024) : Y10 m c (R main_v2) (ix3 b j e) = kT m c b j e :=
  (congrFun (kept10_v2 m c) _).trans (base_t m c b j e)
theorem rd4_q (e f : Fin 1024) : Y10 m c (R main_v60) (ix2 e f) = kW3 m c 4 ⟨f.val, by omega⟩ e :=
  (Glue.v60_apply (Y9 m c) e f).trans ((congrFun (kept9_v5 m c) _).trans (base_v5 m c 4 e f))
theorem rd4_k (e f : Fin 1024) : Y10 m c (R main_v62) (ix2 e f) = kW3 m c 4 ⟨1024 + f.val, by omega⟩ e :=
  (Glue.v62_apply (Y9 m c) e f).trans ((congrFun (kept9_v8 m c) _).trans (base_v8 m c 4 e f))
theorem rd4_v (e f : Fin 1024) : Y10 m c (R main_v64) (ix2 e f) = kW3 m c 4 ⟨2048 + f.val, by omega⟩ e :=
  (Glue.v64_apply (Y9 m c) e f).trans ((congrFun (kept9_v11 m c) _).trans (base_v11 m c 4 e f))
theorem rd4_o (f g : Fin 1024) : Y10 m c (R main_v66) (ix2 f g) = kW4 m c 4 g f :=
  (Glue.v66_apply (Y9 m c) f g).trans ((congrFun (kept9_v13 m c) _).trans (base_v13 m c 4 f g))
theorem rd4_b (g : Fin 1024) : Y10 m c (R main_v68) (ix2 (0 : Fin 1) g) = kB5 m c 4 g :=
  (Glue.v68_apply (Y9 m c) 0 g).trans ((congrFun (kept9_v14 m c) _).trans (base_v14 m c 4 0 g))

theorem rd5_t (b : Fin 8) (j e : Fin 1024) : Y12 m c (R main_v2) (ix3 b j e) = kT m c b j e :=
  (congrFun (kept12_v2 m c) _).trans (base_t m c b j e)
theorem rd5_q (e f : Fin 1024) : Y12 m c (R main_v71) (ix2 e f) = kW3 m c 5 ⟨f.val, by omega⟩ e :=
  (Glue.v71_apply (Y11 m c) e f).trans ((congrFun (kept11_v5 m c) _).trans (base_v5 m c 5 e f))
theorem rd5_k (e f : Fin 1024) : Y12 m c (R main_v73) (ix2 e f) = kW3 m c 5 ⟨1024 + f.val, by omega⟩ e :=
  (Glue.v73_apply (Y11 m c) e f).trans ((congrFun (kept11_v8 m c) _).trans (base_v8 m c 5 e f))
theorem rd5_v (e f : Fin 1024) : Y12 m c (R main_v75) (ix2 e f) = kW3 m c 5 ⟨2048 + f.val, by omega⟩ e :=
  (Glue.v75_apply (Y11 m c) e f).trans ((congrFun (kept11_v11 m c) _).trans (base_v11 m c 5 e f))
theorem rd5_o (f g : Fin 1024) : Y12 m c (R main_v77) (ix2 f g) = kW4 m c 5 g f :=
  (Glue.v77_apply (Y11 m c) f g).trans ((congrFun (kept11_v13 m c) _).trans (base_v13 m c 5 f g))
theorem rd5_b (g : Fin 1024) : Y12 m c (R main_v79) (ix2 (0 : Fin 1) g) = kB5 m c 5 g :=
  (Glue.v79_apply (Y11 m c) 0 g).trans ((congrFun (kept11_v14 m c) _).trans (base_v14 m c 5 0 g))

/-! ## The regions' results, layer by layer -/

/-- Region 0 leaves the activations leaving layer 0. -/
theorem val0 (hin : Cert.Embed.InRange (m ((c.tc : Thread nD τ).loc main_arg0))) (b : Fin 8) (s g : Fin 1024) :
    Y3 m c (R main_v25) (ix3 b s g) = kA1 m c b s g :=
  (congrFun (reg0 m c) (ix3 b s g)).trans
    (Cert.KStep.layer_step (kT m c) (kW3 m c) (kW4 m c) (kB5 m c) 0 (kA0 m c) _ _ _ _ _ _ _
      (rd0_x m c hin) (rd0_t m c) (rd0_q m c) (rd0_k m c) (rd0_v m c) (rd0_o m c) (rd0_b m c) b s g)

/-- What region 1 reads as its rows: the activations leaving layer 0. -/
theorem rd1_x (hin : Cert.Embed.InRange (m ((c.tc : Thread nD τ).loc main_arg0))) (b : Fin 8) (s e : Fin 1024) :
    Y4 m c (R main_v25) (ix3 b s e) = kA1 m c b s e :=
  (congrFun (out4 m c) _).trans (val0 m c hin b s e)

/-- Region 1 leaves the activations leaving layer 1. -/
theorem val1 (hin : Cert.Embed.InRange (m ((c.tc : Thread nD τ).loc main_arg0))) (b : Fin 8) (s g : Fin 1024) :
    Y5 m c (R main_v36) (ix3 b s g) = kA2 m c b s g :=
  (congrFun (reg1 m c) (ix3 b s g)).trans
    (Cert.KStep.layer_step (kT m c) (kW3 m c) (kW4 m c) (kB5 m c) 1 (kA1 m c) _ _ _ _ _ _ _
      (rd1_x m c hin) (rd1_t m c) (rd1_q m c) (rd1_k m c) (rd1_v m c) (rd1_o m c) (rd1_b m c) b s g)

/-- What region 2 reads as its rows: the activations leaving layer 1. -/
theorem rd2_x (hin : Cert.Embed.InRange (m ((c.tc : Thread nD τ).loc main_arg0))) (b : Fin 8) (s e : Fin 1024) :
    Y6 m c (R main_v36) (ix3 b s e) = kA2 m c b s e :=
  (congrFun (out6 m c) _).trans (val1 m c hin b s e)

/-- Region 2 leaves the activations leaving layer 2. -/
theorem val2 (hin : Cert.Embed.InRange (m ((c.tc : Thread nD τ).loc main_arg0))) (b : Fin 8) (s g : Fin 1024) :
    Y7 m c (R main_v47) (ix3 b s g) = kA3 m c b s g :=
  (congrFun (reg2 m c) (ix3 b s g)).trans
    (Cert.KStep.layer_step (kT m c) (kW3 m c) (kW4 m c) (kB5 m c) 2 (kA2 m c) _ _ _ _ _ _ _
      (rd2_x m c hin) (rd2_t m c) (rd2_q m c) (rd2_k m c) (rd2_v m c) (rd2_o m c) (rd2_b m c) b s g)

/-- What region 3 reads as its rows: the activations leaving layer 2. -/
theorem rd3_x (hin : Cert.Embed.InRange (m ((c.tc : Thread nD τ).loc main_arg0))) (b : Fin 8) (s e : Fin 1024) :
    Y8 m c (R main_v47) (ix3 b s e) = kA3 m c b s e :=
  (congrFun (out8 m c) _).trans (val2 m c hin b s e)

/-- Region 3 leaves the activations leaving layer 3. -/
theorem val3 (hin : Cert.Embed.InRange (m ((c.tc : Thread nD τ).loc main_arg0))) (b : Fin 8) (s g : Fin 1024) :
    Y9 m c (R main_v58) (ix3 b s g) = kA4 m c b s g :=
  (congrFun (reg3 m c) (ix3 b s g)).trans
    (Cert.KStep.layer_step (kT m c) (kW3 m c) (kW4 m c) (kB5 m c) 3 (kA3 m c) _ _ _ _ _ _ _
      (rd3_x m c hin) (rd3_t m c) (rd3_q m c) (rd3_k m c) (rd3_v m c) (rd3_o m c) (rd3_b m c) b s g)

/-- What region 4 reads as its rows: the activations leaving layer 3. -/
theorem rd4_x (hin : Cert.Embed.InRange (m ((c.tc : Thread nD τ).loc main_arg0))) (b : Fin 8) (s e : Fin 1024) :
    Y10 m c (R main_v58) (ix3 b s e) = kA4 m c b s e :=
  (congrFun (out10 m c) _).trans (val3 m c hin b s e)

/-- Region 4 leaves the activations leaving layer 4. -/
theorem val4 (hin : Cert.Embed.InRange (m ((c.tc : Thread nD τ).loc main_arg0))) (b : Fin 8) (s g : Fin 1024) :
    Y11 m c (R main_v69) (ix3 b s g) = kA5 m c b s g :=
  (congrFun (reg4 m c) (ix3 b s g)).trans
    (Cert.KStep.layer_step (kT m c) (kW3 m c) (kW4 m c) (kB5 m c) 4 (kA4 m c) _ _ _ _ _ _ _
      (rd4_x m c hin) (rd4_t m c) (rd4_q m c) (rd4_k m c) (rd4_v m c) (rd4_o m c) (rd4_b m c) b s g)

/-- What region 5 reads as its rows: the activations leaving layer 4. -/
theorem rd5_x (hin : Cert.Embed.InRange (m ((c.tc : Thread nD τ).loc main_arg0))) (b : Fin 8) (s e : Fin 1024) :
    Y12 m c (R main_v69) (ix3 b s e) = kA5 m c b s e :=
  (congrFun (out12 m c) _).trans (val4 m c hin b s e)

/-- Region 5 leaves the activations leaving layer 5. -/
theorem val5 (hin : Cert.Embed.InRange (m ((c.tc : Thread nD τ).loc main_arg0))) (b : Fin 8) (s g : Fin 1024) :
    Y13 m c (R main_v80) (ix3 b s g) = kA6 m c b s g :=
  (congrFun (reg5 m c) (ix3 b s g)).trans
    (Cert.KStep.layer_step (kT m c) (kW3 m c) (kW4 m c) (kB5 m c) 5 (kA5 m c) _ _ _ _ _ _ _
      (rd5_x m c hin) (rd5_t m c) (rd5_q m c) (rd5_k m c) (rd5_v m c) (rd5_o m c) (rd5_b m c) b s g)

/-! ## The result -/

/-- The kernel program's result is the network function of its arguments, the token numbers in range. -/
theorem kernel_value_of_range (hin : Cert.Embed.InRange (m ((c.tc : Thread nD τ).loc main_arg0))) :
    Y16 m c (R main_v85) = fun i : S8x1024x32000.Idx =>
      Cert.Spec.net (Cert.Spec.embX0 (m ((c.tc : Thread nD τ).loc main_arg0)) (m ((c.tc : Thread nD τ).loc main_arg2)))
        (fun b j e => m ((c.tc : Thread nD τ).loc main_arg1) (ix3 b j e))
        (fun l r e => m ((c.tc : Thread nD τ).loc main_arg3) (ix3 l r e))
        (fun l g f => m ((c.tc : Thread nD τ).loc main_arg4) (ix3 l g f))
        (fun l g => m ((c.tc : Thread nD τ).loc main_arg5) (ix2 l g))
        (fun v e => m ((c.tc : Thread nD τ).loc main_arg6) (ix2 v e))
        (fun v => m ((c.tc : Thread nD τ).loc main_arg7) (ix1 v)) (i 0) (i 1) (i 2) := by
  funext i
  obtain ⟨b, s, v, rfl⟩ : ∃ (b : Fin 8) (s : Fin 1024) (v : Fin 32000), i = ix3 b s v := ⟨i 0, i 1, i 2, eq_ix3 i⟩
  refine (Glue.v85_apply (Y15 m c) b s v).trans ?_
  refine (congrFun (reg6 m c) _).trans ?_
  exact Cert.KStep.logit_step (kA6 m c) (kLW m c) (kLB m c) _ _ _ ⟨1024 * b.val + s.val, by omega⟩ b s
    (fun e => (Glue.v81_apply (Y13 m c) b s e).trans (val5 m c hin b s e))
    (fun v' e => congrFun ((Glue.v82_eq (Y13 m c)).trans (Y13_arg6 m c)) (ix2 v' e))
    (fun v' => (Glue.v83_apply (Y13 m c) 0 v').trans (congrFun (Y13_arg7 m c) _)) v

/-- The kernel program's result is the network function of its arguments, under the statement's precondition. -/
theorem kernel_value (hpre : Cert.Pre_KernelIdeal m) :
    Y16 m c (R main_v85) = fun i : S8x1024x32000.Idx =>
      Cert.Spec.net (Cert.Spec.embX0 (m ((c.tc : Thread nD τ).loc main_arg0)) (m ((c.tc : Thread nD τ).loc main_arg2)))
        (fun b j e => m ((c.tc : Thread nD τ).loc main_arg1) (ix3 b j e))
        (fun l r e => m ((c.tc : Thread nD τ).loc main_arg3) (ix3 l r e))
        (fun l g f => m ((c.tc : Thread nD τ).loc main_arg4) (ix3 l g f))
        (fun l g => m ((c.tc : Thread nD τ).loc main_arg5) (ix2 l g))
        (fun v e => m ((c.tc : Thread nD τ).loc main_arg6) (ix2 v e))
        (fun v => m ((c.tc : Thread nD τ).loc main_arg7) (ix1 v)) (i 0) (i 1) (i 2) :=
  kernel_value_of_range m c (Cert.Embed.pre_idx _ _ _ _ _ _ _ _ (hpre c))

end Cert.KernelIdeal.KVal

end
-- ==== Proof.RefDot.lean ====
import Idealize.ShloMosaic.PureOps.Ideal
import Idealize.ShloMosaic.PureOps.Ideal.Laws
import Idealize.ShloMosaic.Lib.ValueIdx

noncomputable section

open scoped BigOperators

namespace Cert.RefDot

open Idealize.ShloMosaic Idealize.ShloMosaic.ValueIdx

section Axes

variable {sl sr so : Shape} (d : DotDims sl sr so)

theorem lhs_batch_val (a : Fin sl.rank) (hb : a ∈ d.lhsBatch) (p : Nat) (hp : p < so.rank)
    (hpa : d.lhsBatch.idxOf a = p) (j : so.Idx) (k : d.contr.Idx) : (d.lhsIdx j k a).val = (j ⟨p, hp⟩).val := by
  subst hpa
  unfold DotDims.lhsIdx
  rw [dif_pos hb]
  rfl

theorem lhs_free_val (a : Fin sl.rank) (hb : a ∉ d.lhsBatch) (hn : a ∈ d.lhsNonContracting) (p : Nat) (hp : p < so.rank)
    (hpa : d.lhsBatch.length + d.lhsNonContracting.idxOf a = p) (j : so.Idx) (k : d.contr.Idx) :
    (d.lhsIdx j k a).val = (j ⟨p, hp⟩).val := by
  subst hpa
  unfold DotDims.lhsIdx
  rw [dif_neg hb, dif_pos hn]
  rfl

theorem rhs_batch_val (a : Fin sr.rank) (hb : a ∈ d.rhsBatch) (p : Nat) (hp : p < so.rank)
    (hpa : d.rhsBatch.idxOf a = p) (j : so.Idx) (k : d.contr.Idx) : (d.rhsIdx j k a).val = (j ⟨p, hp⟩).val := by
  subst hpa
  unfold DotDims.rhsIdx
  rw [dif_pos hb]
  rfl

theorem rhs_free_val (a : Fin sr.rank) (hb : a ∉ d.rhsBatch) (hn : a ∈ d.rhsNonContracting) (p : Nat) (hp : p < so.rank)
    (hpa : d.lhsBatch.length + d.lhsNonContracting.length + d.rhsNonContracting.idxOf a = p) (j : so.Idx) (k : d.contr.Idx) :
    (d.rhsIdx j k a).val = (j ⟨p, hp⟩).val := by
  subst hpa
  unfold DotDims.rhsIdx
  rw [dif_neg hb, dif_pos hn]
  rfl

theorem rank_contr_one {cl : Fin sl.rank} (hl : d.lhsContracting = [cl]) : d.contr.rank = 1 := by
  rw [d.rank_contr, hl]; rfl

theorem size_contr_zero {cl : Fin sl.rank} (hl : d.lhsContracting = [cl]) :
    d.contr.size ⟨0, by rw [rank_contr_one d hl]; exact Nat.one_pos⟩ = sl.size cl := by
  have h := d.size_contr 0 (by rw [hl]; exact Nat.one_pos)
  rw [h]
  have h1 : d.lhsContracting[0]'(by rw [hl]; exact Nat.one_pos) = cl := by simp [hl]
  rw [h1]

end Axes

theorem contr_sum_A {B S E G : Nat} {φ₁ φ₂ : FTy} (d : DotDims ⟨3, ![B, S, E]⟩ ⟨2, ![G, E]⟩ ⟨3, ![B, S, G]⟩)
    (hl : d.lhsContracting = [2]) (hr : d.rhsContracting = [1]) (hln : d.lhsNonContracting = [0, 1])
    (hrn : d.rhsNonContracting = [0]) (hlb : d.lhsBatch = []) (hrb : d.rhsBatch = [])
    (x : FVec Ideal ⟨3, ![B, S, E]⟩ φ₁) (w : FVec Ideal ⟨2, ![G, E]⟩ φ₂) (b : Fin B) (s : Fin S) (g : Fin G) :
    (∑ k : d.contr.Idx, x (d.lhsIdx (ix3 b s g) k) * w (d.rhsIdx (ix3 b s g) k)) = ∑ e : Fin E, x (ix3 b s e) * w (ix2 g e) := by
  have hr1 := rank_contr_one d hl
  have hs : d.contr.size ⟨0, by rw [hr1]; exact Nat.one_pos⟩ = E := size_contr_zero d hl
  rw [← Equiv.sum_comp (contrEquiv1 d E hr1 hs).symm]
  refine Finset.sum_congr rfl fun k _ => ?_
  have hk := contrEquiv1_symm_val d E hr1 hs k
  have hx : d.lhsIdx (ix3 b s g) ((contrEquiv1 d E hr1 hs).symm k) = ix3 b s k := by
    funext a
    match a with
    | ⟨0, _⟩ => exact Fin.ext (lhs_free_val d 0 (by rw [hlb]; exact List.not_mem_nil) (by rw [hln]; simp) 0 (by show (0 : ℕ) < 3; omega)
        (by rw [hlb, hln]; rfl) _ _)
    | ⟨1, _⟩ => exact Fin.ext (lhs_free_val d 1 (by rw [hlb]; exact List.not_mem_nil) (by rw [hln]; simp) 1 (by show (1 : ℕ) < 3; omega)
        (by rw [hlb, hln]; rfl) _ _)
    | ⟨2, _⟩ => exact Fin.ext ((d.lhsIdx_val_of_single hl _ _).trans hk)
  have hw : d.rhsIdx (ix3 b s g) ((contrEquiv1 d E hr1 hs).symm k) = ix2 g k := by
    funext a
    match a with
    | ⟨0, _⟩ => exact Fin.ext (rhs_free_val d 0 (by rw [hrb]; exact List.not_mem_nil) (by rw [hrn]; simp) 2 (by show (2 : ℕ) < 3; omega)
        (by rw [hlb, hln, hrn]; rfl) _ _)
    | ⟨1, _⟩ => exact Fin.ext ((d.rhsIdx_val_of_single hr _ _).trans hk)
  rw [hx, hw]

theorem dotA_at {B S E G : Nat} {φ₁ φ₂ : FTy} (d : DotDims ⟨3, ![B, S, E]⟩ ⟨2, ![G, E]⟩ ⟨3, ![B, S, G]⟩)
    (hl : d.lhsContracting = [2]) (hr : d.rhsContracting = [1]) (hln : d.lhsNonContracting = [0, 1])
    (hrn : d.rhsNonContracting = [0]) (hlb : d.lhsBatch = []) (hrb : d.rhsBatch = [])
    (prec : Option ContractPrecision) (sched : HostSchedule)
    (x : FVec Ideal ⟨3, ![B, S, E]⟩ φ₁) (w : FVec Ideal ⟨2, ![G, E]⟩ φ₂) (b : Fin B) (s : Fin S) (g : Fin G) :
    FloatOps.dotGeneral d prec sched x w (ix3 b s g) = ∑ e : Fin E, x (ix3 b s e) * w (ix2 g e) := by
  rw [Ideal.dotGeneral_apply]
  exact contr_sum_A d hl hr hln hrn hlb hrb x w b s g

theorem contr_sum_B {B S J E : Nat} {φ₁ φ₂ : FTy} (d : DotDims ⟨3, ![B, S, E]⟩ ⟨3, ![B, J, E]⟩ ⟨3, ![B, S, J]⟩)
    (hl : d.lhsContracting = [2]) (hr : d.rhsContracting = [2]) (hln : d.lhsNonContracting = [1])
    (hrn : d.rhsNonContracting = [1]) (hlb : d.lhsBatch = [0]) (hrb : d.rhsBatch = [0])
    (x : FVec Ideal ⟨3, ![B, S, E]⟩ φ₁) (w : FVec Ideal ⟨3, ![B, J, E]⟩ φ₂) (b : Fin B) (s : Fin S) (j : Fin J) :
    (∑ k : d.contr.Idx, x (d.lhsIdx (ix3 b s j) k) * w (d.rhsIdx (ix3 b s j) k)) = ∑ e : Fin E, x (ix3 b s e) * w (ix3 b j e) := by
  have hr1 := rank_contr_one d hl
  have hs : d.contr.size ⟨0, by rw [hr1]; exact Nat.one_pos⟩ = E := size_contr_zero d hl
  rw [← Equiv.sum_comp (contrEquiv1 d E hr1 hs).symm]
  refine Finset.sum_congr rfl fun k _ => ?_
  have hk := contrEquiv1_symm_val d E hr1 hs k
  have hx : d.lhsIdx (ix3 b s j) ((contrEquiv1 d E hr1 hs).symm k) = ix3 b s k := by
    funext a
    match a with
    | ⟨0, _⟩ => exact Fin.ext (lhs_batch_val d 0 (by rw [hlb]; simp) 0 (by show (0 : ℕ) < 3; omega) (by rw [hlb]; rfl) _ _)
    | ⟨1, _⟩ => exact Fin.ext (lhs_free_val d 1 (by rw [hlb]; simp) (by rw [hln]; simp) 1 (by show (1 : ℕ) < 3; omega)
        (by rw [hlb, hln]; rfl) _ _)
    | ⟨2, _⟩ => exact Fin.ext ((d.lhsIdx_val_of_single hl _ _).trans hk)
  have hw : d.rhsIdx (ix3 b s j) ((contrEquiv1 d E hr1 hs).symm k) = ix3 b j k := by
    funext a
    match a with
    | ⟨0, _⟩ => exact Fin.ext (rhs_batch_val d 0 (by rw [hrb]; simp) 0 (by show (0 : ℕ) < 3; omega) (by rw [hrb]; rfl) _ _)
    | ⟨1, _⟩ => exact Fin.ext (rhs_free_val d 1 (by rw [hrb]; simp) (by rw [hrn]; simp) 2 (by show (2 : ℕ) < 3; omega)
        (by rw [hlb, hln, hrn]; rfl) _ _)
    | ⟨2, _⟩ => exact Fin.ext ((d.rhsIdx_val_of_single hr _ _).trans hk)
  rw [hx, hw]

theorem dotB_at {B S J E : Nat} {φ₁ φ₂ : FTy} (d : DotDims ⟨3, ![B, S, E]⟩ ⟨3, ![B, J, E]⟩ ⟨3, ![B, S, J]⟩)
    (hl : d.lhsContracting = [2]) (hr : d.rhsContracting = [2]) (hln : d.lhsNonContracting = [1])
    (hrn : d.rhsNonContracting = [1]) (hlb : d.lhsBatch = [0]) (hrb : d.rhsBatch = [0])
    (prec : Option ContractPrecision) (sched : HostSchedule)
    (x : FVec Ideal ⟨3, ![B, S, E]⟩ φ₁) (w : FVec Ideal ⟨3, ![B, J, E]⟩ φ₂) (b : Fin B) (s : Fin S) (j : Fin J) :
    FloatOps.dotGeneral d prec sched x w (ix3 b s j) = ∑ e : Fin E, x (ix3 b s e) * w (ix3 b j e) := by
  rw [Ideal.dotGeneral_apply]
  exact contr_sum_B d hl hr hln hrn hlb hrb x w b s j

theorem contr_sum_C {B S J E : Nat} {φ₁ φ₂ : FTy} (d : DotDims ⟨3, ![B, S, J]⟩ ⟨3, ![B, J, E]⟩ ⟨3, ![B, S, E]⟩)
    (hl : d.lhsContracting = [2]) (hr : d.rhsContracting = [1]) (hln : d.lhsNonContracting = [1])
    (hrn : d.rhsNonContracting = [2]) (hlb : d.lhsBatch = [0]) (hrb : d.rhsBatch = [0])
    (x : FVec Ideal ⟨3, ![B, S, J]⟩ φ₁) (w : FVec Ideal ⟨3, ![B, J, E]⟩ φ₂) (b : Fin B) (s : Fin S) (f : Fin E) :
    (∑ k : d.contr.Idx, x (d.lhsIdx (ix3 b s f) k) * w (d.rhsIdx (ix3 b s f) k)) = ∑ j : Fin J, x (ix3 b s j) * w (ix3 b j f) := by
  have hr1 := rank_contr_one d hl
  have hs : d.contr.size ⟨0, by rw [hr1]; exact Nat.one_pos⟩ = J := size_contr_zero d hl
  rw [← Equiv.sum_comp (contrEquiv1 d J hr1 hs).symm]
  refine Finset.sum_congr rfl fun k _ => ?_
  have hk := contrEquiv1_symm_val d J hr1 hs k
  have hx : d.lhsIdx (ix3 b s f) ((contrEquiv1 d J hr1 hs).symm k) = ix3 b s k := by
    funext a
    match a with
    | ⟨0, _⟩ => exact Fin.ext (lhs_batch_val d 0 (by rw [hlb]; simp) 0 (by show (0 : ℕ) < 3; omega) (by rw [hlb]; rfl) _ _)
    | ⟨1, _⟩ => exact Fin.ext (lhs_free_val d 1 (by rw [hlb]; simp) (by rw [hln]; simp) 1 (by show (1 : ℕ) < 3; omega)
        (by rw [hlb, hln]; rfl) _ _)
    | ⟨2, _⟩ => exact Fin.ext ((d.lhsIdx_val_of_single hl _ _).trans hk)
  have hw : d.rhsIdx (ix3 b s f) ((contrEquiv1 d J hr1 hs).symm k) = ix3 b k f := by
    funext a
    match a with
    | ⟨0, _⟩ => exact Fin.ext (rhs_batch_val d 0 (by rw [hrb]; simp) 0 (by show (0 : ℕ) < 3; omega) (by rw [hrb]; rfl) _ _)
    | ⟨1, _⟩ => exact Fin.ext ((d.rhsIdx_val_of_single hr _ _).trans hk)
    | ⟨2, _⟩ => exact Fin.ext (rhs_free_val d 2 (by rw [hrb]; simp) (by rw [hrn]; simp) 2 (by show (2 : ℕ) < 3; omega)
        (by rw [hlb, hln, hrn]; rfl) _ _)
  rw [hx, hw]

theorem dotC_at {B S J E : Nat} {φ₁ φ₂ : FTy} (d : DotDims ⟨3, ![B, S, J]⟩ ⟨3, ![B, J, E]⟩ ⟨3, ![B, S, E]⟩)
    (hl : d.lhsContracting = [2]) (hr : d.rhsContracting = [1]) (hln : d.lhsNonContracting = [1])
    (hrn : d.rhsNonContracting = [2]) (hlb : d.lhsBatch = [0]) (hrb : d.rhsBatch = [0])
    (prec : Option ContractPrecision) (sched : HostSchedule)
    (x : FVec Ideal ⟨3, ![B, S, J]⟩ φ₁) (w : FVec Ideal ⟨3, ![B, J, E]⟩ φ₂) (b : Fin B) (s : Fin S) (f : Fin E) :
    FloatOps.dotGeneral d prec sched x w (ix3 b s f) = ∑ j : Fin J, x (ix3 b s j) * w (ix3 b j f) := by
  rw [Ideal.dotGeneral_apply]
  exact contr_sum_C d hl hr hln hrn hlb hrb x w b s f

end Cert.RefDot

end
-- ==== Proof.RefLayer.lean ====
import proofs.«427532_j66606352826848_3_alg».proof.Proof.Gen.ReferenceIdeal
import proofs.«427532_j66606352826848_3_alg».proof.Proof.Spec
import proofs.«427532_j66606352826848_3_alg».proof.Proof.RefDot
import Idealize.ShloMosaic.Lib.IdealHost
import Idealize.ShloMosaic.Lib.ValueLayout
import Idealize.ShloMosaic.Lib.Pipeline.Value
import Idealize.ShloMosaic.PureOps.Reduce

noncomputable section

open scoped BigOperators

namespace Cert.ReferenceIdeal.RefLayer

open Cert.ReferenceIdeal Cert.ReferenceIdeal.Gen Idealize.ShloMosaic Idealize.ShloMosaic.ValueIdx

abbrev A3 : Type := FVec Ideal S8x1024x1024 .f32

abbrev M2 : Type := FVec Ideal S1024x1024 .f32

abbrev dA := dot_S8x1024x1024_S1024x1024_S8x1024x1024_2_1_01_0_n_n
abbrev dB := dot_S8x1024x1024_S8x1024x1024_S8x1024x1024_2_2_1_1_0_0
abbrev dC := dot_S8x1024x1024_S8x1024x1024_S8x1024x1024_2_1_1_2_0_0
abbrev dL := dot_S8x1024x1024_S32000x1024_S8x1024x32000_2_1_01_0_n_n

def scoresT (X tg : A3) (wq wk : M2) : A3 :=
  Host.dotGeneral dB none (mulf (Host.dotGeneral dA none X wq) (broadcastInDim S8x1024x1024 ![] bcast_S_S8x1024x1024 (constant S_ .f32 0x3E000000#32))) (Host.dotGeneral dA none tg wk)

def expT (S : A3) : A3 :=
  Host.exp (subf S (broadcastInDim S8x1024x1024 ![0, 1, 2] bcast_S8x1024x1_S8x1024x1024_0_1_2 (broadcastInDim S8x1024x1 ![0, 1] bcast_S8x1024_S8x1024x1_0_1 (maximumf (broadcastInDim S8x1024 ![] bcast_S_S8x1024 (constant S_ .f32 0xFF800000#32)) (Host.reduce FloatOps.maximumf S (constant S_ .f32 0xFF800000#32) reducesTo_S8x1024x1024_S8x1024_d2 h_S_)))))

def outT (E tg : A3) (wv wo : M2) (bo : FVec Ideal S1024 .f32) : A3 :=
  addf (Host.dotGeneral dA none (Host.dotGeneral dC none (Host.divf E (broadcastInDim S8x1024x1024 ![0, 1, 2] bcast_S8x1024x1_S8x1024x1024_0_1_2 (broadcastInDim S8x1024x1 ![0, 1] bcast_S8x1024_S8x1024x1_0_1 (Host.reduceAdd E (constant S_ .f32 0x00000000#32) reducesTo_S8x1024x1024_S8x1024_d2 h_S_)))) (Host.dotGeneral dA none tg wv)) wo) (broadcastInDim S8x1024x1024 ![0, 1, 2] bcast_S1x1x1024_S8x1024x1024_0_1_2 (broadcastInDim S1x1x1024 ![2] bcast_S1024_S1x1x1024_2 bo))

def layerT (X tg : A3) (wq wk wv wo : M2) (bo : FVec Ideal S1024 .f32) : A3 :=
  outT (expT (scoresT X tg wq wk)) tg wv wo bo

theorem dA_at (x : A3) (w : M2) (b : Fin 8) (s g : Fin 1024) :
    Host.dotGeneral dA none x w (ix3 b s g) = ∑ e : Fin 1024, x (ix3 b s e) * w (ix2 g e) :=
  RefDot.dotA_at dA rfl rfl rfl rfl rfl rfl none .single x w b s g

theorem dB_at (x w : A3) (b : Fin 8) (s j : Fin 1024) :
    Host.dotGeneral dB none x w (ix3 b s j) = ∑ f : Fin 1024, x (ix3 b s f) * w (ix3 b j f) :=
  RefDot.dotB_at dB rfl rfl rfl rfl rfl rfl none .single x w b s j

theorem dC_at (x w : A3) (b : Fin 8) (s f : Fin 1024) :
    Host.dotGeneral dC none x w (ix3 b s f) = ∑ j : Fin 1024, x (ix3 b s j) * w (ix3 b j f) :=
  RefDot.dotC_at dC rfl rfl rfl rfl rfl rfl none .single x w b s f

theorem dL_at (x : A3) (w : FVec Ideal S32000x1024 .f32) (b : Fin 8) (s : Fin 1024) (v : Fin 32000) :
    Host.dotGeneral dL none x w (ix3 b s v) = ∑ e : Fin 1024, x (ix3 b s e) * w (ix2 v e) :=
  RefDot.dotA_at dL rfl rfl rfl rfl rfl rfl none .single x w b s v

theorem bcast_row_apply {α : Type} (h3 : S8x1024x1.BroadcastsInDim S8x1024x1024 (![0, 1, 2] : Fin 3 → Fin S8x1024x1024.rank))
    (h2 : S8x1024.BroadcastsInDim S8x1024x1 (![0, 1] : Fin 2 → Fin S8x1024x1.rank)) (m : S8x1024.Idx → α)
    (b : Fin 8) (s j : Fin 1024) :
    broadcastInDim S8x1024x1024 ![0, 1, 2] h3 (broadcastInDim S8x1024x1 ![0, 1] h2 m) (ix3 b s j) = m (ix2 b s) := by
  rw [broadcastInDim_apply _ h3 _ _ (ix3 b s (0 : Fin 1)) (fun a => by
    match a with
    | ⟨0, _⟩ => rfl
    | ⟨1, _⟩ => rfl
    | ⟨2, _⟩ => rfl)]
  rw [broadcastInDim_apply _ h2 _ _ (ix2 b s) (fun a => by
    match a with
    | ⟨0, _⟩ => rfl
    | ⟨1, _⟩ => rfl)]

theorem bcast_bias_apply {α : Type} (h3 : S1x1x1024.BroadcastsInDim S8x1024x1024 (![0, 1, 2] : Fin 3 → Fin S8x1024x1024.rank))
    (h1 : S1024.BroadcastsInDim S1x1x1024 (![2] : Fin 1 → Fin S1x1x1024.rank)) (v : S1024.Idx → α)
    (b : Fin 8) (s g : Fin 1024) :
    broadcastInDim S8x1024x1024 ![0, 1, 2] h3 (broadcastInDim S1x1x1024 ![2] h1 v) (ix3 b s g) = v (ix1 g) := by
  rw [broadcastInDim_apply _ h3 _ _ (ix3 (0 : Fin 1) (0 : Fin 1) g) (fun a => by
    match a with
    | ⟨0, _⟩ => rfl
    | ⟨1, _⟩ => rfl
    | ⟨2, _⟩ => rfl)]
  rw [broadcastInDim_apply _ h1 _ _ (ix1 g) (fun a => by
    match a with
    | ⟨0, _⟩ => rfl)]

theorem bcast_vbias_apply {α : Type} (h3 : S1x1x32000.BroadcastsInDim S8x1024x32000 (![0, 1, 2] : Fin 3 → Fin S8x1024x32000.rank))
    (h1 : S32000.BroadcastsInDim S1x1x32000 (![2] : Fin 1 → Fin S1x1x32000.rank)) (v : S32000.Idx → α)
    (b : Fin 8) (s : Fin 1024) (g : Fin 32000) :
    broadcastInDim S8x1024x32000 ![0, 1, 2] h3 (broadcastInDim S1x1x32000 ![2] h1 v) (ix3 b s g) = v (ix1 g) := by
  rw [broadcastInDim_apply _ h3 _ _ (ix3 (0 : Fin 1) (0 : Fin 1) g) (fun a => by
    match a with
    | ⟨0, _⟩ => rfl
    | ⟨1, _⟩ => rfl
    | ⟨2, _⟩ => rfl)]
  rw [broadcastInDim_apply _ h1 _ _ (ix1 g) (fun a => by
    match a with
    | ⟨0, _⟩ => rfl)]

theorem rowmax_apply (S : A3) (h' : S8x1024x1024.ReducesTo [2] S8x1024) (hu : 0 < S_.numel) (b : Fin 8) (s : Fin 1024) :
    Host.reduce FloatOps.maximumf S (constant S_ .f32 0xFF800000#32) h' hu (ix2 b s)
      = (Finset.univ : Finset (Fin 1024)).fold max Cert.Spec.NI (fun j => S (ix3 b s j)) := by
  have h : S8x1024x1024.Reduces [2] S8x1024 := by decide
  rw [Host.reduce_eq_fold_single FloatOps.maximumf S _ h' h hu]
  have hx : (S ∘ h.lift (ix2 b s)) = fun j : Fin 1024 => S (ix3 b s j) := by
    funext k
    refine congrArg S (funext fun a => ?_)
    match a with
    | ⟨0, _⟩ => exact Fin.ext rfl
    | ⟨1, _⟩ => exact Fin.ext rfl
    | ⟨2, _⟩ => exact Fin.ext rfl
  rw [hx]
  rfl

theorem rowsum_apply (E : A3) (h' : S8x1024x1024.ReducesTo [2] S8x1024) (hu : 0 < S_.numel) (b : Fin 8) (s : Fin 1024) :
    Host.reduceAdd E (constant S_ .f32 0x00000000#32) h' hu (ix2 b s) = ∑ j : Fin 1024, E (ix3 b s j) := by
  have h : S8x1024x1024.Reduces [2] S8x1024 := by decide
  rw [hostReduceAdd_apply, Ideal.hostReduceAdd_single h' h, constant_apply, Ideal.ofBits_zero_f32, zero_add]
  refine Finset.sum_congr rfl fun k _ => congrArg E (funext fun a => ?_)
  match a with
  | ⟨0, _⟩ => exact Fin.ext rfl
  | ⟨1, _⟩ => exact Fin.ext rfl
  | ⟨2, _⟩ => exact Fin.ext rfl

theorem scoresT_apply (X tg : A3) (wq wk : M2) (b : Fin 8) (s j : Fin 1024) :
    scoresT X tg wq wk (ix3 b s j)
      = Cert.Spec.scores (fun e => X (ix3 b s e)) (fun j' => Cert.Spec.proj (fun e => tg (ix3 b j' e)) (fun e f => wk (ix2 f e)))
          (fun e f => wq (ix2 f e)) j := by
  unfold scoresT Cert.Spec.scores Cert.Spec.proj
  rw [dB_at]
  refine Finset.sum_congr rfl fun f _ => ?_
  rw [mulf_apply, dA_at, dA_at, broadcastInDim_scalar_apply, constant_apply]

theorem expT_apply (S : A3) (b : Fin 8) (s j : Fin 1024) :
    expT S (ix3 b s j) = Ideal.exp (S (ix3 b s j) - Cert.Spec.rowMax (fun j' => S (ix3 b s j'))) := by
  unfold expT Host.exp Cert.Spec.rowMax
  rw [Ideal.hostUnary_exp_def, subf_apply, bcast_row_apply, maximumf_apply, broadcastInDim_scalar_apply, constant_apply,
    rowmax_apply]

theorem outT_apply (E tg : A3) (wv wo : M2) (bo : FVec Ideal S1024 .f32) (b : Fin 8) (s g : Fin 1024) :
    outT E tg wv wo bo (ix3 b s g)
      = (∑ f : Fin 1024, (∑ j : Fin 1024, Ideal.div (E (ix3 b s j)) (∑ k : Fin 1024, E (ix3 b s k))
            * Cert.Spec.proj (fun e => tg (ix3 b j e)) (fun e f' => wv (ix2 f' e)) f) * wo (ix2 g f)) + bo (ix1 g) := by
  unfold outT Cert.Spec.proj
  rw [addf_apply, dA_at, bcast_bias_apply]
  congr 1
  refine Finset.sum_congr rfl fun f _ => ?_
  rw [dC_at]
  congr 1
  refine Finset.sum_congr rfl fun j _ => ?_
  rw [hostDivf_apply, bcast_row_apply, rowsum_apply, dA_at]

theorem layerT_apply (X tg : A3) (wq wk wv wo : M2) (bo : FVec Ideal S1024 .f32) (b : Fin 8) (s g : Fin 1024) :
    layerT X tg wq wk wv wo bo (ix3 b s g)
      = Cert.Spec.attnRow (fun e => X (ix3 b s e)) (fun j e => tg (ix3 b j e)) (fun e f => wq (ix2 f e)) (fun e f => wk (ix2 f e))
          (fun e f => wv (ix2 f e)) (fun f g' => wo (ix2 g' f)) (fun g' => bo (ix1 g')) g := by
  unfold layerT Cert.Spec.attnRow Cert.Spec.attnRowKV
  rw [outT_apply]
  congr 1
  refine Finset.sum_congr rfl fun f _ => ?_
  congr 1
  refine Finset.sum_congr rfl fun j _ => ?_
  congr 1
  unfold Cert.Spec.weights
  have hE : ∀ k : Fin 1024, expT (scoresT X tg wq wk) (ix3 b s k)
      = Ideal.exp (Cert.Spec.scores (fun e => X (ix3 b s e)) (fun j' => Cert.Spec.proj (fun e => tg (ix3 b j' e)) (fun e f => wk (ix2 f e)))
          (fun e f => wq (ix2 f e)) k - Cert.Spec.rowMax (Cert.Spec.scores (fun e => X (ix3 b s e))
            (fun j' => Cert.Spec.proj (fun e => tg (ix3 b j' e)) (fun e f => wk (ix2 f e))) (fun e f => wq (ix2 f e)))) := by
    intro k
    rw [expT_apply]
    have hS : (fun j' => scoresT X tg wq wk (ix3 b s j')) = Cert.Spec.scores (fun e => X (ix3 b s e))
        (fun j' => Cert.Spec.proj (fun e => tg (ix3 b j' e)) (fun e f => wk (ix2 f e))) (fun e f => wq (ix2 f e)) :=
      funext fun j' => scoresT_apply X tg wq wk b s j'
    rw [hS, scoresT_apply]
  rw [hE j]
  congr 1
  exact Finset.sum_congr rfl fun k _ => hE k

theorem w3_slice_apply (W : FVec Ideal S6x3072x1024 .f32) (lv o : Nat) (h : S6x3072x1024.Slices ![lv, o, 0] S1x1024x1024)
    (hc : S1x1024x1024.ShapeCasts S1024x1024) (l : Fin 6) (hl : l.val = lv) (f e : Fin 1024) (k : Fin 3072)
    (hk : k.val = o + f.val) :
    shapeCast S1024x1024 (extractStridedSlice S1x1024x1024 ![lv, o, 0] W h) hc (ix2 f e) = W (ix3 l k e) := by
  rw [shapeCast_1ab_ab_apply]
  exact extractStridedSlice_apply _ _ _ _ _ (fun ax => by
    match ax with
    | ⟨0, _⟩ => exact hl
    | ⟨1, _⟩ => exact hk
    | ⟨2, _⟩ => exact (Nat.zero_add _).symm)

theorem w4_slice_apply (W : FVec Ideal S6x1024x1024 .f32) (lv : Nat) (h : S6x1024x1024.Slices ![lv, 0, 0] S1x1024x1024)
    (hc : S1x1024x1024.ShapeCasts S1024x1024) (l : Fin 6) (hl : l.val = lv) (g f : Fin 1024) :
    shapeCast S1024x1024 (extractStridedSlice S1x1024x1024 ![lv, 0, 0] W h) hc (ix2 g f) = W (ix3 l g f) := by
  rw [shapeCast_1ab_ab_apply]
  exact extractStridedSlice_apply _ _ _ _ _ (fun ax => by
    match ax with
    | ⟨0, _⟩ => exact hl
    | ⟨1, _⟩ => exact (Nat.zero_add _).symm
    | ⟨2, _⟩ => exact (Nat.zero_add _).symm)

theorem b5_slice_apply (Bv : FVec Ideal S6x1024 .f32) (lv : Nat) (h : S6x1024.Slices ![lv, 0] S1x1024)
    (hc : S1x1024.ShapeCasts S1024) (l : Fin 6) (hl : l.val = lv) (g : Fin 1024) :
    shapeCast S1024 (extractStridedSlice S1x1024 ![lv, 0] Bv h) hc (ix1 g) = Bv (ix2 l g) := by
  rw [shapeCast_1a_a_apply]
  exact extractStridedSlice_apply _ _ _ _ _ (fun ax => by
    match ax with
    | ⟨0, _⟩ => exact hl
    | ⟨1, _⟩ => exact (Nat.zero_add _).symm)

theorem layer_apply (lv : Nat) (l : Fin 6) (hl : l.val = lv) (X tg : A3) (W3 : FVec Ideal S6x3072x1024 .f32)
    (W4 : FVec Ideal S6x1024x1024 .f32) (B5 : FVec Ideal S6x1024 .f32)
    (hq : S6x3072x1024.Slices ![lv, 0, 0] S1x1024x1024) (hk : S6x3072x1024.Slices ![lv, 1024, 0] S1x1024x1024)
    (hv : S6x3072x1024.Slices ![lv, 2048, 0] S1x1024x1024) (ho : S6x1024x1024.Slices ![lv, 0, 0] S1x1024x1024)
    (hb : S6x1024.Slices ![lv, 0] S1x1024) (hc : S1x1024x1024.ShapeCasts S1024x1024) (hc1 : S1x1024.ShapeCasts S1024)
    (b : Fin 8) (s g : Fin 1024) :
    layerT X tg (shapeCast S1024x1024 (extractStridedSlice S1x1024x1024 ![lv, 0, 0] W3 hq) hc)
        (shapeCast S1024x1024 (extractStridedSlice S1x1024x1024 ![lv, 1024, 0] W3 hk) hc)
        (shapeCast S1024x1024 (extractStridedSlice S1x1024x1024 ![lv, 2048, 0] W3 hv) hc)
        (shapeCast S1024x1024 (extractStridedSlice S1x1024x1024 ![lv, 0, 0] W4 ho) hc)
        (shapeCast S1024 (extractStridedSlice S1x1024 ![lv, 0] B5 hb) hc1) (ix3 b s g)
      = Cert.Spec.layer (fun b' j e => tg (ix3 b' j e)) (fun l' r e => W3 (ix3 l' r e)) (fun l' g' f => W4 (ix3 l' g' f))
          (fun l' g' => B5 (ix2 l' g')) l (fun b' s' e => X (ix3 b' s' e)) b s g := by
  rw [layerT_apply]
  unfold Cert.Spec.layer
  have h1 : (fun (e f : Fin 1024) => shapeCast S1024x1024 (extractStridedSlice S1x1024x1024 ![lv, 0, 0] W3 hq) hc (ix2 f e))
      = fun e f => W3 (ix3 l ⟨f.val, by omega⟩ e) :=
    funext fun e => funext fun f => w3_slice_apply W3 lv 0 hq hc l hl f e _ (Nat.zero_add _).symm
  have h2 : (fun (e f : Fin 1024) => shapeCast S1024x1024 (extractStridedSlice S1x1024x1024 ![lv, 1024, 0] W3 hk) hc (ix2 f e))
      = fun e f => W3 (ix3 l ⟨1024 + f.val, by omega⟩ e) :=
    funext fun e => funext fun f => w3_slice_apply W3 lv 1024 hk hc l hl f e _ rfl
  have h3 : (fun (e f : Fin 1024) => shapeCast S1024x1024 (extractStridedSlice S1x1024x1024 ![lv, 2048, 0] W3 hv) hc (ix2 f e))
      = fun e f => W3 (ix3 l ⟨2048 + f.val, by omega⟩ e) :=
    funext fun e => funext fun f => w3_slice_apply W3 lv 2048 hv hc l hl f e _ rfl
  have h4 : (fun (f g' : Fin 1024) => shapeCast S1024x1024 (extractStridedSlice S1x1024x1024 ![lv, 0, 0] W4 ho) hc (ix2 g' f))
      = fun f g' => W4 (ix3 l g' f) :=
    funext fun f => funext fun g' => w4_slice_apply W4 lv ho hc l hl g' f
  have h5 : (fun (g' : Fin 1024) => shapeCast S1024 (extractStridedSlice S1x1024 ![lv, 0] B5 hb) hc1 (ix1 g'))
      = fun g' => B5 (ix2 l g') :=
    funext fun g' => b5_slice_apply B5 lv hb hc1 l hl g'
  rw [h1, h2, h3, h4, h5]

end Cert.ReferenceIdeal.RefLayer

end
-- ==== Proof.RefVal.lean ====
/- The reference program's result as the network function of its arguments. -/
import proofs.«427532_j66606352826848_3_alg».proof.Proof.Gen.ReferenceIdeal.Run
import proofs.«427532_j66606352826848_3_alg».proof.Proof.Spec
import proofs.«427532_j66606352826848_3_alg».proof.Proof.RefLayer

noncomputable section

open scoped BigOperators

namespace Cert.ReferenceIdeal.RefVal

open Cert.ReferenceIdeal Cert.ReferenceIdeal.Gen Cert.ReferenceIdeal.Value Cert.ReferenceIdeal.RefLayer
open Idealize.ShloMosaic Idealize.ShloMosaic.TcCoe Idealize.SL.Sem Idealize.ShloMosaic.StableHlo Idealize.ShloMosaic.ValueIdx

/-! ## The arguments as the specification reads them -/

/-- The embedded rows: the table's rows the (wrapped) token numbers pick. -/
def refX0 (V0 : Valuation τ sig (Elt Ideal)) : Cert.Spec.Act := fun b s e =>
  (Host.gather gather_S32000x1024_S8x1024x1_S8x1024x1024_2_0_n_n_0_2_11024 (V0 (Proc.devRef .tc main_arg2)) (broadcastInDim S8x1024x1 ![0, 1] bcast_S8x1024_S8x1024x1_0_1 (select (cmpi .slt (V0 (Proc.devRef .tc main_arg0)) (broadcastInDim S8x1024 ![] bcast_S_S8x1024 (constantI S_ 32 0#32))) (addi (V0 (Proc.devRef .tc main_arg0)) (broadcastInDim S8x1024 ![] bcast_S_S8x1024 (constantI S_ 32 32000#32))) (V0 (Proc.devRef .tc main_arg0))))) (ix3 b s e)
/-- The target rows. -/
def argT (V0 : Valuation τ sig (Elt Ideal)) : Cert.Spec.Act := fun b j e => V0 (Proc.devRef .tc main_arg1) (ix3 b j e)
/-- The stacked query, key and value matrices of the six layers. -/
def argW3 (V0 : Valuation τ sig (Elt Ideal)) : Fin 6 → Fin 3072 → Fin 1024 → EReal := fun l r e => V0 (Proc.devRef .tc main_arg3) (ix3 l r e)
/-- The output matrices of the six layers. -/
def argW4 (V0 : Valuation τ sig (Elt Ideal)) : Fin 6 → Fin 1024 → Fin 1024 → EReal := fun l g f => V0 (Proc.devRef .tc main_arg4) (ix3 l g f)
/-- The output biases of the six layers. -/
def argB5 (V0 : Valuation τ sig (Elt Ideal)) : Fin 6 → Fin 1024 → EReal := fun l g => V0 (Proc.devRef .tc main_arg5) (ix2 l g)
/-- The vocabulary matrix. -/
def argLW (V0 : Valuation τ sig (Elt Ideal)) : Fin 32000 → Fin 1024 → EReal := fun v e => V0 (Proc.devRef .tc main_arg6) (ix2 v e)
/-- The vocabulary bias. -/
def argLB (V0 : Valuation τ sig (Elt Ideal)) : Fin 32000 → EReal := fun v => V0 (Proc.devRef .tc main_arg7) (ix1 v)

/-! ## The activations after each layer, as arrays -/

/-- The embedded rows as an array. -/
def act0 (V0 : Valuation τ sig (Elt Ideal)) : A3 :=
  (Host.gather gather_S32000x1024_S8x1024x1_S8x1024x1024_2_0_n_n_0_2_11024 (V0 (Proc.devRef .tc main_arg2)) (broadcastInDim S8x1024x1 ![0, 1] bcast_S8x1024_S8x1024x1_0_1 (select (cmpi .slt (V0 (Proc.devRef .tc main_arg0)) (broadcastInDim S8x1024 ![] bcast_S_S8x1024 (constantI S_ 32 0#32))) (addi (V0 (Proc.devRef .tc main_arg0)) (broadcastInDim S8x1024 ![] bcast_S_S8x1024 (constantI S_ 32 32000#32))) (V0 (Proc.devRef .tc main_arg0)))))
/-- The activations after layer 0. -/
def act1 (V0 : Valuation τ sig (Elt Ideal)) : A3 :=
  layerT (act0 V0) (V0 (Proc.devRef .tc main_arg1)) (shapeCast _ (extractStridedSlice S1x1024x1024 ![0, 0, 0] (V0 (Proc.devRef .tc main_arg3)) slices_S6x3072x1024_S1x1024x1024_0_0_0) shapeCasts_S1x1024x1024_S1024x1024) (shapeCast _ (extractStridedSlice S1x1024x1024 ![0, 1024, 0] (V0 (Proc.devRef .tc main_arg3)) slices_S6x3072x1024_S1x1024x1024_0_1024_0) shapeCasts_S1x1024x1024_S1024x1024) (shapeCast _ (extractStridedSlice S1x1024x1024 ![0, 2048, 0] (V0 (Proc.devRef .tc main_arg3)) slices_S6x3072x1024_S1x1024x1024_0_2048_0) shapeCasts_S1x1024x1024_S1024x1024) (shapeCast _ (extractStridedSlice S1x1024x1024 ![0, 0, 0] (V0 (Proc.devRef .tc main_arg4)) slices_S6x1024x1024_S1x1024x1024_0_0_0) shapeCasts_S1x1024x1024_S1024x1024) (shapeCast _ (extractStridedSlice S1x1024 ![0, 0] (V0 (Proc.devRef .tc main_arg5)) slices_S6x1024_S1x1024_0_0) shapeCasts_S1x1024_S1024)
/-- The activations after layer 1. -/
def act2 (V0 : Valuation τ sig (Elt Ideal)) : A3 :=
  layerT (act1 V0) (V0 (Proc.devRef .tc main_arg1)) (shapeCast _ (extractStridedSlice S1x1024x1024 ![1, 0, 0] (V0 (Proc.devRef .tc main_arg3)) slices_S6x3072x1024_S1x1024x1024_1_0_0) shapeCasts_S1x1024x1024_S1024x1024) (shapeCast _ (extractStridedSlice S1x1024x1024 ![1, 1024, 0] (V0 (Proc.devRef .tc main_arg3)) slices_S6x3072x1024_S1x1024x1024_1_1024_0) shapeCasts_S1x1024x1024_S1024x1024) (shapeCast _ (extractStridedSlice S1x1024x1024 ![1, 2048, 0] (V0 (Proc.devRef .tc main_arg3)) slices_S6x3072x1024_S1x1024x1024_1_2048_0) shapeCasts_S1x1024x1024_S1024x1024) (shapeCast _ (extractStridedSlice S1x1024x1024 ![1, 0, 0] (V0 (Proc.devRef .tc main_arg4)) slices_S6x1024x1024_S1x1024x1024_1_0_0) shapeCasts_S1x1024x1024_S1024x1024) (shapeCast _ (extractStridedSlice S1x1024 ![1, 0] (V0 (Proc.devRef .tc main_arg5)) slices_S6x1024_S1x1024_1_0) shapeCasts_S1x1024_S1024)
/-- The activations after layer 2. -/
def act3 (V0 : Valuation τ sig (Elt Ideal)) : A3 :=
  layerT (act2 V0) (V0 (Proc.devRef .tc main_arg1)) (shapeCast _ (extractStridedSlice S1x1024x1024 ![2, 0, 0] (V0 (Proc.devRef .tc main_arg3)) slices_S6x3072x1024_S1x1024x1024_2_0_0) shapeCasts_S1x1024x1024_S1024x1024) (shapeCast _ (extractStridedSlice S1x1024x1024 ![2, 1024, 0] (V0 (Proc.devRef .tc main_arg3)) slices_S6x3072x1024_S1x1024x1024_2_1024_0) shapeCasts_S1x1024x1024_S1024x1024) (shapeCast _ (extractStridedSlice S1x1024x1024 ![2, 2048, 0] (V0 (Proc.devRef .tc main_arg3)) slices_S6x3072x1024_S1x1024x1024_2_2048_0) shapeCasts_S1x1024x1024_S1024x1024) (shapeCast _ (extractStridedSlice S1x1024x1024 ![2, 0, 0] (V0 (Proc.devRef .tc main_arg4)) slices_S6x1024x1024_S1x1024x1024_2_0_0) shapeCasts_S1x1024x1024_S1024x1024) (shapeCast _ (extractStridedSlice S1x1024 ![2, 0] (V0 (Proc.devRef .tc main_arg5)) slices_S6x1024_S1x1024_2_0) shapeCasts_S1x1024_S1024)
/-- The activations after layer 3. -/
def act4 (V0 : Valuation τ sig (Elt Ideal)) : A3 :=
  layerT (act3 V0) (V0 (Proc.devRef .tc main_arg1)) (shapeCast _ (extractStridedSlice S1x1024x1024 ![3, 0, 0] (V0 (Proc.devRef .tc main_arg3)) slices_S6x3072x1024_S1x1024x1024_3_0_0) shapeCasts_S1x1024x1024_S1024x1024) (shapeCast _ (extractStridedSlice S1x1024x1024 ![3, 1024, 0] (V0 (Proc.devRef .tc main_arg3)) slices_S6x3072x1024_S1x1024x1024_3_1024_0) shapeCasts_S1x1024x1024_S1024x1024) (shapeCast _ (extractStridedSlice S1x1024x1024 ![3, 2048, 0] (V0 (Proc.devRef .tc main_arg3)) slices_S6x3072x1024_S1x1024x1024_3_2048_0) shapeCasts_S1x1024x1024_S1024x1024) (shapeCast _ (extractStridedSlice S1x1024x1024 ![3, 0, 0] (V0 (Proc.devRef .tc main_arg4)) slices_S6x1024x1024_S1x1024x1024_3_0_0) shapeCasts_S1x1024x1024_S1024x1024) (shapeCast _ (extractStridedSlice S1x1024 ![3, 0] (V0 (Proc.devRef .tc main_arg5)) slices_S6x1024_S1x1024_3_0) shapeCasts_S1x1024_S1024)
/-- The activations after layer 4. -/
def act5 (V0 : Valuation τ sig (Elt Ideal)) : A3 :=
  layerT (act4 V0) (V0 (Proc.devRef .tc main_arg1)) (shapeCast _ (extractStridedSlice S1x1024x1024 ![4, 0, 0] (V0 (Proc.devRef .tc main_arg3)) slices_S6x3072x1024_S1x1024x1024_4_0_0) shapeCasts_S1x1024x1024_S1024x1024) (shapeCast _ (extractStridedSlice S1x1024x1024 ![4, 1024, 0] (V0 (Proc.devRef .tc main_arg3)) slices_S6x3072x1024_S1x1024x1024_4_1024_0) shapeCasts_S1x1024x1024_S1024x1024) (shapeCast _ (extractStridedSlice S1x1024x1024 ![4, 2048, 0] (V0 (Proc.devRef .tc main_arg3)) slices_S6x3072x1024_S1x1024x1024_4_2048_0) shapeCasts_S1x1024x1024_S1024x1024) (shapeCast _ (extractStridedSlice S1x1024x1024 ![4, 0, 0] (V0 (Proc.devRef .tc main_arg4)) slices_S6x1024x1024_S1x1024x1024_4_0_0) shapeCasts_S1x1024x1024_S1024x1024) (shapeCast _ (extractStridedSlice S1x1024 ![4, 0] (V0 (Proc.devRef .tc main_arg5)) slices_S6x1024_S1x1024_4_0) shapeCasts_S1x1024_S1024)
/-- The activations after layer 5. -/
def act6 (V0 : Valuation τ sig (Elt Ideal)) : A3 :=
  layerT (act5 V0) (V0 (Proc.devRef .tc main_arg1)) (shapeCast _ (extractStridedSlice S1x1024x1024 ![5, 0, 0] (V0 (Proc.devRef .tc main_arg3)) slices_S6x3072x1024_S1x1024x1024_5_0_0) shapeCasts_S1x1024x1024_S1024x1024) (shapeCast _ (extractStridedSlice S1x1024x1024 ![5, 1024, 0] (V0 (Proc.devRef .tc main_arg3)) slices_S6x3072x1024_S1x1024x1024_5_1024_0) shapeCasts_S1x1024x1024_S1024x1024) (shapeCast _ (extractStridedSlice S1x1024x1024 ![5, 2048, 0] (V0 (Proc.devRef .tc main_arg3)) slices_S6x3072x1024_S1x1024x1024_5_2048_0) shapeCasts_S1x1024x1024_S1024x1024) (shapeCast _ (extractStridedSlice S1x1024x1024 ![5, 0, 0] (V0 (Proc.devRef .tc main_arg4)) slices_S6x1024x1024_S1x1024x1024_5_0_0) shapeCasts_S1x1024x1024_S1024x1024) (shapeCast _ (extractStridedSlice S1x1024 ![5, 0] (V0 (Proc.devRef .tc main_arg5)) slices_S6x1024_S1x1024_5_0) shapeCasts_S1x1024_S1024)

/-! ## The named intermediates of the run are the stretches of the layers -/

theorem score0_eq (V0 : Valuation τ sig (Elt Ideal)) :
    res_main_v18 V0 = scoresT (act0 V0) (V0 (Proc.devRef .tc main_arg1)) (shapeCast _ (extractStridedSlice S1x1024x1024 ![0, 0, 0] (V0 (Proc.devRef .tc main_arg3)) slices_S6x3072x1024_S1x1024x1024_0_0_0) shapeCasts_S1x1024x1024_S1024x1024) (shapeCast _ (extractStridedSlice S1x1024x1024 ![0, 1024, 0] (V0 (Proc.devRef .tc main_arg3)) slices_S6x3072x1024_S1x1024x1024_0_1024_0) shapeCasts_S1x1024x1024_S1024x1024) := rfl
theorem exp0_eq (V0 : Valuation τ sig (Elt Ideal)) : res_main_v25 V0 = expT (res_main_v18 V0) := rfl
theorem out0_eq (V0 : Valuation τ sig (Elt Ideal)) :
    outT (res_main_v25 V0) (V0 (Proc.devRef .tc main_arg1)) (shapeCast _ (extractStridedSlice S1x1024x1024 ![0, 2048, 0] (V0 (Proc.devRef .tc main_arg3)) slices_S6x3072x1024_S1x1024x1024_0_2048_0) shapeCasts_S1x1024x1024_S1024x1024) (shapeCast _ (extractStridedSlice S1x1024x1024 ![0, 0, 0] (V0 (Proc.devRef .tc main_arg4)) slices_S6x1024x1024_S1x1024x1024_0_0_0) shapeCasts_S1x1024x1024_S1024x1024) (shapeCast _ (extractStridedSlice S1x1024 ![0, 0] (V0 (Proc.devRef .tc main_arg5)) slices_S6x1024_S1x1024_0_0) shapeCasts_S1x1024_S1024) = act1 V0 := by
  rw [exp0_eq, score0_eq]
  rfl
theorem score1_raw (V0 : Valuation τ sig (Elt Ideal)) :
    res_main_v50 V0 = scoresT (outT (res_main_v25 V0) (V0 (Proc.devRef .tc main_arg1)) (shapeCast _ (extractStridedSlice S1x1024x1024 ![0, 2048, 0] (V0 (Proc.devRef .tc main_arg3)) slices_S6x3072x1024_S1x1024x1024_0_2048_0) shapeCasts_S1x1024x1024_S1024x1024) (shapeCast _ (extractStridedSlice S1x1024x1024 ![0, 0, 0] (V0 (Proc.devRef .tc main_arg4)) slices_S6x1024x1024_S1x1024x1024_0_0_0) shapeCasts_S1x1024x1024_S1024x1024) (shapeCast _ (extractStridedSlice S1x1024 ![0, 0] (V0 (Proc.devRef .tc main_arg5)) slices_S6x1024_S1x1024_0_0) shapeCasts_S1x1024_S1024)) (V0 (Proc.devRef .tc main_arg1)) (shapeCast _ (extractStridedSlice S1x1024x1024 ![1, 0, 0] (V0 (Proc.devRef .tc main_arg3)) slices_S6x3072x1024_S1x1024x1024_1_0_0) shapeCasts_S1x1024x1024_S1024x1024) (shapeCast _ (extractStridedSlice S1x1024x1024 ![1, 1024, 0] (V0 (Proc.devRef .tc main_arg3)) slices_S6x3072x1024_S1x1024x1024_1_1024_0) shapeCasts_S1x1024x1024_S1024x1024) := rfl
theorem score1_eq (V0 : Valuation τ sig (Elt Ideal)) :
    res_main_v50 V0 = scoresT (act1 V0) (V0 (Proc.devRef .tc main_arg1)) (shapeCast _ (extractStridedSlice S1x1024x1024 ![1, 0, 0] (V0 (Proc.devRef .tc main_arg3)) slices_S6x3072x1024_S1x1024x1024_1_0_0) shapeCasts_S1x1024x1024_S1024x1024) (shapeCast _ (extractStridedSlice S1x1024x1024 ![1, 1024, 0] (V0 (Proc.devRef .tc main_arg3)) slices_S6x3072x1024_S1x1024x1024_1_1024_0) shapeCasts_S1x1024x1024_S1024x1024) := by
  rw [score1_raw, out0_eq]
theorem exp1_eq (V0 : Valuation τ sig (Elt Ideal)) : res_main_v57 V0 = expT (res_main_v50 V0) := rfl
theorem out1_eq (V0 : Valuation τ sig (Elt Ideal)) :
    outT (res_main_v57 V0) (V0 (Proc.devRef .tc main_arg1)) (shapeCast _ (extractStridedSlice S1x1024x1024 ![1, 2048, 0] (V0 (Proc.devRef .tc main_arg3)) slices_S6x3072x1024_S1x1024x1024_1_2048_0) shapeCasts_S1x1024x1024_S1024x1024) (shapeCast _ (extractStridedSlice S1x1024x1024 ![1, 0, 0] (V0 (Proc.devRef .tc main_arg4)) slices_S6x1024x1024_S1x1024x1024_1_0_0) shapeCasts_S1x1024x1024_S1024x1024) (shapeCast _ (extractStridedSlice S1x1024 ![1, 0] (V0 (Proc.devRef .tc main_arg5)) slices_S6x1024_S1x1024_1_0) shapeCasts_S1x1024_S1024) = act2 V0 := by
  rw [exp1_eq, score1_eq]
  rfl
theorem score2_raw (V0 : Valuation τ sig (Elt Ideal)) :
    res_main_v82 V0 = scoresT (outT (res_main_v57 V0) (V0 (Proc.devRef .tc main_arg1)) (shapeCast _ (extractStridedSlice S1x1024x1024 ![1, 2048, 0] (V0 (Proc.devRef .tc main_arg3)) slices_S6x3072x1024_S1x1024x1024_1_2048_0) shapeCasts_S1x1024x1024_S1024x1024) (shapeCast _ (extractStridedSlice S1x1024x1024 ![1, 0, 0] (V0 (Proc.devRef .tc main_arg4)) slices_S6x1024x1024_S1x1024x1024_1_0_0) shapeCasts_S1x1024x1024_S1024x1024) (shapeCast _ (extractStridedSlice S1x1024 ![1, 0] (V0 (Proc.devRef .tc main_arg5)) slices_S6x1024_S1x1024_1_0) shapeCasts_S1x1024_S1024)) (V0 (Proc.devRef .tc main_arg1)) (shapeCast _ (extractStridedSlice S1x1024x1024 ![2, 0, 0] (V0 (Proc.devRef .tc main_arg3)) slices_S6x3072x1024_S1x1024x1024_2_0_0) shapeCasts_S1x1024x1024_S1024x1024) (shapeCast _ (extractStridedSlice S1x1024x1024 ![2, 1024, 0] (V0 (Proc.devRef .tc main_arg3)) slices_S6x3072x1024_S1x1024x1024_2_1024_0) shapeCasts_S1x1024x1024_S1024x1024) := rfl
theorem score2_eq (V0 : Valuation τ sig (Elt Ideal)) :
    res_main_v82 V0 = scoresT (act2 V0) (V0 (Proc.devRef .tc main_arg1)) (shapeCast _ (extractStridedSlice S1x1024x1024 ![2, 0, 0] (V0 (Proc.devRef .tc main_arg3)) slices_S6x3072x1024_S1x1024x1024_2_0_0) shapeCasts_S1x1024x1024_S1024x1024) (shapeCast _ (extractStridedSlice S1x1024x1024 ![2, 1024, 0] (V0 (Proc.devRef .tc main_arg3)) slices_S6x3072x1024_S1x1024x1024_2_1024_0) shapeCasts_S1x1024x1024_S1024x1024) := by
  rw [score2_raw, out1_eq]
theorem exp2_eq (V0 : Valuation τ sig (Elt Ideal)) : res_main_v89 V0 = expT (res_main_v82 V0) := rfl
theorem out2_eq (V0 : Valuation τ sig (Elt Ideal)) :
    outT (res_main_v89 V0) (V0 (Proc.devRef .tc main_arg1)) (shapeCast _ (extractStridedSlice S1x1024x1024 ![2, 2048, 0] (V0 (Proc.devRef .tc main_arg3)) slices_S6x3072x1024_S1x1024x1024_2_2048_0) shapeCasts_S1x1024x1024_S1024x1024) (shapeCast _ (extractStridedSlice S1x1024x1024 ![2, 0, 0] (V0 (Proc.devRef .tc main_arg4)) slices_S6x1024x1024_S1x1024x1024_2_0_0) shapeCasts_S1x1024x1024_S1024x1024) (shapeCast _ (extractStridedSlice S1x1024 ![2, 0] (V0 (Proc.devRef .tc main_arg5)) slices_S6x1024_S1x1024_2_0) shapeCasts_S1x1024_S1024) = act3 V0 := by
  rw [exp2_eq, score2_eq]
  rfl
theorem score3_raw (V0 : Valuation τ sig (Elt Ideal)) :
    res_main_v114 V0 = scoresT (outT (res_main_v89 V0) (V0 (Proc.devRef .tc main_arg1)) (shapeCast _ (extractStridedSlice S1x1024x1024 ![2, 2048, 0] (V0 (Proc.devRef .tc main_arg3)) slices_S6x3072x1024_S1x1024x1024_2_2048_0) shapeCasts_S1x1024x1024_S1024x1024) (shapeCast _ (extractStridedSlice S1x1024x1024 ![2, 0, 0] (V0 (Proc.devRef .tc main_arg4)) slices_S6x1024x1024_S1x1024x1024_2_0_0) shapeCasts_S1x1024x1024_S1024x1024) (shapeCast _ (extractStridedSlice S1x1024 ![2, 0] (V0 (Proc.devRef .tc main_arg5)) slices_S6x1024_S1x1024_2_0) shapeCasts_S1x1024_S1024)) (V0 (Proc.devRef .tc main_arg1)) (shapeCast _ (extractStridedSlice S1x1024x1024 ![3, 0, 0] (V0 (Proc.devRef .tc main_arg3)) slices_S6x3072x1024_S1x1024x1024_3_0_0) shapeCasts_S1x1024x1024_S1024x1024) (shapeCast _ (extractStridedSlice S1x1024x1024 ![3, 1024, 0] (V0 (Proc.devRef .tc main_arg3)) slices_S6x3072x1024_S1x1024x1024_3_1024_0) shapeCasts_S1x1024x1024_S1024x1024) := rfl
theorem score3_eq (V0 : Valuation τ sig (Elt Ideal)) :
    res_main_v114 V0 = scoresT (act3 V0) (V0 (Proc.devRef .tc main_arg1)) (shapeCast _ (extractStridedSlice S1x1024x1024 ![3, 0, 0] (V0 (Proc.devRef .tc main_arg3)) slices_S6x3072x1024_S1x1024x1024_3_0_0) shapeCasts_S1x1024x1024_S1024x1024) (shapeCast _ (extractStridedSlice S1x1024x1024 ![3, 1024, 0] (V0 (Proc.devRef .tc main_arg3)) slices_S6x3072x1024_S1x1024x1024_3_1024_0) shapeCasts_S1x1024x1024_S1024x1024) := by
  rw [score3_raw, out2_eq]
theorem exp3_eq (V0 : Valuation τ sig (Elt Ideal)) : res_main_v121 V0 = expT (res_main_v114 V0) := rfl
theorem out3_eq (V0 : Valuation τ sig (Elt Ideal)) :
    outT (res_main_v121 V0) (V0 (Proc.devRef .tc main_arg1)) (shapeCast _ (extractStridedSlice S1x1024x1024 ![3, 2048, 0] (V0 (Proc.devRef .tc main_arg3)) slices_S6x3072x1024_S1x1024x1024_3_2048_0) shapeCasts_S1x1024x1024_S1024x1024) (shapeCast _ (extractStridedSlice S1x1024x1024 ![3, 0, 0] (V0 (Proc.devRef .tc main_arg4)) slices_S6x1024x1024_S1x1024x1024_3_0_0) shapeCasts_S1x1024x1024_S1024x1024) (shapeCast _ (extractStridedSlice S1x1024 ![3, 0] (V0 (Proc.devRef .tc main_arg5)) slices_S6x1024_S1x1024_3_0) shapeCasts_S1x1024_S1024) = act4 V0 := by
  rw [exp3_eq, score3_eq]
  rfl
theorem score4_raw (V0 : Valuation τ sig (Elt Ideal)) :
    res_main_v146 V0 = scoresT (outT (res_main_v121 V0) (V0 (Proc.devRef .tc main_arg1)) (shapeCast _ (extractStridedSlice S1x1024x1024 ![3, 2048, 0] (V0 (Proc.devRef .tc main_arg3)) slices_S6x3072x1024_S1x1024x1024_3_2048_0) shapeCasts_S1x1024x1024_S1024x1024) (shapeCast _ (extractStridedSlice S1x1024x1024 ![3, 0, 0] (V0 (Proc.devRef .tc main_arg4)) slices_S6x1024x1024_S1x1024x1024_3_0_0) shapeCasts_S1x1024x1024_S1024x1024) (shapeCast _ (extractStridedSlice S1x1024 ![3, 0] (V0 (Proc.devRef .tc main_arg5)) slices_S6x1024_S1x1024_3_0) shapeCasts_S1x1024_S1024)) (V0 (Proc.devRef .tc main_arg1)) (shapeCast _ (extractStridedSlice S1x1024x1024 ![4, 0, 0] (V0 (Proc.devRef .tc main_arg3)) slices_S6x3072x1024_S1x1024x1024_4_0_0) shapeCasts_S1x1024x1024_S1024x1024) (shapeCast _ (extractStridedSlice S1x1024x1024 ![4, 1024, 0] (V0 (Proc.devRef .tc main_arg3)) slices_S6x3072x1024_S1x1024x1024_4_1024_0) shapeCasts_S1x1024x1024_S1024x1024) := rfl
theorem score4_eq (V0 : Valuation τ sig (Elt Ideal)) :
    res_main_v146 V0 = scoresT (act4 V0) (V0 (Proc.devRef .tc main_arg1)) (shapeCast _ (extractStridedSlice S1x1024x1024 ![4, 0, 0] (V0 (Proc.devRef .tc main_arg3)) slices_S6x3072x1024_S1x1024x1024_4_0_0) shapeCasts_S1x1024x1024_S1024x1024) (shapeCast _ (extractStridedSlice S1x1024x1024 ![4, 1024, 0] (V0 (Proc.devRef .tc main_arg3)) slices_S6x3072x1024_S1x1024x1024_4_1024_0) shapeCasts_S1x1024x1024_S1024x1024) := by
  rw [score4_raw, out3_eq]
theorem exp4_eq (V0 : Valuation τ sig (Elt Ideal)) : res_main_v153 V0 = expT (res_main_v146 V0) := rfl
theorem out4_eq (V0 : Valuation τ sig (Elt Ideal)) :
    outT (res_main_v153 V0) (V0 (Proc.devRef .tc main_arg1)) (shapeCast _ (extractStridedSlice S1x1024x1024 ![4, 2048, 0] (V0 (Proc.devRef .tc main_arg3)) slices_S6x3072x1024_S1x1024x1024_4_2048_0) shapeCasts_S1x1024x1024_S1024x1024) (shapeCast _ (extractStridedSlice S1x1024x1024 ![4, 0, 0] (V0 (Proc.devRef .tc main_arg4)) slices_S6x1024x1024_S1x1024x1024_4_0_0) shapeCasts_S1x1024x1024_S1024x1024) (shapeCast _ (extractStridedSlice S1x1024 ![4, 0] (V0 (Proc.devRef .tc main_arg5)) slices_S6x1024_S1x1024_4_0) shapeCasts_S1x1024_S1024) = act5 V0 := by
  rw [exp4_eq, score4_eq]
  rfl
theorem score5_raw (V0 : Valuation τ sig (Elt Ideal)) :
    res_main_v178 V0 = scoresT (outT (res_main_v153 V0) (V0 (Proc.devRef .tc main_arg1)) (shapeCast _ (extractStridedSlice S1x1024x1024 ![4, 2048, 0] (V0 (Proc.devRef .tc main_arg3)) slices_S6x3072x1024_S1x1024x1024_4_2048_0) shapeCasts_S1x1024x1024_S1024x1024) (shapeCast _ (extractStridedSlice S1x1024x1024 ![4, 0, 0] (V0 (Proc.devRef .tc main_arg4)) slices_S6x1024x1024_S1x1024x1024_4_0_0) shapeCasts_S1x1024x1024_S1024x1024) (shapeCast _ (extractStridedSlice S1x1024 ![4, 0] (V0 (Proc.devRef .tc main_arg5)) slices_S6x1024_S1x1024_4_0) shapeCasts_S1x1024_S1024)) (V0 (Proc.devRef .tc main_arg1)) (shapeCast _ (extractStridedSlice S1x1024x1024 ![5, 0, 0] (V0 (Proc.devRef .tc main_arg3)) slices_S6x3072x1024_S1x1024x1024_5_0_0) shapeCasts_S1x1024x1024_S1024x1024) (shapeCast _ (extractStridedSlice S1x1024x1024 ![5, 1024, 0] (V0 (Proc.devRef .tc main_arg3)) slices_S6x3072x1024_S1x1024x1024_5_1024_0) shapeCasts_S1x1024x1024_S1024x1024) := rfl
theorem score5_eq (V0 : Valuation τ sig (Elt Ideal)) :
    res_main_v178 V0 = scoresT (act5 V0) (V0 (Proc.devRef .tc main_arg1)) (shapeCast _ (extractStridedSlice S1x1024x1024 ![5, 0, 0] (V0 (Proc.devRef .tc main_arg3)) slices_S6x3072x1024_S1x1024x1024_5_0_0) shapeCasts_S1x1024x1024_S1024x1024) (shapeCast _ (extractStridedSlice S1x1024x1024 ![5, 1024, 0] (V0 (Proc.devRef .tc main_arg3)) slices_S6x3072x1024_S1x1024x1024_5_1024_0) shapeCasts_S1x1024x1024_S1024x1024) := by
  rw [score5_raw, out4_eq]
theorem exp5_eq (V0 : Valuation τ sig (Elt Ideal)) : res_main_v185 V0 = expT (res_main_v178 V0) := rfl
theorem out5_eq (V0 : Valuation τ sig (Elt Ideal)) :
    outT (res_main_v185 V0) (V0 (Proc.devRef .tc main_arg1)) (shapeCast _ (extractStridedSlice S1x1024x1024 ![5, 2048, 0] (V0 (Proc.devRef .tc main_arg3)) slices_S6x3072x1024_S1x1024x1024_5_2048_0) shapeCasts_S1x1024x1024_S1024x1024) (shapeCast _ (extractStridedSlice S1x1024x1024 ![5, 0, 0] (V0 (Proc.devRef .tc main_arg4)) slices_S6x1024x1024_S1x1024x1024_5_0_0) shapeCasts_S1x1024x1024_S1024x1024) (shapeCast _ (extractStridedSlice S1x1024 ![5, 0] (V0 (Proc.devRef .tc main_arg5)) slices_S6x1024_S1x1024_5_0) shapeCasts_S1x1024_S1024) = act6 V0 := by
  rw [exp5_eq, score5_eq]
  rfl

/-- The run's result: the vocabulary projection of the activations after the last layer, plus the bias. -/
theorem result_eq_act (V0 : Valuation τ sig (Elt Ideal)) :
    val4 V0 (Proc.devRef .tc main_v202) = addf (Host.dotGeneral (φ₁ := .f32) (φ₂ := .f32) dL none (act6 V0) (V0 (Proc.devRef .tc main_arg6))) (broadcastInDim S8x1024x32000 ![0, 1, 2] bcast_S1x1x32000_S8x1024x32000_0_1_2 (broadcastInDim S1x1x32000 ![2] bcast_S32000_S1x1x32000_2 (V0 (Proc.devRef .tc main_arg7)))) := by
  rw [← out5_eq]
  exact val4_main_v202 V0

/-! ## The activations are the specification's layers -/

theorem act0_spec (V0 : Valuation τ sig (Elt Ideal)) : (fun b s e => act0 V0 (ix3 b s e)) = refX0 V0 := rfl
theorem act1_spec (V0 : Valuation τ sig (Elt Ideal)) :
    (fun b s e => act1 V0 (ix3 b s e)) = Cert.Spec.layer (argT V0) (argW3 V0) (argW4 V0) (argB5 V0) 0 (refX0 V0) := by
  funext b s e
  unfold act1
  rw [layer_apply 0 0 rfl, act0_spec]
  rfl
theorem act2_spec (V0 : Valuation τ sig (Elt Ideal)) :
    (fun b s e => act2 V0 (ix3 b s e)) = Cert.Spec.layer (argT V0) (argW3 V0) (argW4 V0) (argB5 V0) 1 (Cert.Spec.layer (argT V0) (argW3 V0) (argW4 V0) (argB5 V0) 0 (refX0 V0)) := by
  funext b s e
  unfold act2
  rw [layer_apply 1 1 rfl, act1_spec]
  rfl
theorem act3_spec (V0 : Valuation τ sig (Elt Ideal)) :
    (fun b s e => act3 V0 (ix3 b s e)) = Cert.Spec.layer (argT V0) (argW3 V0) (argW4 V0) (argB5 V0) 2 (Cert.Spec.layer (argT V0) (argW3 V0) (argW4 V0) (argB5 V0) 1 (Cert.Spec.layer (argT V0) (argW3 V0) (argW4 V0) (argB5 V0) 0 (refX0 V0))) := by
  funext b s e
  unfold act3
  rw [layer_apply 2 2 rfl, act2_spec]
  rfl
theorem act4_spec (V0 : Valuation τ sig (Elt Ideal)) :
    (fun b s e => act4 V0 (ix3 b s e)) = Cert.Spec.layer (argT V0) (argW3 V0) (argW4 V0) (argB5 V0) 3 (Cert.Spec.layer (argT V0) (argW3 V0) (argW4 V0) (argB5 V0) 2 (Cert.Spec.layer (argT V0) (argW3 V0) (argW4 V0) (argB5 V0) 1 (Cert.Spec.layer (argT V0) (argW3 V0) (argW4 V0) (argB5 V0) 0 (refX0 V0)))) := by
  funext b s e
  unfold act4
  rw [layer_apply 3 3 rfl, act3_spec]
  rfl
theorem act5_spec (V0 : Valuation τ sig (Elt Ideal)) :
    (fun b s e => act5 V0 (ix3 b s e)) = Cert.Spec.layer (argT V0) (argW3 V0) (argW4 V0) (argB5 V0) 4 (Cert.Spec.layer (argT V0) (argW3 V0) (argW4 V0) (argB5 V0) 3 (Cert.Spec.layer (argT V0) (argW3 V0) (argW4 V0) (argB5 V0) 2 (Cert.Spec.layer (argT V0) (argW3 V0) (argW4 V0) (argB5 V0) 1 (Cert.Spec.layer (argT V0) (argW3 V0) (argW4 V0) (argB5 V0) 0 (refX0 V0))))) := by
  funext b s e
  unfold act5
  rw [layer_apply 4 4 rfl, act4_spec]
  rfl
theorem act6_spec (V0 : Valuation τ sig (Elt Ideal)) :
    (fun b s e => act6 V0 (ix3 b s e)) = Cert.Spec.layer (argT V0) (argW3 V0) (argW4 V0) (argB5 V0) 5 (Cert.Spec.layer (argT V0) (argW3 V0) (argW4 V0) (argB5 V0) 4 (Cert.Spec.layer (argT V0) (argW3 V0) (argW4 V0) (argB5 V0) 3 (Cert.Spec.layer (argT V0) (argW3 V0) (argW4 V0) (argB5 V0) 2 (Cert.Spec.layer (argT V0) (argW3 V0) (argW4 V0) (argB5 V0) 1 (Cert.Spec.layer (argT V0) (argW3 V0) (argW4 V0) (argB5 V0) 0 (refX0 V0)))))) := by
  funext b s e
  unfold act6
  rw [layer_apply 5 5 rfl, act5_spec]
  rfl

/-! ## The result -/

/-- The reference's result is the network function of its arguments. -/
theorem result_eq_net (V0 : Valuation τ sig (Elt Ideal)) :
    val4 V0 (Proc.devRef .tc main_v202) = fun i : S8x1024x32000.Idx =>
      Cert.Spec.net (refX0 V0) (argT V0) (argW3 V0) (argW4 V0) (argB5 V0) (argLW V0) (argLB V0) (i 0) (i 1) (i 2) := by
  rw [result_eq_act]
  funext i
  obtain ⟨b, s, v, rfl⟩ : ∃ (b : Fin 8) (s : Fin 1024) (v : Fin 32000), i = ix3 b s v := ⟨i 0, i 1, i 2, eq_ix3 i⟩
  rw [addf_apply, dL_at, bcast_vbias_apply]
  show _ = Cert.Spec.net (refX0 V0) (argT V0) (argW3 V0) (argW4 V0) (argB5 V0) (argLW V0) (argLB V0) b s v
  unfold Cert.Spec.net Cert.Spec.logitRow
  rw [← act6_spec]
  rfl

/-- On every device, from any memory with zero counters: every weakly fair execution of the reference terminates with
    its result the network function of the arguments' launch contents, and the arguments unchanged. -/
theorem run_net (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v202) = (fun i : S8x1024x32000.Idx =>
          Cert.Spec.net (refX0 (launchContents m c)) (argT (launchContents m c)) (argW3 (launchContents m c))
            (argW4 (launchContents m c)) (argB5 (launchContents m c)) (argLW (launchContents m c)) (argLB (launchContents m c))
            (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
      ⟨(h c).1.trans ((val4_main_v202 (launchContents m c)).symm.trans (result_eq_net (launchContents m c))), (h c).2⟩)
    (Value.run (F := Ideal) m ρ)

end Cert.ReferenceIdeal.RefVal

end
-- ==== Proof.EmbedR.lean ====
import proofs.«427532_j66606352826848_3_alg».proof.Proof.RefVal
import proofs.«427532_j66606352826848_3_alg».proof.Proof.Embed

noncomputable section

namespace Cert.ReferenceIdeal.RefVal

open Cert.ReferenceIdeal Cert.ReferenceIdeal.Gen
open Idealize.ShloMosaic Idealize.ShloMosaic.TcCoe Idealize.SL.Sem Idealize.ShloMosaic.StableHlo Idealize.ShloMosaic.ValueIdx

theorem refX0_eq (V0 : Valuation τ sig (Elt Ideal)) (hin : Cert.Embed.InRange (V0 (Proc.devRef .tc main_arg0))) :
    refX0 V0 = Cert.Spec.embX0 (V0 (Proc.devRef .tc main_arg0)) (V0 (Proc.devRef .tc main_arg2)) := by
  funext b s e
  exact Cert.Embed.take_gather bcast_S_S8x1024 bcast_S8x1024_S8x1024x1_0_1
    gather_S32000x1024_S8x1024x1_S8x1024x1024_2_0_n_n_0_2_11024 rfl rfl rfl rfl rfl
    (V0 (Proc.devRef .tc main_arg0)) hin (V0 (Proc.devRef .tc main_arg2)) b s e

end Cert.ReferenceIdeal.RefVal

end
-- ==== Proof.Claims.lean ====
import proofs.«427532_j66606352826848_3_alg».proof.Defs
import proofs.«427532_j66606352826848_3_alg».proof.Proof.BChain
import proofs.«427532_j66606352826848_3_alg».proof.Proof.Chain
import proofs.«427532_j66606352826848_3_alg».proof.Proof.FrameV
import proofs.«427532_j66606352826848_3_alg».proof.Proof.KVal
import proofs.«427532_j66606352826848_3_alg».proof.Proof.EmbedR
import proofs.«427532_j66606352826848_3_alg».proof.Proof.Gen.Kernel
import proofs.«427532_j66606352826848_3_alg».proof.Proof.Gen.KernelIdeal
import proofs.«427532_j66606352826848_3_alg».proof.Proof.Gen.ReferenceIdeal
import proofs.«427532_j66606352826848_3_alg».proof.Proof.Gen.Pre_finite_inputs
import proofs.«427532_j66606352826848_3_alg».proof.Proof.Gen.ReferenceIdeal.Run
import proofs.«427532_j66606352826848_3_alg».proof.Proof.RefVal
import proofs.«427532_j66606352826848_3_alg».proof.Proof.Embed
import proofs.«427532_j66606352826848_3_alg».proof.Proof.SpecEmbed
import proofs.«427532_j66606352826848_3_alg».proof.Proof.Spec

noncomputable section

open Idealize.ShloMosaic Idealize.ShloMosaic.TcCoe Idealize.SL.Sem Idealize.ShloMosaic.StableHlo Idealize.ShloMosaic.ValueIdx

namespace Cert.Proof.Claims

def netOf (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v85) :=
  fun i : Cert.KernelIdeal.S8x1024x32000.Idx =>
    Cert.Spec.net
      (Cert.Spec.embX0 (m ((c.tc : Thread Cert.KernelIdeal.nD Cert.KernelIdeal.τ).loc Cert.KernelIdeal.main_arg0))
        (m ((c.tc : Thread Cert.KernelIdeal.nD Cert.KernelIdeal.τ).loc Cert.KernelIdeal.main_arg2)))
      (fun b j e => m ((c.tc : Thread Cert.KernelIdeal.nD Cert.KernelIdeal.τ).loc Cert.KernelIdeal.main_arg1) (ix3 b j e))
      (fun l r e => m ((c.tc : Thread Cert.KernelIdeal.nD Cert.KernelIdeal.τ).loc Cert.KernelIdeal.main_arg3) (ix3 l r e))
      (fun l g f => m ((c.tc : Thread Cert.KernelIdeal.nD Cert.KernelIdeal.τ).loc Cert.KernelIdeal.main_arg4) (ix3 l g f))
      (fun l g => m ((c.tc : Thread Cert.KernelIdeal.nD Cert.KernelIdeal.τ).loc Cert.KernelIdeal.main_arg5) (ix2 l g))
      (fun v e => m ((c.tc : Thread Cert.KernelIdeal.nD Cert.KernelIdeal.τ).loc Cert.KernelIdeal.main_arg6) (ix2 v e))
      (fun v => m ((c.tc : Thread Cert.KernelIdeal.nD Cert.KernelIdeal.τ).loc Cert.KernelIdeal.main_arg7) (ix1 v))
      (i 0) (i 1) (i 2)

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem ref_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    (fun i : Cert.ReferenceIdeal.S8x1024x32000.Idx =>
      Cert.Spec.net (Cert.ReferenceIdeal.RefVal.refX0 (launchContents m' c)) (Cert.ReferenceIdeal.RefVal.argT (launchContents m' c))
        (Cert.ReferenceIdeal.RefVal.argW3 (launchContents m' c)) (Cert.ReferenceIdeal.RefVal.argW4 (launchContents m' c))
        (Cert.ReferenceIdeal.RefVal.argB5 (launchContents m' c)) (Cert.ReferenceIdeal.RefVal.argLW (launchContents m' c))
        (Cert.ReferenceIdeal.RefVal.argLB (launchContents m' c)) (i 0) (i 1) (i 2)) = netOf m c := by
  have e0 : launchContents m' c (Proc.devRef .tc Cert.ReferenceIdeal.main_arg0) = m ((c.tc : Thread Cert.KernelIdeal.nD Cert.KernelIdeal.τ).loc Cert.KernelIdeal.main_arg0) := a0
  have e1 : launchContents m' c (Proc.devRef .tc Cert.ReferenceIdeal.main_arg1) = m ((c.tc : Thread Cert.KernelIdeal.nD Cert.KernelIdeal.τ).loc Cert.KernelIdeal.main_arg1) := a1
  have e2 : launchContents m' c (Proc.devRef .tc Cert.ReferenceIdeal.main_arg2) = m ((c.tc : Thread Cert.KernelIdeal.nD Cert.KernelIdeal.τ).loc Cert.KernelIdeal.main_arg2) := a2
  have e3 : launchContents m' c (Proc.devRef .tc Cert.ReferenceIdeal.main_arg3) = m ((c.tc : Thread Cert.KernelIdeal.nD Cert.KernelIdeal.τ).loc Cert.KernelIdeal.main_arg3) := a3
  have e4 : launchContents m' c (Proc.devRef .tc Cert.ReferenceIdeal.main_arg4) = m ((c.tc : Thread Cert.KernelIdeal.nD Cert.KernelIdeal.τ).loc Cert.KernelIdeal.main_arg4) := a4
  have e5 : launchContents m' c (Proc.devRef .tc Cert.ReferenceIdeal.main_arg5) = m ((c.tc : Thread Cert.KernelIdeal.nD Cert.KernelIdeal.τ).loc Cert.KernelIdeal.main_arg5) := a5
  have e6 : launchContents m' c (Proc.devRef .tc Cert.ReferenceIdeal.main_arg6) = m ((c.tc : Thread Cert.KernelIdeal.nD Cert.KernelIdeal.τ).loc Cert.KernelIdeal.main_arg6) := a6
  have e7 : launchContents m' c (Proc.devRef .tc Cert.ReferenceIdeal.main_arg7) = m ((c.tc : Thread Cert.KernelIdeal.nD Cert.KernelIdeal.τ).loc Cert.KernelIdeal.main_arg7) := a7
  have hin : Cert.Embed.InRange (launchContents m' c (Proc.devRef .tc Cert.ReferenceIdeal.main_arg0)) := by
    rw [e0]
    exact Cert.Embed.pre_idx _ _ _ _ _ _ _ _ (hpre c)
  rw [Cert.ReferenceIdeal.RefVal.refX0_eq _ hin]
  unfold Cert.ReferenceIdeal.RefVal.argT Cert.ReferenceIdeal.RefVal.argW3 Cert.ReferenceIdeal.RefVal.argW4
    Cert.ReferenceIdeal.RefVal.argB5 Cert.ReferenceIdeal.RefVal.argLW Cert.ReferenceIdeal.RefVal.argLB
  rw [e0, e1, e2, e3, e4, e5, e6, e7]
  rfl

theorem algebraic : Cert.algebraic_KernelIdeal_ReferenceIdeal := by
  intro m ρ m' ρ' hpre hagree
  refine ⟨fun c => netOf m c, ?_, ?_⟩
  · exact (θ_run Cert.KernelIdeal.defs _ _).mono
      (fun r h c => ⟨(h c).1.trans (Cert.KernelIdeal.KVal.kernel_value m c hpre), (h c).2⟩)
      (Cert.KernelIdeal.Gen.run_value (F := Ideal) m ρ)
  · exact (θ_run Cert.ReferenceIdeal.defs _ _).mono
      (fun r h c => ⟨(h c).1.trans (ref_value m m' hpre c (hagree c).1 (hagree c).2.1 (hagree c).2.2.1 (hagree c).2.2.2.1
          (hagree c).2.2.2.2.1 (hagree c).2.2.2.2.2.1 (hagree c).2.2.2.2.2.2.1 (hagree c).2.2.2.2.2.2.2), (h c).2⟩)
      (Cert.ReferenceIdeal.RefVal.run_net m' ρ')

end Cert.Proof.Claims

end
-- ==== Proof.lean ====
import proofs.«427532_j66606352826848_3_alg».proof.Defs
import proofs.«427532_j66606352826848_3_alg».proof.Proof.Claims
import proofs.«427532_j66606352826848_3_alg».proof.Proof.Gen.Kernel
import proofs.«427532_j66606352826848_3_alg».proof.Proof.Gen.KernelIdeal
import proofs.«427532_j66606352826848_3_alg».proof.Proof.Gen.ReferenceIdeal
import proofs.«427532_j66606352826848_3_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
